-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Pre_finite_inputs_ReferenceIdeal.lean ====
abbrev S256x1024 : Shape := ⟨2, ![256, 1024]⟩
abbrev S1024x8192 : Shape := ⟨2, ![1024, 8192]⟩
abbrev S8192x1024 : Shape := ⟨2, ![8192, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_arg5 : FVec F S1024x8192 .f32) (main_arg6 : FVec F S8192x1024 .f32) (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S1024x8192 .f32 := Host.absf main_arg5
  let main_cst_8 : FVec F S_ .f32 := constant S_ .f32 0x7F800000#32
  let main_v25 : FVec F S1024x8192 .f32 := broadcastInDim S1024x8192 ![] bcast_S_S1024x8192 main_cst_8
  let main_v26 : IVec S1024x8192 1 := cmpf .olt main_v24 main_v25
  let main_c_9 : IVec S_ 1 := constantI S_ 1 1#1
  let main_v27 : IVec S_ 1 := (fun x v => Host.reduce IntOp.andi x v reducesTo_S1024x8192_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S256x1024 .f32) (main_arg1 : FVec F S1024x8192 .f32) (main_arg2 : FVec F S8192x1024 .f32) (main_arg3 : FVec F S1024x8192 .f32) (main_arg4 : FVec F S8192x1024 .f32) (main_arg5 : FVec F S1024x8192 .f32) (main_arg6 : FVec F S8192x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_arg4 main_arg5 main_arg6 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S256x1024 : Shape := ⟨2, ![256, 1024]⟩
abbrev S3x256x1024 : Shape := ⟨3, ![3, 256, 1024]⟩
abbrev S3x4x64x1024 : Shape := ⟨4, ![3, 4, 64, 1024]⟩
abbrev S2x1024x2048 : Shape := ⟨3, ![2, 1024, 2048]⟩
abbrev S2x2048x1024 : Shape := ⟨3, ![2, 2048, 1024]⟩
abbrev S7x3 : Shape := ⟨2, ![7, 3]⟩
abbrev S7x4 : Shape := ⟨2, ![7, 4]⟩
abbrev S3x2 : Shape := ⟨2, ![3, 2]⟩
abbrev S1 : Shape := ⟨1, ![1]⟩
abbrev S1x1 : Shape := ⟨2, ![1, 1]⟩
abbrev S_ : Shape := ⟨0, ![]⟩
abbrev S1x1024x2048 : Shape := ⟨3, ![1, 1024, 2048]⟩
abbrev S1x2048x1024 : Shape := ⟨3, ![1, 2048, 1024]⟩
abbrev S1x64x1024 : Shape := ⟨3, ![1, 64, 1024]⟩
abbrev S1x256x1024 : Shape := ⟨3, ![1, 256, 1024]⟩
abbrev S256x2048 : Shape := ⟨2, ![256, 2048]⟩
abbrev S1x1x64x1024 : Shape := ⟨4, ![1, 1, 64, 1024]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S256x1024, .f32⟩
  | .local _ .vmem, ⟨0, _⟩ => ⟨S64x1024, .f32⟩
  | .local _ .vmem, ⟨1, _⟩ => ⟨S3x256x1024, .bf16⟩
  | .local _ .vmem, ⟨2, _⟩ => ⟨S3x4x64x1024, .bf16⟩
  | .local _ .vmem, ⟨3, _⟩ => ⟨S256x1024, .bf16⟩
  | .local _ .vmem, ⟨4, _⟩ => ⟨S2x1024x2048, .f32⟩
  | .local _ .vmem, ⟨5, _⟩ => ⟨S2x2048x1024, .f32⟩
  | .local _ .vmem, ⟨6, _⟩ => ⟨S2x1024x2048, .bf16⟩
  | .local _ .vmem, ⟨7, _⟩ => ⟨S2x2048x1024, .bf16⟩
  | .local _ .vmem, ⟨8, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v20 : BitVec 32 := Scalar.addi v2 c1_i32_19
  let c4_i32_20 : BitVec 32 := 4#32
  let c0_i32_21 : BitVec 32 := 0#32
  let v21 : BitVec 1 := Scalar.cmpi .eq c4_i32_20 c0_i32_21
  let c1_i32_22 : BitVec 32 := 1#32
  let v22 : BitVec 32 := Scalar.select v21 c1_i32_22 c4_i32_20
  let v23 : BitVec 32 := Scalar.remsi v20 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  let c1_i32_27 : BitVec 32 := 1#32
  let v31 : BitVec 32 := Scalar.muli v30 c1_i32_27
  let v32 : BitVec 32 := Scalar.addi c0_i32_28 v31
  v32.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v33 : BitVec 32 := Scalar.addi v2 c2_i32
  let c4_i32_29 : BitVec 32 := 4#32
  let c0_i32_30 : BitVec 32 := 0#32
  let v34 : BitVec 1 := Scalar.cmpi .eq c4_i32_29 c0_i32_30
  let c1_i32_31 : BitVec 32 := 1#32
  let v35 : BitVec 32 := Scalar.select v34 c1_i32_31 c4_i32_29
  let v36 : BitVec 32 := Scalar.remsi v33 v35
  let c0_i32_33 : BitVec 32 := 0#32
  let v38 : BitVec 1 := Scalar.cmpi .slt v36 c0_i32_33
  let c0_i32_34 : BitVec 32 := 0#32
  let v39 : BitVec 1 := Scalar.cmpi .slt v35 c0_i32_34
  let v40 : BitVec 1 := Scalar.xori v38 v39
  let c0_i32_32 : BitVec 32 := 0#32
  let v37 : BitVec 1 := Scalar.cmpi .ne v36 c0_i32_32
  let v41 : BitVec 1 := Scalar.andi v40 v37
  let v42 : BitVec 32 := Scalar.addi v36 v35
  let v43 : BitVec 32 := Scalar.select v41 v42 v36
  let c1_i32_36 : BitVec 32 := 1#32
  let v44 : BitVec 32 := Scalar.muli v43 c1_i32_36
  let v45 : BitVec 32 := Scalar.addi c0_i32_37 v44
  v45.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v46 : BitVec 32 := Scalar.addi v2 c3_i32
  let c4_i32_38 : BitVec 32 := 4#32
  let c0_i32_39 : BitVec 32 := 0#32
  let v47 : BitVec 1 := Scalar.cmpi .eq c4_i32_38 c0_i32_39
  let c1_i32_40 : BitVec 32 := 1#32
  let v48 : BitVec 32 := Scalar.select v47 c1_i32_40 c4_i32_38
  let v49 : BitVec 32 := Scalar.remsi v46 v48
  let c0_i32_42 : BitVec 32 := 0#32
  let v51 : BitVec 1 := Scalar.cmpi .slt v49 c0_i32_42
  let c0_i32_43 : BitVec 32 := 0#32
  let v52 : BitVec 1 := Scalar.cmpi .slt v48 c0_i32_43
  let v53 : BitVec 1 := Scalar.xori v51 v52
  let c0_i32_41 : BitVec 32 := 0#32
  let v50 : BitVec 1 := Scalar.cmpi .ne v49 c0_i32_41
  let v54 : BitVec 1 := Scalar.andi v53 v50
  let v55 : BitVec 32 := Scalar.addi v49 v48
  let v56 : BitVec 32 := Scalar.select v54 v55 v49
  let c1_i32_45 : BitVec 32 := 1#32
  let v57 : BitVec 32 := Scalar.muli v56 c1_i32_45
  let v58 : BitVec 32 := Scalar.addi c0_i32_46 v57
  v58.toNat
def k0_off1 (d0 : Dev nD) : Fin 3 → Nat :=
  let c0_49 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v62 : BitVec 32 := Scalar.muli v2 c64_i32
  let v63 : Index := Scalar.indexCast v62
  let c0_50 : Index := 0#32
  ![0, v63.toNat, 0]
def k0_off2 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_52 : BitVec 32 := 64#32
  let v68 : BitVec 32 := Scalar.muli v2 c64_i32_52
  let c0_i32_69 : BitVec 32 := 0#32
  ![v68.toNat, 0]
def k0_off4 (d0 : Dev nD) : Fin 3 → Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_51 : BitVec 32 := 64#32
  let v67 : BitVec 32 := Scalar.muli v2 c64_i32_51
  let c0_i32_71 : BitVec 32 := 0#32
  ![0, v67.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v69 : BitVec 32 := Scalar.addi v2 c3_i32_53
  let c4_i32_54 : BitVec 32 := 4#32
  let c0_i32_55 : BitVec 32 := 0#32
  let v70 : BitVec 1 := Scalar.cmpi .eq c4_i32_54 c0_i32_55
  let c1_i32_56 : BitVec 32 := 1#32
  let v71 : BitVec 32 := Scalar.select v70 c1_i32_56 c4_i32_54
  let v72 : BitVec 32 := Scalar.remsi v69 v71
  let c0_i32_58 : BitVec 32 := 0#32
  let v74 : BitVec 1 := Scalar.cmpi .slt v72 c0_i32_58
  let c0_i32_59 : BitVec 32 := 0#32
  let v75 : BitVec 1 := Scalar.cmpi .slt v71 c0_i32_59
  let v76 : BitVec 1 := Scalar.xori v74 v75
  let c0_i32_57 : BitVec 32 := 0#32
  let v73 : BitVec 1 := Scalar.cmpi .ne v72 c0_i32_57
  let v77 : BitVec 1 := Scalar.andi v76 v73
  let v78 : BitVec 32 := Scalar.addi v72 v71
  let v79 : BitVec 32 := Scalar.select v77 v78 v72
  let c1_i32_65 : BitVec 32 := 1#32
  let v80 : BitVec 32 := Scalar.muli v79 c1_i32_65
  let v81 : BitVec 32 := Scalar.addi c0_i32_66 v80
  v81.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_75 : BitVec 32 := 1#32
  let v94 : BitVec 32 := Scalar.addi v2 c1_i32_75
  let c4_i32_76 : BitVec 32 := 4#32
  let c0_i32_77 : BitVec 32 := 0#32
  let v95 : BitVec 1 := Scalar.cmpi .eq c4_i32_76 c0_i32_77
  let c1_i32_78 : BitVec 32 := 1#32
  let v96 : BitVec 32 := Scalar.select v95 c1_i32_78 c4_i32_76
  let v97 : BitVec 32 := Scalar.remsi v94 v96
  let c0_i32_80 : BitVec 32 := 0#32
  let v99 : BitVec 1 := Scalar.cmpi .slt v97 c0_i32_80
  let c0_i32_81 : BitVec 32 := 0#32
  let v100 : BitVec 1 := Scalar.cmpi .slt v96 c0_i32_81
  let v101 : BitVec 1 := Scalar.xori v99 v100
  let c0_i32_79 : BitVec 32 := 0#32
  let v98 : BitVec 1 := Scalar.cmpi .ne v97 c0_i32_79
  let v102 : BitVec 1 := Scalar.andi v101 v98
  let v103 : BitVec 32 := Scalar.addi v97 v96
  let v104 : BitVec 32 := Scalar.select v102 v103 v97
  let c1_i32_87 : BitVec 32 := 1#32
  let v105 : BitVec 32 := Scalar.muli v104 c1_i32_87
  let v106 : BitVec 32 := Scalar.addi c0_i32_88 v105
  v106.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_97 : BitVec 32 := 2#32
  let v119 : BitVec 32 := Scalar.addi v2 c2_i32_97
  let c4_i32_98 : BitVec 32 := 4#32
  let c0_i32_99 : BitVec 32 := 0#32
  let v120 : BitVec 1 := Scalar.cmpi .eq c4_i32_98 c0_i32_99
  let c1_i32_100 : BitVec 32 := 1#32
  let v121 : BitVec 32 := Scalar.select v120 c1_i32_100 c4_i32_98
  let v122 : BitVec 32 := Scalar.remsi v119 v121
  let c0_i32_102 : BitVec 32 := 0#32
  let v124 : BitVec 1 := Scalar.cmpi .slt v122 c0_i32_102
  let c0_i32_103 : BitVec 32 := 0#32
  let v125 : BitVec 1 := Scalar.cmpi .slt v121 c0_i32_103
  let v126 : BitVec 1 := Scalar.xori v124 v125
  let c0_i32_101 : BitVec 32 := 0#32
  let v123 : BitVec 1 := Scalar.cmpi .ne v122 c0_i32_101
  let v127 : BitVec 1 := Scalar.andi v126 v123
  let v128 : BitVec 32 := Scalar.addi v122 v121
  let v129 : BitVec 32 := Scalar.select v127 v128 v122
  let c1_i32_109 : BitVec 32 := 1#32
  let v130 : BitVec 32 := Scalar.muli v129 c1_i32_109
  let v131 : BitVec 32 := Scalar.addi c0_i32_110 v130
  v131.toNat
def k0_off5 (d0 : Dev nD) (c1_i32_163 : BitVec 32) : Fin 2 → Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v186 : BitVec 32 := Scalar.addi v2 c1_i32_163
  let c4_i32_164 : BitVec 32 := 4#32
  let c0_i32_165 : BitVec 32 := 0#32
  let v187 : BitVec 1 := Scalar.cmpi .eq c4_i32_164 c0_i32_165
  let c1_i32_166 : BitVec 32 := 1#32
  let v188 : BitVec 32 := Scalar.select v187 c1_i32_166 c4_i32_164
  let v189 : BitVec 32 := Scalar.remsi v186 v188
  let c0_i32_168 : BitVec 32 := 0#32
  let v191 : BitVec 1 := Scalar.cmpi .slt v189 c0_i32_168
  let c0_i32_169 : BitVec 32 := 0#32
  let v192 : BitVec 1 := Scalar.cmpi .slt v188 c0_i32_169
  let v193 : BitVec 1 := Scalar.xori v191 v192
  let c0_i32_167 : BitVec 32 := 0#32
  let v190 : BitVec 1 := Scalar.cmpi .ne v189 c0_i32_167
  let v194 : BitVec 1 := Scalar.andi v193 v190
  let v195 : BitVec 32 := Scalar.addi v189 v188
  let v196 : BitVec 32 := Scalar.select v194 v195 v189
  ![0, v196.toNat]
def k0_off6 (d0 : Dev nD) (c1_i32_155 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_155
  let c4_i32_156 : BitVec 32 := 4#32
  let c0_i32_157 : BitVec 32 := 0#32
  let v175 : BitVec 1 := Scalar.cmpi .eq c4_i32_156 c0_i32_157
  let c1_i32_158 : BitVec 32 := 1#32
  let v176 : BitVec 32 := Scalar.select v175 c1_i32_158 c4_i32_156
  let v177 : BitVec 32 := Scalar.remsi v174 v176
  let c0_i32_160 : BitVec 32 := 0#32
  let v179 : BitVec 1 := Scalar.cmpi .slt v177 c0_i32_160
  let c0_i32_161 : BitVec 32 := 0#32
  let v180 : BitVec 1 := Scalar.cmpi .slt v176 c0_i32_161
  let v181 : BitVec 1 := Scalar.xori v179 v180
  let c0_i32_159 : BitVec 32 := 0#32
  let v178 : BitVec 1 := Scalar.cmpi .ne v177 c0_i32_159
  let v182 : BitVec 1 := Scalar.andi v181 v178
  let v183 : BitVec 32 := Scalar.addi v177 v176
  let v184 : BitVec 32 := Scalar.select v182 v183 v177
  let c64_i32_162 : BitVec 32 := 64#32
  let v185 : BitVec 32 := Scalar.muli v184 c64_i32_162
  let c0_i32_179 : BitVec 32 := 0#32
  ![v185.toNat, 0]
def k0_off7 (d0 : Dev nD) (c1_i32_155 : BitVec 32) : Fin 3 → Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_155
  let c4_i32_156 : BitVec 32 := 4#32
  let c0_i32_157 : BitVec 32 := 0#32
  let v175 : BitVec 1 := Scalar.cmpi .eq c4_i32_156 c0_i32_157
  let c1_i32_158 : BitVec 32 := 1#32
  let v176 : BitVec 32 := Scalar.select v175 c1_i32_158 c4_i32_156
  let v177 : BitVec 32 := Scalar.remsi v174 v176
  let c0_i32_160 : BitVec 32 := 0#32
  let v179 : BitVec 1 := Scalar.cmpi .slt v177 c0_i32_160
  let c0_i32_161 : BitVec 32 := 0#32
  let v180 : BitVec 1 := Scalar.cmpi .slt v176 c0_i32_161
  let v181 : BitVec 1 := Scalar.xori v179 v180
  let c0_i32_159 : BitVec 32 := 0#32
  let v178 : BitVec 1 := Scalar.cmpi .ne v177 c0_i32_159
  let v182 : BitVec 1 := Scalar.andi v181 v178
  let v183 : BitVec 32 := Scalar.addi v177 v176
  let v184 : BitVec 32 := Scalar.select v182 v183 v177
  let c64_i32_162 : BitVec 32 := 64#32
  let v185 : BitVec 32 := Scalar.muli v184 c64_i32_162
  let c0_i32_181 : BitVec 32 := 0#32
  ![0, v185.toNat, 0]
def k0_off8 (d0 : Dev nD) : Fin 2 → Nat :=
  let c1_i32_262 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off9 (d0 : Dev nD) : Fin 4 → Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_267 : BitVec 32 := 0#32
  let c0_i32_268 : BitVec 32 := 0#32
  ![0, v2.toNat, 0, 0]
def k0_dev7 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_254 : BitVec 32 := 1#32
  let v296 : BitVec 32 := Scalar.addi v2 c1_i32_254
  let c4_i32_255 : BitVec 32 := 4#32
  let c0_i32_256 : BitVec 32 := 0#32
  let v297 : BitVec 1 := Scalar.cmpi .eq c4_i32_255 c0_i32_256
  let c1_i32_257 : BitVec 32 := 1#32
  let v298 : BitVec 32 := Scalar.select v297 c1_i32_257 c4_i32_255
  let v299 : BitVec 32 := Scalar.remsi v296 v298
  let c0_i32_259 : BitVec 32 := 0#32
  let v301 : BitVec 1 := Scalar.cmpi .slt v299 c0_i32_259
  let c0_i32_260 : BitVec 32 := 0#32
  let v302 : BitVec 1 := Scalar.cmpi .slt v298 c0_i32_260
  let v303 : BitVec 1 := Scalar.xori v301 v302
  let c0_i32_258 : BitVec 32 := 0#32
  let v300 : BitVec 1 := Scalar.cmpi .ne v299 c0_i32_258
  let v304 : BitVec 1 := Scalar.andi v303 v300
  let v305 : BitVec 32 := Scalar.addi v299 v298
  let v306 : BitVec 32 := Scalar.select v304 v305 v299
  let c1_i32_265 : BitVec 32 := 1#32
  let v307 : BitVec 32 := Scalar.muli v306 c1_i32_265
  let v308 : BitVec 32 := Scalar.addi c0_i32_266 v307
  v308.toNat
def k0_dev8 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_278 : BitVec 32 := 3#32
  let v328 : BitVec 32 := Scalar.addi v2 c3_i32_278
  let c4_i32_279 : BitVec 32 := 4#32
  let c0_i32_280 : BitVec 32 := 0#32
  let v329 : BitVec 1 := Scalar.cmpi .eq c4_i32_279 c0_i32_280
  let c1_i32_281 : BitVec 32 := 1#32
  let v330 : BitVec 32 := Scalar.select v329 c1_i32_281 c4_i32_279
  let v331 : BitVec 32 := Scalar.remsi v328 v330
  let c0_i32_283 : BitVec 32 := 0#32
  let v333 : BitVec 1 := Scalar.cmpi .slt v331 c0_i32_283
  let c0_i32_284 : BitVec 32 := 0#32
  let v334 : BitVec 1 := Scalar.cmpi .slt v330 c0_i32_284
  let v335 : BitVec 1 := Scalar.xori v333 v334
  let c0_i32_282 : BitVec 32 := 0#32
  let v332 : BitVec 1 := Scalar.cmpi .ne v331 c0_i32_282
  let v336 : BitVec 1 := Scalar.andi v335 v332
  let v337 : BitVec 32 := Scalar.addi v331 v330
  let v338 : BitVec 32 := Scalar.select v336 v337 v331
  let c1_i32_289 : BitVec 32 := 1#32
  let v339 : BitVec 32 := Scalar.muli v338 c1_i32_289
  let v340 : BitVec 32 := Scalar.addi c0_i32_290 v339
  v340.toNat
def k0_dev9 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_302 : BitVec 32 := 2#32
  let v360 : BitVec 32 := Scalar.addi v2 c2_i32_302
  let c4_i32_303 : BitVec 32 := 4#32
  let c0_i32_304 : BitVec 32 := 0#32
  let v361 : BitVec 1 := Scalar.cmpi .eq c4_i32_303 c0_i32_304
  let c1_i32_305 : BitVec 32 := 1#32
  let v362 : BitVec 32 := Scalar.select v361 c1_i32_305 c4_i32_303
  let v363 : BitVec 32 := Scalar.remsi v360 v362
  let c0_i32_307 : BitVec 32 := 0#32
  let v365 : BitVec 1 := Scalar.cmpi .slt v363 c0_i32_307
  let c0_i32_308 : BitVec 32 := 0#32
  let v366 : BitVec 1 := Scalar.cmpi .slt v362 c0_i32_308
  let v367 : BitVec 1 := Scalar.xori v365 v366
  let c0_i32_306 : BitVec 32 := 0#32
  let v364 : BitVec 1 := Scalar.cmpi .ne v363 c0_i32_306
  let v368 : BitVec 1 := Scalar.andi v367 v364
  let v369 : BitVec 32 := Scalar.addi v363 v362
  let v370 : BitVec 32 := Scalar.select v368 v369 v363
  let c1_i32_313 : BitVec 32 := 1#32
  let v371 : BitVec 32 := Scalar.muli v370 c1_i32_313
  let v372 : BitVec 32 := Scalar.addi c0_i32_314 v371
  v372.toNat
def k0_off10 (d0 : Dev nD) (c1_i32_382 : BitVec 32) : Fin 2 → Nat :=
  let c1_i32_391 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v435 : BitVec 32 := Scalar.addi v2 c1_i32_382
  let c4_i32_383 : BitVec 32 := 4#32
  let c0_i32_384 : BitVec 32 := 0#32
  let v436 : BitVec 1 := Scalar.cmpi .eq c4_i32_383 c0_i32_384
  let c1_i32_385 : BitVec 32 := 1#32
  let v437 : BitVec 32 := Scalar.select v436 c1_i32_385 c4_i32_383
  let v438 : BitVec 32 := Scalar.remsi v435 v437
  let c0_i32_387 : BitVec 32 := 0#32
  let v440 : BitVec 1 := Scalar.cmpi .slt v438 c0_i32_387
  let c0_i32_388 : BitVec 32 := 0#32
  let v441 : BitVec 1 := Scalar.cmpi .slt v437 c0_i32_388
  let v442 : BitVec 1 := Scalar.xori v440 v441
  let c0_i32_386 : BitVec 32 := 0#32
  let v439 : BitVec 1 := Scalar.cmpi .ne v438 c0_i32_386
  let v443 : BitVec 1 := Scalar.andi v442 v439
  let v444 : BitVec 32 := Scalar.addi v438 v437
  let v445 : BitVec 32 := Scalar.select v443 v444 v438
  ![1, v445.toNat]
def k0_off11 (d0 : Dev nD) (c1_i32_375 : BitVec 32) : Fin 4 → Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v424 : BitVec 32 := Scalar.addi v2 c1_i32_375
  let c4_i32_376 : BitVec 32 := 4#32
  let c0_i32_377 : BitVec 32 := 0#32
  let v425 : BitVec 1 := Scalar.cmpi .eq c4_i32_376 c0_i32_377
  let c1_i32_378 : BitVec 32 := 1#32
  let v426 : BitVec 32 := Scalar.select v425 c1_i32_378 c4_i32_376
  let v427 : BitVec 32 := Scalar.remsi v424 v426
  let c0_i32_380 : BitVec 32 := 0#32
  let v429 : BitVec 1 := Scalar.cmpi .slt v427 c0_i32_380
  let c0_i32_381 : BitVec 32 := 0#32
  let v430 : BitVec 1 := Scalar.cmpi .slt v426 c0_i32_381
  let v431 : BitVec 1 := Scalar.xori v429 v430
  let c0_i32_379 : BitVec 32 := 0#32
  let v428 : BitVec 1 := Scalar.cmpi .ne v427 c0_i32_379
  let v432 : BitVec 1 := Scalar.andi v431 v428
  let v433 : BitVec 32 := Scalar.addi v427 v426
  let v434 : BitVec 32 := Scalar.select v432 v433 v427
  let c0_i32_396 : BitVec 32 := 0#32
  let c0_i32_397 : BitVec 32 := 0#32
  ![0, v434.toNat, 0, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_450 : BitVec 32 := 64#32
  let v514 : BitVec 32 := Scalar.muli v2 c64_i32_450
  let v515 : Index := Scalar.indexCast v514
  let c0_451 : Index := 0#32
  ![v515.toNat, 0]
def k0_off13 (d0 : Dev nD) (c1_i32_452 : BitVec 32) : Fin 4 → Nat :=
  let c0_459 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v518 : BitVec 32 := Scalar.addi v2 c1_i32_452
  let c4_i32_453 : BitVec 32 := 4#32
  let c0_i32_454 : BitVec 32 := 0#32
  let v519 : BitVec 1 := Scalar.cmpi .eq c4_i32_453 c0_i32_454
  let c1_i32_455 : BitVec 32 := 1#32
  let v520 : BitVec 32 := Scalar.select v519 c1_i32_455 c4_i32_453
  let v521 : BitVec 32 := Scalar.remsi v518 v520
  let c0_i32_457 : BitVec 32 := 0#32
  let v523 : BitVec 1 := Scalar.cmpi .slt v521 c0_i32_457
  let c0_i32_458 : BitVec 32 := 0#32
  let v524 : BitVec 1 := Scalar.cmpi .slt v520 c0_i32_458
  let v525 : BitVec 1 := Scalar.xori v523 v524
  let c0_i32_456 : BitVec 32 := 0#32
  let v522 : BitVec 1 := Scalar.cmpi .ne v521 c0_i32_456
  let v526 : BitVec 1 := Scalar.andi v525 v522
  let v527 : BitVec 32 := Scalar.addi v521 v520
  let v528 : BitVec 32 := Scalar.select v526 v527 v521
  let v529 : Index := Scalar.indexCast v528
  let c0_460 : Index := 0#32
  let c0_461 : Index := 0#32
  ![0, v529.toNat, 0, 0]
def k0_off14 (d0 : Dev nD) : Fin 3 → Nat :=
  let c1_i32_483 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_482 : BitVec 32 := 64#32
  let v567 : BitVec 32 := Scalar.muli v2 c64_i32_482
  let v570 : Index := Scalar.indexCast v567
  let c0_i32_485 : BitVec 32 := 0#32
  ![1, v570.toNat, 0]
def k0_off15 (d0 : Dev nD) : Fin 2 → Nat :=
  let c2_i32_498 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off16 (d0 : Dev nD) : Fin 3 → Nat :=
  let c1_i32_496 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_487 : BitVec 32 := 64#32
  let v574 : BitVec 32 := Scalar.muli v2 c64_i32_487
  let c0_i32_507 : BitVec 32 := 0#32
  ![1, v574.toNat, 0]
def k0_dev10 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_489 : BitVec 32 := 3#32
  let v576 : BitVec 32 := Scalar.addi v2 c3_i32_489
  let c4_i32_490 : BitVec 32 := 4#32
  let c0_i32_491 : BitVec 32 := 0#32
  let v577 : BitVec 1 := Scalar.cmpi .eq c4_i32_490 c0_i32_491
  let c1_i32_492 : BitVec 32 := 1#32
  let v578 : BitVec 32 := Scalar.select v577 c1_i32_492 c4_i32_490
  let v579 : BitVec 32 := Scalar.remsi v576 v578
  let c0_i32_494 : BitVec 32 := 0#32
  let v581 : BitVec 1 := Scalar.cmpi .slt v579 c0_i32_494
  let c0_i32_495 : BitVec 32 := 0#32
  let v582 : BitVec 1 := Scalar.cmpi .slt v578 c0_i32_495
  let v583 : BitVec 1 := Scalar.xori v581 v582
  let c0_i32_493 : BitVec 32 := 0#32
  let v580 : BitVec 1 := Scalar.cmpi .ne v579 c0_i32_493
  let v584 : BitVec 1 := Scalar.andi v583 v580
  let v585 : BitVec 32 := Scalar.addi v579 v578
  let v586 : BitVec 32 := Scalar.select v584 v585 v579
  let c1_i32_501 : BitVec 32 := 1#32
  let v587 : BitVec 32 := Scalar.muli v586 c1_i32_501
  let v588 : BitVec 32 := Scalar.addi c0_i32_502 v587
  v588.toNat
def k0_dev11 (d0 : Dev nD) : Nat :=
  let c0_i32_524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_511 : BitVec 32 := 1#32
  let v601 : BitVec 32 := Scalar.addi v2 c1_i32_511
  let c4_i32_512 : BitVec 32 := 4#32
  let c0_i32_513 : BitVec 32 := 0#32
  let v602 : BitVec 1 := Scalar.cmpi .eq c4_i32_512 c0_i32_513
  let c1_i32_514 : BitVec 32 := 1#32
  let v603 : BitVec 32 := Scalar.select v602 c1_i32_514 c4_i32_512
  let v604 : BitVec 32 := Scalar.remsi v601 v603
  let c0_i32_516 : BitVec 32 := 0#32
  let v606 : BitVec 1 := Scalar.cmpi .slt v604 c0_i32_516
  let c0_i32_517 : BitVec 32 := 0#32
  let v607 : BitVec 1 := Scalar.cmpi .slt v603 c0_i32_517
  let v608 : BitVec 1 := Scalar.xori v606 v607
  let c0_i32_515 : BitVec 32 := 0#32
  let v605 : BitVec 1 := Scalar.cmpi .ne v604 c0_i32_515
  let v609 : BitVec 1 := Scalar.andi v608 v605
  let v610 : BitVec 32 := Scalar.addi v604 v603
  let v611 : BitVec 32 := Scalar.select v609 v610 v604
  let c1_i32_523 : BitVec 32 := 1#32
  let v612 : BitVec 32 := Scalar.muli v611 c1_i32_523
  let v613 : BitVec 32 := Scalar.addi c0_i32_524 v612
  v613.toNat
def k0_dev12 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_533 : BitVec 32 := 2#32
  let v626 : BitVec 32 := Scalar.addi v2 c2_i32_533
  let c4_i32_534 : BitVec 32 := 4#32
  let c0_i32_535 : BitVec 32 := 0#32
  let v627 : BitVec 1 := Scalar.cmpi .eq c4_i32_534 c0_i32_535
  let c1_i32_536 : BitVec 32 := 1#32
  let v628 : BitVec 32 := Scalar.select v627 c1_i32_536 c4_i32_534
  let v629 : BitVec 32 := Scalar.remsi v626 v628
  let c0_i32_538 : BitVec 32 := 0#32
  let v631 : BitVec 1 := Scalar.cmpi .slt v629 c0_i32_538
  let c0_i32_539 : BitVec 32 := 0#32
  let v632 : BitVec 1 := Scalar.cmpi .slt v628 c0_i32_539
  let v633 : BitVec 1 := Scalar.xori v631 v632
  let c0_i32_537 : BitVec 32 := 0#32
  let v630 : BitVec 1 := Scalar.cmpi .ne v629 c0_i32_537
  let v634 : BitVec 1 := Scalar.andi v633 v630
  let v635 : BitVec 32 := Scalar.addi v629 v628
  let v636 : BitVec 32 := Scalar.select v634 v635 v629
  let c1_i32_545 : BitVec 32 := 1#32
  let v637 : BitVec 32 := Scalar.muli v636 c1_i32_545
  let v638 : BitVec 32 := Scalar.addi c0_i32_546 v637
  v638.toNat
def k0_off17 (d0 : Dev nD) (c1_i32_567 : BitVec 32) : Fin 2 → Nat :=
  let c2_i32_576 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v665 : BitVec 32 := Scalar.addi v2 c1_i32_567
  let c4_i32_568 : BitVec 32 := 4#32
  let c0_i32_569 : BitVec 32 := 0#32
  let v666 : BitVec 1 := Scalar.cmpi .eq c4_i32_568 c0_i32_569
  let c1_i32_570 : BitVec 32 := 1#32
  let v667 : BitVec 32 := Scalar.select v666 c1_i32_570 c4_i32_568
  let v668 : BitVec 32 := Scalar.remsi v665 v667
  let c0_i32_572 : BitVec 32 := 0#32
  let v670 : BitVec 1 := Scalar.cmpi .slt v668 c0_i32_572
  let c0_i32_573 : BitVec 32 := 0#32
  let v671 : BitVec 1 := Scalar.cmpi .slt v667 c0_i32_573
  let v672 : BitVec 1 := Scalar.xori v670 v671
  let c0_i32_571 : BitVec 32 := 0#32
  let v669 : BitVec 1 := Scalar.cmpi .ne v668 c0_i32_571
  let v673 : BitVec 1 := Scalar.andi v672 v669
  let v674 : BitVec 32 := Scalar.addi v668 v667
  let v675 : BitVec 32 := Scalar.select v673 v674 v668
  ![2, v675.toNat]
def k0_off18 (d0 : Dev nD) (c1_i32_559 : BitVec 32) : Fin 3 → Nat :=
  let c1_i32_574 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v653 : BitVec 32 := Scalar.addi v2 c1_i32_559
  let c4_i32_560 : BitVec 32 := 4#32
  let c0_i32_561 : BitVec 32 := 0#32
  let v654 : BitVec 1 := Scalar.cmpi .eq c4_i32_560 c0_i32_561
  let c1_i32_562 : BitVec 32 := 1#32
  let v655 : BitVec 32 := Scalar.select v654 c1_i32_562 c4_i32_560
  let v656 : BitVec 32 := Scalar.remsi v653 v655
  let c0_i32_564 : BitVec 32 := 0#32
  let v658 : BitVec 1 := Scalar.cmpi .slt v656 c0_i32_564
  let c0_i32_565 : BitVec 32 := 0#32
  let v659 : BitVec 1 := Scalar.cmpi .slt v655 c0_i32_565
  let v660 : BitVec 1 := Scalar.xori v658 v659
  let c0_i32_563 : BitVec 32 := 0#32
  let v657 : BitVec 1 := Scalar.cmpi .ne v656 c0_i32_563
  let v661 : BitVec 1 := Scalar.andi v660 v657
  let v662 : BitVec 32 := Scalar.addi v656 v655
  let v663 : BitVec 32 := Scalar.select v661 v662 v656
  let c64_i32_566 : BitVec 32 := 64#32
  let v664 : BitVec 32 := Scalar.muli v663 c64_i32_566
  let c0_i32_585 : BitVec 32 := 0#32
  ![1, v664.toNat, 0]
def k0_off19 (d0 : Dev nD) : Fin 2 → Nat :=
  let c3_i32_667 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off20 (d0 : Dev nD) : Fin 4 → Nat :=
  let c1_i32_666 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_672 : BitVec 32 := 0#32
  let c0_i32_673 : BitVec 32 := 0#32
  ![1, v2.toNat, 0, 0]
def k0_dev13 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_659 : BitVec 32 := 1#32
  let v775 : BitVec 32 := Scalar.addi v2 c1_i32_659
  let c4_i32_660 : BitVec 32 := 4#32
  let c0_i32_661 : BitVec 32 := 0#32
  let v776 : BitVec 1 := Scalar.cmpi .eq c4_i32_660 c0_i32_661
  let c1_i32_662 : BitVec 32 := 1#32
  let v777 : BitVec 32 := Scalar.select v776 c1_i32_662 c4_i32_660
  let v778 : BitVec 32 := Scalar.remsi v775 v777
  let c0_i32_664 : BitVec 32 := 0#32
  let v780 : BitVec 1 := Scalar.cmpi .slt v778 c0_i32_664
  let c0_i32_665 : BitVec 32 := 0#32
  let v781 : BitVec 1 := Scalar.cmpi .slt v777 c0_i32_665
  let v782 : BitVec 1 := Scalar.xori v780 v781
  let c0_i32_663 : BitVec 32 := 0#32
  let v779 : BitVec 1 := Scalar.cmpi .ne v778 c0_i32_663
  let v783 : BitVec 1 := Scalar.andi v782 v779
  let v784 : BitVec 32 := Scalar.addi v778 v777
  let v785 : BitVec 32 := Scalar.select v783 v784 v778
  let c1_i32_670 : BitVec 32 := 1#32
  let v786 : BitVec 32 := Scalar.muli v785 c1_i32_670
  let v787 : BitVec 32 := Scalar.addi c0_i32_671 v786
  v787.toNat
def k0_dev14 (d0 : Dev nD) : Nat :=
  let c0_i32_695 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_683 : BitVec 32 := 3#32
  let v807 : BitVec 32 := Scalar.addi v2 c3_i32_683
  let c4_i32_684 : BitVec 32 := 4#32
  let c0_i32_685 : BitVec 32 := 0#32
  let v808 : BitVec 1 := Scalar.cmpi .eq c4_i32_684 c0_i32_685
  let c1_i32_686 : BitVec 32 := 1#32
  let v809 : BitVec 32 := Scalar.select v808 c1_i32_686 c4_i32_684
  let v810 : BitVec 32 := Scalar.remsi v807 v809
  let c0_i32_688 : BitVec 32 := 0#32
  let v812 : BitVec 1 := Scalar.cmpi .slt v810 c0_i32_688
  let c0_i32_689 : BitVec 32 := 0#32
  let v813 : BitVec 1 := Scalar.cmpi .slt v809 c0_i32_689
  let v814 : BitVec 1 := Scalar.xori v812 v813
  let c0_i32_687 : BitVec 32 := 0#32
  let v811 : BitVec 1 := Scalar.cmpi .ne v810 c0_i32_687
  let v815 : BitVec 1 := Scalar.andi v814 v811
  let v816 : BitVec 32 := Scalar.addi v810 v809
  let v817 : BitVec 32 := Scalar.select v815 v816 v810
  let c1_i32_694 : BitVec 32 := 1#32
  let v818 : BitVec 32 := Scalar.muli v817 c1_i32_694
  let v819 : BitVec 32 := Scalar.addi c0_i32_695 v818
  v819.toNat
def k0_dev15 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_707 : BitVec 32 := 2#32
  let v839 : BitVec 32 := Scalar.addi v2 c2_i32_707
  let c4_i32_708 : BitVec 32 := 4#32
  let c0_i32_709 : BitVec 32 := 0#32
  let v840 : BitVec 1 := Scalar.cmpi .eq c4_i32_708 c0_i32_709
  let c1_i32_710 : BitVec 32 := 1#32
  let v841 : BitVec 32 := Scalar.select v840 c1_i32_710 c4_i32_708
  let v842 : BitVec 32 := Scalar.remsi v839 v841
  let c0_i32_712 : BitVec 32 := 0#32
  let v844 : BitVec 1 := Scalar.cmpi .slt v842 c0_i32_712
  let c0_i32_713 : BitVec 32 := 0#32
  let v845 : BitVec 1 := Scalar.cmpi .slt v841 c0_i32_713
  let v846 : BitVec 1 := Scalar.xori v844 v845
  let c0_i32_711 : BitVec 32 := 0#32
  let v843 : BitVec 1 := Scalar.cmpi .ne v842 c0_i32_711
  let v847 : BitVec 1 := Scalar.andi v846 v843
  let v848 : BitVec 32 := Scalar.addi v842 v841
  let v849 : BitVec 32 := Scalar.select v847 v848 v842
  let c1_i32_718 : BitVec 32 := 1#32
  let v850 : BitVec 32 := Scalar.muli v849 c1_i32_718
  let v851 : BitVec 32 := Scalar.addi c0_i32_719 v850
  v851.toNat
def k0_off21 (d0 : Dev nD) (c1_i32_812 : BitVec 32) : Fin 2 → Nat :=
  let c3_i32_821 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v929 : BitVec 32 := Scalar.addi v2 c1_i32_812
  let c4_i32_813 : BitVec 32 := 4#32
  let c0_i32_814 : BitVec 32 := 0#32
  let v930 : BitVec 1 := Scalar.cmpi .eq c4_i32_813 c0_i32_814
  let c1_i32_815 : BitVec 32 := 1#32
  let v931 : BitVec 32 := Scalar.select v930 c1_i32_815 c4_i32_813
  let v932 : BitVec 32 := Scalar.remsi v929 v931
  let c0_i32_817 : BitVec 32 := 0#32
  let v934 : BitVec 1 := Scalar.cmpi .slt v932 c0_i32_817
  let c0_i32_818 : BitVec 32 := 0#32
  let v935 : BitVec 1 := Scalar.cmpi .slt v931 c0_i32_818
  let v936 : BitVec 1 := Scalar.xori v934 v935
  let c0_i32_816 : BitVec 32 := 0#32
  let v933 : BitVec 1 := Scalar.cmpi .ne v932 c0_i32_816
  let v937 : BitVec 1 := Scalar.andi v936 v933
  let v938 : BitVec 32 := Scalar.addi v932 v931
  let v939 : BitVec 32 := Scalar.select v937 v938 v932
  ![3, v939.toNat]
def k0_off22 (d0 : Dev nD) (c1_i32_805 : BitVec 32) : Fin 4 → Nat :=
  let c1_i32_820 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v918 : BitVec 32 := Scalar.addi v2 c1_i32_805
  let c4_i32_806 : BitVec 32 := 4#32
  let c0_i32_807 : BitVec 32 := 0#32
  let v919 : BitVec 1 := Scalar.cmpi .eq c4_i32_806 c0_i32_807
  let c1_i32_808 : BitVec 32 := 1#32
  let v920 : BitVec 32 := Scalar.select v919 c1_i32_808 c4_i32_806
  let v921 : BitVec 32 := Scalar.remsi v918 v920
  let c0_i32_810 : BitVec 32 := 0#32
  let v923 : BitVec 1 := Scalar.cmpi .slt v921 c0_i32_810
  let c0_i32_811 : BitVec 32 := 0#32
  let v924 : BitVec 1 := Scalar.cmpi .slt v920 c0_i32_811
  let v925 : BitVec 1 := Scalar.xori v923 v924
  let c0_i32_809 : BitVec 32 := 0#32
  let v922 : BitVec 1 := Scalar.cmpi .ne v921 c0_i32_809
  let v926 : BitVec 1 := Scalar.andi v925 v922
  let v927 : BitVec 32 := Scalar.addi v921 v920
  let v928 : BitVec 32 := Scalar.select v926 v927 v921
  let c0_i32_826 : BitVec 32 := 0#32
  let c0_i32_827 : BitVec 32 := 0#32
  ![1, v928.toNat, 0, 0]
def k0_off23 (d0 : Dev nD) (c1_i32_882 : BitVec 32) : Fin 4 → Nat :=
  let c1_889 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : BitVec 32 := Scalar.addi v2 c1_i32_882
  let c4_i32_883 : BitVec 32 := 4#32
  let c0_i32_884 : BitVec 32 := 0#32
  let v1013 : BitVec 1 := Scalar.cmpi .eq c4_i32_883 c0_i32_884
  let c1_i32_885 : BitVec 32 := 1#32
  let v1014 : BitVec 32 := Scalar.select v1013 c1_i32_885 c4_i32_883
  let v1015 : BitVec 32 := Scalar.remsi v1012 v1014
  let c0_i32_887 : BitVec 32 := 0#32
  let v1017 : BitVec 1 := Scalar.cmpi .slt v1015 c0_i32_887
  let c0_i32_888 : BitVec 32 := 0#32
  let v1018 : BitVec 1 := Scalar.cmpi .slt v1014 c0_i32_888
  let v1019 : BitVec 1 := Scalar.xori v1017 v1018
  let c0_i32_886 : BitVec 32 := 0#32
  let v1016 : BitVec 1 := Scalar.cmpi .ne v1015 c0_i32_886
  let v1020 : BitVec 1 := Scalar.andi v1019 v1016
  let v1021 : BitVec 32 := Scalar.addi v1015 v1014
  let v1022 : BitVec 32 := Scalar.select v1020 v1021 v1015
  let v1023 : Index := Scalar.indexCast v1022
  let c0_890 : Index := 0#32
  let c0_891 : Index := 0#32
  ![1, v1023.toNat, 0, 0]
def k0_off24 (d0 : Dev nD) : Fin 3 → Nat :=
  let c2_i32_913 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_912 : BitVec 32 := 64#32
  let v1061 : BitVec 32 := Scalar.muli v2 c64_i32_912
  let v1064 : Index := Scalar.indexCast v1061
  let c0_i32_915 : BitVec 32 := 0#32
  ![2, v1064.toNat, 0]
def k0_off25 (d0 : Dev nD) : Fin 2 → Nat :=
  let c4_i32_928 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![4, v2.toNat]
def k0_off26 (d0 : Dev nD) : Fin 3 → Nat :=
  let c2_i32_926 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_917 : BitVec 32 := 64#32
  let v1068 : BitVec 32 := Scalar.muli v2 c64_i32_917
  let c0_i32_937 : BitVec 32 := 0#32
  ![2, v1068.toNat, 0]
def k0_dev16 (d0 : Dev nD) : Nat :=
  let c0_i32_932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_919 : BitVec 32 := 3#32
  let v1070 : BitVec 32 := Scalar.addi v2 c3_i32_919
  let c4_i32_920 : BitVec 32 := 4#32
  let c0_i32_921 : BitVec 32 := 0#32
  let v1071 : BitVec 1 := Scalar.cmpi .eq c4_i32_920 c0_i32_921
  let c1_i32_922 : BitVec 32 := 1#32
  let v1072 : BitVec 32 := Scalar.select v1071 c1_i32_922 c4_i32_920
  let v1073 : BitVec 32 := Scalar.remsi v1070 v1072
  let c0_i32_924 : BitVec 32 := 0#32
  let v1075 : BitVec 1 := Scalar.cmpi .slt v1073 c0_i32_924
  let c0_i32_925 : BitVec 32 := 0#32
  let v1076 : BitVec 1 := Scalar.cmpi .slt v1072 c0_i32_925
  let v1077 : BitVec 1 := Scalar.xori v1075 v1076
  let c0_i32_923 : BitVec 32 := 0#32
  let v1074 : BitVec 1 := Scalar.cmpi .ne v1073 c0_i32_923
  let v1078 : BitVec 1 := Scalar.andi v1077 v1074
  let v1079 : BitVec 32 := Scalar.addi v1073 v1072
  let v1080 : BitVec 32 := Scalar.select v1078 v1079 v1073
  let c1_i32_931 : BitVec 32 := 1#32
  let v1081 : BitVec 32 := Scalar.muli v1080 c1_i32_931
  let v1082 : BitVec 32 := Scalar.addi c0_i32_932 v1081
  v1082.toNat
def k0_dev17 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_941 : BitVec 32 := 1#32
  let v1095 : BitVec 32 := Scalar.addi v2 c1_i32_941
  let c4_i32_942 : BitVec 32 := 4#32
  let c0_i32_943 : BitVec 32 := 0#32
  let v1096 : BitVec 1 := Scalar.cmpi .eq c4_i32_942 c0_i32_943
  let c1_i32_944 : BitVec 32 := 1#32
  let v1097 : BitVec 32 := Scalar.select v1096 c1_i32_944 c4_i32_942
  let v1098 : BitVec 32 := Scalar.remsi v1095 v1097
  let c0_i32_946 : BitVec 32 := 0#32
  let v1100 : BitVec 1 := Scalar.cmpi .slt v1098 c0_i32_946
  let c0_i32_947 : BitVec 32 := 0#32
  let v1101 : BitVec 1 := Scalar.cmpi .slt v1097 c0_i32_947
  let v1102 : BitVec 1 := Scalar.xori v1100 v1101
  let c0_i32_945 : BitVec 32 := 0#32
  let v1099 : BitVec 1 := Scalar.cmpi .ne v1098 c0_i32_945
  let v1103 : BitVec 1 := Scalar.andi v1102 v1099
  let v1104 : BitVec 32 := Scalar.addi v1098 v1097
  let v1105 : BitVec 32 := Scalar.select v1103 v1104 v1098
  let c1_i32_953 : BitVec 32 := 1#32
  let v1106 : BitVec 32 := Scalar.muli v1105 c1_i32_953
  let v1107 : BitVec 32 := Scalar.addi c0_i32_954 v1106
  v1107.toNat
def k0_dev18 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_963 : BitVec 32 := 2#32
  let v1120 : BitVec 32 := Scalar.addi v2 c2_i32_963
  let c4_i32_964 : BitVec 32 := 4#32
  let c0_i32_965 : BitVec 32 := 0#32
  let v1121 : BitVec 1 := Scalar.cmpi .eq c4_i32_964 c0_i32_965
  let c1_i32_966 : BitVec 32 := 1#32
  let v1122 : BitVec 32 := Scalar.select v1121 c1_i32_966 c4_i32_964
  let v1123 : BitVec 32 := Scalar.remsi v1120 v1122
  let c0_i32_968 : BitVec 32 := 0#32
  let v1125 : BitVec 1 := Scalar.cmpi .slt v1123 c0_i32_968
  let c0_i32_969 : BitVec 32 := 0#32
  let v1126 : BitVec 1 := Scalar.cmpi .slt v1122 c0_i32_969
  let v1127 : BitVec 1 := Scalar.xori v1125 v1126
  let c0_i32_967 : BitVec 32 := 0#32
  let v1124 : BitVec 1 := Scalar.cmpi .ne v1123 c0_i32_967
  let v1128 : BitVec 1 := Scalar.andi v1127 v1124
  let v1129 : BitVec 32 := Scalar.addi v1123 v1122
  let v1130 : BitVec 32 := Scalar.select v1128 v1129 v1123
  let c1_i32_975 : BitVec 32 := 1#32
  let v1131 : BitVec 32 := Scalar.muli v1130 c1_i32_975
  let v1132 : BitVec 32 := Scalar.addi c0_i32_976 v1131
  v1132.toNat
def k0_off27 (d0 : Dev nD) (c1_i32_997 : BitVec 32) : Fin 2 → Nat :=
  let c4_i32_1006 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1159 : BitVec 32 := Scalar.addi v2 c1_i32_997
  let c4_i32_998 : BitVec 32 := 4#32
  let c0_i32_999 : BitVec 32 := 0#32
  let v1160 : BitVec 1 := Scalar.cmpi .eq c4_i32_998 c0_i32_999
  let c1_i32_1000 : BitVec 32 := 1#32
  let v1161 : BitVec 32 := Scalar.select v1160 c1_i32_1000 c4_i32_998
  let v1162 : BitVec 32 := Scalar.remsi v1159 v1161
  let c0_i32_1002 : BitVec 32 := 0#32
  let v1164 : BitVec 1 := Scalar.cmpi .slt v1162 c0_i32_1002
  let c0_i32_1003 : BitVec 32 := 0#32
  let v1165 : BitVec 1 := Scalar.cmpi .slt v1161 c0_i32_1003
  let v1166 : BitVec 1 := Scalar.xori v1164 v1165
  let c0_i32_1001 : BitVec 32 := 0#32
  let v1163 : BitVec 1 := Scalar.cmpi .ne v1162 c0_i32_1001
  let v1167 : BitVec 1 := Scalar.andi v1166 v1163
  let v1168 : BitVec 32 := Scalar.addi v1162 v1161
  let v1169 : BitVec 32 := Scalar.select v1167 v1168 v1162
  ![4, v1169.toNat]
def k0_off28 (d0 : Dev nD) (c1_i32_989 : BitVec 32) : Fin 3 → Nat :=
  let c2_i32_1004 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1147 : BitVec 32 := Scalar.addi v2 c1_i32_989
  let c4_i32_990 : BitVec 32 := 4#32
  let c0_i32_991 : BitVec 32 := 0#32
  let v1148 : BitVec 1 := Scalar.cmpi .eq c4_i32_990 c0_i32_991
  let c1_i32_992 : BitVec 32 := 1#32
  let v1149 : BitVec 32 := Scalar.select v1148 c1_i32_992 c4_i32_990
  let v1150 : BitVec 32 := Scalar.remsi v1147 v1149
  let c0_i32_994 : BitVec 32 := 0#32
  let v1152 : BitVec 1 := Scalar.cmpi .slt v1150 c0_i32_994
  let c0_i32_995 : BitVec 32 := 0#32
  let v1153 : BitVec 1 := Scalar.cmpi .slt v1149 c0_i32_995
  let v1154 : BitVec 1 := Scalar.xori v1152 v1153
  let c0_i32_993 : BitVec 32 := 0#32
  let v1151 : BitVec 1 := Scalar.cmpi .ne v1150 c0_i32_993
  let v1155 : BitVec 1 := Scalar.andi v1154 v1151
  let v1156 : BitVec 32 := Scalar.addi v1150 v1149
  let v1157 : BitVec 32 := Scalar.select v1155 v1156 v1150
  let c64_i32_996 : BitVec 32 := 64#32
  let v1158 : BitVec 32 := Scalar.muli v1157 c64_i32_996
  let c0_i32_1015 : BitVec 32 := 0#32
  ![2, v1158.toNat, 0]
def k0_off29 (d0 : Dev nD) : Fin 2 → Nat :=
  let c5_i32 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![5, v2.toNat]
def k0_off30 (d0 : Dev nD) : Fin 4 → Nat :=
  let c2_i32_1095 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1100 : BitVec 32 := 0#32
  let c0_i32_1101 : BitVec 32 := 0#32
  ![2, v2.toNat, 0, 0]
def k0_dev19 (d0 : Dev nD) : Nat :=
  let c0_i32_1099 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1088 : BitVec 32 := 1#32
  let v1269 : BitVec 32 := Scalar.addi v2 c1_i32_1088
  let c4_i32_1089 : BitVec 32 := 4#32
  let c0_i32_1090 : BitVec 32 := 0#32
  let v1270 : BitVec 1 := Scalar.cmpi .eq c4_i32_1089 c0_i32_1090
  let c1_i32_1091 : BitVec 32 := 1#32
  let v1271 : BitVec 32 := Scalar.select v1270 c1_i32_1091 c4_i32_1089
  let v1272 : BitVec 32 := Scalar.remsi v1269 v1271
  let c0_i32_1093 : BitVec 32 := 0#32
  let v1274 : BitVec 1 := Scalar.cmpi .slt v1272 c0_i32_1093
  let c0_i32_1094 : BitVec 32 := 0#32
  let v1275 : BitVec 1 := Scalar.cmpi .slt v1271 c0_i32_1094
  let v1276 : BitVec 1 := Scalar.xori v1274 v1275
  let c0_i32_1092 : BitVec 32 := 0#32
  let v1273 : BitVec 1 := Scalar.cmpi .ne v1272 c0_i32_1092
  let v1277 : BitVec 1 := Scalar.andi v1276 v1273
  let v1278 : BitVec 32 := Scalar.addi v1272 v1271
  let v1279 : BitVec 32 := Scalar.select v1277 v1278 v1272
  let c1_i32_1098 : BitVec 32 := 1#32
  let v1280 : BitVec 32 := Scalar.muli v1279 c1_i32_1098
  let v1281 : BitVec 32 := Scalar.addi c0_i32_1099 v1280
  v1281.toNat
def k0_dev20 (d0 : Dev nD) : Nat :=
  let c0_i32_1123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1111 : BitVec 32 := 3#32
  let v1301 : BitVec 32 := Scalar.addi v2 c3_i32_1111
  let c4_i32_1112 : BitVec 32 := 4#32
  let c0_i32_1113 : BitVec 32 := 0#32
  let v1302 : BitVec 1 := Scalar.cmpi .eq c4_i32_1112 c0_i32_1113
  let c1_i32_1114 : BitVec 32 := 1#32
  let v1303 : BitVec 32 := Scalar.select v1302 c1_i32_1114 c4_i32_1112
  let v1304 : BitVec 32 := Scalar.remsi v1301 v1303
  let c0_i32_1116 : BitVec 32 := 0#32
  let v1306 : BitVec 1 := Scalar.cmpi .slt v1304 c0_i32_1116
  let c0_i32_1117 : BitVec 32 := 0#32
  let v1307 : BitVec 1 := Scalar.cmpi .slt v1303 c0_i32_1117
  let v1308 : BitVec 1 := Scalar.xori v1306 v1307
  let c0_i32_1115 : BitVec 32 := 0#32
  let v1305 : BitVec 1 := Scalar.cmpi .ne v1304 c0_i32_1115
  let v1309 : BitVec 1 := Scalar.andi v1308 v1305
  let v1310 : BitVec 32 := Scalar.addi v1304 v1303
  let v1311 : BitVec 32 := Scalar.select v1309 v1310 v1304
  let c1_i32_1122 : BitVec 32 := 1#32
  let v1312 : BitVec 32 := Scalar.muli v1311 c1_i32_1122
  let v1313 : BitVec 32 := Scalar.addi c0_i32_1123 v1312
  v1313.toNat
def k0_dev21 (d0 : Dev nD) : Nat :=
  let c0_i32_1147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1135 : BitVec 32 := 2#32
  let v1333 : BitVec 32 := Scalar.addi v2 c2_i32_1135
  let c4_i32_1136 : BitVec 32 := 4#32
  let c0_i32_1137 : BitVec 32 := 0#32
  let v1334 : BitVec 1 := Scalar.cmpi .eq c4_i32_1136 c0_i32_1137
  let c1_i32_1138 : BitVec 32 := 1#32
  let v1335 : BitVec 32 := Scalar.select v1334 c1_i32_1138 c4_i32_1136
  let v1336 : BitVec 32 := Scalar.remsi v1333 v1335
  let c0_i32_1140 : BitVec 32 := 0#32
  let v1338 : BitVec 1 := Scalar.cmpi .slt v1336 c0_i32_1140
  let c0_i32_1141 : BitVec 32 := 0#32
  let v1339 : BitVec 1 := Scalar.cmpi .slt v1335 c0_i32_1141
  let v1340 : BitVec 1 := Scalar.xori v1338 v1339
  let c0_i32_1139 : BitVec 32 := 0#32
  let v1337 : BitVec 1 := Scalar.cmpi .ne v1336 c0_i32_1139
  let v1341 : BitVec 1 := Scalar.andi v1340 v1337
  let v1342 : BitVec 32 := Scalar.addi v1336 v1335
  let v1343 : BitVec 32 := Scalar.select v1341 v1342 v1336
  let c1_i32_1146 : BitVec 32 := 1#32
  let v1344 : BitVec 32 := Scalar.muli v1343 c1_i32_1146
  let v1345 : BitVec 32 := Scalar.addi c0_i32_1147 v1344
  v1345.toNat
def k0_off31 (d0 : Dev nD) (c1_i32_1218 : BitVec 32) : Fin 2 → Nat :=
  let c5_i32_1227 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1403 : BitVec 32 := Scalar.addi v2 c1_i32_1218
  let c4_i32_1219 : BitVec 32 := 4#32
  let c0_i32_1220 : BitVec 32 := 0#32
  let v1404 : BitVec 1 := Scalar.cmpi .eq c4_i32_1219 c0_i32_1220
  let c1_i32_1221 : BitVec 32 := 1#32
  let v1405 : BitVec 32 := Scalar.select v1404 c1_i32_1221 c4_i32_1219
  let v1406 : BitVec 32 := Scalar.remsi v1403 v1405
  let c0_i32_1223 : BitVec 32 := 0#32
  let v1408 : BitVec 1 := Scalar.cmpi .slt v1406 c0_i32_1223
  let c0_i32_1224 : BitVec 32 := 0#32
  let v1409 : BitVec 1 := Scalar.cmpi .slt v1405 c0_i32_1224
  let v1410 : BitVec 1 := Scalar.xori v1408 v1409
  let c0_i32_1222 : BitVec 32 := 0#32
  let v1407 : BitVec 1 := Scalar.cmpi .ne v1406 c0_i32_1222
  let v1411 : BitVec 1 := Scalar.andi v1410 v1407
  let v1412 : BitVec 32 := Scalar.addi v1406 v1405
  let v1413 : BitVec 32 := Scalar.select v1411 v1412 v1406
  ![5, v1413.toNat]
def k0_off32 (d0 : Dev nD) (c1_i32_1211 : BitVec 32) : Fin 4 → Nat :=
  let c2_i32_1226 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1392 : BitVec 32 := Scalar.addi v2 c1_i32_1211
  let c4_i32_1212 : BitVec 32 := 4#32
  let c0_i32_1213 : BitVec 32 := 0#32
  let v1393 : BitVec 1 := Scalar.cmpi .eq c4_i32_1212 c0_i32_1213
  let c1_i32_1214 : BitVec 32 := 1#32
  let v1394 : BitVec 32 := Scalar.select v1393 c1_i32_1214 c4_i32_1212
  let v1395 : BitVec 32 := Scalar.remsi v1392 v1394
  let c0_i32_1216 : BitVec 32 := 0#32
  let v1397 : BitVec 1 := Scalar.cmpi .slt v1395 c0_i32_1216
  let c0_i32_1217 : BitVec 32 := 0#32
  let v1398 : BitVec 1 := Scalar.cmpi .slt v1394 c0_i32_1217
  let v1399 : BitVec 1 := Scalar.xori v1397 v1398
  let c0_i32_1215 : BitVec 32 := 0#32
  let v1396 : BitVec 1 := Scalar.cmpi .ne v1395 c0_i32_1215
  let v1400 : BitVec 1 := Scalar.andi v1399 v1396
  let v1401 : BitVec 32 := Scalar.addi v1395 v1394
  let v1402 : BitVec 32 := Scalar.select v1400 v1401 v1395
  let c0_i32_1232 : BitVec 32 := 0#32
  let c0_i32_1233 : BitVec 32 := 0#32
  ![2, v1402.toNat, 0, 0]
def k0_off33 (d0 : Dev nD) (c1_i32_1288 : BitVec 32) : Fin 4 → Nat :=
  let c2_1295 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1486 : BitVec 32 := Scalar.addi v2 c1_i32_1288
  let c4_i32_1289 : BitVec 32 := 4#32
  let c0_i32_1290 : BitVec 32 := 0#32
  let v1487 : BitVec 1 := Scalar.cmpi .eq c4_i32_1289 c0_i32_1290
  let c1_i32_1291 : BitVec 32 := 1#32
  let v1488 : BitVec 32 := Scalar.select v1487 c1_i32_1291 c4_i32_1289
  let v1489 : BitVec 32 := Scalar.remsi v1486 v1488
  let c0_i32_1293 : BitVec 32 := 0#32
  let v1491 : BitVec 1 := Scalar.cmpi .slt v1489 c0_i32_1293
  let c0_i32_1294 : BitVec 32 := 0#32
  let v1492 : BitVec 1 := Scalar.cmpi .slt v1488 c0_i32_1294
  let v1493 : BitVec 1 := Scalar.xori v1491 v1492
  let c0_i32_1292 : BitVec 32 := 0#32
  let v1490 : BitVec 1 := Scalar.cmpi .ne v1489 c0_i32_1292
  let v1494 : BitVec 1 := Scalar.andi v1493 v1490
  let v1495 : BitVec 32 := Scalar.addi v1489 v1488
  let v1496 : BitVec 32 := Scalar.select v1494 v1495 v1489
  let v1497 : Index := Scalar.indexCast v1496
  let c0_1296 : Index := 0#32
  let c0_1297 : Index := 0#32
  ![2, v1497.toNat, 0, 0]
def k0_off34 (d0 : Dev nD) : Fin 2 → Nat :=
  let c6_i32 : BitVec 32 := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![6, v2.toNat]
def k0_dev22 (d0 : Dev nD) : Nat :=
  let c0_i32_1334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1324 : BitVec 32 := 3#32
  let v1542 : BitVec 32 := Scalar.addi v2 c3_i32_1324
  let c4_i32_1325 : BitVec 32 := 4#32
  let c0_i32_1326 : BitVec 32 := 0#32
  let v1543 : BitVec 1 := Scalar.cmpi .eq c4_i32_1325 c0_i32_1326
  let c1_i32_1327 : BitVec 32 := 1#32
  let v1544 : BitVec 32 := Scalar.select v1543 c1_i32_1327 c4_i32_1325
  let v1545 : BitVec 32 := Scalar.remsi v1542 v1544
  let c0_i32_1329 : BitVec 32 := 0#32
  let v1547 : BitVec 1 := Scalar.cmpi .slt v1545 c0_i32_1329
  let c0_i32_1330 : BitVec 32 := 0#32
  let v1548 : BitVec 1 := Scalar.cmpi .slt v1544 c0_i32_1330
  let v1549 : BitVec 1 := Scalar.xori v1547 v1548
  let c0_i32_1328 : BitVec 32 := 0#32
  let v1546 : BitVec 1 := Scalar.cmpi .ne v1545 c0_i32_1328
  let v1550 : BitVec 1 := Scalar.andi v1549 v1546
  let v1551 : BitVec 32 := Scalar.addi v1545 v1544
  let v1552 : BitVec 32 := Scalar.select v1550 v1551 v1545
  let c1_i32_1333 : BitVec 32 := 1#32
  let v1553 : BitVec 32 := Scalar.muli v1552 c1_i32_1333
  let v1554 : BitVec 32 := Scalar.addi c0_i32_1334 v1553
  v1554.toNat
def k0_dev23 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1337 : BitVec 32 := 1#32
  let v1561 : BitVec 32 := Scalar.addi v2 c1_i32_1337
  let c4_i32_1338 : BitVec 32 := 4#32
  let c0_i32_1339 : BitVec 32 := 0#32
  let v1562 : BitVec 1 := Scalar.cmpi .eq c4_i32_1338 c0_i32_1339
  let c1_i32_1340 : BitVec 32 := 1#32
  let v1563 : BitVec 32 := Scalar.select v1562 c1_i32_1340 c4_i32_1338
  let v1564 : BitVec 32 := Scalar.remsi v1561 v1563
  let c0_i32_1342 : BitVec 32 := 0#32
  let v1566 : BitVec 1 := Scalar.cmpi .slt v1564 c0_i32_1342
  let c0_i32_1343 : BitVec 32 := 0#32
  let v1567 : BitVec 1 := Scalar.cmpi .slt v1563 c0_i32_1343
  let v1568 : BitVec 1 := Scalar.xori v1566 v1567
  let c0_i32_1341 : BitVec 32 := 0#32
  let v1565 : BitVec 1 := Scalar.cmpi .ne v1564 c0_i32_1341
  let v1569 : BitVec 1 := Scalar.andi v1568 v1565
  let v1570 : BitVec 32 := Scalar.addi v1564 v1563
  let v1571 : BitVec 32 := Scalar.select v1569 v1570 v1564
  let c1_i32_1347 : BitVec 32 := 1#32
  let v1572 : BitVec 32 := Scalar.muli v1571 c1_i32_1347
  let v1573 : BitVec 32 := Scalar.addi c0_i32_1348 v1572
  v1573.toNat
def k0_dev24 (d0 : Dev nD) : Nat :=
  let c0_i32_1362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1351 : BitVec 32 := 2#32
  let v1580 : BitVec 32 := Scalar.addi v2 c2_i32_1351
  let c4_i32_1352 : BitVec 32 := 4#32
  let c0_i32_1353 : BitVec 32 := 0#32
  let v1581 : BitVec 1 := Scalar.cmpi .eq c4_i32_1352 c0_i32_1353
  let c1_i32_1354 : BitVec 32 := 1#32
  let v1582 : BitVec 32 := Scalar.select v1581 c1_i32_1354 c4_i32_1352
  let v1583 : BitVec 32 := Scalar.remsi v1580 v1582
  let c0_i32_1356 : BitVec 32 := 0#32
  let v1585 : BitVec 1 := Scalar.cmpi .slt v1583 c0_i32_1356
  let c0_i32_1357 : BitVec 32 := 0#32
  let v1586 : BitVec 1 := Scalar.cmpi .slt v1582 c0_i32_1357
  let v1587 : BitVec 1 := Scalar.xori v1585 v1586
  let c0_i32_1355 : BitVec 32 := 0#32
  let v1584 : BitVec 1 := Scalar.cmpi .ne v1583 c0_i32_1355
  let v1588 : BitVec 1 := Scalar.andi v1587 v1584
  let v1589 : BitVec 32 := Scalar.addi v1583 v1582
  let v1590 : BitVec 32 := Scalar.select v1588 v1589 v1583
  let c1_i32_1361 : BitVec 32 := 1#32
  let v1591 : BitVec 32 := Scalar.muli v1590 c1_i32_1361
  let v1592 : BitVec 32 := Scalar.addi c0_i32_1362 v1591
  v1592.toNat
def k0_off35 (d0 : Dev nD) (c1_i32_1372 : BitVec 32) : Fin 2 → Nat :=
  let c6_i32_1379 : BitVec 32 := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1610 : BitVec 32 := Scalar.addi v2 c1_i32_1372
  let c4_i32_1373 : BitVec 32 := 4#32
  let c0_i32_1374 : BitVec 32 := 0#32
  let v1611 : BitVec 1 := Scalar.cmpi .eq c4_i32_1373 c0_i32_1374
  let c1_i32_1375 : BitVec 32 := 1#32
  let v1612 : BitVec 32 := Scalar.select v1611 c1_i32_1375 c4_i32_1373
  let v1613 : BitVec 32 := Scalar.remsi v1610 v1612
  let c0_i32_1377 : BitVec 32 := 0#32
  let v1615 : BitVec 1 := Scalar.cmpi .slt v1613 c0_i32_1377
  let c0_i32_1378 : BitVec 32 := 0#32
  let v1616 : BitVec 1 := Scalar.cmpi .slt v1612 c0_i32_1378
  let v1617 : BitVec 1 := Scalar.xori v1615 v1616
  let c0_i32_1376 : BitVec 32 := 0#32
  let v1614 : BitVec 1 := Scalar.cmpi .ne v1613 c0_i32_1376
  let v1618 : BitVec 1 := Scalar.andi v1617 v1614
  let v1619 : BitVec 32 := Scalar.addi v1613 v1612
  let v1620 : BitVec 32 := Scalar.select v1618 v1619 v1613
  ![6, v1620.toNat]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S3x2_S1x1_0_0 : ∀ a, (![0, 0] : Fin 2 → Nat) a + S1x1.size a ≤ S3x2.size a
  squeezes_S1x1_S_ : S1x1.Squeezes S_
  inb_S2x1024x2048_S1x1024x2048_0_0_0 : ∀ a, (![0, 0, 0] : Fin 3 → Nat) a + S1x1024x2048.size a ≤ S2x1024x2048.size a
  squeezes_S1x1024x2048_S1024x2048 : S1x1024x2048.Squeezes S1024x2048
  inb_S3x2_S1x1_0_1 : ∀ a, (![0, 1] : Fin 2 → Nat) a + S1x1.size a ≤ S3x2.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S3x2_S1x1_1_0 : ∀ a, (![1, 0] : Fin 2 → Nat) a + S1x1.size a ≤ S3x2.size a
  inb_S2x1024x2048_S1x1024x2048_1_0_0 : ∀ a, (![1, 0, 0] : Fin 3 → Nat) a + S1x1024x2048.size a ≤ S2x1024x2048.size a
  inb_S3x2_S1x1_1_1 : ∀ a, (![1, 1] : Fin 2 → Nat) a + S1x1.size a ≤ S3x2.size a
  inb_S2x2048x1024_S1x2048x1024_1_0_0 : ∀ a, (![1, 0, 0] : Fin 3 → Nat) a + S1x2048x1024.size a ≤ S2x2048x1024.size a
  hamt_1 : (1#32 : BitVec 32).msb = false
  hamt_3 : (3#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  h_S1x64x1024 : 0 < S1x64x1024.numel
  shapeCasts_S1x64x1024_S64x1024 : S1x64x1024.ShapeCasts S64x1024
  shapeCasts_S64x1024_S1x64x1024 : S64x1024.ShapeCasts S1x64x1024
  inb_S7x3_S1x1_0_2 : ∀ a, (![0, 2] : Fin 2 → Nat) a + S1x1.size a ≤ S7x3.size a
  inb_S3x256x1024_S1x256x1024_0_0_0 : ∀ a, (![0, 0, 0] : Fin 3 → Nat) a + S1x256x1024.size a ≤ S3x256x1024.size a
  squeezes_S1x256x1024_S256x1024 : S1x256x1024.Squeezes S256x1024
  squeezes_S1x64x1024_S64x1024 : S1x64x1024.Squeezes S64x1024
  inb_S7x3_S1x1_0_0 : ∀ a, (![0, 0] : Fin 2 → Nat) a + S1x1.size a ≤ S7x3.size a
  inb_S7x3_S1x1_0_1 : ∀ a, (![0, 1] : Fin 2 → Nat) a + S1x1.size a ≤ S7x3.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  packedbf16_S2x1024x2048_S1x1024x2048_0_0_0 : (Rect.unit (s := S2x1024x2048) ![0, 0, 0] S1x1024x2048.size inb_S2x1024x2048_S1x1024x2048_0_0_0).PackedRows (EltTy.packing .bf16)
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  packedbf16_S2x2048x1024_S1x2048x1024_0_0_0 : (Rect.unit (s := S2x2048x1024) ![0, 0, 0] S1x2048x1024.size inb_S2x2048x1024_S1x2048x1024_0_0_0).PackedRows (EltTy.packing .bf16)
  inb_S3x2_S1x1_2_0 : ∀ a, (![2, 0] : Fin 2 → Nat) a + S1x1.size a ≤ S3x2.size a
  inb_S3x2_S1x1_2_1 : ∀ a, (![2, 1] : Fin 2 → Nat) a + S1x1.size a ≤ S3x2.size a
  h_S1x256x1024 : 0 < S1x256x1024.numel
  shapeCasts_S1x256x1024_S256x1024 : S1x256x1024.ShapeCasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S7x3_S1x1_1_0 : ∀ a, (![1, 0] : Fin 2 → Nat) a + S1x1.size a ≤ S7x3.size a
  squeezes_S1x1x64x1024_S64x1024 : S1x1x64x1024.Squeezes S64x1024
  inb_S7x3_S1x1_1_2 : ∀ a, (![1, 2] : Fin 2 → Nat) a + S1x1.size a ≤ S7x3.size a
  inb_S7x3_S1x1_1_1 : ∀ a, (![1, 1] : Fin 2 → Nat) a + S1x1.size a ≤ S7x3.size a
  packedbf16_S2x1024x2048_S1x1024x2048_1_0_0 : (Rect.unit (s := S2x1024x2048) ![1, 0, 0] S1x1024x2048.size inb_S2x1024x2048_S1x1024x2048_1_0_0).PackedRows (EltTy.packing .bf16)
  packedbf16_S2x2048x1024_S1x2048x1024_1_0_0 : (Rect.unit (s := S2x2048x1024) ![1, 0, 0] S1x2048x1024.size inb_S2x2048x1024_S1x2048x1024_1_0_0).PackedRows (EltTy.packing .bf16)
  h_S1x1x64x1024 : 0 < S1x1x64x1024.numel
  shapeCasts_S1x1x64x1024_S64x1024 : S1x1x64x1024.ShapeCasts S64x1024
  inb_S3x256x1024_S1x256x1024_1_0_0 : ∀ a, (![1, 0, 0] : Fin 3 → Nat) a + S1x256x1024.size a ≤ S3x256x1024.size a
  inb_S7x3_S1x1_2_2 : ∀ a, (![2, 2] : Fin 2 → Nat) a + S1x1.size a ≤ S7x3.size a
  inb_S7x3_S1x1_2_0 : ∀ a, (![2, 0] : Fin 2 → Nat) a + S1x1.size a ≤ S7x3.size a
  inb_S7x3_S1x1_2_1 : ∀ a, (![2, 1] : Fin 2 → Nat) a + S1x1.size a ≤ S7x3.size a
  inb_S7x3_S1x1_3_0 : ∀ a, (![3, 0] : Fin 2 → Nat) a + S1x1.size a ≤ S7x3.size a
  inb_S7x3_S1x1_3_2 : ∀ a, (![3, 2] : Fin 2 → Nat) a + S1x1.size a ≤ S7x3.size a
  inb_S7x3_S1x1_3_1 : ∀ a, (![3, 1] : Fin 2 → Nat) a + S1x1.size a ≤ S7x3.size a
  inb_S3x256x1024_S1x256x1024_2_0_0 : ∀ a, (![2, 0, 0] : Fin 3 → Nat) a + S1x256x1024.size a ≤ S3x256x1024.size a
  inb_S7x3_S1x1_4_2 : ∀ a, (![4, 2] : Fin 2 → Nat) a + S1x1.size a ≤ S7x3.size a
  inb_S7x3_S1x1_4_0 : ∀ a, (![4, 0] : Fin 2 → Nat) a + S1x1.size a ≤ S7x3.size a
  inb_S7x3_S1x1_4_1 : ∀ a, (![4, 1] : Fin 2 → Nat) a + S1x1.size a ≤ S7x3.size a
  inb_S7x3_S1x1_5_0 : ∀ a, (![5, 0] : Fin 2 → Nat) a + S1x1.size a ≤ S7x3.size a
  inb_S7x3_S1x1_5_2 : ∀ a, (![5, 2] : Fin 2 → Nat) a + S1x1.size a ≤ S7x3.size a
  inb_S7x3_S1x1_5_1 : ∀ a, (![5, 1] : Fin 2 → Nat) a + S1x1.size a ≤ S7x3.size a
  inb_S1_S1_0 : ∀ a, (![0] : Fin 1 → Nat) a + S1.size a ≤ S1.size a
  squeezes_S1_S_ : S1.Squeezes S_
  inb_S7x3_S1x1_6_2 : ∀ a, (![6, 2] : Fin 2 → Nat) a + S1x1.size a ≤ S7x3.size a
  inb_S7x3_S1x1_6_0 : ∀ a, (![6, 0] : Fin 2 → Nat) a + S1x1.size a ≤ S7x3.size a
  inb_S7x3_S1x1_6_1 : ∀ a, (![6, 1] : Fin 2 → Nat) a + S1x1.size a ≤ S7x3.size a
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hcc0_scratch8 : 1 + S7x3.numel ≤ 57
  hcc0_scratch9 : 22 + S7x4.numel ≤ 57
  hcc0_scratch10 : 50 + S3x2.numel ≤ 57
  hcc0_scratch11 : 56 + S1.numel ≤ 57
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x64x1024.size a ≤ S3x256x1024.size a
  k0_off1_packedbf16 : ∀ d0 : Dev nD, (Rect.unit (s := S3x256x1024) (k0_off1 d0) S1x64x1024.size (k0_off1_inb d0)).PackedRows (EltTy.packing .bf16)
  k0_off2_inb : ∀ d0 : Dev nD, ∀ a, (k0_off2 d0) a + S1x1.size a ≤ S7x4.size a
  k0_off3_inb : ∀ d0 : Dev nD, ∀ a, (k0_off3 d0) a + S64x1024.size a ≤ S256x1024.size a
  k0_off4_inb : ∀ d0 : Dev nD, ∀ a, (k0_off4 d0) a + S1x64x1024.size a ≤ S3x256x1024.size a
  k0_off4_wordsbf16 : ∀ d0 : Dev nD, (Rect.unit (s := S3x256x1024) (k0_off4 d0) S1x64x1024.size (k0_off4_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off5_inb : ∀ d0 : Dev nD, ∀ (r : Fin 3), ∀ a, (k0_off5 d0 (BitVec.ofNat 32 (1 + r.val))) a + S1x1.size a ≤ S7x4.size a
  k0_off6_inb : ∀ d0 : Dev nD, ∀ (r : Fin 3), ∀ a, (k0_off6 d0 (BitVec.ofNat 32 (1 + r.val))) a + S64x1024.size a ≤ S256x1024.size a
  k0_off7_inb : ∀ d0 : Dev nD, ∀ (r : Fin 3), ∀ a, (k0_off7 d0 (BitVec.ofNat 32 (1 + r.val))) a + S1x64x1024.size a ≤ S3x256x1024.size a
  k0_off7_wordsbf16 : ∀ d0 : Dev nD, ∀ (r : Fin 3), (Rect.unit (s := S3x256x1024) (k0_off7 d0 (BitVec.ofNat 32 (1 + r.val))) S1x64x1024.size (k0_off7_inb d0 r)).WholeWords (EltTy.packing .bf16)
  k0_off8_inb : ∀ d0 : Dev nD, ∀ a, (k0_off8 d0) a + S1x1.size a ≤ S7x4.size a
  k0_off9_inb : ∀ d0 : Dev nD, ∀ a, (k0_off9 d0) a + S1x1x64x1024.size a ≤ S3x4x64x1024.size a
  k0_off6_wordsbf16 : ∀ d0 : Dev nD, ∀ (r : Fin 3), (Rect.unit (s := S256x1024) (k0_off6 d0 (BitVec.ofNat 32 (1 + r.val))) S64x1024.size (k0_off6_inb d0 r)).WholeWords (EltTy.packing .bf16)
  k0_off9_wordsbf16 : ∀ d0 : Dev nD, (Rect.unit (s := S3x4x64x1024) (k0_off9 d0) S1x1x64x1024.size (k0_off9_inb d0)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off10_inb : ∀ d0 : Dev nD, ∀ (r : Fin 3), ∀ a, (k0_off10 d0 (BitVec.ofNat 32 (1 + r.val))) a + S1x1.size a ≤ S7x4.size a
  k0_off11_inb : ∀ d0 : Dev nD, ∀ (r : Fin 3), ∀ a, (k0_off11 d0 (BitVec.ofNat 32 (1 + r.val))) a + S1x1x64x1024.size a ≤ S3x4x64x1024.size a
  k0_off11_wordsbf16 : ∀ d0 : Dev nD, ∀ (r : Fin 3), (Rect.unit (s := S3x4x64x1024) (k0_off11 d0 (BitVec.ofNat 32 (1 + r.val))) S1x1x64x1024.size (k0_off11_inb d0 r)).WholeWords (EltTy.packing .bf16)
  k0_off12_inb : ∀ d0 : Dev nD, ∀ a, (k0_off12 d0) a + S64x1024.size a ≤ S256x1024.size a
  k0_off13_inb : ∀ d0 : Dev nD, ∀ (r : Fin 3), ∀ a, (k0_off13 d0 (BitVec.ofNat 32 (1 + r.val))) a + S1x1x64x1024.size a ≤ S3x4x64x1024.size a
  k0_off14_inb : ∀ d0 : Dev nD, ∀ a, (k0_off14 d0) a + S1x64x1024.size a ≤ S3x256x1024.size a
  k0_off14_packedbf16 : ∀ d0 : Dev nD, (Rect.unit (s := S3x256x1024) (k0_off14 d0) S1x64x1024.size (k0_off14_inb d0)).PackedRows (EltTy.packing .bf16)
  k0_off15_inb : ∀ d0 : Dev nD, ∀ a, (k0_off15 d0) a + S1x1.size a ≤ S7x4.size a
  k0_off16_inb : ∀ d0 : Dev nD, ∀ a, (k0_off16 d0) a + S1x64x1024.size a ≤ S3x256x1024.size a
  k0_off16_wordsbf16 : ∀ d0 : Dev nD, (Rect.unit (s := S3x256x1024) (k0_off16 d0) S1x64x1024.size (k0_off16_inb d0)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off17_inb : ∀ d0 : Dev nD, ∀ (r : Fin 3), ∀ a, (k0_off17 d0 (BitVec.ofNat 32 (1 + r.val))) a + S1x1.size a ≤ S7x4.size a
  k0_off18_inb : ∀ d0 : Dev nD, ∀ (r : Fin 3), ∀ a, (k0_off18 d0 (BitVec.ofNat 32 (1 + r.val))) a + S1x64x1024.size a ≤ S3x256x1024.size a
  k0_off18_wordsbf16 : ∀ d0 : Dev nD, ∀ (r : Fin 3), (Rect.unit (s := S3x256x1024) (k0_off18 d0 (BitVec.ofNat 32 (1 + r.val))) S1x64x1024.size (k0_off18_inb d0 r)).WholeWords (EltTy.packing .bf16)
  k0_off19_inb : ∀ d0 : Dev nD, ∀ a, (k0_off19 d0) a + S1x1.size a ≤ S7x4.size a
  k0_off20_inb : ∀ d0 : Dev nD, ∀ a, (k0_off20 d0) a + S1x1x64x1024.size a ≤ S3x4x64x1024.size a
  k0_off20_wordsbf16 : ∀ d0 : Dev nD, (Rect.unit (s := S3x4x64x1024) (k0_off20 d0) S1x1x64x1024.size (k0_off20_inb d0)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off21_inb : ∀ d0 : Dev nD, ∀ (r : Fin 3), ∀ a, (k0_off21 d0 (BitVec.ofNat 32 (1 + r.val))) a + S1x1.size a ≤ S7x4.size a
  k0_off22_inb : ∀ d0 : Dev nD, ∀ (r : Fin 3), ∀ a, (k0_off22 d0 (BitVec.ofNat 32 (1 + r.val))) a + S1x1x64x1024.size a ≤ S3x4x64x1024.size a
  k0_off22_wordsbf16 : ∀ d0 : Dev nD, ∀ (r : Fin 3), (Rect.unit (s := S3x4x64x1024) (k0_off22 d0 (BitVec.ofNat 32 (1 + r.val))) S1x1x64x1024.size (k0_off22_inb d0 r)).WholeWords (EltTy.packing .bf16)
  k0_off23_inb : ∀ d0 : Dev nD, ∀ (r : Fin 3), ∀ a, (k0_off23 d0 (BitVec.ofNat 32 (1 + r.val))) a + S1x1x64x1024.size a ≤ S3x4x64x1024.size a
  k0_off24_inb : ∀ d0 : Dev nD, ∀ a, (k0_off24 d0) a + S1x64x1024.size a ≤ S3x256x1024.size a
  k0_off24_packedbf16 : ∀ d0 : Dev nD, (Rect.unit (s := S3x256x1024) (k0_off24 d0) S1x64x1024.size (k0_off24_inb d0)).PackedRows (EltTy.packing .bf16)
  k0_off25_inb : ∀ d0 : Dev nD, ∀ a, (k0_off25 d0) a + S1x1.size a ≤ S7x4.size a
  k0_off26_inb : ∀ d0 : Dev nD, ∀ a, (k0_off26 d0) a + S1x64x1024.size a ≤ S3x256x1024.size a
  k0_off26_wordsbf16 : ∀ d0 : Dev nD, (Rect.unit (s := S3x256x1024) (k0_off26 d0) S1x64x1024.size (k0_off26_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off27_inb : ∀ d0 : Dev nD, ∀ (r : Fin 3), ∀ a, (k0_off27 d0 (BitVec.ofNat 32 (1 + r.val))) a + S1x1.size a ≤ S7x4.size a
  k0_off28_inb : ∀ d0 : Dev nD, ∀ (r : Fin 3), ∀ a, (k0_off28 d0 (BitVec.ofNat 32 (1 + r.val))) a + S1x64x1024.size a ≤ S3x256x1024.size a
  k0_off28_wordsbf16 : ∀ d0 : Dev nD, ∀ (r : Fin 3), (Rect.unit (s := S3x256x1024) (k0_off28 d0 (BitVec.ofNat 32 (1 + r.val))) S1x64x1024.size (k0_off28_inb d0 r)).WholeWords (EltTy.packing .bf16)
  k0_off29_inb : ∀ d0 : Dev nD, ∀ a, (k0_off29 d0) a + S1x1.size a ≤ S7x4.size a
  k0_off30_inb : ∀ d0 : Dev nD, ∀ a, (k0_off30 d0) a + S1x1x64x1024.size a ≤ S3x4x64x1024.size a
  k0_off30_wordsbf16 : ∀ d0 : Dev nD, (Rect.unit (s := S3x4x64x1024) (k0_off30 d0) S1x1x64x1024.size (k0_off30_inb d0)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off31_inb : ∀ d0 : Dev nD, ∀ (r : Fin 3), ∀ a, (k0_off31 d0 (BitVec.ofNat 32 (1 + r.val))) a + S1x1.size a ≤ S7x4.size a
  k0_off32_inb : ∀ d0 : Dev nD, ∀ (r : Fin 3), ∀ a, (k0_off32 d0 (BitVec.ofNat 32 (1 + r.val))) a + S1x1x64x1024.size a ≤ S3x4x64x1024.size a
  k0_off32_wordsbf16 : ∀ d0 : Dev nD, ∀ (r : Fin 3), (Rect.unit (s := S3x4x64x1024) (k0_off32 d0 (BitVec.ofNat 32 (1 + r.val))) S1x1x64x1024.size (k0_off32_inb d0 r)).WholeWords (EltTy.packing .bf16)
  k0_off33_inb : ∀ d0 : Dev nD, ∀ (r : Fin 3), ∀ a, (k0_off33 d0 (BitVec.ofNat 32 (1 + r.val))) a + S1x1x64x1024.size a ≤ S3x4x64x1024.size a
  k0_off34_inb : ∀ d0 : Dev nD, ∀ a, (k0_off34 d0) a + S1x1.size a ≤ S7x4.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off35_inb : ∀ d0 : Dev nD, ∀ (r : Fin 3), ∀ a, (k0_off35 d0 (BitVec.ofNat 32 (1 + r.val))) a + S1x1.size a ≤ S7x4.size a
  hstage0_0 : ∀ j, (stage0_0 j).IsWhole

variable [Facts₀]

abbrev cc0_scratch8 : DmaSems sig S7x3 := SemArray.consecutive 1 S7x3 hcc0_scratch8
abbrev cc0_scratch9 : DmaSems sig S7x4 := SemArray.consecutive 22 S7x4 hcc0_scratch9
abbrev cc0_scratch10 : DmaSems sig S3x2 := SemArray.consecutive 50 S3x2 hcc0_scratch10
abbrev cc0_scratch11 : DmaSems sig S1 := SemArray.consecutive 56 S1 hcc0_scratch11
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x8192 : Shape := ⟨2, ![1024, 8192]⟩
abbrev S8192x1024 : Shape := ⟨2, ![8192, 1024]⟩
abbrev S256x8192 : Shape := ⟨2, ![256, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x8192, .f32⟩
  | .hbm, ⟨6, _⟩ => ⟨S8192x1024, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x1024, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x1024, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S256x8192 : S_.BroadcastsInDim S256x8192 (![] : Fin 0 → Fin S256x8192.rank)
  dot_S256x1024_S1024x8192_S256x8192_1_0_0_1_n_n_wf : DotDims.WF S256x1024 S1024x8192 S256x8192 [1] [0] [0] [1] [] []
  dot_S256x8192_S8192x1024_S256x1024_1_0_0_1_n_n_wf : DotDims.WF S256x8192 S8192x1024 S256x1024 [1] [0] [0] [1] [] []

variable [Facts₀]

def dot_S256x1024_S1024x8192_S256x8192_1_0_0_1_n_n : DotDims S256x1024 S1024x8192 S256x8192 where
  lhsContracting := [1]
  rhsContracting := [0]
  lhsNonContracting := [0]
  rhsNonContracting := [1]
  lhsBatch := []
  rhsBatch := []
  wf := dot_S256x1024_S1024x8192_S256x8192_1_0_0_1_n_n_wf
def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf

class Facts : Prop extends Facts₀ where

variable [Facts]
-- ==== Proof.DVals.lean ====
import proofs.«900988_g7700000000000989_dist_mlpseq_tp1d_bs_rep_b64_d1024_h2048_v7x_i4_f32_1_alg».proof.Proof.Gen.KernelIdeal.Frame
import proofs.«900988_g7700000000000989_dist_mlpseq_tp1d_bs_rep_b64_d1024_h2048_v7x_i4_f32_1_alg».proof.Proof.Gen.KernelIdeal.Skeleton
import Idealize.ShloMosaic.Lib.ValueIdx
noncomputable section

namespace Cert.KernelIdeal.Dist

open Idealize.ShloMosaic Idealize.ShloMosaic.TcCoe Idealize.SL.Sem
open Idealize.ShloMosaic.ValueIdx
open Gen

variable {F : FTy → Type} [FloatOps F]
variable (m : (ℓ : Loc nD τ sig) → Buf (Elt F) ℓ)

def pr (c : Dev nD) (o : Nat) : Dev nD := ⟨(c.val + o) % 4, Nat.mod_lt _ (by decide)⟩

def row64 (c : Dev nD) (r : Fin 64) : Fin 256 := ⟨64 * c.val + r.val, by have h4 : c.val < 4 := c.isLt; have := r.isLt; omega⟩

def rowDev (R : Fin 256) : Dev nD := ⟨R.val / 64, show R.val / 64 < 4 by have := R.isLt; omega⟩
def rowIn (R : Fin 256) : Fin 64 := ⟨R.val % 64, Nat.mod_lt _ (by decide)⟩

abbrev X (s : Dev nD) : Vec F S64x1024 .f32 := m ((s : Thread nD τ).loc main_arg0)
abbrev W1 (l : Fin 3) (s : Dev nD) : Vec F S1024x2048 .f32 :=
  match l with
  | 0 => m ((s : Thread nD τ).loc main_arg1)
  | 1 => m ((s : Thread nD τ).loc main_arg3)
  | 2 => m ((s : Thread nD τ).loc main_arg5)
abbrev W2 (l : Fin 3) (s : Dev nD) : Vec F S2048x1024 .f32 :=
  match l with
  | 0 => m ((s : Thread nD τ).loc main_arg2)
  | 1 => m ((s : Thread nD τ).loc main_arg4)
  | 2 => m ((s : Thread nD τ).loc main_arg6)

def up1024x2048 {e : EltTy} (v : Vec F S1024x2048 e) : Vec F S1x1024x2048 e := fun i => v (ix2 (i 1) (i 2))
def up2048x1024 {e : EltTy} (v : Vec F S2048x1024 e) : Vec F S1x2048x1024 e := fun i => v (ix2 (i 1) (i 2))

def wb1 (l : Fin 3) (s : Dev nD) : FVec F S1024x2048 .bf16 :=
  match l with
  | 0 => k0_pay4 (k0_pay2 (up1024x2048 (W1 (F := F) m 0 s)))
  | 1 => k0_pay12 (k0_pay7 (up1024x2048 (W1 (F := F) m 1 s)))
  | 2 => k0_pay21 (k0_pay15 (up1024x2048 (W1 (F := F) m 2 s)))
def wb2 (l : Fin 3) (s : Dev nD) : FVec F S2048x1024 .bf16 :=
  match l with
  | 0 => k0_pay5 (k0_pay3 (up2048x1024 (W2 (F := F) m 0 s)))
  | 1 => k0_pay13 (k0_pay8 (up2048x1024 (W2 (F := F) m 1 s)))
  | 2 => k0_pay22 (k0_pay17 (k0_pay16 (up2048x1024 (W2 (F := F) m 2 s))))

def ownRows (p : Vec F S256x1024 .bf16) (c : Dev nD) : Vec F S64x1024 .bf16 := fun i => p (ix2 (row64 c (i 0)) (i 1))
def rsBlk (p : Vec F S256x1024 .bf16) (c : Dev nD) : Vec F S1x1x64x1024 .bf16 := fun i => p (ix2 (row64 c (i 2)) (i 3))

def gather (b : Dev nD → Vec F S1x64x1024 .bf16) : Vec F S1x256x1024 .bf16 :=
  fun i => b (rowDev (i 1)) (ix3 (0 : Fin 1) (rowIn (i 1)) (i 2))

def blk0 (s : Dev nD) : Vec F S1x64x1024 .bf16 := k0_pay1 (X (F := F) m s)
def act0 : Vec F S1x256x1024 .bf16 := gather (blk0 m)
def ps0 (s : Dev nD) : Vec F S256x1024 .bf16 := k0_pay6 (wb1 m 0 s) (wb2 m 0 s) (act0 m)
def sum0 (c : Dev nD) : FVec F S64x1024 .f32 :=
  k0_pay10 (k0_pay9 (ownRows (ps0 m c) c)) (rsBlk (ps0 m (pr c 1)) c) (rsBlk (ps0 m (pr c 2)) c)

def blk1 (c : Dev nD) : Vec F S1x64x1024 .bf16 := k0_pay11 (sum0 m c) (rsBlk (ps0 m (pr c 3)) c)
def act1 : Vec F S1x256x1024 .bf16 := gather (blk1 m)
def ps1 (s : Dev nD) : Vec F S256x1024 .bf16 := k0_pay14 (wb1 m 1 s) (wb2 m 1 s) (act1 m)
def sum1 (c : Dev nD) : FVec F S64x1024 .f32 :=
  k0_pay19 (k0_pay18 (ownRows (ps1 m c) c)) (rsBlk (ps1 m (pr c 1)) c) (rsBlk (ps1 m (pr c 2)) c)

def blk2 (c : Dev nD) : Vec F S1x64x1024 .bf16 := k0_pay20 (sum1 m c) (rsBlk (ps1 m (pr c 3)) c)
def act2 : Vec F S1x256x1024 .bf16 := gather (blk2 m)
def ps2 (s : Dev nD) : Vec F S256x1024 .bf16 := k0_pay23 (wb1 m 2 s) (wb2 m 2 s) (act2 m)
def sum2 (c : Dev nD) : FVec F S64x1024 .f32 :=
  k0_pay25 (k0_pay24 (ownRows (ps2 m c) c)) (rsBlk (ps2 m (pr c 1)) c) (rsBlk (ps2 m (pr c 2)) c)

def outBlk (c : Dev nD) : FVec F S64x1024 .f32 := k0_pay26 (sum2 m c) (rsBlk (ps2 m (pr c 3)) c)

def outAll : Vec F S256x1024 .f32 := fun i => outBlk m (rowDev (i 0)) (ix2 (rowIn (i 0)) (i 1))

end Cert.KernelIdeal.Dist

end
-- ==== Proof.DProto.lean ====
import proofs.«900988_g7700000000000989_dist_mlpseq_tp1d_bs_rep_b64_d1024_h2048_v7x_i4_f32_1_alg».proof.Proof.DVals
import Idealize.ShloMosaic.Lib.Pipeline.Launch
import Idealize.ShloMosaic.Lib.Pipeline.Kit
import Idealize.ShloMosaic.Lib.Tactic

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem pr_ne (c : Dev nD) (o : Nat) (h1 : 0 < o) (h4 : o < 4) : pr c o ≠ c := by
  interval_cases o <;> revert c <;> decide

theorem dev1_eq (c : Dev nD) : (⟨k0_dev1 c, k0_dev1_lt c⟩ : Dev nD) = pr c 1 := by revert c; decide +kernel
theorem dev2_eq (c : Dev nD) : (⟨k0_dev2 c, k0_dev2_lt c⟩ : Dev nD) = pr c 2 := by revert c; decide +kernel
theorem dev3_eq (c : Dev nD) : (⟨k0_dev3 c, k0_dev3_lt c⟩ : Dev nD) = pr c 3 := by revert c; decide +kernel
theorem dev4_eq (c : Dev nD) : (⟨k0_dev4 c, k0_dev4_lt c⟩ : Dev nD) = pr c 3 := by revert c; decide +kernel
theorem dev5_eq (c : Dev nD) : (⟨k0_dev5 c, k0_dev5_lt c⟩ : Dev nD) = pr c 1 := by revert c; decide +kernel
theorem dev6_eq (c : Dev nD) : (⟨k0_dev6 c, k0_dev6_lt c⟩ : Dev nD) = pr c 2 := by revert c; decide +kernel
theorem dev7_eq (c : Dev nD) : (⟨k0_dev7 c, k0_dev7_lt c⟩ : Dev nD) = pr c 1 := by revert c; decide +kernel
theorem dev8_eq (c : Dev nD) : (⟨k0_dev8 c, k0_dev8_lt c⟩ : Dev nD) = pr c 3 := by revert c; decide +kernel
theorem dev9_eq (c : Dev nD) : (⟨k0_dev9 c, k0_dev9_lt c⟩ : Dev nD) = pr c 2 := by revert c; decide +kernel

theorem dev10_eq (c : Dev nD) : (⟨k0_dev10 c, k0_dev10_lt c⟩ : Dev nD) = pr c 3 := by revert c; decide +kernel
theorem dev11_eq (c : Dev nD) : (⟨k0_dev11 c, k0_dev11_lt c⟩ : Dev nD) = pr c 1 := by revert c; decide +kernel
theorem dev12_eq (c : Dev nD) : (⟨k0_dev12 c, k0_dev12_lt c⟩ : Dev nD) = pr c 2 := by revert c; decide +kernel
theorem dev13_eq (c : Dev nD) : (⟨k0_dev13 c, k0_dev13_lt c⟩ : Dev nD) = pr c 1 := by revert c; decide +kernel
theorem dev14_eq (c : Dev nD) : (⟨k0_dev14 c, k0_dev14_lt c⟩ : Dev nD) = pr c 3 := by revert c; decide +kernel
theorem dev15_eq (c : Dev nD) : (⟨k0_dev15 c, k0_dev15_lt c⟩ : Dev nD) = pr c 2 := by revert c; decide +kernel
theorem dev16_eq (c : Dev nD) : (⟨k0_dev16 c, k0_dev16_lt c⟩ : Dev nD) = pr c 3 := by revert c; decide +kernel
theorem dev17_eq (c : Dev nD) : (⟨k0_dev17 c, k0_dev17_lt c⟩ : Dev nD) = pr c 1 := by revert c; decide +kernel
theorem dev18_eq (c : Dev nD) : (⟨k0_dev18 c, k0_dev18_lt c⟩ : Dev nD) = pr c 2 := by revert c; decide +kernel
theorem dev19_eq (c : Dev nD) : (⟨k0_dev19 c, k0_dev19_lt c⟩ : Dev nD) = pr c 1 := by revert c; decide +kernel
theorem dev20_eq (c : Dev nD) : (⟨k0_dev20 c, k0_dev20_lt c⟩ : Dev nD) = pr c 3 := by revert c; decide +kernel
theorem dev21_eq (c : Dev nD) : (⟨k0_dev21 c, k0_dev21_lt c⟩ : Dev nD) = pr c 2 := by revert c; decide +kernel
theorem dev22_eq (c : Dev nD) : (⟨k0_dev22 c, k0_dev22_lt c⟩ : Dev nD) = pr c 3 := by revert c; decide +kernel
theorem dev23_eq (c : Dev nD) : (⟨k0_dev23 c, k0_dev23_lt c⟩ : Dev nD) = pr c 1 := by revert c; decide +kernel
theorem dev24_eq (c : Dev nD) : (⟨k0_dev24 c, k0_dev24_lt c⟩ : Dev nD) = pr c 2 := by revert c; decide +kernel

abbrev barS : Sem sig := (SemArray.scalar (sig.barrier 0 rfl) : Sems sig S_).sem

def sndS (p : Fin 7) (j : Fin 3) : DmaSem sig := ⟨1 + 3 * p.val + j.val, by have := p.isLt; have := j.isLt; show _ < 57; omega⟩
def rcvS (p : Fin 7) (s : Dev nD) : DmaSem sig := ⟨22 + 4 * p.val + s.val, by have := p.isLt; have h4 : s.val < 4 := s.isLt; show _ < 57; omega⟩
def wcpS (l : Fin 3) (j : Fin 2) : DmaSem sig := ⟨50 + 2 * l.val + j.val, by have := l.isLt; have := j.isLt; show _ < 57; omega⟩
def outS : DmaSem sig := ⟨56, by show _ < 57; omega⟩

abbrev barCell (c : Dev nD) : GSem nD τ sig := ((c : Thread nD τ), .reg barS)
abbrev sndCell (c : Dev nD) (p : Fin 7) (j : Fin 3) : GSem nD τ sig := ((c : Thread nD τ), .dma (sndS p j))
abbrev rcvCell (c : Dev nD) (p : Fin 7) (s : Dev nD) : GSem nD τ sig := ((c : Thread nD τ), .dma (rcvS p s))

theorem acts_inb (l : Fin 3) (s : Dev nD) : ∀ a, (![l.val, 64 * s.val, 0] : Fin 3 → Nat) a + S1x64x1024.size a ≤ S3x256x1024.size a := by
  revert l s; decide

def actsM (l : Fin 3) (s : Dev nD) : Memref sig .tc .vmem S64x1024 .bf16 :=
  ((Memref.whole cc0_scratch0 : Memref sig .tc .vmem S3x256x1024 .bf16).slice (Rect.unit (s := S3x256x1024) ![l.val, 64 * s.val, 0] S1x64x1024.size (acts_inb l s)) (fun _ => rfl)).squeeze S64x1024 squeezes_S1x64x1024_S64x1024

theorem rs_inb (l : Fin 3) (s : Dev nD) : ∀ a, (![l.val, s.val, 0, 0] : Fin 4 → Nat) a + S1x1x64x1024.size a ≤ S3x4x64x1024.size a := by
  revert l s; decide

def rsM (l : Fin 3) (s : Dev nD) : Memref sig .tc .vmem S64x1024 .bf16 :=
  ((Memref.whole cc0_scratch1 : Memref sig .tc .vmem S3x4x64x1024 .bf16).slice (Rect.unit (s := S3x4x64x1024) ![l.val, s.val, 0, 0] S1x1x64x1024.size (rs_inb l s)) (fun _ => rfl)).squeeze S64x1024 squeezes_S1x1x64x1024_S64x1024

theorem rows_inb (s : Dev nD) : ∀ a, (![64 * s.val, 0] : Fin 2 → Nat) a + S64x1024.size a ≤ S256x1024.size a := by
  revert s; decide

def psM (s : Dev nD) : Memref sig .tc .vmem S64x1024 .bf16 :=
  (Memref.whole cc0_scratch2 : Memref sig .tc .vmem S256x1024 .bf16).slice (Rect.unit (s := S256x1024) ![64 * s.val, 0] S64x1024.size (rows_inb s)) (fun _ => rfl)
def outM (s : Dev nD) : Memref sig .tc .hbm S64x1024 .f32 :=
  (Memref.whole main_v1 : Memref sig .tc .hbm S256x1024 .f32).slice (Rect.unit (s := S256x1024) ![64 * s.val, 0] S64x1024.size (rows_inb s)) (fun _ => rfl)

abbrev stgM : Memref sig .tc .vmem S64x1024 .f32 := Memref.whole cc0_scratch7

abbrev Nh : ℕ := (actsM 0 0).view.dmaCredit
abbrev Nf : ℕ := (stgM).view.dmaCredit
variable (m : (ℓ : Loc nD τ sig) → Buf (Elt F) ℓ)

def actsB : Vec F S3x256x1024 .bf16 := fun i =>
  if (i 0).val = 0 then act0 m (ix3 (0 : Fin 1) (i 1) (i 2))
  else if (i 0).val = 1 then act1 m (ix3 (0 : Fin 1) (i 1) (i 2))
  else act2 m (ix3 (0 : Fin 1) (i 1) (i 2))

def psB (l : Fin 3) (s : Dev nD) : Vec F S256x1024 .bf16 :=
  match l with | 0 => ps0 m s | 1 => ps1 m s | 2 => ps2 m s

def rsB (c : Dev nD) : Vec F S3x4x64x1024 .bf16 := fun i => psB m (i 0) (i 1) (ix2 (row64 c (i 2)) (i 3))

def pts {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

def ptsE {sp : Space} {s : Shape} {e : EltTy} (M : Memref sig .tc sp s e) (d : Dev nD) : sProp 𝕄 :=
  iprop(∃ f : Buf (Elt F) (M.view.loc (d : Thread nD τ)), M.view.loc (d : Thread nD τ) ↦[M.view.set]{fullShare} f)

def q4 (j : Fin 4) : PosShare TreeShare :=
  match j with | 0 => fullShare.left.left | 1 => fullShare.left.right | 2 => fullShare.right.left | 3 => fullShare.right.right

def wv1M (b : Fin 2) : Memref sig .tc .vmem S1024x2048 .f32 :=
  match b with
  | 0 => ((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048
  | 1 => ((Memref.whole cc0_scratch3 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048
def wv2M (b : Fin 2) : Memref sig .tc .vmem S2048x1024 .f32 :=
  match b with
  | 0 => ((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
  | 1 => ((Memref.whole cc0_scratch4 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024
abbrev Nw : ℕ := (wv1M 0).view.dmaCredit

def wv1B (l : Fin 3) (c : Dev nD) : Vec F S2x1024x2048 .f32 := fun i => W1 (F := F) m l c (ix2 (i 1) (i 2))
def wv2B (l : Fin 3) (c : Dev nD) : Vec F S2x2048x1024 .f32 := fun i => W2 (F := F) m l c (ix2 (i 1) (i 2))

def barPay (c d : Dev nD) : sProp 𝕄 :=
  iprop(ptsE (F := F) (actsM 0 c) d ∗ ptsE (F := F) (actsM 1 c) d ∗ ptsE (F := F) (actsM 2 c) d
    ∗ ptsE (F := F) (rsM 0 c) d ∗ ptsE (F := F) (rsM 1 c) d ∗ ptsE (F := F) (rsM 2 c) d ∗ ptsE (F := F) (outM c) d)

def rcvPay (c : Dev nD) (p : Fin 7) (s : Dev nD) : sProp 𝕄 :=
  match p with
  | 0 => pts (F := F) (actsM 0 s) c fullShare (actsB m)
  | 1 => iprop(pts (F := F) (rsM 0 s) c fullShare (rsB m c) ∗ pts (F := F) (psM c) s fullShare (psB m 0 s))
  | 2 => iprop(pts (F := F) (actsM 1 s) c fullShare (actsB m) ∗ pts (F := F) (psM s) c fullShare (psB m 0 c))
  | 3 => iprop(pts (F := F) (rsM 1 s) c fullShare (rsB m c) ∗ pts (F := F) (psM c) s fullShare (psB m 1 s))
  | 4 => iprop(pts (F := F) (actsM 2 s) c fullShare (actsB m) ∗ pts (F := F) (psM s) c fullShare (psB m 1 c))
  | 5 => iprop(pts (F := F) (rsM 2 s) c fullShare (rsB m c) ∗ pts (F := F) (psM c) s fullShare (psB m 2 s))
  | 6 => iprop(pts (F := F) (outM s) c fullShare (outAll m) ∗ pts (F := F) (psM s) c fullShare (psB m 2 c))

def sndPay (c : Dev nD) (p : Fin 7) (j : Fin 3) : sProp 𝕄 :=
  match p with
  | 0 => pts (F := F) (actsM 0 c) c (q4 j.castSucc) (actsB m)
  | 2 => pts (F := F) (actsM 1 c) c (q4 j.castSucc) (actsB m)
  | 4 => pts (F := F) (actsM 2 c) c (q4 j.castSucc) (actsB m)
  | 6 => pts (F := F) stgM c (q4 j.castSucc) (outBlk m c)
  | _ => iprop(emp)

def wcpPay (c : Dev nD) (l : Fin 3) (j : Fin 2) : sProp 𝕄 :=
  match l, j with
  | 0, 0 => iprop(pts (F := F) (wv1M 0) c fullShare (wv1B m 0 c) ∗ pts (F := F) (Memref.whole main_arg1 : Memref sig .tc .hbm S1024x2048 .f32) c fullShare (W1 (F := F) m 0 c))
  | 0, 1 => iprop(pts (F := F) (wv2M 0) c fullShare (wv2B m 0 c) ∗ pts (F := F) (Memref.whole main_arg2 : Memref sig .tc .hbm S2048x1024 .f32) c fullShare (W2 (F := F) m 0 c))
  | 1, 0 => iprop(pts (F := F) (wv1M 1) c fullShare (wv1B m 1 c) ∗ pts (F := F) (Memref.whole main_arg3 : Memref sig .tc .hbm S1024x2048 .f32) c fullShare (W1 (F := F) m 1 c))
  | 1, 1 => iprop(pts (F := F) (wv2M 1) c fullShare (wv2B m 1 c) ∗ pts (F := F) (Memref.whole main_arg4 : Memref sig .tc .hbm S2048x1024 .f32) c fullShare (W2 (F := F) m 1 c))
  | 2, 0 => iprop(pts (F := F) (wv1M 0) c fullShare (wv1B m 2 c) ∗ pts (F := F) (Memref.whole main_arg5 : Memref sig .tc .hbm S1024x2048 .f32) c fullShare (W1 (F := F) m 2 c))
  | 2, 1 => iprop(pts (F := F) (wv2M 0) c fullShare (wv2B m 2 c) ∗ pts (F := F) (Memref.whole main_arg6 : Memref sig .tc .hbm S2048x1024 .f32) c fullShare (W2 (F := F) m 2 c))

def outcPay (c : Dev nD) : sProp 𝕄 :=
  iprop(pts (F := F) (outM c) c fullShare (outAll m) ∗ pts (F := F) stgM c (q4 3) (outBlk m c))

def dutiesOf (c : Dev nD) : SemLoc sig → Finset (Dev nD)
  | .reg _ => Finset.univ.erase c
  | .dma q =>
    if 1 ≤ q.val ∧ q.val < 22 then {c}
    else if 22 ≤ q.val ∧ q.val < 50 then (if (q.val - 22) % 4 = c.val then ∅ else {⟨(q.val - 22) % 4, Nat.mod_lt _ (by decide)⟩})
    else if 50 ≤ q.val then {c} else ∅

def amountOf : SemLoc sig → ℕ
  | .reg _ => 1
  | .dma q =>
    if q.val < 19 then Nh else if q.val < 22 then Nf else if q.val < 46 then Nh else if q.val < 50 then Nf
    else if q.val < 56 then Nw else Nf

def payOf (c : Dev nD) (sm : SemLoc sig) (d : Dev nD) : sProp 𝕄 :=
  match sm with
  | .reg _ => barPay (F := F) c d
  | .dma q =>
    if h1 : 1 ≤ q.val ∧ q.val < 22 then sndPay m c ⟨(q.val - 1) / 3, by omega⟩ ⟨(q.val - 1) % 3, Nat.mod_lt _ (by decide)⟩
    else if h2 : 22 ≤ q.val ∧ q.val < 50 then rcvPay m c ⟨(q.val - 22) / 4, by omega⟩ ⟨(q.val - 22) % 4, Nat.mod_lt _ (by decide)⟩
    else if h3 : 50 ≤ q.val ∧ q.val < 56 then wcpPay m c ⟨(q.val - 50) / 2, by omega⟩ ⟨(q.val - 50) % 2, Nat.mod_lt _ (by decide)⟩
    else if q.val = 56 then outcPay m c else iprop(emp)

def Rd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 g.2 d
  amount_pos g _ _ _ := by
    unfold amountOf
    split
    · exact Nat.one_pos
    · (repeat' split) <;> exact View.dmaCredit_pos _ (by decide)

end Cert.KernelIdeal.Dist

end
-- ==== Proof.DOwed.lean ====
import proofs.«900988_g7700000000000989_dist_mlpseq_tp1d_bs_rep_b64_d1024_h2048_v7x_i4_f32_1_alg».proof.Proof.DProto

noncomputable section

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def ordOf (p : Fin 7) (t : Fin 3) : Nat :=
  if p.val % 2 = 0 then (match t with | 0 => 3 | 1 => 1 | 2 => 2) else (match t with | 0 => 1 | 1 => 3 | 2 => 2)

def amt (p : Fin 7) : ℕ := if p.val = 6 then Nf else Nh

def payCell (c : Dev nD) (i : Nat) : GSem nD τ sig :=
  if i < 3 then barCell (pr c (i + 1))
  else rcvCell (pr c (ordOf ⟨((i - 3) / 3) % 7, Nat.mod_lt _ (by decide)⟩ ⟨(i - 3) % 3, Nat.mod_lt _ (by decide)⟩))
    ⟨((i - 3) / 3) % 7, Nat.mod_lt _ (by decide)⟩ c
def payAmt (i : Nat) : ℕ := if i < 3 then 1 else amt ⟨((i - 3) / 3) % 7, Nat.mod_lt _ (by decide)⟩
def pay (c : Dev nD) (i : Nat) : CellTallies nD τ sig Unit := tallyAt (payCell c i) () (payAmt i)

def rem (c : Dev nD) : Nat → CellTallies nD τ sig Unit
  | 0 => 0
  | k + 1 => rem c k + pay c (23 - k)

theorem rem_succ (c : Dev nD) (k : Nat) : rem c (k + 1) = rem c k + pay c (23 - k) := rfl

def O₀ (c : Dev nD) : CellTallies nD τ sig Unit := rem c 24

def osem (k : Fin 56) : SemLoc sig := .dma ⟨k.val + 1, by have := k.isLt; show _ < 57; omega⟩

def csem (k : Fin 57) : SemLoc sig := if h : k.val < 56 then osem ⟨k.val, h⟩ else .reg barS
abbrev kcell (ck : Dev nD × Fin 57) : GSem nD τ sig := ((ck.1 : Thread nD τ), csem ck.2)

def L (g : GSem nD τ sig) : Finset Unit := if g.1.2 = .tc then {()} else ∅
def lv (g : GSem nD τ sig) (_ : Unit) : ℕ :=
  match g.2 with
  | .reg _ => 1
  | .dma q => if 22 ≤ q.val ∧ q.val < 50 then 2 + (q.val - 22) / 4 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Dist

end
-- ==== Proof.DStart.lean ====
import proofs.«900988_g7700000000000989_dist_mlpseq_tp1d_bs_rep_b64_d1024_h2048_v7x_i4_f32_1_alg».proof.Proof.DOwed

noncomputable section

namespace Cert.KernelIdeal.Dist

open Gen
open Idealize.ShloMosaic Idealize.ShloMosaic.TcCoe
open Idealize.SL Idealize.SL.RA Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def records (K : Dev nD × Fin 57 → ℕ) : sProp 𝕄 :=
  iprop((bigSep Finset.univ fun ck : Dev nD × Fin 57 => cellInv ER (Rd (F := F) m) (K ck) (kcell ck))
    ∗ bigSep Finset.univ fun ck : Dev nD × Fin 57 => reached ER (kcell ck) 0)

instance records_persistent (K : Dev nD × Fin 57 → ℕ) : BI.Persistent (records m K) := by unfold records; infer_instance

theorem inv_at (K : Dev nD × Fin 57 → ℕ) (ck : Dev nD × Fin 57) :
    records m K ⊢ cellInv ER (Rd (F := F) m) (K ck) (kcell ck) := by
  unfold records
  exact sep_elim_left.trans (bigSep_elim (Φ := fun ck : Dev nD × Fin 57 => (cellInv ER (Rd (F := F) m) (K ck) (kcell ck) : sProp 𝕄)) (Finset.mem_univ ck))
theorem reached_at (K : Dev nD × Fin 57 → ℕ) (ck : Dev nD × Fin 57) :
    records m K ⊢ (reached ER (kcell ck) 0 : sProp 𝕄) := by
  unfold records
  exact sep_elim_right.trans (bigSep_elim (Φ := fun ck : Dev nD × Fin 57 => (reached ER (kcell ck) 0 : sProp 𝕄)) (Finset.mem_univ ck))

def positions (c : Dev nD) : sProp 𝕄 := bigSep Finset.univ fun k : Fin 57 => (atPos ER (kcell (c, k)) 0 ∅ 0 : sProp 𝕄)

def payToks (c : Dev nD) : sProp 𝕄 :=
  bigSep Finset.univ fun ck : Dev nD × Fin 57 =>
    (if c ∈ (Rd (F := F) m).duties (kcell ck) 0 then dutyTok ER (kcell ck) 0 c else iprop(emp) : sProp 𝕄)

def ghost (K : Dev nD × Fin 57 → ℕ) (c : Dev nD) : sProp 𝕄 := iprop(records m K ∗ positions (F := F) c ∗ payToks m c)

def G' (c : Dev nD) : sProp 𝕄 := iprop(∃ K, ghost m K c)

end Cert.KernelIdeal.Dist

end
-- ==== Proof.DCredDef.lean ====
import proofs.«900988_g7700000000000989_dist_mlpseq_tp1d_bs_rep_b64_d1024_h2048_v7x_i4_f32_1_alg».proof.Proof.DOwed

noncomputable section

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def creds (c : Dev nD) : sProp 𝕄 :=
  iprop(cred (tallyAt (barCell c) () 3)
    ∗ bigSep Finset.univ fun po : Fin 7 × Fin 3 => cred (tallyAt (rcvCell c po.1 (pr c (po.2.val + 1))) () (amt po.1)))

end Cert.KernelIdeal.Dist

end
-- ==== Proof.DDat.lean ====
import proofs.«900988_g7700000000000989_dist_mlpseq_tp1d_bs_rep_b64_d1024_h2048_v7x_i4_f32_1_alg».proof.Proof.DStart
import proofs.«900988_g7700000000000989_dist_mlpseq_tp1d_bs_rep_b64_d1024_h2048_v7x_i4_f32_1_alg».proof.Proof.DCredDef

noncomputable section

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) (m ((c : Thread nD τ).loc main_arg0))

def wts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6)))

def start (c : Dev nD) : sProp 𝕄 :=
  iprop(G' m c ∗ creds (F := F) c ∗ levAts L lv ∗ wts m c
    ∗ (((c : Thread nD τ).loc main_v1) ↦{fullShare} m ((c : Thread nD τ).loc main_v1)))

def Φ₀ (c : Dev nD) : sProp 𝕄 := iprop(start m c ∗ Pipeline.scopedRest cfg0.spec c)

def Φ₁ (c : Dev nD) : sProp 𝕄 :=
  iprop((wts m c ∗ (((c : Thread nD τ).loc main_v1) ↦{fullShare} outAll m))
    ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Dist

end
-- ==== Proof.DTables.lean ====
import proofs.«900988_g7700000000000989_dist_mlpseq_tp1d_bs_rep_b64_d1024_h2048_v7x_i4_f32_1_alg».proof.Proof.DOwed

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev wcpCell (c : Dev nD) (l : Fin 3) (j : Fin 2) : GSem nD τ sig := ((c : Thread nD τ), .dma (wcpS l j))
abbrev outCell (c : Dev nD) : GSem nD τ sig := ((c : Thread nD τ), .dma outS)

section Sched
variable (c : Dev nD)

theorem sndS_val (p : Fin 7) (j : Fin 3) : (sndS p j).val = 1 + 3 * p.val + j.val := rfl
theorem rcvS_val (p : Fin 7) (s : Dev nD) : (rcvS p s).val = 22 + 4 * p.val + s.val := rfl
theorem wcpS_val (l : Fin 3) (j : Fin 2) : (wcpS l j).val = 50 + 2 * l.val + j.val := rfl
theorem outS_val : (outS).val = 56 := rfl

theorem dutiesOf_rcv_mod (p : Fin 7) (s : Dev nD) : ((rcvS p s).val - 22) % 4 = s.val := by
  have hs : s.val < 4 := s.isLt
  rw [rcvS_val]; omega
theorem dutiesOf_rcv (p : Fin 7) (s : Dev nD) :
    dutiesOf c (.dma (rcvS p s)) = if s.val = c.val then ∅ else {s} := by
  have hp := p.isLt; have hs : s.val < 4 := s.isLt; have hv := rcvS_val p s
  dsimp only [dutiesOf]
  rw [if_neg (by omega), if_pos (by omega)]
  by_cases h : s.val = c.val
  · rw [if_pos ((dutiesOf_rcv_mod p s).trans h), if_pos h]
  · rw [if_neg (fun h' => h ((dutiesOf_rcv_mod p s).symm.trans h')), if_neg h]
    exact congrArg _ (Fin.ext (dutiesOf_rcv_mod p s))
theorem duties_later (g : GSem nD τ sig) : ∀ r, 1 ≤ r → (Rd (F := F) m).duties g r = ∅ :=
  fun r hr => by dsimp only [Rd]; rw [if_neg fun h => by have := h.1; omega]
theorem duties_bar : (Rd (F := F) m).duties (barCell c) 0 = Finset.univ.erase c := by
  dsimp only [Rd]; rw [if_pos ⟨rfl, rfl⟩]; rfl
theorem duties_snd (p : Fin 7) (j : Fin 3) : (Rd (F := F) m).duties (sndCell c p j) 0 = {c} := by
  have hp := p.isLt; have hj := j.isLt; have hv := sndS_val p j
  dsimp only [Rd]; rw [if_pos ⟨rfl, rfl⟩]; dsimp only [dutiesOf]; rw [if_pos (by omega)]
theorem duties_rcv (p : Fin 7) (s : Dev nD) (h : s ≠ c) : (Rd (F := F) m).duties (rcvCell c p s) 0 = {s} := by
  dsimp only [Rd]; rw [if_pos ⟨rfl, rfl⟩]
  exact (dutiesOf_rcv c p s).trans (if_neg fun h' => h (Fin.ext h'))
theorem duties_rcv_self (p : Fin 7) : (Rd (F := F) m).duties (rcvCell c p c) 0 = ∅ := by
  dsimp only [Rd]; rw [if_pos ⟨rfl, rfl⟩]
  exact (dutiesOf_rcv c p c).trans (if_pos rfl)
theorem duties_wcp (l : Fin 3) (j : Fin 2) : (Rd (F := F) m).duties (wcpCell c l j) 0 = {c} := by
  have hl := l.isLt; have hj := j.isLt; have hv := wcpS_val l j
  dsimp only [Rd]; rw [if_pos ⟨rfl, rfl⟩]; dsimp only [dutiesOf]; rw [if_neg (by omega), if_neg (by omega), if_pos (by omega)]
theorem duties_out : (Rd (F := F) m).duties (outCell c) 0 = {c} := by
  dsimp only [Rd]; rw [if_pos ⟨rfl, rfl⟩]; dsimp only [dutiesOf]; rw [if_neg (by decide), if_neg (by decide), if_pos (by decide)]

theorem amount_bar (d : Dev nD) : (Rd (F := F) m).amount (barCell c) 0 d = 1 := rfl
theorem amount_snd (p : Fin 7) (j : Fin 3) (d : Dev nD) : (Rd (F := F) m).amount (sndCell c p j) 0 d = amt p := by
  have hp := p.isLt; have hj := j.isLt; have hv := sndS_val p j
  show amountOf (.dma (sndS p j)) = amt p
  dsimp only [amountOf, amt]
  by_cases h : p.val = 6
  · rw [if_neg (by omega), if_pos (by omega), if_pos h]
  · rw [if_pos (by omega), if_neg h]
theorem amount_rcv (p : Fin 7) (s d : Dev nD) : (Rd (F := F) m).amount (rcvCell c p s) 0 d = amt p := by
  have hp := p.isLt; have hs : s.val < 4 := s.isLt; have hv := rcvS_val p s
  show amountOf (.dma (rcvS p s)) = amt p
  dsimp only [amountOf, amt]
  by_cases h : p.val = 6
  · rw [if_neg (by omega), if_neg (by omega), if_neg (by omega),
      if_pos (by omega), if_pos h]
  · rw [if_neg (by omega), if_neg (by omega), if_pos (by omega), if_neg h]
theorem amount_wcp (l : Fin 3) (j : Fin 2) (d : Dev nD) : (Rd (F := F) m).amount (wcpCell c l j) 0 d = Nw := by
  have hl := l.isLt; have hj := j.isLt; have hv := wcpS_val l j
  show amountOf (.dma (wcpS l j)) = Nw
  dsimp only [amountOf]
  rw [if_neg (by omega), if_neg (by omega), if_neg (by omega),
    if_neg (by omega), if_pos (by omega)]
theorem amount_out (d : Dev nD) : (Rd (F := F) m).amount (outCell c) 0 d = Nf := by
  show amountOf (.dma outS) = Nf
  dsimp only [amountOf]
  rw [if_neg (by decide), if_neg (by decide), if_neg (by decide),
    if_neg (by decide), if_neg (by decide)]

theorem expect_bar : (Rd (F := F) m).expect (barCell c) 0 = 3 := by
  unfold Schedule.expect Schedule.amountOf
  rw [duties_bar, Finset.sum_congr rfl fun d _ => amount_bar m c d, Finset.sum_const,
    Finset.card_erase_of_mem (Finset.mem_univ c), Finset.card_univ, Fintype.card_fin]
  rfl
theorem expect_snd (p : Fin 7) (j : Fin 3) : (Rd (F := F) m).expect (sndCell c p j) 0 = amt p := by
  unfold Schedule.expect Schedule.amountOf; rw [duties_snd, Finset.sum_singleton, amount_snd]
theorem expect_rcv (p : Fin 7) (s : Dev nD) (h : s ≠ c) : (Rd (F := F) m).expect (rcvCell c p s) 0 = amt p := by
  unfold Schedule.expect Schedule.amountOf; rw [duties_rcv m c p s h, Finset.sum_singleton, amount_rcv]
theorem expect_wcp (l : Fin 3) (j : Fin 2) : (Rd (F := F) m).expect (wcpCell c l j) 0 = Nw := by
  unfold Schedule.expect Schedule.amountOf; rw [duties_wcp, Finset.sum_singleton, amount_wcp]
theorem expect_out : (Rd (F := F) m).expect (outCell c) 0 = Nf := by
  unfold Schedule.expect Schedule.amountOf; rw [duties_out, Finset.sum_singleton, amount_out]

theorem payload_bar (d : Dev nD) : (Rd (F := F) m).payload (barCell c) 0 d = barPay (F := F) c d := rfl
theorem payload_snd (p : Fin 7) (j : Fin 3) (d : Dev nD) : (Rd (F := F) m).payload (sndCell c p j) 0 d = sndPay m c p j := by
  have hp := p.isLt; have hj := j.isLt; have hv := sndS_val p j
  show payOf m c (.dma (sndS p j)) d = sndPay m c p j
  dsimp only [payOf]
  rw [dif_pos (by omega)]
  congr 1 <;> (apply Fin.ext; dsimp only [sndS_val]; omega)
theorem payload_rcv (p : Fin 7) (s d : Dev nD) : (Rd (F := F) m).payload (rcvCell c p s) 0 d = rcvPay m c p s := by
  have hp := p.isLt; have hs : s.val < 4 := s.isLt; have hv := rcvS_val p s
  show payOf m c (.dma (rcvS p s)) d = rcvPay m c p s
  dsimp only [payOf]
  rw [dif_neg (by omega), dif_pos (by omega)]
  congr 1 <;> (apply Fin.ext; dsimp only [rcvS_val]; omega)
theorem payload_wcp (l : Fin 3) (j : Fin 2) (d : Dev nD) : (Rd (F := F) m).payload (wcpCell c l j) 0 d = wcpPay m c l j := by
  have hl := l.isLt; have hj := j.isLt; have hv := wcpS_val l j
  show payOf m c (.dma (wcpS l j)) d = wcpPay m c l j
  dsimp only [payOf]
  rw [dif_neg (by omega), dif_neg (by omega), dif_pos (by omega)]
  congr 1 <;> (apply Fin.ext; dsimp only [wcpS_val]; omega)
theorem payload_out (d : Dev nD) : (Rd (F := F) m).payload (outCell c) 0 d = outcPay m c := by
  show payOf m c (.dma outS) d = outcPay m c
  dsimp only [payOf]
  rw [dif_neg (by decide), dif_neg (by decide), dif_neg (by decide), if_pos outS_val]

theorem rest_bar : bigSep ((Rd (F := F) m).duties (barCell c) 0 \ ∅) (fun d => (Rd (F := F) m).payload (barCell c) 0 d)
    = iprop(barPay (F := F) c (pr c 1) ∗ barPay (F := F) c (pr c 2) ∗ barPay (F := F) c (pr c 3)) := by
  rw [Finset.sdiff_empty, duties_bar,
    bigSep_eq_bigSepL_of_eq [pr c 1, pr c 2, pr c 3] (by revert c; decide) (by revert c; decide),
    bigSepL_cons_cons, bigSepL_cons_cons, bigSepL_singleton, payload_bar, payload_bar, payload_bar]
  rfl
theorem rest_snd (p : Fin 7) (j : Fin 3) : bigSep ((Rd (F := F) m).duties (sndCell c p j) 0 \ ∅) (fun d => (Rd (F := F) m).payload (sndCell c p j) 0 d) = sndPay m c p j := by
  rw [Finset.sdiff_empty, duties_snd, bigSep_singleton, payload_snd]
theorem rest_rcv (p : Fin 7) (s : Dev nD) (h : s ≠ c) : bigSep ((Rd (F := F) m).duties (rcvCell c p s) 0 \ ∅) (fun d => (Rd (F := F) m).payload (rcvCell c p s) 0 d) = rcvPay m c p s := by
  rw [Finset.sdiff_empty, duties_rcv m c p s h, bigSep_singleton, payload_rcv]
theorem rest_wcp (l : Fin 3) (j : Fin 2) : bigSep ((Rd (F := F) m).duties (wcpCell c l j) 0 \ ∅) (fun d => (Rd (F := F) m).payload (wcpCell c l j) 0 d) = wcpPay m c l j := by
  rw [Finset.sdiff_empty, duties_wcp, bigSep_singleton, payload_wcp]
theorem rest_out : bigSep ((Rd (F := F) m).duties (outCell c) 0 \ ∅) (fun d => (Rd (F := F) m).payload (outCell c) 0 d) = outcPay m c := by
  rw [Finset.sdiff_empty, duties_out, bigSep_singleton, payload_out]

instance pts_storable {sp : Space} {s : Shape} {e : EltTy} (M : Memref sig .tc sp s e) (d : Dev nD) (q : PosShare TreeShare)
    (f : Buf (Elt F) (M.view.loc (d : Thread nD τ))) : BI.Storable (upEmb : UEmb _ 𝕄) (pts (F := F) M d q f) := by
  unfold pts; infer_instance
instance ptsE_storable {sp : Space} {s : Shape} {e : EltTy} (M : Memref sig .tc sp s e) (d : Dev nD) :
    BI.Storable (upEmb : UEmb _ 𝕄) (ptsE (F := F) M d) := by
  unfold ptsE; infer_instance
theorem storable_sep_of {P Q : sProp 𝕄} (hP : BI.Storable (upEmb : UEmb _ 𝕄) P) (hQ : BI.Storable (upEmb : UEmb _ 𝕄) Q) :
    BI.Storable (upEmb : UEmb _ 𝕄) iprop(P ∗ Q) := inferInstance

instance Rd_payload_storable (g : GSem nD τ sig) (r : ℕ) (d : Dev nD) : BI.Storable (upEmb : UEmb _ 𝕄) ((Rd (F := F) m).payload g r d) := by
  show BI.Storable upEmb (payOf m g.1.1 g.2 d)
  unfold payOf barPay rcvPay sndPay wcpPay outcPay
  (repeat' split) <;> repeat' (first | infer_instance | exact pts_storable _ _ _ _ | apply storable_sep_of)

end Sched

end Cert.KernelIdeal.Dist

end
-- ==== Proof.DGhost.lean ====
import proofs.«900988_g7700000000000989_dist_mlpseq_tp1d_bs_rep_b64_d1024_h2048_v7x_i4_f32_1_alg».proof.Proof.DStart
import proofs.«900988_g7700000000000989_dist_mlpseq_tp1d_bs_rep_b64_d1024_h2048_v7x_i4_f32_1_alg».proof.Proof.DTables

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem csem_injective : Function.Injective csem := by
  intro k k' h
  unfold csem at h
  split at h <;> split at h
  · unfold osem at h
    have h' := congrArg Fin.val (SemLoc.dma.inj h)
    apply Fin.ext
    simp only at h'
    omega
  · cases h
  · cases h
  · apply Fin.ext
    have := k.isLt
    have := k'.isLt
    omega

theorem kcell_injective : Function.Injective (kcell : Dev nD × Fin 57 → GSem nD τ sig) := fun _ _ h =>
  Prod.ext (congrArg (fun g : GSem nD τ sig => g.1.1) h) (csem_injective (congrArg Prod.snd h))

def ringCells : Finset (GSem nD τ sig) := Finset.univ.map ⟨kcell, kcell_injective⟩

abbrev tokOf (x : (Dev nD × Fin 57) × Dev nD) : GSem nD τ sig × ℕ × Dev nD := (kcell x.1, 0, x.2)
theorem tokOf_injective : Function.Injective (tokOf : (Dev nD × Fin 57) × Dev nD → GSem nD τ sig × ℕ × Dev nD) := fun _ _ h =>
  Prod.ext (kcell_injective (congrArg (fun x : GSem nD τ sig × ℕ × Dev nD => x.1) h)) (congrArg (fun x : GSem nD τ sig × ℕ × Dev nD => x.2.2) h)
def ringToks : Finset (GSem nD τ sig × ℕ × Dev nD) :=
  ((Finset.univ : Finset ((Dev nD × Fin 57) × Dev nD)).filter fun x => x.2 ∈ dutiesOf x.1.1 (csem x.1.2)).map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun k : Fin 57 => bigSep Finset.univ fun d : Dev nD =>
    (if d ∈ dutiesOf c (csem k) then dutyTok ER (kcell (c, k)) 0 d else iprop(emp) : sProp 𝕄)

def G (c : Dev nD) : sProp 𝕄 :=
  iprop((bigSep Finset.univ fun k : Fin 57 => roundState ER (Rd (F := F) m) (kcell (c, k)) 0)
    ∗ (bigSep Finset.univ fun k : Fin 57 => iprop(atPos ER (kcell (c, k)) 0 ∅ 0 ∗ reached ER (kcell (c, k)) 0)) ∗ toks (F := F) c)

theorem bigSep_ringCells (Φ : GSem nD τ sig → sProp 𝕄) :
    bigSep ringCells Φ = bigSep Finset.univ fun c : Dev nD => bigSep Finset.univ fun k : Fin 57 => Φ (kcell (c, k)) := by
  unfold ringCells; rw [bigSep_map, bigSep_univ_prod]; rfl

theorem bigSep_ringToks :
    bigSep ringToks (fun x => (dutyTok ER x.1 x.2.1 x.2.2 : sProp 𝕄)) = bigSep Finset.univ fun c : Dev nD => toks (F := F) c := by
  unfold ringToks
  rw [bigSep_map, bigSep_filter, bigSep_univ_prod, bigSep_univ_prod]
  rfl

theorem fund_ring : BI.own (ER (initOf ringCells ringToks)) ⊢ (|==> bigSep Finset.univ (G m) : sProp 𝕄) := by
  iintro HX
  imod (Rounds.fund ER (Rd (F := F) m) ringCells ringToks) $$ HX with ⟨Hst, Hr, Hat, Htok⟩
  imodintro
  ihave Hst' := (Entails.of_eq (bigSep_ringCells (F := F) fun g => roundState ER (Rd (F := F) m) g 0)) $$ Hst
  ihave Hat' := (Entails.of_eq (bigSep_ringCells (F := F) fun g => atPos ER g 0 ∅ 0)) $$ Hat
  ihave Hr' := (Entails.of_eq (bigSep_ringCells (F := F) fun g => reached ER g 0)) $$ Hr
  ihave Htok' := (Entails.of_eq (bigSep_ringToks (F := F))) $$ Htok
  unfold G; simp only [bigSep_sep']
  iframe

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  iframe

theorem ownSemFacts : Pipeline.OwnSemFacts cfg0.spec osem := by decide +kernel

theorem bigSep_fin_last {n : ℕ} (Φ : Fin (n + 1) → sProp 𝕄) :
    bigSep Finset.univ Φ = iprop(Φ (Fin.last n) ∗ bigSep Finset.univ fun i : Fin n => Φ i.castSucc) := by
  rw [Fin.univ_castSuccEmb]
  unfold bigSep
  rw [Finset.fold_cons, Finset.fold_map]
  rfl

theorem csem_castSucc (i : Fin 56) : csem i.castSucc = osem i := dif_pos i.isLt
theorem csem_last : csem (Fin.last 56) = .reg barS := dif_neg (Nat.lt_irrefl 56)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ (bigSep Finset.univ fun k : Fin 57 => semVal (kcell (c, k)) 0 : sProp 𝕄) := by
  rw [unscopedSems0_eq, bigSep_fin_last]
  unfold Pipeline.ownSems0
  have hl : kcell (c, Fin.last 56) = barCell c := by
    show ((c : Thread nD τ), csem (Fin.last 56)) = _
    rw [csem_last]
  have hk (i : Fin 56) : kcell (c, i.castSucc) = ((c : Thread nD τ), osem i) := by
    show ((c : Thread nD τ), csem i.castSucc) = _
    rw [csem_castSucc]
  rw [hl, bigSep_congr (s := Finset.univ) (fun (i : Fin 56) _ => congrArg (fun g => (semVal g 0 : sProp 𝕄)) (hk i))]
  iintro ⟨HS, HB⟩
  iframe

private def Gmid (c : Dev nD) : sProp 𝕄 :=
  iprop((bigSep Finset.univ fun k : Fin 57 => iprop(∃ κ : ℕ, cellInv ER (Rd (F := F) m) κ (kcell (c, k))))
    ∗ (bigSep Finset.univ fun k : Fin 57 => iprop(atPos ER (kcell (c, k)) 0 ∅ 0 ∗ reached ER (kcell (c, k)) 0)) ∗ toks (F := F) c)

theorem core_alloc (c : Dev nD) :
    iprop(Pipeline.ownSems0 osem c ∗ unscopedSems0 c ∗ G m c)
      ⊢ |={Set.univ}=> Gmid m c := by
  unfold G Gmid
  iintro ⟨Hos, Hus, Hst, Hat, Htok⟩
  ihave Hv := (sems0_eq (F := F) c) $$ [$]
  imod (show iprop((bigSep Finset.univ fun k : Fin 57 => semVal (kcell (c, k)) 0) ∗ bigSep Finset.univ fun k : Fin 57 => roundState ER (Rd (F := F) m) (kcell (c, k)) 0)
      ⊢ (|={Set.univ}=> bigSep Finset.univ fun k : Fin 57 => iprop(∃ κ : ℕ, cellInv ER (Rd (F := F) m) κ (kcell (c, k))) : sProp 𝕄) from by
        rw [← bigSep_sep']
        exact (bigSep_mono fun k _ => (Rounds.body_intro ER (Rd (F := F) m) (kcell (c, k))).trans inv_alloc).trans (bigSep_fupd _ _)) $$ [$] with Hinv
  imodintro
  iframe

theorem duties_kcell (ck : Dev nD × Fin 57) : (Rd (F := F) m).duties (kcell ck) 0 = dutiesOf ck.1 (csem ck.2) := by
  dsimp only [Rd]; exact if_pos ⟨rfl, rfl⟩

theorem toks_around : (bigSep Finset.univ fun c : Dev nD => (toks (F := F) c : sProp 𝕄)) = bigSep Finset.univ fun d : Dev nD => payToks m d := by
  unfold toks payToks
  rw [← bigSep_univ_prod (fun ck : Dev nD × Fin 57 => bigSep Finset.univ fun d : Dev nD =>
    (if d ∈ dutiesOf ck.1 (csem ck.2) then dutyTok ER (kcell ck) 0 d else iprop(emp) : sProp 𝕄)), bigSep_univ_comm]
  exact bigSep_congr fun d _ => bigSep_congr fun ck _ => by rw [duties_kcell]

theorem ghost_intro (K : Dev nD × Fin 57 → ℕ) (c : Dev nD) : iprop(records m K ∗ positions (F := F) c ∗ payToks m c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Gmid m c : sProp 𝕄) ⊢ bigSep Finset.univ (G' m) := by
  unfold Gmid
  rw [bigSep_sep', bigSep_sep', ← bigSep_univ_prod (fun ck : Dev nD × Fin 57 => iprop(∃ κ : ℕ, cellInv ER (Rd (F := F) m) κ (kcell ck))),
    bigSep_congr (s := Finset.univ) (fun (c : Dev nD) _ => bigSep_sep' Finset.univ (fun k : Fin 57 => (atPos ER (kcell (c, k)) 0 ∅ 0 : sProp 𝕄)) (fun k => reached ER (kcell (c, k)) 0)),
    bigSep_sep', ← bigSep_univ_prod (fun ck : Dev nD × Fin 57 => (reached ER (kcell ck) 0 : sProp 𝕄))]
  iintro ⟨HI, ⟨Hat, #HR⟩, Htok⟩
  ihave HK := (BI.bigSep_exists_pi Finset.univ (fun (ck : Dev nD × Fin 57) (κ : ℕ) => (cellInv ER (Rd (F := F) m) κ (kcell ck) : sProp 𝕄))) $$ HI
  icases HK with ⟨%K, #HI⟩
  ihave Htk := (Entails.of_eq (toks_around m)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks m c)).symm)
    unfold positions
    iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Dist

end
-- ==== Proof.DCred.lean ====
import proofs.«900988_g7700000000000989_dist_mlpseq_tp1d_bs_rep_b64_d1024_h2048_v7x_i4_f32_1_alg».proof.Proof.DCredDef

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem bar_eq_iff {a b : Dev nD} : Iff (barCell a = barCell b) (a = b) :=
  ⟨fun h => Fin.ext (congrArg (fun g : GSem nD τ sig => g.1.1.val) h), fun h => h ▸ rfl⟩

theorem rcv_ne_bar {a b : Dev nD} {p : Fin 7} {s : Dev nD} : rcvCell a p s ≠ barCell b := by
  intro h; cases congrArg Prod.snd h

theorem rcv_eq_iff {a b : Dev nD} {p p' : Fin 7} {s s' : Dev nD} :
    Iff (rcvCell a p s = rcvCell b p' s') (a = b ∧ p = p' ∧ s = s') := by
  constructor
  · intro h
    have ha : a = b := Fin.ext (congrArg (fun g : GSem nD τ sig => g.1.1.val) h)
    have hv : 22 + 4 * p.val + s.val = 22 + 4 * p'.val + s'.val := congrArg Fin.val (SemLoc.dma.inj (congrArg Prod.snd h))
    have h1 : s.val < 4 := s.isLt
    have h2 : s'.val < 4 := s'.isLt
    exact ⟨ha, Fin.ext (by omega), Fin.ext (by omega)⟩
  · rintro ⟨rfl, rfl, rfl⟩; rfl

theorem rem_apply (c : Dev nD) (k : Nat) (g : GSem nD τ sig) :
    rem c k g () = ∑ i ∈ Finset.range k, if payCell c (23 - i) = g then payAmt (23 - i) else 0 := by
  induction k with
  | zero => rfl
  | succ k ih =>
    rw [rem_succ, Pi.add_apply, Finsupp.add_apply, ih, Finset.sum_range_succ]
    congr 1
    unfold pay
    rw [tallyAt_apply]
    by_cases h : payCell c (23 - k) = g
    · rw [if_pos h, if_pos ⟨h.symm, rfl⟩]
    · rw [if_neg h, if_neg (fun hh => h hh.1.symm)]

theorem pay_bar (d c : Dev nD) (j : Nat) :
    (if payCell d j = barCell c then payAmt j else 0) = if j < 3 ∧ pr d (j + 1) = c then 1 else 0 := by
  unfold payCell payAmt
  by_cases hj : j < 3
  · rw [if_pos hj, if_pos hj]
    exact if_congr (bar_eq_iff.trans ⟨fun h => ⟨hj, h⟩, fun h => h.2⟩) rfl rfl
  · rw [if_neg hj, if_neg rcv_ne_bar, if_neg (fun hh => hj hh.1)]

theorem pay_rcv (d c : Dev nD) (p : Fin 7) (s : Dev nD) (j : Nat) :
    (if payCell d j = rcvCell c p s then payAmt j else 0)
      = amt p * if ¬ j < 3 ∧ pr d (ordOf ⟨((j - 3) / 3) % 7, Nat.mod_lt _ (by decide)⟩ ⟨(j - 3) % 3, Nat.mod_lt _ (by decide)⟩) = c
          ∧ (⟨((j - 3) / 3) % 7, Nat.mod_lt _ (by decide)⟩ : Fin 7) = p ∧ d = s then 1 else 0 := by
  unfold payCell payAmt
  by_cases hj : j < 3
  · rw [if_pos hj, if_neg (fun hh => rcv_ne_bar hh.symm), if_neg (fun hh => hh.1 hj), Nat.mul_zero]
  · rw [if_neg hj, if_neg hj, mul_boole]
    exact if_ctx_congr (rcv_eq_iff.trans ⟨fun h => ⟨hj, h⟩, fun h => h.2⟩) (fun h => by rw [h.2.2.1]) fun _ => rfl

theorem owed_bar (d c : Dev nD) : O₀ d (barCell c) () = if d ≠ c then 1 else 0 := by
  unfold O₀
  rw [rem_apply, Finset.sum_congr rfl fun i _ => pay_bar d c (23 - i)]
  revert d c; decide +kernel

theorem owed_rcv (d c : Dev nD) (p : Fin 7) (s : Dev nD) : O₀ d (rcvCell c p s) () = if d = s ∧ s ≠ c then amt p else 0 := by
  unfold O₀
  rw [rem_apply, Finset.sum_congr rfl fun i _ => pay_rcv d c p s (23 - i), ← Finset.mul_sum,
    ← mul_boole (d = s ∧ s ≠ c) (amt p)]
  refine congrArg (fun n => amt p * n) ?_
  revert d c p s; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_rcv (c : Dev nD) (p : Fin 7) (s : Dev nD) (h : s ≠ c) :
    tallyOn (rcvCell c p s) (launchCredit (Pipeline.owing O₀) 0 (rcvCell c p s)) = (tallyAt (rcvCell c p s) () (amt p) : CellTallies nD τ sig Unit) := by
  unfold tallyAt; refine congrArg _ (Finsupp.ext fun u => ?_); cases u
  rw [Pipeline.launchCredit_owing, Finsupp.single_eq_same, Finset.sum_congr rfl fun d _ => owed_rcv d c p s,
    Finset.sum_congr rfl fun d _ => show (if d = s ∧ s ≠ c then amt p else 0) = if s = d then amt p else 0 from
      if_congr ⟨fun hh => hh.1.symm, fun hh => ⟨hh.symm, h⟩⟩ rfl rfl,
    Finset.sum_ite_eq Finset.univ s fun _ => amt p, if_pos (Finset.mem_univ _)]

def rcvSem (c : Dev nD) (po : Fin 7 × Fin 3) : SemLoc sig := .dma (rcvS po.1 (pr c (po.2.val + 1)))

theorem rcvSem_inj (c : Dev nD) : Function.Injective (rcvSem c) := by
  rintro ⟨p, o⟩ ⟨p', o'⟩ h
  have hv : 22 + 4 * p.val + (c.val + (o.val + 1)) % 4 = 22 + 4 * p'.val + (c.val + (o'.val + 1)) % 4 :=
    congrArg Fin.val (SemLoc.dma.inj h)
  have hc : c.val < 4 := c.isLt
  have ho := o.isLt
  have ho' := o'.isLt
  exact Prod.ext (Fin.ext (by show p.val = p'.val; omega)) (Fin.ext (by show o.val = o'.val; omega))

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  have e : (bigSep Finset.univ fun po : Fin 7 × Fin 3 => (cred (tallyAt (rcvCell c po.1 (pr c (po.2.val + 1))) () (amt po.1)) : sProp 𝕄))
      = bigSep (Finset.univ.image (rcvSem c)) fun sm : SemLoc sig =>
          cred (tallyOn ((c.tc : Thread nD τ), sm) (launchCredit (Pipeline.owing O₀) 0 ((c.tc : Thread nD τ), sm))) := by
    rw [bigSep_image_of_injOn (rcvSem_inj c).injOn]
    exact bigSep_congr fun po _ => congrArg cred
      (launch_rcv c po.1 (pr c (po.2.val + 1)) (pr_ne c _ (by omega) (by have := po.2.isLt; omega))).symm
  rw [e]
  refine bigSep_subset fun sm h => ?_
  obtain ⟨po, _, rfl⟩ := Finset.mem_image.mp h
  exact Finset.mem_erase.mpr ⟨fun hh => (by cases hh), Finset.mem_univ _⟩

end Cert.KernelIdeal.Dist

end
-- ==== Proof.DLevels.lean ====
import proofs.«900988_g7700000000000989_dist_mlpseq_tp1d_bs_rep_b64_d1024_h2048_v7x_i4_f32_1_alg».proof.Proof.DOwed

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem rem_pos {c : Dev nD} {k : Nat} {g : GSem nD τ sig} {u : Unit} (hk : k ≤ 24) (h : 0 < rem c k g u) :
    ∃ i, 24 - k ≤ i ∧ i < 24 ∧ g = payCell c i := by
  induction k with
  | zero => exact absurd h (Nat.lt_irrefl 0)
  | succ k ih =>
    rw [rem_succ, Pi.add_apply, Finsupp.add_apply] at h
    by_cases h1 : 0 < rem c k g u
    · obtain ⟨i, hi1, hi2, hi3⟩ := ih (by omega) h1
      exact ⟨i, by omega, hi2, hi3⟩
    · have h2 : 0 < pay c (23 - k) g u := by omega
      unfold pay at h2
      rw [tallyAt_apply] at h2
      by_cases hg : g = payCell c (23 - k) ∧ u = ()
      · exact ⟨23 - k, by omega, by omega, hg.1⟩
      · rw [if_neg hg] at h2; exact absurd h2 (Nat.lt_irrefl 0)

theorem lv_rcv (c : Dev nD) (p : Fin 7) (s : Dev nD) : lv (rcvCell c p s) () = 2 + p.val := by
  revert c p s; decide
theorem lv_payCell (c : Dev nD) (i : Nat) (hi : i < 24) : lv (payCell c i) () = if i < 3 then 1 else 2 + (i - 3) / 3 := by
  interval_cases i <;> revert c <;> decide

theorem L_payCell (c : Dev nD) (i : Nat) : L (payCell c i) = {()} := by
  unfold payCell; split <;> exact L_tc _ _

private theorem mayWait_of (c : Dev nD) (sm : SemLoc sig) {k : Nat} (hk : k ≤ 24) (b : ℕ) (hb : lv ((c : Thread nD τ), sm) () ≤ b)
    (hi : ∀ i, 24 - k ≤ i → i < 24 → b < (if i < 3 then 1 else 2 + (i - 3) / 3)) :
    (levAts L lv : sProp 𝕄) ⊢ MayWait (c : Thread nD τ) sm () (rem c k) :=
  MayOwe.of_cut (L := L) (lev := lv) b
    (fun p hp => by rw [Finset.mem_singleton.mp hp, L_tc]; exact Finset.mem_singleton_self _)
    (fun g u hg => by obtain ⟨i, -, -, rfl⟩ := rem_pos hk hg; rw [L_payCell]; exact Finset.mem_singleton_self _)
    (fun p hp => by rw [Finset.mem_singleton.mp hp]; exact hb)
    fun g u hg => by
      obtain ⟨i, hi1, hi2, rfl⟩ := rem_pos hk hg
      show b < lv (payCell c i) ()
      rw [lv_payCell c i hi2]; exact hi i hi1 hi2

theorem mayWait_low (c : Dev nD) (q : DmaSem sig) (hq : ¬ (22 ≤ q.val ∧ q.val < 50)) (k : Nat) (hk : k ≤ 24) :
    (levAts L lv : sProp 𝕄) ⊢ MayWait (c : Thread nD τ) (.dma q) () (rem c k) :=
  mayWait_of c _ hk 0 (by dsimp only [lv]; rw [if_neg hq]) fun i _ _ => by split <;> omega
theorem mayWait_low_zero (c : Dev nD) (sm : SemLoc sig) :
    (levAts L lv : sProp 𝕄) ⊢ MayWait (c : Thread nD τ) sm () (0 : CellTallies nD τ sig Unit) := by
  rw [MayWait_zero]; iintro -; iempintro

theorem mayWait_bar (c : Dev nD) :
    (levAts L lv : sProp 𝕄) ⊢ MayWait (c : Thread nD τ) (.reg barS) () (rem c 21) :=
  mayWait_of c _ (by omega) 1 (Nat.le_refl 1) fun i h1 _ => by split <;> omega

theorem mayWait_rcv (c : Dev nD) (p : Fin 7) (s : Dev nD) (k : Nat) (hk : k + 3 * (p.val + 1) ≤ 21) :
    (levAts L lv : sProp 𝕄) ⊢ MayWait (c : Thread nD τ) (.dma (rcvS p s)) () (rem c k) :=
  mayWait_of c _ (by omega) (2 + p.val) (Nat.le_of_eq (lv_rcv c p s)) fun i h1 _ => by split <;> omega

end Cert.KernelIdeal.Dist

end
-- ==== Proof.DLaunch.lean ====
import proofs.«900988_g7700000000000989_dist_mlpseq_tp1d_bs_rep_b64_d1024_h2048_v7x_i4_f32_1_alg».proof.Proof.DDat
import proofs.«900988_g7700000000000989_dist_mlpseq_tp1d_bs_rep_b64_d1024_h2048_v7x_i4_f32_1_alg».proof.Proof.DGhost
import proofs.«900988_g7700000000000989_dist_mlpseq_tp1d_bs_rep_b64_d1024_h2048_v7x_i4_f32_1_alg».proof.Proof.DCred
import proofs.«900988_g7700000000000989_dist_mlpseq_tp1d_bs_rep_b64_d1024_h2048_v7x_i4_f32_1_alg».proof.Proof.DLevels

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 24 (Nat.le_refl _)
    · exact mayWait_low_zero c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H1, H2, H3, H4, H5, H6, Hv⟩, Hlev, Hcr, -, HG⟩
  ihave Hc := (creds_intro (F := F) c) $$ Hcr
  imodintro
  unfold start wts
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  iframe

def Yc (c : Dev nD) : sProp 𝕄 := iprop(wts m c ∗ (((c : Thread nD τ).loc main_v1) ↦{fullShare} outAll m))

theorem phi1_exit (c : Dev nD) :
    (dats m ρ 0 c).Φ (Fin.last cfg0.N) ⊢ iprop(Yc m c ∗ Pipeline.ownSems0 osem c ∗ Pipeline.scopedRest cfg0.spec c) := by
  rw [show (dats m ρ 0 c).Φ (Fin.last cfg0.N) = Φ₁ m c from rfl]
  unfold Φ₁ Yc
  exact .rfl

private def kept (s : MemSt nD τ sig (Elt F)) (c : Dev nD) (b : Ref sig .tc) : Prop :=
  s.mem ((c : Thread nD τ).loc b) = m ((c : Thread nD τ).loc b)

def QC : PUnit × MemSt nD τ sig (Elt F) → Prop := fun r =>
  ∀ c : Dev nD, r.2.mem ((c : Thread nD τ).loc main_v1) = outAll m
    ∧ kept m r.2 c main_arg0 ∧ kept m r.2 c main_arg1 ∧ kept m r.2 c main_arg2 ∧ kept m r.2 c main_arg3
    ∧ kept m r.2 c main_arg4 ∧ kept m r.2 c main_arg5 ∧ kept m r.2 c main_arg6

theorem run_main (hbody : ∀ c, BodyObligation (dats (F := F) m ρ 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := Yc m) (Z := fun _ => iprop(emp))
    (hX := start_intro m ρ) (hin := phi0_intro m ρ) (hout := phi1_exit m ρ)
    (QY := fun c s => s.mem ((c : Thread nD τ).loc main_v1) = outAll m
      ∧ kept m s c main_arg1 ∧ kept m s c main_arg2 ∧ kept m s c main_arg3 ∧ kept m s c main_arg4 ∧ kept m s c main_arg5 ∧ kept m s c main_arg6)
    (hY := fun c s' => by
      unfold Yc wts
      iintro ⟨⟨⟨H1, H2, H3, H4, H5, H6⟩, Hv⟩, -, HSI⟩
      icombine HSI Hv gives %hv
      icombine HSI H1 gives %h1
      icombine HSI H2 gives %h2
      icombine HSI H3 gives %h3
      icombine HSI H4 gives %h4
      icombine HSI H5 gives %h5
      icombine HSI H6 gives %h6
      imodintro
      isplitr
      · ipureintro
        exact ⟨Buf.eq_of_forall_mem_univ hv, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun s h c => ⟨(h c).2.2.1,
      ((h c).1 0).trans ((dats (F := F) m ρ 0 c).arrAt_in 0 rfl _),
      (h c).2.2.2.1, (h c).2.2.2.2.1, (h c).2.2.2.2.2.1, (h c).2.2.2.2.2.2.1, (h c).2.2.2.2.2.2.2.1, (h c).2.2.2.2.2.2.2.2⟩)

end Cert.KernelIdeal.Dist

end
-- ==== Proof.DXstg.lean ====
import proofs.«900988_g7700000000000989_dist_mlpseq_tp1d_bs_rep_b64_d1024_h2048_v7x_i4_f32_1_alg».proof.Proof.DDat

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem xstg_eq (c : Dev nD) : xstg (F := F) m c = X (F := F) m c := by
  unfold xstg X
  show ((Memref.whole main_arg0 : Memref sig .tc .hbm S64x1024 .f32).access _ : View sig .tc _ _ _).read (Elt F) _ = _
  exact Memref.read_access_unit_zero (Elt F) main_arg0 (by funext a; fin_cases a <;> rfl) _ _

theorem after_eq (c : Dev nD) (t : Fin cfg0.N) : (dats (F := F) m ρ 0 c).after (0 : Fin 1) t = X (F := F) m c := xstg_eq m c

theorem before_eq (c : Dev nD) (t : Fin cfg0.N) (d) : (dats (F := F) m ρ 0 c).before (0 : Fin 1) t d = X (F := F) m c := by
  unfold Dat.before
  rw [if_pos (fetch0_0 t)]
  exact xstg_eq m c

end Cert.KernelIdeal.Dist
-- ==== Proof.DBodyArgs.lean ====
import proofs.«900988_g7700000000000989_dist_mlpseq_tp1d_bs_rep_b64_d1024_h2048_v7x_i4_f32_1_alg».proof.Proof.DDat
import proofs.«900988_g7700000000000989_dist_mlpseq_tp1d_bs_rep_b64_d1024_h2048_v7x_i4_f32_1_alg».proof.Proof.Gen.KernelIdeal.Skeleton

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-- A function of the kernel's twenty buffers, at the buffers the launch calls the body with. -/
abbrev atArgs {β : Type 1} (f : (arg0 : Memref sig .tc .vmem S64x1024 .f32) → arg0.IsWhole → (arg1 : Memref sig .tc .hbm S1024x2048 .f32) → arg1.IsWhole → (arg2 : Memref sig .tc .hbm S2048x1024 .f32) → arg2.IsWhole → (arg3 : Memref sig .tc .hbm S1024x2048 .f32) → arg3.IsWhole → (arg4 : Memref sig .tc .hbm S2048x1024 .f32) → arg4.IsWhole → (arg5 : Memref sig .tc .hbm S1024x2048 .f32) → arg5.IsWhole → (arg6 : Memref sig .tc .hbm S2048x1024 .f32) → arg6.IsWhole → (arg7 : Memref sig .tc .hbm S256x1024 .f32) → arg7.IsWhole → (arg8 : Memref sig .tc .vmem S3x256x1024 .bf16) → arg8.IsWhole → (arg9 : Memref sig .tc .vmem S3x4x64x1024 .bf16) → arg9.IsWhole → (arg10 : Memref sig .tc .vmem S256x1024 .bf16) → arg10.IsWhole → (arg11 : Memref sig .tc .vmem S2x1024x2048 .f32) → arg11.IsWhole → (arg12 : Memref sig .tc .vmem S2x2048x1024 .f32) → arg12.IsWhole → (arg13 : Memref sig .tc .vmem S2x1024x2048 .bf16) → arg13.IsWhole → (arg14 : Memref sig .tc .vmem S2x2048x1024 .bf16) → arg14.IsWhole → (arg15 : Memref sig .tc .vmem S64x1024 .f32) → arg15.IsWhole → DmaSems sig S7x3 → DmaSems sig S7x4 → DmaSems sig S3x2 → DmaSems sig S1 → β) : β :=
  f (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

abbrev BODY : Prog (TpuEff nD τ sig (Elt F) Λ₀ .tc) PUnit := atArgs (cc0_body (F := F))
abbrev P1 := atArgs (k0_part1 (F := F))
abbrev P2 := atArgs (k0_part2 (F := F))
abbrev P3 := atArgs (k0_part3 (F := F))
abbrev P4 := atArgs (k0_part4 (F := F))
abbrev P5 := atArgs (k0_part5 (F := F))
abbrev P6 := atArgs (k0_part6 (F := F))
abbrev P7 := atArgs (k0_part7 (F := F))
abbrev P8 := atArgs (k0_part8 (F := F))
abbrev P9 := atArgs (k0_part9 (F := F))
abbrev P10 := atArgs (k0_part10 (F := F))
abbrev P11 := atArgs (k0_part11 (F := F))
abbrev P12 := atArgs (k0_part12 (F := F))
abbrev P13 := atArgs (k0_part13 (F := F))
abbrev P14 := atArgs (k0_part14 (F := F))
abbrev P15 := atArgs (k0_part15 (F := F))
abbrev P16 := atArgs (k0_part16 (F := F))
abbrev P17 := atArgs (k0_part17 (F := F))
abbrev P18 := atArgs (k0_part18 (F := F))
abbrev P19 := atArgs (k0_part19 (F := F))
abbrev P20 := atArgs (k0_part20 (F := F))
abbrev P21 := atArgs (k0_part21 (F := F))
abbrev P22 := atArgs (k0_part22 (F := F))
abbrev P23 := atArgs (k0_part23 (F := F))
abbrev P24 := atArgs (k0_part24 (F := F))
abbrev P25 := atArgs (k0_part25 (F := F))
abbrev P26 := atArgs (k0_part26 (F := F))
abbrev P27 := atArgs (k0_part27 (F := F))
abbrev P28 := atArgs (k0_part28 (F := F))
abbrev P29 := atArgs (k0_part29 (F := F))
abbrev P30 := atArgs (k0_part30 (F := F))
abbrev P31 := atArgs (k0_part31 (F := F))
abbrev P32 := atArgs (k0_part32 (F := F))
abbrev P33 := atArgs (k0_part33 (F := F))
abbrev P34 := atArgs (k0_part34 (F := F))
abbrev P35 := atArgs (k0_part35 (F := F))
abbrev P36 := atArgs (k0_part36 (F := F))
abbrev P37 := atArgs (k0_part37 (F := F))
abbrev P38 := atArgs (k0_part38 (F := F))
abbrev P39 := atArgs (k0_part39 (F := F))
abbrev P40 := atArgs (k0_part40 (F := F))
abbrev P41 := atArgs (k0_part41 (F := F))
abbrev P42 := atArgs (k0_part42 (F := F))
abbrev P43 := atArgs (k0_part43 (F := F))
abbrev P44 := atArgs (k0_part44 (F := F))
abbrev P45 := atArgs (k0_part45 (F := F))
abbrev P46 := atArgs (k0_part46 (F := F))
abbrev P47 := atArgs (k0_part47 (F := F))
abbrev P48 := atArgs (k0_part48 (F := F))
abbrev P49 := atArgs (k0_part49 (F := F))
abbrev P50 := atArgs (k0_part50 (F := F))
abbrev P51 := atArgs (k0_part51 (F := F))
abbrev P52 := atArgs (k0_part52 (F := F))
abbrev P53 := atArgs (k0_part53 (F := F))
abbrev P54 := atArgs (k0_part54 (F := F))

end Cert.KernelIdeal.Dist

end
-- ==== Proof.DBodyKits.lean ====
import proofs.«900988_g7700000000000989_dist_mlpseq_tp1d_bs_rep_b64_d1024_h2048_v7x_i4_f32_1_alg».proof.Proof.DDat
import proofs.«900988_g7700000000000989_dist_mlpseq_tp1d_bs_rep_b64_d1024_h2048_v7x_i4_f32_1_alg».proof.Proof.DTables
import proofs.«900988_g7700000000000989_dist_mlpseq_tp1d_bs_rep_b64_d1024_h2048_v7x_i4_f32_1_alg».proof.Proof.DLevels

noncomputable section

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

abbrev peer (j : Fin 3) : Dev nD := pr c (j.val + 1)

def sndKit (p : Fin 7) : sProp 𝕄 := bigSep Finset.univ fun j : Fin 3 =>
  iprop(dutyTok ER (sndCell c p j) 0 c ∗ atPos ER (sndCell c p j) 0 ∅ 0 ∗ dutyTok ER (rcvCell (peer c j) p c) 0 c)

def rcvKit (p : Fin 7) : sProp 𝕄 := bigSep Finset.univ fun j : Fin 3 =>
  iprop(cred (tallyAt (rcvCell c p (peer c j)) () (amt p)) ∗ atPos ER (rcvCell c p (peer c j)) 0 ∅ 0)

def wcpKit (l : Fin 3) : sProp 𝕄 := bigSep Finset.univ fun j : Fin 2 =>
  iprop(dutyTok ER (wcpCell c l j) 0 c ∗ atPos ER (wcpCell c l j) 0 ∅ 0)

def outKit : sProp 𝕄 := iprop(dutyTok ER (outCell c) 0 c ∗ atPos ER (outCell c) 0 ∅ 0)

def barKit : sProp 𝕄 :=
  iprop((bigSep Finset.univ fun j : Fin 3 => dutyTok ER (barCell (peer c j)) 0 c)
    ∗ cred (tallyAt (barCell c) () 3) ∗ atPos ER (barCell c) 0 ∅ 0)

def idleKit : sProp 𝕄 := bigSep Finset.univ fun p : Fin 7 => atPos ER (rcvCell c p c) 0 ∅ 0

def sndDone (p : Fin 7) : sProp 𝕄 := bigSep Finset.univ fun j : Fin 3 => atPos ER (sndCell c p j) 1 ∅ 0
def rcvDone (p : Fin 7) : sProp 𝕄 := bigSep Finset.univ fun j : Fin 3 => atPos ER (rcvCell c p (peer c j)) 1 ∅ 0
def wcpDone (l : Fin 3) : sProp 𝕄 := bigSep Finset.univ fun j : Fin 2 => atPos ER (wcpCell c l j) 1 ∅ 0
def outDone : sProp 𝕄 := atPos ER (outCell c) 1 ∅ 0

def owesX (k : ℕ) : sProp 𝕄 := iprop(∃ W : Waits sig Unit, owes (c : Thread nD τ) (rem c k) W)

end Cert.KernelIdeal.Dist

end
-- ==== Proof.DBodyWait.lean ====
import proofs.«900988_g7700000000000989_dist_mlpseq_tp1d_bs_rep_b64_d1024_h2048_v7x_i4_f32_1_alg».proof.Proof.DTables
import proofs.«900988_g7700000000000989_dist_mlpseq_tp1d_bs_rep_b64_d1024_h2048_v7x_i4_f32_1_alg».proof.Proof.DLevels
import proofs.«900988_g7700000000000989_dist_mlpseq_tp1d_bs_rep_b64_d1024_h2048_v7x_i4_f32_1_alg».proof.Proof.DDat

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

def sndK (p : Fin 7) (j : Fin 3) : Fin 57 := ⟨3 * p.val + j.val, by have := p.isLt; have := j.isLt; omega⟩
def rcvK (p : Fin 7) (s : Dev nD) : Fin 57 := ⟨21 + 4 * p.val + s.val, by have := p.isLt; have h4 : s.val < 4 := s.isLt; omega⟩
def wcpK (l : Fin 3) (j : Fin 2) : Fin 57 := ⟨49 + 2 * l.val + j.val, by have := l.isLt; have := j.isLt; omega⟩
def outK : Fin 57 := ⟨55, by omega⟩
def barK : Fin 57 := ⟨56, by omega⟩

-- A cell numbered below 56 in the launch's enumeration is the DMA semaphore one above its number.
theorem kcell_dma (c : Dev nD) (k : Fin 57) (q : DmaSem sig) (h : k.val + 1 = q.val) :
    kcell (c, k) = ((c : Thread nD τ), SemLoc.dma q) := by
  have hq : q.val < 57 := q.isLt
  show ((c : Thread nD τ), csem k) = _
  unfold csem osem
  rw [dif_pos (show k.val < 56 by omega)]
  exact congrArg (fun x => ((c : Thread nD τ), SemLoc.dma x)) (Fin.ext h)
theorem kcell_snd (c : Dev nD) (p : Fin 7) (j : Fin 3) : kcell (c, sndK p j) = sndCell c p j :=
  kcell_dma c _ _ (by show 3 * p.val + j.val + 1 = 1 + 3 * p.val + j.val; omega)
theorem kcell_rcv (c : Dev nD) (p : Fin 7) (s : Dev nD) : kcell (c, rcvK p s) = rcvCell c p s :=
  kcell_dma c _ _ (by show 21 + 4 * p.val + s.val + 1 = 22 + 4 * p.val + s.val; omega)
theorem kcell_wcp (c : Dev nD) (l : Fin 3) (j : Fin 2) : kcell (c, wcpK l j) = wcpCell c l j :=
  kcell_dma c _ _ (by show 49 + 2 * l.val + j.val + 1 = 50 + 2 * l.val + j.val; omega)
theorem kcell_out (c : Dev nD) : kcell (c, outK) = outCell c := rfl
theorem kcell_bar (c : Dev nD) : kcell (c, barK) = barCell c := rfl

section Wait
variable (K : Dev nD × Fin 57 → ℕ) (c : Dev nD)

-- What a wait on cell `(c, sm)` for its whole round 0 of amount `a` proves: the round's payloads `P` come out, and `sm` is recorded among the waits.
abbrev WaitAt {Γ : PendingWaitsCtx sig Unit} {Es : Set ℕ} {α : Type} (Q : α → sProp 𝕄)
    (k : PUnit → Prog (TpuEff nD τ sig (Elt F) Λ₀ .tc) α) (w : TpuEff nD τ sig (Elt F) Λ₀ .tc PUnit) (sm : SemLoc sig) (a : ℕ)
    (O : CellTallies nD τ sig Unit) (W : Waits sig Unit) (P : sProp 𝕄) : Prop :=
  iprop(records m K ∗ cred (tallyAt ((c : Thread nD τ), sm) () a) ∗ owes (c : Thread nD τ) O W
      ∗ levAts L lv ∗ atPos ER ((c : Thread nD τ), sm) 0 ∅ 0)
    ⊢ iprop(((owes (c : Thread nD τ) O (insert (sm, ()) W)
            ∗ atPos ER ((c : Thread nD τ), sm) 1 ∅ 0 ∗ reached ER ((c : Thread nD τ), sm) 1 ∗ P)
          -∗ wp frame (wpE' (defs₀ (F := F)) 𝒱₀ (c : Thread nD τ) none Γ) Es (k ⟨⟩) Q)
        -∗ wp frame (wpE' (defs₀ (F := F)) 𝒱₀ (c : Thread nD τ) none Γ) Es (.op w k) Q)

private theorem wait_at {Γ : PendingWaitsCtx sig Unit} {Es : Set ℕ} {α : Type} {Q : α → sProp 𝕄}
    {k : PUnit → Prog (TpuEff nD τ sig (Elt F) Λ₀ .tc) α} (hEs : ∀ ck, K ck ∈ Es)
    {w : TpuEff nD τ sig (Elt F) Λ₀ .tc PUnit} {sm : SemLoc sig} {a : ℕ} {O : CellTallies nD τ sig Unit} {P : sProp 𝕄}
    (hw : ∀ K' : PUnit → sProp 𝕄, wpE' (defs₀ (F := F)) 𝒱₀ (c : Thread nD τ) none Γ Es w K'
      = waitSpec (c : Thread nD τ) Es sm a K')
    (κ : Fin 57) (hκ : kcell (c, κ) = ((c : Thread nD τ), sm))
    (he : (Rd (F := F) m).expect ((c : Thread nD τ), sm) 0 = a)
    (hr : bigSep ((Rd (F := F) m).duties ((c : Thread nD τ), sm) 0 \ ∅)
      (fun d => (Rd (F := F) m).payload ((c : Thread nD τ), sm) 0 d) = P)
    (hm : (levAts L lv : sProp 𝕄) ⊢ MayWait (c : Thread nD τ) sm () O) (W : Waits sig Unit) :
    WaitAt m K c (Γ := Γ) (Es := Es) Q k w sm a O W P := by
  subst hr
  have hi := inv_at m K (c, κ); rw [hκ] at hi
  exact (sep_mono_left hi).trans ((sep_mono_right (sep_mono_right (sep_mono_right (sep_mono_left hm)))).trans
    (Rounds.wp_wait_rest_token 𝒱₀ ER (Rd (F := F) m) (c : Thread nD τ) none hw (hEs _) () (R := 0) (m := 0) (T := ∅)
      (by rw [Nat.zero_add, he])))

-- With no pending waits around it, a wait on a DMA semaphore is the plain wait for the destination's amount.
private theorem hw_dma {Γ : PendingWaitsCtx sig Unit} {Es : Set ℕ} (hΓ : Γ.encl = []) {q : DmaSem sig} {a : ℕ}
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = a) (K' : PUnit → sProp 𝕄) :
    wpE' (defs₀ (F := F)) 𝒱₀ (c : Thread nD τ) none Γ Es (.waitDma2 q src dst hsrc hdst) K'
      = waitSpec (c : Thread nD τ) Es (.dma q) a K' := by
  rw [← hcr]
  exact (wpE'_waitDma2_eq 𝒱₀ (c : Thread nD τ) none Es Γ K').trans
    (waitSpecUnderPending_of_unpolled (c : Thread nD τ) Es (by rw [hΓ]; rfl) K')

theorem rcv_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (s : Dev nD) (hs : s ≠ c) (kk : ℕ) (hk : kk + 3 * (p.val + 1) ≤ 21) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = amt p) :
    WaitAt m K c (Γ := Γ) (Es := Es) Q k (.waitDma2 (rcvS p s) src dst hsrc hdst) (.dma (rcvS p s)) (amt p) (rem c kk) W (rcvPay m c p s) :=
  wait_at m K c hEs (hw_dma c hΓ hcr) (rcvK p s) (kcell_rcv c p s) (expect_rcv m c p s hs) (rest_rcv m c p s hs)
    (mayWait_rcv c p s kk hk) W

theorem snd_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (j : Fin 3) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = amt p) :
    WaitAt m K c (Γ := Γ) (Es := Es) Q k (.waitDma2 (sndS p j) src dst hsrc hdst) (.dma (sndS p j)) (amt p) (rem c kk) W (sndPay m c p j) :=
  wait_at m K c hEs (hw_dma c hΓ hcr) (sndK p j) (kcell_snd c p j) (expect_snd m c p j) (rest_snd m c p j)
    (mayWait_low c (sndS p j) (by have := p.isLt; have := j.isLt; rw [sndS_val]; omega) kk hk) W

theorem wcp_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (l : Fin 3) (j : Fin 2) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = Nw) :
    WaitAt m K c (Γ := Γ) (Es := Es) Q k (.waitDma2 (wcpS l j) src dst hsrc hdst) (.dma (wcpS l j)) Nw (rem c kk) W (wcpPay m c l j) :=
  wait_at m K c hEs (hw_dma c hΓ hcr) (wcpK l j) (kcell_wcp c l j) (expect_wcp m c l j) (rest_wcp m c l j)
    (mayWait_low c (wcpS l j) (by have := l.isLt; have := j.isLt; rw [wcpS_val]; omega) kk hk) W

theorem out_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
     (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = Nf) :
    WaitAt m K c (Γ := Γ) (Es := Es) Q k (.waitDma2 outS src dst hsrc hdst) (.dma outS) Nf (rem c kk) W (outcPay m c) :=
  wait_at m K c hEs (hw_dma c hΓ hcr) outK (kcell_out c) (expect_out m c) (rest_out m c)
    (mayWait_low c outS (by rw [outS_val]; omega) kk hk) W

theorem bar_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es) (W : Waits sig Unit) :
    WaitAt m K c (Γ := Γ) (Es := Es) Q k (.semWait barS 3) (.reg barS) 3 (rem c 21) W iprop(barPay (F := F) c (pr c 1) ∗ barPay (F := F) c (pr c 2) ∗ barPay (F := F) c (pr c 3)) :=
  wait_at m K c hEs (fun K' => (wpE'_semWait_eq 𝒱₀ (c : Thread nD τ) none Es Γ K').trans
    (waitSpecUnderPending_of_unpolled (c : Thread nD τ) Es (by rw [hΓ]; rfl) K')) barK (kcell_bar c) (expect_bar m c)
    (rest_bar m c) (mayWait_bar c) W

end Wait

end Cert.KernelIdeal.Dist

end
-- ==== Proof.DBodyEnds.lean ====
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DGhost
import proofs.«900988_g7700000000000989_dist_mlpseq_tp1d_bs_rep_b64_d1024_h2048_v7x_i4_f32_1_alg».proof.Proof.DCred
import Mathlib.Data.Fintype.EquivFin

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev CellIx : Type := Unit ⊕ (Fin 7 × Fin 3) ⊕ (Fin 7 × Fin 3) ⊕ Fin 7 ⊕ (Fin 3 × Fin 2) ⊕ Unit

def cellIx (c : Dev nD) : CellIx → Fin 57
  | .inl _ => barK
  | .inr (.inl pj) => sndK pj.1 pj.2
  | .inr (.inr (.inl pj)) => rcvK pj.1 (peer c pj.2)
  | .inr (.inr (.inr (.inl p))) => rcvK p c
  | .inr (.inr (.inr (.inr (.inl lj)))) => wcpK lj.1 lj.2
  | .inr (.inr (.inr (.inr (.inr _)))) => outK

theorem cellIx_bijective (c : Dev nD) : Function.Bijective (cellIx c) := by
  rw [Fintype.bijective_iff_injective_and_card]
  exact ⟨by revert c; decide +kernel, by decide +kernel⟩

abbrev TokIx : Type := Fin 3 ⊕ (Fin 7 × Fin 3) ⊕ (Fin 7 × Fin 3) ⊕ (Fin 3 × Fin 2) ⊕ Unit

def tokIx (c : Dev nD) : TokIx → Dev nD × Fin 57
  | .inl j => (peer c j, barK)
  | .inr (.inl pj) => (c, sndK pj.1 pj.2)
  | .inr (.inr (.inl pj)) => (peer c pj.2, rcvK pj.1 c)
  | .inr (.inr (.inr (.inl lj))) => (c, wcpK lj.1 lj.2)
  | .inr (.inr (.inr (.inr _))) => (c, outK)

theorem tokIx_injective (c : Dev nD) : Function.Injective (tokIx c) := by revert c; decide +kernel

theorem tokIx_image (c : Dev nD) :
    (Finset.univ.filter fun ck : Dev nD × Fin 57 => c ∈ dutiesOf ck.1 (csem ck.2)) = Finset.univ.image (tokIx c) := by
  revert c; decide +kernel

private theorem payToks_ix (c : Dev nD) : payToks m c = bigSep Finset.univ fun i : TokIx => (dutyTok ER (kcell (tokIx c i)) 0 c : sProp 𝕄) :=
  calc payToks m c
      = bigSep Finset.univ fun ck : Dev nD × Fin 57 =>
          (if c ∈ dutiesOf ck.1 (csem ck.2) then dutyTok ER (kcell ck) 0 c else iprop(emp) : sProp 𝕄) := by
        unfold payToks; exact bigSep_congr fun ck _ => by rw [duties_kcell]
    _ = bigSep (Finset.univ.filter fun ck : Dev nD × Fin 57 => c ∈ dutiesOf ck.1 (csem ck.2))
          fun ck => (dutyTok ER (kcell ck) 0 c : sProp 𝕄) := (bigSep_filter _ _ _).symm
    _ = _ := by classical rw [tokIx_image, bigSep_image_of_injOn ((tokIx_injective c).injOn)]

theorem unpack (c : Dev nD) :
    iprop(positions (F := F) c ∗ payToks m c ∗ creds (F := F) c)
      ⊢ iprop(barKit c ∗ (bigSep Finset.univ fun p : Fin 7 => iprop(sndKit c p ∗ rcvKit c p))
          ∗ (bigSep Finset.univ fun l : Fin 3 => wcpKit c l) ∗ outKit c ∗ idleKit c) := by
  unfold positions
  rw [bigSep_univ_equiv (Equiv.ofBijective _ (cellIx_bijective c)), payToks_ix]
  iterate 9 rw [bigSep_univ_sum]
  iterate 6 rw [bigSep_univ_prod]
  iterate 3 rw [bigSep_univ_of_subsingleton ()]
  simp only [Equiv.ofBijective_apply, cellIx, tokIx, kcell_snd, kcell_rcv, kcell_wcp, kcell_out, kcell_bar]
  show iprop((_ ∗ _ ∗ _ ∗ _ ∗ _ ∗ _) ∗ (_ ∗ _ ∗ _ ∗ _ ∗ _) ∗ _) ⊢ _
  unfold creds barKit sndKit rcvKit wcpKit outKit idleKit
  rw [bigSep_univ_prod]
  simp only [bigSep_sep']
  iintro ⟨⟨Pb, Ps, Pr, Pi, Pw, Po⟩, ⟨Tb, Ts, Tr, Tw, To⟩, Cb, Cr⟩
  iframe

abbrev OwnIx : Type := (Fin 7 × Fin 3) ⊕ (Fin 7 × Fin 3) ⊕ Fin 7 ⊕ (Fin 3 × Fin 2) ⊕ Unit

theorem cellIx_own_lt (c : Dev nD) (i : OwnIx) : (cellIx c (.inr i)).val < 56 := by revert c i; decide +kernel

def ownIx (c : Dev nD) (i : OwnIx) : Fin 56 := ⟨(cellIx c (.inr i)).val, cellIx_own_lt c i⟩

theorem ownIx_bijective (c : Dev nD) : Function.Bijective (ownIx c) := by
  rw [Fintype.bijective_iff_injective_and_card]
  exact ⟨by revert c; decide +kernel, by decide +kernel⟩

theorem kcell_own (c : Dev nD) (i : OwnIx) : ((c : Thread nD τ), osem (ownIx c i)) = kcell (c, cellIx c (.inr i)) := by
  show _ = ((c : Thread nD τ), csem (cellIx c (.inr i)))
  rw [← csem_castSucc (ownIx c i)]; rfl

section Close
variable (K : Dev nD × Fin 57 → ℕ) (Es : Set ℕ)

/-- A cell whose duties are over from round `R` on gives its semaphore back at zero. -/
theorem close_cell (hEs : ∀ ck, K ck ∈ Es) {ck : Dev nD × Fin 57} {x : GSem nD τ sig} (hx : kcell ck = x) (R : ℕ)
    (hR : ∀ r, R ≤ r → (Rd (F := F) m).duties x r = ∅) :
    iprop(records m K ∗ atPos ER x R ∅ 0) ⊢ iprop(|={Es}=> semVal x 0) := by
  subst hx
  iintro ⟨#Hrec, Hat⟩
  iapply (Rounds.cell_close ER (Rd (F := F) m) (hEs ck) (fun h => h) hR)
  isplitr
  · iapply (inv_at m K ck); iexact Hrec
  iexact Hat

theorem close_family {I : Type} [DecidableEq I] (S : Finset I) {Φ Ψ : I → sProp 𝕄}
    (h : ∀ i, iprop(records m K ∗ Φ i) ⊢ iprop(|={Es}=> Ψ i)) :
    iprop(records m K ∗ bigSep S Φ) ⊢ iprop(|={Es}=> bigSep S Ψ) :=
  (bigSep_with_persistent (R := records m K) fun i _ => h i).trans (bigSep_fupd _ _)

theorem close_all (hEs : ∀ ck, K ck ∈ Es) (c : Dev nD) :
    iprop(records m K ∗ (bigSep Finset.univ fun p : Fin 7 => iprop(sndDone c p ∗ rcvDone c p))
        ∗ (bigSep Finset.univ fun l : Fin 3 => wcpDone c l) ∗ outDone c ∗ idleKit c)
      ⊢ iprop(|={Es}=> Pipeline.ownSems0 (Ix := Unit) (Name := ℕ) (U := UU) (Lvl := ℕ) (Val := Elt F) (τ := τ) osem c) := by
  unfold Pipeline.ownSems0 sndDone rcvDone wcpDone outDone idleKit
  rw [bigSep_univ_equiv (Equiv.ofBijective _ (ownIx_bijective c))]
  simp only [Equiv.ofBijective_apply, kcell_own]
  rw [bigSep_univ_sum, bigSep_univ_sum, bigSep_univ_sum, bigSep_univ_sum,
    bigSep_univ_prod, bigSep_univ_prod, bigSep_univ_prod, bigSep_univ_of_subsingleton (), bigSep_sep']
  simp only [cellIx, kcell_snd, kcell_rcv, kcell_wcp, kcell_out]
  show _ ⊢ iprop(|={Es}=> (_ ∗ _ ∗ _ ∗ _ ∗ _))
  have hI (p : Fin 7) (r : ℕ) (_ : 0 ≤ r) : (Rd (F := F) m).duties (rcvCell c p c) r = ∅ := by
    rcases r.eq_zero_or_pos with rfl | hr
    exacts [duties_rcv_self m c p, duties_later m _ r hr]
  iintro ⟨#Hrec, ⟨Hs, Hr⟩, Hw, Ho, Hi⟩
  imod (close_family m K Es Finset.univ fun p : Fin 7 => close_family m K Es Finset.univ fun j : Fin 3 => close_cell m K Es hEs (kcell_snd c p j) 1 (duties_later m _)) $$ [$] with Hs
  imod (close_family m K Es Finset.univ fun p : Fin 7 => close_family m K Es Finset.univ fun j : Fin 3 => close_cell m K Es hEs (kcell_rcv c p (peer c j)) 1 (duties_later m _)) $$ [$] with Hr
  imod (close_family m K Es Finset.univ fun p : Fin 7 => close_cell m K Es hEs (kcell_rcv c p c) 0 (hI p)) $$ [$] with Hi
  imod (close_family m K Es Finset.univ fun l : Fin 3 => close_family m K Es Finset.univ fun j : Fin 2 => close_cell m K Es hEs (kcell_wcp c l j) 1 (duties_later m _)) $$ [$] with Hw
  imod (close_cell m K Es hEs (kcell_out c) 1 (duties_later m _)) $$ [$] with Ho
  imodintro
  iframe

end Close

end Cert.KernelIdeal.Dist

end
-- ==== Proof.DBodyVal.lean ====
import proofs.«900988_g7700000000000989_dist_mlpseq_tp1d_bs_rep_b64_d1024_h2048_v7x_i4_f32_1_alg».proof.Proof.DTables

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem pts_quarters {sp : Space} {s : Shape} {e : EltTy} (M : Memref sig .tc sp s e) (d : Dev nD)
    (f : Buf (Elt F) (M.view.loc (d : Thread nD τ))) :
    (pts (F := F) M d fullShare f) ⊣⊢ iprop(pts (F := F) M d (q4 0) f ∗ pts (F := F) M d (q4 1) f ∗ pts (F := F) M d (q4 2) f ∗ pts (F := F) M d (q4 3) f) := by
  have hs : ∀ q : PosShare TreeShare, (pts (F := F) M d q f) = iprop(pts (F := F) M d q.left f ∗ pts (F := F) M d q.right f) := fun q =>
    BI.equiv_iff.mp ⟨(pointsTo_share (PosShare.mem_left_op_right q)).1, (pointsTo_share (PosShare.mem_left_op_right q)).2⟩
  show _ ⊣⊢ iprop(pts (F := F) M d fullShare.left.left f ∗ pts (F := F) M d fullShare.left.right f ∗ pts (F := F) M d fullShare.right.left f ∗ pts (F := F) M d fullShare.right.right f)
  rw [hs fullShare, hs fullShare.left, hs fullShare.right]
  exact ⟨sep_assoc.1, sep_assoc.2⟩

theorem pointsTo_cover {ℓ : Loc nD τ sig} {T : Type} [Fintype T] [DecidableEq T] (K : T → Finset (Idx ℓ)) (cls : Idx ℓ → T)
    (h : ∀ i t, i ∈ K t ↔ cls i = t) (q : PosShare TreeShare) (f : Buf (Elt F) ℓ) :
    (ℓ ↦{q} f : sProp 𝕄) = bigSep Finset.univ fun t => (ℓ ↦[K t]{q} f : sProp 𝕄) := by
  have hU : (Finset.univ : Finset (Idx ℓ)) = Finset.univ.biUnion K := by
    ext i; simp only [Finset.mem_univ, Finset.mem_biUnion, true_and, true_iff]; exact ⟨cls i, (h i _).mpr rfl⟩
  show pointsTo ℓ Finset.univ q f = _
  rw [hU]
  exact pointsTo_biUnion Finset.univ K (fun t _ t' _ hne => Finset.disjoint_left.mpr fun i hi hi' =>
    hne (((h i t).mp hi).symm.trans ((h i t').mp hi')))

theorem bigSep_ring (c : Dev nD) (Φ : Dev nD → sProp 𝕄) :
    bigSep Finset.univ Φ = iprop(Φ c ∗ Φ (pr c 1) ∗ Φ (pr c 2) ∗ Φ (pr c 3)) :=
  bigSep_univ_eq_bigSepL [c, pr c 1, pr c 2, pr c 3] (by revert c; decide) (by revert c; decide) Φ

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin2 (Φ : Fin 2 → sProp 𝕄) : bigSep Finset.univ Φ = iprop(Φ 0 ∗ Φ 1) := bigSep_fin_two Φ

theorem mem_psM_set (s : Dev nD) (i : S256x1024.Idx) : i ∈ (psM s).view.set ↔ rowDev (i 0) = s := by
  have h : (psM s).view.set = (Rect.unit (s := S256x1024) ![64 * s.val, 0] S64x1024.size (rows_inb s)).set := View.set_slice_whole _ _
  refine (Finset.ext_iff.mp h i).trans (Rect.mem_set_unit.trans (Iff.trans ?_ Fin.ext_iff.symm))
  have hi1 : (i 1).val < 1024 := (i 1).isLt
  rw [Fin.forall_fin_two]
  show (64 * s.val ≤ (i 0).val ∧ (i 0).val < 64 * s.val + 64) ∧ (0 ≤ (i 1).val ∧ (i 1).val < 0 + 1024) ↔ (i 0).val / 64 = s.val
  omega

theorem ps_pieces (c : Dev nD) (q : PosShare TreeShare) (f : Vec F S256x1024 .bf16) :
    (((c : Thread nD τ).loc cc0_scratch2) ↦{q} f : sProp 𝕄) = bigSep Finset.univ fun s : Dev nD => pts (F := F) (psM s) c q f :=
  pointsTo_cover (F := F) (ℓ := (c : Thread nD τ).loc cc0_scratch2) (fun s : Dev nD => (psM s).view.set) (fun i : S256x1024.Idx => rowDev (i 0)) (fun (i : S256x1024.Idx) t => mem_psM_set t i) q f

theorem ps_ring (c : Dev nD) (q : PosShare TreeShare) (f : Vec F S256x1024 .bf16) :
    (((c : Thread nD τ).loc cc0_scratch2) ↦{q} f : sProp 𝕄)
      = iprop(pts (F := F) (psM c) c q f ∗ pts (F := F) (psM (pr c 1)) c q f ∗ pts (F := F) (psM (pr c 2)) c q f ∗ pts (F := F) (psM (pr c 3)) c q f) := by
  rw [ps_pieces, bigSep_ring c]

theorem mem_actsM_set (l : Fin 3) (s : Dev nD) (i : S3x256x1024.Idx) :
    i ∈ (actsM l s).view.set ↔ ((i 0 : Fin 3) = l ∧ rowDev (i 1) = s) := by
  have h : (actsM l s).view.set = (Rect.unit (s := S3x256x1024) ![l.val, 64 * s.val, 0] S1x64x1024.size (acts_inb l s)).set :=
    (Memref.set_view_squeeze (s' := S64x1024) _ squeezes_S1x64x1024_S64x1024).trans (View.set_slice_whole _ _)
  refine (Finset.ext_iff.mp h i).trans (Rect.mem_set_unit.trans (Iff.trans ?_ (and_congr Fin.ext_iff Fin.ext_iff).symm))
  have hi2 : (i 2).val < 1024 := (i 2).isLt
  rw [Fin.forall_fin_succ, Fin.forall_fin_two]
  show (l.val ≤ (i 0).val ∧ (i 0).val < l.val + 1) ∧ (64 * s.val ≤ (i 1).val ∧ (i 1).val < 64 * s.val + 64) ∧ (0 ≤ (i 2).val ∧ (i 2).val < 0 + 1024)
    ↔ (i 0).val = l.val ∧ (i 1).val / 64 = s.val
  omega

theorem acts_pieces (c : Dev nD) (q : PosShare TreeShare) (f : Vec F S3x256x1024 .bf16) :
    (((c : Thread nD τ).loc cc0_scratch0) ↦{q} f : sProp 𝕄)
      = bigSep Finset.univ fun l : Fin 3 => bigSep Finset.univ fun s : Dev nD => pts (F := F) (actsM l s) c q f := by
  rw [pointsTo_cover (F := F) (ℓ := (c : Thread nD τ).loc cc0_scratch0) (fun ls : Fin 3 × Dev nD => (actsM ls.1 ls.2).view.set)
    (fun i : S3x256x1024.Idx => ((i 0, rowDev (i 1)) : Fin 3 × Dev nD)) (fun (i : S3x256x1024.Idx) t => (mem_actsM_set t.1 t.2 i).trans (Prod.ext_iff (x := ((i 0 : Fin 3), rowDev (i 1))) (y := t)).symm) q f,
    bigSep_univ_prod]
  rfl

abbrev actsL (c : Dev nD) (q : PosShare TreeShare) (f : Vec F S3x256x1024 .bf16) (l : Fin 3) : sProp 𝕄 :=
  iprop(pts (F := F) (actsM l c) c q f ∗ pts (F := F) (actsM l (pr c 1)) c q f ∗ pts (F := F) (actsM l (pr c 2)) c q f ∗ pts (F := F) (actsM l (pr c 3)) c q f)

theorem acts_ring (c : Dev nD) (q : PosShare TreeShare) (f : Vec F S3x256x1024 .bf16) :
    (((c : Thread nD τ).loc cc0_scratch0) ↦{q} f : sProp 𝕄) = iprop(actsL c q f 0 ∗ actsL c q f 1 ∗ actsL c q f 2) := by
  rw [acts_pieces, bigSep_fin3, bigSep_ring c, bigSep_ring c, bigSep_ring c]

theorem mem_rsM_set (l : Fin 3) (s : Dev nD) (i : S3x4x64x1024.Idx) :
    i ∈ (rsM l s).view.set ↔ ((i 0 : Fin 3) = l ∧ (i 1 : Dev nD) = s) := by
  have h : (rsM l s).view.set = (Rect.unit (s := S3x4x64x1024) ![l.val, s.val, 0, 0] S1x1x64x1024.size (rs_inb l s)).set :=
    (Memref.set_view_squeeze (s' := S64x1024) _ squeezes_S1x1x64x1024_S64x1024).trans (View.set_slice_whole _ _)
  refine (Finset.ext_iff.mp h i).trans (Rect.mem_set_unit.trans (Iff.trans ?_ (and_congr Fin.ext_iff Fin.ext_iff).symm))
  have hi2 : (i 2).val < 64 := (i 2).isLt
  have hi3 : (i 3).val < 1024 := (i 3).isLt
  rw [Fin.forall_fin_succ, Fin.forall_fin_succ, Fin.forall_fin_two]
  show (l.val ≤ (i 0).val ∧ (i 0).val < l.val + 1) ∧ (s.val ≤ (i 1).val ∧ (i 1).val < s.val + 1) ∧ (0 ≤ (i 2).val ∧ (i 2).val < 0 + 64)
    ∧ (0 ≤ (i 3).val ∧ (i 3).val < 0 + 1024) ↔ (i 0).val = l.val ∧ (i 1).val = s.val
  omega

theorem rs_pieces (c : Dev nD) (q : PosShare TreeShare) (f : Vec F S3x4x64x1024 .bf16) :
    (((c : Thread nD τ).loc cc0_scratch1) ↦{q} f : sProp 𝕄)
      = bigSep Finset.univ fun l : Fin 3 => bigSep Finset.univ fun s : Dev nD => pts (F := F) (rsM l s) c q f := by
  rw [pointsTo_cover (F := F) (ℓ := (c : Thread nD τ).loc cc0_scratch1) (fun ls : Fin 3 × Dev nD => (rsM ls.1 ls.2).view.set)
    (fun i : S3x4x64x1024.Idx => ((i 0, i 1) : Fin 3 × Dev nD)) (fun (i : S3x4x64x1024.Idx) t => (mem_rsM_set t.1 t.2 i).trans (Prod.ext_iff (x := ((i 0 : Fin 3), (i 1 : Dev nD))) (y := t)).symm) q f,
    bigSep_univ_prod]
  rfl

abbrev rsL (c : Dev nD) (q : PosShare TreeShare) (f : Vec F S3x4x64x1024 .bf16) (l : Fin 3) : sProp 𝕄 :=
  iprop(pts (F := F) (rsM l c) c q f ∗ pts (F := F) (rsM l (pr c 1)) c q f ∗ pts (F := F) (rsM l (pr c 2)) c q f ∗ pts (F := F) (rsM l (pr c 3)) c q f)

theorem rs_ring (c : Dev nD) (q : PosShare TreeShare) (f : Vec F S3x4x64x1024 .bf16) :
    (((c : Thread nD τ).loc cc0_scratch1) ↦{q} f : sProp 𝕄) = iprop(rsL c q f 0 ∗ rsL c q f 1 ∗ rsL c q f 2) := by
  rw [rs_pieces, bigSep_fin3, bigSep_ring c, bigSep_ring c, bigSep_ring c]

section Steps

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

abbrev psR : Rect S256x1024 := Rect.unit (s := S256x1024) ![0, 0] S256x1024.size inb_S256x1024_S256x1024_0_0

theorem psR_off : (![0, 0] : Fin S256x1024.rank → Nat) = fun _ => 0 := by funext a; fin_cases a <;> rfl

theorem wp_ps_store (c : Dev nD) (f : Vec F S256x1024 .bf16) (w : Vec F S256x1024 .bf16)
    {hl : (Memref.whole cc0_scratch2 : Memref sig .tc .vmem S256x1024 .bf16).view.LoadsAt psR.toLoadRect}
    {hx : ((Memref.whole cc0_scratch2 : Memref sig .tc .vmem S256x1024 .bf16).access psR).Stores Finset.univ}
    {hm : (Finset.univ : Finset psR.shape.Idx) = Finset.univ ∨ ∀ a, psR.stride a = 1}
    {k : PUnit → Prog (TpuEff nD τ sig (Elt F) Λ₀ .tc) α} :
    iprop(pts (F := F) (psM c) c fullShare f ∗ pts (F := F) (psM (pr c 1)) c fullShare f ∗ pts (F := F) (psM (pr c 2)) c fullShare f ∗ pts (F := F) (psM (pr c 3)) c fullShare f)
      ⊢ iprop((iprop(pts (F := F) (psM c) c fullShare w ∗ pts (F := F) (psM (pr c 1)) c fullShare w ∗ pts (F := F) (psM (pr c 2)) c fullShare w ∗ pts (F := F) (psM (pr c 3)) c fullShare w)
            -∗ wp frame (wpE' defs 𝒱 (c : Thread nD τ) bd Γ) E (k ⟨⟩) Q)
          -∗ wp frame (wpE' defs 𝒱 (c : Thread nD τ) bd Γ) E
              (.op (.load (Memref.whole cc0_scratch2) psR.toLoadRect hl) fun _ =>
                .op (.store (Memref.whole cc0_scratch2) psR w Finset.univ hx hm) k) Q) := by
  rw [← ps_ring c fullShare f, ← ps_ring c fullShare w]
  iintro H Hk
  iapply (wp_load 𝒱 (c : Thread nD τ) bd E (m := (Memref.whole cc0_scratch2 : Memref sig .tc .vmem S256x1024 .bf16)) (r := psR.toLoadRect)
    (S := Finset.univ) (Finset.subset_univ _)) $$ H
  iintro H
  iapply (wp_store 𝒱 (c : Thread nD τ) bd E (m := (Memref.whole cc0_scratch2 : Memref sig .tc .vmem S256x1024 .bf16))
    (r := psR) (f := f) (S := Finset.univ) (Finset.subset_univ _)) $$ H
  rw [show ((Memref.whole cc0_scratch2 : Memref sig .tc .vmem S256x1024 .bf16).access psR).write (Elt F) f w Finset.univ = w from
    Memref.write_access_unit_zero_univ (Elt F) cc0_scratch2 psR_off _ f w]
  iexact Hk

end Steps

end Cert.KernelIdeal.Dist

end
-- ==== Proof.DBodyWb.lean ====
import proofs.«900988_g7700000000000989_dist_mlpseq_tp1d_bs_rep_b64_d1024_h2048_v7x_i4_f32_1_alg».proof.Proof.DProto

noncomputable section

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.ValueIdx

variable {F : FTy → Type} [FloatOps F]

local notation "𝕄" => MT nD τ sig Unit (Elt F) ℕ UU ℕ

def wb1M (b : Fin 2) : Memref sig .tc .vmem S1x1024x2048 .bf16 :=
  match b with
  | 0 => (Memref.whole cc0_scratch5 : Memref sig .tc .vmem S2x1024x2048 .bf16).slice (Rect.unit (s := S2x1024x2048) ![0, 0, 0] S1x1024x2048.size inb_S2x1024x2048_S1x1024x2048_0_0_0) (fun _ => rfl)
  | 1 => (Memref.whole cc0_scratch5 : Memref sig .tc .vmem S2x1024x2048 .bf16).slice (Rect.unit (s := S2x1024x2048) ![1, 0, 0] S1x1024x2048.size inb_S2x1024x2048_S1x1024x2048_1_0_0) (fun _ => rfl)

def wb2M (b : Fin 2) : Memref sig .tc .vmem S1x2048x1024 .bf16 :=
  match b with
  | 0 => (Memref.whole cc0_scratch6 : Memref sig .tc .vmem S2x2048x1024 .bf16).slice (Rect.unit (s := S2x2048x1024) ![0, 0, 0] S1x2048x1024.size inb_S2x2048x1024_S1x2048x1024_0_0_0) (fun _ => rfl)
  | 1 => (Memref.whole cc0_scratch6 : Memref sig .tc .vmem S2x2048x1024 .bf16).slice (Rect.unit (s := S2x2048x1024) ![1, 0, 0] S1x2048x1024.size inb_S2x2048x1024_S1x2048x1024_1_0_0) (fun _ => rfl)

variable (m : (ℓ : Loc nD τ sig) → Buf (Elt F) ℓ)

def wb1B (l : Fin 3) (c : Dev nD) : Vec F S2x1024x2048 .bf16 :=
  fun i => k0_pay2 (up1024x2048 (W1 (F := F) m l c)) (ix3 (0 : Fin 1) (i 1) (i 2))
def wb2B (l : Fin 3) (c : Dev nD) : Vec F S2x2048x1024 .bf16 :=
  fun i => k0_pay3 (up2048x1024 (W2 (F := F) m l c)) (ix3 (0 : Fin 1) (i 1) (i 2))

end Cert.KernelIdeal.Dist

end
-- ==== Proof.DBodyOpen.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyEnds
import proofs.«900988_g7700000000000989_dist_mlpseq_tp1d_bs_rep_b64_d1024_h2048_v7x_i4_f32_1_alg».proof.Proof.DBodyVal
import proofs.«900988_g7700000000000989_dist_mlpseq_tp1d_bs_rep_b64_d1024_h2048_v7x_i4_f32_1_alg».proof.Proof.DBodyWb

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem pts_ptsE {sp : Space} {s : Shape} {e : EltTy} (M : Memref sig .tc sp s e) (d : Dev nD)
    (f : Buf (Elt F) (M.view.loc (d : Thread nD τ))) : pts (F := F) M d fullShare f ⊢ ptsE (F := F) M d := by
  unfold pts ptsE; iintro H; iexists f; iexact H

theorem ent_of_eq {P Q : sProp 𝕄} (h : P = Q) : P ⊢ Q := by subst h; iintro H; iexact H

theorem pts_whole (b : Ref sig .tc) (c : Dev nD) (q : PosShare TreeShare) (f : Buf (Elt F) ((c : Thread nD τ).loc b)) :
    (((c : Thread nD τ).loc b) ↦{q} f : sProp 𝕄) = (((c : Thread nD τ).loc b) ↦[(View.whole b : View sig .tc _ _ _).set]{q} f : sProp 𝕄) :=
  congrArg (fun S => (pointsTo ((c : Thread nD τ).loc b) S q f : sProp 𝕄)) (View.set_whole b).symm

private theorem mem_slot {n0 n1 : Nat} (i : (⟨3, ![2, n0, n1]⟩ : Shape).Idx) {V : Finset (⟨3, ![2, n0, n1]⟩ : Shape).Idx} (b : Fin 2) {inb}
    (h : V = (Rect.unit (s := ⟨3, ![2, n0, n1]⟩) ![b.val, 0, 0] ![1, n0, n1] inb).set) : i ∈ V ↔ (i 0 : Fin 2) = b := by
  have hb := b.isLt
  have hi0 : (i 0).val < 2 := (i 0).isLt
  have hi1 : (i 1).val < n0 := (i 1).isLt
  have hi2 : (i 2).val < n1 := (i 2).isLt
  subst h
  refine Rect.mem_set_unit.trans ?_
  rw [Fin.forall_fin_succ, Fin.forall_fin_two]
  show (b.val ≤ (i 0).val ∧ (i 0).val < b.val + 1) ∧ (0 ≤ (i 1).val ∧ (i 1).val < 0 + n0) ∧ (0 ≤ (i 2).val ∧ (i 2).val < 0 + n1) ↔ _
  constructor
  · intro H; exact Fin.ext (by show (i 0).val = b.val; omega)
  · intro H; have := congrArg Fin.val H; change (i 0).val = b.val at this; omega

def wv1K (b : Fin 2) : Finset S2x1024x2048.Idx := if b = 0 then (wv1M 0).view.set else (wv1M 1).view.set
def wv2K (b : Fin 2) : Finset S2x2048x1024.Idx := if b = 0 then (wv2M 0).view.set else (wv2M 1).view.set
def wb1K (b : Fin 2) : Finset S2x1024x2048.Idx := if b = 0 then (wb1M 0).view.set else (wb1M 1).view.set
def wb2K (b : Fin 2) : Finset S2x2048x1024.Idx := if b = 0 then (wb2M 0).view.set else (wb2M 1).view.set

theorem mem_wv1K (i : S2x1024x2048.Idx) (b : Fin 2) : i ∈ wv1K b ↔ (i 0 : Fin 2) = b := by
  match b with
  | 0 | 1 => exact mem_slot i _ ((Memref.set_view_squeeze (s' := S1024x2048) _ squeezes_S1x1024x2048_S1024x2048).trans (View.set_slice_whole _ _))
theorem mem_wv2K (i : S2x2048x1024.Idx) (b : Fin 2) : i ∈ wv2K b ↔ (i 0 : Fin 2) = b := by
  match b with
  | 0 | 1 => exact mem_slot i _ ((Memref.set_view_squeeze (s' := S2048x1024) _ squeezes_S1x2048x1024_S2048x1024).trans (View.set_slice_whole _ _))
theorem mem_wb1K (i : S2x1024x2048.Idx) (b : Fin 2) : i ∈ wb1K b ↔ (i 0 : Fin 2) = b := by
  match b with
  | 0 | 1 => exact mem_slot i _ (View.set_slice_whole _ _)
theorem mem_wb2K (i : S2x2048x1024.Idx) (b : Fin 2) : i ∈ wb2K b ↔ (i 0 : Fin 2) = b := by
  match b with
  | 0 | 1 => exact mem_slot i _ (View.set_slice_whole _ _)

theorem mem_outM_set (s : Dev nD) (i : S256x1024.Idx) : i ∈ (outM s).view.set ↔ rowDev (i 0) = s := by
  have h : (outM s).view.set = (psM s).view.set := (View.set_slice_whole _ _).trans (View.set_slice_whole _ _).symm
  rw [h]
  exact mem_psM_set s i

theorem out_ring (c : Dev nD) (q : PosShare TreeShare) (f : Vec F S256x1024 .f32) :
    (((c : Thread nD τ).loc main_v1) ↦{q} f : sProp 𝕄)
      = iprop(pts (F := F) (outM c) c q f ∗ pts (F := F) (outM (pr c 1)) c q f ∗ pts (F := F) (outM (pr c 2)) c q f ∗ pts (F := F) (outM (pr c 3)) c q f) := by
  rw [pointsTo_cover (F := F) (ℓ := (c : Thread nD τ).loc main_v1) (fun s : Dev nD => (outM s).view.set) (fun i : S256x1024.Idx => rowDev (i 0))
    (fun (i : S256x1024.Idx) t => mem_outM_set t i) q f, bigSep_ring c]
  rfl

theorem stg_whole (c : Dev nD) (q : PosShare TreeShare) (f : Vec F S64x1024 .f32) :
    (((c : Thread nD τ).loc cc0_scratch7) ↦{q} f : sProp 𝕄) = pts (F := F) stgM c q f := by
  unfold pts
  exact congrArg (fun S => (pointsTo ((c : Thread nD τ).loc cc0_scratch7) S q f : sProp 𝕄)) (View.set_whole cc0_scratch7).symm

private theorem pieces_open {ℓ : Loc nD τ sig} {T : Type} [Fintype T] (P : Buf (Elt F) ℓ → T → sProp 𝕄) (E : T → sProp 𝕄)
    (hp : ∀ f, (ℓ ↦{fullShare} f : sProp 𝕄) = bigSep Finset.univ (P f)) (he : ∀ f t, P f t ⊢ E t) :
    iprop(∃ f : Buf (Elt F) ℓ, ℓ ↦{fullShare} f) ⊢ bigSep Finset.univ E := by
  iintro ⟨%f, H⟩
  rw [hp f]
  exact bigSep_mono fun t _ => he f t

private theorem slots_open {ℓ : Loc nD τ sig} (K : Fin 2 → Finset (Idx ℓ)) (cls : Idx ℓ → Fin 2) (h : ∀ i b, i ∈ K b ↔ cls i = b) :
    iprop(∃ f : Buf (Elt F) ℓ, ℓ ↦{fullShare} f)
      ⊢ iprop((∃ f : Buf (Elt F) ℓ, (ℓ ↦[K 0]{fullShare} f : sProp 𝕄)) ∗ (∃ f : Buf (Elt F) ℓ, (ℓ ↦[K 1]{fullShare} f : sProp 𝕄))) := by
  iintro ⟨%f, H⟩
  icases (ent_of_eq ((pointsTo_cover (F := F) K cls h fullShare f).trans (bigSep_fin2 _))) $$ H with ⟨H0, H1⟩
  isplitl [H0]
  · iexists f; iexact H0
  · iexists f; iexact H1
theorem wv1_open (c : Dev nD) :
    iprop(∃ f : Buf (Elt F) ((c : Thread nD τ).loc cc0_scratch3), ((c : Thread nD τ).loc cc0_scratch3) ↦{fullShare} f)
      ⊢ (iprop(ptsE (F := F) (wv1M 0) c ∗ ptsE (F := F) (wv1M 1) c) : sProp 𝕄) :=
  slots_open (F := F) (ℓ := (c : Thread nD τ).loc cc0_scratch3) wv1K (fun i : S2x1024x2048.Idx => (i 0 : Fin 2)) mem_wv1K
theorem wv2_open (c : Dev nD) :
    iprop(∃ f : Buf (Elt F) ((c : Thread nD τ).loc cc0_scratch4), ((c : Thread nD τ).loc cc0_scratch4) ↦{fullShare} f)
      ⊢ (iprop(ptsE (F := F) (wv2M 0) c ∗ ptsE (F := F) (wv2M 1) c) : sProp 𝕄) :=
  slots_open (F := F) (ℓ := (c : Thread nD τ).loc cc0_scratch4) wv2K (fun i : S2x2048x1024.Idx => (i 0 : Fin 2)) mem_wv2K
theorem wb1_open (c : Dev nD) :
    iprop(∃ f : Buf (Elt F) ((c : Thread nD τ).loc cc0_scratch5), ((c : Thread nD τ).loc cc0_scratch5) ↦{fullShare} f)
      ⊢ (iprop(ptsE (F := F) (wb1M 0) c ∗ ptsE (F := F) (wb1M 1) c) : sProp 𝕄) :=
  slots_open (F := F) (ℓ := (c : Thread nD τ).loc cc0_scratch5) wb1K (fun i : S2x1024x2048.Idx => (i 0 : Fin 2)) mem_wb1K
theorem wb2_open (c : Dev nD) :
    iprop(∃ f : Buf (Elt F) ((c : Thread nD τ).loc cc0_scratch6), ((c : Thread nD τ).loc cc0_scratch6) ↦{fullShare} f)
      ⊢ (iprop(ptsE (F := F) (wb2M 0) c ∗ ptsE (F := F) (wb2M 1) c) : sProp 𝕄) :=
  slots_open (F := F) (ℓ := (c : Thread nD τ).loc cc0_scratch6) wb2K (fun i : S2x2048x1024.Idx => (i 0 : Fin 2)) mem_wb2K
variable (m : (ℓ : Loc nD τ sig) → Buf (Elt F) ℓ) (c : Dev nD)

def inventory (K : Dev nD × Fin 57 → ℕ) : sProp 𝕄 :=
  iprop(records m K ∗ levAts L lv
    ∗ barKit (F := F) c ∗ (bigSep Finset.univ fun p : Fin 7 => iprop(sndKit (F := F) c p ∗ rcvKit (F := F) c p))
    ∗ (bigSep Finset.univ fun l : Fin 3 => wcpKit (F := F) c l) ∗ outKit (F := F) c ∗ idleKit (F := F) c
    ∗ wts m c ∗ owesX (F := F) c 24
    ∗ barPay (F := F) (pr c 1) c ∗ barPay (F := F) (pr c 2) c ∗ barPay (F := F) (pr c 3) c
    ∗ ptsE (F := F) (actsM 0 c) c ∗ ptsE (F := F) (actsM 1 c) c ∗ ptsE (F := F) (actsM 2 c) c
    ∗ ptsE (F := F) (rsM 0 c) c ∗ ptsE (F := F) (rsM 1 c) c ∗ ptsE (F := F) (rsM 2 c) c
    ∗ ptsE (F := F) (psM c) c ∗ ptsE (F := F) (psM (pr c 1)) c ∗ ptsE (F := F) (psM (pr c 2)) c ∗ ptsE (F := F) (psM (pr c 3)) c
    ∗ ptsE (F := F) (wv1M 0) c ∗ ptsE (F := F) (wv1M 1) c ∗ ptsE (F := F) (wv2M 0) c ∗ ptsE (F := F) (wv2M 1) c
    ∗ ptsE (F := F) (wb1M 0) c ∗ ptsE (F := F) (wb1M 1) c ∗ ptsE (F := F) (wb2M 0) c ∗ ptsE (F := F) (wb2M 1) c
    ∗ ptsE (F := F) stgM c ∗ ptsE (F := F) (outM c) c)

theorem owes_open (ρ : Dev nD → PrngReg) : ((dats m ρ 0 c).owesAt () 0 : sProp 𝕄) ⊢ owesX (F := F) c 24 := by
  unfold owesX
  iintro ⟨%W, %hW, Ho⟩
  iexists W
  iexact Ho

theorem opening (ρ : Dev nD → PrngReg) (t : Fin (cfg0.N + 1)) (ht : t = 0) :
    iprop(start m c ∗ Pipeline.scopedRest cfg0.spec c ∗ (dats m ρ 0 c).owesAt () t) ⊢ iprop(∃ K, inventory m c K) := by
  subst ht
  rw [show (Pipeline.scopedRest cfg0.spec c : sProp 𝕄) = _ from Gen.scopedRest0_eq c]
  unfold start G' ghost
  iintro ⟨⟨⟨%K, Hrec, Hpos, Htok⟩, Hcred, Hlev, Hw, Hv⟩, ⟨S0, S1, S2, S3, S4, S5, S6, ⟨%f7, S7⟩⟩, Ho⟩
  iexists K
  icases (unpack m c) $$ [$] with ⟨Kb, Ksr, Kw, Ko, Ki⟩
  icases (owes_open m c ρ) $$ Ho with Ho
  have hA := pieces_open (F := F) (ℓ := (c : Thread nD τ).loc cc0_scratch0) _ (fun l : Fin 3 => bigSep Finset.univ fun s : Dev nD => ptsE (F := F) (actsM l s) c)
    (acts_pieces (F := F) c fullShare) (fun f l => bigSep_mono fun s _ => pts_ptsE (actsM l s) c f)
  rw [bigSep_fin3, bigSep_ring c, bigSep_ring c, bigSep_ring c] at hA
  icases hA $$ S0 with ⟨⟨A00, A01, A02, A03⟩, ⟨A10, A11, A12, A13⟩, A20, A21, A22, A23⟩
  have hR := pieces_open (F := F) (ℓ := (c : Thread nD τ).loc cc0_scratch1) _ (fun l : Fin 3 => bigSep Finset.univ fun s : Dev nD => ptsE (F := F) (rsM l s) c)
    (rs_pieces (F := F) c fullShare) (fun f l => bigSep_mono fun s _ => pts_ptsE (rsM l s) c f)
  rw [bigSep_fin3, bigSep_ring c, bigSep_ring c, bigSep_ring c] at hR
  icases hR $$ S1 with ⟨⟨R00, R01, R02, R03⟩, ⟨R10, R11, R12, R13⟩, R20, R21, R22, R23⟩
  have hP := pieces_open (F := F) (ℓ := (c : Thread nD τ).loc cc0_scratch2) _ (fun s : Dev nD => ptsE (F := F) (psM s) c) (ps_pieces (F := F) c fullShare) (fun f s => pts_ptsE (psM s) c f)
  rw [bigSep_ring c] at hP
  icases hP $$ S2 with ⟨P0, P1, P2, P3⟩
  icases (wv1_open (F := F) c) $$ S3 with ⟨V10, V11⟩
  icases (wv2_open (F := F) c) $$ S4 with ⟨V20, V21⟩
  icases (wb1_open (F := F) c) $$ S5 with ⟨B10, B11⟩
  icases (wb2_open (F := F) c) $$ S6 with ⟨B20, B21⟩
  icases ((ent_of_eq (stg_whole (F := F) c fullShare f7)).trans (pts_ptsE _ _ _)) $$ S7 with G
  icases ((ent_of_eq (out_ring (F := F) c fullShare (m ((c : Thread nD τ).loc main_v1)))).trans (BIClass.sep_mono (pts_ptsE _ _ _) (BIClass.sep_mono (pts_ptsE _ _ _) (BIClass.sep_mono (pts_ptsE _ _ _) (pts_ptsE _ _ _))))) $$ Hv with ⟨O0, O1, O2, O3⟩
  unfold inventory barPay
  iframe

end Cert.KernelIdeal.Dist

end
-- ==== Proof.DBodyClose.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyEnds
import proofs.«900988_g7700000000000989_dist_mlpseq_tp1d_bs_rep_b64_d1024_h2048_v7x_i4_f32_1_alg».proof.Proof.DBodyVal
import proofs.«900988_g7700000000000989_dist_mlpseq_tp1d_bs_rep_b64_d1024_h2048_v7x_i4_f32_1_alg».proof.Proof.DBodyWb
import proofs.«900988_g7700000000000989_dist_mlpseq_tp1d_bs_rep_b64_d1024_h2048_v7x_i4_f32_1_alg».proof.Proof.DBodyOpen

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem bigSep_fin7 (Φ : Fin 7 → sProp 𝕄) :
    bigSep Finset.univ Φ = iprop(Φ 0 ∗ Φ 1 ∗ Φ 2 ∗ Φ 3 ∗ Φ 4 ∗ Φ 5 ∗ Φ 6) := by
  have hU : (Finset.univ : Finset (Fin 7)) = insert 0 (insert 1 (insert 2 (insert 3 (insert 4 (insert 5 {6}))))) := by decide
  rw [hU, bigSep_insert (by decide), bigSep_insert (by decide), bigSep_insert (by decide), bigSep_insert (by decide),
    bigSep_insert (by decide), bigSep_insert (by decide), bigSep_singleton]
  rfl

theorem pointsTo_cover_join {ℓ : Loc nD τ sig} {T : Type} [Fintype T] [DecidableEq T] (K : T → Finset (Idx ℓ)) (cls : Idx ℓ → T)
    (h : ∀ i t, i ∈ K t ↔ cls i = t) (q : PosShare TreeShare) (fs : T → Buf (Elt F) ℓ) :
    (bigSep Finset.univ fun t => (ℓ ↦[K t]{q} fs t : sProp 𝕄)) ⊢ iprop(∃ g : Buf (Elt F) ℓ, ℓ ↦{q} g) := by
  have hU : (Finset.univ : Finset (Idx ℓ)) = Finset.univ.biUnion K := by
    ext i; simp only [Finset.mem_univ, Finset.mem_biUnion, true_and, true_iff]; exact ⟨cls i, (h i _).mpr rfl⟩
  refine (pointsTo_biUnion_join Finset.univ K fs (fun i => fs (cls i) i) (fun t _ t' _ hne => Finset.disjoint_left.mpr fun i hi hi' =>
    hne (((h i t).mp hi).symm.trans ((h i t').mp hi')))).trans ?_
  iintro ⟨%g, %hg, H⟩
  iexists g
  show _ ⊢ pointsTo ℓ Finset.univ q g
  rw [hU]

private theorem some_at {ℓ : Loc nD τ sig} (f : Buf (Elt F) ℓ) :
    (ℓ ↦{fullShare} f : sProp 𝕄) ⊢ iprop(∃ g : Buf (Elt F) ℓ, ℓ ↦{fullShare} g) := by
  iintro H; iexists f; iexact H

theorem rs_join_at (c : Dev nD) (f0 f1 f2 : Vec F S3x4x64x1024 .bf16) :
    iprop((pts (F := F) (rsM 0 c) c fullShare f0 ∗ pts (F := F) (rsM 0 (pr c 1)) c fullShare (rsB m c) ∗ pts (F := F) (rsM 0 (pr c 2)) c fullShare (rsB m c) ∗ pts (F := F) (rsM 0 (pr c 3)) c fullShare (rsB m c))
        ∗ (pts (F := F) (rsM 1 c) c fullShare f1 ∗ pts (F := F) (rsM 1 (pr c 1)) c fullShare (rsB m c) ∗ pts (F := F) (rsM 1 (pr c 2)) c fullShare (rsB m c) ∗ pts (F := F) (rsM 1 (pr c 3)) c fullShare (rsB m c))
        ∗ (pts (F := F) (rsM 2 c) c fullShare f2 ∗ pts (F := F) (rsM 2 (pr c 1)) c fullShare (rsB m c) ∗ pts (F := F) (rsM 2 (pr c 2)) c fullShare (rsB m c) ∗ pts (F := F) (rsM 2 (pr c 3)) c fullShare (rsB m c)))
      ⊢ iprop(∃ g : Buf (Elt F) ((c : Thread nD τ).loc cc0_scratch1), ((c : Thread nD τ).loc cc0_scratch1) ↦{fullShare} g) := by
  have e1 : (pr c 1 = c) = False := eq_false (pr_ne c 1 (by omega) (by omega))
  have e2 : (pr c 2 = c) = False := eq_false (pr_ne c 2 (by omega) (by omega))
  have e3 : (pr c 3 = c) = False := eq_false (pr_ne c 3 (by omega) (by omega))
  have h := pointsTo_cover_join (F := F) (ℓ := (c : Thread nD τ).loc cc0_scratch1) (fun ls : Fin 3 × Dev nD => (rsM ls.1 ls.2).view.set)
    (fun i : S3x4x64x1024.Idx => ((i 0, i 1) : Fin 3 × Dev nD))
    (fun (i : S3x4x64x1024.Idx) t => (mem_rsM_set t.1 t.2 i).trans (Prod.ext_iff (x := ((i 0 : Fin 3), (i 1 : Dev nD))) (y := t)).symm)
    fullShare (fun ls : Fin 3 × Dev nD => if ls.2 = c then (match ls.1 with | 0 => f0 | 1 => f1 | 2 => f2) else rsB m c)
  rw [bigSep_univ_prod, bigSep_fin3, bigSep_ring c, bigSep_ring c, bigSep_ring c] at h
  simp only [eq_self_iff_true, if_true, e1, e2, e3, if_false] at h
  exact h

private theorem ptsE_pts {sp : Space} {s : Shape} {e : EltTy} (M : Memref sig .tc sp s e) (d : Dev nD) :
    ptsE (F := F) M d = iprop(∃ f, pts (F := F) M d fullShare f) := rfl

private theorem slots_close {ℓ : Loc nD τ sig} (K : Fin 2 → Finset (Idx ℓ)) (cls : Idx ℓ → Fin 2) (h : ∀ i b, i ∈ K b ↔ cls i = b) (f g : Buf (Elt F) ℓ) :
    iprop((ℓ ↦[K 0]{fullShare} f : sProp 𝕄) ∗ (ℓ ↦[K 1]{fullShare} g : sProp 𝕄)) ⊢ iprop(∃ h : Buf (Elt F) ℓ, ℓ ↦{fullShare} h) := by
  have h' := pointsTo_cover_join (F := F) K cls h fullShare (fun b : Fin 2 => if b = 0 then f else g)
  rw [bigSep_fin2] at h'
  exact h'
theorem wv1_close (c : Dev nD) (f g : Vec F S2x1024x2048 .f32) :
    iprop(pts (F := F) (wv1M 0) c fullShare f ∗ pts (F := F) (wv1M 1) c fullShare g)
      ⊢ iprop(∃ h : Buf (Elt F) ((c : Thread nD τ).loc cc0_scratch3), ((c : Thread nD τ).loc cc0_scratch3) ↦{fullShare} h) :=
  slots_close (F := F) (ℓ := (c : Thread nD τ).loc cc0_scratch3) wv1K (fun i : S2x1024x2048.Idx => (i 0 : Fin 2)) mem_wv1K f g
theorem wv2_close (c : Dev nD) (f g : Vec F S2x2048x1024 .f32) :
    iprop(pts (F := F) (wv2M 0) c fullShare f ∗ pts (F := F) (wv2M 1) c fullShare g)
      ⊢ iprop(∃ h : Buf (Elt F) ((c : Thread nD τ).loc cc0_scratch4), ((c : Thread nD τ).loc cc0_scratch4) ↦{fullShare} h) :=
  slots_close (F := F) (ℓ := (c : Thread nD τ).loc cc0_scratch4) wv2K (fun i : S2x2048x1024.Idx => (i 0 : Fin 2)) mem_wv2K f g
theorem wb1_close (c : Dev nD) (f g : Vec F S2x1024x2048 .bf16) :
    iprop(pts (F := F) (wb1M 0) c fullShare f ∗ pts (F := F) (wb1M 1) c fullShare g)
      ⊢ iprop(∃ h : Buf (Elt F) ((c : Thread nD τ).loc cc0_scratch5), ((c : Thread nD τ).loc cc0_scratch5) ↦{fullShare} h) :=
  slots_close (F := F) (ℓ := (c : Thread nD τ).loc cc0_scratch5) wb1K (fun i : S2x1024x2048.Idx => (i 0 : Fin 2)) mem_wb1K f g
theorem wb2_close (c : Dev nD) (f g : Vec F S2x2048x1024 .bf16) :
    iprop(pts (F := F) (wb2M 0) c fullShare f ∗ pts (F := F) (wb2M 1) c fullShare g)
      ⊢ iprop(∃ h : Buf (Elt F) ((c : Thread nD τ).loc cc0_scratch6), ((c : Thread nD τ).loc cc0_scratch6) ↦{fullShare} h) :=
  slots_close (F := F) (ℓ := (c : Thread nD τ).loc cc0_scratch6) wb2K (fun i : S2x2048x1024.Idx => (i 0 : Fin 2)) mem_wb2K f g

theorem wts_close (c : Dev nD) :
    iprop(pts (F := F) (Memref.whole main_arg1 : Memref sig .tc .hbm S1024x2048 .f32) c fullShare (W1 (F := F) m 0 c)
        ∗ pts (F := F) (Memref.whole main_arg2 : Memref sig .tc .hbm S2048x1024 .f32) c fullShare (W2 (F := F) m 0 c)
        ∗ pts (F := F) (Memref.whole main_arg3 : Memref sig .tc .hbm S1024x2048 .f32) c fullShare (W1 (F := F) m 1 c)
        ∗ pts (F := F) (Memref.whole main_arg4 : Memref sig .tc .hbm S2048x1024 .f32) c fullShare (W2 (F := F) m 1 c)
        ∗ pts (F := F) (Memref.whole main_arg5 : Memref sig .tc .hbm S1024x2048 .f32) c fullShare (W1 (F := F) m 2 c)
        ∗ pts (F := F) (Memref.whole main_arg6 : Memref sig .tc .hbm S2048x1024 .f32) c fullShare (W2 (F := F) m 2 c))
      ⊢ wts m c := by
  unfold wts pts
  rw [pts_whole (F := F) main_arg1 c, pts_whole (F := F) main_arg2 c, pts_whole (F := F) main_arg3 c,
    pts_whole (F := F) main_arg4 c, pts_whole (F := F) main_arg5 c, pts_whole (F := F) main_arg6 c]

variable (c : Dev nD)

def finalInv (K : Dev nD × Fin 57 → ℕ) : sProp 𝕄 :=
  iprop(records m K ∗ levAts L lv ∗ owesX (F := F) c 0
    ∗ atPos ER (sndCell c 0 0) 1 ∅ 0 ∗ atPos ER (sndCell c 0 1) 1 ∅ 0 ∗ atPos ER (sndCell c 0 2) 1 ∅ 0
    ∗ atPos ER (sndCell c 1 0) 1 ∅ 0 ∗ atPos ER (sndCell c 1 1) 1 ∅ 0 ∗ atPos ER (sndCell c 1 2) 1 ∅ 0
    ∗ atPos ER (sndCell c 2 0) 1 ∅ 0 ∗ atPos ER (sndCell c 2 1) 1 ∅ 0 ∗ atPos ER (sndCell c 2 2) 1 ∅ 0
    ∗ atPos ER (sndCell c 3 0) 1 ∅ 0 ∗ atPos ER (sndCell c 3 1) 1 ∅ 0 ∗ atPos ER (sndCell c 3 2) 1 ∅ 0
    ∗ atPos ER (sndCell c 4 0) 1 ∅ 0 ∗ atPos ER (sndCell c 4 1) 1 ∅ 0 ∗ atPos ER (sndCell c 4 2) 1 ∅ 0
    ∗ atPos ER (sndCell c 5 0) 1 ∅ 0 ∗ atPos ER (sndCell c 5 1) 1 ∅ 0 ∗ atPos ER (sndCell c 5 2) 1 ∅ 0
    ∗ atPos ER (sndCell c 6 0) 1 ∅ 0 ∗ atPos ER (sndCell c 6 1) 1 ∅ 0 ∗ atPos ER (sndCell c 6 2) 1 ∅ 0
    ∗ atPos ER (rcvCell c 0 (pr c 1)) 1 ∅ 0 ∗ atPos ER (rcvCell c 0 (pr c 2)) 1 ∅ 0 ∗ atPos ER (rcvCell c 0 (pr c 3)) 1 ∅ 0
    ∗ atPos ER (rcvCell c 1 (pr c 1)) 1 ∅ 0 ∗ atPos ER (rcvCell c 1 (pr c 2)) 1 ∅ 0 ∗ atPos ER (rcvCell c 1 (pr c 3)) 1 ∅ 0
    ∗ atPos ER (rcvCell c 2 (pr c 1)) 1 ∅ 0 ∗ atPos ER (rcvCell c 2 (pr c 2)) 1 ∅ 0 ∗ atPos ER (rcvCell c 2 (pr c 3)) 1 ∅ 0
    ∗ atPos ER (rcvCell c 3 (pr c 1)) 1 ∅ 0 ∗ atPos ER (rcvCell c 3 (pr c 2)) 1 ∅ 0 ∗ atPos ER (rcvCell c 3 (pr c 3)) 1 ∅ 0
    ∗ atPos ER (rcvCell c 4 (pr c 1)) 1 ∅ 0 ∗ atPos ER (rcvCell c 4 (pr c 2)) 1 ∅ 0 ∗ atPos ER (rcvCell c 4 (pr c 3)) 1 ∅ 0
    ∗ atPos ER (rcvCell c 5 (pr c 1)) 1 ∅ 0 ∗ atPos ER (rcvCell c 5 (pr c 2)) 1 ∅ 0 ∗ atPos ER (rcvCell c 5 (pr c 3)) 1 ∅ 0
    ∗ atPos ER (rcvCell c 6 (pr c 1)) 1 ∅ 0 ∗ atPos ER (rcvCell c 6 (pr c 2)) 1 ∅ 0 ∗ atPos ER (rcvCell c 6 (pr c 3)) 1 ∅ 0
    ∗ atPos ER (wcpCell c 0 0) 1 ∅ 0 ∗ atPos ER (wcpCell c 0 1) 1 ∅ 0
    ∗ atPos ER (wcpCell c 1 0) 1 ∅ 0 ∗ atPos ER (wcpCell c 1 1) 1 ∅ 0
    ∗ atPos ER (wcpCell c 2 0) 1 ∅ 0 ∗ atPos ER (wcpCell c 2 1) 1 ∅ 0
    ∗ atPos ER (outCell c) 1 ∅ 0
    ∗ idleKit (F := F) c
    ∗ pts (F := F) (Memref.whole main_arg1 : Memref sig .tc .hbm S1024x2048 .f32) c fullShare (W1 (F := F) m 0 c)
    ∗ pts (F := F) (Memref.whole main_arg2 : Memref sig .tc .hbm S2048x1024 .f32) c fullShare (W2 (F := F) m 0 c)
    ∗ pts (F := F) (Memref.whole main_arg3 : Memref sig .tc .hbm S1024x2048 .f32) c fullShare (W1 (F := F) m 1 c)
    ∗ pts (F := F) (Memref.whole main_arg4 : Memref sig .tc .hbm S2048x1024 .f32) c fullShare (W2 (F := F) m 1 c)
    ∗ pts (F := F) (Memref.whole main_arg5 : Memref sig .tc .hbm S1024x2048 .f32) c fullShare (W1 (F := F) m 2 c)
    ∗ pts (F := F) (Memref.whole main_arg6 : Memref sig .tc .hbm S2048x1024 .f32) c fullShare (W2 (F := F) m 2 c)
    ∗ pts (F := F) (actsM 0 c) c (q4 0) (actsB m) ∗ pts (F := F) (actsM 0 c) c (q4 1) (actsB m) ∗ pts (F := F) (actsM 0 c) c (q4 2) (actsB m) ∗ pts (F := F) (actsM 0 c) c (q4 3) (actsB m)
    ∗ pts (F := F) (actsM 0 (pr c 1)) c fullShare (actsB m) ∗ pts (F := F) (actsM 0 (pr c 2)) c fullShare (actsB m) ∗ pts (F := F) (actsM 0 (pr c 3)) c fullShare (actsB m)
    ∗ pts (F := F) (actsM 1 c) c (q4 0) (actsB m) ∗ pts (F := F) (actsM 1 c) c (q4 1) (actsB m) ∗ pts (F := F) (actsM 1 c) c (q4 2) (actsB m) ∗ pts (F := F) (actsM 1 c) c (q4 3) (actsB m)
    ∗ pts (F := F) (actsM 1 (pr c 1)) c fullShare (actsB m) ∗ pts (F := F) (actsM 1 (pr c 2)) c fullShare (actsB m) ∗ pts (F := F) (actsM 1 (pr c 3)) c fullShare (actsB m)
    ∗ pts (F := F) (actsM 2 c) c (q4 0) (actsB m) ∗ pts (F := F) (actsM 2 c) c (q4 1) (actsB m) ∗ pts (F := F) (actsM 2 c) c (q4 2) (actsB m) ∗ pts (F := F) (actsM 2 c) c (q4 3) (actsB m)
    ∗ pts (F := F) (actsM 2 (pr c 1)) c fullShare (actsB m) ∗ pts (F := F) (actsM 2 (pr c 2)) c fullShare (actsB m) ∗ pts (F := F) (actsM 2 (pr c 3)) c fullShare (actsB m)
    ∗ ptsE (F := F) (rsM 0 c) c ∗ pts (F := F) (rsM 0 (pr c 1)) c fullShare (rsB m c) ∗ pts (F := F) (rsM 0 (pr c 2)) c fullShare (rsB m c) ∗ pts (F := F) (rsM 0 (pr c 3)) c fullShare (rsB m c)
    ∗ ptsE (F := F) (rsM 1 c) c ∗ pts (F := F) (rsM 1 (pr c 1)) c fullShare (rsB m c) ∗ pts (F := F) (rsM 1 (pr c 2)) c fullShare (rsB m c) ∗ pts (F := F) (rsM 1 (pr c 3)) c fullShare (rsB m c)
    ∗ ptsE (F := F) (rsM 2 c) c ∗ pts (F := F) (rsM 2 (pr c 1)) c fullShare (rsB m c) ∗ pts (F := F) (rsM 2 (pr c 2)) c fullShare (rsB m c) ∗ pts (F := F) (rsM 2 (pr c 3)) c fullShare (rsB m c)
    ∗ pts (F := F) (psM c) c fullShare (psB m 2 c) ∗ pts (F := F) (psM (pr c 1)) c fullShare (psB m 2 c) ∗ pts (F := F) (psM (pr c 2)) c fullShare (psB m 2 c) ∗ pts (F := F) (psM (pr c 3)) c fullShare (psB m 2 c)
    ∗ pts (F := F) (wv1M 0) c fullShare (wv1B m 2 c) ∗ pts (F := F) (wv1M 1) c fullShare (wv1B m 1 c)
    ∗ pts (F := F) (wv2M 0) c fullShare (wv2B m 2 c) ∗ pts (F := F) (wv2M 1) c fullShare (wv2B m 1 c)
    ∗ pts (F := F) (wb1M 0) c fullShare (wb1B m 2 c) ∗ pts (F := F) (wb1M 1) c fullShare (wb1B m 1 c)
    ∗ pts (F := F) (wb2M 0) c fullShare (wb2B m 2 c) ∗ pts (F := F) (wb2M 1) c fullShare (wb2B m 1 c)
    ∗ pts (F := F) stgM c (q4 0) (outBlk m c) ∗ pts (F := F) stgM c (q4 1) (outBlk m c) ∗ pts (F := F) stgM c (q4 2) (outBlk m c) ∗ pts (F := F) stgM c (q4 3) (outBlk m c)
    ∗ pts (F := F) (outM c) c fullShare (outAll m) ∗ pts (F := F) (outM (pr c 1)) c fullShare (outAll m) ∗ pts (F := F) (outM (pr c 2)) c fullShare (outAll m) ∗ pts (F := F) (outM (pr c 3)) c fullShare (outAll m))

theorem closing (K : Dev nD × Fin 57 → ℕ) :
    finalInv m c K ⊢ iprop(|={Set.univ}=> (Φ₁ m c ∗ owesX (F := F) c 0)) := by
  unfold finalInv
  iintro ⟨#Hrec, Hlev, Ho,
    s00, s01, s02, s10, s11, s12, s20, s21, s22, s30, s31, s32, s40, s41, s42, s50, s51, s52, s60, s61, s62,
    r01, r02, r03, r11, r12, r13, r21, r22, r23, r31, r32, r33, r41, r42, r43, r51, r52, r53, r61, r62, r63,
    w00, w01, w10, w11, w20, w21, Hout, Hidle,
    g1, g2, g3, g4, g5, g6,
    a00, a01, a02, a03, a05, a06, a07, a10, a11, a12, a13, a15, a16, a17, a20, a21, a22, a23, a25, a26, a27,
    e00, e01, e02, e03, e10, e11, e12, e13, e20, e21, e22, e23,
    p0, p1, p2, p3,
    v10, v11, v20, v21, b10, b11, b20, b21,
    t0, t1, t2, t3,
    o0, o1, o2, o3⟩
  have hc := close_all m K Set.univ (fun _ => Set.mem_univ _) c
  rw [bigSep_fin7, bigSep_fin3] at hc
  unfold sndDone rcvDone wcpDone outDone at hc
  simp only [bigSep_fin3, bigSep_fin2] at hc
  rw [show peer c 0 = pr c 1 from rfl, show peer c 1 = pr c 2 from rfl, show peer c 2 = pr c 3 from rfl] at hc
  imod hc $$ [$] with Hsem
  imodintro
  icases (wts_close m c) $$ [$] with Hw
  icases (ent_of_eq (out_ring (F := F) c fullShare (outAll m)).symm) $$ [$] with Hv
  icases (pts_quarters (F := F) (actsM 0 c) c (actsB m)).2 $$ [$] with a04
  icases (pts_quarters (F := F) (actsM 1 c) c (actsB m)).2 $$ [$] with a14
  icases (pts_quarters (F := F) (actsM 2 c) c (actsB m)).2 $$ [$] with a24
  icases ((ent_of_eq (acts_ring (F := F) c fullShare (actsB m)).symm).trans (some_at _)) $$ [a04 a05 a06 a07 a14 a15 a16 a17 a24 a25 a26 a27] with S0
  · unfold actsL; iframe
  icases (ent_of_eq (ptsE_pts (rsM 0 c) c)) $$ e00 with ⟨%f0, e00⟩
  icases (ent_of_eq (ptsE_pts (rsM 1 c) c)) $$ e10 with ⟨%f1, e10⟩
  icases (ent_of_eq (ptsE_pts (rsM 2 c) c)) $$ e20 with ⟨%f2, e20⟩
  icases (rs_join_at m c f0 f1 f2) $$ [$] with S1
  icases ((ent_of_eq (ps_ring (F := F) c fullShare (psB m 2 c)).symm).trans (some_at _)) $$ [$] with S2
  icases (wv1_close (F := F) c (wv1B m 2 c) (wv1B m 1 c)) $$ [$] with S3
  icases (wv2_close (F := F) c (wv2B m 2 c) (wv2B m 1 c)) $$ [$] with S4
  icases (wb1_close (F := F) c (wb1B m 2 c) (wb1B m 1 c)) $$ [$] with S5
  icases (wb2_close (F := F) c (wb2B m 2 c) (wb2B m 1 c)) $$ [$] with S6
  icases (pts_quarters (F := F) stgM c (outBlk m c)).2 $$ [$] with t4
  icases ((ent_of_eq (stg_whole (F := F) c fullShare (outBlk m c)).symm).trans (some_at _)) $$ t4 with S7
  unfold Φ₁
  rw [show (Pipeline.scopedRest cfg0.spec c : sProp 𝕄) = _ from Gen.scopedRest0_eq c]
  iframe

end Cert.KernelIdeal.Dist

end
-- ==== Proof.DBodyGeom.lean ====
import proofs.«900988_g7700000000000989_dist_mlpseq_tp1d_bs_rep_b64_d1024_h2048_v7x_i4_f32_1_alg».proof.Proof.DProto
import proofs.«900988_g7700000000000989_dist_mlpseq_tp1d_bs_rep_b64_d1024_h2048_v7x_i4_f32_1_alg».proof.Proof.Gen.KernelIdeal.Skeleton

namespace Cert.KernelIdeal.Dist

open Gen Idealize.ShloMosaic

-- The offsets computed for the peer at ring offset `1 + r`, in closed form.
private theorem off6 : ∀ (c : Dev nD) (r : Fin 3), k0_off6 c (BitVec.ofNat 32 (1 + r.val)) = ![64 * (pr c (1 + r.val)).val, 0] := by decide +kernel
private theorem off7 : ∀ (c : Dev nD) (r : Fin 3), k0_off7 c (BitVec.ofNat 32 (1 + r.val)) = ![0, 64 * (pr c (1 + r.val)).val, 0] := by decide +kernel
private theorem off11 : ∀ (c : Dev nD) (r : Fin 3), k0_off11 c (BitVec.ofNat 32 (1 + r.val)) = ![0, (pr c (1 + r.val)).val, 0, 0] := by decide +kernel
theorem off13_1 (c : Dev nD) : k0_off13 c 1#32 = ![0, (pr c 1).val, 0, 0] := by revert c; decide +kernel
theorem off13_2 (c : Dev nD) : k0_off13 c 2#32 = ![0, (pr c 2).val, 0, 0] := by revert c; decide +kernel
theorem off13_3 (c : Dev nD) : k0_off13 c 3#32 = ![0, (pr c 3).val, 0, 0] := by revert c; decide +kernel
private theorem off18 : ∀ (c : Dev nD) (r : Fin 3), k0_off18 c (BitVec.ofNat 32 (1 + r.val)) = ![1, 64 * (pr c (1 + r.val)).val, 0] := by decide +kernel
private theorem off22 : ∀ (c : Dev nD) (r : Fin 3), k0_off22 c (BitVec.ofNat 32 (1 + r.val)) = ![1, (pr c (1 + r.val)).val, 0, 0] := by decide +kernel
theorem off23_1 (c : Dev nD) : k0_off23 c 1#32 = ![1, (pr c 1).val, 0, 0] := by revert c; decide +kernel
theorem off23_2 (c : Dev nD) : k0_off23 c 2#32 = ![1, (pr c 2).val, 0, 0] := by revert c; decide +kernel
theorem off23_3 (c : Dev nD) : k0_off23 c 3#32 = ![1, (pr c 3).val, 0, 0] := by revert c; decide +kernel
private theorem off28 : ∀ (c : Dev nD) (r : Fin 3), k0_off28 c (BitVec.ofNat 32 (1 + r.val)) = ![2, 64 * (pr c (1 + r.val)).val, 0] := by decide +kernel
private theorem off32 : ∀ (c : Dev nD) (r : Fin 3), k0_off32 c (BitVec.ofNat 32 (1 + r.val)) = ![2, (pr c (1 + r.val)).val, 0, 0] := by decide +kernel
theorem off33_1 (c : Dev nD) : k0_off33 c 1#32 = ![2, (pr c 1).val, 0, 0] := by revert c; decide +kernel
theorem off33_2 (c : Dev nD) : k0_off33 c 2#32 = ![2, (pr c 2).val, 0, 0] := by revert c; decide +kernel
theorem off33_3 (c : Dev nD) : k0_off33 c 3#32 = ![2, (pr c 3).val, 0, 0] := by revert c; decide +kernel
-- Offsets equal to a piece's own name that piece, whatever the in-bounds evidence.
theorem acts_of {l : Fin 3} {s : Dev nD} {off} (h : off = ![l.val, 64 * s.val, 0]) {p} :
    ((Memref.whole cc0_scratch0 : Memref sig .tc .vmem S3x256x1024 .bf16).slice (Rect.unit (s := S3x256x1024) off S1x64x1024.size p) (fun _ => rfl)).squeeze S64x1024 squeezes_S1x64x1024_S64x1024
      = actsM l s := by
  subst h; rfl
theorem rs_of {l : Fin 3} {s : Dev nD} {off} (h : off = ![l.val, s.val, 0, 0]) {p} :
    ((Memref.whole cc0_scratch1 : Memref sig .tc .vmem S3x4x64x1024 .bf16).slice (Rect.unit (s := S3x4x64x1024) off S1x1x64x1024.size p) (fun _ => rfl)).squeeze S64x1024 squeezes_S1x1x64x1024_S64x1024
      = rsM l s := by
  subst h; rfl
private theorem rows_of {sp e} {W : Memref sig .tc sp S256x1024 e} {s : Dev nD} {off} (h : off = ![64 * s.val, 0]) {p} :
    W.slice (Rect.unit (s := S256x1024) off S64x1024.size p) (fun _ => rfl)
      = W.slice (Rect.unit (s := S256x1024) ![64 * s.val, 0] S64x1024.size (rows_inb s)) (fun _ => rfl) := by
  subst h; rfl
theorem acts0_own (c : Dev nD) :
    ((Memref.whole cc0_scratch0 : Memref sig .tc .vmem S3x256x1024 .bf16).slice (Rect.unit (s := S3x256x1024) (k0_off4 c) S1x64x1024.size (k0_off4_inb c)) (fun _ => rfl)).squeeze S64x1024 squeezes_S1x64x1024_S64x1024
      = actsM 0 c := acts_of (k0_off4_eq c)
theorem acts0_p1 (c : Dev nD) :
    ((Memref.whole cc0_scratch0 : Memref sig .tc .vmem S3x256x1024 .bf16).slice (Rect.unit (s := S3x256x1024) (k0_off7 c 1#32) S1x64x1024.size (k0_off7_inb c 0)) (fun _ => rfl)).squeeze S64x1024 squeezes_S1x64x1024_S64x1024
      = actsM 0 (pr c 1) := acts_of (off7 c 0)
theorem acts0_p2 (c : Dev nD) :
    ((Memref.whole cc0_scratch0 : Memref sig .tc .vmem S3x256x1024 .bf16).slice (Rect.unit (s := S3x256x1024) (k0_off7 c 2#32) S1x64x1024.size (k0_off7_inb c 1)) (fun _ => rfl)).squeeze S64x1024 squeezes_S1x64x1024_S64x1024
      = actsM 0 (pr c 2) := acts_of (off7 c 1)
theorem acts0_p3 (c : Dev nD) :
    ((Memref.whole cc0_scratch0 : Memref sig .tc .vmem S3x256x1024 .bf16).slice (Rect.unit (s := S3x256x1024) (k0_off7 c 3#32) S1x64x1024.size (k0_off7_inb c 2)) (fun _ => rfl)).squeeze S64x1024 squeezes_S1x64x1024_S64x1024
      = actsM 0 (pr c 3) := acts_of (off7 c 2)
theorem acts1_own (c : Dev nD) :
    ((Memref.whole cc0_scratch0 : Memref sig .tc .vmem S3x256x1024 .bf16).slice (Rect.unit (s := S3x256x1024) (k0_off16 c) S1x64x1024.size (k0_off16_inb c)) (fun _ => rfl)).squeeze S64x1024 squeezes_S1x64x1024_S64x1024
      = actsM 1 c := acts_of (k0_off16_eq c)
theorem acts1_p1 (c : Dev nD) :
    ((Memref.whole cc0_scratch0 : Memref sig .tc .vmem S3x256x1024 .bf16).slice (Rect.unit (s := S3x256x1024) (k0_off18 c 1#32) S1x64x1024.size (k0_off18_inb c 0)) (fun _ => rfl)).squeeze S64x1024 squeezes_S1x64x1024_S64x1024
      = actsM 1 (pr c 1) := acts_of (off18 c 0)
theorem acts1_p2 (c : Dev nD) :
    ((Memref.whole cc0_scratch0 : Memref sig .tc .vmem S3x256x1024 .bf16).slice (Rect.unit (s := S3x256x1024) (k0_off18 c 2#32) S1x64x1024.size (k0_off18_inb c 1)) (fun _ => rfl)).squeeze S64x1024 squeezes_S1x64x1024_S64x1024
      = actsM 1 (pr c 2) := acts_of (off18 c 1)
theorem acts1_p3 (c : Dev nD) :
    ((Memref.whole cc0_scratch0 : Memref sig .tc .vmem S3x256x1024 .bf16).slice (Rect.unit (s := S3x256x1024) (k0_off18 c 3#32) S1x64x1024.size (k0_off18_inb c 2)) (fun _ => rfl)).squeeze S64x1024 squeezes_S1x64x1024_S64x1024
      = actsM 1 (pr c 3) := acts_of (off18 c 2)
theorem acts2_own (c : Dev nD) :
    ((Memref.whole cc0_scratch0 : Memref sig .tc .vmem S3x256x1024 .bf16).slice (Rect.unit (s := S3x256x1024) (k0_off26 c) S1x64x1024.size (k0_off26_inb c)) (fun _ => rfl)).squeeze S64x1024 squeezes_S1x64x1024_S64x1024
      = actsM 2 c := acts_of (k0_off26_eq c)
theorem acts2_p1 (c : Dev nD) :
    ((Memref.whole cc0_scratch0 : Memref sig .tc .vmem S3x256x1024 .bf16).slice (Rect.unit (s := S3x256x1024) (k0_off28 c 1#32) S1x64x1024.size (k0_off28_inb c 0)) (fun _ => rfl)).squeeze S64x1024 squeezes_S1x64x1024_S64x1024
      = actsM 2 (pr c 1) := acts_of (off28 c 0)
theorem acts2_p2 (c : Dev nD) :
    ((Memref.whole cc0_scratch0 : Memref sig .tc .vmem S3x256x1024 .bf16).slice (Rect.unit (s := S3x256x1024) (k0_off28 c 2#32) S1x64x1024.size (k0_off28_inb c 1)) (fun _ => rfl)).squeeze S64x1024 squeezes_S1x64x1024_S64x1024
      = actsM 2 (pr c 2) := acts_of (off28 c 1)
theorem acts2_p3 (c : Dev nD) :
    ((Memref.whole cc0_scratch0 : Memref sig .tc .vmem S3x256x1024 .bf16).slice (Rect.unit (s := S3x256x1024) (k0_off28 c 3#32) S1x64x1024.size (k0_off28_inb c 2)) (fun _ => rfl)).squeeze S64x1024 squeezes_S1x64x1024_S64x1024
      = actsM 2 (pr c 3) := acts_of (off28 c 2)
theorem rs0_own (c : Dev nD) :
    ((Memref.whole cc0_scratch1 : Memref sig .tc .vmem S3x4x64x1024 .bf16).slice (Rect.unit (s := S3x4x64x1024) (k0_off9 c) S1x1x64x1024.size (k0_off9_inb c)) (fun _ => rfl)).squeeze S64x1024 squeezes_S1x1x64x1024_S64x1024
      = rsM 0 c := rs_of (k0_off9_eq c)
theorem rs0_p1 (c : Dev nD) :
    ((Memref.whole cc0_scratch1 : Memref sig .tc .vmem S3x4x64x1024 .bf16).slice (Rect.unit (s := S3x4x64x1024) (k0_off11 c 1#32) S1x1x64x1024.size (k0_off11_inb c 0)) (fun _ => rfl)).squeeze S64x1024 squeezes_S1x1x64x1024_S64x1024
      = rsM 0 (pr c 1) := rs_of (off11 c 0)
theorem rs0_p2 (c : Dev nD) :
    ((Memref.whole cc0_scratch1 : Memref sig .tc .vmem S3x4x64x1024 .bf16).slice (Rect.unit (s := S3x4x64x1024) (k0_off11 c 2#32) S1x1x64x1024.size (k0_off11_inb c 1)) (fun _ => rfl)).squeeze S64x1024 squeezes_S1x1x64x1024_S64x1024
      = rsM 0 (pr c 2) := rs_of (off11 c 1)
theorem rs0_p3 (c : Dev nD) :
    ((Memref.whole cc0_scratch1 : Memref sig .tc .vmem S3x4x64x1024 .bf16).slice (Rect.unit (s := S3x4x64x1024) (k0_off11 c 3#32) S1x1x64x1024.size (k0_off11_inb c 2)) (fun _ => rfl)).squeeze S64x1024 squeezes_S1x1x64x1024_S64x1024
      = rsM 0 (pr c 3) := rs_of (off11 c 2)
theorem rs1_own (c : Dev nD) :
    ((Memref.whole cc0_scratch1 : Memref sig .tc .vmem S3x4x64x1024 .bf16).slice (Rect.unit (s := S3x4x64x1024) (k0_off20 c) S1x1x64x1024.size (k0_off20_inb c)) (fun _ => rfl)).squeeze S64x1024 squeezes_S1x1x64x1024_S64x1024
      = rsM 1 c := rs_of (k0_off20_eq c)
theorem rs1_p1 (c : Dev nD) :
    ((Memref.whole cc0_scratch1 : Memref sig .tc .vmem S3x4x64x1024 .bf16).slice (Rect.unit (s := S3x4x64x1024) (k0_off22 c 1#32) S1x1x64x1024.size (k0_off22_inb c 0)) (fun _ => rfl)).squeeze S64x1024 squeezes_S1x1x64x1024_S64x1024
      = rsM 1 (pr c 1) := rs_of (off22 c 0)
theorem rs1_p2 (c : Dev nD) :
    ((Memref.whole cc0_scratch1 : Memref sig .tc .vmem S3x4x64x1024 .bf16).slice (Rect.unit (s := S3x4x64x1024) (k0_off22 c 2#32) S1x1x64x1024.size (k0_off22_inb c 1)) (fun _ => rfl)).squeeze S64x1024 squeezes_S1x1x64x1024_S64x1024
      = rsM 1 (pr c 2) := rs_of (off22 c 1)
theorem rs1_p3 (c : Dev nD) :
    ((Memref.whole cc0_scratch1 : Memref sig .tc .vmem S3x4x64x1024 .bf16).slice (Rect.unit (s := S3x4x64x1024) (k0_off22 c 3#32) S1x1x64x1024.size (k0_off22_inb c 2)) (fun _ => rfl)).squeeze S64x1024 squeezes_S1x1x64x1024_S64x1024
      = rsM 1 (pr c 3) := rs_of (off22 c 2)
theorem rs2_own (c : Dev nD) :
    ((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024
      = rsM 2 c := rs_of (k0_off30_eq c)
theorem rs2_p1 (c : Dev nD) :
    ((Memref.whole cc0_scratch1 : Memref sig .tc .vmem S3x4x64x1024 .bf16).slice (Rect.unit (s := S3x4x64x1024) (k0_off32 c 1#32) S1x1x64x1024.size (k0_off32_inb c 0)) (fun _ => rfl)).squeeze S64x1024 squeezes_S1x1x64x1024_S64x1024
      = rsM 2 (pr c 1) := rs_of (off32 c 0)
theorem rs2_p2 (c : Dev nD) :
    ((Memref.whole cc0_scratch1 : Memref sig .tc .vmem S3x4x64x1024 .bf16).slice (Rect.unit (s := S3x4x64x1024) (k0_off32 c 2#32) S1x1x64x1024.size (k0_off32_inb c 1)) (fun _ => rfl)).squeeze S64x1024 squeezes_S1x1x64x1024_S64x1024
      = rsM 2 (pr c 2) := rs_of (off32 c 1)
theorem rs2_p3 (c : Dev nD) :
    ((Memref.whole cc0_scratch1 : Memref sig .tc .vmem S3x4x64x1024 .bf16).slice (Rect.unit (s := S3x4x64x1024) (k0_off32 c 3#32) S1x1x64x1024.size (k0_off32_inb c 2)) (fun _ => rfl)).squeeze S64x1024 squeezes_S1x1x64x1024_S64x1024
      = rsM 2 (pr c 3) := rs_of (off32 c 2)
theorem ps_p1 (c : Dev nD) :
    (Memref.whole cc0_scratch2 : Memref sig .tc .vmem S256x1024 .bf16).slice (Rect.unit (s := S256x1024) (k0_off6 c 1#32) S64x1024.size (k0_off6_inb c 0)) (fun _ => rfl)
      = psM (pr c 1) := rows_of (off6 c 0)
theorem ps_p2 (c : Dev nD) :
    (Memref.whole cc0_scratch2 : Memref sig .tc .vmem S256x1024 .bf16).slice (Rect.unit (s := S256x1024) (k0_off6 c 2#32) S64x1024.size (k0_off6_inb c 1)) (fun _ => rfl)
      = psM (pr c 2) := rows_of (off6 c 1)
theorem ps_p3 (c : Dev nD) :
    (Memref.whole cc0_scratch2 : Memref sig .tc .vmem S256x1024 .bf16).slice (Rect.unit (s := S256x1024) (k0_off6 c 3#32) S64x1024.size (k0_off6_inb c 2)) (fun _ => rfl)
      = psM (pr c 3) := rows_of (off6 c 2)
theorem out_own (c : Dev nD) :
    (Memref.whole main_v1 : Memref sig .tc .hbm S256x1024 .f32).slice (Rect.unit (s := S256x1024) (k0_off3 c) S64x1024.size (k0_off3_inb c)) (fun _ => rfl)
      = outM c := rows_of (k0_off3_eq c)
theorem out_p1 (c : Dev nD) :
    (Memref.whole main_v1 : Memref sig .tc .hbm S256x1024 .f32).slice (Rect.unit (s := S256x1024) (k0_off6 c 1#32) S64x1024.size (k0_off6_inb c 0)) (fun _ => rfl)
      = outM (pr c 1) := rows_of (off6 c 0)
theorem out_p3 (c : Dev nD) :
    (Memref.whole main_v1 : Memref sig .tc .hbm S256x1024 .f32).slice (Rect.unit (s := S256x1024) (k0_off6 c 3#32) S64x1024.size (k0_off6_inb c 2)) (fun _ => rfl)
      = outM (pr c 3) := rows_of (off6 c 2)
theorem wv1_0 :
    ((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048
      = wv1M 0 := rfl
theorem wv2_0 :
    ((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
      = wv2M 0 := rfl
theorem bar_sem : (SemArray.scalar (sig.barrier 0 rfl) : Sems sig S_).sem = barS := rfl
theorem snd_0_0 : ((cc0_scratch8.slice (Rect.unit (s := S7x3) ![0, 0] S1x1.size inb_S7x3_S1x1_0_0)).squeeze S_ squeezes_S1x1_S_).sem = sndS 0 0 := by decide +kernel
theorem snd_0_1 : ((cc0_scratch8.slice (Rect.unit (s := S7x3) ![0, 1] S1x1.size inb_S7x3_S1x1_0_1)).squeeze S_ squeezes_S1x1_S_).sem = sndS 0 1 := by decide +kernel
theorem snd_0_2 : ((cc0_scratch8.slice (Rect.unit (s := S7x3) ![0, 2] S1x1.size inb_S7x3_S1x1_0_2)).squeeze S_ squeezes_S1x1_S_).sem = sndS 0 2 := by decide +kernel
theorem snd_1_0 : ((cc0_scratch8.slice (Rect.unit (s := S7x3) ![1, 0] S1x1.size inb_S7x3_S1x1_1_0)).squeeze S_ squeezes_S1x1_S_).sem = sndS 1 0 := by decide +kernel
theorem snd_1_1 : ((cc0_scratch8.slice (Rect.unit (s := S7x3) ![1, 1] S1x1.size inb_S7x3_S1x1_1_1)).squeeze S_ squeezes_S1x1_S_).sem = sndS 1 1 := by decide +kernel
theorem snd_1_2 : ((cc0_scratch8.slice (Rect.unit (s := S7x3) ![1, 2] S1x1.size inb_S7x3_S1x1_1_2)).squeeze S_ squeezes_S1x1_S_).sem = sndS 1 2 := by decide +kernel
theorem snd_2_0 : ((cc0_scratch8.slice (Rect.unit (s := S7x3) ![2, 0] S1x1.size inb_S7x3_S1x1_2_0)).squeeze S_ squeezes_S1x1_S_).sem = sndS 2 0 := by decide +kernel
theorem snd_2_1 : ((cc0_scratch8.slice (Rect.unit (s := S7x3) ![2, 1] S1x1.size inb_S7x3_S1x1_2_1)).squeeze S_ squeezes_S1x1_S_).sem = sndS 2 1 := by decide +kernel
theorem snd_2_2 : ((cc0_scratch8.slice (Rect.unit (s := S7x3) ![2, 2] S1x1.size inb_S7x3_S1x1_2_2)).squeeze S_ squeezes_S1x1_S_).sem = sndS 2 2 := by decide +kernel
theorem snd_3_0 : ((cc0_scratch8.slice (Rect.unit (s := S7x3) ![3, 0] S1x1.size inb_S7x3_S1x1_3_0)).squeeze S_ squeezes_S1x1_S_).sem = sndS 3 0 := by decide +kernel
theorem snd_3_1 : ((cc0_scratch8.slice (Rect.unit (s := S7x3) ![3, 1] S1x1.size inb_S7x3_S1x1_3_1)).squeeze S_ squeezes_S1x1_S_).sem = sndS 3 1 := by decide +kernel
theorem snd_3_2 : ((cc0_scratch8.slice (Rect.unit (s := S7x3) ![3, 2] S1x1.size inb_S7x3_S1x1_3_2)).squeeze S_ squeezes_S1x1_S_).sem = sndS 3 2 := by decide +kernel
theorem snd_4_0 : ((cc0_scratch8.slice (Rect.unit (s := S7x3) ![4, 0] S1x1.size inb_S7x3_S1x1_4_0)).squeeze S_ squeezes_S1x1_S_).sem = sndS 4 0 := by decide +kernel
theorem snd_4_1 : ((cc0_scratch8.slice (Rect.unit (s := S7x3) ![4, 1] S1x1.size inb_S7x3_S1x1_4_1)).squeeze S_ squeezes_S1x1_S_).sem = sndS 4 1 := by decide +kernel
theorem snd_4_2 : ((cc0_scratch8.slice (Rect.unit (s := S7x3) ![4, 2] S1x1.size inb_S7x3_S1x1_4_2)).squeeze S_ squeezes_S1x1_S_).sem = sndS 4 2 := by decide +kernel
theorem snd_5_0 : ((cc0_scratch8.slice (Rect.unit (s := S7x3) ![5, 0] S1x1.size inb_S7x3_S1x1_5_0)).squeeze S_ squeezes_S1x1_S_).sem = sndS 5 0 := by decide +kernel
theorem snd_5_1 : ((cc0_scratch8.slice (Rect.unit (s := S7x3) ![5, 1] S1x1.size inb_S7x3_S1x1_5_1)).squeeze S_ squeezes_S1x1_S_).sem = sndS 5 1 := by decide +kernel
theorem snd_5_2 : ((cc0_scratch8.slice (Rect.unit (s := S7x3) ![5, 2] S1x1.size inb_S7x3_S1x1_5_2)).squeeze S_ squeezes_S1x1_S_).sem = sndS 5 2 := by decide +kernel
theorem snd_6_0 : ((cc0_scratch8.slice (Rect.unit (s := S7x3) ![6, 0] S1x1.size inb_S7x3_S1x1_6_0)).squeeze S_ squeezes_S1x1_S_).sem = sndS 6 0 := by decide +kernel
theorem snd_6_1 : ((cc0_scratch8.slice (Rect.unit (s := S7x3) ![6, 1] S1x1.size inb_S7x3_S1x1_6_1)).squeeze S_ squeezes_S1x1_S_).sem = sndS 6 1 := by decide +kernel
theorem snd_6_2 : ((cc0_scratch8.slice (Rect.unit (s := S7x3) ![6, 2] S1x1.size inb_S7x3_S1x1_6_2)).squeeze S_ squeezes_S1x1_S_).sem = sndS 6 2 := by decide +kernel
theorem wcp_0_0 : ((cc0_scratch10.slice (Rect.unit (s := S3x2) ![0, 0] S1x1.size inb_S3x2_S1x1_0_0)).squeeze S_ squeezes_S1x1_S_).sem = wcpS 0 0 := by decide +kernel
theorem wcp_0_1 : ((cc0_scratch10.slice (Rect.unit (s := S3x2) ![0, 1] S1x1.size inb_S3x2_S1x1_0_1)).squeeze S_ squeezes_S1x1_S_).sem = wcpS 0 1 := by decide +kernel
theorem wcp_1_0 : ((cc0_scratch10.slice (Rect.unit (s := S3x2) ![1, 0] S1x1.size inb_S3x2_S1x1_1_0)).squeeze S_ squeezes_S1x1_S_).sem = wcpS 1 0 := by decide +kernel
theorem wcp_1_1 : ((cc0_scratch10.slice (Rect.unit (s := S3x2) ![1, 1] S1x1.size inb_S3x2_S1x1_1_1)).squeeze S_ squeezes_S1x1_S_).sem = wcpS 1 1 := by decide +kernel
theorem wcp_2_0 : ((cc0_scratch10.slice (Rect.unit (s := S3x2) ![2, 0] S1x1.size inb_S3x2_S1x1_2_0)).squeeze S_ squeezes_S1x1_S_).sem = wcpS 2 0 := by decide +kernel
theorem wcp_2_1 : ((cc0_scratch10.slice (Rect.unit (s := S3x2) ![2, 1] S1x1.size inb_S3x2_S1x1_2_1)).squeeze S_ squeezes_S1x1_S_).sem = wcpS 2 1 := by decide +kernel
theorem outc_sem : ((cc0_scratch11.slice (Rect.unit (s := S1) ![0] S1.size inb_S1_S1_0)).squeeze S_ squeezes_S1_S_).sem = outS := by decide +kernel
theorem rcv0_own (c : Dev nD) : ((cc0_scratch9.slice (Rect.unit (s := S7x4) (k0_off2 c) S1x1.size (k0_off2_inb c))).squeeze S_ squeezes_S1x1_S_).sem = rcvS 0 c := by revert c; decide +kernel
theorem rcv1_own (c : Dev nD) : ((cc0_scratch9.slice (Rect.unit (s := S7x4) (k0_off8 c) S1x1.size (k0_off8_inb c))).squeeze S_ squeezes_S1x1_S_).sem = rcvS 1 c := by revert c; decide +kernel
theorem rcv2_own (c : Dev nD) : ((cc0_scratch9.slice (Rect.unit (s := S7x4) (k0_off15 c) S1x1.size (k0_off15_inb c))).squeeze S_ squeezes_S1x1_S_).sem = rcvS 2 c := by revert c; decide +kernel
theorem rcv3_own (c : Dev nD) : ((cc0_scratch9.slice (Rect.unit (s := S7x4) (k0_off19 c) S1x1.size (k0_off19_inb c))).squeeze S_ squeezes_S1x1_S_).sem = rcvS 3 c := by revert c; decide +kernel
theorem rcv4_own (c : Dev nD) : ((cc0_scratch9.slice (Rect.unit (s := S7x4) (k0_off25 c) S1x1.size (k0_off25_inb c))).squeeze S_ squeezes_S1x1_S_).sem = rcvS 4 c := by revert c; decide +kernel
theorem rcv5_own (c : Dev nD) : ((cc0_scratch9.slice (Rect.unit (s := S7x4) (k0_off29 c) S1x1.size (k0_off29_inb c))).squeeze S_ squeezes_S1x1_S_).sem = rcvS 5 c := by revert c; decide +kernel
theorem rcv6_own (c : Dev nD) : ((cc0_scratch9.slice (Rect.unit (s := S7x4) (k0_off34 c) S1x1.size (k0_off34_inb c))).squeeze S_ squeezes_S1x1_S_).sem = rcvS 6 c := by revert c; decide +kernel
theorem rcv0_p1 (c : Dev nD) : ((cc0_scratch9.slice (Rect.unit (s := S7x4) (k0_off5 c 1#32) S1x1.size (k0_off5_inb c 0))).squeeze S_ squeezes_S1x1_S_).sem = rcvS 0 (pr c 1) := by revert c; decide +kernel
theorem rcv0_p2 (c : Dev nD) : ((cc0_scratch9.slice (Rect.unit (s := S7x4) (k0_off5 c 2#32) S1x1.size (k0_off5_inb c 1))).squeeze S_ squeezes_S1x1_S_).sem = rcvS 0 (pr c 2) := by revert c; decide +kernel
theorem rcv0_p3 (c : Dev nD) : ((cc0_scratch9.slice (Rect.unit (s := S7x4) (k0_off5 c 3#32) S1x1.size (k0_off5_inb c 2))).squeeze S_ squeezes_S1x1_S_).sem = rcvS 0 (pr c 3) := by revert c; decide +kernel
theorem rcv1_p1 (c : Dev nD) : ((cc0_scratch9.slice (Rect.unit (s := S7x4) (k0_off10 c 1#32) S1x1.size (k0_off10_inb c 0))).squeeze S_ squeezes_S1x1_S_).sem = rcvS 1 (pr c 1) := by revert c; decide +kernel
theorem rcv1_p2 (c : Dev nD) : ((cc0_scratch9.slice (Rect.unit (s := S7x4) (k0_off10 c 2#32) S1x1.size (k0_off10_inb c 1))).squeeze S_ squeezes_S1x1_S_).sem = rcvS 1 (pr c 2) := by revert c; decide +kernel
theorem rcv1_p3 (c : Dev nD) : ((cc0_scratch9.slice (Rect.unit (s := S7x4) (k0_off10 c 3#32) S1x1.size (k0_off10_inb c 2))).squeeze S_ squeezes_S1x1_S_).sem = rcvS 1 (pr c 3) := by revert c; decide +kernel
theorem rcv2_p1 (c : Dev nD) : ((cc0_scratch9.slice (Rect.unit (s := S7x4) (k0_off17 c 1#32) S1x1.size (k0_off17_inb c 0))).squeeze S_ squeezes_S1x1_S_).sem = rcvS 2 (pr c 1) := by revert c; decide +kernel
theorem rcv2_p2 (c : Dev nD) : ((cc0_scratch9.slice (Rect.unit (s := S7x4) (k0_off17 c 2#32) S1x1.size (k0_off17_inb c 1))).squeeze S_ squeezes_S1x1_S_).sem = rcvS 2 (pr c 2) := by revert c; decide +kernel
theorem rcv2_p3 (c : Dev nD) : ((cc0_scratch9.slice (Rect.unit (s := S7x4) (k0_off17 c 3#32) S1x1.size (k0_off17_inb c 2))).squeeze S_ squeezes_S1x1_S_).sem = rcvS 2 (pr c 3) := by revert c; decide +kernel
theorem rcv3_p1 (c : Dev nD) : ((cc0_scratch9.slice (Rect.unit (s := S7x4) (k0_off21 c 1#32) S1x1.size (k0_off21_inb c 0))).squeeze S_ squeezes_S1x1_S_).sem = rcvS 3 (pr c 1) := by revert c; decide +kernel
theorem rcv3_p2 (c : Dev nD) : ((cc0_scratch9.slice (Rect.unit (s := S7x4) (k0_off21 c 2#32) S1x1.size (k0_off21_inb c 1))).squeeze S_ squeezes_S1x1_S_).sem = rcvS 3 (pr c 2) := by revert c; decide +kernel
theorem rcv3_p3 (c : Dev nD) : ((cc0_scratch9.slice (Rect.unit (s := S7x4) (k0_off21 c 3#32) S1x1.size (k0_off21_inb c 2))).squeeze S_ squeezes_S1x1_S_).sem = rcvS 3 (pr c 3) := by revert c; decide +kernel
theorem rcv4_p1 (c : Dev nD) : ((cc0_scratch9.slice (Rect.unit (s := S7x4) (k0_off27 c 1#32) S1x1.size (k0_off27_inb c 0))).squeeze S_ squeezes_S1x1_S_).sem = rcvS 4 (pr c 1) := by revert c; decide +kernel
theorem rcv4_p2 (c : Dev nD) : ((cc0_scratch9.slice (Rect.unit (s := S7x4) (k0_off27 c 2#32) S1x1.size (k0_off27_inb c 1))).squeeze S_ squeezes_S1x1_S_).sem = rcvS 4 (pr c 2) := by revert c; decide +kernel
theorem rcv4_p3 (c : Dev nD) : ((cc0_scratch9.slice (Rect.unit (s := S7x4) (k0_off27 c 3#32) S1x1.size (k0_off27_inb c 2))).squeeze S_ squeezes_S1x1_S_).sem = rcvS 4 (pr c 3) := by revert c; decide +kernel
theorem rcv5_p1 (c : Dev nD) : ((cc0_scratch9.slice (Rect.unit (s := S7x4) (k0_off31 c 1#32) S1x1.size (k0_off31_inb c 0))).squeeze S_ squeezes_S1x1_S_).sem = rcvS 5 (pr c 1) := by revert c; decide +kernel
theorem rcv5_p2 (c : Dev nD) : ((cc0_scratch9.slice (Rect.unit (s := S7x4) (k0_off31 c 2#32) S1x1.size (k0_off31_inb c 1))).squeeze S_ squeezes_S1x1_S_).sem = rcvS 5 (pr c 2) := by revert c; decide +kernel
theorem rcv5_p3 (c : Dev nD) : ((cc0_scratch9.slice (Rect.unit (s := S7x4) (k0_off31 c 3#32) S1x1.size (k0_off31_inb c 2))).squeeze S_ squeezes_S1x1_S_).sem = rcvS 5 (pr c 3) := by revert c; decide +kernel
theorem rcv6_p1 (c : Dev nD) : ((cc0_scratch9.slice (Rect.unit (s := S7x4) (k0_off35 c 1#32) S1x1.size (k0_off35_inb c 0))).squeeze S_ squeezes_S1x1_S_).sem = rcvS 6 (pr c 1) := by revert c; decide +kernel
theorem rcv6_p2 (c : Dev nD) : ((cc0_scratch9.slice (Rect.unit (s := S7x4) (k0_off35 c 2#32) S1x1.size (k0_off35_inb c 1))).squeeze S_ squeezes_S1x1_S_).sem = rcvS 6 (pr c 2) := by revert c; decide +kernel
theorem rcv6_p3 (c : Dev nD) : ((cc0_scratch9.slice (Rect.unit (s := S7x4) (k0_off35 c 3#32) S1x1.size (k0_off35_inb c 2))).squeeze S_ squeezes_S1x1_S_).sem = rcvS 6 (pr c 3) := by revert c; decide +kernel

end Cert.KernelIdeal.Dist
-- ==== Proof.DBodyLocal.lean ====
import proofs.«900988_g7700000000000989_dist_mlpseq_tp1d_bs_rep_b64_d1024_h2048_v7x_i4_f32_1_alg».proof.Proof.DTables
import proofs.«900988_g7700000000000989_dist_mlpseq_tp1d_bs_rep_b64_d1024_h2048_v7x_i4_f32_1_alg».proof.Proof.DLevels
import proofs.«900988_g7700000000000989_dist_mlpseq_tp1d_bs_rep_b64_d1024_h2048_v7x_i4_f32_1_alg».proof.Proof.DDat
import Idealize.ShloMosaic.Lib.Pipeline.Value

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

-- The place of a transfer semaphore's cell in the launch's enumeration.
private def dmaKL (q : DmaSem sig) : Fin 57 := ⟨q.val - 1, by have h : q.val < 57 := q.isLt; omega⟩

theorem kcell_dmaL (d : Dev nD) (q : DmaSem sig) (hq : 1 ≤ q.val) : kcell (d, dmaKL q) = ((d : Thread nD τ), SemLoc.dma q) := by
  have hlt : q.val < 57 := q.isLt
  show ((d : Thread nD τ), csem ⟨q.val - 1, _⟩) = _
  unfold csem
  rw [dif_pos (show q.val - 1 < 56 by omega)]
  unfold osem
  exact congrArg (fun x => ((d : Thread nD τ), SemLoc.dma x)) (Fin.ext (show q.val - 1 + 1 = q.val by omega))

theorem rem_signal (c : Dev nD) (o : Nat) (ho1 : 1 ≤ o) (ho3 : o ≤ 3) :
    rem c (25 - o) = rem c (24 - o) + tallyAt (barCell (pr c o)) () 1 := by
  obtain rfl | rfl | rfl : o = 1 ∨ o = 2 ∨ o = 3 := by omega
  all_goals rfl

theorem signal_step (K : Dev nD × Fin 57 → ℕ) (c : Dev nD) (o : Nat) (ho1 : 1 ≤ o) (ho3 : o ≤ 3) (W : Waits sig Unit)
    {Γ : PendingWaitsCtx sig Unit} {Es : Set ℕ} {α : Type} {Q : α → sProp 𝕄}
    {k : PUnit → Prog (TpuEff nD τ sig (Elt F) Λ₀ .tc) α} :
    iprop(records m K ∗ owes (c : Thread nD τ) (rem c (25 - o)) W ∗ dutyTok ER (barCell (pr c o)) 0 c ∗ barPay (F := F) (pr c o) c)
      ⊢ iprop((owes (c : Thread nD τ) (rem c (24 - o)) W -∗ wp frame (wpE' (defs₀ (F := F)) 𝒱₀ (c : Thread nD τ) none Γ) Es (k ⟨⟩) Q)
          -∗ wp frame (wpE' (defs₀ (F := F)) 𝒱₀ (c : Thread nD τ) none Γ) Es
              (.op (.semSignal ((pr c o : Dev nD) : Thread nD τ) barS (1#32 : BitVec 32).toNat) k) Q) := by
  iintro ⟨#HR, HO, Ht, Hp⟩ Hk
  iapply (Rounds.wp_signal 𝒱₀ ER (Rd (F := F) m) (c : Thread nD τ) none (dst := ((pr c o : Dev nD) : Thread nD τ)) (κ := K (pr c o, ⟨56, by decide⟩))
      (d := c) (by rw [duties_bar]; exact Finset.mem_erase.mpr ⟨(pr_ne c o (by omega) (by omega)).symm, Finset.mem_univ _⟩)
      ((amount_bar m (pr c o) c).trans (by decide)) () (rem c (24 - o)) (rem_signal c o ho1 ho3)) $$ [HO Ht Hp]
  · isplitr; · iapply (inv_at m K (pr c o, ⟨56, by decide⟩)); iexact HR
    rw [payload_bar]; iframe
    iapply (reached_at m K (pr c o, ⟨56, by decide⟩)); iexact HR
  iexact Hk

theorem inv_dma (K : Dev nD × Fin 57 → ℕ) (d : Dev nD) (q : DmaSem sig) (hq : 1 ≤ q.val) :
    records m K ⊢ cellInv ER (Rd (F := F) m) (K (d, dmaKL q)) ((d : Thread nD τ), SemLoc.dma q) :=
  kcell_dmaL d q hq ▸ inv_at m K (d, dmaKL q)
theorem reached_dma (K : Dev nD × Fin 57 → ℕ) (d : Dev nD) (q : DmaSem sig) (hq : 1 ≤ q.val) :
    records m K ⊢ (reached ER ((d : Thread nD τ), SemLoc.dma q) 0 : sProp 𝕄) :=
  kcell_dmaL d q hq ▸ reached_at m K (d, dmaKL q)

-- A slot of a two-slot buffer, its leading axis dropped: index `y` sits at `(b, y 0, y 1)`.
private theorem slot_emb {n0 n1 : Nat} (b : Fin 2) (inb) (h) (y : (⟨2, ![n0, n1]⟩ : Shape).Idx) :
    (Rect.unit (s := ⟨3, ![2, n0, n1]⟩) ![b.val, 0, 0] ![1, n0, n1] inb).emb (Shape.reshapeEquiv h y) = ix3 b (y 0) (y 1) := by
  rw [Shape.reshapeEquiv_cons_one (n := 2) (d := ![n0, n1])]
  funext a; apply Fin.ext; rw [Rect.emb_apply]
  match a with
  | ⟨0, _⟩ => exact Nat.add_zero _
  | ⟨1, _⟩ => exact (Nat.zero_add _).trans (Nat.one_mul _)
  | ⟨2, _⟩ => exact (Nat.zero_add _).trans (Nat.one_mul _)

-- A matrix written whole through a slot: on the slot's elements the buffer holds the matrix, whichever the slot.
theorem wv1_lands0 (fd) (w : Vec F S1024x2048 .f32) :
    ∀ i ∈ (wv1M 0).view.set, (wv1M 0).view.write (Elt F) fd w Finset.univ i
      = (fun i : S2x1024x2048.Idx => w (ix2 (i 1) (i 2)) : Vec F S2x1024x2048 .f32) i := by
  intro i hi
  obtain ⟨y, rfl⟩ := View.exists_emb_of_mem_set _ hi
  rw [View.write_emb_of_mem _ _ (Finset.mem_univ y), show (wv1M 0).view.emb y = (ix3 (0 : Fin 2) (y 0) (y 1) : S2x1024x2048.Idx) from
    slot_emb 0 inb_S2x1024x2048_S1x1024x2048_0_0_0 squeezes_S1x1024x2048_S1024x2048.numel_eq y]
  exact (cast_eq _ _).trans (congrArg w (eq_ix2 y))
theorem wv1_lands1 (fd) (w : Vec F S1024x2048 .f32) :
    ∀ i ∈ (wv1M 1).view.set, (wv1M 1).view.write (Elt F) fd w Finset.univ i
      = (fun i : S2x1024x2048.Idx => w (ix2 (i 1) (i 2)) : Vec F S2x1024x2048 .f32) i := by
  intro i hi
  obtain ⟨y, rfl⟩ := View.exists_emb_of_mem_set _ hi
  rw [View.write_emb_of_mem _ _ (Finset.mem_univ y), show (wv1M 1).view.emb y = (ix3 (1 : Fin 2) (y 0) (y 1) : S2x1024x2048.Idx) from
    slot_emb 1 inb_S2x1024x2048_S1x1024x2048_1_0_0 squeezes_S1x1024x2048_S1024x2048.numel_eq y]
  exact (cast_eq _ _).trans (congrArg w (eq_ix2 y))
theorem wv2_lands0 (fd) (w : Vec F S2048x1024 .f32) :
    ∀ i ∈ (wv2M 0).view.set, (wv2M 0).view.write (Elt F) fd w Finset.univ i
      = (fun i : S2x2048x1024.Idx => w (ix2 (i 1) (i 2)) : Vec F S2x2048x1024 .f32) i := by
  intro i hi
  obtain ⟨y, rfl⟩ := View.exists_emb_of_mem_set _ hi
  rw [View.write_emb_of_mem _ _ (Finset.mem_univ y), show (wv2M 0).view.emb y = (ix3 (0 : Fin 2) (y 0) (y 1) : S2x2048x1024.Idx) from
    slot_emb 0 inb_S2x2048x1024_S1x2048x1024_0_0_0 squeezes_S1x2048x1024_S2048x1024.numel_eq y]
  exact (cast_eq _ _).trans (congrArg w (eq_ix2 y))
theorem wv2_lands1 (fd) (w : Vec F S2048x1024 .f32) :
    ∀ i ∈ (wv2M 1).view.set, (wv2M 1).view.write (Elt F) fd w Finset.univ i
      = (fun i : S2x2048x1024.Idx => w (ix2 (i 1) (i 2)) : Vec F S2x2048x1024 .f32) i := by
  intro i hi
  obtain ⟨y, rfl⟩ := View.exists_emb_of_mem_set _ hi
  rw [View.write_emb_of_mem _ _ (Finset.mem_univ y), show (wv2M 1).view.emb y = (ix3 (1 : Fin 2) (y 0) (y 1) : S2x2048x1024.Idx) from
    slot_emb 1 inb_S2x2048x1024_S1x2048x1024_1_0_0 squeezes_S1x2048x1024_S2048x1024.numel_eq y]
  exact (cast_eq _ _).trans (congrArg w (eq_ix2 y))

-- A weight copied whole into a slot held at any contents pays the one duty of the copy's cell with the slot at `g` and the array itself.
theorem wcopy_core (K : Dev nD × Fin 57 → ℕ) (c : Dev nD) (l : Fin 3) (j : Fin 2) {s : Shape}
    (src : Memref sig .tc .hbm s .f32) (dst : Memref sig .tc .vmem s .f32)
    (fs : Buf (Elt F) (src.view.loc (c : Thread nD τ))) (g : Buf (Elt F) (dst.view.loc (c : Thread nD τ)))
    (hN : dst.view.dmaCredit = Nw)
    (hg : ∀ fd, ∀ i ∈ dst.view.set, dst.view.write (Elt F) fd (src.view.read (Elt F) fs) Finset.univ i = g i)
    (hpay : iprop(pts (F := F) dst c fullShare g ∗ pts (F := F) src c fullShare fs) ⊢ wcpPay m c l j) {hsrc} {hdst} {hsem}
    {Γ : PendingWaitsCtx sig Unit} {Es : Set ℕ} {α : Type} {Q : α → sProp 𝕄}
    {k : PUnit → Prog (TpuEff nD τ sig (Elt F) Λ₀ .tc) α} :
    iprop(records m K ∗ pts (F := F) src c fullShare fs ∗ ptsE (F := F) dst c ∗ dutyTok ER (wcpCell c l j) 0 c)
      ⊢ iprop((cred (tallyAt (wcpCell c l j) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma src (.here dst) (.dma (wcpS l j)) hsrc hdst hsem) k) Q) := by
  have hq : 1 ≤ (wcpS l j).val := by rw [wcpS_val]; omega
  unfold ptsE pts
  iintro ⟨#HR, Hs, ⟨%fd, Hd⟩, Ht⟩ Hk
  iapply (Rounds.wp_copy_pointsTo 𝒱₀ ER (Rd (F := F) m) (c : Thread nD τ) none (q := fullShare) (fs := fs) (fd := fd)
      (κ := K (c, dmaKL (wcpS l j))) (d := c)
      (by rw [duties_wcp]; exact Finset.mem_singleton_self _) () Nw (show dst.view.amount (SemLoc.dma (wcpS l j)) = Nw from hN) (amount_wcp m c l j c) ?hpay) $$ [Hs Hd Ht]
  case hpay =>
    rw [payload_wcp, pointsTo_congr (hg fd)]
    exact hpay
  · isplitr; · iapply (inv_dma m K c (wcpS l j) hq); iexact HR
    iframe
    iapply (reached_dma m K c (wcpS l j) hq); iexact HR
  iexact Hk

theorem wcopy_step_0_0 (K : Dev nD × Fin 57 → ℕ) (c : Dev nD)
    {hsrc : (Memref.whole main_arg1 : Memref sig .tc .hbm S1024x2048 .f32).view.WordExact} {hdst : (wv1M 0).view.WordExact}
    {hsem : DmaTarget.Typed (nD := nD) .hbm (SemLoc.dma (wcpS 0 0)) (DmaTarget.here (wv1M 0) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg1 : Memref sig .tc .hbm S1024x2048 .f32) c fullShare (W1 (F := F) m 0 c)
        ∗ ptsE (F := F) (wv1M 0) c ∗ dutyTok ER (wcpCell c 0 0) 0 c)
      ⊢ iprop((cred (tallyAt (wcpCell c 0 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg1 : Memref sig .tc .hbm S1024x2048 .f32) (.here (wv1M 0)) (.dma (wcpS 0 0)) hsrc hdst hsem) k) Q) :=
  wcopy_core m K c 0 0 _ (wv1M 0) _ (wv1B m 0 c) (by decide) (fun fd => wv1_lands0 fd _) .rfl

theorem wcopy_step_0_1 (K : Dev nD × Fin 57 → ℕ) (c : Dev nD)
    {hsrc : (Memref.whole main_arg2 : Memref sig .tc .hbm S2048x1024 .f32).view.WordExact} {hdst : (wv2M 0).view.WordExact}
    {hsem : DmaTarget.Typed (nD := nD) .hbm (SemLoc.dma (wcpS 0 1)) (DmaTarget.here (wv2M 0) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg2 : Memref sig .tc .hbm S2048x1024 .f32) c fullShare (W2 (F := F) m 0 c)
        ∗ ptsE (F := F) (wv2M 0) c ∗ dutyTok ER (wcpCell c 0 1) 0 c)
      ⊢ iprop((cred (tallyAt (wcpCell c 0 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg2 : Memref sig .tc .hbm S2048x1024 .f32) (.here (wv2M 0)) (.dma (wcpS 0 1)) hsrc hdst hsem) k) Q) :=
  wcopy_core m K c 0 1 _ (wv2M 0) _ (wv2B m 0 c) (by decide) (fun fd => wv2_lands0 fd _) .rfl

theorem wcopy_step_1_0 (K : Dev nD × Fin 57 → ℕ) (c : Dev nD)
    {hsrc : (Memref.whole main_arg3 : Memref sig .tc .hbm S1024x2048 .f32).view.WordExact} {hdst : (wv1M 1).view.WordExact}
    {hsem : DmaTarget.Typed (nD := nD) .hbm (SemLoc.dma (wcpS 1 0)) (DmaTarget.here (wv1M 1) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg3 : Memref sig .tc .hbm S1024x2048 .f32) c fullShare (W1 (F := F) m 1 c)
        ∗ ptsE (F := F) (wv1M 1) c ∗ dutyTok ER (wcpCell c 1 0) 0 c)
      ⊢ iprop((cred (tallyAt (wcpCell c 1 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg3 : Memref sig .tc .hbm S1024x2048 .f32) (.here (wv1M 1)) (.dma (wcpS 1 0)) hsrc hdst hsem) k) Q) :=
  wcopy_core m K c 1 0 _ (wv1M 1) _ (wv1B m 1 c) (by decide) (fun fd => wv1_lands1 fd _) .rfl

theorem wcopy_step_1_1 (K : Dev nD × Fin 57 → ℕ) (c : Dev nD)
    {hsrc : (Memref.whole main_arg4 : Memref sig .tc .hbm S2048x1024 .f32).view.WordExact} {hdst : (wv2M 1).view.WordExact}
    {hsem : DmaTarget.Typed (nD := nD) .hbm (SemLoc.dma (wcpS 1 1)) (DmaTarget.here (wv2M 1) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg4 : Memref sig .tc .hbm S2048x1024 .f32) c fullShare (W2 (F := F) m 1 c)
        ∗ ptsE (F := F) (wv2M 1) c ∗ dutyTok ER (wcpCell c 1 1) 0 c)
      ⊢ iprop((cred (tallyAt (wcpCell c 1 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg4 : Memref sig .tc .hbm S2048x1024 .f32) (.here (wv2M 1)) (.dma (wcpS 1 1)) hsrc hdst hsem) k) Q) :=
  wcopy_core m K c 1 1 _ (wv2M 1) _ (wv2B m 1 c) (by decide) (fun fd => wv2_lands1 fd _) .rfl

theorem wcopy_step_2_0 (K : Dev nD × Fin 57 → ℕ) (c : Dev nD)
    {hsrc : (Memref.whole main_arg5 : Memref sig .tc .hbm S1024x2048 .f32).view.WordExact} {hdst : (wv1M 0).view.WordExact}
    {hsem : DmaTarget.Typed (nD := nD) .hbm (SemLoc.dma (wcpS 2 0)) (DmaTarget.here (wv1M 0) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg5 : Memref sig .tc .hbm S1024x2048 .f32) c fullShare (W1 (F := F) m 2 c)
        ∗ ptsE (F := F) (wv1M 0) c ∗ dutyTok ER (wcpCell c 2 0) 0 c)
      ⊢ iprop((cred (tallyAt (wcpCell c 2 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg5 : Memref sig .tc .hbm S1024x2048 .f32) (.here (wv1M 0)) (.dma (wcpS 2 0)) hsrc hdst hsem) k) Q) :=
  wcopy_core m K c 2 0 _ (wv1M 0) _ (wv1B m 2 c) (by decide) (fun fd => wv1_lands0 fd _) .rfl

theorem wcopy_step_2_1 (K : Dev nD × Fin 57 → ℕ) (c : Dev nD)
    {hsrc : (Memref.whole main_arg6 : Memref sig .tc .hbm S2048x1024 .f32).view.WordExact} {hdst : (wv2M 0).view.WordExact}
    {hsem : DmaTarget.Typed (nD := nD) .hbm (SemLoc.dma (wcpS 2 1)) (DmaTarget.here (wv2M 0) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg6 : Memref sig .tc .hbm S2048x1024 .f32) c fullShare (W2 (F := F) m 2 c)
        ∗ ptsE (F := F) (wv2M 0) c ∗ dutyTok ER (wcpCell c 2 1) 0 c)
      ⊢ iprop((cred (tallyAt (wcpCell c 2 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg6 : Memref sig .tc .hbm S2048x1024 .f32) (.here (wv2M 0)) (.dma (wcpS 2 1)) hsrc hdst hsem) k) Q) :=
  wcopy_core m K c 2 1 _ (wv2M 0) _ (wv2B m 2 c) (by decide) (fun fd => wv2_lands0 fd _) .rfl

theorem rowDev_row64 (c : Dev nD) (r : Fin 64) : rowDev (row64 c r) = c :=
  Fin.ext (by show (64 * c.val + r.val) / 64 = c.val; have := r.isLt; omega)
theorem rowIn_row64 (c : Dev nD) (r : Fin 64) : rowIn (row64 c r) = r :=
  Fin.ext (by show (64 * c.val + r.val) % 64 = r.val; have := r.isLt; omega)

theorem outM_emb (c : Dev nD) (y : S64x1024.Idx) :
    (outM c).view.emb y = (ix2 (row64 c (y 0)) (y 1) : S256x1024.Idx) := by
  show (Rect.unit (s := S256x1024) ![64 * c.val, 0] S64x1024.size (rows_inb c)).emb y = _
  funext a
  apply Fin.ext
  rw [Rect.emb_apply]
  match a with
  | ⟨0, _⟩ => show 64 * c.val + 1 * (y 0).val = 64 * c.val + (y 0).val; omega
  | ⟨1, _⟩ => exact (Nat.zero_add _).trans (Nat.one_mul _)

theorem outM_lands (c : Dev nD) (fd : (outM c).view.ty.Contents (Elt F)) :
    ∀ i ∈ (outM c).view.set, (outM c).view.write (Elt F) fd (outBlk m c) Finset.univ i = (outAll m : Vec F S256x1024 .f32) i := by
  intro i hi
  obtain ⟨y, rfl⟩ := View.exists_emb_of_mem_set _ hi
  rw [View.write_emb_of_mem _ _ (Finset.mem_univ y), outM_emb]
  refine (cast_eq _ _).trans ?_
  show outBlk m c y = outBlk m (rowDev (row64 c (y 0))) (ix2 (rowIn (row64 c (y 0))) (y 1))
  rw [rowDev_row64 c (y 0), rowIn_row64 c (y 0)]
  exact congrArg (outBlk m c) (eq_ix2 y)

theorem outcopy_step (K : Dev nD × Fin 57 → ℕ) (c : Dev nD)
    {hsrc : (stgM).view.WordExact} {hdst : (outM c).view.WordExact}
    {hsem : DmaTarget.Typed (nD := nD) .vmem (SemLoc.dma outS) (DmaTarget.here (outM c) : DmaTarget nD τ sig Proc.tc .hbm S64x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) stgM c (q4 3) (outBlk m c) ∗ ptsE (F := F) (outM c) c ∗ dutyTok ER (outCell c) 0 c)
      ⊢ iprop((cred (tallyAt (outCell c) () Nf) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma stgM (.here (outM c)) (.dma outS) hsrc hdst hsem) k) Q) := by
  have hq : 1 ≤ (outS).val := by rw [outS_val]; omega
  unfold ptsE pts
  iintro ⟨#HR, Hs, ⟨%fd, Hd⟩, Ht⟩ Hk
  iapply (Rounds.wp_copy_pointsTo 𝒱₀ ER (Rd (F := F) m) (c : Thread nD τ) none (q := q4 3) (fs := outBlk m c) (fd := fd)
      (κ := K (c, dmaKL outS)) (d := c)
      (by rw [duties_out]; exact Finset.mem_singleton_self _) () Nf rfl (amount_out m c c) ?hpay) $$ [Hs Hd Ht]
  case hpay =>
    rw [payload_out, pointsTo_congr (outM_lands m c fd)]
    exact .rfl
  · isplitr; · iapply (inv_dma m K c outS hq); iexact HR
    iframe
    iapply (reached_dma m K c outS hq); iexact HR
  iexact Hk

end Cert.KernelIdeal.Dist

end
-- ==== Proof.DBodySend.lean ====
import proofs.«900988_g7700000000000989_dist_mlpseq_tp1d_bs_rep_b64_d1024_h2048_v7x_i4_f32_1_alg».proof.Proof.DTables
import proofs.«900988_g7700000000000989_dist_mlpseq_tp1d_bs_rep_b64_d1024_h2048_v7x_i4_f32_1_alg».proof.Proof.DStart
import proofs.«900988_g7700000000000989_dist_mlpseq_tp1d_bs_rep_b64_d1024_h2048_v7x_i4_f32_1_alg».proof.Proof.DDat
import Idealize.ShloMosaic.Lib.Pipeline.Value

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

-- The place of a DMA semaphore's cell in the launch's enumeration: one below its number.
private def dix (q : DmaSem sig) : Fin 57 := ⟨q.val - 1, by have : q.val < 57 := q.isLt; omega⟩
private theorem kcell_dix (c : Dev nD) (q : DmaSem sig) (h : 0 < q.val) : kcell (c, dix q) = ((c : Thread nD τ), SemLoc.dma q) := by
  have hq : q.val < 57 := q.isLt
  show ((c : Thread nD τ), csem (dix q)) = _
  unfold csem osem
  rw [dif_pos (show (dix q).val < 56 by show q.val - 1 < 56; omega)]
  exact congrArg (fun x => ((c : Thread nD τ), SemLoc.dma x)) (Fin.ext (by show q.val - 1 + 1 = q.val; omega))

theorem amt_of_ne (p : Fin 7) (h : p.val ≠ 6) : amt p = Nh := if_neg h
theorem amt_six : amt 6 = Nf := if_pos rfl

-- Writing through `v` what was read through `v'` leaves `g` on `v`'s elements, if the source's contents at each index's image are `g` at its image under `v`.
private theorem landed {κ κ' : Kind} {sp sp' : Space} {s : Shape} {e : EltTy} (v : View sig κ sp s e)
    (v' : View sig κ' sp' s e) (fd : v.ty.Contents (Elt F)) (fs : v'.ty.Contents (Elt F)) (g : v.ty.Contents (Elt F))
    (h : ∀ y, cast (congrArg (Elt F) (v'.elt_eq.trans v.elt_eq.symm)) (fs (v'.emb y)) = g (v.emb y)) :
    ∀ i ∈ v.set, v.write (Elt F) fd (v'.read (Elt F) fs) Finset.univ i = g i := by
  intro i hi
  obtain ⟨y, rfl⟩ := View.exists_emb_of_mem_set v hi
  rw [View.write_emb_of_mem _ _ (Finset.mem_univ y), View.read_apply, cast_cast]
  exact h y

theorem unsq4 (y : S64x1024.Idx) (h : S64x1024.numel = S1x1x64x1024.numel) :
    Shape.reshapeEquiv (s := S1x1x64x1024) (s' := S64x1024) h y
      = ix4 (n0 := 1) (n1 := 1) (n2 := 64) (n3 := 1024) (0 : Fin 1) (0 : Fin 1) (y 0) (y 1) := by
  apply Shape.reshapeEquiv_eq_of_rowMajor
  refine (Shape.rowMajor_val_four (d := ![1, 1, 64, 1024]) _).trans ?_
  refine Eq.trans ?_ (Shape.rowMajor_val_two (d := ![64, 1024]) y).symm
  show (((0 : Fin 1).val * 1 + (0 : Fin 1).val) * 64 + (y 0).val) * 1024 + (y 1).val = (y 0).val * 1024 + (y 1).val
  simp

theorem rsM_emb (l : Fin 3) (s : Dev nD) (y : S64x1024.Idx) :
    (rsM l s).view.emb y = ix4 (n0 := 3) (n1 := 4) (n2 := 64) (n3 := 1024) l s (y 0) (y 1) := by
  show (Rect.unit (s := S3x4x64x1024) ![l.val, s.val, 0, 0] S1x1x64x1024.size (rs_inb l s)).emb
      (Shape.reshapeEquiv (s := S1x1x64x1024) (s' := S64x1024) squeezes_S1x1x64x1024_S64x1024.numel_eq y) = _
  rw [unsq4]
  funext a
  apply Fin.ext
  match a with
  | ⟨0, _⟩ => show l.val + 1 * 0 = l.val; omega
  | ⟨1, _⟩ => show s.val + 1 * 0 = s.val; omega
  | ⟨2, _⟩ => show 0 + 1 * (y 0).val = (y 0).val; omega
  | ⟨3, _⟩ => show 0 + 1 * (y 1).val = (y 1).val; omega

-- Rows `64 s …` of a 256 × 1024 array: where the piece's elements lie.
private theorem rows_emb (s : Dev nD) (y : S64x1024.Idx) :
    (Rect.unit (s := S256x1024) ![64 * s.val, 0] S64x1024.size (rows_inb s)).emb y
      = ix2 (n0 := 256) (n1 := 1024) (row64 s (y 0)) (y 1) := by
  funext a
  apply Fin.ext
  match a with
  | ⟨0, _⟩ => show 64 * s.val + 1 * (y 0).val = 64 * s.val + (y 0).val; omega
  | ⟨1, _⟩ => show 0 + 1 * (y 1).val = (y 1).val; omega

theorem rowDev_row64_s (c : Dev nD) (r : Fin 64) : rowDev (row64 c r) = c := by
  apply Fin.ext; show (64 * c.val + r.val) / 64 = c.val; have := r.isLt; omega
theorem rowIn_row64_s (c : Dev nD) (r : Fin 64) : rowIn (row64 c r) = r := by
  apply Fin.ext; show (64 * c.val + r.val) % 64 = r.val; have := r.isLt; omega

-- Slot `c` on device `d` and rows `64 d …` of `c`'s partial product index the same elements, one by one.
theorem ps_landed (l : Fin 3) (c d : Dev nD) (fd : (rsM l c).view.ty.Contents (Elt F)) :
    ∀ i ∈ (rsM l c).view.set,
      (rsM l c).view.write (Elt F) fd ((psM d).view.read (Elt F) (psB m l c)) Finset.univ i = rsB m d i :=
  landed _ _ fd _ (rsB m d) fun y => (cast_eq _ _).trans
    ((congrArg (psB m l c) (rows_emb d y)).trans (congrArg (rsB m d) (rsM_emb l c y)).symm)

-- Row `64 c + r` of the result belongs to device `c` at its row `r`, so the block written there is the result's own rows.
theorem out_landed (c : Dev nD) (fd : (outM c).view.ty.Contents (Elt F)) :
    ∀ i ∈ (outM c).view.set,
      (outM c).view.write (Elt F) fd ((stgM).view.read (Elt F) (outBlk m c)) Finset.univ i = outAll m i := by
  refine landed _ _ fd _ (outAll m) fun y => (cast_eq _ _).trans ?_
  refine Eq.trans ?_ (congrArg (outAll m) (rows_emb c y)).symm
  have key : ∀ (a : Fin 64) (b : Fin 1024),
      outBlk m (rowDev (row64 c a)) (ix2 (rowIn (row64 c a)) b) = outBlk m c (ix2 a b) :=
    fun a b => by rw [rowDev_row64_s, rowIn_row64_s]
  exact (congrArg (outBlk m c) (eq_ix2 (n0 := 64) (n1 := 1024) y)).trans (key (y 0) (y 1)).symm

-- An addressed transfer to a peer pays a duty of the sender's send cell and one of the peer's receive cell: the source share comes back with the first (`b` false) or travels on with the landing, and `X` travels with the landing.
private theorem send_at {Γ : PendingWaitsCtx sig Unit} {Es : Set ℕ} {α : Type} {Q : α → sProp 𝕄}
    {k : PUnit → Prog (TpuEff nD τ sig (Elt F) Λ₀ .tc) α} {sp sp' : Space} {s : Shape} {e : EltTy} (b : Bool)
    (K : Dev nD × Fin 57 → ℕ) (c d : Dev nD) (hne : c ≠ d) (p : Fin 7) (j : Fin 3) (N : ℕ) (hamt : amt p = N)
    (src : Memref sig .tc sp s e) (dst : Memref sig .tc sp' s e) (hN : dst.view.dmaCredit = N)
    (q : PosShare TreeShare) (fs : Buf (Elt F) (src.view.loc (c : Thread nD τ))) (X : sProp 𝕄)
    (kk : Nat) (W : Waits sig Unit)
    (hO : rem c (kk + 1) = rem c kk + tallyAt (rcvCell d p c) () (amt p))
    (hpay₁ : (bif b then iprop(emp) else (src.view.loc (c : Thread nD τ) ↦[src.view.set]{q} fs)) ⊢ sndPay m c p j)
    (hpay₂ : ∀ fd : Buf (Elt F) (dst.view.loc (d : Thread nD τ)),
      (bif b then iprop(((dst.view.loc (d : Thread nD τ) ↦[dst.view.set]{fullShare}
            (dst.view.write (Elt F) fd (src.view.read (Elt F) fs) Finset.univ)) ∗ X) ∗ (src.view.loc (c : Thread nD τ) ↦[src.view.set]{q} fs))
        else iprop((dst.view.loc (d : Thread nD τ) ↦[dst.view.set]{fullShare}
            (dst.view.write (Elt F) fd (src.view.read (Elt F) fs) Finset.univ)) ∗ X)) ⊢ rcvPay m d p c)
    {hsc : dst.view.ref.isScScratch = false} {hsrc : src.view.WordExact} {hdst : dst.view.WordExact}
    {hsem : DmaTarget.Typed sp (.dma (rcvS p c)) (.remote ((d : Dev nD) : Thread nD τ) dst (.dma (sndS p j)) hsc)} :
    iprop(records m K ∗ (src.view.loc (c : Thread nD τ) ↦[src.view.set]{q} fs) ∗ ptsE (F := F) dst d ∗ X
        ∗ owes (c : Thread nD τ) (rem c (kk + 1)) W
        ∗ dutyTok ER (sndCell c p j) 0 c ∗ dutyTok ER (rcvCell d p c) 0 c)
      ⊢ iprop(((cred (tallyAt (sndCell c p j) () N) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma src (.remote ((d : Dev nD) : Thread nD τ) dst (.dma (sndS p j)) hsc)
                (.dma (rcvS p c)) hsrc hdst hsem) k) Q) := by
  rw [hamt] at hO
  iintro ⟨#Hrec, Hsrc, Hdst, HX, HL, Ht1, Ht2⟩ Hk
  unfold ptsE
  icases Hdst with ⟨%fd, Hdst⟩
  ihave Hg1 := inv_at m K (c, dix (sndS p j)) $$ Hrec
  ihave Hr1 := reached_at m K (c, dix (sndS p j)) $$ Hrec
  ihave Hg2 := inv_at m K (d, dix (rcvS p c)) $$ Hrec
  ihave Hr2 := reached_at m K (d, dix (rcvS p c)) $$ Hrec
  rw [kcell_dix c (sndS p j) (by rw [sndS_val]; omega), kcell_dix d (rcvS p c) (by rw [rcvS_val]; omega)]
  ihave Hw := ((sep_mono_left (pointsTo_writeUpdate ((d : Dev nD) : Thread nD τ) (v := dst.view)
      (w := src.view.read (Elt F) fs) (fd := fd) subset_rfl)).trans (writeUpdate_frame ((d : Dev nD) : Thread nD τ) (F := X))) $$ [Hdst HX]
  · iframe
  iapply (Rounds.wp_send_bif 𝒱₀ ER (Rd (F := F) m) (c : Thread nD τ) none b
      (c' := ((d : Dev nD) : Thread nD τ)) (src := src) (dst := dst) (q := q)
      (sS := .dma (sndS p j)) (sem := .dma (rcvS p c)) (fs := fs) (r₁ := 0) (r₂ := 0) (d₁ := c) (d₂ := c)
      (by rw [duties_snd]; exact Finset.mem_singleton_self c)
      (by rw [duties_rcv m d p c hne]; exact Finset.mem_singleton_self c)
      () () N (show dst.view.amount (.dma (rcvS p c)) = N from hN)
      ((amount_snd m c p j c).trans hamt) ((amount_rcv m d p c c).trans hamt) (rem c kk) hO
      (by rw [payload_snd]; exact hpay₁) (by rw [payload_rcv]; exact hpay₂ fd)) $$ [$] Hk

-- A transfer with nothing travelling besides is one where `emp` travels.
private theorem no_extra {A B C D G : sProp 𝕄} (h : iprop(A ∗ B ∗ C ∗ emp ∗ D) ⊢ G) : iprop(A ∗ B ∗ C ∗ D) ⊢ G :=
  (sep_mono_right (sep_mono_right (sep_mono_right (emp_sep (PROP := sProp 𝕄)).2))).trans h

theorem gather_send0 {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (o : Nat) (h1 : 0 < o) (h4 : o < 4) (j : Fin 3)
    (kk : Nat) (W : Waits sig Unit)
    (hO : rem c (kk + 1) = rem c kk + tallyAt (rcvCell (pr c o) 0 c) () (amt 0))
    {hsc : (actsM 0 c).view.ref.isScScratch = false}
    {hsrc : (actsM 0 c).view.WordExact} {hdst : (actsM 0 c).view.WordExact}
    {hsem : DmaTarget.Typed .vmem (.dma (rcvS 0 c)) (.remote ((pr c o : Dev nD) : Thread nD τ) (actsM 0 c) (.dma (sndS 0 j)) hsc)} :
    iprop(records m K ∗ pts (F := F) (actsM 0 c) c (q4 j.castSucc) (actsB m) ∗ ptsE (F := F) (actsM 0 c) (pr c o)
        ∗ owes (c : Thread nD τ) (rem c (kk + 1)) W
        ∗ dutyTok ER (sndCell c 0 j) 0 c ∗ dutyTok ER (rcvCell (pr c o) 0 c) 0 c)
      ⊢ iprop(((cred (tallyAt (sndCell c 0 j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (actsM 0 c) (.remote ((pr c o : Dev nD) : Thread nD τ) (actsM 0 c) (.dma (sndS 0 j)) hsc)
                (.dma (rcvS 0 c)) hsrc hdst hsem) k) Q) :=
  no_extra (send_at m false K c (pr c o) (pr_ne c o h1 h4).symm 0 j Nh (amt_of_ne 0 (by decide)) (actsM 0 c) (actsM 0 c) rfl
    (q4 j.castSucc) (actsB m) iprop(emp) kk W hO .rfl
    (fun fd => (sep_emp (PROP := sProp 𝕄)).1.trans (Entails.of_eq (pointsTo_congr (landed (actsM 0 c).view _ fd (actsB m) _ fun y => cast_eq _ _)))))

theorem gather_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (l : Fin 3) (l' : Fin 3) (p : Fin 7) (hp : p.val = 2 * l.val) (hl : l.val = l'.val + 1) (o : Nat) (h1 : 0 < o) (h4 : o < 4) (j : Fin 3)
    (kk : Nat) (W : Waits sig Unit)
    (hO : rem c (kk + 1) = rem c kk + tallyAt (rcvCell (pr c o) p c) () (amt p))
    {hsc : (actsM l c).view.ref.isScScratch = false}
    {hsrc : (actsM l c).view.WordExact} {hdst : (actsM l c).view.WordExact}
    {hsem : DmaTarget.Typed .vmem (.dma (rcvS p c)) (.remote ((pr c o : Dev nD) : Thread nD τ) (actsM l c) (.dma (sndS p j)) hsc)} :
    iprop(records m K ∗ pts (F := F) (actsM l c) c (q4 j.castSucc) (actsB m) ∗ ptsE (F := F) (actsM l c) (pr c o)
        ∗ pts (F := F) (psM c) (pr c o) fullShare (psB m l' (pr c o))
        ∗ owes (c : Thread nD τ) (rem c (kk + 1)) W
        ∗ dutyTok ER (sndCell c p j) 0 c ∗ dutyTok ER (rcvCell (pr c o) p c) 0 c)
      ⊢ iprop(((cred (tallyAt (sndCell c p j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (actsM l c) (.remote ((pr c o : Dev nD) : Thread nD τ) (actsM l c) (.dma (sndS p j)) hsc)
                (.dma (rcvS p c)) hsrc hdst hsem) k) Q) := by
  have key : ∀ (l l' : Fin 3) (p : Fin 7), p.val = 2 * l.val → l.val = l'.val + 1 →
      (l = 1 ∧ l' = 0 ∧ p = 2) ∨ (l = 2 ∧ l' = 1 ∧ p = 4) := by decide
  obtain ⟨rfl, rfl, rfl⟩ | ⟨rfl, rfl, rfl⟩ := key l l' p hp hl
  · exact send_at m false K c (pr c o) (pr_ne c o h1 h4).symm 2 j Nh (amt_of_ne 2 (by decide)) (actsM 1 c) (actsM 1 c) rfl
      (q4 j.castSucc) (actsB m) (pts (F := F) (psM c) (pr c o) fullShare (psB m 0 (pr c o))) kk W hO .rfl
      (fun fd => sep_mono_left (Entails.of_eq (pointsTo_congr (landed (actsM 1 c).view _ fd (actsB m) _ fun y => cast_eq _ _))))
  · exact send_at m false K c (pr c o) (pr_ne c o h1 h4).symm 4 j Nh (amt_of_ne 4 (by decide)) (actsM 2 c) (actsM 2 c) rfl
      (q4 j.castSucc) (actsB m) (pts (F := F) (psM c) (pr c o) fullShare (psB m 1 (pr c o))) kk W hO .rfl
      (fun fd => sep_mono_left (Entails.of_eq (pointsTo_congr (landed (actsM 2 c).view _ fd (actsB m) _ fun y => cast_eq _ _))))

theorem ps_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (l : Fin 3) (p : Fin 7) (hp : p.val = 2 * l.val + 1) (o : Nat) (h1 : 0 < o) (h4 : o < 4) (j : Fin 3)
    (kk : Nat) (W : Waits sig Unit)
    (hO : rem c (kk + 1) = rem c kk + tallyAt (rcvCell (pr c o) p c) () (amt p))
    {hsc : (rsM l c).view.ref.isScScratch = false}
    {hsrc : (psM (pr c o)).view.WordExact} {hdst : (rsM l c).view.WordExact}
    {hsem : DmaTarget.Typed .vmem (.dma (rcvS p c)) (.remote ((pr c o : Dev nD) : Thread nD τ) (rsM l c) (.dma (sndS p j)) hsc)} :
    iprop(records m K ∗ pts (F := F) (psM (pr c o)) c fullShare (psB m l c) ∗ ptsE (F := F) (rsM l c) (pr c o)
        ∗ owes (c : Thread nD τ) (rem c (kk + 1)) W
        ∗ dutyTok ER (sndCell c p j) 0 c ∗ dutyTok ER (rcvCell (pr c o) p c) 0 c)
      ⊢ iprop(((cred (tallyAt (sndCell c p j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (psM (pr c o)) (.remote ((pr c o : Dev nD) : Thread nD τ) (rsM l c) (.dma (sndS p j)) hsc)
                (.dma (rcvS p c)) hsrc hdst hsem) k) Q) := by
  have key : ∀ (l : Fin 3) (p : Fin 7), p.val = 2 * l.val + 1 → (l = 0 ∧ p = 1) ∨ (l = 1 ∧ p = 3) ∨ (l = 2 ∧ p = 5) := by
    decide
  obtain ⟨rfl, rfl⟩ | ⟨rfl, rfl⟩ | ⟨rfl, rfl⟩ := key l p hp <;>
  exact no_extra (send_at m true K c (pr c o) (pr_ne c o h1 h4).symm _ j Nh (by exact if_neg (by decide)) (psM (pr c o)) _
    (by exact rfl) fullShare _ iprop(emp) kk W hO (by exact .rfl)
    (by exact fun fd => sep_mono_left ((sep_emp (PROP := sProp 𝕄)).1.trans
      (Entails.of_eq (pointsTo_congr (ps_landed m _ c (pr c o) fd))))))

theorem out_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (o : Nat) (h1 : 0 < o) (h4 : o < 4) (j : Fin 3)
    (kk : Nat) (W : Waits sig Unit)
    (hO : rem c (kk + 1) = rem c kk + tallyAt (rcvCell (pr c o) 6 c) () (amt 6))
    {hsc : (outM c).view.ref.isScScratch = false}
    {hsrc : (stgM).view.WordExact} {hdst : (outM c).view.WordExact}
    {hsem : DmaTarget.Typed .vmem (.dma (rcvS 6 c)) (.remote ((pr c o : Dev nD) : Thread nD τ) (outM c) (.dma (sndS 6 j)) hsc)} :
    iprop(records m K ∗ pts (F := F) stgM c (q4 j.castSucc) (outBlk m c) ∗ ptsE (F := F) (outM c) (pr c o)
        ∗ pts (F := F) (psM c) (pr c o) fullShare (psB m 2 (pr c o))
        ∗ owes (c : Thread nD τ) (rem c (kk + 1)) W
        ∗ dutyTok ER (sndCell c 6 j) 0 c ∗ dutyTok ER (rcvCell (pr c o) 6 c) 0 c)
      ⊢ iprop(((cred (tallyAt (sndCell c 6 j) () Nf) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma stgM (.remote ((pr c o : Dev nD) : Thread nD τ) (outM c) (.dma (sndS 6 j)) hsc)
                (.dma (rcvS 6 c)) hsrc hdst hsem) k) Q) :=
  send_at m false K c (pr c o) (pr_ne c o h1 h4).symm 6 j Nf amt_six stgM (outM c) rfl
    (q4 j.castSucc) (outBlk m c) (pts (F := F) (psM c) (pr c o) fullShare (psB m 2 (pr c o))) kk W hO .rfl
    (fun fd => sep_mono_left (Entails.of_eq (pointsTo_congr (out_landed m c fd))))

-- One payment comes off what is owed; numbered `23 - kk`, it decodes to the phase and the place within the phase.
theorem rem_rcv (c : Dev nD) (p : Fin 7) (t : Fin 3) (o : Nat) (ho : ordOf p t = o) (kk : Nat)
    (hk : 23 - kk = 3 + 3 * p.val + t.val) :
    rem c (kk + 1) = rem c kk + tallyAt (rcvCell (pr c o) p c) () (amt p) := by
  subst ho
  have hp := p.isLt; have ht := t.isLt
  have e1 : (⟨((3 + 3 * p.val + t.val - 3) / 3) % 7, Nat.mod_lt _ (by decide)⟩ : Fin 7) = p := Fin.ext (by show ((3 + 3 * p.val + t.val - 3) / 3) % 7 = p.val; omega)
  have e2 : (⟨(3 + 3 * p.val + t.val - 3) % 3, Nat.mod_lt _ (by decide)⟩ : Fin 3) = t := Fin.ext (by show (3 + 3 * p.val + t.val - 3) % 3 = t.val; omega)
  rw [rem_succ, hk]
  unfold pay payCell payAmt
  rw [if_neg (by omega), if_neg (by omega), e1, e2]

-- Equal operands give the same step: the remaining arguments are proofs.
theorem wp_enq_of {Γ : PendingWaitsCtx sig Unit} {Es : Set ℕ} {α : Type} {Q : α → sProp 𝕄}
    {k : PUnit → Prog (TpuEff nD τ sig (Elt F) Λ₀ .tc) α} {sp sp' : Space} {s : Shape} {e : EltTy} (c : Dev nD)
    {src src' : Memref sig .tc sp s e} {d d' : Dev nD}
    {dst dst' : Memref sig .tc sp' s e} {sS sS' sem sem' : SemLoc sig}
    (h1 : src' = src) (h2 : d' = d) (h3 : dst' = dst) (h4 : sS' = sS) (h5 : sem' = sem)
    {hsc' : dst'.view.ref.isScScratch = false} {hsrc' : src'.view.WordExact} {hdst' : dst'.view.WordExact}
    {hsem' : DmaTarget.Typed sp sem' (.remote ((d' : Dev nD) : Thread nD τ) dst' sS' hsc')} :
    wp frame (wpE' (defs₀ (F := F)) 𝒱₀ (c : Thread nD τ) none Γ) Es
        (.op (.enqueueDma src (.remote ((d : Dev nD) : Thread nD τ) dst sS (h3 ▸ hsc')) sem (h1 ▸ hsrc') (h3 ▸ hdst')
          (by subst h1 h2 h3 h4 h5; exact hsem')) k) Q
      ⊢ wp frame (wpE' (defs₀ (F := F)) 𝒱₀ (c : Thread nD τ) none Γ) Es
        (.op (.enqueueDma src' (.remote ((d' : Dev nD) : Thread nD τ) dst' sS' hsc') sem' hsrc' hdst' hsem') k) Q := by
  subst h1 h2 h3 h4 h5; exact .rfl

end Cert.KernelIdeal.Dist

end
-- ==== Proof.DBodyPC.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodyLocal
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyWb

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part1_spec (K : Dev nD × Fin 57 → ℕ) {Q : (Σ' (d0 : Dev nD) (v2 : BitVec 32) (v19 : Sems sig S_) (v22 : BitVec 32) (v23 : BitVec 32) (v24 : BitVec 1) (v25 : BitVec 1), BitVec 32) → sProp 𝕄} :
    iprop(records m K ∗ levAts L lv
        ∗ pts (F := F) (Memref.whole main_arg1 : Memref sig .tc .hbm S1024x2048 .f32) c fullShare (W1 (F := F) m 0 c)
        ∗ pts (F := F) (Memref.whole main_arg2 : Memref sig .tc .hbm S2048x1024 .f32) c fullShare (W2 (F := F) m 0 c)
        ∗ pts (F := F) (Memref.whole main_arg3 : Memref sig .tc .hbm S1024x2048 .f32) c fullShare (W1 (F := F) m 1 c)
        ∗ pts (F := F) (Memref.whole main_arg4 : Memref sig .tc .hbm S2048x1024 .f32) c fullShare (W2 (F := F) m 1 c)
        ∗ ptsE (F := F) (wv1M 0) c ∗ ptsE (F := F) (wv2M 0) c ∗ ptsE (F := F) (wv1M 1) c ∗ ptsE (F := F) (wv2M 1) c
        ∗ dutyTok ER (wcpCell c 0 0) 0 c ∗ dutyTok ER (wcpCell c 0 1) 0 c
        ∗ dutyTok ER (wcpCell c 1 0) 0 c ∗ dutyTok ER (wcpCell c 1 1) 0 c)
      ⊢ iprop((∀ r, iprop(⌜r.1 = c ∧ r.2.2.1 = (SemArray.scalar (sig.barrier 0 rfl) : Sems sig S_)⌝
            ∗ cred (tallyAt (wcpCell c 0 0) () Nw) ∗ cred (tallyAt (wcpCell c 0 1) () Nw)
            ∗ cred (tallyAt (wcpCell c 1 0) () Nw) ∗ cred (tallyAt (wcpCell c 1 1) () Nw)) -∗ Q r)
          -∗ wp frame (wpE (defs₀ (F := F)) 𝒱₀ (c : Thread nD τ) none) Set.univ (P1 (F := F)) Q) := by
  unfold P1 atArgs
  simp only [k0_part1_eq_skeleton, k0_part1_skel, Prog.lift, Prog.bind_op, Prog.bind_ret, Prog.pure_eq_ret, wp_deviceId]
  iintro ⟨#Hrec, #Hlev, Hs1, Hs2, Hs3, Hs4, Hd1, Hd2, Hd3, Hd4, Ht1, Ht2, Ht3, Ht4⟩ HQ
  iapply (wcopy_step_0_0 m K c) $$ [$]
  iintro Hc1
  iapply (wcopy_step_0_1 m K c) $$ [$]
  iintro Hc2
  iapply (wcopy_step_1_0 m K c) $$ [$]
  iintro Hc3
  iapply (wcopy_step_1_1 m K c) $$ [$]
  iintro Hc4
  iapply (le_wp_ret _ _)
  iapply HQ
  isplitr; · ipureintro; exact ⟨rfl, rfl⟩
  iframe

theorem part2_spec (K : Dev nD × Fin 57 → ℕ) (v2 : BitVec 32) (v19 : Sems sig S_) (hv19 : v19.sem = barS)
    (v22 v23 : BitVec 32) (v24 v25 : BitVec 1) (c0 : BitVec 32) {Q : PUnit → sProp 𝕄} :
    iprop(records m K ∗ levAts L lv ∗ owesX c 24
        ∗ dutyTok ER (barCell (pr c 1)) 0 c ∗ dutyTok ER (barCell (pr c 2)) 0 c ∗ dutyTok ER (barCell (pr c 3)) 0 c
        ∗ barPay (F := F) (pr c 1) c ∗ barPay (F := F) (pr c 2) c ∗ barPay (F := F) (pr c 3) c)
      ⊢ iprop((∀ r, iprop(owesX c 21) -∗ Q r)
          -∗ wp frame (wpE (defs₀ (F := F)) 𝒱₀ (c : Thread nD τ) none) Set.univ (P2 (F := F) c v2 v19 v22 v23 v24 v25 c0) Q) := by
  unfold owesX P2 atArgs
  simp only [k0_part2_eq_skeleton, k0_part2_skel, semSignalWord, Prog.lift, Prog.bind_op, Prog.bind_ret, Prog.pure_eq_ret]
  rw [hv19]
  simp only [dev1_eq c, dev2_eq c, dev3_eq c]
  iintro ⟨#Hrec, #Hlev, ⟨%W, HO⟩, Ht1, Ht2, Ht3, Hp1, Hp2, Hp3⟩ HQ
  iapply (signal_step m K c 1 (by omega) (by omega) W) $$ [$]
  iintro HO
  iapply (signal_step m K c 2 (by omega) (by omega) W) $$ [$]
  iintro HO
  iapply (signal_step m K c 3 (by omega) (by omega) W) $$ [$]
  iintro HO
  iapply (le_wp_ret _ _)
  iapply HQ
  iexists W; iexact HO

end Cert.KernelIdeal.Dist

end
-- ==== Proof.DBodyCast.lean ====
import proofs.«900988_g7700000000000989_dist_mlpseq_tp1d_bs_rep_b64_d1024_h2048_v7x_i4_f32_1_alg».proof.Proof.DTables
import proofs.«900988_g7700000000000989_dist_mlpseq_tp1d_bs_rep_b64_d1024_h2048_v7x_i4_f32_1_alg».proof.Proof.DDat
import proofs.«900988_g7700000000000989_dist_mlpseq_tp1d_bs_rep_b64_d1024_h2048_v7x_i4_f32_1_alg».proof.Proof.DBodyWb
import Idealize.ShloMosaic.Lib.Pipeline.Value

namespace Cert.KernelIdeal.Dist

open Gen
open Idealize.ShloMosaic Idealize.ShloMosaic.TcCoe
open Idealize.SL Idealize.SL.RA Idealize.SL.BI
open Idealize.SL.BI.BIBase Idealize.SL.BI.Laws Idealize.SL.Sem
open Idealize.ShloMosaic.ValueIdx

variable {F : FTy → Type} [FloatOps F]

local notation "𝕄" => MT nD τ sig Unit (Elt F) ℕ UU ℕ

variable (c : Dev nD)

-- Slot `b`'s rectangle places index `x` of the slot at `(b, x 1, x 2)`.
theorem slot_emb {n1 n2 : Nat} (b : Fin 2) (inb) (x : (⟨3, ![1, n1, n2]⟩ : Shape).Idx) :
    (Rect.unit (s := (⟨3, ![2, n1, n2]⟩ : Shape)) ![b.val, 0, 0] ![1, n1, n2] inb).emb x = (ix3 b (x 1) (x 2) : (⟨3, ![2, n1, n2]⟩ : Shape).Idx) := by
  funext a
  apply Fin.ext
  rw [Rect.emb_apply]
  match a with
  | ⟨0, _⟩ => show b.val + 1 * (x 0).val = b.val; have : (x 0).val < 1 := (x 0).isLt; omega
  | ⟨1, _⟩ => show 0 + 1 * (x 1).val = (x 1).val; omega
  | ⟨2, _⟩ => show 0 + 1 * (x 2).val = (x 2).val; omega

-- The function `i ↦ w (0, i 1, i 2)`, taken where slot `b`'s rectangle places `y`, is `w y`.
private theorem slot_back {n1 n2 : Nat} {β : Type} (w : (⟨3, ![1, n1, n2]⟩ : Shape).Idx → β) (b : Fin 2) (inb) (y) :
    (fun i => w (ix3 (0 : Fin 1) (i 1) (i 2))) ((Rect.unit (s := (⟨3, ![2, n1, n2]⟩ : Shape)) ![b.val, 0, 0] ![1, n1, n2] inb).emb y) = w y := by
  rw [slot_emb]
  refine congrArg w (funext fun a => ?_)
  match a with
  | ⟨0, _⟩ => exact Subsingleton.elim (α := Fin 1) _ _
  | ⟨1, _⟩ => rfl
  | ⟨2, _⟩ => rfl

-- A load through a rectangle continues at `g` as soon as the rectangle reads `g` from the contents held.
private theorem load_as {cs s e} {W : Memref sig .tc (.core cs) s e} {r : Rect s} (hl : W.view.LoadsAt r.toLoadRect)
    {S} (hS : (W.access r).set ⊆ S) (f q) {g : r.shape.Idx → Elt F e} (hg : ∀ x, (W.access r).read (Elt F) f x = g x)
    {Γ : PendingWaitsCtx sig Unit} {Es : Set ℕ} {α : Type} {Q : α → sProp 𝕄}
    {k : _ → Prog (TpuEff nD τ sig (Elt F) Λ₀ .tc) α} :
    ((W.access r).loc (c : Thread nD τ) ↦[S]{q} f)
      ⊢ iprop((((W.access r).loc (c : Thread nD τ) ↦[S]{q} f) -∗ wp frame (wpE' (defs₀ (F := F)) 𝒱₀ (c : Thread nD τ) none Γ) Es (k g) Q)
          -∗ wp frame (wpE' (defs₀ (F := F)) 𝒱₀ (c : Thread nD τ) none Γ) Es (.op (.load W r.toLoadRect hl) k) Q) := by
  have h := wp_load_rect (defs := defs₀ (F := F)) 𝒱₀ (c : Thread nD τ) none Es (Γ := Γ) (Q := Q) (hl := hl) (k := k) (q := q) (f := f) hS
  rwa [funext hg] at h

-- A store of `w` on every index of a rectangle leaves any contents `v` that read back as `w` through it.
private theorem store_as {cs s e} {W : Memref sig .tc (.core cs) s e} {r : Rect s} {w : r.shape.Idx → Elt F e}
    (hx : (W.access r).Stores Finset.univ) (hm : (Finset.univ : Finset r.shape.Idx) = Finset.univ ∨ ∀ a, r.stride a = 1)
    {v} (hv : ∀ y, (W.access r).read (Elt F) v y = w y)
    {Γ : PendingWaitsCtx sig Unit} {Es : Set ℕ} {α : Type} {Q : α → sProp 𝕄}
    {k : _ → Prog (TpuEff nD τ sig (Elt F) Λ₀ .tc) α} :
    iprop(∃ f, (W.access r).loc (c : Thread nD τ) ↦[(W.access r).set]{fullShare} f)
      ⊢ iprop((((W.access r).loc (c : Thread nD τ) ↦[(W.access r).set]{fullShare} v) -∗ wp frame (wpE' (defs₀ (F := F)) 𝒱₀ (c : Thread nD τ) none Γ) Es (k ⟨⟩) Q)
          -∗ wp frame (wpE' (defs₀ (F := F)) 𝒱₀ (c : Thread nD τ) none Γ) Es (.op (.store W r w Finset.univ hx hm) k) Q) := by
  refine exists_elim fun fd => ?_
  refine (wp_store (defs := defs₀ (F := F)) 𝒱₀ (c : Thread nD τ) none Es (Γ := Γ) (Q := Q) (hx := hx) (hm := hm) (k := k) (f := fd) (Finset.Subset.refl _)).trans
    (wand_mono_left (wand_mono_left (Entails.of_eq (pointsTo_congr fun i hi => ?_))))
  obtain ⟨y, rfl⟩ := View.exists_emb_of_mem_set _ hi
  rw [View.write_emb_of_mem _ _ (Finset.mem_univ y), ← hv y, View.read_apply, cast_cast, cast_eq]

theorem wv1_load0 (f : Vec F S2x1024x2048 .f32) (q : PosShare TreeShare)
    {hl : (Memref.whole cc0_scratch3 : Memref sig .tc .vmem S2x1024x2048 .f32).view.LoadsAt (Rect.unit (s := S2x1024x2048) ![0, 0, 0] S1x1024x2048.size inb_S2x1024x2048_S1x1024x2048_0_0_0).toLoadRect}
    {Γ : PendingWaitsCtx sig Unit} {Es : Set ℕ} {α : Type} {Q : α → sProp 𝕄}
    {k : (S1x1024x2048.Idx → Elt F .f32) → Prog (TpuEff nD τ sig (Elt F) Λ₀ .tc) α} :
    pts (F := F) (wv1M 0) c q f
      ⊢ iprop((pts (F := F) (wv1M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch3 : Memref sig .tc .vmem S2x1024x2048 .f32) (Rect.unit (s := S2x1024x2048) ![0, 0, 0] S1x1024x2048.size inb_S2x1024x2048_S1x1024x2048_0_0_0).toLoadRect hl) k) Q) :=
  load_as c hl (Finset.subset_of_eq (View.set_reshape _ _).symm) f q fun x => congrArg f (slot_emb 0 _ x)

theorem wv1_load1 (f : Vec F S2x1024x2048 .f32) (q : PosShare TreeShare)
    {hl : (Memref.whole cc0_scratch3 : Memref sig .tc .vmem S2x1024x2048 .f32).view.LoadsAt (Rect.unit (s := S2x1024x2048) ![1, 0, 0] S1x1024x2048.size inb_S2x1024x2048_S1x1024x2048_1_0_0).toLoadRect}
    {Γ : PendingWaitsCtx sig Unit} {Es : Set ℕ} {α : Type} {Q : α → sProp 𝕄}
    {k : (S1x1024x2048.Idx → Elt F .f32) → Prog (TpuEff nD τ sig (Elt F) Λ₀ .tc) α} :
    pts (F := F) (wv1M 1) c q f
      ⊢ iprop((pts (F := F) (wv1M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch3 : Memref sig .tc .vmem S2x1024x2048 .f32) (Rect.unit (s := S2x1024x2048) ![1, 0, 0] S1x1024x2048.size inb_S2x1024x2048_S1x1024x2048_1_0_0).toLoadRect hl) k) Q) :=
  load_as c hl (Finset.subset_of_eq (View.set_reshape _ _).symm) f q fun x => congrArg f (slot_emb 1 _ x)

theorem wv2_load0 (f : Vec F S2x2048x1024 .f32) (q : PosShare TreeShare)
    {hl : (Memref.whole cc0_scratch4 : Memref sig .tc .vmem S2x2048x1024 .f32).view.LoadsAt (Rect.unit (s := S2x2048x1024) ![0, 0, 0] S1x2048x1024.size inb_S2x2048x1024_S1x2048x1024_0_0_0).toLoadRect}
    {Γ : PendingWaitsCtx sig Unit} {Es : Set ℕ} {α : Type} {Q : α → sProp 𝕄}
    {k : (S1x2048x1024.Idx → Elt F .f32) → Prog (TpuEff nD τ sig (Elt F) Λ₀ .tc) α} :
    pts (F := F) (wv2M 0) c q f
      ⊢ iprop((pts (F := F) (wv2M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch4 : Memref sig .tc .vmem S2x2048x1024 .f32) (Rect.unit (s := S2x2048x1024) ![0, 0, 0] S1x2048x1024.size inb_S2x2048x1024_S1x2048x1024_0_0_0).toLoadRect hl) k) Q) :=
  load_as c hl (Finset.subset_of_eq (View.set_reshape _ _).symm) f q fun x => congrArg f (slot_emb 0 _ x)

theorem wv2_load1 (f : Vec F S2x2048x1024 .f32) (q : PosShare TreeShare)
    {hl : (Memref.whole cc0_scratch4 : Memref sig .tc .vmem S2x2048x1024 .f32).view.LoadsAt (Rect.unit (s := S2x2048x1024) ![1, 0, 0] S1x2048x1024.size inb_S2x2048x1024_S1x2048x1024_1_0_0).toLoadRect}
    {Γ : PendingWaitsCtx sig Unit} {Es : Set ℕ} {α : Type} {Q : α → sProp 𝕄}
    {k : (S1x2048x1024.Idx → Elt F .f32) → Prog (TpuEff nD τ sig (Elt F) Λ₀ .tc) α} :
    pts (F := F) (wv2M 1) c q f
      ⊢ iprop((pts (F := F) (wv2M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch4 : Memref sig .tc .vmem S2x2048x1024 .f32) (Rect.unit (s := S2x2048x1024) ![1, 0, 0] S1x2048x1024.size inb_S2x2048x1024_S1x2048x1024_1_0_0).toLoadRect hl) k) Q) :=
  load_as c hl (Finset.subset_of_eq (View.set_reshape _ _).symm) f q fun x => congrArg f (slot_emb 1 _ x)

theorem wb1_load0 (f : Vec F S2x1024x2048 .bf16) (q : PosShare TreeShare)
    {hl : (Memref.whole cc0_scratch5 : Memref sig .tc .vmem S2x1024x2048 .bf16).view.LoadsAt (Rect.unit (s := S2x1024x2048) ![0, 0, 0] S1x1024x2048.size inb_S2x1024x2048_S1x1024x2048_0_0_0).toLoadRect}
    {Γ : PendingWaitsCtx sig Unit} {Es : Set ℕ} {α : Type} {Q : α → sProp 𝕄}
    {k : (S1x1024x2048.Idx → Elt F .bf16) → Prog (TpuEff nD τ sig (Elt F) Λ₀ .tc) α} :
    pts (F := F) (wb1M 0) c q f
      ⊢ iprop((pts (F := F) (wb1M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch5 : Memref sig .tc .vmem S2x1024x2048 .bf16) (Rect.unit (s := S2x1024x2048) ![0, 0, 0] S1x1024x2048.size inb_S2x1024x2048_S1x1024x2048_0_0_0).toLoadRect hl) k) Q) :=
  load_as c hl (Finset.Subset.refl _) f q fun x => congrArg f (slot_emb 0 _ x)

theorem wb1_load1 (f : Vec F S2x1024x2048 .bf16) (q : PosShare TreeShare)
    {hl : (Memref.whole cc0_scratch5 : Memref sig .tc .vmem S2x1024x2048 .bf16).view.LoadsAt (Rect.unit (s := S2x1024x2048) ![1, 0, 0] S1x1024x2048.size inb_S2x1024x2048_S1x1024x2048_1_0_0).toLoadRect}
    {Γ : PendingWaitsCtx sig Unit} {Es : Set ℕ} {α : Type} {Q : α → sProp 𝕄}
    {k : (S1x1024x2048.Idx → Elt F .bf16) → Prog (TpuEff nD τ sig (Elt F) Λ₀ .tc) α} :
    pts (F := F) (wb1M 1) c q f
      ⊢ iprop((pts (F := F) (wb1M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch5 : Memref sig .tc .vmem S2x1024x2048 .bf16) (Rect.unit (s := S2x1024x2048) ![1, 0, 0] S1x1024x2048.size inb_S2x1024x2048_S1x1024x2048_1_0_0).toLoadRect hl) k) Q) :=
  load_as c hl (Finset.Subset.refl _) f q fun x => congrArg f (slot_emb 1 _ x)

theorem wb2_load0 (f : Vec F S2x2048x1024 .bf16) (q : PosShare TreeShare)
    {hl : (Memref.whole cc0_scratch6 : Memref sig .tc .vmem S2x2048x1024 .bf16).view.LoadsAt (Rect.unit (s := S2x2048x1024) ![0, 0, 0] S1x2048x1024.size inb_S2x2048x1024_S1x2048x1024_0_0_0).toLoadRect}
    {Γ : PendingWaitsCtx sig Unit} {Es : Set ℕ} {α : Type} {Q : α → sProp 𝕄}
    {k : (S1x2048x1024.Idx → Elt F .bf16) → Prog (TpuEff nD τ sig (Elt F) Λ₀ .tc) α} :
    pts (F := F) (wb2M 0) c q f
      ⊢ iprop((pts (F := F) (wb2M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch6 : Memref sig .tc .vmem S2x2048x1024 .bf16) (Rect.unit (s := S2x2048x1024) ![0, 0, 0] S1x2048x1024.size inb_S2x2048x1024_S1x2048x1024_0_0_0).toLoadRect hl) k) Q) :=
  load_as c hl (Finset.Subset.refl _) f q fun x => congrArg f (slot_emb 0 _ x)

theorem wb2_load1 (f : Vec F S2x2048x1024 .bf16) (q : PosShare TreeShare)
    {hl : (Memref.whole cc0_scratch6 : Memref sig .tc .vmem S2x2048x1024 .bf16).view.LoadsAt (Rect.unit (s := S2x2048x1024) ![1, 0, 0] S1x2048x1024.size inb_S2x2048x1024_S1x2048x1024_1_0_0).toLoadRect}
    {Γ : PendingWaitsCtx sig Unit} {Es : Set ℕ} {α : Type} {Q : α → sProp 𝕄}
    {k : (S1x2048x1024.Idx → Elt F .bf16) → Prog (TpuEff nD τ sig (Elt F) Λ₀ .tc) α} :
    pts (F := F) (wb2M 1) c q f
      ⊢ iprop((pts (F := F) (wb2M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch6 : Memref sig .tc .vmem S2x2048x1024 .bf16) (Rect.unit (s := S2x2048x1024) ![1, 0, 0] S1x2048x1024.size inb_S2x2048x1024_S1x2048x1024_1_0_0).toLoadRect hl) k) Q) :=
  load_as c hl (Finset.Subset.refl _) f q fun x => congrArg f (slot_emb 1 _ x)

theorem wb1_store0 (w : S1x1024x2048.Idx → Elt F .bf16)
    {hx : ((Memref.whole cc0_scratch5 : Memref sig .tc .vmem S2x1024x2048 .bf16).access (Rect.unit (s := S2x1024x2048) ![0, 0, 0] S1x1024x2048.size inb_S2x1024x2048_S1x1024x2048_0_0_0)).Stores Finset.univ} {hm : (Finset.univ : Finset (Rect.unit (s := S2x1024x2048) ![0, 0, 0] S1x1024x2048.size inb_S2x1024x2048_S1x1024x2048_0_0_0).shape.Idx) = Finset.univ ∨ ∀ a, (Rect.unit (s := S2x1024x2048) ![0, 0, 0] S1x1024x2048.size inb_S2x1024x2048_S1x1024x2048_0_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb1M 0) c
      ⊢ iprop((pts (F := F) (wb1M 0) c fullShare (fun i : S2x1024x2048.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch5 : Memref sig .tc .vmem S2x1024x2048 .bf16) (Rect.unit (s := S2x1024x2048) ![0, 0, 0] S1x1024x2048.size inb_S2x1024x2048_S1x1024x2048_0_0_0) w Finset.univ hx hm) k) Q) := by
  refine store_as c hx hm ?_
  exact slot_back w 0 _

theorem wb1_store1 (w : S1x1024x2048.Idx → Elt F .bf16)
    {hx : ((Memref.whole cc0_scratch5 : Memref sig .tc .vmem S2x1024x2048 .bf16).access (Rect.unit (s := S2x1024x2048) ![1, 0, 0] S1x1024x2048.size inb_S2x1024x2048_S1x1024x2048_1_0_0)).Stores Finset.univ} {hm : (Finset.univ : Finset (Rect.unit (s := S2x1024x2048) ![1, 0, 0] S1x1024x2048.size inb_S2x1024x2048_S1x1024x2048_1_0_0).shape.Idx) = Finset.univ ∨ ∀ a, (Rect.unit (s := S2x1024x2048) ![1, 0, 0] S1x1024x2048.size inb_S2x1024x2048_S1x1024x2048_1_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb1M 1) c
      ⊢ iprop((pts (F := F) (wb1M 1) c fullShare (fun i : S2x1024x2048.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch5 : Memref sig .tc .vmem S2x1024x2048 .bf16) (Rect.unit (s := S2x1024x2048) ![1, 0, 0] S1x1024x2048.size inb_S2x1024x2048_S1x1024x2048_1_0_0) w Finset.univ hx hm) k) Q) := by
  refine store_as c hx hm ?_
  exact slot_back w 1 _

theorem wb2_store0 (w : S1x2048x1024.Idx → Elt F .bf16)
    {hx : ((Memref.whole cc0_scratch6 : Memref sig .tc .vmem S2x2048x1024 .bf16).access (Rect.unit (s := S2x2048x1024) ![0, 0, 0] S1x2048x1024.size inb_S2x2048x1024_S1x2048x1024_0_0_0)).Stores Finset.univ} {hm : (Finset.univ : Finset (Rect.unit (s := S2x2048x1024) ![0, 0, 0] S1x2048x1024.size inb_S2x2048x1024_S1x2048x1024_0_0_0).shape.Idx) = Finset.univ ∨ ∀ a, (Rect.unit (s := S2x2048x1024) ![0, 0, 0] S1x2048x1024.size inb_S2x2048x1024_S1x2048x1024_0_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb2M 0) c
      ⊢ iprop((pts (F := F) (wb2M 0) c fullShare (fun i : S2x2048x1024.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch6 : Memref sig .tc .vmem S2x2048x1024 .bf16) (Rect.unit (s := S2x2048x1024) ![0, 0, 0] S1x2048x1024.size inb_S2x2048x1024_S1x2048x1024_0_0_0) w Finset.univ hx hm) k) Q) := by
  refine store_as c hx hm ?_
  exact slot_back w 0 _

theorem wb2_store1 (w : S1x2048x1024.Idx → Elt F .bf16)
    {hx : ((Memref.whole cc0_scratch6 : Memref sig .tc .vmem S2x2048x1024 .bf16).access (Rect.unit (s := S2x2048x1024) ![1, 0, 0] S1x2048x1024.size inb_S2x2048x1024_S1x2048x1024_1_0_0)).Stores Finset.univ} {hm : (Finset.univ : Finset (Rect.unit (s := S2x2048x1024) ![1, 0, 0] S1x2048x1024.size inb_S2x2048x1024_S1x2048x1024_1_0_0).shape.Idx) = Finset.univ ∨ ∀ a, (Rect.unit (s := S2x2048x1024) ![1, 0, 0] S1x2048x1024.size inb_S2x2048x1024_S1x2048x1024_1_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb2M 1) c
      ⊢ iprop((pts (F := F) (wb2M 1) c fullShare (fun i : S2x2048x1024.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch6 : Memref sig .tc .vmem S2x2048x1024 .bf16) (Rect.unit (s := S2x2048x1024) ![1, 0, 0] S1x2048x1024.size inb_S2x2048x1024_S1x2048x1024_1_0_0) w Finset.univ hx hm) k) Q) := by
  refine store_as c hx hm ?_
  exact slot_back w 1 _

end Cert.KernelIdeal.Dist
-- ==== Proof.DBodyPC2.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodyLocal
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyWb
import proofs.«900988_g7700000000000989_dist_mlpseq_tp1d_bs_rep_b64_d1024_h2048_v7x_i4_f32_1_alg».proof.Proof.DBodyCast

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

-- A function of a one-slot stack's index sees only the two trailing coordinates.
theorem slot_back_PC2 {n1 n2 : Nat} {β : Type} (G : (⟨3, ![1, n1, n2]⟩ : Shape).Idx → β) :
    (fun x => G (ix3 (0 : Fin 1) (x 1) (x 2))) = G := by
  funext x
  refine congrArg G (funext fun a => ?_)
  match a with
  | ⟨0, _⟩ => exact Subsingleton.elim (α := Fin 1) _ _
  | ⟨1, _⟩ => rfl
  | ⟨2, _⟩ => rfl

theorem ptsE_elim {sp : Space} {s : Shape} {e : EltTy} (M : Memref sig .tc sp s e) (d : Dev nD) :
    ptsE (F := F) M d ⊢ iprop(∃ f, pts (F := F) M d fullShare f) := .rfl

theorem part6_spec (K : Dev nD × Fin 57 → ℕ) (v2 : BitVec 32) {Q : (Σ' (v171 : FVec F S1024x2048 .bf16) (v173 : FVec F S2048x1024 .bf16) (v174 : BitVec 32) (c4_i32_156 : BitVec 32), BitVec 32) → sProp 𝕄} :
    iprop(records m K ∗ levAts L lv
        ∗ pts (F := F) (wv1M 0) c fullShare (wv1B m 0 c) ∗ pts (F := F) (wv2M 0) c fullShare (wv2B m 0 c)
        ∗ ptsE (F := F) (wb1M 0) c ∗ ptsE (F := F) (wb2M 0) c
        ∗ pts (F := F) (Memref.whole main_arg5 : Memref sig .tc .hbm S1024x2048 .f32) c fullShare (W1 (F := F) m 2 c)
        ∗ pts (F := F) (Memref.whole main_arg6 : Memref sig .tc .hbm S2048x1024 .f32) c fullShare (W2 (F := F) m 2 c)
        ∗ dutyTok ER (wcpCell c 2 0) 0 c ∗ dutyTok ER (wcpCell c 2 1) 0 c)
      ⊢ iprop((∀ r, iprop(⌜r.1 = wb1 m 0 c ∧ r.2.1 = wb2 m 0 c⌝
            ∗ pts (F := F) (wb1M 0) c fullShare (wb1B m 0 c) ∗ pts (F := F) (wb2M 0) c fullShare (wb2B m 0 c)
            ∗ cred (tallyAt (wcpCell c 2 0) () Nw) ∗ cred (tallyAt (wcpCell c 2 1) () Nw)) -∗ Q r)
          -∗ wp frame (wpE (defs₀ (F := F)) 𝒱₀ (c : Thread nD τ) none) Set.univ (P6 (F := F) v2) Q) := by
  unfold P6 atArgs
  simp only [k0_part6_eq_skeleton, k0_part6_skel, Prog.lift, Prog.bind_op, Prog.bind_ret, Prog.pure_eq_ret]
  iintro ⟨#Hrec, #Hlev, Hv1, Hv2, Hb1, Hb2, Hs5, Hs6, Ht0, Ht1⟩ HQ
  ihave ⟨%f1, Hb1⟩ := (ptsE_elim (F := F) (wb1M 0) c) $$ Hb1
  ihave ⟨%f2, Hb2⟩ := (ptsE_elim (F := F) (wb2M 0) c) $$ Hb2
  iapply (wv1_load0 c _ _) $$ Hv1
  iintro Hv1
  iapply (wb1_load0 c f1 fullShare) $$ Hb1
  iintro Hb1
  iapply (wb1_store0 c _) $$ [Hb1]
  · unfold ptsE pts; iexists _; iexact Hb1
  iintro Hb1
  iapply (wv2_load0 c _ _) $$ Hv2
  iintro Hv2
  iapply (wb2_load0 c f2 fullShare) $$ Hb2
  iintro Hb2
  iapply (wb2_store0 c _) $$ [Hb2]
  · unfold ptsE pts; iexists _; iexact Hb2
  iintro Hb2
  iapply (wcopy_step_2_0 m K c) $$ [$Hrec $Hs5 Hv1 $Ht0]
  · unfold ptsE pts; iexists _; iexact Hv1
  iintro Hc0
  iapply (wcopy_step_2_1 m K c) $$ [$Hrec $Hs6 Hv2 $Ht1]
  · unfold ptsE pts; iexists _; iexact Hv2
  iintro Hc1
  iapply (wb1_load0 c _ _) $$ Hb1
  iintro Hb1
  iapply (wb2_load0 c _ _) $$ Hb2
  iintro Hb2
  iapply (le_wp_ret _ _)
  iapply HQ
  isplitr
  · ipureintro
    exact ⟨congrArg k0_pay4 (slot_back_PC2 (k0_pay2 (up1024x2048 (W1 (F := F) m 0 c)))),
      congrArg k0_pay5 (slot_back_PC2 (k0_pay3 (up2048x1024 (W2 (F := F) m 0 c))))⟩
  iframe
  isplitl [Hb1]; · iexact Hb1
  iexact Hb2

theorem part13_spec (K : Dev nD × Fin 57 → ℕ) (v371 : BitVec 32) {Q : PUnit → sProp 𝕄} :
    iprop(records m K ∗ levAts L lv ∗ owesX c 16
        ∗ pts (F := F) (psM (pr c 2)) c fullShare (psB m 0 c) ∗ ptsE (F := F) (rsM 0 c) (pr c 2)
        ∗ dutyTok ER (sndCell c 1 1) 0 c ∗ dutyTok ER (rcvCell (pr c 2) 1 c) 0 c
        ∗ cred (tallyAt (wcpCell c 1 0) () Nw) ∗ atPos ER (wcpCell c 1 0) 0 ∅ 0
        ∗ cred (tallyAt (wcpCell c 1 1) () Nw) ∗ atPos ER (wcpCell c 1 1) 0 ∅ 0
        ∗ ptsE (F := F) (wb1M 1) c ∗ ptsE (F := F) (wb2M 1) c)
      ⊢ iprop((∀ r, iprop(owesX c 15 ∗ cred (tallyAt (sndCell c 1 1) () Nh)
            ∗ atPos ER (wcpCell c 1 0) 1 ∅ 0 ∗ atPos ER (wcpCell c 1 1) 1 ∅ 0
            ∗ pts (F := F) (wv1M 1) c fullShare (wv1B m 1 c) ∗ pts (F := F) (Memref.whole main_arg3 : Memref sig .tc .hbm S1024x2048 .f32) c fullShare (W1 (F := F) m 1 c)
            ∗ pts (F := F) (wv2M 1) c fullShare (wv2B m 1 c) ∗ pts (F := F) (Memref.whole main_arg4 : Memref sig .tc .hbm S2048x1024 .f32) c fullShare (W2 (F := F) m 1 c)
            ∗ pts (F := F) (wb1M 1) c fullShare (wb1B m 1 c) ∗ pts (F := F) (wb2M 1) c fullShare (wb2B m 1 c)) -∗ Q r)
          -∗ wp frame (wpE (defs₀ (F := F)) 𝒱₀ (c : Thread nD τ) none) Set.univ (P13 (F := F) c v371) Q) := by
  unfold owesX P13 atArgs
  simp only [k0_part13_eq_skeleton, k0_part13_skel, Prog.lift, Prog.bind_op, Prog.bind_ret, Prog.pure_eq_ret]
  rw [wcp_1_0, wcp_1_1]
  iintro ⟨#Hrec, #Hlev, ⟨%W, HO⟩, Hps, Hrs, Hts, Htr, Hc0, Ha0, Hc1, Ha1, Hb1, Hb2⟩ HQ
  ihave ⟨%f1, Hb1⟩ := (ptsE_elim (F := F) (wb1M 1) c) $$ Hb1
  ihave ⟨%f2, Hb2⟩ := (ptsE_elim (F := F) (wb2M 1) c) $$ Hb2
  iapply (wp_enq_of c (ps_p2 c) (dev9_eq c) (rs0_own c) (congrArg SemLoc.dma snd_1_1) (congrArg SemLoc.dma (rcv1_own c)))
  iapply (ps_send m K c 0 1 rfl 2 (by omega) (by omega) 1 15 W (rem_rcv c 1 2 2 rfl 15 rfl)) $$ [$]
  iintro ⟨Hcs, HO⟩
  iapply (wcp_wait m K c rfl (fun _ => Set.mem_univ _) 1 0 15 (by decide) W (hcr := by rfl)) $$ [$]
  simp only [wcpPay]
  iintro ⟨HO, Ha0, -, Hv1, Hw1⟩
  iapply (wcp_wait m K c rfl (fun _ => Set.mem_univ _) 1 1 15 (by decide) _ (hcr := by rfl)) $$ [$]
  simp only [wcpPay]
  iintro ⟨HO, Ha1, -, Hv2, Hw2⟩
  iapply (wv1_load1 c _ _) $$ Hv1
  iintro Hv1
  iapply (wb1_load1 c f1 fullShare) $$ Hb1
  iintro Hb1
  iapply (wb1_store1 c _) $$ [Hb1]
  · unfold ptsE pts; iexists _; iexact Hb1
  iintro Hb1
  iapply (wv2_load1 c _ _) $$ Hv2
  iintro Hv2
  iapply (wb2_load1 c f2 fullShare) $$ Hb2
  iintro Hb2
  iapply (wb2_store1 c _) $$ [Hb2]
  · unfold ptsE pts; iexists _; iexact Hb2
  iintro Hb2
  iapply (le_wp_ret _ _)
  iapply HQ
  isplitl [HO]; · iexists _; iexact HO
  iframe
  isplitl [Hb1]; · iexact Hb1
  iexact Hb2

theorem part28_spec (K : Dev nD × Fin 57 → ℕ) (v842 : BitVec 32) (v847 : BitVec 1) (v848 : BitVec 32)
    {Q : FVec F S2048x1024 .bf16 → sProp 𝕄} :
    iprop(records m K ∗ levAts L lv ∗ owesX c 10
        ∗ pts (F := F) (psM (pr c 2)) c fullShare (psB m 1 c) ∗ ptsE (F := F) (rsM 1 c) (pr c 2)
        ∗ dutyTok ER (sndCell c 3 1) 0 c ∗ dutyTok ER (rcvCell (pr c 2) 3 c) 0 c
        ∗ cred (tallyAt (wcpCell c 2 0) () Nw) ∗ atPos ER (wcpCell c 2 0) 0 ∅ 0
        ∗ cred (tallyAt (wcpCell c 2 1) () Nw) ∗ atPos ER (wcpCell c 2 1) 0 ∅ 0
        ∗ pts (F := F) (wb1M 0) c fullShare (wb1B m 0 c))
      ⊢ iprop((∀ r, iprop(⌜r = k0_pay16 (up2048x1024 (W2 (F := F) m 2 c))⌝
            ∗ owesX c 9 ∗ cred (tallyAt (sndCell c 3 1) () Nh)
            ∗ atPos ER (wcpCell c 2 0) 1 ∅ 0 ∗ atPos ER (wcpCell c 2 1) 1 ∅ 0
            ∗ pts (F := F) (wv1M 0) c fullShare (wv1B m 2 c) ∗ pts (F := F) (Memref.whole main_arg5 : Memref sig .tc .hbm S1024x2048 .f32) c fullShare (W1 (F := F) m 2 c)
            ∗ pts (F := F) (wv2M 0) c fullShare (wv2B m 2 c) ∗ pts (F := F) (Memref.whole main_arg6 : Memref sig .tc .hbm S2048x1024 .f32) c fullShare (W2 (F := F) m 2 c)
            ∗ pts (F := F) (wb1M 0) c fullShare (wb1B m 2 c)) -∗ Q r)
          -∗ wp frame (wpE (defs₀ (F := F)) 𝒱₀ (c : Thread nD τ) none) Set.univ (P28 (F := F) c v842 v847 v848) Q) := by
  unfold owesX P28 atArgs
  simp only [k0_part28_eq_skeleton, k0_part28_skel, Prog.lift, Prog.bind_op, Prog.bind_ret, Prog.pure_eq_ret]
  rw [wcp_2_0, wcp_2_1]
  iintro ⟨#Hrec, #Hlev, ⟨%W, HO⟩, Hps, Hrs, Hts, Htr, Hc0, Ha0, Hc1, Ha1, Hb1⟩ HQ
  iapply (wp_enq_of c (ps_p2 c) (dev15_eq c) (rs1_own c) (congrArg SemLoc.dma snd_3_1) (congrArg SemLoc.dma (rcv3_own c)))
  iapply (ps_send m K c 1 3 rfl 2 (by omega) (by omega) 1 9 W (rem_rcv c 3 2 2 rfl 9 rfl)) $$ [$]
  iintro ⟨Hcs, HO⟩
  iapply (wcp_wait m K c rfl (fun _ => Set.mem_univ _) 2 0 9 (by decide) W (hcr := by rfl)) $$ [$]
  simp only [wcpPay]
  iintro ⟨HO, Ha0, -, Hv1, Hw1⟩
  iapply (wcp_wait m K c rfl (fun _ => Set.mem_univ _) 2 1 9 (by decide) _ (hcr := by rfl)) $$ [$]
  simp only [wcpPay]
  iintro ⟨HO, Ha1, -, Hv2, Hw2⟩
  iapply (wv1_load0 c _ _) $$ Hv1
  iintro Hv1
  iapply (wb1_load0 c _ _) $$ Hb1
  iintro Hb1
  iapply (wb1_store0 c _) $$ [Hb1]
  · unfold ptsE pts; iexists _; iexact Hb1
  iintro Hb1
  iapply (wv2_load0 c _ _) $$ Hv2
  iintro Hv2
  iapply (le_wp_ret _ _)
  iapply HQ
  isplitr; · ipureintro; rfl
  isplitl [HO]; · iexists _; iexact HO
  iframe
  iexact Hb1

theorem part29_spec (K : Dev nD × Fin 57 → ℕ) (v875 : FVec F S2048x1024 .bf16)
    (hv : v875 = k0_pay16 (up2048x1024 (W2 (F := F) m 2 c))) {Q : PUnit → sProp 𝕄} :
    iprop(records m K ∗ levAts L lv ∗ owesX c 9
        ∗ pts (F := F) (wb2M 0) c fullShare (wb2B m 0 c)
        ∗ cred (tallyAt (sndCell c 1 0) () Nh) ∗ atPos ER (sndCell c 1 0) 0 ∅ 0
        ∗ cred (tallyAt (sndCell c 1 2) () Nh) ∗ atPos ER (sndCell c 1 2) 0 ∅ 0
        ∗ cred (tallyAt (sndCell c 1 1) () Nh) ∗ atPos ER (sndCell c 1 1) 0 ∅ 0)
      ⊢ iprop((∀ r, iprop(owesX c 9 ∗ pts (F := F) (wb2M 0) c fullShare (wb2B m 2 c)
            ∗ atPos ER (sndCell c 1 0) 1 ∅ 0 ∗ atPos ER (sndCell c 1 2) 1 ∅ 0 ∗ atPos ER (sndCell c 1 1) 1 ∅ 0) -∗ Q r)
          -∗ wp frame (wpE (defs₀ (F := F)) 𝒱₀ (c : Thread nD τ) none) Set.univ (P29 (F := F) c v875) Q) := by
  subst hv
  unfold owesX P29 atArgs
  simp only [k0_part29_eq_skeleton, k0_part29_skel, Prog.lift, Prog.bind_op, Prog.bind_ret, Prog.pure_eq_ret]
  rw [snd_1_0, snd_1_2, snd_1_1]
  iintro ⟨#Hrec, #Hlev, ⟨%W, HO⟩, Hb2, Hc0, Ha0, Hc2, Ha2, Hc1, Ha1⟩ HQ
  iapply (wb2_load0 c _ _) $$ Hb2
  iintro Hb2
  iapply (wb2_store0 c _) $$ [Hb2]
  · unfold ptsE pts; iexists _; iexact Hb2
  iintro Hb2
  iapply (snd_wait m K c rfl (fun _ => Set.mem_univ _) 1 0 9 (by decide) W (hcr := by rfl)) $$ [$Hrec Hc0 $HO $Hlev $Ha0]
  · iexact Hc0
  iintro ⟨HO, Ha0, -, -⟩
  iapply (snd_wait m K c rfl (fun _ => Set.mem_univ _) 1 2 9 (by decide) _ (hcr := by rfl)) $$ [$Hrec Hc2 $HO $Hlev $Ha2]
  · iexact Hc2
  iintro ⟨HO, Ha2, -, -⟩
  iapply (snd_wait m K c rfl (fun _ => Set.mem_univ _) 1 1 9 (by decide) _ (hcr := by rfl)) $$ [$Hrec Hc1 $HO $Hlev $Ha1]
  · iexact Hc1
  iintro ⟨HO, Ha1, -, -⟩
  iapply (le_wp_ret _ _)
  iapply HQ
  isplitl [HO]; · iexists _; iexact HO
  iframe
  iexact Hb2

theorem part54_spec (K : Dev nD × Fin 57 → ℕ) (v2 v1658 v1659 : BitVec 32) (v1660 v1661 v1662 : BitVec 1)
    {Q : PUnit → sProp 𝕄} :
    iprop(records m K ∗ levAts L lv ∗ owesX c 0
        ∗ cred (tallyAt (rcvCell c 6 (pr c 2)) () Nf) ∗ atPos ER (rcvCell c 6 (pr c 2)) 0 ∅ 0
        ∗ cred (tallyAt (outCell c) () Nf) ∗ atPos ER (outCell c) 0 ∅ 0
        ∗ cred (tallyAt (sndCell c 5 0) () Nh) ∗ atPos ER (sndCell c 5 0) 0 ∅ 0)
      ⊢ iprop((∀ r, iprop(owesX c 0
            ∗ atPos ER (rcvCell c 6 (pr c 2)) 1 ∅ 0
            ∗ pts (F := F) (outM (pr c 2)) c fullShare (outAll m) ∗ pts (F := F) (psM (pr c 2)) c fullShare (psB m 2 c)
            ∗ atPos ER (outCell c) 1 ∅ 0
            ∗ pts (F := F) (outM c) c fullShare (outAll m) ∗ pts (F := F) stgM c (q4 3) (outBlk m c)
            ∗ atPos ER (sndCell c 5 0) 1 ∅ 0) -∗ Q r)
          -∗ wp frame (wpE (defs₀ (F := F)) 𝒱₀ (c : Thread nD τ) none) Set.univ (P54 (F := F) c v2 v1658 v1659 v1660 v1661 v1662) Q) := by
  unfold owesX P54 atArgs
  simp only [k0_part54_eq_skeleton, k0_part54_skel, Prog.lift, Prog.bind_op, Prog.bind_ret, Prog.pure_eq_ret]
  rw [rcv6_p2 c, outc_sem, snd_5_0]
  iintro ⟨#Hrec, #Hlev, ⟨%W, HO⟩, Hc1, Ha1, Hc2, Ha2, Hc3, Ha3⟩ HQ
  iapply (rcv_wait m K c rfl (fun _ => Set.mem_univ _) 6 (pr c 2) (pr_ne c 2 (by omega) (by omega)) 0 (by decide) W (hcr := by rfl)) $$ [$Hrec Hc1 $HO $Hlev $Ha1]
  · iexact Hc1
  simp only [rcvPay]
  iintro ⟨HO, Ha1, -, Hp1a, Hp1b⟩
  iapply (out_wait m K c rfl (fun _ => Set.mem_univ _) 0 (by decide) _ (hcr := by rfl)) $$ [$]
  unfold outcPay
  iintro ⟨HO, Ha2, -, Hp2a, Hp2b⟩
  iapply (snd_wait m K c rfl (fun _ => Set.mem_univ _) 5 0 0 (by decide) _ (hcr := by rfl)) $$ [$Hrec Hc3 $HO $Hlev $Ha3]
  · iexact Hc3
  iintro ⟨HO, Ha3, -, -⟩
  iapply (le_wp_ret _ _)
  iapply HQ
  isplitl [HO]; · iexists _; iexact HO
  iframe

end Cert.KernelIdeal.Dist

end
-- ==== Proof.DBodyPS.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodySend

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part20_spec (K : Dev nD × Fin 57 → ℕ) (v2 : BitVec 32) {Q : PUnit → sProp 𝕄} :
    iprop(records m K ∗ levAts L lv
        ∗ pts (F := F) (actsM 1 c) c (q4 2) (actsB m)
        ∗ ptsE (F := F) (actsM 1 c) (pr c 3)
        ∗ pts (F := F) (psM c) (pr c 3) fullShare (psB m 0 (pr c 3))
        ∗ dutyTok ER (sndCell c 2 2) 0 c
        ∗ dutyTok ER (rcvCell (pr c 3) 2 c) 0 c
        ∗ owesX (F := F) c 15)
      ⊢ iprop((∀ r, iprop(cred (tallyAt (sndCell c 2 2) () Nh) ∗ owesX (F := F) c 14) -∗ Q r)
          -∗ wp frame (wpE (defs₀ (F := F)) 𝒱₀ (c : Thread nD τ) none) Set.univ (P20 (F := F) c v2) Q) := by
  unfold owesX P20 atArgs
  simp only [k0_part20_eq_skeleton, k0_part20_skel, Prog.lift, Prog.bind_op, Prog.bind_ret, Prog.pure_eq_ret]
  iintro ⟨#Hrec, #Hlev, Hs0, He0, Hx0, Ht0, Hu0, %W, Ho⟩ HQ
  iapply (wp_enq_of c (acts1_own c) (dev10_eq c) (acts1_own c) (congrArg SemLoc.dma snd_2_2) (congrArg SemLoc.dma (rcv2_own c)))
  iapply (gather_send m K c 1 0 2 rfl rfl 3 (by omega) (by omega) 2 14 W (rem_rcv c 2 0 3 rfl 14 rfl)) $$ [$Hrec Hs0 $He0 $Hx0 $Ho $Ht0 $Hu0]
  · iexact Hs0
  iintro ⟨Hc0, Ho⟩
  iapply (le_wp_ret _ _)
  iapply HQ
  iframe Hc0
  iexists W
  iexact Ho

theorem part4_spec (K : Dev nD × Fin 57 → ℕ) (v2 : BitVec 32) {Q : (Σ' (v119 : BitVec 32) (c4_i32_98 : BitVec 32), BitVec 32) → sProp 𝕄} :
    iprop(records m K ∗ levAts L lv
        ∗ pts (F := F) (actsM 0 c) c (q4 2) (actsB m)
        ∗ ptsE (F := F) (actsM 0 c) (pr c 3)
        ∗ dutyTok ER (sndCell c 0 2) 0 c
        ∗ dutyTok ER (rcvCell (pr c 3) 0 c) 0 c
        ∗ pts (F := F) (actsM 0 c) c (q4 0) (actsB m)
        ∗ ptsE (F := F) (actsM 0 c) (pr c 1)
        ∗ dutyTok ER (sndCell c 0 0) 0 c
        ∗ dutyTok ER (rcvCell (pr c 1) 0 c) 0 c
        ∗ owesX (F := F) c 21)
      ⊢ iprop((∀ r, iprop(cred (tallyAt (sndCell c 0 2) () Nh) ∗ cred (tallyAt (sndCell c 0 0) () Nh) ∗ owesX (F := F) c 19) -∗ Q r)
          -∗ wp frame (wpE (defs₀ (F := F)) 𝒱₀ (c : Thread nD τ) none) Set.univ (P4 (F := F) c v2) Q) := by
  unfold owesX P4 atArgs
  simp only [k0_part4_eq_skeleton, k0_part4_skel, Prog.lift, Prog.bind_op, Prog.bind_ret, Prog.pure_eq_ret]
  iintro ⟨#Hrec, #Hlev, Hs0, He0, Ht0, Hu0, Hs1, He1, Ht1, Hu1, %W, Ho⟩ HQ
  iapply (wp_enq_of c (acts0_own c) (dev4_eq c) (acts0_own c) (congrArg SemLoc.dma snd_0_2) (congrArg SemLoc.dma (rcv0_own c)))
  iapply (gather_send0 m K c 3 (by omega) (by omega) 2 20 W (rem_rcv c 0 0 3 rfl 20 rfl)) $$ [$Hrec Hs0 $He0 $Ho $Ht0 $Hu0]
  · iexact Hs0
  iintro ⟨Hc0, Ho⟩
  iapply (wp_enq_of c (acts0_own c) (dev5_eq c) (acts0_own c) (congrArg SemLoc.dma snd_0_0) (congrArg SemLoc.dma (rcv0_own c)))
  iapply (gather_send0 m K c 1 (by omega) (by omega) 0 19 W (rem_rcv c 0 1 1 rfl 19 rfl)) $$ [$Hrec Hs1 $He1 $Ho $Ht1 $Hu1]
  · iexact Hs1
  iintro ⟨Hc1, Ho⟩
  iapply (le_wp_ret _ _)
  iapply HQ
  iframe Hc0 Hc1
  iexists W
  iexact Ho

theorem part36_spec (K : Dev nD × Fin 57 → ℕ) (v2 : BitVec 32) {Q : BitVec 32 → sProp 𝕄} :
    iprop(records m K ∗ levAts L lv
        ∗ pts (F := F) (actsM 2 c) c (q4 2) (actsB m)
        ∗ ptsE (F := F) (actsM 2 c) (pr c 3)
        ∗ pts (F := F) (psM c) (pr c 3) fullShare (psB m 1 (pr c 3))
        ∗ dutyTok ER (sndCell c 4 2) 0 c
        ∗ dutyTok ER (rcvCell (pr c 3) 4 c) 0 c
        ∗ pts (F := F) (actsM 2 c) c (q4 0) (actsB m)
        ∗ ptsE (F := F) (actsM 2 c) (pr c 1)
        ∗ pts (F := F) (psM c) (pr c 1) fullShare (psB m 1 (pr c 1))
        ∗ dutyTok ER (sndCell c 4 0) 0 c
        ∗ dutyTok ER (rcvCell (pr c 1) 4 c) 0 c
        ∗ owesX (F := F) c 9)
      ⊢ iprop((∀ r, iprop(cred (tallyAt (sndCell c 4 2) () Nh) ∗ cred (tallyAt (sndCell c 4 0) () Nh) ∗ owesX (F := F) c 7) -∗ Q r)
          -∗ wp frame (wpE (defs₀ (F := F)) 𝒱₀ (c : Thread nD τ) none) Set.univ (P36 (F := F) c v2) Q) := by
  unfold owesX P36 atArgs
  simp only [k0_part36_eq_skeleton, k0_part36_skel, Prog.lift, Prog.bind_op, Prog.bind_ret, Prog.pure_eq_ret]
  iintro ⟨#Hrec, #Hlev, Hs0, He0, Hx0, Ht0, Hu0, Hs1, He1, Hx1, Ht1, Hu1, %W, Ho⟩ HQ
  iapply (wp_enq_of c (acts2_own c) (dev16_eq c) (acts2_own c) (congrArg SemLoc.dma snd_4_2) (congrArg SemLoc.dma (rcv4_own c)))
  iapply (gather_send m K c 2 1 4 rfl rfl 3 (by omega) (by omega) 2 8 W (rem_rcv c 4 0 3 rfl 8 rfl)) $$ [$Hrec Hs0 $He0 $Hx0 $Ho $Ht0 $Hu0]
  · iexact Hs0
  iintro ⟨Hc0, Ho⟩
  iapply (wp_enq_of c (acts2_own c) (dev17_eq c) (acts2_own c) (congrArg SemLoc.dma snd_4_0) (congrArg SemLoc.dma (rcv4_own c)))
  iapply (gather_send m K c 2 1 4 rfl rfl 1 (by omega) (by omega) 0 7 W (rem_rcv c 4 1 1 rfl 7 rfl)) $$ [$Hrec Hs1 $He1 $Hx1 $Ho $Ht1 $Hu1]
  · iexact Hs1
  iintro ⟨Hc1, Ho⟩
  iapply (le_wp_ret _ _)
  iapply HQ
  iframe Hc0 Hc1
  iexists W
  iexact Ho

theorem part11_spec (K : Dev nD × Fin 57 → ℕ) (v2 v306 : BitVec 32) {Q : BitVec 32 → sProp 𝕄} :
    iprop(records m K ∗ levAts L lv
        ∗ pts (F := F) (psM (pr c 1)) c fullShare (psB m 0 c)
        ∗ ptsE (F := F) (rsM 0 c) (pr c 1)
        ∗ dutyTok ER (sndCell c 1 0) 0 c
        ∗ dutyTok ER (rcvCell (pr c 1) 1 c) 0 c
        ∗ owesX (F := F) c 18)
      ⊢ iprop((∀ r, iprop(cred (tallyAt (sndCell c 1 0) () Nh) ∗ owesX (F := F) c 17) -∗ Q r)
          -∗ wp frame (wpE (defs₀ (F := F)) 𝒱₀ (c : Thread nD τ) none) Set.univ (P11 (F := F) c v2 v306) Q) := by
  unfold owesX P11 atArgs
  simp only [k0_part11_eq_skeleton, k0_part11_skel, Prog.lift, Prog.bind_op, Prog.bind_ret, Prog.pure_eq_ret]
  iintro ⟨#Hrec, #Hlev, Hs0, He0, Ht0, Hu0, %W, Ho⟩ HQ
  iapply (wp_enq_of c (ps_p1 c) (dev7_eq c) (rs0_own c) (congrArg SemLoc.dma snd_1_0) (congrArg SemLoc.dma (rcv1_own c)))
  iapply (ps_send m K c 0 1 rfl 1 (by omega) (by omega) 0 17 W (rem_rcv c 1 0 1 rfl 17 rfl)) $$ [$]
  iintro ⟨Hc0, Ho⟩
  iapply (le_wp_ret _ _)
  iapply HQ
  iframe Hc0
  iexists W
  iexact Ho

theorem part12_spec (K : Dev nD × Fin 57 → ℕ) (v2 v338 : BitVec 32) {Q : BitVec 32 → sProp 𝕄} :
    iprop(records m K ∗ levAts L lv
        ∗ pts (F := F) (psM (pr c 3)) c fullShare (psB m 0 c)
        ∗ ptsE (F := F) (rsM 0 c) (pr c 3)
        ∗ dutyTok ER (sndCell c 1 2) 0 c
        ∗ dutyTok ER (rcvCell (pr c 3) 1 c) 0 c
        ∗ owesX (F := F) c 17)
      ⊢ iprop((∀ r, iprop(cred (tallyAt (sndCell c 1 2) () Nh) ∗ owesX (F := F) c 16) -∗ Q r)
          -∗ wp frame (wpE (defs₀ (F := F)) 𝒱₀ (c : Thread nD τ) none) Set.univ (P12 (F := F) c v2 v338) Q) := by
  unfold owesX P12 atArgs
  simp only [k0_part12_eq_skeleton, k0_part12_skel, Prog.lift, Prog.bind_op, Prog.bind_ret, Prog.pure_eq_ret]
  iintro ⟨#Hrec, #Hlev, Hs0, He0, Ht0, Hu0, %W, Ho⟩ HQ
  iapply (wp_enq_of c (ps_p3 c) (dev8_eq c) (rs0_own c) (congrArg SemLoc.dma snd_1_2) (congrArg SemLoc.dma (rcv1_own c)))
  iapply (ps_send m K c 0 1 rfl 3 (by omega) (by omega) 2 16 W (rem_rcv c 1 1 3 rfl 16 rfl)) $$ [$]
  iintro ⟨Hc0, Ho⟩
  iapply (le_wp_ret _ _)
  iapply HQ
  iframe Hc0
  iexists W
  iexact Ho

theorem part26_spec (K : Dev nD × Fin 57 → ℕ) (v2 v777 v778 : BitVec 32) (v779 : BitVec 1) (c0_i32_664 : BitVec 32) {Q : (Σ' (v809 : BitVec 32) (v810 : BitVec 32) (v811 : BitVec 1) (v812 : BitVec 1), BitVec 1) → sProp 𝕄} :
    iprop(records m K ∗ levAts L lv
        ∗ pts (F := F) (psM (pr c 1)) c fullShare (psB m 1 c)
        ∗ ptsE (F := F) (rsM 1 c) (pr c 1)
        ∗ dutyTok ER (sndCell c 3 0) 0 c
        ∗ dutyTok ER (rcvCell (pr c 1) 3 c) 0 c
        ∗ owesX (F := F) c 12)
      ⊢ iprop((∀ r, iprop(cred (tallyAt (sndCell c 3 0) () Nh) ∗ owesX (F := F) c 11) -∗ Q r)
          -∗ wp frame (wpE (defs₀ (F := F)) 𝒱₀ (c : Thread nD τ) none) Set.univ (P26 (F := F) c v2 v777 v778 v779 c0_i32_664) Q) := by
  unfold owesX P26 atArgs
  simp only [k0_part26_eq_skeleton, k0_part26_skel, Prog.lift, Prog.bind_op, Prog.bind_ret, Prog.pure_eq_ret]
  iintro ⟨#Hrec, #Hlev, Hs0, He0, Ht0, Hu0, %W, Ho⟩ HQ
  iapply (wp_enq_of c (ps_p1 c) (dev13_eq c) (rs1_own c) (congrArg SemLoc.dma snd_3_0) (congrArg SemLoc.dma (rcv3_own c)))
  iapply (ps_send m K c 1 3 rfl 1 (by omega) (by omega) 0 11 W (rem_rcv c 3 0 1 rfl 11 rfl)) $$ [$]
  iintro ⟨Hc0, Ho⟩
  iapply (le_wp_ret _ _)
  iapply HQ
  iframe Hc0
  iexists W
  iexact Ho

theorem part27_spec (K : Dev nD × Fin 57 → ℕ) (v2 v809 v810 : BitVec 32) (v811 v812 v813 : BitVec 1) {Q : (Σ' (v842 : BitVec 32) (v847 : BitVec 1), BitVec 32) → sProp 𝕄} :
    iprop(records m K ∗ levAts L lv
        ∗ pts (F := F) (psM (pr c 3)) c fullShare (psB m 1 c)
        ∗ ptsE (F := F) (rsM 1 c) (pr c 3)
        ∗ dutyTok ER (sndCell c 3 2) 0 c
        ∗ dutyTok ER (rcvCell (pr c 3) 3 c) 0 c
        ∗ owesX (F := F) c 11)
      ⊢ iprop((∀ r, iprop(cred (tallyAt (sndCell c 3 2) () Nh) ∗ owesX (F := F) c 10) -∗ Q r)
          -∗ wp frame (wpE (defs₀ (F := F)) 𝒱₀ (c : Thread nD τ) none) Set.univ (P27 (F := F) c v2 v809 v810 v811 v812 v813) Q) := by
  unfold owesX P27 atArgs
  simp only [k0_part27_eq_skeleton, k0_part27_skel, Prog.lift, Prog.bind_op, Prog.bind_ret, Prog.pure_eq_ret]
  iintro ⟨#Hrec, #Hlev, Hs0, He0, Ht0, Hu0, %W, Ho⟩ HQ
  iapply (wp_enq_of c (ps_p3 c) (dev14_eq c) (rs1_own c) (congrArg SemLoc.dma snd_3_2) (congrArg SemLoc.dma (rcv3_own c)))
  iapply (ps_send m K c 1 3 rfl 3 (by omega) (by omega) 2 10 W (rem_rcv c 3 1 3 rfl 10 rfl)) $$ [$]
  iintro ⟨Hc0, Ho⟩
  iapply (le_wp_ret _ _)
  iapply HQ
  iframe Hc0
  iexists W
  iexact Ho

theorem part42_spec (K : Dev nD × Fin 57 → ℕ) (v2 v1279 : BitVec 32) {Q : (Σ' (v1312 : BitVec 32), BitVec 32) → sProp 𝕄} :
    iprop(records m K ∗ levAts L lv
        ∗ pts (F := F) (psM (pr c 1)) c fullShare (psB m 2 c)
        ∗ ptsE (F := F) (rsM 2 c) (pr c 1)
        ∗ dutyTok ER (sndCell c 5 0) 0 c
        ∗ dutyTok ER (rcvCell (pr c 1) 5 c) 0 c
        ∗ owesX (F := F) c 6)
      ⊢ iprop((∀ r, iprop(cred (tallyAt (sndCell c 5 0) () Nh) ∗ owesX (F := F) c 5) -∗ Q r)
          -∗ wp frame (wpE (defs₀ (F := F)) 𝒱₀ (c : Thread nD τ) none) Set.univ (P42 (F := F) c v2 v1279) Q) := by
  unfold owesX P42 atArgs
  simp only [k0_part42_eq_skeleton, k0_part42_skel, Prog.lift, Prog.bind_op, Prog.bind_ret, Prog.pure_eq_ret]
  iintro ⟨#Hrec, #Hlev, Hs0, He0, Ht0, Hu0, %W, Ho⟩ HQ
  iapply (wp_enq_of c (ps_p1 c) (dev19_eq c) (rs2_own c) (congrArg SemLoc.dma snd_5_0) (congrArg SemLoc.dma (rcv5_own c)))
  iapply (ps_send m K c 2 5 rfl 1 (by omega) (by omega) 0 5 W (rem_rcv c 5 0 1 rfl 5 rfl)) $$ [$]
  iintro ⟨Hc0, Ho⟩
  iapply (le_wp_ret _ _)
  iapply HQ
  iframe Hc0
  iexists W
  iexact Ho

theorem part43_spec (K : Dev nD × Fin 57 → ℕ) (v2 v1312 c0_i32_1123 : BitVec 32) {Q : PUnit → sProp 𝕄} :
    iprop(records m K ∗ levAts L lv
        ∗ pts (F := F) (psM (pr c 3)) c fullShare (psB m 2 c)
        ∗ ptsE (F := F) (rsM 2 c) (pr c 3)
        ∗ dutyTok ER (sndCell c 5 2) 0 c
        ∗ dutyTok ER (rcvCell (pr c 3) 5 c) 0 c
        ∗ owesX (F := F) c 5)
      ⊢ iprop((∀ r, iprop(cred (tallyAt (sndCell c 5 2) () Nh) ∗ owesX (F := F) c 4) -∗ Q r)
          -∗ wp frame (wpE (defs₀ (F := F)) 𝒱₀ (c : Thread nD τ) none) Set.univ (P43 (F := F) c v2 v1312 c0_i32_1123) Q) := by
  unfold owesX P43 atArgs
  simp only [k0_part43_eq_skeleton, k0_part43_skel, Prog.lift, Prog.bind_op, Prog.bind_ret, Prog.pure_eq_ret]
  iintro ⟨#Hrec, #Hlev, Hs0, He0, Ht0, Hu0, %W, Ho⟩ HQ
  iapply (wp_enq_of c (ps_p3 c) (dev20_eq c) (rs2_own c) (congrArg SemLoc.dma snd_5_2) (congrArg SemLoc.dma (rcv5_own c)))
  iapply (ps_send m K c 2 5 rfl 3 (by omega) (by omega) 2 4 W (rem_rcv c 5 1 3 rfl 4 rfl)) $$ [$]
  iintro ⟨Hc0, Ho⟩
  iapply (le_wp_ret _ _)
  iapply HQ
  iframe Hc0
  iexists W
  iexact Ho

theorem part51_spec (K : Dev nD × Fin 57 → ℕ) (v2 v1561 c4_i32_1338 c0_i32_1339 : BitVec 32) {Q : PUnit → sProp 𝕄} :
    iprop(records m K ∗ levAts L lv
        ∗ pts (F := F) stgM c (q4 0) (outBlk m c)
        ∗ ptsE (F := F) (outM c) (pr c 1)
        ∗ pts (F := F) (psM c) (pr c 1) fullShare (psB m 2 (pr c 1))
        ∗ dutyTok ER (sndCell c 6 0) 0 c
        ∗ dutyTok ER (rcvCell (pr c 1) 6 c) 0 c
        ∗ owesX (F := F) c 2)
      ⊢ iprop((∀ r, iprop(cred (tallyAt (sndCell c 6 0) () Nf) ∗ owesX (F := F) c 1) -∗ Q r)
          -∗ wp frame (wpE (defs₀ (F := F)) 𝒱₀ (c : Thread nD τ) none) Set.univ (P51 (F := F) c v2 v1561 c4_i32_1338 c0_i32_1339) Q) := by
  unfold owesX P51 atArgs
  simp only [k0_part51_eq_skeleton, k0_part51_skel, Prog.lift, Prog.bind_op, Prog.bind_ret, Prog.pure_eq_ret]
  iintro ⟨#Hrec, #Hlev, Hs0, He0, Hx0, Ht0, Hu0, %W, Ho⟩ HQ
  iapply (wp_enq_of c rfl (dev23_eq c) (out_own c) (congrArg SemLoc.dma snd_6_0) (congrArg SemLoc.dma (rcv6_own c)))
  iapply (out_send m K c 1 (by omega) (by omega) 0 1 W (rem_rcv c 6 1 1 rfl 1 rfl)) $$ [$Hrec Hs0 $He0 $Hx0 $Ho $Ht0 $Hu0]
  · iexact Hs0
  iintro ⟨Hc0, Ho⟩
  iapply (le_wp_ret _ _)
  iapply HQ
  iframe Hc0
  iexists W
  iexact Ho

end Cert.KernelIdeal.Dist

end
-- ==== Proof.DBodyPS2.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyCast

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

-- A function of a one-slot stack's index sees only the two trailing coordinates.
theorem slot_back_PS2 {n1 n2 : Nat} {β : Type} (G : (⟨3, ![1, n1, n2]⟩ : Shape).Idx → β) :
    (fun x => G (ix3 (0 : Fin 1) (x 1) (x 2))) = G := by
  funext x
  refine congrArg G (funext fun a => ?_)
  match a with
  | ⟨0, _⟩ => exact Subsingleton.elim (α := Fin 1) _ _
  | ⟨1, _⟩ => rfl
  | ⟨2, _⟩ => rfl

theorem part21_spec (K : Dev nD × Fin 57 → ℕ) (v2 : BitVec 32) {Q : FVec F S1024x2048 .bf16 → sProp 𝕄} :
    iprop(records m K ∗ levAts L lv
        ∗ pts (F := F) (actsM 1 c) c (q4 0) (actsB m)
        ∗ ptsE (F := F) (actsM 1 c) (pr c 1)
        ∗ pts (F := F) (psM c) (pr c 1) fullShare (psB m 0 (pr c 1))
        ∗ dutyTok ER (sndCell c 2 0) 0 c
        ∗ dutyTok ER (rcvCell (pr c 1) 2 c) 0 c
        ∗ pts (F := F) (actsM 1 c) c (q4 1) (actsB m)
        ∗ ptsE (F := F) (actsM 1 c) (pr c 2)
        ∗ pts (F := F) (psM c) (pr c 2) fullShare (psB m 0 (pr c 2))
        ∗ dutyTok ER (sndCell c 2 1) 0 c
        ∗ dutyTok ER (rcvCell (pr c 2) 2 c) 0 c
        ∗ pts (F := F) (wb1M 1) c fullShare (wb1B m 1 c)
        ∗ owesX (F := F) c 14)
      ⊢ iprop((∀ r, iprop(cred (tallyAt (sndCell c 2 0) () Nh) ∗ cred (tallyAt (sndCell c 2 1) () Nh)
              ∗ pts (F := F) (wb1M 1) c fullShare (wb1B m 1 c) ∗ owesX (F := F) c 12 ∗ ⌜r = wb1 m 1 c⌝) -∗ Q r)
          -∗ wp frame (wpE (defs₀ (F := F)) 𝒱₀ (c : Thread nD τ) none) Set.univ (P21 (F := F) c v2) Q) := by
  unfold owesX P21 atArgs
  simp only [k0_part21_eq_skeleton, k0_part21_skel, Prog.lift, Prog.bind_op, Prog.bind_ret, Prog.pure_eq_ret]
  iintro ⟨#Hrec, #Hlev, Hs0, He0, Hx0, Ht0, Hu0, Hs1, He1, Hx1, Ht1, Hu1, Hw, %W, Ho⟩ HQ
  iapply (wp_enq_of c (acts1_own c) (dev11_eq c) (acts1_own c) (congrArg SemLoc.dma snd_2_0) (congrArg SemLoc.dma (rcv2_own c)))
  iapply (gather_send m K c 1 0 2 rfl rfl 1 (by omega) (by omega) 0 13 W (rem_rcv c 2 1 1 rfl 13 rfl)) $$ [$Hrec Hs0 $He0 $Hx0 $Ho $Ht0 $Hu0]
  · iexact Hs0
  iintro ⟨Hc0, Ho⟩
  iapply (wp_enq_of c (acts1_own c) (dev12_eq c) (acts1_own c) (congrArg SemLoc.dma snd_2_1) (congrArg SemLoc.dma (rcv2_own c)))
  iapply (gather_send m K c 1 0 2 rfl rfl 2 (by omega) (by omega) 1 12 W (rem_rcv c 2 2 2 rfl 12 rfl)) $$ [$Hrec Hs1 $He1 $Hx1 $Ho $Ht1 $Hu1]
  · iexact Hs1
  iintro ⟨Hc1, Ho⟩
  iapply (wb1_load1 c _ _) $$ Hw
  iintro Hw
  iapply (le_wp_ret _ _)
  iapply HQ
  iframe Hc0 Hc1 Hw
  isplitl
  · iexists W; iexact Ho
  ipureintro
  exact congrArg k0_pay12 (slot_back_PS2 (k0_pay2 (up1024x2048 (W1 (F := F) m 1 c))))

theorem part37_spec (K : Dev nD × Fin 57 → ℕ) (v2 v1120 : BitVec 32)
    {Q : (Σ' (v1144 : FVec F S1024x2048 .bf16) (v1146 : FVec F S2048x1024 .bf16) (v1149 : BitVec 32), BitVec 32) → sProp 𝕄} :
    iprop(records m K ∗ levAts L lv
        ∗ pts (F := F) (actsM 2 c) c (q4 1) (actsB m)
        ∗ ptsE (F := F) (actsM 2 c) (pr c 2)
        ∗ pts (F := F) (psM c) (pr c 2) fullShare (psB m 1 (pr c 2))
        ∗ dutyTok ER (sndCell c 4 1) 0 c
        ∗ dutyTok ER (rcvCell (pr c 2) 4 c) 0 c
        ∗ pts (F := F) (wb1M 0) c fullShare (wb1B m 2 c)
        ∗ pts (F := F) (wb2M 0) c fullShare (wb2B m 2 c)
        ∗ owesX (F := F) c 7)
      ⊢ iprop((∀ r, iprop(cred (tallyAt (sndCell c 4 1) () Nh)
              ∗ pts (F := F) (wb1M 0) c fullShare (wb1B m 2 c) ∗ pts (F := F) (wb2M 0) c fullShare (wb2B m 2 c)
              ∗ owesX (F := F) c 6 ∗ ⌜r.1 = wb1 m 2 c ∧ r.2.1 = wb2 m 2 c⌝) -∗ Q r)
          -∗ wp frame (wpE (defs₀ (F := F)) 𝒱₀ (c : Thread nD τ) none) Set.univ (P37 (F := F) c v2 v1120) Q) := by
  unfold owesX P37 atArgs
  simp only [k0_part37_eq_skeleton, k0_part37_skel, Prog.lift, Prog.bind_op, Prog.bind_ret, Prog.pure_eq_ret]
  iintro ⟨#Hrec, #Hlev, Hs0, He0, Hx0, Ht0, Hu0, Hw1, Hw2, %W, Ho⟩ HQ
  iapply (wp_enq_of c (acts2_own c) (dev18_eq c) (acts2_own c) (congrArg SemLoc.dma snd_4_1) (congrArg SemLoc.dma (rcv4_own c)))
  iapply (gather_send m K c 2 1 4 rfl rfl 2 (by omega) (by omega) 1 6 W (rem_rcv c 4 2 2 rfl 6 rfl)) $$ [$Hrec Hs0 $He0 $Hx0 $Ho $Ht0 $Hu0]
  · iexact Hs0
  iintro ⟨Hc0, Ho⟩
  iapply (wb1_load0 c _ _) $$ Hw1
  iintro Hw1
  iapply (wb2_load0 c _ _) $$ Hw2
  iintro Hw2
  iapply (le_wp_ret _ _)
  iapply HQ
  iframe Hc0 Hw1 Hw2
  isplitl
  · iexists W; iexact Ho
  ipureintro
  exact ⟨congrArg k0_pay21 (slot_back_PS2 (k0_pay2 (up1024x2048 (W1 (F := F) m 2 c)))),
    congrArg k0_pay22 (slot_back_PS2 (k0_pay3 (up2048x1024 (W2 (F := F) m 2 c))))⟩

end Cert.KernelIdeal.Dist

end
-- ==== Proof.DBodyPM.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodySend

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part5_spec (K : Dev nD × Fin 57 → ℕ) (v119 c4 c0 : BitVec 32) {Q : PUnit → sProp 𝕄} :
    iprop(records m K ∗ levAts L lv ∗ owesX c 19
        ∗ pts (F := F) (actsM 0 c) c (q4 1) (actsB m) ∗ ptsE (F := F) (actsM 0 c) (pr c 2)
        ∗ dutyTok ER (sndCell c 0 1) 0 c ∗ dutyTok ER (rcvCell (pr c 2) 0 c) 0 c
        ∗ cred (tallyAt (wcpCell c 0 0) () Nw) ∗ atPos ER (wcpCell c 0 0) 0 ∅ 0
        ∗ cred (tallyAt (wcpCell c 0 1) () Nw) ∗ atPos ER (wcpCell c 0 1) 0 ∅ 0)
      ⊢ iprop((∀ r, iprop(owesX c 18 ∗ cred (tallyAt (sndCell c 0 1) () Nh)
              ∗ atPos ER (wcpCell c 0 0) 1 ∅ 0
              ∗ pts (F := F) (wv1M 0) c fullShare (wv1B m 0 c) ∗ pts (F := F) (Memref.whole main_arg1 : Memref sig .tc .hbm S1024x2048 .f32) c fullShare (W1 (F := F) m 0 c)
              ∗ atPos ER (wcpCell c 0 1) 1 ∅ 0
              ∗ pts (F := F) (wv2M 0) c fullShare (wv2B m 0 c) ∗ pts (F := F) (Memref.whole main_arg2 : Memref sig .tc .hbm S2048x1024 .f32) c fullShare (W2 (F := F) m 0 c)) -∗ Q r)
          -∗ wp frame (wpE (defs₀ (F := F)) 𝒱₀ (c : Thread nD τ) none) Set.univ (P5 (F := F) c v119 c4 c0) Q) := by
  unfold owesX P5 atArgs
  simp only [k0_part5_eq_skeleton, k0_part5_skel, Prog.lift, Prog.bind_op, Prog.bind_ret, Prog.pure_eq_ret]
  rw [wcp_0_0, wcp_0_1]
  iintro ⟨#Hrec, #Hlev, ⟨%W, HO⟩, Hsrc, Hdst, Ht1, Ht2, Hc0, Hp0, Hc1, Hp1⟩ HQ
  iapply (wp_enq_of c (acts0_own c) (dev6_eq c) (acts0_own c) (congrArg SemLoc.dma snd_0_1) (congrArg SemLoc.dma (rcv0_own c)))
  iapply (gather_send0 m K c 2 (by omega) (by omega) 1 18 W (rem_rcv c 0 2 2 rfl 18 rfl)) $$ [$Hrec Hsrc $Hdst $HO $Ht1 $Ht2]
  · iexact Hsrc
  iintro ⟨Hcs, HO⟩
  iapply (wcp_wait m K c rfl (fun _ => Set.mem_univ _) 0 0 18 (by omega) W (hcr := by rfl)) $$ [$]
  simp only [wcpPay]
  iintro ⟨HO, Hp0, -, Hw0a, Hw0b⟩
  iapply (wcp_wait m K c rfl (fun _ => Set.mem_univ _) 0 1 18 (by omega) _ (hcr := by rfl)) $$ [$]
  simp only [wcpPay]
  iintro ⟨HO, Hp1, -, Hw1a, Hw1b⟩
  iapply (le_wp_ret _ _)
  iapply HQ
  isplitl [HO]; · iexists _; iexact HO
  iframe

end Cert.KernelIdeal.Dist

end
-- ==== Proof.DBodyPW.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait

noncomputable section

namespace Cert.KernelIdeal.Dist

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem cr_ps (s : Dev nD) : (psM s).view.dmaCredit = Nh := rfl
theorem cr_out (s : Dev nD) : (outM s).view.dmaCredit = Nf := rfl
theorem amt_lo (p : Fin 7) (h : p.val ≠ 6) : amt p = Nh := if_neg h

theorem rcv_wait_N (K : Dev nD × Fin 57 → ℕ) {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (s : Dev nD) (hs : s ≠ c) (kk : ℕ) (hk : kk + 3 * (p.val + 1) ≤ 21) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (N : ℕ) (hN : amt p = N) (hcr : dst.view.dmaCredit = N) :
    iprop(records m K ∗ cred (tallyAt (rcvCell c p s) () N) ∗ owes (c : Thread nD τ) (rem c kk) W
        ∗ levAts L lv ∗ atPos ER (rcvCell c p s) 0 ∅ 0)
      ⊢ iprop(((owes (c : Thread nD τ) (rem c kk) (insert (SemLoc.dma (rcvS p s), ()) W)
              ∗ atPos ER (rcvCell c p s) 1 ∅ 0 ∗ reached ER (rcvCell c p s) 1 ∗ rcvPay m c p s)
            -∗ wp frame (wpE' (defs₀ (F := F)) 𝒱₀ (c : Thread nD τ) none Γ) Es (k ⟨⟩) Q)
          -∗ wp frame (wpE' (defs₀ (F := F)) 𝒱₀ (c : Thread nD τ) none Γ) Es (.op (.waitDma2 (rcvS p s) src dst hsrc hdst) k) Q) := by
  subst hN
  exact rcv_wait m K c hΓ hEs p s hs kk hk W hcr

theorem snd_wait_N (K : Dev nD × Fin 57 → ℕ) {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (j : Fin 3) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (N : ℕ) (hN : amt p = N) (hcr : dst.view.dmaCredit = N) :
    iprop(records m K ∗ cred (tallyAt (sndCell c p j) () N) ∗ owes (c : Thread nD τ) (rem c kk) W
        ∗ levAts L lv ∗ atPos ER (sndCell c p j) 0 ∅ 0)
      ⊢ iprop(((owes (c : Thread nD τ) (rem c kk) (insert (SemLoc.dma (sndS p j), ()) W)
              ∗ atPos ER (sndCell c p j) 1 ∅ 0 ∗ reached ER (sndCell c p j) 1 ∗ sndPay m c p j)
            -∗ wp frame (wpE' (defs₀ (F := F)) 𝒱₀ (c : Thread nD τ) none Γ) Es (k ⟨⟩) Q)
          -∗ wp frame (wpE' (defs₀ (F := F)) 𝒱₀ (c : Thread nD τ) none Γ) Es (.op (.waitDma2 (sndS p j) src dst hsrc hdst) k) Q) := by
  subst hN
  exact snd_wait m K c hΓ hEs p j kk hk W hcr

theorem rcvPay_6 (s : Dev nD) : rcvPay m c 6 s = iprop(pts (F := F) (outM (s)) c fullShare (outAll m) ∗ pts (F := F) (psM (s)) c fullShare (psB m 2 c)) := rfl

section
variable {m} {c} {K : Dev nD × Fin 57 → ℕ} {α : Type} {Q : α → sProp (MT nD τ sig Unit (Elt F) ℕ UU ℕ)} {a : α} {p : Fin 7} {o : ℕ} {j : Fin 3} {kk N : ℕ} {R : sProp (MT nD τ sig Unit (Elt F) ℕ UU ℕ)}
  {sp sp' : Space} {s₁ s₂ : Shape} {e₁ e₂ : EltTy} {κ' : Kind}
  {src : Memref sig .tc sp' s₂ e₂} {dst : Memref sig κ' sp s₁ e₁} {hsrc : src.view.WordExact} {hdst : dst.view.WordExact}

-- A part that only waits for the landing from the peer at offset o: the wait's rule with the recorded waits hidden and the payload R spelled out.
private theorem rcvR (ho : 0 < o ∧ o < 4 := by decide) (hk : kk + 3 * (p.val + 1) ≤ 21 := by decide)
    (hN : amt p = N := by rfl) (hcr : dst.view.dmaCredit = N := by rfl) (hR : rcvPay m c p (pr c o) = R := by rfl) :
    iprop(records m K ∗ levAts L lv ∗ owesX c kk ∗ cred (tallyAt (rcvCell c p (pr c o)) () N) ∗ atPos ER (rcvCell c p (pr c o)) 0 ∅ 0)
      ⊢ iprop((∀ r, iprop(owesX c kk ∗ atPos ER (rcvCell c p (pr c o)) 1 ∅ 0 ∗ R) -∗ Q r)
          -∗ wp frame (wpE (defs₀ (F := F)) 𝒱₀ (c : Thread nD τ) none) Set.univ (.op (.waitDma2 (rcvS p (pr c o)) src dst hsrc hdst) fun _ => .ret a) Q) := by
  subst hR
  unfold owesX
  iintro ⟨#Hr, #Hl, ⟨%W, Ho⟩, Hc, Hp⟩ HQ
  iapply (rcv_wait_N m c K rfl (fun _ => Set.mem_univ _) p (pr c o) (pr_ne c o ho.1 ho.2) kk hk W N hN hcr) $$ [$]
  iintro ⟨Ho, Hp, -, Hy⟩
  iapply (le_wp_ret _ _)
  iapply HQ
  isplitl [Ho]; · iexists _; iexact Ho
  iframe

-- The same for a part's last send.
private theorem sndR (hk : kk ≤ 24 := by decide)
    (hN : amt p = N := by rfl) (hcr : dst.view.dmaCredit = N := by rfl) (hR : sndPay m c p j = R := by rfl) :
    iprop(records m K ∗ levAts L lv ∗ owesX c kk ∗ cred (tallyAt (sndCell c p j) () N) ∗ atPos ER (sndCell c p j) 0 ∅ 0)
      ⊢ iprop((∀ r, iprop(owesX c kk ∗ atPos ER (sndCell c p j) 1 ∅ 0 ∗ R) -∗ Q r)
          -∗ wp frame (wpE (defs₀ (F := F)) 𝒱₀ (c : Thread nD τ) none) Set.univ (.op (.waitDma2 (sndS p j) src dst hsrc hdst) fun _ => .ret a) Q) := by
  subst hR
  unfold owesX
  iintro ⟨#Hr, #Hl, ⟨%W, Ho⟩, Hc, Hp⟩ HQ
  iapply (snd_wait_N m c K rfl (fun _ => Set.mem_univ _) p j kk hk W N hN hcr) $$ [$]
  iintro ⟨Ho, Hp, -, Hy⟩
  iapply (le_wp_ret _ _)
  iapply HQ
  isplitl [Ho]; · iexists _; iexact Ho
  iframe

-- A send's wait in front of a program whose rule h is known: its credit and position join h's resources; what it gives back joins h's yield by hP (kept, or dropped when it is empty).
private theorem sndStep {Pre Post Post' : sProp 𝕄} {prog : Prog (TpuEff nD τ sig (Elt F) Λ₀ .tc) α}
    (hP : iprop(sndPay m c p j ∗ Post) ⊢ Post')
    (h : iprop(records m K ∗ levAts L lv ∗ owesX c kk ∗ Pre)
      ⊢ iprop((∀ r, iprop(owesX c kk ∗ Post) -∗ Q r) -∗ wp frame (wpE (defs₀ (F := F)) 𝒱₀ (c : Thread nD τ) none) Set.univ prog Q))
    (hk : kk ≤ 24 := by decide) (hN : amt p = N := by rfl) (hcr : dst.view.dmaCredit = N := by rfl) :
    iprop(records m K ∗ levAts L lv ∗ owesX c kk ∗ cred (tallyAt (sndCell c p j) () N) ∗ atPos ER (sndCell c p j) 0 ∅ 0 ∗ Pre)
      ⊢ iprop((∀ r, iprop(owesX c kk ∗ atPos ER (sndCell c p j) 1 ∅ 0 ∗ Post') -∗ Q r)
          -∗ wp frame (wpE (defs₀ (F := F)) 𝒱₀ (c : Thread nD τ) none) Set.univ (.op (.waitDma2 (sndS p j) src dst hsrc hdst) fun _ => prog) Q) := by
  unfold owesX at h ⊢
  iintro ⟨#Hr, #Hl, ⟨%W, Ho⟩, Hc, Hp, HP⟩ HQ
  iapply (snd_wait_N m c K rfl (fun _ => Set.mem_univ _) p j kk hk W N hN hcr) $$ [$]
  iintro ⟨Ho, Hp, -, Hy⟩
  iapply h $$ [Ho HP]
  · iframe Hr Hl HP
    iexists _; iexact Ho
  iintro %r ⟨Ho, HP⟩
  iapply HQ
  iframe Ho Hp
  iapply hP
  iframe

end

theorem part7_spec (K : Dev nD × Fin 57 → ℕ) (v2 : BitVec 32) (v174 : BitVec 32) (c4_i32_156 : BitVec 32) (c0_i32_157 : BitVec 32)
    {Q : (BitVec 32) → sProp 𝕄} :
    iprop(records m K ∗ levAts L lv ∗ owesX c 18 ∗ cred (tallyAt (rcvCell c 0 (pr c 1)) () Nh)
        ∗ atPos ER (rcvCell c 0 (pr c 1)) 0 ∅ 0)
      ⊢ iprop((∀ r, iprop(owesX c 18 ∗ atPos ER (rcvCell c 0 (pr c 1)) 1 ∅ 0 ∗ pts (F := F) (actsM 0 (pr c 1)) c fullShare (actsB m)) -∗ Q r)
          -∗ wp frame (wpE (defs₀ (F := F)) 𝒱₀ (c : Thread nD τ) none) Set.univ (P7 (F := F) c v2 v174 c4_i32_156 c0_i32_157) Q) := by
  unfold P7 atArgs
  simp only [k0_part7_eq_skeleton, k0_part7_skel, rcv0_p1 c]
  exact rcvR

theorem part8_spec (K : Dev nD × Fin 57 → ℕ) (v2 : BitVec 32) (v207 : BitVec 32)
    {Q : (PUnit) → sProp 𝕄} :
    iprop(records m K ∗ levAts L lv ∗ owesX c 18 ∗ cred (tallyAt (rcvCell c 0 (pr c 3)) () Nh)
        ∗ atPos ER (rcvCell c 0 (pr c 3)) 0 ∅ 0)
      ⊢ iprop((∀ r, iprop(owesX c 18 ∗ atPos ER (rcvCell c 0 (pr c 3)) 1 ∅ 0 ∗ pts (F := F) (actsM 0 (pr c 3)) c fullShare (actsB m)) -∗ Q r)
          -∗ wp frame (wpE (defs₀ (F := F)) 𝒱₀ (c : Thread nD τ) none) Set.univ (P8 (F := F) c v2 v207) Q) := by
  unfold P8 atArgs
  simp only [k0_part8_eq_skeleton, k0_part8_skel, rcv0_p3 c]
  exact rcvR

theorem part9_spec (K : Dev nD × Fin 57 → ℕ) (v2 : BitVec 32)
    {Q : (PUnit) → sProp 𝕄} :
    iprop(records m K ∗ levAts L lv)
      ⊢ iprop((∀ r, Q r)
          -∗ wp frame (wpE (defs₀ (F := F)) 𝒱₀ (c : Thread nD τ) none) Set.univ (P9 (F := F) c v2) Q) := by
  unfold P9 atArgs
  simp only [k0_part9_eq_skeleton, k0_part9_skel]
  iintro - HQ
  iapply (le_wp_ret _ _)
  iapply HQ

theorem part14_spec (K : Dev nD × Fin 57 → ℕ)
    {Q : (PUnit) → sProp 𝕄} :
    iprop(records m K ∗ levAts L lv ∗ owesX c 15 ∗ cred (tallyAt (sndCell c 0 2) () Nh) ∗ atPos ER (sndCell c 0 2) 0 ∅ 0
        ∗ cred (tallyAt (sndCell c 0 0) () Nh) ∗ atPos ER (sndCell c 0 0) 0 ∅ 0)
      ⊢ iprop((∀ r, iprop(owesX c 15 ∗ atPos ER (sndCell c 0 2) 1 ∅ 0 ∗ pts (F := F) (actsM 0 c) c (q4 2) (actsB m)
            ∗ atPos ER (sndCell c 0 0) 1 ∅ 0 ∗ pts (F := F) (actsM 0 c) c (q4 0) (actsB m)) -∗ Q r)
          -∗ wp frame (wpE (defs₀ (F := F)) 𝒱₀ (c : Thread nD τ) none) Set.univ (P14 (F := F) c) Q) := by
  unfold P14 atArgs
  simp only [k0_part14_eq_skeleton, k0_part14_skel, snd_0_2, snd_0_0]
  exact sndStep .rfl sndR

theorem part15_spec (K : Dev nD × Fin 57 → ℕ) (v2 : BitVec 32)
    {Q : (BitVec 32) → sProp 𝕄} :
    iprop(records m K ∗ levAts L lv ∗ owesX c 15 ∗ cred (tallyAt (sndCell c 0 1) () Nh) ∗ atPos ER (sndCell c 0 1) 0 ∅ 0
        ∗ cred (tallyAt (rcvCell c 1 (pr c 1)) () Nh) ∗ atPos ER (rcvCell c 1 (pr c 1)) 0 ∅ 0)
      ⊢ iprop((∀ r, iprop(owesX c 15 ∗ atPos ER (sndCell c 0 1) 1 ∅ 0 ∗ pts (F := F) (actsM 0 c) c (q4 1) (actsB m)
            ∗ atPos ER (rcvCell c 1 (pr c 1)) 1 ∅ 0 ∗ pts (F := F) (rsM 0 (pr c 1)) c fullShare (rsB m c)
            ∗ pts (F := F) (psM c) (pr c 1) fullShare (psB m 0 (pr c 1))) -∗ Q r)
          -∗ wp frame (wpE (defs₀ (F := F)) 𝒱₀ (c : Thread nD τ) none) Set.univ (P15 (F := F) c v2) Q) := by
  unfold P15 atArgs
  simp only [k0_part15_eq_skeleton, k0_part15_skel, snd_0_1, rcv1_p1 c]
  exact sndStep .rfl rcvR

theorem part16_spec (K : Dev nD × Fin 57 → ℕ) (v2 : BitVec 32) (v454 : BitVec 32)
    {Q : (Σ' (v484 : BitVec 32) (c4_i32_426 : BitVec 32) (v485 : BitVec 1), BitVec 32) → sProp 𝕄} :
    iprop(records m K ∗ levAts L lv ∗ owesX c 15 ∗ cred (tallyAt (rcvCell c 1 (pr c 3)) () Nh)
        ∗ atPos ER (rcvCell c 1 (pr c 3)) 0 ∅ 0)
      ⊢ iprop((∀ r, iprop(owesX c 15 ∗ atPos ER (rcvCell c 1 (pr c 3)) 1 ∅ 0 ∗ pts (F := F) (rsM 0 (pr c 3)) c fullShare (rsB m c)
            ∗ pts (F := F) (psM c) (pr c 3) fullShare (psB m 0 (pr c 3))) -∗ Q r)
          -∗ wp frame (wpE (defs₀ (F := F)) 𝒱₀ (c : Thread nD τ) none) Set.univ (P16 (F := F) c v2 v454) Q) := by
  unfold P16 atArgs
  simp only [k0_part16_eq_skeleton, k0_part16_skel, rcv1_p3 c]
  exact rcvR

theorem part23_spec (K : Dev nD × Fin 57 → ℕ) (v2 : BitVec 32)
    {Q : (PUnit) → sProp 𝕄} :
    iprop(records m K ∗ levAts L lv ∗ owesX c 12 ∗ cred (tallyAt (rcvCell c 2 (pr c 1)) () Nh)
        ∗ atPos ER (rcvCell c 2 (pr c 1)) 0 ∅ 0)
      ⊢ iprop((∀ r, iprop(owesX c 12 ∗ atPos ER (rcvCell c 2 (pr c 1)) 1 ∅ 0 ∗ pts (F := F) (actsM 1 (pr c 1)) c fullShare (actsB m)
            ∗ pts (F := F) (psM (pr c 1)) c fullShare (psB m 0 c)) -∗ Q r)
          -∗ wp frame (wpE (defs₀ (F := F)) 𝒱₀ (c : Thread nD τ) none) Set.univ (P23 (F := F) c v2) Q) := by
  unfold P23 atArgs
  simp only [k0_part23_eq_skeleton, k0_part23_skel, rcv2_p1 c]
  exact rcvR

theorem part24_spec (K : Dev nD × Fin 57 → ℕ) (v2 : BitVec 32)
    {Q : (PUnit) → sProp 𝕄} :
    iprop(records m K ∗ levAts L lv ∗ owesX c 12 ∗ cred (tallyAt (rcvCell c 2 (pr c 3)) () Nh)
        ∗ atPos ER (rcvCell c 2 (pr c 3)) 0 ∅ 0)
      ⊢ iprop((∀ r, iprop(owesX c 12 ∗ atPos ER (rcvCell c 2 (pr c 3)) 1 ∅ 0 ∗ pts (F := F) (actsM 1 (pr c 3)) c fullShare (actsB m)
            ∗ pts (F := F) (psM (pr c 3)) c fullShare (psB m 0 c)) -∗ Q r)
          -∗ wp frame (wpE (defs₀ (F := F)) 𝒱₀ (c : Thread nD τ) none) Set.univ (P24 (F := F) c v2) Q) := by
  unfold P24 atArgs
  simp only [k0_part24_eq_skeleton, k0_part24_skel, rcv2_p3 c]
  exact rcvR

theorem part30_spec (K : Dev nD × Fin 57 → ℕ) (v2 : BitVec 32)
    {Q : (Σ' (v920 : BitVec 32) (v921 : BitVec 32), BitVec 32) → sProp 𝕄} :
    iprop(records m K ∗ levAts L lv ∗ owesX c 9 ∗ cred (tallyAt (sndCell c 2 2) () Nh) ∗ atPos ER (sndCell c 2 2) 0 ∅ 0
        ∗ cred (tallyAt (sndCell c 2 0) () Nh) ∗ atPos ER (sndCell c 2 0) 0 ∅ 0 ∗ cred (tallyAt (sndCell c 2 1) () Nh)
        ∗ atPos ER (sndCell c 2 1) 0 ∅ 0)
      ⊢ iprop((∀ r, iprop(owesX c 9 ∗ atPos ER (sndCell c 2 2) 1 ∅ 0 ∗ pts (F := F) (actsM 1 c) c (q4 2) (actsB m)
            ∗ atPos ER (sndCell c 2 0) 1 ∅ 0 ∗ pts (F := F) (actsM 1 c) c (q4 0) (actsB m) ∗ atPos ER (sndCell c 2 1) 1 ∅ 0
            ∗ pts (F := F) (actsM 1 c) c (q4 1) (actsB m)) -∗ Q r)
          -∗ wp frame (wpE (defs₀ (F := F)) 𝒱₀ (c : Thread nD τ) none) Set.univ (P30 (F := F) c v2) Q) := by
  unfold P30 atArgs
  simp only [k0_part30_eq_skeleton, k0_part30_skel, snd_2_2, snd_2_0, snd_2_1]
  exact sndStep .rfl (sndStep .rfl sndR)

theorem part31_spec (K : Dev nD × Fin 57 → ℕ) (v2 : BitVec 32) (v920 : BitVec 32) (v921 : BitVec 32) (c0_i32_809 : BitVec 32)
    {Q : (Σ' (v950 : BitVec 32) (v951 : BitVec 32) (v952 : BitVec 1) (v953 : BitVec 1), BitVec 32) → sProp 𝕄} :
    iprop(records m K ∗ levAts L lv ∗ owesX c 9 ∗ cred (tallyAt (rcvCell c 3 (pr c 1)) () Nh)
        ∗ atPos ER (rcvCell c 3 (pr c 1)) 0 ∅ 0)
      ⊢ iprop((∀ r, iprop(owesX c 9 ∗ atPos ER (rcvCell c 3 (pr c 1)) 1 ∅ 0 ∗ pts (F := F) (rsM 1 (pr c 1)) c fullShare (rsB m c)
            ∗ pts (F := F) (psM c) (pr c 1) fullShare (psB m 1 (pr c 1))) -∗ Q r)
          -∗ wp frame (wpE (defs₀ (F := F)) 𝒱₀ (c : Thread nD τ) none) Set.univ (P31 (F := F) c v2 v920 v921 c0_i32_809) Q) := by
  unfold P31 atArgs
  simp only [k0_part31_eq_skeleton, k0_part31_skel, rcv3_p1 c]
  exact rcvR

theorem part32_spec (K : Dev nD × Fin 57 → ℕ) (v2 : BitVec 32) (v950 : BitVec 32) (v951 : BitVec 32) (v952 : BitVec 1) (v953 : BitVec 1) (c0_i32_836 : BitVec 32)
    {Q : (Σ' (v981 : BitVec 32) (v986 : BitVec 1), BitVec 32) → sProp 𝕄} :
    iprop(records m K ∗ levAts L lv ∗ owesX c 9 ∗ cred (tallyAt (rcvCell c 3 (pr c 3)) () Nh)
        ∗ atPos ER (rcvCell c 3 (pr c 3)) 0 ∅ 0)
      ⊢ iprop((∀ r, iprop(owesX c 9 ∗ atPos ER (rcvCell c 3 (pr c 3)) 1 ∅ 0 ∗ pts (F := F) (rsM 1 (pr c 3)) c fullShare (rsB m c)
            ∗ pts (F := F) (psM c) (pr c 3) fullShare (psB m 1 (pr c 3))) -∗ Q r)
          -∗ wp frame (wpE (defs₀ (F := F)) 𝒱₀ (c : Thread nD τ) none) Set.univ (P32 (F := F) c v2 v950 v951 v952 v953 c0_i32_836) Q) := by
  unfold P32 atArgs
  simp only [k0_part32_eq_skeleton, k0_part32_skel, rcv3_p3 c]
  exact rcvR

theorem part38_spec (K : Dev nD × Fin 57 → ℕ) (v2 : BitVec 32) (v1149 : BitVec 32) (v1150 : BitVec 32)
    {Q : (Σ' (v1180 : BitVec 32) (c4_i32_1018 : BitVec 32) (v1181 : BitVec 1), BitVec 32) → sProp 𝕄} :
    iprop(records m K ∗ levAts L lv ∗ owesX c 6 ∗ cred (tallyAt (rcvCell c 4 (pr c 1)) () Nh)
        ∗ atPos ER (rcvCell c 4 (pr c 1)) 0 ∅ 0)
      ⊢ iprop((∀ r, iprop(owesX c 6 ∗ atPos ER (rcvCell c 4 (pr c 1)) 1 ∅ 0 ∗ pts (F := F) (actsM 2 (pr c 1)) c fullShare (actsB m)
            ∗ pts (F := F) (psM (pr c 1)) c fullShare (psB m 1 c)) -∗ Q r)
          -∗ wp frame (wpE (defs₀ (F := F)) 𝒱₀ (c : Thread nD τ) none) Set.univ (P38 (F := F) c v2 v1149 v1150) Q) := by
  unfold P38 atArgs
  simp only [k0_part38_eq_skeleton, k0_part38_skel, rcv4_p1 c]
  exact rcvR

theorem part39_spec (K : Dev nD × Fin 57 → ℕ) (v2 : BitVec 32) (v1180 : BitVec 32) (c4_i32_1018 : BitVec 32) (v1181 : BitVec 1) (c1_i32_1020 : BitVec 32)
    {Q : (Σ' (v1213 : BitVec 32) (c4_i32_1046 : BitVec 32), BitVec 32) → sProp 𝕄} :
    iprop(records m K ∗ levAts L lv ∗ owesX c 6 ∗ cred (tallyAt (rcvCell c 4 (pr c 3)) () Nh)
        ∗ atPos ER (rcvCell c 4 (pr c 3)) 0 ∅ 0)
      ⊢ iprop((∀ r, iprop(owesX c 6 ∗ atPos ER (rcvCell c 4 (pr c 3)) 1 ∅ 0 ∗ pts (F := F) (actsM 2 (pr c 3)) c fullShare (actsB m)
            ∗ pts (F := F) (psM (pr c 3)) c fullShare (psB m 1 c)) -∗ Q r)
          -∗ wp frame (wpE (defs₀ (F := F)) 𝒱₀ (c : Thread nD τ) none) Set.univ (P39 (F := F) c v2 v1180 c4_i32_1018 v1181 c1_i32_1020) Q) := by
  unfold P39 atArgs
  simp only [k0_part39_eq_skeleton, k0_part39_skel, rcv4_p3 c]
  exact rcvR

theorem part40_spec (K : Dev nD × Fin 57 → ℕ) (v2 : BitVec 32) (v1213 : BitVec 32) (c4_i32_1046 : BitVec 32) (c0_i32_1047 : BitVec 32)
    {Q : (PUnit) → sProp 𝕄} :
    iprop(records m K ∗ levAts L lv ∗ owesX c 6 ∗ cred (tallyAt (rcvCell c 4 (pr c 2)) () Nh)
        ∗ atPos ER (rcvCell c 4 (pr c 2)) 0 ∅ 0)
      ⊢ iprop((∀ r, iprop(owesX c 6 ∗ atPos ER (rcvCell c 4 (pr c 2)) 1 ∅ 0 ∗ pts (F := F) (actsM 2 (pr c 2)) c fullShare (actsB m)
            ∗ pts (F := F) (psM (pr c 2)) c fullShare (psB m 1 c)) -∗ Q r)
          -∗ wp frame (wpE (defs₀ (F := F)) 𝒱₀ (c : Thread nD τ) none) Set.univ (P40 (F := F) c v2 v1213 c4_i32_1046 c0_i32_1047) Q) := by
  unfold P40 atArgs
  simp only [k0_part40_eq_skeleton, k0_part40_skel, rcv4_p2 c]
  exact rcvR

theorem part45_spec (K : Dev nD × Fin 57 → ℕ) (v2 : BitVec 32)
    {Q : (Σ' (v1392 : BitVec 32) (c4_i32_1212 : BitVec 32) (v1393 : BitVec 1), BitVec 32) → sProp 𝕄} :
    iprop(records m K ∗ levAts L lv ∗ owesX c 3 ∗ cred (tallyAt (sndCell c 4 2) () Nh) ∗ atPos ER (sndCell c 4 2) 0 ∅ 0
        ∗ cred (tallyAt (sndCell c 4 0) () Nh) ∗ atPos ER (sndCell c 4 0) 0 ∅ 0 ∗ cred (tallyAt (sndCell c 4 1) () Nh)
        ∗ atPos ER (sndCell c 4 1) 0 ∅ 0)
      ⊢ iprop((∀ r, iprop(owesX c 3 ∗ atPos ER (sndCell c 4 2) 1 ∅ 0 ∗ pts (F := F) (actsM 2 c) c (q4 2) (actsB m)
            ∗ atPos ER (sndCell c 4 0) 1 ∅ 0 ∗ pts (F := F) (actsM 2 c) c (q4 0) (actsB m) ∗ atPos ER (sndCell c 4 1) 1 ∅ 0
            ∗ pts (F := F) (actsM 2 c) c (q4 1) (actsB m)) -∗ Q r)
          -∗ wp frame (wpE (defs₀ (F := F)) 𝒱₀ (c : Thread nD τ) none) Set.univ (P45 (F := F) c v2) Q) := by
  unfold P45 atArgs
  simp only [k0_part45_eq_skeleton, k0_part45_skel, snd_4_2, snd_4_0, snd_4_1]
  exact sndStep .rfl (sndStep .rfl sndR)

theorem part46_spec (K : Dev nD × Fin 57 → ℕ) (v2 : BitVec 32) (v1392 : BitVec 32) (c4_i32_1212 : BitVec 32) (v1393 : BitVec 1) (c1_i32_1214 : BitVec 32)
    {Q : (Σ' (v1424 : BitVec 32) (v1425 : BitVec 32), BitVec 1) → sProp 𝕄} :
    iprop(records m K ∗ levAts L lv ∗ owesX c 3 ∗ cred (tallyAt (rcvCell c 5 (pr c 1)) () Nh)
        ∗ atPos ER (rcvCell c 5 (pr c 1)) 0 ∅ 0)
      ⊢ iprop((∀ r, iprop(owesX c 3 ∗ atPos ER (rcvCell c 5 (pr c 1)) 1 ∅ 0 ∗ pts (F := F) (rsM 2 (pr c 1)) c fullShare (rsB m c)
            ∗ pts (F := F) (psM c) (pr c 1) fullShare (psB m 2 (pr c 1))) -∗ Q r)
          -∗ wp frame (wpE (defs₀ (F := F)) 𝒱₀ (c : Thread nD τ) none) Set.univ (P46 (F := F) c v2 v1392 c4_i32_1212 v1393 c1_i32_1214) Q) := by
  unfold P46 atArgs
  simp only [k0_part46_eq_skeleton, k0_part46_skel, rcv5_p1 c]
  exact rcvR

theorem part47_spec (K : Dev nD × Fin 57 → ℕ) (v2 : BitVec 32) (v1424 : BitVec 32) (v1425 : BitVec 32) (v1426 : BitVec 1)
    {Q : (Σ' (v1454 : BitVec 32) (v1455 : BitVec 32) (v1456 : BitVec 1) (v1457 : BitVec 1), BitVec 1) → sProp 𝕄} :
    iprop(records m K ∗ levAts L lv ∗ owesX c 3 ∗ cred (tallyAt (rcvCell c 5 (pr c 3)) () Nh)
        ∗ atPos ER (rcvCell c 5 (pr c 3)) 0 ∅ 0)
      ⊢ iprop((∀ r, iprop(owesX c 3 ∗ atPos ER (rcvCell c 5 (pr c 3)) 1 ∅ 0 ∗ pts (F := F) (rsM 2 (pr c 3)) c fullShare (rsB m c)
            ∗ pts (F := F) (psM c) (pr c 3) fullShare (psB m 2 (pr c 3))) -∗ Q r)
          -∗ wp frame (wpE (defs₀ (F := F)) 𝒱₀ (c : Thread nD τ) none) Set.univ (P47 (F := F) c v2 v1424 v1425 v1426) Q) := by
  unfold P47 atArgs
  simp only [k0_part47_eq_skeleton, k0_part47_skel, rcv5_p3 c]
  exact rcvR

theorem part53_spec (K : Dev nD × Fin 57 → ℕ) (v2 : BitVec 32) (v1627 : BitVec 32) (c4_i32_1387 : BitVec 32) (v1628 : BitVec 1) (c1_i32_1389 : BitVec 32)
    {Q : (Σ' (v1658 : BitVec 32) (v1659 : BitVec 32) (v1660 : BitVec 1) (v1661 : BitVec 1), BitVec 1) → sProp 𝕄} :
    iprop(records m K ∗ levAts L lv ∗ owesX c 0 ∗ cred (tallyAt (rcvCell c 6 (pr c 3)) () Nf)
        ∗ atPos ER (rcvCell c 6 (pr c 3)) 0 ∅ 0)
      ⊢ iprop((∀ r, iprop(owesX c 0 ∗ atPos ER (rcvCell c 6 (pr c 3)) 1 ∅ 0 ∗ pts (F := F) (outM (pr c 3)) c fullShare (outAll m)
            ∗ pts (F := F) (psM (pr c 3)) c fullShare (psB m 2 c)) -∗ Q r)
          -∗ wp frame (wpE (defs₀ (F := F)) 𝒱₀ (c : Thread nD τ) none) Set.univ (P53 (F := F) c v2 v1627 c4_i32_1387 v1628 c1_i32_1389) Q) := by
  unfold P53 atArgs
  simp only [k0_part53_eq_skeleton, k0_part53_skel, rcv6_p3 c]
  exact rcvR

theorem tail_spec (K : Dev nD × Fin 57 → ℕ)
    {hs0 : (rsM 2 c).view.WordExact} {hd0 : (psM (pr c 3)).view.WordExact}
    {hs1 : (rsM 2 c).view.WordExact} {hd1 : (psM (pr c 2)).view.WordExact}
    {hs2 : (outM c).view.WordExact} {hd2 : (stgM).view.WordExact}
    {hs3 : (outM c).view.WordExact} {hd3 : (stgM).view.WordExact}
    {hs4 : (outM c).view.WordExact} {hd4 : (stgM).view.WordExact}
    {Q : PUnit → sProp 𝕄} :
    iprop(records m K ∗ levAts L lv ∗ owesX c 0 ∗ cred (tallyAt (sndCell c 5 2) () Nh) ∗ atPos ER (sndCell c 5 2) 0 ∅ 0
        ∗ cred (tallyAt (sndCell c 5 1) () Nh) ∗ atPos ER (sndCell c 5 1) 0 ∅ 0 ∗ cred (tallyAt (sndCell c 6 2) () Nf)
        ∗ atPos ER (sndCell c 6 2) 0 ∅ 0 ∗ cred (tallyAt (sndCell c 6 0) () Nf) ∗ atPos ER (sndCell c 6 0) 0 ∅ 0
        ∗ cred (tallyAt (sndCell c 6 1) () Nf) ∗ atPos ER (sndCell c 6 1) 0 ∅ 0)
      ⊢ iprop((∀ r, iprop(owesX c 0 ∗ atPos ER (sndCell c 5 2) 1 ∅ 0 ∗ atPos ER (sndCell c 5 1) 1 ∅ 0 ∗ atPos ER (sndCell c 6 2) 1 ∅ 0
            ∗ pts (F := F) stgM c (q4 2) (outBlk m c) ∗ atPos ER (sndCell c 6 0) 1 ∅ 0 ∗ pts (F := F) stgM c (q4 0) (outBlk m c)
            ∗ atPos ER (sndCell c 6 1) 1 ∅ 0 ∗ pts (F := F) stgM c (q4 1) (outBlk m c)) -∗ Q r)
          -∗ wp frame (wpE (defs₀ (F := F)) 𝒱₀ (c : Thread nD τ) none) Set.univ
            (.op (.waitDma2 (sndS 5 2) (rsM 2 c) (psM (pr c 3)) hs0 hd0) fun _ =>
              .op (.waitDma2 (sndS 5 1) (rsM 2 c) (psM (pr c 2)) hs1 hd1) fun _ =>
              .op (.waitDma2 (sndS 6 2) (outM c) (stgM) hs2 hd2) fun _ =>
              .op (.waitDma2 (sndS 6 0) (outM c) (stgM) hs3 hd3) fun _ =>
              .op (.waitDma2 (sndS 6 1) (outM c) (stgM) hs4 hd4) fun _ =>
              .ret ⟨⟩) Q) := by
  exact sndStep emp_sep_elim (sndStep emp_sep_elim (sndStep .rfl (sndStep .rfl sndR)))

end Cert.KernelIdeal.Dist

end
-- ==== Proof.DBodyPM2.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyPW

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem cr_of_eq {κ : Kind} {sp : Space} {s : Shape} {e : EltTy} {M M' : Memref sig κ sp s e} {N : ℕ}
    (h : M = M') (h' : M'.view.dmaCredit = N) : M.view.dmaCredit = N := h ▸ h'

theorem part44_spec (K : Dev nD × Fin 57 → ℕ) {Q : PUnit → sProp 𝕄} :
    iprop(records m K ∗ levAts L lv
        ∗ pts (F := F) (psM (pr c 2)) c fullShare (psB m 2 c)
        ∗ ptsE (F := F) (rsM 2 c) (pr c 2)
        ∗ dutyTok ER (sndCell c 5 1) 0 c
        ∗ dutyTok ER (rcvCell (pr c 2) 5 c) 0 c
        ∗ cred (tallyAt (sndCell c 3 0) () Nh) ∗ atPos ER (sndCell c 3 0) 0 ∅ 0
        ∗ cred (tallyAt (sndCell c 3 2) () Nh) ∗ atPos ER (sndCell c 3 2) 0 ∅ 0
        ∗ cred (tallyAt (sndCell c 3 1) () Nh) ∗ atPos ER (sndCell c 3 1) 0 ∅ 0
        ∗ owesX (F := F) c 4)
      ⊢ iprop((∀ r, iprop(cred (tallyAt (sndCell c 5 1) () Nh)
              ∗ atPos ER (sndCell c 3 0) 1 ∅ 0 ∗ atPos ER (sndCell c 3 2) 1 ∅ 0 ∗ atPos ER (sndCell c 3 1) 1 ∅ 0
              ∗ owesX (F := F) c 3) -∗ Q r)
          -∗ wp frame (wpE (defs₀ (F := F)) 𝒱₀ (c : Thread nD τ) none) Set.univ (P44 (F := F) c) Q) := by
  unfold owesX P44 atArgs
  simp only [k0_part44_eq_skeleton, k0_part44_skel, Prog.lift, Prog.bind_op, Prog.bind_ret, Prog.pure_eq_ret]
  rw [snd_3_0, snd_3_2, snd_3_1]
  iintro ⟨#Hrec, #Hlev, Hs0, He0, Ht0, Hu0, Hc1, Hp1, Hc2, Hp2, Hc3, Hp3, %W, Ho⟩ HQ
  iapply (wp_enq_of c (ps_p2 c) (dev21_eq c) (rs2_own c) (congrArg SemLoc.dma snd_5_1) (congrArg SemLoc.dma (rcv5_own c)))
  iapply (ps_send m K c 2 5 rfl 2 (by omega) (by omega) 1 3 W (rem_rcv c 5 2 2 rfl 3 rfl)) $$ [$]
  iintro ⟨Hc0, Ho⟩
  iapply (snd_wait_N m c K rfl (fun _ => Set.mem_univ _) 3 0 3 (by decide) W Nh (amt_lo 3 (by decide))
      (cr_of_eq (ps_p1 c) (cr_ps (pr c 1)))) $$ [$]
  iintro ⟨Ho, Hp1, -, -⟩
  iapply (snd_wait_N m c K rfl (fun _ => Set.mem_univ _) 3 2 3 (by decide) _ Nh (amt_lo 3 (by decide))
      (cr_of_eq (ps_p3 c) (cr_ps (pr c 3)))) $$ [$]
  iintro ⟨Ho, Hp2, -, -⟩
  iapply (snd_wait_N m c K rfl (fun _ => Set.mem_univ _) 3 1 3 (by decide) _ Nh (amt_lo 3 (by decide))
      (cr_of_eq (ps_p2 c) (cr_ps (pr c 2)))) $$ [$]
  iintro ⟨Ho, Hp3, -, -⟩
  iapply (le_wp_ret _ _)
  iapply HQ
  iframe Hc0 Hp1 Hp2 Hp3
  iexists _
  iexact Ho

theorem part52_spec (K : Dev nD × Fin 57 → ℕ) (v2 : BitVec 32)
    {Q : (Σ' (v1627 : BitVec 32) (c4_i32_1387 : BitVec 32) (v1628 : BitVec 1), BitVec 32) → sProp 𝕄} :
    iprop(records m K ∗ levAts L lv
        ∗ pts (F := F) stgM c (q4 1) (outBlk m c)
        ∗ ptsE (F := F) (outM c) (pr c 2)
        ∗ pts (F := F) (psM c) (pr c 2) fullShare (psB m 2 (pr c 2))
        ∗ dutyTok ER (sndCell c 6 1) 0 c
        ∗ dutyTok ER (rcvCell (pr c 2) 6 c) 0 c
        ∗ cred (tallyAt (rcvCell c 6 (pr c 1)) () Nf) ∗ atPos ER (rcvCell c 6 (pr c 1)) 0 ∅ 0
        ∗ owesX (F := F) c 1)
      ⊢ iprop((∀ r, iprop(cred (tallyAt (sndCell c 6 1) () Nf)
              ∗ atPos ER (rcvCell c 6 (pr c 1)) 1 ∅ 0
              ∗ pts (F := F) (outM (pr c 1)) c fullShare (outAll m) ∗ pts (F := F) (psM (pr c 1)) c fullShare (psB m 2 c)
              ∗ owesX (F := F) c 0) -∗ Q r)
          -∗ wp frame (wpE (defs₀ (F := F)) 𝒱₀ (c : Thread nD τ) none) Set.univ (P52 (F := F) c v2) Q) := by
  unfold owesX P52 atArgs
  simp only [k0_part52_eq_skeleton, k0_part52_skel, Prog.lift, Prog.bind_op, Prog.bind_ret, Prog.pure_eq_ret]
  rw [rcv6_p1 c]
  iintro ⟨#Hrec, #Hlev, Hs0, He0, Hx0, Ht0, Hu0, Hc1, Hp1, %W, Ho⟩ HQ
  iapply (wp_enq_of c rfl (dev24_eq c) (out_own c) (congrArg SemLoc.dma snd_6_1) (congrArg SemLoc.dma (rcv6_own c)))
  iapply (out_send m K c 2 (by omega) (by omega) 1 0 W (rem_rcv c 6 2 2 rfl 0 rfl)) $$ [$Hrec Hs0 $He0 $Hx0 $Ho $Ht0 $Hu0]
  · iexact Hs0
  iintro ⟨Hc0, Ho⟩
  iapply (rcv_wait_N m c K rfl (fun _ => Set.mem_univ _) 6 (pr c 1) (pr_ne c 1 (by omega) (by omega)) 0 (by decide) W Nf amt_six
      (cr_of_eq (out_p1 c) (cr_out (pr c 1)))) $$ [$]
  iintro ⟨Ho, Hp1, -, Hy⟩
  ihave ⟨Hya, Hyb⟩ := (Entails.of_eq (rcvPay_6 m c (pr c 1))) $$ Hy
  iapply (le_wp_ret _ _)
  iapply HQ
  iframe Hc0 Hp1 Hya Hyb
  iexists _
  iexact Ho

end Cert.KernelIdeal.Dist

end
-- ==== Proof.DBodyBox.lean ====
import proofs.«900988_g7700000000000989_dist_mlpseq_tp1d_bs_rep_b64_d1024_h2048_v7x_i4_f32_1_alg».proof.Proof.DBodyVal

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem box_load_set {κ : Kind} (b : Ref sig κ) (R : Rect b.ty.shape) :
    (Memref.whole b : Memref sig κ _ _ _).view.setOn R.toLoadRect.set = R.set := by
  show (View.whole b).setOn _ = _
  ext i; simp only [View.setOn, View.emb_whole, Finset.mem_map, Function.Embedding.refl_apply, exists_eq_right]

theorem actsM_set (l : Fin 3) (s : Dev nD) (inb) :
    (actsM l s).view.set = (Rect.unit (s := S3x256x1024) ![l.val, 64 * s.val, 0] S1x64x1024.size inb).set :=
  (Memref.set_view_squeeze (s' := S64x1024) _ squeezes_S1x64x1024_S64x1024).trans (View.set_slice_whole _ _)
def actL (l : Fin 3) : Vec F S1x256x1024 .bf16 := match l with | 0 => act0 m | 1 => act1 m | 2 => act2 m

theorem actsB_at (l : Fin 3) (i : S3x256x1024.Idx) (h : (i 0).val = l.val) :
    actsB m i = actL m l (ix3 (0 : Fin 1) (i 1) (i 2)) := by
  unfold actsB
  match l, h with
  | 0, h => have h' : (i 0).val = 0 := h; rw [if_pos h']; rfl
  | 1, h => have h' : (i 0).val = 1 := h; rw [if_neg (by omega), if_pos h']; rfl
  | 2, h => have h' : (i 0).val = 2 := h; rw [if_neg (by omega), if_neg (by omega)]; rfl

theorem read_acts_layer (l : Fin 3) (inb) :
    (Memref.whole cc0_scratch0 : Memref sig .tc .vmem S3x256x1024 .bf16).view.readAt (Elt F)
      (Rect.unit (s := S3x256x1024) ![l.val, 0, 0] S1x256x1024.size inb).toLoadRect (actsB m) = actL m l := by
  funext x
  have hx0 : (x 0).val = 0 := by have := (x 0).isLt; change (x 0).val < 1 at this; omega
  show actsB m ((Rect.unit (s := S3x256x1024) ![l.val, 0, 0] S1x256x1024.size inb).emb x) = _
  rw [actsB_at m l _ (by show l.val + 1 * (x 0).val = l.val; omega)]
  congr 1
  funext a
  apply Fin.ext
  revert a
  rw [Fin.forall_fin_succ, Fin.forall_fin_two]
  refine ⟨?_, ?_, ?_⟩
  · show 0 = (x 0).val; omega
  · show 0 + 1 * (x 1).val = (x 1).val; omega
  · show 0 + 1 * (x 2).val = (x 2).val; omega

def layerSet (l : Fin 3) : Finset S3x256x1024.Idx := Finset.univ.biUnion fun s : Dev nD => (actsM l s).view.set

theorem layer_ring (c : Dev nD) (l : Fin 3) (q : PosShare TreeShare) (f : Vec F S3x256x1024 .bf16) :
    (((c : Thread nD τ).loc cc0_scratch0) ↦[layerSet l]{q} f : sProp 𝕄)
      = iprop(pts (F := F) (actsM l c) c q f ∗ pts (F := F) (actsM l (pr c 1)) c q f ∗ pts (F := F) (actsM l (pr c 2)) c q f ∗ pts (F := F) (actsM l (pr c 3)) c q f) := by
  refine (pointsTo_biUnion (ℓ := (c : Thread nD τ).loc cc0_scratch0) Finset.univ (fun s : Dev nD => (actsM l s).view.set) (fun t _ t' _ hne => Finset.disjoint_left.mpr fun i hi hi' =>
    hne (((mem_actsM_set l t i).mp hi).2.symm.trans ((mem_actsM_set l t' i).mp hi').2))).trans ?_
  rw [bigSep_ring c]; rfl

theorem layer_box (l : Fin 3) (inb) :
    (Memref.whole cc0_scratch0 : Memref sig .tc .vmem S3x256x1024 .bf16).view.setOn
      (Rect.unit (s := S3x256x1024) ![l.val, 0, 0] S1x256x1024.size inb).toLoadRect.set ⊆ layerSet l := by
  rw [box_load_set]
  intro i hi
  have H0 := (Rect.mem_set_unit.mp hi) 0
  change l.val ≤ (i 0).val ∧ (i 0).val < l.val + 1 at H0
  exact Finset.mem_biUnion.mpr ⟨rowDev (i 1), Finset.mem_univ _, (mem_actsM_set l _ i).mpr ⟨Fin.ext (by omega), rfl⟩⟩

section Steps
variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

/-- The peers' full shares are quartered so that one layer is read at a single share, then joined again. -/
theorem wp_acts_loadB (c : Dev nD) (l : Fin 3)
    {inb : ∀ a, (![l.val, 0, 0] : Fin 3 → Nat) a + S1x256x1024.size a ≤ S3x256x1024.size a}
    {hl : (Memref.whole cc0_scratch0 : Memref sig .tc .vmem S3x256x1024 .bf16).view.LoadsAt (Rect.unit (s := S3x256x1024) ![l.val, 0, 0] S1x256x1024.size inb).toLoadRect}
    {k : Vec F S1x256x1024 .bf16 → Prog (TpuEff nD τ sig (Elt F) Λ₀ .tc) α} :
    iprop(pts (F := F) (actsM l c) c (q4 3) (actsB m) ∗ pts (F := F) (actsM l (pr c 1)) c fullShare (actsB m) ∗ pts (F := F) (actsM l (pr c 2)) c fullShare (actsB m) ∗ pts (F := F) (actsM l (pr c 3)) c fullShare (actsB m))
      ⊢ iprop((iprop(pts (F := F) (actsM l c) c (q4 3) (actsB m) ∗ pts (F := F) (actsM l (pr c 1)) c fullShare (actsB m) ∗ pts (F := F) (actsM l (pr c 2)) c fullShare (actsB m) ∗ pts (F := F) (actsM l (pr c 3)) c fullShare (actsB m))
            -∗ wp frame (wpE' defs 𝒱 (c : Thread nD τ) bd Γ) E (k (actL m l)) Q)
          -∗ wp frame (wpE' defs 𝒱 (c : Thread nD τ) bd Γ) E
              (.op (.load (Memref.whole cc0_scratch0) (Rect.unit (s := S3x256x1024) ![l.val, 0, 0] S1x256x1024.size inb).toLoadRect hl) k) Q) := by
  rw [← read_acts_layer m l inb]
  iintro ⟨H0, H1, H2, H3⟩ Hk
  icases (pts_quarters (actsM l (pr c 1)) c (actsB m)).1 $$ H1 with ⟨H1a, H1b, H1c, H1d⟩
  icases (pts_quarters (actsM l (pr c 2)) c (actsB m)).1 $$ H2 with ⟨H2a, H2b, H2c, H2d⟩
  icases (pts_quarters (actsM l (pr c 3)) c (actsB m)).1 $$ H3 with ⟨H3a, H3b, H3c, H3d⟩
  ihave HL := (Entails.of_eq (layer_ring c l (q4 3) (actsB m)).symm) $$ [$]
  iapply (wp_load 𝒱 (c : Thread nD τ) bd E (m := (Memref.whole cc0_scratch0 : Memref sig .tc .vmem S3x256x1024 .bf16))
    (r := (Rect.unit (s := S3x256x1024) ![l.val, 0, 0] S1x256x1024.size inb).toLoadRect) (S := layerSet l) (layer_box l inb)) $$ HL
  iintro HL
  icases (Entails.of_eq (layer_ring c l (q4 3) (actsB m))) $$ HL with ⟨H0, H1d, H2d, H3d⟩
  ihave H1 := (pts_quarters (actsM l (pr c 1)) c (actsB m)).2 $$ [$]
  ihave H2 := (pts_quarters (actsM l (pr c 2)) c (actsB m)).2 $$ [$]
  ihave H3 := (pts_quarters (actsM l (pr c 3)) c (actsB m)).2 $$ [$]
  iapply Hk
  iframe
end Steps

theorem pr_ne_pr (c : Dev nD) : pr c 1 ≠ c ∧ pr c 2 ≠ c ∧ pr c 3 ≠ c ∧ pr c 2 ≠ pr c 1 ∧ pr c 3 ≠ pr c 1 ∧ pr c 3 ≠ pr c 2 := by
  revert c; decide

def psJoin (c : Dev nD) (f0 f1 f2 f3 : Vec F S256x1024 .bf16) : Vec F S256x1024 .bf16 := fun i =>
  if rowDev (i 0) = c then f0 i else if rowDev (i 0) = pr c 1 then f1 i else if rowDev (i 0) = pr c 2 then f2 i else f3 i

/-- On the rows of device `s` the joined buffer may stand for any buffer that agrees with it there. -/
private theorem psJoin_at (c s : Dev nD) (q : PosShare TreeShare) (g f0 f1 f2 f3 : Vec F S256x1024 .bf16)
    (h : ∀ i, rowDev (i 0) = s → g i = psJoin c f0 f1 f2 f3 i) :
    pts (F := F) (psM s) c q g = pts (F := F) (psM s) c q (psJoin c f0 f1 f2 f3) := by
  unfold pts; exact pointsTo_congr fun i hi => h i ((mem_psM_set s i).mp hi)

theorem psJoin_0 (c : Dev nD) (q : PosShare TreeShare) (f0 f1 f2 f3 : Vec F S256x1024 .bf16) :
    pts (F := F) (psM c) c q f0 = pts (F := F) (psM c) c q (psJoin c f0 f1 f2 f3) :=
  psJoin_at c c q f0 f0 f1 f2 f3 fun i h => by unfold psJoin; rw [h, if_pos rfl]
theorem psJoin_1 (c : Dev nD) (q : PosShare TreeShare) (f0 f1 f2 f3 : Vec F S256x1024 .bf16) :
    pts (F := F) (psM (pr c 1)) c q f1 = pts (F := F) (psM (pr c 1)) c q (psJoin c f0 f1 f2 f3) :=
  psJoin_at c _ q f1 f0 f1 f2 f3 fun i h => by unfold psJoin; rw [h, if_neg (pr_ne_pr c).1, if_pos rfl]
theorem psJoin_2 (c : Dev nD) (q : PosShare TreeShare) (f0 f1 f2 f3 : Vec F S256x1024 .bf16) :
    pts (F := F) (psM (pr c 2)) c q f2 = pts (F := F) (psM (pr c 2)) c q (psJoin c f0 f1 f2 f3) :=
  psJoin_at c _ q f2 f0 f1 f2 f3 fun i h => by unfold psJoin; rw [h, if_neg (pr_ne_pr c).2.1, if_neg (pr_ne_pr c).2.2.2.1, if_pos rfl]
theorem psJoin_3 (c : Dev nD) (q : PosShare TreeShare) (f0 f1 f2 f3 : Vec F S256x1024 .bf16) :
    pts (F := F) (psM (pr c 3)) c q f3 = pts (F := F) (psM (pr c 3)) c q (psJoin c f0 f1 f2 f3) :=
  psJoin_at c _ q f3 f0 f1 f2 f3 fun i h => by
    unfold psJoin; rw [h, if_neg (pr_ne_pr c).2.2.1, if_neg (pr_ne_pr c).2.2.2.2.1, if_neg (pr_ne_pr c).2.2.2.2.2]

end Cert.KernelIdeal.Dist

end
-- ==== Proof.DBodyPV.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodyLocal
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyBox
import proofs.«900988_g7700000000000989_dist_mlpseq_tp1d_bs_rep_b64_d1024_h2048_v7x_i4_f32_1_alg».proof.Proof.DBodyWb

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

theorem pv_amt_lo (p : Fin 7) (h : p.val ≠ 6) : amt p = Nh := if_neg h
private theorem pv_cr (l : Fin 3) (s : Dev nD) (p : Fin 7) (h : p.val ≠ 6) : (actsM l s).view.dmaCredit = amt p := (pv_amt_lo p h).symm
theorem pv_ptsE {sp : Space} {s : Shape} {e : EltTy} (M : Memref sig .tc sp s e) (d : Dev nD) :
    ptsE (F := F) M d = iprop(∃ f, pts (F := F) M d fullShare f) := rfl
theorem pv_rcvPay_0 (s : Dev nD) : rcvPay m c 0 s = pts (F := F) (actsM 0 s) c fullShare (actsB m) := rfl
theorem pv_rcvPay_2 (s : Dev nD) : rcvPay m c 2 s = iprop(pts (F := F) (actsM 1 s) c fullShare (actsB m) ∗ pts (F := F) (psM s) c fullShare (psB m 0 c)) := rfl

theorem part10_spec (K : Dev nD × Fin 57 → ℕ) (v2 : BitVec 32) {Q : BitVec 32 → sProp 𝕄} :
    iprop(records m K ∗ levAts L lv ∗ cred (tallyAt (rcvCell c 0 (pr c 2)) () Nh) ∗ atPos ER (rcvCell c 0 (pr c 2)) 0 ∅ 0 ∗ owesX c 18
        ∗ pts (F := F) (actsM 0 c) c (q4 3) (actsB m) ∗ pts (F := F) (actsM 0 (pr c 1)) c fullShare (actsB m) ∗ pts (F := F) (actsM 0 (pr c 3)) c fullShare (actsB m)
        ∗ ptsE (F := F) (psM c) c ∗ ptsE (F := F) (psM (pr c 1)) c ∗ ptsE (F := F) (psM (pr c 2)) c ∗ ptsE (F := F) (psM (pr c 3)) c)
      ⊢ iprop((∀ r, iprop(owesX c 18 ∗ atPos ER (rcvCell c 0 (pr c 2)) 1 ∅ 0
            ∗ pts (F := F) (actsM 0 c) c (q4 3) (actsB m) ∗ pts (F := F) (actsM 0 (pr c 1)) c fullShare (actsB m) ∗ pts (F := F) (actsM 0 (pr c 2)) c fullShare (actsB m) ∗ pts (F := F) (actsM 0 (pr c 3)) c fullShare (actsB m)
            ∗ pts (F := F) (psM c) c fullShare (psB m 0 c) ∗ pts (F := F) (psM (pr c 1)) c fullShare (psB m 0 c) ∗ pts (F := F) (psM (pr c 2)) c fullShare (psB m 0 c) ∗ pts (F := F) (psM (pr c 3)) c fullShare (psB m 0 c)) -∗ Q r)
          -∗ wp frame (wpE (defs₀ (F := F)) 𝒱₀ (c : Thread nD τ) none) Set.univ (P10 (F := F) c v2 (wb1 m 0 c) (wb2 m 0 c)) Q) := by
  unfold owesX P10 atArgs
  rw [k0_part10_eq_skeleton]
  unfold k0_part10_skel
  simp only [Prog.lift, Prog.bind_op, Prog.bind_ret, Prog.pure_eq_ret]
  rw [rcv0_p2 c]
  simp only [acts0_p2 c]
  rw [← pv_amt_lo 0 (by decide)]
  iintro ⟨#Hrec, #Hlev, Hc0, Hp0, ⟨%W, Ho⟩, A0, A1, A3, E0, E1, E2, E3⟩ HQ
  iapply (rcv_wait m K c rfl (fun _ => Set.mem_univ _) 0 (pr c 2) (pr_ne c 2 (by omega) (by omega)) 18 (by decide) W (pv_cr 0 (pr c 2) 0 (by decide))) $$ [$]
  iintro ⟨Ho, Hp0, -, Hy0⟩
  ihave A2 := (Entails.of_eq (pv_rcvPay_0 m c (pr c 2))) $$ Hy0
  iapply (wp_acts_loadB m 𝒱₀ none Set.univ c 0) $$ [$]
  iintro ⟨A0, A1, A2, A3⟩
  icases (Entails.of_eq (pv_ptsE (psM c) c)) $$ E0 with ⟨%f0, E0⟩
  icases (Entails.of_eq (pv_ptsE (psM (pr c 1)) c)) $$ E1 with ⟨%f1, E1⟩
  icases (Entails.of_eq (pv_ptsE (psM (pr c 2)) c)) $$ E2 with ⟨%f2, E2⟩
  icases (Entails.of_eq (pv_ptsE (psM (pr c 3)) c)) $$ E3 with ⟨%f3, E3⟩
  ihave S0 := (Entails.of_eq (psJoin_0 c fullShare f0 f1 f2 f3)) $$ E0
  ihave S1 := (Entails.of_eq (psJoin_1 c fullShare f0 f1 f2 f3)) $$ E1
  ihave S2 := (Entails.of_eq (psJoin_2 c fullShare f0 f1 f2 f3)) $$ E2
  ihave S3 := (Entails.of_eq (psJoin_3 c fullShare f0 f1 f2 f3)) $$ E3
  iapply (wp_ps_store 𝒱₀ none Set.univ c (psJoin c f0 f1 f2 f3) (psB m 0 c)) $$ [$]
  iintro ⟨S0, S1, S2, S3⟩
  iapply (le_wp_ret _ _ _ _ Q)
  iapply HQ
  isplitl [Ho]; · iexists _; iexact Ho
  iframe

theorem part25_spec (K : Dev nD × Fin 57 → ℕ) (v2 : BitVec 32) {Q : (Σ' (v777 : BitVec 32) (v778 : BitVec 32) (v779 : BitVec 1), BitVec 32) → sProp 𝕄} :
    iprop(records m K ∗ levAts L lv ∗ cred (tallyAt (rcvCell c 2 (pr c 2)) () Nh) ∗ atPos ER (rcvCell c 2 (pr c 2)) 0 ∅ 0 ∗ owesX c 12
        ∗ pts (F := F) (actsM 1 c) c (q4 3) (actsB m) ∗ pts (F := F) (actsM 1 (pr c 1)) c fullShare (actsB m) ∗ pts (F := F) (actsM 1 (pr c 3)) c fullShare (actsB m)
        ∗ pts (F := F) (psM c) c fullShare (psB m 0 c) ∗ pts (F := F) (psM (pr c 1)) c fullShare (psB m 0 c) ∗ pts (F := F) (psM (pr c 3)) c fullShare (psB m 0 c))
      ⊢ iprop((∀ r, iprop(owesX c 12 ∗ atPos ER (rcvCell c 2 (pr c 2)) 1 ∅ 0
            ∗ pts (F := F) (actsM 1 c) c (q4 3) (actsB m) ∗ pts (F := F) (actsM 1 (pr c 1)) c fullShare (actsB m) ∗ pts (F := F) (actsM 1 (pr c 2)) c fullShare (actsB m) ∗ pts (F := F) (actsM 1 (pr c 3)) c fullShare (actsB m)
            ∗ pts (F := F) (psM c) c fullShare (psB m 1 c) ∗ pts (F := F) (psM (pr c 1)) c fullShare (psB m 1 c) ∗ pts (F := F) (psM (pr c 2)) c fullShare (psB m 1 c) ∗ pts (F := F) (psM (pr c 3)) c fullShare (psB m 1 c)) -∗ Q r)
          -∗ wp frame (wpE (defs₀ (F := F)) 𝒱₀ (c : Thread nD τ) none) Set.univ (P25 (F := F) c v2 (wb1 m 1 c) (wb2 m 1 c)) Q) := by
  unfold owesX P25 atArgs
  rw [k0_part25_eq_skeleton]
  unfold k0_part25_skel
  simp only [Prog.lift, Prog.bind_op, Prog.bind_ret, Prog.pure_eq_ret]
  rw [rcv2_p2 c]
  simp only [acts1_p2 c]
  rw [← pv_amt_lo 2 (by decide)]
  iintro ⟨#Hrec, #Hlev, Hc0, Hp0, ⟨%W, Ho⟩, A0, A1, A3, S0, S1, S3⟩ HQ
  iapply (rcv_wait m K c rfl (fun _ => Set.mem_univ _) 2 (pr c 2) (pr_ne c 2 (by omega) (by omega)) 12 (by decide) W (pv_cr 1 (pr c 2) 2 (by decide))) $$ [$]
  iintro ⟨Ho, Hp0, -, Hy0⟩
  icases (Entails.of_eq (pv_rcvPay_2 m c (pr c 2))) $$ Hy0 with ⟨A2, S2⟩
  iapply (wp_acts_loadB m 𝒱₀ none Set.univ c 1) $$ [$]
  iintro ⟨A0, A1, A2, A3⟩
  iapply (wp_ps_store 𝒱₀ none Set.univ c (psB m 0 c) (psB m 1 c)) $$ [$]
  iintro ⟨S0, S1, S2, S3⟩
  iapply (le_wp_ret _ _ _ _ Q)
  iapply HQ
  isplitl [Ho]; · iexists _; iexact Ho
  iframe

theorem part41_spec (K : Dev nD × Fin 57 → ℕ) (v2 : BitVec 32) {Q : BitVec 32 → sProp 𝕄} :
    iprop(records m K ∗ levAts L lv
        ∗ pts (F := F) (actsM 2 c) c (q4 3) (actsB m) ∗ pts (F := F) (actsM 2 (pr c 1)) c fullShare (actsB m) ∗ pts (F := F) (actsM 2 (pr c 2)) c fullShare (actsB m) ∗ pts (F := F) (actsM 2 (pr c 3)) c fullShare (actsB m)
        ∗ pts (F := F) (psM c) c fullShare (psB m 1 c) ∗ pts (F := F) (psM (pr c 1)) c fullShare (psB m 1 c) ∗ pts (F := F) (psM (pr c 2)) c fullShare (psB m 1 c) ∗ pts (F := F) (psM (pr c 3)) c fullShare (psB m 1 c))
      ⊢ iprop((∀ r, iprop(pts (F := F) (actsM 2 c) c (q4 3) (actsB m) ∗ pts (F := F) (actsM 2 (pr c 1)) c fullShare (actsB m) ∗ pts (F := F) (actsM 2 (pr c 2)) c fullShare (actsB m) ∗ pts (F := F) (actsM 2 (pr c 3)) c fullShare (actsB m)
            ∗ pts (F := F) (psM c) c fullShare (psB m 2 c) ∗ pts (F := F) (psM (pr c 1)) c fullShare (psB m 2 c) ∗ pts (F := F) (psM (pr c 2)) c fullShare (psB m 2 c) ∗ pts (F := F) (psM (pr c 3)) c fullShare (psB m 2 c)) -∗ Q r)
          -∗ wp frame (wpE (defs₀ (F := F)) 𝒱₀ (c : Thread nD τ) none) Set.univ (P41 (F := F) v2 (wb1 m 2 c) (wb2 m 2 c)) Q) := by
  unfold P41 atArgs
  rw [k0_part41_eq_skeleton]
  unfold k0_part41_skel
  simp only [Prog.lift, Prog.bind_op, Prog.bind_ret, Prog.pure_eq_ret]
  iintro ⟨#Hrec, #Hlev, A0, A1, A2, A3, S0, S1, S2, S3⟩ HQ
  iapply (wp_acts_loadB m 𝒱₀ none Set.univ c 2) $$ [$]
  iintro ⟨A0, A1, A2, A3⟩
  iapply (wp_ps_store 𝒱₀ none Set.univ c (psB m 1 c) (psB m 2 c)) $$ [$]
  iintro ⟨S0, S1, S2, S3⟩
  iapply (le_wp_ret _ _ _ _ Q)
  iapply HQ
  iframe

end Cert.KernelIdeal.Dist

end
-- ==== Proof.DBodyPL.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

theorem rs_credit (l : Fin 3) (s : Dev nD) : (rsM l s).view.dmaCredit = Nh := by revert l s; decide +kernel

section Loads

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

theorem wp_rs_load (l : Fin 3) (s : Dev nD) (q : PosShare TreeShare) {off : Fin 4 → Nat} (h : off = ![l.val, s.val, 0, 0])
    (p : ∀ a, off a + S1x1x64x1024.size a ≤ S3x4x64x1024.size a)
    {hl : (Memref.whole cc0_scratch1 : Memref sig .tc .vmem S3x4x64x1024 .bf16).view.LoadsAt (Rect.unit (s := S3x4x64x1024) off S1x1x64x1024.size p).toLoadRect}
    {k : Vec F S1x1x64x1024 .bf16 → Prog (TpuEff nD τ sig (Elt F) Λ₀ .tc) α} :
    pts (F := F) (rsM l s) c q (rsB m c)
      ⊢ iprop((pts (F := F) (rsM l s) c q (rsB m c) -∗ wp frame (wpE' defs 𝒱 (c : Thread nD τ) bd Γ) E (k (rsBlk (psB m l s) c)) Q)
          -∗ wp frame (wpE' defs 𝒱 (c : Thread nD τ) bd Γ) E
              (.op (.load (Memref.whole cc0_scratch1) (Rect.unit (s := S3x4x64x1024) off S1x1x64x1024.size p).toLoadRect hl) k) Q) := by
  subst h
  refine (wp_load (defs := defs) 𝒱 (c : Thread nD τ) bd (Γ := Γ) E (Q := Q) (hl := hl) (k := k) (S := (rsM l s).view.set) (q := q) (f := rsB m c)
    (by rw [show (rsM l s).view.set = _ from (Memref.set_view_squeeze (s' := S64x1024) _ squeezes_S1x1x64x1024_S64x1024).trans (View.set_slice_whole _ _)]
        show Finset.map (Function.Embedding.refl _) _ ⊆ _; rw [Finset.map_refl])).trans (wand_mono_left (Entails.of_eq ?_))
  congr 4
  funext x
  have key : ∀ i : S3x4x64x1024.Idx, (i 0 : Fin 3) = l → (i 1 : Fin 4) = s → ∀ (x2 : Fin 64) (x3 : Fin 1024), (i 2 : Fin 64) = x2 → (i 3 : Fin 1024) = x3 →
      rsB m c i = psB m l s (ix2 (row64 c x2) x3) := fun i h0 h1 x2 x3 h2 h3 => by
    show psB m (i 0) (i 1) (ix2 (row64 c (i 2)) (i 3)) = _
    rw [h0, h1, h2, h3]
  have hx0 : (x 0).val < 1 := (x 0).isLt
  have hx1 : (x 1).val < 1 := (x 1).isLt
  rw [View.readAt_apply, View.read_apply]
  exact (key _ (Fin.ext (by show l.val + 1 * (x 0).val = l.val; omega)) (Fin.ext (by show s.val + 1 * (x 1).val = s.val; omega))
    (x 2) (x 3) (Fin.ext (by show 0 + 1 * (x 2).val = (x 2).val; omega)) (Fin.ext (by show 0 + 1 * (x 3).val = (x 3).val; omega))).symm

theorem wp_ps_own_load (q : PosShare TreeShare) (f : Vec F S256x1024 .bf16) {off : Fin 2 → Nat} (h : off = ![64 * c.val, 0]) (p) {hl}
    {k : Vec F S64x1024 .bf16 → Prog (TpuEff nD τ sig (Elt F) Λ₀ .tc) α} :
    pts (F := F) (psM c) c q f
      ⊢ iprop((pts (F := F) (psM c) c q f -∗ wp frame (wpE' defs 𝒱 (c : Thread nD τ) bd Γ) E (k (ownRows f c)) Q)
          -∗ wp frame (wpE' defs 𝒱 (c : Thread nD τ) bd Γ) E
              (.op (.load (Memref.whole cc0_scratch2 : Memref sig .tc .vmem S256x1024 .bf16) (Rect.unit (s := S256x1024) off S64x1024.size p).toLoadRect hl) k) Q) := by
  subst h
  refine (wp_load (defs := defs) 𝒱 (c : Thread nD τ) bd (Γ := Γ) E (Q := Q) (hl := hl) (k := k) (S := (psM c).view.set) (q := q) (f := f)
    (by rw [show (psM c).view.set = _ from View.set_slice_whole _ _]; show Finset.map (Function.Embedding.refl _) _ ⊆ _; rw [Finset.map_refl])).trans
    (wand_mono_left (Entails.of_eq ?_))
  congr 4
  funext x
  have key : ∀ (i : S256x1024.Idx) (r : Fin 256) (n : Fin 1024), (i 0 : Fin 256) = r → (i 1 : Fin 1024) = n → f i = f (ix2 r n) := fun i r n h0 h1 => by
    subst h0 h1; exact congrArg f (eq_ix2 i)
  rw [View.readAt_apply, View.read_apply]
  exact (key _ (row64 c (x 0)) (x 1) (Fin.ext (by show 64 * c.val + 1 * (x 0).val = 64 * c.val + (x 0).val; omega))
    (Fin.ext (by show 0 + 1 * (x 1).val = (x 1).val; omega))).symm

theorem acts_set (l : Fin 3) (s : Dev nD) :
    (actsM l s).view.set = (Rect.unit (s := S3x256x1024) ![l.val, 64 * s.val, 0] S1x64x1024.size (acts_inb l s)).set :=
  (Memref.set_view_squeeze (s' := S64x1024) _ squeezes_S1x64x1024_S64x1024).trans (View.set_slice_whole _ _)

theorem wp_layer_own_load (l : Fin 3) (q : PosShare TreeShare) (g : Vec F S3x256x1024 .bf16)
    {off3 : Fin 3 → Nat} (h3 : off3 = ![l.val, 0, 0]) (p3) {off : Fin 2 → Nat} (h : off = ![64 * c.val, 0]) (p) {hl}
    {k : Vec F S64x1024 .bf16 → Prog (TpuEff nD τ sig (Elt F) Λ₀ .tc) α} :
    pts (F := F) (actsM l c) c q g
      ⊢ iprop((∀ v, pts (F := F) (actsM l c) c q g -∗ wp frame (wpE' defs 𝒱 (c : Thread nD τ) bd Γ) E (k v) Q)
          -∗ wp frame (wpE' defs 𝒱 (c : Thread nD τ) bd Γ) E
              (.op (.load (((Memref.whole cc0_scratch0 : Memref sig .tc .vmem S3x256x1024 .bf16).slice (Rect.unit (s := S3x256x1024) off3 S1x256x1024.size p3) (fun _ => rfl)).squeeze S256x1024 squeezes_S1x256x1024_S256x1024)
                (Rect.unit (s := S256x1024) off S64x1024.size p).toLoadRect hl) k) Q) := by
  subst h3 h
  refine (wp_load (defs := defs) 𝒱 (c : Thread nD τ) bd (Γ := Γ) E (Q := Q) (hl := hl) (k := k) (S := (actsM l c).view.set) (q := q) (f := g) ?_).trans
    (wand_mono_left (forall_elim _))
  intro i hi
  obtain ⟨j, hj, rfl⟩ := Finset.mem_map.mp hi
  rw [acts_set]
  have hj0 : 64 * c.val ≤ (j 0).val ∧ (j 0).val < 64 * c.val + 64 := Rect.mem_set_unit.mp hj 0
  have hj1 : 0 ≤ (j 1).val ∧ (j 1).val < 0 + 1024 := Rect.mem_set_unit.mp hj 1
  refine Rect.mem_set_unit.mpr ?_
  intro a
  show (![l.val, 64 * c.val, 0] : Fin 3 → Nat) a ≤ ((Rect.unit (s := S3x256x1024) ![l.val, 0, 0] S1x256x1024.size p3).emb (Shape.reshapeEquiv (squeezes_S1x256x1024_S256x1024).numel_eq j) a : Nat)
    ∧ ((Rect.unit (s := S3x256x1024) ![l.val, 0, 0] S1x256x1024.size p3).emb (Shape.reshapeEquiv (squeezes_S1x256x1024_S256x1024).numel_eq j) a : Nat) < (![l.val, 64 * c.val, 0] : Fin 3 → Nat) a + S1x64x1024.size a
  rw [Shape.reshapeEquiv_cons_one (n := 2) (d := ![256, 1024])]
  match a with
  | ⟨0, _⟩ => show l.val ≤ l.val + 1 * 0 ∧ l.val + 1 * 0 < l.val + 1; omega
  | ⟨1, _⟩ => show 64 * c.val ≤ 0 + 1 * (j 0).val ∧ 0 + 1 * (j 0).val < 64 * c.val + 64; omega
  | ⟨2, _⟩ => show 0 ≤ 0 + 1 * (j 1).val ∧ 0 + 1 * (j 1).val < 0 + 1024; omega

theorem row64_dev (r : Fin 64) : rowDev (row64 c r) = c :=
  Fin.ext (by show (64 * c.val + r.val) / 64 = c.val; have := r.isLt; omega)
theorem row64_in (r : Fin 64) : rowIn (row64 c r) = r :=
  Fin.ext (by show (64 * c.val + r.val) % 64 = r.val; have := r.isLt; omega)
theorem ix3_one (x : S1x64x1024.Idx) : ix3 (0 : Fin 1) (x 1) (x 2) = x :=
  (congrArg (fun a : Fin 1 => ix3 a (x 1) (x 2)) (Subsingleton.elim (0 : Fin 1) (x 0))).trans (eq_ix3 x).symm
theorem actsB_at1 (x : S1x64x1024.Idx) (i : S3x256x1024.Idx) (h0 : (i 0 : Fin 3) = (1 : Fin 3)) (h1 : (i 1 : Fin 256) = row64 c (x 1))
    (h2 : (i 2 : Fin 1024) = x 2) : actsB m i = blk1 m c x := by
  have hv : (i 0).val = 1 := congrArg Fin.val h0
  unfold actsB
  rw [if_neg (by omega), if_pos hv]
  show blk1 m (rowDev (i 1)) (ix3 (0 : Fin 1) (rowIn (i 1)) (i 2)) = _
  rw [h1, h2, row64_dev c (x 1), row64_in c (x 1)]
  exact congrArg (blk1 m c) (ix3_one x)
theorem actsB_at2 (x : S1x64x1024.Idx) (i : S3x256x1024.Idx) (h0 : (i 0 : Fin 3) = (2 : Fin 3)) (h1 : (i 1 : Fin 256) = row64 c (x 1))
    (h2 : (i 2 : Fin 1024) = x 2) : actsB m i = blk2 m c x := by
  have hv : (i 0).val = 2 := congrArg Fin.val h0
  unfold actsB
  rw [if_neg (by omega), if_neg (by omega)]
  show blk2 m (rowDev (i 1)) (ix3 (0 : Fin 1) (rowIn (i 1)) (i 2)) = _
  rw [h1, h2, row64_dev c (x 1), row64_in c (x 1)]
  exact congrArg (blk2 m c) (ix3_one x)

theorem wp_acts_own_store (l : Fin 3) (g f' : Vec F S3x256x1024 .bf16) (w : Vec F S1x64x1024 .bf16)
    {off : Fin 3 → Nat} (h : off = ![l.val, 64 * c.val, 0]) (p : ∀ a, off a + S1x64x1024.size a ≤ S3x256x1024.size a)
    (hw : ∀ (x : S1x64x1024.Idx) (i : S3x256x1024.Idx), (i 0 : Fin 3) = l → (i 1 : Fin 256) = row64 c (x 1) → (i 2 : Fin 1024) = x 2 → f' i = w x)
    {hx : ((Memref.whole cc0_scratch0 : Memref sig .tc .vmem S3x256x1024 .bf16).access (Rect.unit (s := S3x256x1024) off S1x64x1024.size p)).Stores Finset.univ}
    {hm : (Finset.univ : Finset (Rect.unit (s := S3x256x1024) off S1x64x1024.size p).shape.Idx) = Finset.univ ∨ ∀ a, (Rect.unit (s := S3x256x1024) off S1x64x1024.size p).stride a = 1}
    {k : PUnit → Prog (TpuEff nD τ sig (Elt F) Λ₀ .tc) α} :
    pts (F := F) (actsM l c) c fullShare g
      ⊢ iprop((pts (F := F) (actsM l c) c fullShare f' -∗ wp frame (wpE' defs 𝒱 (c : Thread nD τ) bd Γ) E (k ⟨⟩) Q)
          -∗ wp frame (wpE' defs 𝒱 (c : Thread nD τ) bd Γ) E
              (.op (.store (Memref.whole cc0_scratch0) (Rect.unit (s := S3x256x1024) off S1x64x1024.size p) w Finset.univ hx hm) k) Q) := by
  subst h
  have hset : ((Memref.whole cc0_scratch0 : Memref sig .tc .vmem S3x256x1024 .bf16).access (Rect.unit (s := S3x256x1024) ![l.val, 64 * c.val, 0] S1x64x1024.size p)).set
      = (actsM l c).view.set := by
    rw [acts_set]; exact View.set_slice_whole _ _
  refine (wp_store (defs := defs) 𝒱 (c : Thread nD τ) bd (Γ := Γ) E (Q := Q) (w := w) (hx := hx) (hm := hm) (k := k) (f := g) (S := (actsM l c).view.set)
    (hset ▸ Finset.Subset.refl _)).trans (wand_mono_left (wand_mono_left (Entails.of_eq (pointsTo_congr fun i hi => ?_))))
  rw [← hset] at hi
  obtain ⟨x, -, rfl⟩ := Finset.mem_map.mp hi
  have hx0 : (x 0).val < 1 := (x 0).isLt
  exact (View.write_emb_of_mem _ _ (Finset.mem_univ x)).trans
    (hw x _ (Fin.ext (by show l.val + 1 * (x 0).val = l.val; omega))
      (Fin.ext (by show 64 * c.val + 1 * (x 1).val = 64 * c.val + (x 1).val; omega))
      (Fin.ext (by show 0 + 1 * (x 2).val = (x 2).val; omega))).symm

theorem ptsE_elim {sp : Space} {s : Shape} {e : EltTy} (M : Memref sig .tc sp s e) (d : Dev nD) :
    ptsE (F := F) M d ⊢ iprop(∃ f, pts (F := F) M d fullShare f) := Entails.of_eq rfl

end Loads

theorem part17_spec (K : Dev nD × Fin 57 → ℕ) (v2 v484 c4 : BitVec 32) (v485 : BitVec 1) (c1 : BitVec 32) {Q : _ → sProp 𝕄} :
    iprop(records m K ∗ levAts L lv ∗ cred (tallyAt (rcvCell c 1 (pr c 2)) () Nh) ∗ atPos ER (rcvCell c 1 (pr c 2)) 0 ∅ 0 ∗ owesX c 15
        ∗ pts (F := F) (psM c) c fullShare (psB m 0 c))
      ⊢ iprop((∀ r, iprop(owesX c 15 ∗ atPos ER (rcvCell c 1 (pr c 2)) 1 ∅ 0
              ∗ pts (F := F) (rsM 0 (pr c 2)) c fullShare (rsB m c) ∗ pts (F := F) (psM c) (pr c 2) fullShare (psB m 0 (pr c 2))
              ∗ pts (F := F) (psM c) c fullShare (psB m 0 c)
              ∗ ⌜r.1 = k0_pay9 (ownRows (psB m 0 c) c)⌝) -∗ Q r)
          -∗ wp frame (wpE (defs₀ (F := F)) 𝒱₀ (c : Thread nD τ) none) Set.univ (P17 (F := F) c v2 v484 c4 v485 c1) Q) := by
  unfold owesX P17 atArgs
  simp only [k0_part17_eq_skeleton, k0_part17_skel, Prog.lift, Prog.bind_op, Prog.bind_ret, Prog.pure_eq_ret]
  rw [rcv1_p2 c]
  simp only [rs0_p2 c]
  iintro ⟨#Hrec, #Hlev, Hcr, Hpos, ⟨%W, Ho⟩, Hps⟩ HQ
  iapply (rcv_wait m K c rfl (fun _ => Set.mem_univ _) 1 (pr c 2) (pr_ne c 2 (by omega) (by omega)) 15 (by decide) W
    (hcr := (rs_credit 0 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 0 c) (k0_off12_eq c) (k0_off12_inb c)) $$ Hps
  iintro Hps
  iapply (le_wp_ret _ _)
  iapply HQ
  isplitl [Ho]; · iexists _; iexact Ho
  iframe; ipureintro; rfl

theorem part18_spec (K : Dev nD × Fin 57 → ℕ) (v2 : BitVec 32) (v517 : FVec F S64x1024 .f32) (v518 c4 c0 : BitVec 32) {Q : _ → sProp 𝕄} :
    iprop(records m K ∗ levAts L lv ∗ pts (F := F) (rsM 0 (pr c 1)) c fullShare (rsB m c) ∗ pts (F := F) (rsM 0 (pr c 2)) c fullShare (rsB m c))
      ⊢ iprop((∀ r, iprop(pts (F := F) (rsM 0 (pr c 1)) c fullShare (rsB m c) ∗ pts (F := F) (rsM 0 (pr c 2)) c fullShare (rsB m c)
              ∗ ⌜r.1 = k0_pay10 v517 (rsBlk (psB m 0 (pr c 1)) c) (rsBlk (psB m 0 (pr c 2)) c)⌝) -∗ Q r)
          -∗ wp frame (wpE (defs₀ (F := F)) 𝒱₀ (c : Thread nD τ) none) Set.univ (P18 (F := F) c v2 v517 v518 c4 c0) Q) := by
  unfold P18 atArgs
  simp only [k0_part18_eq_skeleton, k0_part18_skel, Prog.lift, Prog.bind_op, Prog.bind_ret, Prog.pure_eq_ret]
  iintro ⟨-, -, H1, H2⟩ HQ
  iapply (wp_rs_load m c 𝒱₀ none Set.univ 0 (pr c 1) fullShare (off13_1 c) (k0_off13_inb c 0)) $$ H1
  iintro H1
  iapply (wp_rs_load m c 𝒱₀ none Set.univ 0 (pr c 2) fullShare (off13_2 c) (k0_off13_inb c 1)) $$ H2
  iintro H2
  iapply (le_wp_ret _ _)
  iapply HQ
  iframe; ipureintro; rfl

theorem part19_spec (K : Dev nD × Fin 57 → ℕ) (v2 : BitVec 32) (v549 : FVec F S64x1024 .f32) (hv : v549 = sum0 m c) (v552 v553 : BitVec 32) (v554 v555 : BitVec 1) {Q : _ → sProp 𝕄} :
    iprop(records m K ∗ levAts L lv ∗ pts (F := F) (rsM 0 (pr c 3)) c fullShare (rsB m c) ∗ ptsE (F := F) (actsM 1 c) c)
      ⊢ iprop((∀ r, iprop(pts (F := F) (rsM 0 (pr c 3)) c fullShare (rsB m c) ∗ pts (F := F) (actsM 1 c) c fullShare (actsB m)) -∗ Q r)
          -∗ wp frame (wpE (defs₀ (F := F)) 𝒱₀ (c : Thread nD τ) none) Set.univ (P19 (F := F) c v2 v549 v552 v553 v554 v555) Q) := by
  subst hv
  unfold P19 atArgs
  simp only [k0_part19_eq_skeleton, k0_part19_skel, Prog.lift, Prog.bind_op, Prog.bind_ret, Prog.pure_eq_ret]
  iintro ⟨-, -, H1, Ha⟩ HQ
  ihave Ha' := (ptsE_elim (F := F) (actsM 1 c) c) $$ Ha
  icases Ha' with ⟨%g, Ha⟩
  iapply (wp_rs_load m c 𝒱₀ none Set.univ 0 (pr c 3) fullShare (off13_3 c) (k0_off13_inb c 2)) $$ H1
  iintro H1
  iapply (wp_layer_own_load c 𝒱₀ none Set.univ 1 fullShare g rfl inb_S3x256x1024_S1x256x1024_1_0_0 (k0_off12_eq c) (k0_off12_inb c)) $$ Ha
  iintro %v Ha
  iapply (wp_acts_own_store c 𝒱₀ none Set.univ 1 g (actsB m) _ (k0_off14_eq c) (k0_off14_inb c)
    (actsB_at1 m c)) $$ Ha
  iintro Ha
  iapply (le_wp_ret _ _)
  iapply HQ
  iframe

theorem part33_spec (K : Dev nD × Fin 57 → ℕ) (v2 v981 : BitVec 32) (v986 : BitVec 1) (v987 : BitVec 32) {Q : _ → sProp 𝕄} :
    iprop(records m K ∗ levAts L lv ∗ cred (tallyAt (rcvCell c 3 (pr c 2)) () Nh) ∗ atPos ER (rcvCell c 3 (pr c 2)) 0 ∅ 0 ∗ owesX c 9
        ∗ pts (F := F) (psM c) c fullShare (psB m 1 c))
      ⊢ iprop((∀ r, iprop(owesX c 9 ∗ atPos ER (rcvCell c 3 (pr c 2)) 1 ∅ 0
              ∗ pts (F := F) (rsM 1 (pr c 2)) c fullShare (rsB m c) ∗ pts (F := F) (psM c) (pr c 2) fullShare (psB m 1 (pr c 2))
              ∗ pts (F := F) (psM c) c fullShare (psB m 1 c)
              ∗ ⌜r.1 = k0_pay18 (ownRows (psB m 1 c) c)⌝) -∗ Q r)
          -∗ wp frame (wpE (defs₀ (F := F)) 𝒱₀ (c : Thread nD τ) none) Set.univ (P33 (F := F) c v2 v981 v986 v987) Q) := by
  unfold owesX P33 atArgs
  simp only [k0_part33_eq_skeleton, k0_part33_skel, Prog.lift, Prog.bind_op, Prog.bind_ret, Prog.pure_eq_ret]
  rw [rcv3_p2 c]
  simp only [rs1_p2 c]
  iintro ⟨#Hrec, #Hlev, Hcr, Hpos, ⟨%W, Ho⟩, Hps⟩ HQ
  iapply (rcv_wait m K c rfl (fun _ => Set.mem_univ _) 3 (pr c 2) (pr_ne c 2 (by omega) (by omega)) 9 (by decide) W
    (hcr := (rs_credit 1 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 1 c) (k0_off12_eq c) (k0_off12_inb c)) $$ Hps
  iintro Hps
  iapply (le_wp_ret _ _)
  iapply HQ
  isplitl [Ho]; · iexists _; iexact Ho
  iframe; ipureintro; rfl

theorem part34_spec (K : Dev nD × Fin 57 → ℕ) (v2 : BitVec 32) (v1011 : FVec F S64x1024 .f32) (v1014 v1015 : BitVec 32) (v1016 v1019 : BitVec 1) {Q : _ → sProp 𝕄} :
    iprop(records m K ∗ levAts L lv ∗ pts (F := F) (rsM 1 (pr c 1)) c fullShare (rsB m c) ∗ pts (F := F) (rsM 1 (pr c 2)) c fullShare (rsB m c)
        ∗ pts (F := F) (rsM 1 (pr c 3)) c fullShare (rsB m c))
      ⊢ iprop((∀ r, iprop(pts (F := F) (rsM 1 (pr c 1)) c fullShare (rsB m c) ∗ pts (F := F) (rsM 1 (pr c 2)) c fullShare (rsB m c)
              ∗ pts (F := F) (rsM 1 (pr c 3)) c fullShare (rsB m c)
              ∗ ⌜r.1 = k0_pay19 v1011 (rsBlk (psB m 1 (pr c 1)) c) (rsBlk (psB m 1 (pr c 2)) c) ∧ r.2 = rsBlk (psB m 1 (pr c 3)) c⌝) -∗ Q r)
          -∗ wp frame (wpE (defs₀ (F := F)) 𝒱₀ (c : Thread nD τ) none) Set.univ (P34 (F := F) c v2 v1011 v1014 v1015 v1016 v1019) Q) := by
  unfold P34 atArgs
  simp only [k0_part34_eq_skeleton, k0_part34_skel, Prog.lift, Prog.bind_op, Prog.bind_ret, Prog.pure_eq_ret]
  iintro ⟨-, -, H1, H2, H3⟩ HQ
  iapply (wp_rs_load m c 𝒱₀ none Set.univ 1 (pr c 1) fullShare (off23_1 c) (k0_off23_inb c 0)) $$ H1
  iintro H1
  iapply (wp_rs_load m c 𝒱₀ none Set.univ 1 (pr c 2) fullShare (off23_2 c) (k0_off23_inb c 1)) $$ H2
  iintro H2
  iapply (wp_rs_load m c 𝒱₀ none Set.univ 1 (pr c 3) fullShare (off23_3 c) (k0_off23_inb c 2)) $$ H3
  iintro H3
  iapply (le_wp_ret _ _)
  iapply HQ
  iframe; ipureintro; exact ⟨rfl, rfl⟩

theorem part35_spec (K : Dev nD × Fin 57 → ℕ) (v2 : BitVec 32) (v1043 : FVec F S64x1024 .f32) (hv : v1043 = sum1 m c)
    (v1056 : Vec F S1x1x64x1024 .bf16) (hw : v1056 = rsBlk (psB m 1 (pr c 3)) c) {Q : _ → sProp 𝕄} :
    iprop(records m K ∗ levAts L lv ∗ ptsE (F := F) (actsM 2 c) c)
      ⊢ iprop((∀ r, iprop(pts (F := F) (actsM 2 c) c fullShare (actsB m)) -∗ Q r)
          -∗ wp frame (wpE (defs₀ (F := F)) 𝒱₀ (c : Thread nD τ) none) Set.univ (P35 (F := F) c v2 v1043 v1056) Q) := by
  subst hv hw
  unfold P35 atArgs
  simp only [k0_part35_eq_skeleton, k0_part35_skel, Prog.lift, Prog.bind_op, Prog.bind_ret, Prog.pure_eq_ret]
  iintro ⟨-, -, Ha⟩ HQ
  ihave Ha' := (ptsE_elim (F := F) (actsM 2 c) c) $$ Ha
  icases Ha' with ⟨%g, Ha⟩
  iapply (wp_layer_own_load c 𝒱₀ none Set.univ 2 fullShare g rfl inb_S3x256x1024_S1x256x1024_2_0_0 (k0_off12_eq c) (k0_off12_inb c)) $$ Ha
  iintro %v Ha
  iapply (wp_acts_own_store c 𝒱₀ none Set.univ 2 g (actsB m) _ (k0_off24_eq c) (k0_off24_inb c)
    (actsB_at2 m c)) $$ Ha
  iintro Ha
  iapply (le_wp_ret _ _)
  iapply HQ
  iexact Ha

theorem part48_spec (K : Dev nD × Fin 57 → ℕ) (v2 v1454 v1455 : BitVec 32) (v1456 v1457 v1458 : BitVec 1) {Q : _ → sProp 𝕄} :
    iprop(records m K ∗ levAts L lv ∗ cred (tallyAt (rcvCell c 5 (pr c 2)) () Nh) ∗ atPos ER (rcvCell c 5 (pr c 2)) 0 ∅ 0 ∗ owesX c 3
        ∗ pts (F := F) (psM c) c fullShare (psB m 2 c))
      ⊢ iprop((∀ r, iprop(owesX c 3 ∗ atPos ER (rcvCell c 5 (pr c 2)) 1 ∅ 0
              ∗ pts (F := F) (rsM 2 (pr c 2)) c fullShare (rsB m c) ∗ pts (F := F) (psM c) (pr c 2) fullShare (psB m 2 (pr c 2))
              ∗ pts (F := F) (psM c) c fullShare (psB m 2 c)
              ∗ ⌜r.1 = k0_pay24 (ownRows (psB m 2 c) c)⌝) -∗ Q r)
          -∗ wp frame (wpE (defs₀ (F := F)) 𝒱₀ (c : Thread nD τ) none) Set.univ (P48 (F := F) c v2 v1454 v1455 v1456 v1457 v1458) Q) := by
  unfold owesX P48 atArgs
  simp only [k0_part48_eq_skeleton, k0_part48_skel, Prog.lift, Prog.bind_op, Prog.bind_ret, Prog.pure_eq_ret]
  rw [rcv5_p2 c]
  simp only [rs2_p2 c]
  iintro ⟨#Hrec, #Hlev, Hcr, Hpos, ⟨%W, Ho⟩, Hps⟩ HQ
  iapply (rcv_wait m K c rfl (fun _ => Set.mem_univ _) 5 (pr c 2) (pr_ne c 2 (by omega) (by omega)) 3 (by decide) W
    (hcr := (rs_credit 2 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 2 c) (k0_off12_eq c) (k0_off12_inb c)) $$ Hps
  iintro Hps
  iapply (le_wp_ret _ _)
  iapply HQ
  isplitl [Ho]; · iexists _; iexact Ho
  iframe; ipureintro; rfl

theorem part49_spec (K : Dev nD × Fin 57 → ℕ) (v2 : BitVec 32) (v1485 : FVec F S64x1024 .f32) (v1488 v1489 : BitVec 32) (v1490 v1491 : BitVec 1) {Q : _ → sProp 𝕄} :
    iprop(records m K ∗ levAts L lv ∗ pts (F := F) (rsM 2 (pr c 1)) c fullShare (rsB m c) ∗ pts (F := F) (rsM 2 (pr c 2)) c fullShare (rsB m c))
      ⊢ iprop((∀ r, iprop(pts (F := F) (rsM 2 (pr c 1)) c fullShare (rsB m c) ∗ pts (F := F) (rsM 2 (pr c 2)) c fullShare (rsB m c)
              ∗ ⌜r = k0_pay25 v1485 (rsBlk (psB m 2 (pr c 1)) c) (rsBlk (psB m 2 (pr c 2)) c)⌝) -∗ Q r)
          -∗ wp frame (wpE (defs₀ (F := F)) 𝒱₀ (c : Thread nD τ) none) Set.univ (P49 (F := F) c v2 v1485 v1488 v1489 v1490 v1491) Q) := by
  unfold P49 atArgs
  simp only [k0_part49_eq_skeleton, k0_part49_skel, Prog.lift, Prog.bind_op, Prog.bind_ret, Prog.pure_eq_ret]
  iintro ⟨-, -, H1, H2⟩ HQ
  iapply (wp_rs_load m c 𝒱₀ none Set.univ 2 (pr c 1) fullShare (off33_1 c) (k0_off33_inb c 0)) $$ H1
  iintro H1
  iapply (wp_rs_load m c 𝒱₀ none Set.univ 2 (pr c 2) fullShare (off33_2 c) (k0_off33_inb c 1)) $$ H2
  iintro H2
  iapply (le_wp_ret _ _)
  iapply HQ
  iframe; ipureintro; rfl

end Cert.KernelIdeal.Dist

end
-- ==== Proof.DBodyPV3.lean ====
import proofs.«900988_g7700000000000989_dist_mlpseq_tp1d_bs_rep_b64_d1024_h2048_v7x_i4_f32_1_alg».proof.Proof.DBodyArgs
import proofs.«900988_g7700000000000989_dist_mlpseq_tp1d_bs_rep_b64_d1024_h2048_v7x_i4_f32_1_alg».proof.Proof.DBodyKits
import proofs.«900988_g7700000000000989_dist_mlpseq_tp1d_bs_rep_b64_d1024_h2048_v7x_i4_f32_1_alg».proof.Proof.DBodyGeom
import proofs.«900988_g7700000000000989_dist_mlpseq_tp1d_bs_rep_b64_d1024_h2048_v7x_i4_f32_1_alg».proof.Proof.DBodyWait
import proofs.«900988_g7700000000000989_dist_mlpseq_tp1d_bs_rep_b64_d1024_h2048_v7x_i4_f32_1_alg».proof.Proof.DBodyLocal
import proofs.«900988_g7700000000000989_dist_mlpseq_tp1d_bs_rep_b64_d1024_h2048_v7x_i4_f32_1_alg».proof.Proof.DBodySend
import proofs.«900988_g7700000000000989_dist_mlpseq_tp1d_bs_rep_b64_d1024_h2048_v7x_i4_f32_1_alg».proof.Proof.DBodyBox
import proofs.«900988_g7700000000000989_dist_mlpseq_tp1d_bs_rep_b64_d1024_h2048_v7x_i4_f32_1_alg».proof.Proof.DBodyWb
import proofs.«900988_g7700000000000989_dist_mlpseq_tp1d_bs_rep_b64_d1024_h2048_v7x_i4_f32_1_alg».proof.Proof.DBodyPL

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

theorem pv3_ptsE {sp : Space} {s : Shape} {e : EltTy} (M : Memref sig .tc sp s e) (d : Dev nD) :
    ptsE (F := F) M d = iprop(∃ f, pts (F := F) M d fullShare f) := rfl

theorem pv_wb2_set1 (inb) :
    (wb2M 1).view.set = (Rect.unit (s := S2x2048x1024) ![1, 0, 0] S1x2048x1024.size inb).set := View.set_slice_whole _ _

theorem pv_pts_wb2 (q : PosShare TreeShare) (f : Vec F S2x2048x1024 .bf16) :
    pts (F := F) (wb2M 1) c q f
      = ((Memref.whole cc0_scratch6 : Memref sig .tc .vmem S2x2048x1024 .bf16).view.loc (c : Thread nD τ) ↦[(wb2M 1).view.set]{q} f : sProp 𝕄) := rfl

theorem pv_read_wb2 (l : Fin 3) (b : Fin 2) (inb) :
    (Memref.whole cc0_scratch6 : Memref sig .tc .vmem S2x2048x1024 .bf16).view.readAt (Elt F)
      (Rect.unit (s := S2x2048x1024) ![b.val, 0, 0] S1x2048x1024.size inb).toLoadRect (wb2B m l c)
      = k0_pay3 (up2048x1024 (W2 (F := F) m l c)) := by
  funext x
  have hx0 : (x 0).val = 0 := by have := (x 0).isLt; change (x 0).val < 1 at this; omega
  show wb2B m l c ((Rect.unit (s := S2x2048x1024) ![b.val, 0, 0] S1x2048x1024.size inb).emb x) = _
  unfold wb2B
  congr 1
  funext a
  apply Fin.ext
  revert a
  rw [Fin.forall_fin_succ, Fin.forall_fin_two]
  refine ⟨?_, ?_, ?_⟩
  · show 0 = (x 0).val; omega
  · show 0 + 1 * (x 1).val = (x 1).val; omega
  · show 0 + 1 * (x 2).val = (x 2).val; omega
theorem part22_spec (K : Dev nD × Fin 57 → ℕ) (v2 : BitVec 32) {Q : FVec F S2048x1024 .bf16 → sProp 𝕄} :
    iprop(records m K ∗ levAts L lv ∗ pts (F := F) (wb2M 1) c fullShare (wb2B m 1 c))
      ⊢ iprop((∀ r, iprop(pts (F := F) (wb2M 1) c fullShare (wb2B m 1 c) ∗ ⌜r = wb2 m 1 c⌝) -∗ Q r)
          -∗ wp frame (wpE (defs₀ (F := F)) 𝒱₀ (c : Thread nD τ) none) Set.univ (P22 (F := F) c v2) Q) := by
  unfold P22 atArgs
  rw [k0_part22_eq_skeleton]
  unfold k0_part22_skel
  simp only [Prog.lift, Prog.bind_op, Prog.bind_ret, Prog.pure_eq_ret]
  iintro ⟨#Hrec, #Hlev, H⟩ HQ
  ihave H := (Entails.of_eq (pv_pts_wb2 c fullShare (wb2B m 1 c))) $$ H
  iapply (wp_load 𝒱₀ (c : Thread nD τ) none Set.univ (m := (Memref.whole cc0_scratch6 : Memref sig .tc .vmem S2x2048x1024 .bf16))
    (r := (Rect.unit (s := S2x2048x1024) ![1, 0, 0] S1x2048x1024.size inb_S2x2048x1024_S1x2048x1024_1_0_0).toLoadRect)
    (S := (wb2M 1).view.set) (q := fullShare) (f := wb2B m 1 c)
    (by rw [box_load_set, pv_wb2_set1 inb_S2x2048x1024_S1x2048x1024_1_0_0]; all_goals exact subset_rfl)) $$ H
  iintro H
  ihave H := (Entails.of_eq (pv_pts_wb2 c fullShare (wb2B m 1 c)).symm) $$ H
  iapply (le_wp_ret _ _ _ _ Q)
  iapply HQ
  isplitl [H]; · iexact H
  ipureintro
  exact (congrArg (k0_pay13 (F := F)) (pv_read_wb2 m c 1 1 inb_S2x2048x1024_S1x2048x1024_1_0_0)).trans rfl

theorem pv_owns_stg (q : PosShare TreeShare) (X0 : Vec F S64x1024 .f32) :
    owns (c : Thread nD τ) (Memref.whole cc0_stg0_0 : Memref sig .tc .vmem S64x1024 .f32) q X0
      = iprop(∃ f : Vec F S64x1024 .f32, ⌜f = X0⌝
          ∗ ((Memref.whole cc0_stg0_0 : Memref sig .tc .vmem S64x1024 .f32).view.loc (c : Thread nD τ) ↦[Finset.univ]{q} f : sProp 𝕄)) := by
  unfold owns
  rw [show (Memref.whole cc0_stg0_0 : Memref sig .tc .vmem S64x1024 .f32).view.set = Finset.univ from View.set_whole _]
  rfl

theorem pv_pts_acts0 (q : PosShare TreeShare) (f : Vec F S3x256x1024 .bf16) :
    pts (F := F) (actsM 0 c) c q f
      = ((Memref.whole cc0_scratch0 : Memref sig .tc .vmem S3x256x1024 .bf16).view.loc (c : Thread nD τ) ↦[(actsM 0 c).view.set]{q} f : sProp 𝕄) := rfl

theorem pv_off2 : (![0, 0] : Fin S64x1024.rank → Nat) = fun _ => 0 := by funext a; fin_cases a <;> rfl

theorem pv_acts0_ld_sub (inb) :
    (Memref.whole cc0_scratch0 : Memref sig .tc .vmem S3x256x1024 .bf16).view.setOn
      (Rect.unit (s := S3x256x1024) ![0, 64 * c.val, 0] S1x64x1024.size inb).toLoadRect.set ⊆ (actsM 0 c).view.set := by
  rw [box_load_set, actsM_set 0 c inb]; all_goals exact subset_rfl

theorem pv_own_load {Γ : PendingWaitsCtx sig Unit} {Es : Set ℕ} {α : Type} {Q : α → sProp 𝕄}
    (f0 : Vec F S3x256x1024 .bf16)
    {off : Fin 3 → Nat} (h : off = ![0, 64 * c.val, 0]) (inb : ∀ a, off a + S1x64x1024.size a ≤ S3x256x1024.size a)
    {hl : (Memref.whole cc0_scratch0 : Memref sig .tc .vmem S3x256x1024 .bf16).view.LoadsAt (Rect.unit (s := S3x256x1024) off S1x64x1024.size inb).toLoadRect}
    {k : Vec F S1x64x1024 .bf16 → Prog (TpuEff nD τ sig (Elt F) Λ₀ .tc) α} :
    pts (F := F) (actsM 0 c) c fullShare f0
      ⊢ iprop((∀ v, pts (F := F) (actsM 0 c) c fullShare f0 -∗ wp frame (wpE' (defs₀ (F := F)) 𝒱₀ (c : Thread nD τ) none Γ) Es (k v) Q)
          -∗ wp frame (wpE' (defs₀ (F := F)) 𝒱₀ (c : Thread nD τ) none Γ) Es
              (.op (.load (Memref.whole cc0_scratch0) (Rect.unit (s := S3x256x1024) off S1x64x1024.size inb).toLoadRect hl) k) Q) := by
  subst h
  rw [pv_pts_acts0]
  iintro E0 Hk
  iapply (wp_load 𝒱₀ (c : Thread nD τ) none Es (m := (Memref.whole cc0_scratch0 : Memref sig .tc .vmem S3x256x1024 .bf16))
    (r := (Rect.unit (s := S3x256x1024) ![0, 64 * c.val, 0] S1x64x1024.size inb).toLoadRect)
    (S := (actsM 0 c).view.set) (q := fullShare) (f := f0) (pv_acts0_ld_sub c inb)) $$ E0
  iintro E0
  iapply Hk $$ E0

theorem pv_acts0_at (x : S1x64x1024.Idx) (i : S3x256x1024.Idx) (h0 : (i 0 : Fin 3) = (0 : Fin 3))
    (h1 : (i 1 : Fin 256) = row64 c (x 1)) (h2 : (i 2 : Fin 1024) = x 2) : actsB m i = k0_pay1 (X (F := F) m c) x := by
  have hx0 : (x 0).val = 0 := by have := (x 0).isLt; change (x 0).val < 1 at this; omega
  have hx1 : (x 1).val < 64 := (x 1).isLt
  have h4 : c.val < 4 := c.isLt
  rw [actsB_at m 0 i (congrArg Fin.val h0)]
  show blk0 m (rowDev (i 1)) (ix3 (0 : Fin 1) (rowIn (i 1)) (i 2)) = _
  have hd : rowDev (row64 c (x 1)) = c := Fin.ext (by show (64 * c.val + (x 1).val) / 64 = c.val; omega)
  have hr : rowIn (row64 c (x 1)) = x 1 := Fin.ext (by show (64 * c.val + (x 1).val) % 64 = (x 1).val; omega)
  have hx : ix3 (0 : Fin 1) (x 1) (x 2) = x := by
    funext a
    apply Fin.ext
    revert a
    rw [Fin.forall_fin_succ, Fin.forall_fin_two]
    exact ⟨by show 0 = (x 0).val; omega, rfl, rfl⟩
  rw [h1, h2, hd, hr]
  exact (congrArg (blk0 m c) hx).trans rfl
theorem part3_spec (K : Dev nD × Fin 57 → ℕ) (v2 : BitVec 32) {Q : PUnit → sProp 𝕄} :
    iprop(records m K ∗ levAts L lv ∗ cred (tallyAt (barCell c) () 3) ∗ atPos ER (barCell c) 0 ∅ 0 ∗ owesX c 21
        ∗ owns (c : Thread nD τ) (Memref.whole cc0_stg0_0 : Memref sig .tc .vmem S64x1024 .f32) fullShare (X (F := F) m c)
        ∗ ptsE (F := F) (actsM 0 c) c)
      ⊢ iprop((∀ r, iprop(owesX c 21 ∗ atPos ER (barCell c) 1 ∅ 0
            ∗ ptsE (F := F) (actsM 0 c) (pr c 1) ∗ ptsE (F := F) (actsM 1 c) (pr c 1) ∗ ptsE (F := F) (actsM 2 c) (pr c 1) ∗ ptsE (F := F) (rsM 0 c) (pr c 1) ∗ ptsE (F := F) (rsM 1 c) (pr c 1) ∗ ptsE (F := F) (rsM 2 c) (pr c 1) ∗ ptsE (F := F) (outM c) (pr c 1)
            ∗ ptsE (F := F) (actsM 0 c) (pr c 2) ∗ ptsE (F := F) (actsM 1 c) (pr c 2) ∗ ptsE (F := F) (actsM 2 c) (pr c 2) ∗ ptsE (F := F) (rsM 0 c) (pr c 2) ∗ ptsE (F := F) (rsM 1 c) (pr c 2) ∗ ptsE (F := F) (rsM 2 c) (pr c 2) ∗ ptsE (F := F) (outM c) (pr c 2)
            ∗ ptsE (F := F) (actsM 0 c) (pr c 3) ∗ ptsE (F := F) (actsM 1 c) (pr c 3) ∗ ptsE (F := F) (actsM 2 c) (pr c 3) ∗ ptsE (F := F) (rsM 0 c) (pr c 3) ∗ ptsE (F := F) (rsM 1 c) (pr c 3) ∗ ptsE (F := F) (rsM 2 c) (pr c 3) ∗ ptsE (F := F) (outM c) (pr c 3)
            ∗ owns (c : Thread nD τ) (Memref.whole cc0_stg0_0 : Memref sig .tc .vmem S64x1024 .f32) fullShare (X (F := F) m c)
            ∗ pts (F := F) (actsM 0 c) c fullShare (actsB m)) -∗ Q r)
          -∗ wp frame (wpE (defs₀ (F := F)) 𝒱₀ (c : Thread nD τ) none) Set.univ (P3 (F := F) c v2 (SemArray.scalar (sig.barrier 0 rfl))) Q) := by
  unfold owesX P3 atArgs
  rw [k0_part3_eq_skeleton]
  unfold k0_part3_skel
  simp only [Prog.lift, Prog.bind_op, Prog.bind_ret, Prog.pure_eq_ret, semWaitWord]
  iintro ⟨#Hrec, #Hlev, Hc0, Hp0, ⟨%W, Ho⟩, Hx, E0⟩ HQ
  iapply (bar_wait m K c rfl (fun _ => Set.mem_univ _) W) $$ [$]
  unfold barPay
  iintro ⟨Ho, Hp0, -, ⟨B11, B12, B13, B14, B15, B16, B17⟩, ⟨B21, B22, B23, B24, B25, B26, B27⟩, B31, B32, B33, B34, B35, B36, B37⟩
  icases (Entails.of_eq (pv_owns_stg c fullShare (X (F := F) m c))) $$ Hx with ⟨%fx, %hfx, Hx⟩
  iapply (wp_load 𝒱₀ (c : Thread nD τ) none Set.univ (m := (Memref.whole cc0_stg0_0 : Memref sig .tc .vmem S64x1024 .f32))
    (S := Finset.univ) (q := fullShare) (f := fx) (Finset.subset_univ _)) $$ Hx
  iintro Hx
  have hv : (Memref.whole cc0_stg0_0 : Memref sig .tc .vmem S64x1024 .f32).view.readAt (Elt F)
      (Rect.unit (s := S64x1024) ![0, 0] S64x1024.size inb_S64x1024_S64x1024_0_0).toLoadRect fx = X (F := F) m c :=
    (Memref.readAt_unit_zero (Elt F) cc0_stg0_0 pv_off2 _ fx).trans hfx
  icases (Entails.of_eq (pv3_ptsE (actsM 0 c) c)) $$ E0 with ⟨%f0, E0⟩
  iapply (pv_own_load c f0 (k0_off1_eq c) (k0_off1_inb c)) $$ E0
  iintro %v64 E0
  iapply (wp_acts_own_store c 𝒱₀ none Set.univ 0 f0 (actsB m) _ (k0_off1_eq c) (k0_off1_inb c)
    (fun x i h0 h1 h2 => (pv_acts0_at m c x i h0 h1 h2).trans (congrFun (congrArg (k0_pay1 (F := F)) hv).symm x))) $$ E0
  iintro E0
  iapply (le_wp_ret _ _ _ _ Q)
  iapply HQ
  icases (Entails.of_eq (pv_owns_stg c fullShare (X (F := F) m c)).symm) $$ [Hx] with Hx
  · iexists fx
    isplitr; · ipureintro; exact hfx
    iexact Hx
  isplitl [Ho]; · iexists _; iexact Ho
  iframe

end Cert.KernelIdeal.Dist

end
-- ==== Proof.DBodyP50.lean ====
import proofs.«900988_g7700000000000989_dist_mlpseq_tp1d_bs_rep_b64_d1024_h2048_v7x_i4_f32_1_alg».proof.Proof.DBodyPL
import proofs.«900988_g7700000000000989_dist_mlpseq_tp1d_bs_rep_b64_d1024_h2048_v7x_i4_f32_1_alg».proof.Proof.DBodyVal
import proofs.«900988_g7700000000000989_dist_mlpseq_tp1d_bs_rep_b64_d1024_h2048_v7x_i4_f32_1_alg».proof.Proof.DBodyLocal
import proofs.«900988_g7700000000000989_dist_mlpseq_tp1d_bs_rep_b64_d1024_h2048_v7x_i4_f32_1_alg».proof.Proof.DBodySend

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section Steps

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

abbrev stgR : Rect S64x1024 := Rect.unit (s := S64x1024) ![0, 0] S64x1024.size inb_S64x1024_S64x1024_0_0

theorem stgR_off : (![0, 0] : Fin S64x1024.rank → Nat) = fun _ => 0 := by funext a; fin_cases a <;> rfl

theorem pts_stg_univ (q : PosShare TreeShare) (g : Vec F S64x1024 .f32) :
    pts (F := F) stgM c q g = (((c : Thread nD τ).loc cc0_scratch7) ↦{q} g : sProp (MT nD τ sig Unit (Elt F) ℕ UU ℕ)) := by
  unfold pts
  rw [View.set_whole]

theorem wp_stg_store (f w : Vec F S64x1024 .f32)
    {hl : (Memref.whole cc0_scratch7 : Memref sig .tc .vmem S64x1024 .f32).view.LoadsAt stgR.toLoadRect}
    {hx : ((Memref.whole cc0_scratch7 : Memref sig .tc .vmem S64x1024 .f32).access stgR).Stores Finset.univ}
    {hm : (Finset.univ : Finset stgR.shape.Idx) = Finset.univ ∨ ∀ a, stgR.stride a = 1}
    {k : PUnit → Prog (TpuEff nD τ sig (Elt F) Λ₀ .tc) α} :
    pts (F := F) stgM c fullShare f
      ⊢ iprop((pts (F := F) stgM c fullShare w -∗ wp frame (wpE' defs 𝒱 (c : Thread nD τ) bd Γ) E (k ⟨⟩) Q)
          -∗ wp frame (wpE' defs 𝒱 (c : Thread nD τ) bd Γ) E
              (.op (.load (Memref.whole cc0_scratch7) stgR.toLoadRect hl) fun _ =>
                .op (.store (Memref.whole cc0_scratch7) stgR w Finset.univ hx hm) k) Q) := by
  rw [pts_stg_univ, pts_stg_univ]
  iintro H Hk
  iapply (wp_load 𝒱 (c : Thread nD τ) bd E (m := (Memref.whole cc0_scratch7 : Memref sig .tc .vmem S64x1024 .f32)) (r := stgR.toLoadRect)
    (S := Finset.univ) (Finset.subset_univ _)) $$ H
  iintro H
  have e : ((Memref.whole cc0_scratch7 : Memref sig .tc .vmem S64x1024 .f32).access stgR).write (Elt F) f w Finset.univ = w :=
    Memref.write_access_unit_zero_univ (Elt F) cc0_scratch7 stgR_off _ f w
  have hst := wp_store (defs := defs) 𝒱 (c : Thread nD τ) bd (Γ := Γ) E (Q := Q) (m := (Memref.whole cc0_scratch7 : Memref sig .tc .vmem S64x1024 .f32))
    (r := stgR) (w := w) (Mk := Finset.univ) (hx := hx) (hm := hm) (k := k) (f := f) (S := Finset.univ) (Finset.subset_univ _)
  rw [e] at hst
  iapply hst $$ H
  iexact Hk

end Steps

theorem part50_spec_of (K : Dev nD × Fin 57 → ℕ) (v2 : BitVec 32) (v : FVec F S64x1024 .f32) (hv : v = sum2 m c)
    {Q : (Σ' (v1561 : BitVec 32) (c4_i32_1338 : BitVec 32), BitVec 32) → sProp 𝕄} :
    iprop(records m K ∗ levAts L lv ∗ owesX c 3
        ∗ pts (F := F) (rsM 2 (pr c 3)) c fullShare (rsB m c) ∗ ptsE (F := F) stgM c
        ∗ ptsE (F := F) (outM c) c ∗ dutyTok ER (outCell c) 0 c
        ∗ ptsE (F := F) (outM c) (pr c 3) ∗ pts (F := F) (psM c) (pr c 3) fullShare (psB m 2 (pr c 3))
        ∗ dutyTok ER (sndCell c 6 2) 0 c ∗ dutyTok ER (rcvCell (pr c 3) 6 c) 0 c)
      ⊢ iprop((∀ r, iprop(owesX c 2 ∗ pts (F := F) (rsM 2 (pr c 3)) c fullShare (rsB m c)
            ∗ pts (F := F) stgM c (q4 0) (outBlk m c) ∗ pts (F := F) stgM c (q4 1) (outBlk m c)
            ∗ cred (tallyAt (outCell c) () Nf) ∗ cred (tallyAt (sndCell c 6 2) () Nf)) -∗ Q r)
          -∗ wp frame (wpE (defs₀ (F := F)) 𝒱₀ (c : Thread nD τ) none) Set.univ (P50 (F := F) c v2 v) Q) := by
  subst hv
  unfold owesX P50 atArgs
  simp only [k0_part50_eq_skeleton, k0_part50_skel, Prog.lift, Prog.bind_op, Prog.bind_ret, Prog.pure_eq_ret, outc_sem, out_own c]
  iintro ⟨#Hrec, #Hlev, ⟨%W, Ho⟩, Hrs, Hstg, Hout, Htout, Houtp, Hlent, Htsnd, Htrcv⟩ HQ
  iapply (wp_rs_load m c 𝒱₀ none Set.univ 2 (pr c 3) fullShare (off33_3 c) (k0_off33_inb c 2)) $$ Hrs
  iintro Hrs
  ihave ⟨%f, Hstg⟩ := (ptsE_elim (F := F) stgM c) $$ Hstg
  iapply (wp_stg_store c 𝒱₀ none Set.univ f (outBlk m c)) $$ Hstg
  iintro Hstg
  ihave ⟨Hq0, Hq1, Hq2, Hq3⟩ := (pts_quarters (F := F) stgM c (outBlk m c)).1 $$ Hstg
  iapply (outcopy_step m K c) $$ [$]
  iintro Hcout
  iapply (wp_enq_of c rfl (dev22_eq c) rfl (congrArg SemLoc.dma snd_6_2) (congrArg SemLoc.dma (rcv6_own c)))
  iapply (out_send m K c 3 (by omega) (by omega) 2 2 W (rem_rcv c 6 0 3 rfl 2 rfl)) $$ [$Hrec Hq2 $Houtp $Hlent $Ho $Htsnd $Htrcv]
  · iexact Hq2
  iintro ⟨Hcsnd, Ho⟩
  iapply (le_wp_ret _ _)
  iapply HQ
  isplitl [Ho]; · iexists _; iexact Ho
  iframe

end Cert.KernelIdeal.Dist

end
-- ==== Proof.DBodyTail.lean ====
import proofs.«900988_g7700000000000989_dist_mlpseq_tp1d_bs_rep_b64_d1024_h2048_v7x_i4_f32_1_alg».proof.Proof.DBodyPW

namespace Cert.KernelIdeal.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem tail_printed_spec (K : Dev nD × Fin 57 → ℕ)
    {hs0 : (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024).view.WordExact}
    {hd0 : ((Memref.whole cc0_scratch2 : Memref sig .tc .vmem S256x1024 .bf16).slice (Rect.unit (s := S256x1024) (k0_off6 c 3#32) S64x1024.size (k0_off6_inb c 2)) (fun _ => rfl)).view.WordExact}
    {hs1 : (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024).view.WordExact}
    {hd1 : ((Memref.whole cc0_scratch2 : Memref sig .tc .vmem S256x1024 .bf16).slice (Rect.unit (s := S256x1024) (k0_off6 c 2#32) S64x1024.size (k0_off6_inb c 1)) (fun _ => rfl)).view.WordExact}
    {hs2 : ((Memref.whole main_v1 : Memref sig .tc .hbm S256x1024 .f32).slice (Rect.unit (s := S256x1024) (k0_off3 c) S64x1024.size (k0_off3_inb c)) (fun _ => rfl)).view.WordExact}
    {hd2 : (Memref.whole cc0_scratch7 : Memref sig .tc .vmem S64x1024 .f32).view.WordExact}
    {hs3 : ((Memref.whole main_v1 : Memref sig .tc .hbm S256x1024 .f32).slice (Rect.unit (s := S256x1024) (k0_off3 c) S64x1024.size (k0_off3_inb c)) (fun _ => rfl)).view.WordExact}
    {hd3 : (Memref.whole cc0_scratch7 : Memref sig .tc .vmem S64x1024 .f32).view.WordExact}
    {hs4 : ((Memref.whole main_v1 : Memref sig .tc .hbm S256x1024 .f32).slice (Rect.unit (s := S256x1024) (k0_off3 c) S64x1024.size (k0_off3_inb c)) (fun _ => rfl)).view.WordExact}
    {hd4 : (Memref.whole cc0_scratch7 : Memref sig .tc .vmem S64x1024 .f32).view.WordExact}
    {Q : PUnit → sProp 𝕄} :
    iprop(records m K ∗ levAts L lv ∗ owesX c 0 ∗ cred (tallyAt (sndCell c 5 2) () Nh) ∗ atPos ER (sndCell c 5 2) 0 ∅ 0
        ∗ cred (tallyAt (sndCell c 5 1) () Nh) ∗ atPos ER (sndCell c 5 1) 0 ∅ 0 ∗ cred (tallyAt (sndCell c 6 2) () Nf)
        ∗ atPos ER (sndCell c 6 2) 0 ∅ 0 ∗ cred (tallyAt (sndCell c 6 0) () Nf) ∗ atPos ER (sndCell c 6 0) 0 ∅ 0
        ∗ cred (tallyAt (sndCell c 6 1) () Nf) ∗ atPos ER (sndCell c 6 1) 0 ∅ 0)
      ⊢ iprop((∀ r, iprop(owesX c 0 ∗ atPos ER (sndCell c 5 2) 1 ∅ 0 ∗ atPos ER (sndCell c 5 1) 1 ∅ 0 ∗ atPos ER (sndCell c 6 2) 1 ∅ 0
            ∗ pts (F := F) stgM c (q4 2) (outBlk m c) ∗ atPos ER (sndCell c 6 0) 1 ∅ 0 ∗ pts (F := F) stgM c (q4 0) (outBlk m c)
            ∗ atPos ER (sndCell c 6 1) 1 ∅ 0 ∗ pts (F := F) stgM c (q4 1) (outBlk m c)) -∗ Q r)
          -∗ wp frame (wpE (defs₀ (F := F)) 𝒱₀ (c : Thread nD τ) none) Set.univ
            (.op (.waitDma2 ((cc0_scratch8.slice (Rect.unit (s := S7x3) ![5, 2] S1x1.size inb_S7x3_S1x1_5_2)).squeeze S_ squeezes_S1x1_S_).sem
                (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024)
                ((Memref.whole cc0_scratch2 : Memref sig .tc .vmem S256x1024 .bf16).slice (Rect.unit (s := S256x1024) (k0_off6 c 3#32) S64x1024.size (k0_off6_inb c 2)) (fun _ => rfl)) hs0 hd0) fun _ =>
              .op (.waitDma2 ((cc0_scratch8.slice (Rect.unit (s := S7x3) ![5, 1] S1x1.size inb_S7x3_S1x1_5_1)).squeeze S_ squeezes_S1x1_S_).sem
                (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024)
                ((Memref.whole cc0_scratch2 : Memref sig .tc .vmem S256x1024 .bf16).slice (Rect.unit (s := S256x1024) (k0_off6 c 2#32) S64x1024.size (k0_off6_inb c 1)) (fun _ => rfl)) hs1 hd1) fun _ =>
              .op (.waitDma2 ((cc0_scratch8.slice (Rect.unit (s := S7x3) ![6, 2] S1x1.size inb_S7x3_S1x1_6_2)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs2 hd2) fun _ =>
              .op (.waitDma2 ((cc0_scratch8.slice (Rect.unit (s := S7x3) ![6, 0] S1x1.size inb_S7x3_S1x1_6_0)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs3 hd3) fun _ =>
              .op (.waitDma2 ((cc0_scratch8.slice (Rect.unit (s := S7x3) ![6, 1] S1x1.size inb_S7x3_S1x1_6_1)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs4 hd4) fun _ =>
              .ret ⟨⟩) Q) := by
  simp only [rs2_own c, ps_p3 c, ps_p2 c, out_own c, snd_5_2, snd_5_1, snd_6_2, snd_6_0, snd_6_1]
  exact tail_spec m c K

end Cert.KernelIdeal.Dist
-- ==== Proof.DBody.lean ====
import proofs.«900988_g7700000000000989_dist_mlpseq_tp1d_bs_rep_b64_d1024_h2048_v7x_i4_f32_1_alg».proof.Proof.DXstg
import proofs.«900988_g7700000000000989_dist_mlpseq_tp1d_bs_rep_b64_d1024_h2048_v7x_i4_f32_1_alg».proof.Proof.DBodyClose
import proofs.«900988_g7700000000000989_dist_mlpseq_tp1d_bs_rep_b64_d1024_h2048_v7x_i4_f32_1_alg».proof.Proof.DBodyPC
import proofs.«900988_g7700000000000989_dist_mlpseq_tp1d_bs_rep_b64_d1024_h2048_v7x_i4_f32_1_alg».proof.Proof.DBodyPC2
import proofs.«900988_g7700000000000989_dist_mlpseq_tp1d_bs_rep_b64_d1024_h2048_v7x_i4_f32_1_alg».proof.Proof.DBodyPS
import proofs.«900988_g7700000000000989_dist_mlpseq_tp1d_bs_rep_b64_d1024_h2048_v7x_i4_f32_1_alg».proof.Proof.DBodyPS2
import proofs.«900988_g7700000000000989_dist_mlpseq_tp1d_bs_rep_b64_d1024_h2048_v7x_i4_f32_1_alg».proof.Proof.DBodyPM
import proofs.«900988_g7700000000000989_dist_mlpseq_tp1d_bs_rep_b64_d1024_h2048_v7x_i4_f32_1_alg».proof.Proof.DBodyPM2
import proofs.«900988_g7700000000000989_dist_mlpseq_tp1d_bs_rep_b64_d1024_h2048_v7x_i4_f32_1_alg».proof.Proof.DBodyPV
import proofs.«900988_g7700000000000989_dist_mlpseq_tp1d_bs_rep_b64_d1024_h2048_v7x_i4_f32_1_alg».proof.Proof.DBodyPV3
import proofs.«900988_g7700000000000989_dist_mlpseq_tp1d_bs_rep_b64_d1024_h2048_v7x_i4_f32_1_alg».proof.Proof.DBodyP50
import proofs.«900988_g7700000000000989_dist_mlpseq_tp1d_bs_rep_b64_d1024_h2048_v7x_i4_f32_1_alg».proof.Proof.DBodyTail

noncomputable section

namespace Cert.KernelIdeal.Dist

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem cfg0_N : cfg0.N = 1 := rfl

def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev xOwn (X : (cc0_stg0_0 : Ref sig .tc).ty.Contents (Elt F)) : sProp 𝕄 :=
  owns (Ix := Unit) (Name := ℕ) (U := UU) (Lvl := ℕ) (c : Thread nD τ) (Memref.whole cc0_stg0_0 : Memref sig .tc .vmem S64x1024 .f32) fullShare X

def bodyPre : sProp 𝕄 :=
  iprop(Φ₀ m c ∗ (dats m ρ 0 c).owesAt () t₀.castSucc ∗ (∃ d, xOwn (F := F) c ((dats m ρ 0 c).before (0 : Fin 1) t₀ d)))
def bodyPost : sProp 𝕄 :=
  iprop(Φ₁ m c ∗ (dats m ρ 0 c).owesAt () t₀.succ ∗ xOwn (F := F) c ((dats m ρ 0 c).after (0 : Fin 1) t₀))

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem barKit_open : barKit (F := F) c ⊢ iprop(dutyTok ER (barCell (pr c 1)) 0 c ∗ dutyTok ER (barCell (pr c 2)) 0 c
    ∗ dutyTok ER (barCell (pr c 3)) 0 c ∗ cred (tallyAt (barCell c) () 3) ∗ atPos ER (barCell c) 0 ∅ 0) := by
  unfold barKit; rw [bigSep_fin3]
  iintro ⟨⟨A, B, C⟩, D, E⟩
  isplitl [A]; · iexact A
  isplitl [B]; · iexact B
  isplitl [C]; · iexact C
  iframe

theorem sndKit_open (p : Fin 7) : sndKit (F := F) c p ⊢ iprop(
    (dutyTok ER (sndCell c p 0) 0 c ∗ atPos ER (sndCell c p 0) 0 ∅ 0 ∗ dutyTok ER (rcvCell (pr c 1) p c) 0 c)
    ∗ (dutyTok ER (sndCell c p 1) 0 c ∗ atPos ER (sndCell c p 1) 0 ∅ 0 ∗ dutyTok ER (rcvCell (pr c 2) p c) 0 c)
    ∗ (dutyTok ER (sndCell c p 2) 0 c ∗ atPos ER (sndCell c p 2) 0 ∅ 0 ∗ dutyTok ER (rcvCell (pr c 3) p c) 0 c)) := by
  exact Entails.of_eq (bigSep_fin3 _)

theorem rcvKit_open (p : Fin 7) (N : ℕ) (hN : amt p = N) : rcvKit (F := F) c p ⊢ iprop(
    (cred (tallyAt (rcvCell c p (pr c 1)) () N) ∗ atPos ER (rcvCell c p (pr c 1)) 0 ∅ 0)
    ∗ (cred (tallyAt (rcvCell c p (pr c 2)) () N) ∗ atPos ER (rcvCell c p (pr c 2)) 0 ∅ 0)
    ∗ (cred (tallyAt (rcvCell c p (pr c 3)) () N) ∗ atPos ER (rcvCell c p (pr c 3)) 0 ∅ 0)) := by
  subst hN
  exact Entails.of_eq (bigSep_fin3 _)

theorem wcpKit_open (l : Fin 3) : wcpKit (F := F) c l ⊢ iprop(
    (dutyTok ER (wcpCell c l 0) 0 c ∗ atPos ER (wcpCell c l 0) 0 ∅ 0)
    ∗ (dutyTok ER (wcpCell c l 1) 0 c ∗ atPos ER (wcpCell c l 1) 0 ∅ 0)) := by
  exact Entails.of_eq (bigSep_fin2 _)

theorem wts_open : wts m c ⊢ iprop(
    pts (F := F) (Memref.whole main_arg1 : Memref sig .tc .hbm S1024x2048 .f32) c fullShare (W1 (F := F) m 0 c)
    ∗ pts (F := F) (Memref.whole main_arg2 : Memref sig .tc .hbm S2048x1024 .f32) c fullShare (W2 (F := F) m 0 c)
    ∗ pts (F := F) (Memref.whole main_arg3 : Memref sig .tc .hbm S1024x2048 .f32) c fullShare (W1 (F := F) m 1 c)
    ∗ pts (F := F) (Memref.whole main_arg4 : Memref sig .tc .hbm S2048x1024 .f32) c fullShare (W2 (F := F) m 1 c)
    ∗ pts (F := F) (Memref.whole main_arg5 : Memref sig .tc .hbm S1024x2048 .f32) c fullShare (W1 (F := F) m 2 c)
    ∗ pts (F := F) (Memref.whole main_arg6 : Memref sig .tc .hbm S2048x1024 .f32) c fullShare (W2 (F := F) m 2 c)) := by
  unfold wts pts
  simp only [Memref.view_whole, View.set_whole]
  exact .rfl

theorem outKit_open : outKit (F := F) c ⊢ iprop(dutyTok ER (outCell c) 0 c ∗ atPos ER (outCell c) 0 ∅ 0) := by
  unfold outKit; exact .rfl

theorem owesAt_of_owesX : owesX (F := F) c 0 ⊢ (dats m ρ 0 c).owesAt () t₀.succ := by
  unfold owesX
  iintro ⟨%W, H⟩
  iexists W
  isplitr
  · ipureintro; exact fun x _ => Or.inl (Set.mem_univ x)
  · iexact H

set_option maxHeartbeats 4000000 in
theorem sound_body_upd : bodyPre m ρ c ⊢ wp frame (wpE (defs₀ (F := F)) 𝒱₀ (c : Thread nD τ) none) Set.univ (BODY (F := F))
    (fun _ => iprop(|={Set.univ}=> (Φ₁ m c ∗ (dats m ρ 0 c).owesAt () t₀.succ ∗ xOwn (F := F) c (X (F := F) m c)))) := by
  unfold BODY atArgs
  rw [cc0_body_eq_skeleton]; unfold cc0_body_skel
  rw [k0_part55_eq_skeleton]; unfold k0_part55_skel
  simp only [wp_bind, Prog.bind_assoc, Prog.lift, Prog.bind_op, Prog.bind_ret, Prog.pure_eq_ret]
  unfold bodyPre Φ₀
  simp only [before_eq m ρ c]
  iintro ⟨⟨Hst, Hsc⟩, Ho, ⟨%d, Hx⟩⟩
  ihave Hinv := (opening m c ρ t₀.castSucc rfl) $$ [$]
  icases Hinv with ⟨%K, Hinv⟩
  unfold inventory
  icases Hinv with ⟨#Hrec, #Hlev, Hbar, Hph, Hwc, Hout, Hidle, Hwts, Ho, Bp1, Bp2, Bp3, A0, A1, A2, R0, R1, R2,
    S0, S1, S2, S3, V10, V11, V20, V21, B10, B11, B20, B21, Hstg, Hoc⟩

  icases (barKit_open c) $$ Hbar with ⟨Tb1, Tb2, Tb3, Cb, Pb⟩
  ihave Hph := (Entails.of_eq (bigSep_seven _)) $$ Hph
  ihave Hwc := (Entails.of_eq (bigSep_fin3 _)) $$ Hwc
  icases Hph with ⟨⟨Ks0, Kr0⟩, ⟨Ks1, Kr1⟩, ⟨Ks2, Kr2⟩, ⟨Ks3, Kr3⟩, ⟨Ks4, Kr4⟩, ⟨Ks5, Kr5⟩, ⟨Ks6, Kr6⟩⟩
  icases Hwc with ⟨Kw0, Kw1, Kw2⟩
  icases (wcpKit_open c 0) $$ Kw0 with ⟨⟨Tw00, Pw00⟩, ⟨Tw01, Pw01⟩⟩
  icases (wcpKit_open c 1) $$ Kw1 with ⟨⟨Tw10, Pw10⟩, ⟨Tw11, Pw11⟩⟩
  icases (wcpKit_open c 2) $$ Kw2 with ⟨⟨Tw20, Pw20⟩, ⟨Tw21, Pw21⟩⟩
  icases (wts_open m c) $$ Hwts with ⟨Wa1, Wa2, Wa3, Wa4, Wa5, Wa6⟩

  iapply (part1_spec m c K) $$ [$]
  iintro %r1 ⟨%h1, Cw00, Cw01, Cw10, Cw11⟩
  obtain ⟨d0, v2, v19, v22, v23, v24, v25, c0w⟩ := r1
  obtain ⟨hd0, hv19⟩ := h1
  dsimp only at hd0 hv19
  subst d0 v19

  iapply (part2_spec m c K _ _ bar_sem) $$ [$]
  iintro %r2 Ho

  iapply (part3_spec m c K) $$ [$]
  iintro %r3 ⟨Ho, Pb, La10, La11, La12, Lr10, Lr11, Lr12, Lo1, La20, La21, La22, Lr20, Lr21, Lr22, Lo2,
    La30, La31, La32, Lr30, Lr31, Lr32, Lo3, Hx, A0⟩
  ihave A0 := (pts_quarters (actsM 0 c) c (actsB m)).1 $$ A0
  icases A0 with ⟨A0q0, A0q1, A0q2, A0q3⟩

  icases (sndKit_open c 0) $$ Ks0 with ⟨⟨Ts00, Ps00, Tr00⟩, ⟨Ts01, Ps01, Tr01⟩, ⟨Ts02, Ps02, Tr02⟩⟩
  iapply (part4_spec m c K) $$ [$]
  iintro %r4 ⟨Cs02, Cs00, Ho⟩
  iapply (part5_spec m c K) $$ [$]
  iintro %r5 ⟨Ho, Cs01, Pw00, V10, Wa1, Pw01, V20, Wa2⟩

  iapply (part6_spec m c K) $$ [$]
  iintro %r6 ⟨%h6, B10, B20, Cw20, Cw21⟩
  obtain ⟨v171, v173, v174, c4a, c0a⟩ := r6
  obtain ⟨h6a, h6b⟩ := h6
  dsimp only at h6a h6b
  subst v171 v173

  icases (rcvKit_open c 0 Nh rfl) $$ Kr0 with ⟨⟨Cr01, Pr01⟩, ⟨Cr02, Pr02⟩, ⟨Cr03, Pr03⟩⟩
  iapply (part7_spec m c K) $$ [$]
  iintro %r7 ⟨Ho, Pr01, A0p1⟩
  iapply (part8_spec m c K) $$ [$]
  iintro %r8 ⟨Ho, Pr03, A0p3⟩
  iapply (part9_spec m c K) $$ [$]
  iintro %r9
  iapply (part10_spec m c K) $$ [$]
  iintro %r10 ⟨Ho, Pr02, A0q3, A0p1, A0p2, A0p3, S0, S1, S2, S3⟩

  icases (sndKit_open c 1) $$ Ks1 with ⟨⟨Ts10, Ps10, Tr10⟩, ⟨Ts11, Ps11, Tr11⟩, ⟨Ts12, Ps12, Tr12⟩⟩
  iapply (part11_spec m c K) $$ [$]
  iintro %r11 ⟨Cs10, Ho⟩
  iapply (part12_spec m c K) $$ [$]
  iintro %r12 ⟨Cs12, Ho⟩
  iapply (part13_spec m c K) $$ [$]
  iintro %r13 ⟨Ho, Cs11, Pw10, Pw11, V11, Wa3, V21, Wa4, B11, B21⟩

  iapply (part14_spec m c K) $$ [$]
  iintro %r14 ⟨Ho, Ps02, A0q2, Ps00, A0q0⟩
  icases (rcvKit_open c 1 Nh rfl) $$ Kr1 with ⟨⟨Cr11, Pr11⟩, ⟨Cr12, Pr12⟩, ⟨Cr13, Pr13⟩⟩
  iapply (part15_spec m c K) $$ [$]
  iintro %r15 ⟨Ho, Ps01, A0q1, Pr11, R0p1, X0p1⟩
  iapply (part16_spec m c K) $$ [$]
  iintro %r16 ⟨Ho, Pr13, R0p3, X0p3⟩
  iapply (part17_spec m c K) $$ [$]
  iintro %r17 ⟨Ho, Pr12, R0p2, X0p2, S0, %h17⟩

  iapply (part18_spec m c K _ r17.1) $$ [$]
  iintro %r18 ⟨R0p1, R0p2, %h18⟩
  have hv19 : r18.1 = sum0 m c := by rw [h18, h17]; rfl
  iapply (part19_spec m c K _ r18.1 hv19) $$ [$]
  iintro %r19 ⟨R0p3, A1⟩
  ihave A1 := (pts_quarters (actsM 1 c) c (actsB m)).1 $$ A1
  icases A1 with ⟨A1q0, A1q1, A1q2, A1q3⟩

  icases (sndKit_open c 2) $$ Ks2 with ⟨⟨Ts20, Ps20, Tr20⟩, ⟨Ts21, Ps21, Tr21⟩, ⟨Ts22, Ps22, Tr22⟩⟩
  iapply (part20_spec m c K) $$ [$]
  iintro %r20 ⟨Cs22, Ho⟩
  iapply (part21_spec m c K) $$ [$]
  iintro %r21 ⟨Cs20, Cs21, B11, Ho, %h21⟩
  iapply (part22_spec m c K) $$ [$]
  iintro %r22 ⟨B21, %h22⟩
  subst r21 r22

  icases (rcvKit_open c 2 Nh rfl) $$ Kr2 with ⟨⟨Cr21, Pr21⟩, ⟨Cr22, Pr22⟩, ⟨Cr23, Pr23⟩⟩
  iapply (part23_spec m c K) $$ [$]
  iintro %r23 ⟨Ho, Pr21, A1p1, S1⟩
  iapply (part24_spec m c K) $$ [$]
  iintro %r24 ⟨Ho, Pr23, A1p3, S3⟩
  iapply (part25_spec m c K) $$ [$]
  iintro %r25 ⟨Ho, Pr22, A1q3, A1p1, A1p2, A1p3, S0, S1, S2, S3⟩

  icases (sndKit_open c 3) $$ Ks3 with ⟨⟨Ts30, Ps30, Tr30⟩, ⟨Ts31, Ps31, Tr31⟩, ⟨Ts32, Ps32, Tr32⟩⟩
  iapply (part26_spec m c K) $$ [$]
  iintro %r26 ⟨Cs30, Ho⟩
  iapply (part27_spec m c K) $$ [$]
  iintro %r27 ⟨Cs32, Ho⟩
  iapply (part28_spec m c K) $$ [$]
  iintro %r28 ⟨%h28, Ho, Cs31, Pw20, Pw21, V10, Wa5, V20, Wa6, B10⟩
  iapply (part29_spec m c K r28 h28) $$ [$]
  iintro %r29 ⟨Ho, B20, Ps10, Ps12, Ps11⟩
  iapply (part30_spec m c K) $$ [$]
  iintro %r30 ⟨Ho, Ps22, A1q2, Ps20, A1q0, Ps21, A1q1⟩

  icases (rcvKit_open c 3 Nh rfl) $$ Kr3 with ⟨⟨Cr31, Pr31⟩, ⟨Cr32, Pr32⟩, ⟨Cr33, Pr33⟩⟩
  iapply (part31_spec m c K) $$ [$]
  iintro %r31 ⟨Ho, Pr31, R1p1, X1p1⟩
  iapply (part32_spec m c K) $$ [$]
  iintro %r32 ⟨Ho, Pr33, R1p3, X1p3⟩
  iapply (part33_spec m c K) $$ [$]
  iintro %r33 ⟨Ho, Pr32, R1p2, X1p2, S0, %h33⟩
  iapply (part34_spec m c K _ r33.1) $$ [$]
  iintro %r34 ⟨R1p1, R1p2, R1p3, %h34⟩
  have hv35 : r34.1 = sum1 m c := by rw [h34.1, h33]; rfl
  iapply (part35_spec m c K _ r34.1 hv35 r34.2 h34.2) $$ [$]
  iintro %r35 A2
  ihave A2 := (pts_quarters (actsM 2 c) c (actsB m)).1 $$ A2
  icases A2 with ⟨A2q0, A2q1, A2q2, A2q3⟩

  icases (sndKit_open c 4) $$ Ks4 with ⟨⟨Ts40, Ps40, Tr40⟩, ⟨Ts41, Ps41, Tr41⟩, ⟨Ts42, Ps42, Tr42⟩⟩
  iapply (part36_spec m c K) $$ [$]
  iintro %r36 ⟨Cs42, Cs40, Ho⟩
  iapply (part37_spec m c K) $$ [$]
  iintro %r37 ⟨Cs41, B10, B20, Ho, %h37⟩
  obtain ⟨v1144, v1146, v1149, v1150⟩ := r37
  obtain ⟨h37a, h37b⟩ := h37
  dsimp only at h37a h37b
  subst v1144 v1146

  icases (rcvKit_open c 4 Nh rfl) $$ Kr4 with ⟨⟨Cr41, Pr41⟩, ⟨Cr42, Pr42⟩, ⟨Cr43, Pr43⟩⟩
  iapply (part38_spec m c K) $$ [$]
  iintro %r38 ⟨Ho, Pr41, A2p1, S1⟩
  iapply (part39_spec m c K) $$ [$]
  iintro %r39 ⟨Ho, Pr43, A2p3, S3⟩
  iapply (part40_spec m c K) $$ [$]
  iintro %r40 ⟨Ho, Pr42, A2p2, S2⟩
  iapply (part41_spec m c K) $$ [$]
  iintro %r41 ⟨A2q3, A2p1, A2p2, A2p3, S0, S1, S2, S3⟩

  icases (sndKit_open c 5) $$ Ks5 with ⟨⟨Ts50, Ps50, Tr50⟩, ⟨Ts51, Ps51, Tr51⟩, ⟨Ts52, Ps52, Tr52⟩⟩
  iapply (part42_spec m c K) $$ [$]
  iintro %r42 ⟨Cs50, Ho⟩
  iapply (part43_spec m c K) $$ [$]
  iintro %r43 ⟨Cs52, Ho⟩
  iapply (part44_spec m c K) $$ [$]
  iintro %r44 ⟨Cs51, Ps30, Ps32, Ps31, Ho⟩
  iapply (part45_spec m c K) $$ [$]
  iintro %r45 ⟨Ho, Ps42, A2q2, Ps40, A2q0, Ps41, A2q1⟩

  icases (rcvKit_open c 5 Nh rfl) $$ Kr5 with ⟨⟨Cr51, Pr51⟩, ⟨Cr52, Pr52⟩, ⟨Cr53, Pr53⟩⟩
  iapply (part46_spec m c K) $$ [$]
  iintro %r46 ⟨Ho, Pr51, R2p1, X2p1⟩
  iapply (part47_spec m c K) $$ [$]
  iintro %r47 ⟨Ho, Pr53, R2p3, X2p3⟩
  iapply (part48_spec m c K) $$ [$]
  iintro %r48 ⟨Ho, Pr52, R2p2, X2p2, S0, %h48⟩
  iapply (part49_spec m c K _ r48.1) $$ [$]
  iintro %r49 ⟨R2p1, R2p2, %h49⟩
  have hv50 : r49 = sum2 m c := by rw [h49, h48]; rfl

  icases (sndKit_open c 6) $$ Ks6 with ⟨⟨Ts60, Ps60, Tr60⟩, ⟨Ts61, Ps61, Tr61⟩, ⟨Ts62, Ps62, Tr62⟩⟩
  icases (outKit_open c) $$ Hout with ⟨Tout, Pout⟩
  iapply (part50_spec_of m c K _ r49 hv50) $$ [$]
  iintro %r50 ⟨Ho, R2p3, Gq0, Gq1, Cout, Cs62⟩
  iapply (part51_spec m c K) $$ [$]
  iintro %r51 ⟨Cs60, Ho⟩
  icases (rcvKit_open c 6 Nf rfl) $$ Kr6 with ⟨⟨Cr61, Pr61⟩, ⟨Cr62, Pr62⟩, ⟨Cr63, Pr63⟩⟩
  iapply (part52_spec m c K) $$ [$]
  iintro %r52 ⟨Cs61, Pr61, O1, S1, Ho⟩
  iapply (part53_spec m c K) $$ [$]
  iintro %r53 ⟨Ho, Pr63, O3, S3⟩
  iapply (part54_spec m c K) $$ [$]
  iintro %r54 ⟨Ho, Pr62, O2, S2, Pout, O0, Gq3, Ps50⟩

  iapply (tail_printed_spec m c K) $$ [$]
  iintro %rt ⟨Ho, Ps52, Ps51, Ps62, Gq2, Ps60, Gq0, Ps61, Gq1⟩

  have hcl := closing m c K
  unfold finalInv at hcl
  imod hcl $$ [$] with ⟨HΦ, Ho⟩
  imodintro
  iframe HΦ Hx
  iapply (owesAt_of_owesX m ρ c) $$ Ho

theorem sound_body : bodyPre m ρ c ⊢ wp frame (wpE (defs₀ (F := F)) 𝒱₀ (c : Thread nD τ) none) Set.univ (BODY (F := F))
    (fun _ => bodyPost m ρ c) := by
  unfold bodyPost
  rw [after_eq m ρ c]
  exact (sound_body_upd m ρ c).trans (wp_fupd _ _ _ _ _)

theorem body_obligation : BodyObligation (dats (F := F) m ρ 0 c) (defs₀ (F := F)) 𝒱₀ () Set.univ := fun t => by
  rw [fin_N t]
  rw [bigSep_W0, bigSep_W0]
  exact sound_body m ρ c

end Cert.KernelIdeal.Dist

end
-- ==== Proof.BVals.lean ====
import proofs.«900988_g7700000000000989_dist_mlpseq_tp1d_bs_rep_b64_d1024_h2048_v7x_i4_f32_1_alg».proof.Proof.Gen.Kernel.Frame
import proofs.«900988_g7700000000000989_dist_mlpseq_tp1d_bs_rep_b64_d1024_h2048_v7x_i4_f32_1_alg».proof.Proof.Gen.Kernel.Skeleton
import Idealize.ShloMosaic.Lib.ValueIdx
noncomputable section

namespace Cert.Kernel.Dist

open Idealize.ShloMosaic Idealize.ShloMosaic.TcCoe Idealize.SL.Sem
open Idealize.ShloMosaic.ValueIdx
open Gen

variable {F : FTy → Type} [FloatOps F]
variable (m : (ℓ : Loc nD τ sig) → Buf (Elt F) ℓ)

def pr (c : Dev nD) (o : Nat) : Dev nD := ⟨(c.val + o) % 4, Nat.mod_lt _ (by decide)⟩

def row64 (c : Dev nD) (r : Fin 64) : Fin 256 := ⟨64 * c.val + r.val, by have h4 : c.val < 4 := c.isLt; have := r.isLt; omega⟩

def rowDev (R : Fin 256) : Dev nD := ⟨R.val / 64, show R.val / 64 < 4 by have := R.isLt; omega⟩
def rowIn (R : Fin 256) : Fin 64 := ⟨R.val % 64, Nat.mod_lt _ (by decide)⟩

abbrev X (s : Dev nD) : Vec F S64x1024 .f32 := m ((s : Thread nD τ).loc main_arg0)
abbrev W1 (l : Fin 3) (s : Dev nD) : Vec F S1024x2048 .f32 :=
  match l with
  | 0 => m ((s : Thread nD τ).loc main_arg1)
  | 1 => m ((s : Thread nD τ).loc main_arg3)
  | 2 => m ((s : Thread nD τ).loc main_arg5)
abbrev W2 (l : Fin 3) (s : Dev nD) : Vec F S2048x1024 .f32 :=
  match l with
  | 0 => m ((s : Thread nD τ).loc main_arg2)
  | 1 => m ((s : Thread nD τ).loc main_arg4)
  | 2 => m ((s : Thread nD τ).loc main_arg6)

def up1024x2048 {e : EltTy} (v : Vec F S1024x2048 e) : Vec F S1x1024x2048 e := fun i => v (ix2 (i 1) (i 2))
def up2048x1024 {e : EltTy} (v : Vec F S2048x1024 e) : Vec F S1x2048x1024 e := fun i => v (ix2 (i 1) (i 2))

def wb1 (l : Fin 3) (s : Dev nD) : FVec F S1024x2048 .bf16 :=
  match l with
  | 0 => k0_pay4 (k0_pay2 (up1024x2048 (W1 (F := F) m 0 s)))
  | 1 => k0_pay12 (k0_pay7 (up1024x2048 (W1 (F := F) m 1 s)))
  | 2 => k0_pay21 (k0_pay15 (up1024x2048 (W1 (F := F) m 2 s)))
def wb2 (l : Fin 3) (s : Dev nD) : FVec F S2048x1024 .bf16 :=
  match l with
  | 0 => k0_pay5 (k0_pay3 (up2048x1024 (W2 (F := F) m 0 s)))
  | 1 => k0_pay13 (k0_pay8 (up2048x1024 (W2 (F := F) m 1 s)))
  | 2 => k0_pay22 (k0_pay17 (k0_pay16 (up2048x1024 (W2 (F := F) m 2 s))))

def ownRows (p : Vec F S256x1024 .bf16) (c : Dev nD) : Vec F S64x1024 .bf16 := fun i => p (ix2 (row64 c (i 0)) (i 1))
def rsBlk (p : Vec F S256x1024 .bf16) (c : Dev nD) : Vec F S1x1x64x1024 .bf16 := fun i => p (ix2 (row64 c (i 2)) (i 3))

def gather (b : Dev nD → Vec F S1x64x1024 .bf16) : Vec F S1x256x1024 .bf16 :=
  fun i => b (rowDev (i 1)) (ix3 (0 : Fin 1) (rowIn (i 1)) (i 2))

def blk0 (s : Dev nD) : Vec F S1x64x1024 .bf16 := k0_pay1 (X (F := F) m s)
def act0 : Vec F S1x256x1024 .bf16 := gather (blk0 m)
def ps0 (s : Dev nD) : Vec F S256x1024 .bf16 := k0_pay6 (wb1 m 0 s) (wb2 m 0 s) (act0 m)
def sum0 (c : Dev nD) : FVec F S64x1024 .f32 :=
  k0_pay10 (k0_pay9 (ownRows (ps0 m c) c)) (rsBlk (ps0 m (pr c 1)) c) (rsBlk (ps0 m (pr c 2)) c)

def blk1 (c : Dev nD) : Vec F S1x64x1024 .bf16 := k0_pay11 (sum0 m c) (rsBlk (ps0 m (pr c 3)) c)
def act1 : Vec F S1x256x1024 .bf16 := gather (blk1 m)
def ps1 (s : Dev nD) : Vec F S256x1024 .bf16 := k0_pay14 (wb1 m 1 s) (wb2 m 1 s) (act1 m)
def sum1 (c : Dev nD) : FVec F S64x1024 .f32 :=
  k0_pay19 (k0_pay18 (ownRows (ps1 m c) c)) (rsBlk (ps1 m (pr c 1)) c) (rsBlk (ps1 m (pr c 2)) c)

def blk2 (c : Dev nD) : Vec F S1x64x1024 .bf16 := k0_pay20 (sum1 m c) (rsBlk (ps1 m (pr c 3)) c)
def act2 : Vec F S1x256x1024 .bf16 := gather (blk2 m)
def ps2 (s : Dev nD) : Vec F S256x1024 .bf16 := k0_pay23 (wb1 m 2 s) (wb2 m 2 s) (act2 m)
def sum2 (c : Dev nD) : FVec F S64x1024 .f32 :=
  k0_pay25 (k0_pay24 (ownRows (ps2 m c) c)) (rsBlk (ps2 m (pr c 1)) c) (rsBlk (ps2 m (pr c 2)) c)

def outBlk (c : Dev nD) : FVec F S64x1024 .f32 := k0_pay26 (sum2 m c) (rsBlk (ps2 m (pr c 3)) c)

def outAll : Vec F S256x1024 .f32 := fun i => outBlk m (rowDev (i 0)) (ix2 (rowIn (i 0)) (i 1))

end Cert.Kernel.Dist

end
-- ==== Proof.BProto.lean ====
import proofs.«900988_g7700000000000989_dist_mlpseq_tp1d_bs_rep_b64_d1024_h2048_v7x_i4_f32_1_alg».proof.Proof.BVals
import Idealize.ShloMosaic.Lib.Pipeline.Launch
import Idealize.ShloMosaic.Lib.Pipeline.Kit
import Idealize.ShloMosaic.Lib.Tactic

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem pr_ne (c : Dev nD) (o : Nat) (h1 : 0 < o) (h4 : o < 4) : pr c o ≠ c := by
  interval_cases o <;> revert c <;> decide

theorem dev1_eq (c : Dev nD) : (⟨k0_dev1 c, k0_dev1_lt c⟩ : Dev nD) = pr c 1 := by revert c; decide +kernel
theorem dev2_eq (c : Dev nD) : (⟨k0_dev2 c, k0_dev2_lt c⟩ : Dev nD) = pr c 2 := by revert c; decide +kernel
theorem dev3_eq (c : Dev nD) : (⟨k0_dev3 c, k0_dev3_lt c⟩ : Dev nD) = pr c 3 := by revert c; decide +kernel
theorem dev4_eq (c : Dev nD) : (⟨k0_dev4 c, k0_dev4_lt c⟩ : Dev nD) = pr c 3 := by revert c; decide +kernel
theorem dev5_eq (c : Dev nD) : (⟨k0_dev5 c, k0_dev5_lt c⟩ : Dev nD) = pr c 1 := by revert c; decide +kernel
theorem dev6_eq (c : Dev nD) : (⟨k0_dev6 c, k0_dev6_lt c⟩ : Dev nD) = pr c 2 := by revert c; decide +kernel
theorem dev7_eq (c : Dev nD) : (⟨k0_dev7 c, k0_dev7_lt c⟩ : Dev nD) = pr c 1 := by revert c; decide +kernel
theorem dev8_eq (c : Dev nD) : (⟨k0_dev8 c, k0_dev8_lt c⟩ : Dev nD) = pr c 3 := by revert c; decide +kernel
theorem dev9_eq (c : Dev nD) : (⟨k0_dev9 c, k0_dev9_lt c⟩ : Dev nD) = pr c 2 := by revert c; decide +kernel

theorem dev10_eq (c : Dev nD) : (⟨k0_dev10 c, k0_dev10_lt c⟩ : Dev nD) = pr c 3 := by revert c; decide +kernel
theorem dev11_eq (c : Dev nD) : (⟨k0_dev11 c, k0_dev11_lt c⟩ : Dev nD) = pr c 1 := by revert c; decide +kernel
theorem dev12_eq (c : Dev nD) : (⟨k0_dev12 c, k0_dev12_lt c⟩ : Dev nD) = pr c 2 := by revert c; decide +kernel
theorem dev13_eq (c : Dev nD) : (⟨k0_dev13 c, k0_dev13_lt c⟩ : Dev nD) = pr c 1 := by revert c; decide +kernel
theorem dev14_eq (c : Dev nD) : (⟨k0_dev14 c, k0_dev14_lt c⟩ : Dev nD) = pr c 3 := by revert c; decide +kernel
theorem dev15_eq (c : Dev nD) : (⟨k0_dev15 c, k0_dev15_lt c⟩ : Dev nD) = pr c 2 := by revert c; decide +kernel
theorem dev16_eq (c : Dev nD) : (⟨k0_dev16 c, k0_dev16_lt c⟩ : Dev nD) = pr c 3 := by revert c; decide +kernel
theorem dev17_eq (c : Dev nD) : (⟨k0_dev17 c, k0_dev17_lt c⟩ : Dev nD) = pr c 1 := by revert c; decide +kernel
theorem dev18_eq (c : Dev nD) : (⟨k0_dev18 c, k0_dev18_lt c⟩ : Dev nD) = pr c 2 := by revert c; decide +kernel
theorem dev19_eq (c : Dev nD) : (⟨k0_dev19 c, k0_dev19_lt c⟩ : Dev nD) = pr c 1 := by revert c; decide +kernel
theorem dev20_eq (c : Dev nD) : (⟨k0_dev20 c, k0_dev20_lt c⟩ : Dev nD) = pr c 3 := by revert c; decide +kernel
theorem dev21_eq (c : Dev nD) : (⟨k0_dev21 c, k0_dev21_lt c⟩ : Dev nD) = pr c 2 := by revert c; decide +kernel
theorem dev22_eq (c : Dev nD) : (⟨k0_dev22 c, k0_dev22_lt c⟩ : Dev nD) = pr c 3 := by revert c; decide +kernel
theorem dev23_eq (c : Dev nD) : (⟨k0_dev23 c, k0_dev23_lt c⟩ : Dev nD) = pr c 1 := by revert c; decide +kernel
theorem dev24_eq (c : Dev nD) : (⟨k0_dev24 c, k0_dev24_lt c⟩ : Dev nD) = pr c 2 := by revert c; decide +kernel

abbrev barS : Sem sig := (SemArray.scalar (sig.barrier 0 rfl) : Sems sig S_).sem

def sndS (p : Fin 7) (j : Fin 3) : DmaSem sig := ⟨1 + 3 * p.val + j.val, by have := p.isLt; have := j.isLt; show _ < 57; omega⟩
def rcvS (p : Fin 7) (s : Dev nD) : DmaSem sig := ⟨22 + 4 * p.val + s.val, by have := p.isLt; have h4 : s.val < 4 := s.isLt; show _ < 57; omega⟩
def wcpS (l : Fin 3) (j : Fin 2) : DmaSem sig := ⟨50 + 2 * l.val + j.val, by have := l.isLt; have := j.isLt; show _ < 57; omega⟩
def outS : DmaSem sig := ⟨56, by show _ < 57; omega⟩

abbrev barCell (c : Dev nD) : GSem nD τ sig := ((c : Thread nD τ), .reg barS)
abbrev sndCell (c : Dev nD) (p : Fin 7) (j : Fin 3) : GSem nD τ sig := ((c : Thread nD τ), .dma (sndS p j))
abbrev rcvCell (c : Dev nD) (p : Fin 7) (s : Dev nD) : GSem nD τ sig := ((c : Thread nD τ), .dma (rcvS p s))

theorem acts_inb (l : Fin 3) (s : Dev nD) : ∀ a, (![l.val, 64 * s.val, 0] : Fin 3 → Nat) a + S1x64x1024.size a ≤ S3x256x1024.size a := by
  revert l s; decide

def actsM (l : Fin 3) (s : Dev nD) : Memref sig .tc .vmem S64x1024 .bf16 :=
  ((Memref.whole cc0_scratch0 : Memref sig .tc .vmem S3x256x1024 .bf16).slice (Rect.unit (s := S3x256x1024) ![l.val, 64 * s.val, 0] S1x64x1024.size (acts_inb l s)) (fun _ => rfl)).squeeze S64x1024 squeezes_S1x64x1024_S64x1024

theorem rs_inb (l : Fin 3) (s : Dev nD) : ∀ a, (![l.val, s.val, 0, 0] : Fin 4 → Nat) a + S1x1x64x1024.size a ≤ S3x4x64x1024.size a := by
  revert l s; decide

def rsM (l : Fin 3) (s : Dev nD) : Memref sig .tc .vmem S64x1024 .bf16 :=
  ((Memref.whole cc0_scratch1 : Memref sig .tc .vmem S3x4x64x1024 .bf16).slice (Rect.unit (s := S3x4x64x1024) ![l.val, s.val, 0, 0] S1x1x64x1024.size (rs_inb l s)) (fun _ => rfl)).squeeze S64x1024 squeezes_S1x1x64x1024_S64x1024

theorem rows_inb (s : Dev nD) : ∀ a, (![64 * s.val, 0] : Fin 2 → Nat) a + S64x1024.size a ≤ S256x1024.size a := by
  revert s; decide

def psM (s : Dev nD) : Memref sig .tc .vmem S64x1024 .bf16 :=
  (Memref.whole cc0_scratch2 : Memref sig .tc .vmem S256x1024 .bf16).slice (Rect.unit (s := S256x1024) ![64 * s.val, 0] S64x1024.size (rows_inb s)) (fun _ => rfl)
def outM (s : Dev nD) : Memref sig .tc .hbm S64x1024 .f32 :=
  (Memref.whole main_v1 : Memref sig .tc .hbm S256x1024 .f32).slice (Rect.unit (s := S256x1024) ![64 * s.val, 0] S64x1024.size (rows_inb s)) (fun _ => rfl)

abbrev stgM : Memref sig .tc .vmem S64x1024 .f32 := Memref.whole cc0_scratch7

abbrev Nh : ℕ := (actsM 0 0).view.dmaCredit
abbrev Nf : ℕ := (stgM).view.dmaCredit
variable (m : (ℓ : Loc nD τ sig) → Buf (Elt F) ℓ)

def actsB : Vec F S3x256x1024 .bf16 := fun i =>
  if (i 0).val = 0 then act0 m (ix3 (0 : Fin 1) (i 1) (i 2))
  else if (i 0).val = 1 then act1 m (ix3 (0 : Fin 1) (i 1) (i 2))
  else act2 m (ix3 (0 : Fin 1) (i 1) (i 2))

def psB (l : Fin 3) (s : Dev nD) : Vec F S256x1024 .bf16 :=
  match l with | 0 => ps0 m s | 1 => ps1 m s | 2 => ps2 m s

def rsB (c : Dev nD) : Vec F S3x4x64x1024 .bf16 := fun i => psB m (i 0) (i 1) (ix2 (row64 c (i 2)) (i 3))

def pts {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

def ptsE {sp : Space} {s : Shape} {e : EltTy} (M : Memref sig .tc sp s e) (d : Dev nD) : sProp 𝕄 :=
  iprop(∃ f : Buf (Elt F) (M.view.loc (d : Thread nD τ)), M.view.loc (d : Thread nD τ) ↦[M.view.set]{fullShare} f)

def q4 (j : Fin 4) : PosShare TreeShare :=
  match j with | 0 => fullShare.left.left | 1 => fullShare.left.right | 2 => fullShare.right.left | 3 => fullShare.right.right

def wv1M (b : Fin 2) : Memref sig .tc .vmem S1024x2048 .f32 :=
  match b with
  | 0 => ((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048
  | 1 => ((Memref.whole cc0_scratch3 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048
def wv2M (b : Fin 2) : Memref sig .tc .vmem S2048x1024 .f32 :=
  match b with
  | 0 => ((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
  | 1 => ((Memref.whole cc0_scratch4 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024
abbrev Nw : ℕ := (wv1M 0).view.dmaCredit

def wv1B (l : Fin 3) (c : Dev nD) : Vec F S2x1024x2048 .f32 := fun i => W1 (F := F) m l c (ix2 (i 1) (i 2))
def wv2B (l : Fin 3) (c : Dev nD) : Vec F S2x2048x1024 .f32 := fun i => W2 (F := F) m l c (ix2 (i 1) (i 2))

def barPay (c d : Dev nD) : sProp 𝕄 :=
  iprop(ptsE (F := F) (actsM 0 c) d ∗ ptsE (F := F) (actsM 1 c) d ∗ ptsE (F := F) (actsM 2 c) d
    ∗ ptsE (F := F) (rsM 0 c) d ∗ ptsE (F := F) (rsM 1 c) d ∗ ptsE (F := F) (rsM 2 c) d ∗ ptsE (F := F) (outM c) d)

def rcvPay (c : Dev nD) (p : Fin 7) (s : Dev nD) : sProp 𝕄 :=
  match p with
  | 0 => pts (F := F) (actsM 0 s) c fullShare (actsB m)
  | 1 => iprop(pts (F := F) (rsM 0 s) c fullShare (rsB m c) ∗ pts (F := F) (psM c) s fullShare (psB m 0 s))
  | 2 => iprop(pts (F := F) (actsM 1 s) c fullShare (actsB m) ∗ pts (F := F) (psM s) c fullShare (psB m 0 c))
  | 3 => iprop(pts (F := F) (rsM 1 s) c fullShare (rsB m c) ∗ pts (F := F) (psM c) s fullShare (psB m 1 s))
  | 4 => iprop(pts (F := F) (actsM 2 s) c fullShare (actsB m) ∗ pts (F := F) (psM s) c fullShare (psB m 1 c))
  | 5 => iprop(pts (F := F) (rsM 2 s) c fullShare (rsB m c) ∗ pts (F := F) (psM c) s fullShare (psB m 2 s))
  | 6 => iprop(pts (F := F) (outM s) c fullShare (outAll m) ∗ pts (F := F) (psM s) c fullShare (psB m 2 c))

def sndPay (c : Dev nD) (p : Fin 7) (j : Fin 3) : sProp 𝕄 :=
  match p with
  | 0 => pts (F := F) (actsM 0 c) c (q4 j.castSucc) (actsB m)
  | 2 => pts (F := F) (actsM 1 c) c (q4 j.castSucc) (actsB m)
  | 4 => pts (F := F) (actsM 2 c) c (q4 j.castSucc) (actsB m)
  | 6 => pts (F := F) stgM c (q4 j.castSucc) (outBlk m c)
  | _ => iprop(emp)

def wcpPay (c : Dev nD) (l : Fin 3) (j : Fin 2) : sProp 𝕄 :=
  match l, j with
  | 0, 0 => iprop(pts (F := F) (wv1M 0) c fullShare (wv1B m 0 c) ∗ pts (F := F) (Memref.whole main_arg1 : Memref sig .tc .hbm S1024x2048 .f32) c fullShare (W1 (F := F) m 0 c))
  | 0, 1 => iprop(pts (F := F) (wv2M 0) c fullShare (wv2B m 0 c) ∗ pts (F := F) (Memref.whole main_arg2 : Memref sig .tc .hbm S2048x1024 .f32) c fullShare (W2 (F := F) m 0 c))
  | 1, 0 => iprop(pts (F := F) (wv1M 1) c fullShare (wv1B m 1 c) ∗ pts (F := F) (Memref.whole main_arg3 : Memref sig .tc .hbm S1024x2048 .f32) c fullShare (W1 (F := F) m 1 c))
  | 1, 1 => iprop(pts (F := F) (wv2M 1) c fullShare (wv2B m 1 c) ∗ pts (F := F) (Memref.whole main_arg4 : Memref sig .tc .hbm S2048x1024 .f32) c fullShare (W2 (F := F) m 1 c))
  | 2, 0 => iprop(pts (F := F) (wv1M 0) c fullShare (wv1B m 2 c) ∗ pts (F := F) (Memref.whole main_arg5 : Memref sig .tc .hbm S1024x2048 .f32) c fullShare (W1 (F := F) m 2 c))
  | 2, 1 => iprop(pts (F := F) (wv2M 0) c fullShare (wv2B m 2 c) ∗ pts (F := F) (Memref.whole main_arg6 : Memref sig .tc .hbm S2048x1024 .f32) c fullShare (W2 (F := F) m 2 c))

def outcPay (c : Dev nD) : sProp 𝕄 :=
  iprop(pts (F := F) (outM c) c fullShare (outAll m) ∗ pts (F := F) stgM c (q4 3) (outBlk m c))

def dutiesOf (c : Dev nD) : SemLoc sig → Finset (Dev nD)
  | .reg _ => Finset.univ.erase c
  | .dma q =>
    if 1 ≤ q.val ∧ q.val < 22 then {c}
    else if 22 ≤ q.val ∧ q.val < 50 then (if (q.val - 22) % 4 = c.val then ∅ else {⟨(q.val - 22) % 4, Nat.mod_lt _ (by decide)⟩})
    else if 50 ≤ q.val then {c} else ∅

def amountOf : SemLoc sig → ℕ
  | .reg _ => 1
  | .dma q =>
    if q.val < 19 then Nh else if q.val < 22 then Nf else if q.val < 46 then Nh else if q.val < 50 then Nf
    else if q.val < 56 then Nw else Nf

def payOf (c : Dev nD) (sm : SemLoc sig) (d : Dev nD) : sProp 𝕄 :=
  match sm with
  | .reg _ => barPay (F := F) c d
  | .dma q =>
    if h1 : 1 ≤ q.val ∧ q.val < 22 then sndPay m c ⟨(q.val - 1) / 3, by omega⟩ ⟨(q.val - 1) % 3, Nat.mod_lt _ (by decide)⟩
    else if h2 : 22 ≤ q.val ∧ q.val < 50 then rcvPay m c ⟨(q.val - 22) / 4, by omega⟩ ⟨(q.val - 22) % 4, Nat.mod_lt _ (by decide)⟩
    else if h3 : 50 ≤ q.val ∧ q.val < 56 then wcpPay m c ⟨(q.val - 50) / 2, by omega⟩ ⟨(q.val - 50) % 2, Nat.mod_lt _ (by decide)⟩
    else if q.val = 56 then outcPay m c else iprop(emp)

def Rd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 g.2 d
  amount_pos g _ _ _ := by
    unfold amountOf
    split
    · exact Nat.one_pos
    · (repeat' split) <;> exact View.dmaCredit_pos _ (by decide)

end Cert.Kernel.Dist

end
-- ==== Proof.BOwed.lean ====
import proofs.«900988_g7700000000000989_dist_mlpseq_tp1d_bs_rep_b64_d1024_h2048_v7x_i4_f32_1_alg».proof.Proof.BProto

noncomputable section

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def ordOf (p : Fin 7) (t : Fin 3) : Nat :=
  if p.val % 2 = 0 then (match t with | 0 => 3 | 1 => 1 | 2 => 2) else (match t with | 0 => 1 | 1 => 3 | 2 => 2)

def amt (p : Fin 7) : ℕ := if p.val = 6 then Nf else Nh

def payCell (c : Dev nD) (i : Nat) : GSem nD τ sig :=
  if i < 3 then barCell (pr c (i + 1))
  else rcvCell (pr c (ordOf ⟨((i - 3) / 3) % 7, Nat.mod_lt _ (by decide)⟩ ⟨(i - 3) % 3, Nat.mod_lt _ (by decide)⟩))
    ⟨((i - 3) / 3) % 7, Nat.mod_lt _ (by decide)⟩ c
def payAmt (i : Nat) : ℕ := if i < 3 then 1 else amt ⟨((i - 3) / 3) % 7, Nat.mod_lt _ (by decide)⟩
def pay (c : Dev nD) (i : Nat) : CellTallies nD τ sig Unit := tallyAt (payCell c i) () (payAmt i)

def rem (c : Dev nD) : Nat → CellTallies nD τ sig Unit
  | 0 => 0
  | k + 1 => rem c k + pay c (23 - k)

theorem rem_succ (c : Dev nD) (k : Nat) : rem c (k + 1) = rem c k + pay c (23 - k) := rfl

def O₀ (c : Dev nD) : CellTallies nD τ sig Unit := rem c 24

def osem (k : Fin 56) : SemLoc sig := .dma ⟨k.val + 1, by have := k.isLt; show _ < 57; omega⟩

def csem (k : Fin 57) : SemLoc sig := if h : k.val < 56 then osem ⟨k.val, h⟩ else .reg barS
abbrev kcell (ck : Dev nD × Fin 57) : GSem nD τ sig := ((ck.1 : Thread nD τ), csem ck.2)

def L (g : GSem nD τ sig) : Finset Unit := if g.1.2 = .tc then {()} else ∅
def lv (g : GSem nD τ sig) (_ : Unit) : ℕ :=
  match g.2 with
  | .reg _ => 1
  | .dma q => if 22 ≤ q.val ∧ q.val < 50 then 2 + (q.val - 22) / 4 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.Dist

end
-- ==== Proof.BStart.lean ====
import proofs.«900988_g7700000000000989_dist_mlpseq_tp1d_bs_rep_b64_d1024_h2048_v7x_i4_f32_1_alg».proof.Proof.BOwed

noncomputable section

namespace Cert.Kernel.Dist

open Gen
open Idealize.ShloMosaic Idealize.ShloMosaic.TcCoe
open Idealize.SL Idealize.SL.RA Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def records (K : Dev nD × Fin 57 → ℕ) : sProp 𝕄 :=
  iprop((bigSep Finset.univ fun ck : Dev nD × Fin 57 => cellInv ER (Rd (F := F) m) (K ck) (kcell ck))
    ∗ bigSep Finset.univ fun ck : Dev nD × Fin 57 => reached ER (kcell ck) 0)

instance records_persistent (K : Dev nD × Fin 57 → ℕ) : BI.Persistent (records m K) := by unfold records; infer_instance

theorem inv_at (K : Dev nD × Fin 57 → ℕ) (ck : Dev nD × Fin 57) :
    records m K ⊢ cellInv ER (Rd (F := F) m) (K ck) (kcell ck) := by
  unfold records
  exact sep_elim_left.trans (bigSep_elim (Φ := fun ck : Dev nD × Fin 57 => (cellInv ER (Rd (F := F) m) (K ck) (kcell ck) : sProp 𝕄)) (Finset.mem_univ ck))
theorem reached_at (K : Dev nD × Fin 57 → ℕ) (ck : Dev nD × Fin 57) :
    records m K ⊢ (reached ER (kcell ck) 0 : sProp 𝕄) := by
  unfold records
  exact sep_elim_right.trans (bigSep_elim (Φ := fun ck : Dev nD × Fin 57 => (reached ER (kcell ck) 0 : sProp 𝕄)) (Finset.mem_univ ck))

def positions (c : Dev nD) : sProp 𝕄 := bigSep Finset.univ fun k : Fin 57 => (atPos ER (kcell (c, k)) 0 ∅ 0 : sProp 𝕄)

def payToks (c : Dev nD) : sProp 𝕄 :=
  bigSep Finset.univ fun ck : Dev nD × Fin 57 =>
    (if c ∈ (Rd (F := F) m).duties (kcell ck) 0 then dutyTok ER (kcell ck) 0 c else iprop(emp) : sProp 𝕄)

def ghost (K : Dev nD × Fin 57 → ℕ) (c : Dev nD) : sProp 𝕄 := iprop(records m K ∗ positions (F := F) c ∗ payToks m c)

def G' (c : Dev nD) : sProp 𝕄 := iprop(∃ K, ghost m K c)

end Cert.Kernel.Dist

end
-- ==== Proof.BCredDef.lean ====
import proofs.«900988_g7700000000000989_dist_mlpseq_tp1d_bs_rep_b64_d1024_h2048_v7x_i4_f32_1_alg».proof.Proof.BOwed

noncomputable section

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def creds (c : Dev nD) : sProp 𝕄 :=
  iprop(cred (tallyAt (barCell c) () 3)
    ∗ bigSep Finset.univ fun po : Fin 7 × Fin 3 => cred (tallyAt (rcvCell c po.1 (pr c (po.2.val + 1))) () (amt po.1)))

end Cert.Kernel.Dist

end
-- ==== Proof.BDat.lean ====
import proofs.«900988_g7700000000000989_dist_mlpseq_tp1d_bs_rep_b64_d1024_h2048_v7x_i4_f32_1_alg».proof.Proof.BStart
import proofs.«900988_g7700000000000989_dist_mlpseq_tp1d_bs_rep_b64_d1024_h2048_v7x_i4_f32_1_alg».proof.Proof.BCredDef

noncomputable section

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) (m ((c : Thread nD τ).loc main_arg0))

def wts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6)))

def start (c : Dev nD) : sProp 𝕄 :=
  iprop(G' m c ∗ creds (F := F) c ∗ levAts L lv ∗ wts m c
    ∗ (((c : Thread nD τ).loc main_v1) ↦{fullShare} m ((c : Thread nD τ).loc main_v1)))

def Φ₀ (c : Dev nD) : sProp 𝕄 := iprop(start m c ∗ Pipeline.scopedRest cfg0.spec c)

def Φ₁ (c : Dev nD) : sProp 𝕄 :=
  iprop((wts m c ∗ (((c : Thread nD τ).loc main_v1) ↦{fullShare} outAll m))
    ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Dist

end
-- ==== Proof.BTables.lean ====
import proofs.«900988_g7700000000000989_dist_mlpseq_tp1d_bs_rep_b64_d1024_h2048_v7x_i4_f32_1_alg».proof.Proof.BOwed

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev wcpCell (c : Dev nD) (l : Fin 3) (j : Fin 2) : GSem nD τ sig := ((c : Thread nD τ), .dma (wcpS l j))
abbrev outCell (c : Dev nD) : GSem nD τ sig := ((c : Thread nD τ), .dma outS)

section Sched
variable (c : Dev nD)

theorem sndS_val (p : Fin 7) (j : Fin 3) : (sndS p j).val = 1 + 3 * p.val + j.val := rfl
theorem rcvS_val (p : Fin 7) (s : Dev nD) : (rcvS p s).val = 22 + 4 * p.val + s.val := rfl
theorem wcpS_val (l : Fin 3) (j : Fin 2) : (wcpS l j).val = 50 + 2 * l.val + j.val := rfl
theorem outS_val : (outS).val = 56 := rfl

theorem dutiesOf_rcv_mod (p : Fin 7) (s : Dev nD) : ((rcvS p s).val - 22) % 4 = s.val := by
  have hs : s.val < 4 := s.isLt
  rw [rcvS_val]; omega
theorem dutiesOf_rcv (p : Fin 7) (s : Dev nD) :
    dutiesOf c (.dma (rcvS p s)) = if s.val = c.val then ∅ else {s} := by
  have hp := p.isLt; have hs : s.val < 4 := s.isLt; have hv := rcvS_val p s
  dsimp only [dutiesOf]
  rw [if_neg (by omega), if_pos (by omega)]
  by_cases h : s.val = c.val
  · rw [if_pos ((dutiesOf_rcv_mod p s).trans h), if_pos h]
  · rw [if_neg (fun h' => h ((dutiesOf_rcv_mod p s).symm.trans h')), if_neg h]
    exact congrArg _ (Fin.ext (dutiesOf_rcv_mod p s))
theorem duties_later (g : GSem nD τ sig) : ∀ r, 1 ≤ r → (Rd (F := F) m).duties g r = ∅ :=
  fun r hr => by dsimp only [Rd]; rw [if_neg fun h => by have := h.1; omega]
theorem duties_bar : (Rd (F := F) m).duties (barCell c) 0 = Finset.univ.erase c := by
  dsimp only [Rd]; rw [if_pos ⟨rfl, rfl⟩]; rfl
theorem duties_snd (p : Fin 7) (j : Fin 3) : (Rd (F := F) m).duties (sndCell c p j) 0 = {c} := by
  have hp := p.isLt; have hj := j.isLt; have hv := sndS_val p j
  dsimp only [Rd]; rw [if_pos ⟨rfl, rfl⟩]; dsimp only [dutiesOf]; rw [if_pos (by omega)]
theorem duties_rcv (p : Fin 7) (s : Dev nD) (h : s ≠ c) : (Rd (F := F) m).duties (rcvCell c p s) 0 = {s} := by
  dsimp only [Rd]; rw [if_pos ⟨rfl, rfl⟩]
  exact (dutiesOf_rcv c p s).trans (if_neg fun h' => h (Fin.ext h'))
theorem duties_rcv_self (p : Fin 7) : (Rd (F := F) m).duties (rcvCell c p c) 0 = ∅ := by
  dsimp only [Rd]; rw [if_pos ⟨rfl, rfl⟩]
  exact (dutiesOf_rcv c p c).trans (if_pos rfl)
theorem duties_wcp (l : Fin 3) (j : Fin 2) : (Rd (F := F) m).duties (wcpCell c l j) 0 = {c} := by
  have hl := l.isLt; have hj := j.isLt; have hv := wcpS_val l j
  dsimp only [Rd]; rw [if_pos ⟨rfl, rfl⟩]; dsimp only [dutiesOf]; rw [if_neg (by omega), if_neg (by omega), if_pos (by omega)]
theorem duties_out : (Rd (F := F) m).duties (outCell c) 0 = {c} := by
  dsimp only [Rd]; rw [if_pos ⟨rfl, rfl⟩]; dsimp only [dutiesOf]; rw [if_neg (by decide), if_neg (by decide), if_pos (by decide)]

theorem amount_bar (d : Dev nD) : (Rd (F := F) m).amount (barCell c) 0 d = 1 := rfl
theorem amount_snd (p : Fin 7) (j : Fin 3) (d : Dev nD) : (Rd (F := F) m).amount (sndCell c p j) 0 d = amt p := by
  have hp := p.isLt; have hj := j.isLt; have hv := sndS_val p j
  show amountOf (.dma (sndS p j)) = amt p
  dsimp only [amountOf, amt]
  by_cases h : p.val = 6
  · rw [if_neg (by omega), if_pos (by omega), if_pos h]
  · rw [if_pos (by omega), if_neg h]
theorem amount_rcv (p : Fin 7) (s d : Dev nD) : (Rd (F := F) m).amount (rcvCell c p s) 0 d = amt p := by
  have hp := p.isLt; have hs : s.val < 4 := s.isLt; have hv := rcvS_val p s
  show amountOf (.dma (rcvS p s)) = amt p
  dsimp only [amountOf, amt]
  by_cases h : p.val = 6
  · rw [if_neg (by omega), if_neg (by omega), if_neg (by omega),
      if_pos (by omega), if_pos h]
  · rw [if_neg (by omega), if_neg (by omega), if_pos (by omega), if_neg h]
theorem amount_wcp (l : Fin 3) (j : Fin 2) (d : Dev nD) : (Rd (F := F) m).amount (wcpCell c l j) 0 d = Nw := by
  have hl := l.isLt; have hj := j.isLt; have hv := wcpS_val l j
  show amountOf (.dma (wcpS l j)) = Nw
  dsimp only [amountOf]
  rw [if_neg (by omega), if_neg (by omega), if_neg (by omega),
    if_neg (by omega), if_pos (by omega)]
theorem amount_out (d : Dev nD) : (Rd (F := F) m).amount (outCell c) 0 d = Nf := by
  show amountOf (.dma outS) = Nf
  dsimp only [amountOf]
  rw [if_neg (by decide), if_neg (by decide), if_neg (by decide),
    if_neg (by decide), if_neg (by decide)]

theorem expect_bar : (Rd (F := F) m).expect (barCell c) 0 = 3 := by
  unfold Schedule.expect Schedule.amountOf
  rw [duties_bar, Finset.sum_congr rfl fun d _ => amount_bar m c d, Finset.sum_const,
    Finset.card_erase_of_mem (Finset.mem_univ c), Finset.card_univ, Fintype.card_fin]
  rfl
theorem expect_snd (p : Fin 7) (j : Fin 3) : (Rd (F := F) m).expect (sndCell c p j) 0 = amt p := by
  unfold Schedule.expect Schedule.amountOf; rw [duties_snd, Finset.sum_singleton, amount_snd]
theorem expect_rcv (p : Fin 7) (s : Dev nD) (h : s ≠ c) : (Rd (F := F) m).expect (rcvCell c p s) 0 = amt p := by
  unfold Schedule.expect Schedule.amountOf; rw [duties_rcv m c p s h, Finset.sum_singleton, amount_rcv]
theorem expect_wcp (l : Fin 3) (j : Fin 2) : (Rd (F := F) m).expect (wcpCell c l j) 0 = Nw := by
  unfold Schedule.expect Schedule.amountOf; rw [duties_wcp, Finset.sum_singleton, amount_wcp]
theorem expect_out : (Rd (F := F) m).expect (outCell c) 0 = Nf := by
  unfold Schedule.expect Schedule.amountOf; rw [duties_out, Finset.sum_singleton, amount_out]

theorem payload_bar (d : Dev nD) : (Rd (F := F) m).payload (barCell c) 0 d = barPay (F := F) c d := rfl
theorem payload_snd (p : Fin 7) (j : Fin 3) (d : Dev nD) : (Rd (F := F) m).payload (sndCell c p j) 0 d = sndPay m c p j := by
  have hp := p.isLt; have hj := j.isLt; have hv := sndS_val p j
  show payOf m c (.dma (sndS p j)) d = sndPay m c p j
  dsimp only [payOf]
  rw [dif_pos (by omega)]
  congr 1 <;> (apply Fin.ext; dsimp only [sndS_val]; omega)
theorem payload_rcv (p : Fin 7) (s d : Dev nD) : (Rd (F := F) m).payload (rcvCell c p s) 0 d = rcvPay m c p s := by
  have hp := p.isLt; have hs : s.val < 4 := s.isLt; have hv := rcvS_val p s
  show payOf m c (.dma (rcvS p s)) d = rcvPay m c p s
  dsimp only [payOf]
  rw [dif_neg (by omega), dif_pos (by omega)]
  congr 1 <;> (apply Fin.ext; dsimp only [rcvS_val]; omega)
theorem payload_wcp (l : Fin 3) (j : Fin 2) (d : Dev nD) : (Rd (F := F) m).payload (wcpCell c l j) 0 d = wcpPay m c l j := by
  have hl := l.isLt; have hj := j.isLt; have hv := wcpS_val l j
  show payOf m c (.dma (wcpS l j)) d = wcpPay m c l j
  dsimp only [payOf]
  rw [dif_neg (by omega), dif_neg (by omega), dif_pos (by omega)]
  congr 1 <;> (apply Fin.ext; dsimp only [wcpS_val]; omega)
theorem payload_out (d : Dev nD) : (Rd (F := F) m).payload (outCell c) 0 d = outcPay m c := by
  show payOf m c (.dma outS) d = outcPay m c
  dsimp only [payOf]
  rw [dif_neg (by decide), dif_neg (by decide), dif_neg (by decide), if_pos outS_val]

theorem rest_bar : bigSep ((Rd (F := F) m).duties (barCell c) 0 \ ∅) (fun d => (Rd (F := F) m).payload (barCell c) 0 d)
    = iprop(barPay (F := F) c (pr c 1) ∗ barPay (F := F) c (pr c 2) ∗ barPay (F := F) c (pr c 3)) := by
  rw [Finset.sdiff_empty, duties_bar,
    bigSep_eq_bigSepL_of_eq [pr c 1, pr c 2, pr c 3] (by revert c; decide) (by revert c; decide),
    bigSepL_cons_cons, bigSepL_cons_cons, bigSepL_singleton, payload_bar, payload_bar, payload_bar]
  rfl
theorem rest_snd (p : Fin 7) (j : Fin 3) : bigSep ((Rd (F := F) m).duties (sndCell c p j) 0 \ ∅) (fun d => (Rd (F := F) m).payload (sndCell c p j) 0 d) = sndPay m c p j := by
  rw [Finset.sdiff_empty, duties_snd, bigSep_singleton, payload_snd]
theorem rest_rcv (p : Fin 7) (s : Dev nD) (h : s ≠ c) : bigSep ((Rd (F := F) m).duties (rcvCell c p s) 0 \ ∅) (fun d => (Rd (F := F) m).payload (rcvCell c p s) 0 d) = rcvPay m c p s := by
  rw [Finset.sdiff_empty, duties_rcv m c p s h, bigSep_singleton, payload_rcv]
theorem rest_wcp (l : Fin 3) (j : Fin 2) : bigSep ((Rd (F := F) m).duties (wcpCell c l j) 0 \ ∅) (fun d => (Rd (F := F) m).payload (wcpCell c l j) 0 d) = wcpPay m c l j := by
  rw [Finset.sdiff_empty, duties_wcp, bigSep_singleton, payload_wcp]
theorem rest_out : bigSep ((Rd (F := F) m).duties (outCell c) 0 \ ∅) (fun d => (Rd (F := F) m).payload (outCell c) 0 d) = outcPay m c := by
  rw [Finset.sdiff_empty, duties_out, bigSep_singleton, payload_out]

instance pts_storable {sp : Space} {s : Shape} {e : EltTy} (M : Memref sig .tc sp s e) (d : Dev nD) (q : PosShare TreeShare)
    (f : Buf (Elt F) (M.view.loc (d : Thread nD τ))) : BI.Storable (upEmb : UEmb _ 𝕄) (pts (F := F) M d q f) := by
  unfold pts; infer_instance
instance ptsE_storable {sp : Space} {s : Shape} {e : EltTy} (M : Memref sig .tc sp s e) (d : Dev nD) :
    BI.Storable (upEmb : UEmb _ 𝕄) (ptsE (F := F) M d) := by
  unfold ptsE; infer_instance
theorem storable_sep_of {P Q : sProp 𝕄} (hP : BI.Storable (upEmb : UEmb _ 𝕄) P) (hQ : BI.Storable (upEmb : UEmb _ 𝕄) Q) :
    BI.Storable (upEmb : UEmb _ 𝕄) iprop(P ∗ Q) := inferInstance

instance Rd_payload_storable (g : GSem nD τ sig) (r : ℕ) (d : Dev nD) : BI.Storable (upEmb : UEmb _ 𝕄) ((Rd (F := F) m).payload g r d) := by
  show BI.Storable upEmb (payOf m g.1.1 g.2 d)
  unfold payOf barPay rcvPay sndPay wcpPay outcPay
  (repeat' split) <;> repeat' (first | infer_instance | exact pts_storable _ _ _ _ | apply storable_sep_of)

end Sched

end Cert.Kernel.Dist

end
-- ==== Proof.BGhost.lean ====
import proofs.«900988_g7700000000000989_dist_mlpseq_tp1d_bs_rep_b64_d1024_h2048_v7x_i4_f32_1_alg».proof.Proof.BStart
import proofs.«900988_g7700000000000989_dist_mlpseq_tp1d_bs_rep_b64_d1024_h2048_v7x_i4_f32_1_alg».proof.Proof.BTables

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem csem_injective : Function.Injective csem := by
  intro k k' h
  unfold csem at h
  split at h <;> split at h
  · unfold osem at h
    have h' := congrArg Fin.val (SemLoc.dma.inj h)
    apply Fin.ext
    simp only at h'
    omega
  · cases h
  · cases h
  · apply Fin.ext
    have := k.isLt
    have := k'.isLt
    omega

theorem kcell_injective : Function.Injective (kcell : Dev nD × Fin 57 → GSem nD τ sig) := fun _ _ h =>
  Prod.ext (congrArg (fun g : GSem nD τ sig => g.1.1) h) (csem_injective (congrArg Prod.snd h))

def ringCells : Finset (GSem nD τ sig) := Finset.univ.map ⟨kcell, kcell_injective⟩

abbrev tokOf (x : (Dev nD × Fin 57) × Dev nD) : GSem nD τ sig × ℕ × Dev nD := (kcell x.1, 0, x.2)
theorem tokOf_injective : Function.Injective (tokOf : (Dev nD × Fin 57) × Dev nD → GSem nD τ sig × ℕ × Dev nD) := fun _ _ h =>
  Prod.ext (kcell_injective (congrArg (fun x : GSem nD τ sig × ℕ × Dev nD => x.1) h)) (congrArg (fun x : GSem nD τ sig × ℕ × Dev nD => x.2.2) h)
def ringToks : Finset (GSem nD τ sig × ℕ × Dev nD) :=
  ((Finset.univ : Finset ((Dev nD × Fin 57) × Dev nD)).filter fun x => x.2 ∈ dutiesOf x.1.1 (csem x.1.2)).map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun k : Fin 57 => bigSep Finset.univ fun d : Dev nD =>
    (if d ∈ dutiesOf c (csem k) then dutyTok ER (kcell (c, k)) 0 d else iprop(emp) : sProp 𝕄)

def G (c : Dev nD) : sProp 𝕄 :=
  iprop((bigSep Finset.univ fun k : Fin 57 => roundState ER (Rd (F := F) m) (kcell (c, k)) 0)
    ∗ (bigSep Finset.univ fun k : Fin 57 => iprop(atPos ER (kcell (c, k)) 0 ∅ 0 ∗ reached ER (kcell (c, k)) 0)) ∗ toks (F := F) c)

theorem bigSep_ringCells (Φ : GSem nD τ sig → sProp 𝕄) :
    bigSep ringCells Φ = bigSep Finset.univ fun c : Dev nD => bigSep Finset.univ fun k : Fin 57 => Φ (kcell (c, k)) := by
  unfold ringCells; rw [bigSep_map, bigSep_univ_prod]; rfl

theorem bigSep_ringToks :
    bigSep ringToks (fun x => (dutyTok ER x.1 x.2.1 x.2.2 : sProp 𝕄)) = bigSep Finset.univ fun c : Dev nD => toks (F := F) c := by
  unfold ringToks
  rw [bigSep_map, bigSep_filter, bigSep_univ_prod, bigSep_univ_prod]
  rfl

theorem fund_ring : BI.own (ER (initOf ringCells ringToks)) ⊢ (|==> bigSep Finset.univ (G m) : sProp 𝕄) := by
  iintro HX
  imod (Rounds.fund ER (Rd (F := F) m) ringCells ringToks) $$ HX with ⟨Hst, Hr, Hat, Htok⟩
  imodintro
  ihave Hst' := (Entails.of_eq (bigSep_ringCells (F := F) fun g => roundState ER (Rd (F := F) m) g 0)) $$ Hst
  ihave Hat' := (Entails.of_eq (bigSep_ringCells (F := F) fun g => atPos ER g 0 ∅ 0)) $$ Hat
  ihave Hr' := (Entails.of_eq (bigSep_ringCells (F := F) fun g => reached ER g 0)) $$ Hr
  ihave Htok' := (Entails.of_eq (bigSep_ringToks (F := F))) $$ Htok
  unfold G; simp only [bigSep_sep']
  iframe

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  iframe

theorem ownSemFacts : Pipeline.OwnSemFacts cfg0.spec osem := by decide +kernel

theorem bigSep_fin_last {n : ℕ} (Φ : Fin (n + 1) → sProp 𝕄) :
    bigSep Finset.univ Φ = iprop(Φ (Fin.last n) ∗ bigSep Finset.univ fun i : Fin n => Φ i.castSucc) := by
  rw [Fin.univ_castSuccEmb]
  unfold bigSep
  rw [Finset.fold_cons, Finset.fold_map]
  rfl

theorem csem_castSucc (i : Fin 56) : csem i.castSucc = osem i := dif_pos i.isLt
theorem csem_last : csem (Fin.last 56) = .reg barS := dif_neg (Nat.lt_irrefl 56)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ (bigSep Finset.univ fun k : Fin 57 => semVal (kcell (c, k)) 0 : sProp 𝕄) := by
  rw [unscopedSems0_eq, bigSep_fin_last]
  unfold Pipeline.ownSems0
  have hl : kcell (c, Fin.last 56) = barCell c := by
    show ((c : Thread nD τ), csem (Fin.last 56)) = _
    rw [csem_last]
  have hk (i : Fin 56) : kcell (c, i.castSucc) = ((c : Thread nD τ), osem i) := by
    show ((c : Thread nD τ), csem i.castSucc) = _
    rw [csem_castSucc]
  rw [hl, bigSep_congr (s := Finset.univ) (fun (i : Fin 56) _ => congrArg (fun g => (semVal g 0 : sProp 𝕄)) (hk i))]
  iintro ⟨HS, HB⟩
  iframe

private def Gmid (c : Dev nD) : sProp 𝕄 :=
  iprop((bigSep Finset.univ fun k : Fin 57 => iprop(∃ κ : ℕ, cellInv ER (Rd (F := F) m) κ (kcell (c, k))))
    ∗ (bigSep Finset.univ fun k : Fin 57 => iprop(atPos ER (kcell (c, k)) 0 ∅ 0 ∗ reached ER (kcell (c, k)) 0)) ∗ toks (F := F) c)

theorem core_alloc (c : Dev nD) :
    iprop(Pipeline.ownSems0 osem c ∗ unscopedSems0 c ∗ G m c)
      ⊢ |={Set.univ}=> Gmid m c := by
  unfold G Gmid
  iintro ⟨Hos, Hus, Hst, Hat, Htok⟩
  ihave Hv := (sems0_eq (F := F) c) $$ [$]
  imod (show iprop((bigSep Finset.univ fun k : Fin 57 => semVal (kcell (c, k)) 0) ∗ bigSep Finset.univ fun k : Fin 57 => roundState ER (Rd (F := F) m) (kcell (c, k)) 0)
      ⊢ (|={Set.univ}=> bigSep Finset.univ fun k : Fin 57 => iprop(∃ κ : ℕ, cellInv ER (Rd (F := F) m) κ (kcell (c, k))) : sProp 𝕄) from by
        rw [← bigSep_sep']
        exact (bigSep_mono fun k _ => (Rounds.body_intro ER (Rd (F := F) m) (kcell (c, k))).trans inv_alloc).trans (bigSep_fupd _ _)) $$ [$] with Hinv
  imodintro
  iframe

theorem duties_kcell (ck : Dev nD × Fin 57) : (Rd (F := F) m).duties (kcell ck) 0 = dutiesOf ck.1 (csem ck.2) := by
  dsimp only [Rd]; exact if_pos ⟨rfl, rfl⟩

theorem toks_around : (bigSep Finset.univ fun c : Dev nD => (toks (F := F) c : sProp 𝕄)) = bigSep Finset.univ fun d : Dev nD => payToks m d := by
  unfold toks payToks
  rw [← bigSep_univ_prod (fun ck : Dev nD × Fin 57 => bigSep Finset.univ fun d : Dev nD =>
    (if d ∈ dutiesOf ck.1 (csem ck.2) then dutyTok ER (kcell ck) 0 d else iprop(emp) : sProp 𝕄)), bigSep_univ_comm]
  exact bigSep_congr fun d _ => bigSep_congr fun ck _ => by rw [duties_kcell]

theorem ghost_intro (K : Dev nD × Fin 57 → ℕ) (c : Dev nD) : iprop(records m K ∗ positions (F := F) c ∗ payToks m c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => Gmid m c : sProp 𝕄) ⊢ bigSep Finset.univ (G' m) := by
  unfold Gmid
  rw [bigSep_sep', bigSep_sep', ← bigSep_univ_prod (fun ck : Dev nD × Fin 57 => iprop(∃ κ : ℕ, cellInv ER (Rd (F := F) m) κ (kcell ck))),
    bigSep_congr (s := Finset.univ) (fun (c : Dev nD) _ => bigSep_sep' Finset.univ (fun k : Fin 57 => (atPos ER (kcell (c, k)) 0 ∅ 0 : sProp 𝕄)) (fun k => reached ER (kcell (c, k)) 0)),
    bigSep_sep', ← bigSep_univ_prod (fun ck : Dev nD × Fin 57 => (reached ER (kcell ck) 0 : sProp 𝕄))]
  iintro ⟨HI, ⟨Hat, #HR⟩, Htok⟩
  ihave HK := (BI.bigSep_exists_pi Finset.univ (fun (ck : Dev nD × Fin 57) (κ : ℕ) => (cellInv ER (Rd (F := F) m) κ (kcell ck) : sProp 𝕄))) $$ HI
  icases HK with ⟨%K, #HI⟩
  ihave Htk := (Entails.of_eq (toks_around m)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks m c)).symm)
    unfold positions
    iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Dist

end
-- ==== Proof.BCred.lean ====
import proofs.«900988_g7700000000000989_dist_mlpseq_tp1d_bs_rep_b64_d1024_h2048_v7x_i4_f32_1_alg».proof.Proof.BCredDef

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem bar_eq_iff {a b : Dev nD} : Iff (barCell a = barCell b) (a = b) :=
  ⟨fun h => Fin.ext (congrArg (fun g : GSem nD τ sig => g.1.1.val) h), fun h => h ▸ rfl⟩

theorem rcv_ne_bar {a b : Dev nD} {p : Fin 7} {s : Dev nD} : rcvCell a p s ≠ barCell b := by
  intro h; cases congrArg Prod.snd h

theorem rcv_eq_iff {a b : Dev nD} {p p' : Fin 7} {s s' : Dev nD} :
    Iff (rcvCell a p s = rcvCell b p' s') (a = b ∧ p = p' ∧ s = s') := by
  constructor
  · intro h
    have ha : a = b := Fin.ext (congrArg (fun g : GSem nD τ sig => g.1.1.val) h)
    have hv : 22 + 4 * p.val + s.val = 22 + 4 * p'.val + s'.val := congrArg Fin.val (SemLoc.dma.inj (congrArg Prod.snd h))
    have h1 : s.val < 4 := s.isLt
    have h2 : s'.val < 4 := s'.isLt
    exact ⟨ha, Fin.ext (by omega), Fin.ext (by omega)⟩
  · rintro ⟨rfl, rfl, rfl⟩; rfl

theorem rem_apply (c : Dev nD) (k : Nat) (g : GSem nD τ sig) :
    rem c k g () = ∑ i ∈ Finset.range k, if payCell c (23 - i) = g then payAmt (23 - i) else 0 := by
  induction k with
  | zero => rfl
  | succ k ih =>
    rw [rem_succ, Pi.add_apply, Finsupp.add_apply, ih, Finset.sum_range_succ]
    congr 1
    unfold pay
    rw [tallyAt_apply]
    by_cases h : payCell c (23 - k) = g
    · rw [if_pos h, if_pos ⟨h.symm, rfl⟩]
    · rw [if_neg h, if_neg (fun hh => h hh.1.symm)]

theorem pay_bar (d c : Dev nD) (j : Nat) :
    (if payCell d j = barCell c then payAmt j else 0) = if j < 3 ∧ pr d (j + 1) = c then 1 else 0 := by
  unfold payCell payAmt
  by_cases hj : j < 3
  · rw [if_pos hj, if_pos hj]
    exact if_congr (bar_eq_iff.trans ⟨fun h => ⟨hj, h⟩, fun h => h.2⟩) rfl rfl
  · rw [if_neg hj, if_neg rcv_ne_bar, if_neg (fun hh => hj hh.1)]

theorem pay_rcv (d c : Dev nD) (p : Fin 7) (s : Dev nD) (j : Nat) :
    (if payCell d j = rcvCell c p s then payAmt j else 0)
      = amt p * if ¬ j < 3 ∧ pr d (ordOf ⟨((j - 3) / 3) % 7, Nat.mod_lt _ (by decide)⟩ ⟨(j - 3) % 3, Nat.mod_lt _ (by decide)⟩) = c
          ∧ (⟨((j - 3) / 3) % 7, Nat.mod_lt _ (by decide)⟩ : Fin 7) = p ∧ d = s then 1 else 0 := by
  unfold payCell payAmt
  by_cases hj : j < 3
  · rw [if_pos hj, if_neg (fun hh => rcv_ne_bar hh.symm), if_neg (fun hh => hh.1 hj), Nat.mul_zero]
  · rw [if_neg hj, if_neg hj, mul_boole]
    exact if_ctx_congr (rcv_eq_iff.trans ⟨fun h => ⟨hj, h⟩, fun h => h.2⟩) (fun h => by rw [h.2.2.1]) fun _ => rfl

theorem owed_bar (d c : Dev nD) : O₀ d (barCell c) () = if d ≠ c then 1 else 0 := by
  unfold O₀
  rw [rem_apply, Finset.sum_congr rfl fun i _ => pay_bar d c (23 - i)]
  revert d c; decide +kernel

theorem owed_rcv (d c : Dev nD) (p : Fin 7) (s : Dev nD) : O₀ d (rcvCell c p s) () = if d = s ∧ s ≠ c then amt p else 0 := by
  unfold O₀
  rw [rem_apply, Finset.sum_congr rfl fun i _ => pay_rcv d c p s (23 - i), ← Finset.mul_sum,
    ← mul_boole (d = s ∧ s ≠ c) (amt p)]
  refine congrArg (fun n => amt p * n) ?_
  revert d c p s; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_rcv (c : Dev nD) (p : Fin 7) (s : Dev nD) (h : s ≠ c) :
    tallyOn (rcvCell c p s) (launchCredit (Pipeline.owing O₀) 0 (rcvCell c p s)) = (tallyAt (rcvCell c p s) () (amt p) : CellTallies nD τ sig Unit) := by
  unfold tallyAt; refine congrArg _ (Finsupp.ext fun u => ?_); cases u
  rw [Pipeline.launchCredit_owing, Finsupp.single_eq_same, Finset.sum_congr rfl fun d _ => owed_rcv d c p s,
    Finset.sum_congr rfl fun d _ => show (if d = s ∧ s ≠ c then amt p else 0) = if s = d then amt p else 0 from
      if_congr ⟨fun hh => hh.1.symm, fun hh => ⟨hh.symm, h⟩⟩ rfl rfl,
    Finset.sum_ite_eq Finset.univ s fun _ => amt p, if_pos (Finset.mem_univ _)]

def rcvSem (c : Dev nD) (po : Fin 7 × Fin 3) : SemLoc sig := .dma (rcvS po.1 (pr c (po.2.val + 1)))

theorem rcvSem_inj (c : Dev nD) : Function.Injective (rcvSem c) := by
  rintro ⟨p, o⟩ ⟨p', o'⟩ h
  have hv : 22 + 4 * p.val + (c.val + (o.val + 1)) % 4 = 22 + 4 * p'.val + (c.val + (o'.val + 1)) % 4 :=
    congrArg Fin.val (SemLoc.dma.inj h)
  have hc : c.val < 4 := c.isLt
  have ho := o.isLt
  have ho' := o'.isLt
  exact Prod.ext (Fin.ext (by show p.val = p'.val; omega)) (Fin.ext (by show o.val = o'.val; omega))

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  have e : (bigSep Finset.univ fun po : Fin 7 × Fin 3 => (cred (tallyAt (rcvCell c po.1 (pr c (po.2.val + 1))) () (amt po.1)) : sProp 𝕄))
      = bigSep (Finset.univ.image (rcvSem c)) fun sm : SemLoc sig =>
          cred (tallyOn ((c.tc : Thread nD τ), sm) (launchCredit (Pipeline.owing O₀) 0 ((c.tc : Thread nD τ), sm))) := by
    rw [bigSep_image_of_injOn (rcvSem_inj c).injOn]
    exact bigSep_congr fun po _ => congrArg cred
      (launch_rcv c po.1 (pr c (po.2.val + 1)) (pr_ne c _ (by omega) (by have := po.2.isLt; omega))).symm
  rw [e]
  refine bigSep_subset fun sm h => ?_
  obtain ⟨po, _, rfl⟩ := Finset.mem_image.mp h
  exact Finset.mem_erase.mpr ⟨fun hh => (by cases hh), Finset.mem_univ _⟩

end Cert.Kernel.Dist

end
-- ==== Proof.BLevels.lean ====
import proofs.«900988_g7700000000000989_dist_mlpseq_tp1d_bs_rep_b64_d1024_h2048_v7x_i4_f32_1_alg».proof.Proof.BOwed

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem rem_pos {c : Dev nD} {k : Nat} {g : GSem nD τ sig} {u : Unit} (hk : k ≤ 24) (h : 0 < rem c k g u) :
    ∃ i, 24 - k ≤ i ∧ i < 24 ∧ g = payCell c i := by
  induction k with
  | zero => exact absurd h (Nat.lt_irrefl 0)
  | succ k ih =>
    rw [rem_succ, Pi.add_apply, Finsupp.add_apply] at h
    by_cases h1 : 0 < rem c k g u
    · obtain ⟨i, hi1, hi2, hi3⟩ := ih (by omega) h1
      exact ⟨i, by omega, hi2, hi3⟩
    · have h2 : 0 < pay c (23 - k) g u := by omega
      unfold pay at h2
      rw [tallyAt_apply] at h2
      by_cases hg : g = payCell c (23 - k) ∧ u = ()
      · exact ⟨23 - k, by omega, by omega, hg.1⟩
      · rw [if_neg hg] at h2; exact absurd h2 (Nat.lt_irrefl 0)

theorem lv_rcv (c : Dev nD) (p : Fin 7) (s : Dev nD) : lv (rcvCell c p s) () = 2 + p.val := by
  revert c p s; decide
theorem lv_payCell (c : Dev nD) (i : Nat) (hi : i < 24) : lv (payCell c i) () = if i < 3 then 1 else 2 + (i - 3) / 3 := by
  interval_cases i <;> revert c <;> decide

theorem L_payCell (c : Dev nD) (i : Nat) : L (payCell c i) = {()} := by
  unfold payCell; split <;> exact L_tc _ _

private theorem mayWait_of (c : Dev nD) (sm : SemLoc sig) {k : Nat} (hk : k ≤ 24) (b : ℕ) (hb : lv ((c : Thread nD τ), sm) () ≤ b)
    (hi : ∀ i, 24 - k ≤ i → i < 24 → b < (if i < 3 then 1 else 2 + (i - 3) / 3)) :
    (levAts L lv : sProp 𝕄) ⊢ MayWait (c : Thread nD τ) sm () (rem c k) :=
  MayOwe.of_cut (L := L) (lev := lv) b
    (fun p hp => by rw [Finset.mem_singleton.mp hp, L_tc]; exact Finset.mem_singleton_self _)
    (fun g u hg => by obtain ⟨i, -, -, rfl⟩ := rem_pos hk hg; rw [L_payCell]; exact Finset.mem_singleton_self _)
    (fun p hp => by rw [Finset.mem_singleton.mp hp]; exact hb)
    fun g u hg => by
      obtain ⟨i, hi1, hi2, rfl⟩ := rem_pos hk hg
      show b < lv (payCell c i) ()
      rw [lv_payCell c i hi2]; exact hi i hi1 hi2

theorem mayWait_low (c : Dev nD) (q : DmaSem sig) (hq : ¬ (22 ≤ q.val ∧ q.val < 50)) (k : Nat) (hk : k ≤ 24) :
    (levAts L lv : sProp 𝕄) ⊢ MayWait (c : Thread nD τ) (.dma q) () (rem c k) :=
  mayWait_of c _ hk 0 (by dsimp only [lv]; rw [if_neg hq]) fun i _ _ => by split <;> omega
theorem mayWait_low_zero (c : Dev nD) (sm : SemLoc sig) :
    (levAts L lv : sProp 𝕄) ⊢ MayWait (c : Thread nD τ) sm () (0 : CellTallies nD τ sig Unit) := by
  rw [MayWait_zero]; iintro -; iempintro

theorem mayWait_bar (c : Dev nD) :
    (levAts L lv : sProp 𝕄) ⊢ MayWait (c : Thread nD τ) (.reg barS) () (rem c 21) :=
  mayWait_of c _ (by omega) 1 (Nat.le_refl 1) fun i h1 _ => by split <;> omega

theorem mayWait_rcv (c : Dev nD) (p : Fin 7) (s : Dev nD) (k : Nat) (hk : k + 3 * (p.val + 1) ≤ 21) :
    (levAts L lv : sProp 𝕄) ⊢ MayWait (c : Thread nD τ) (.dma (rcvS p s)) () (rem c k) :=
  mayWait_of c _ (by omega) (2 + p.val) (Nat.le_of_eq (lv_rcv c p s)) fun i h1 _ => by split <;> omega

end Cert.Kernel.Dist

end
-- ==== Proof.BLaunch.lean ====
import proofs.«900988_g7700000000000989_dist_mlpseq_tp1d_bs_rep_b64_d1024_h2048_v7x_i4_f32_1_alg».proof.Proof.BDat
import proofs.«900988_g7700000000000989_dist_mlpseq_tp1d_bs_rep_b64_d1024_h2048_v7x_i4_f32_1_alg».proof.Proof.BGhost
import proofs.«900988_g7700000000000989_dist_mlpseq_tp1d_bs_rep_b64_d1024_h2048_v7x_i4_f32_1_alg».proof.Proof.BCred
import proofs.«900988_g7700000000000989_dist_mlpseq_tp1d_bs_rep_b64_d1024_h2048_v7x_i4_f32_1_alg».proof.Proof.BLevels

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 24 (Nat.le_refl _)
    · exact mayWait_low_zero c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H1, H2, H3, H4, H5, H6, Hv⟩, Hlev, Hcr, -, HG⟩
  ihave Hc := (creds_intro (F := F) c) $$ Hcr
  imodintro
  unfold start wts
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  iframe

def Yc (c : Dev nD) : sProp 𝕄 := iprop(wts m c ∗ (((c : Thread nD τ).loc main_v1) ↦{fullShare} outAll m))

theorem phi1_exit (c : Dev nD) :
    (dats m ρ 0 c).Φ (Fin.last cfg0.N) ⊢ iprop(Yc m c ∗ Pipeline.ownSems0 osem c ∗ Pipeline.scopedRest cfg0.spec c) := by
  rw [show (dats m ρ 0 c).Φ (Fin.last cfg0.N) = Φ₁ m c from rfl]
  unfold Φ₁ Yc
  exact .rfl

private def kept (s : MemSt nD τ sig (Elt F)) (c : Dev nD) (b : Ref sig .tc) : Prop :=
  s.mem ((c : Thread nD τ).loc b) = m ((c : Thread nD τ).loc b)

def QC : PUnit × MemSt nD τ sig (Elt F) → Prop := fun r =>
  ∀ c : Dev nD, r.2.mem ((c : Thread nD τ).loc main_v1) = outAll m
    ∧ kept m r.2 c main_arg0 ∧ kept m r.2 c main_arg1 ∧ kept m r.2 c main_arg2 ∧ kept m r.2 c main_arg3
    ∧ kept m r.2 c main_arg4 ∧ kept m r.2 c main_arg5 ∧ kept m r.2 c main_arg6

theorem run_main (hbody : ∀ c, BodyObligation (dats (F := F) m ρ 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := Yc m) (Z := fun _ => iprop(emp))
    (hX := start_intro m ρ) (hin := phi0_intro m ρ) (hout := phi1_exit m ρ)
    (QY := fun c s => s.mem ((c : Thread nD τ).loc main_v1) = outAll m
      ∧ kept m s c main_arg1 ∧ kept m s c main_arg2 ∧ kept m s c main_arg3 ∧ kept m s c main_arg4 ∧ kept m s c main_arg5 ∧ kept m s c main_arg6)
    (hY := fun c s' => by
      unfold Yc wts
      iintro ⟨⟨⟨H1, H2, H3, H4, H5, H6⟩, Hv⟩, -, HSI⟩
      icombine HSI Hv gives %hv
      icombine HSI H1 gives %h1
      icombine HSI H2 gives %h2
      icombine HSI H3 gives %h3
      icombine HSI H4 gives %h4
      icombine HSI H5 gives %h5
      icombine HSI H6 gives %h6
      imodintro
      isplitr
      · ipureintro
        exact ⟨Buf.eq_of_forall_mem_univ hv, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun s h c => ⟨(h c).2.2.1,
      ((h c).1 0).trans ((dats (F := F) m ρ 0 c).arrAt_in 0 rfl _),
      (h c).2.2.2.1, (h c).2.2.2.2.1, (h c).2.2.2.2.2.1, (h c).2.2.2.2.2.2.1, (h c).2.2.2.2.2.2.2.1, (h c).2.2.2.2.2.2.2.2⟩)

end Cert.Kernel.Dist

end
-- ==== Proof.BXstg.lean ====
import proofs.«900988_g7700000000000989_dist_mlpseq_tp1d_bs_rep_b64_d1024_h2048_v7x_i4_f32_1_alg».proof.Proof.BDat

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem xstg_eq (c : Dev nD) : xstg (F := F) m c = X (F := F) m c := by
  unfold xstg X
  show ((Memref.whole main_arg0 : Memref sig .tc .hbm S64x1024 .f32).access _ : View sig .tc _ _ _).read (Elt F) _ = _
  exact Memref.read_access_unit_zero (Elt F) main_arg0 (by funext a; fin_cases a <;> rfl) _ _

theorem after_eq (c : Dev nD) (t : Fin cfg0.N) : (dats (F := F) m ρ 0 c).after (0 : Fin 1) t = X (F := F) m c := xstg_eq m c

theorem before_eq (c : Dev nD) (t : Fin cfg0.N) (d) : (dats (F := F) m ρ 0 c).before (0 : Fin 1) t d = X (F := F) m c := by
  unfold Dat.before
  rw [if_pos (fetch0_0 t)]
  exact xstg_eq m c

end Cert.Kernel.Dist
-- ==== Proof.BBodyArgs.lean ====
import proofs.«900988_g7700000000000989_dist_mlpseq_tp1d_bs_rep_b64_d1024_h2048_v7x_i4_f32_1_alg».proof.Proof.BDat
import proofs.«900988_g7700000000000989_dist_mlpseq_tp1d_bs_rep_b64_d1024_h2048_v7x_i4_f32_1_alg».proof.Proof.Gen.Kernel.Skeleton

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-- A function of the kernel's twenty buffers, at the buffers the launch calls the body with. -/
abbrev atArgs {β : Type 1} (f : (arg0 : Memref sig .tc .vmem S64x1024 .f32) → arg0.IsWhole → (arg1 : Memref sig .tc .hbm S1024x2048 .f32) → arg1.IsWhole → (arg2 : Memref sig .tc .hbm S2048x1024 .f32) → arg2.IsWhole → (arg3 : Memref sig .tc .hbm S1024x2048 .f32) → arg3.IsWhole → (arg4 : Memref sig .tc .hbm S2048x1024 .f32) → arg4.IsWhole → (arg5 : Memref sig .tc .hbm S1024x2048 .f32) → arg5.IsWhole → (arg6 : Memref sig .tc .hbm S2048x1024 .f32) → arg6.IsWhole → (arg7 : Memref sig .tc .hbm S256x1024 .f32) → arg7.IsWhole → (arg8 : Memref sig .tc .vmem S3x256x1024 .bf16) → arg8.IsWhole → (arg9 : Memref sig .tc .vmem S3x4x64x1024 .bf16) → arg9.IsWhole → (arg10 : Memref sig .tc .vmem S256x1024 .bf16) → arg10.IsWhole → (arg11 : Memref sig .tc .vmem S2x1024x2048 .f32) → arg11.IsWhole → (arg12 : Memref sig .tc .vmem S2x2048x1024 .f32) → arg12.IsWhole → (arg13 : Memref sig .tc .vmem S2x1024x2048 .bf16) → arg13.IsWhole → (arg14 : Memref sig .tc .vmem S2x2048x1024 .bf16) → arg14.IsWhole → (arg15 : Memref sig .tc .vmem S64x1024 .f32) → arg15.IsWhole → DmaSems sig S7x3 → DmaSems sig S7x4 → DmaSems sig S3x2 → DmaSems sig S1 → β) : β :=
  f (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

abbrev BODY : Prog (TpuEff nD τ sig (Elt F) Λ₀ .tc) PUnit := atArgs (cc0_body (F := F))
abbrev P1 := atArgs (k0_part1 (F := F))
abbrev P2 := atArgs (k0_part2 (F := F))
abbrev P3 := atArgs (k0_part3 (F := F))
abbrev P4 := atArgs (k0_part4 (F := F))
abbrev P5 := atArgs (k0_part5 (F := F))
abbrev P6 := atArgs (k0_part6 (F := F))
abbrev P7 := atArgs (k0_part7 (F := F))
abbrev P8 := atArgs (k0_part8 (F := F))
abbrev P9 := atArgs (k0_part9 (F := F))
abbrev P10 := atArgs (k0_part10 (F := F))
abbrev P11 := atArgs (k0_part11 (F := F))
abbrev P12 := atArgs (k0_part12 (F := F))
abbrev P13 := atArgs (k0_part13 (F := F))
abbrev P14 := atArgs (k0_part14 (F := F))
abbrev P15 := atArgs (k0_part15 (F := F))
abbrev P16 := atArgs (k0_part16 (F := F))
abbrev P17 := atArgs (k0_part17 (F := F))
abbrev P18 := atArgs (k0_part18 (F := F))
abbrev P19 := atArgs (k0_part19 (F := F))
abbrev P20 := atArgs (k0_part20 (F := F))
abbrev P21 := atArgs (k0_part21 (F := F))
abbrev P22 := atArgs (k0_part22 (F := F))
abbrev P23 := atArgs (k0_part23 (F := F))
abbrev P24 := atArgs (k0_part24 (F := F))
abbrev P25 := atArgs (k0_part25 (F := F))
abbrev P26 := atArgs (k0_part26 (F := F))
abbrev P27 := atArgs (k0_part27 (F := F))
abbrev P28 := atArgs (k0_part28 (F := F))
abbrev P29 := atArgs (k0_part29 (F := F))
abbrev P30 := atArgs (k0_part30 (F := F))
abbrev P31 := atArgs (k0_part31 (F := F))
abbrev P32 := atArgs (k0_part32 (F := F))
abbrev P33 := atArgs (k0_part33 (F := F))
abbrev P34 := atArgs (k0_part34 (F := F))
abbrev P35 := atArgs (k0_part35 (F := F))
abbrev P36 := atArgs (k0_part36 (F := F))
abbrev P37 := atArgs (k0_part37 (F := F))
abbrev P38 := atArgs (k0_part38 (F := F))
abbrev P39 := atArgs (k0_part39 (F := F))
abbrev P40 := atArgs (k0_part40 (F := F))
abbrev P41 := atArgs (k0_part41 (F := F))
abbrev P42 := atArgs (k0_part42 (F := F))
abbrev P43 := atArgs (k0_part43 (F := F))
abbrev P44 := atArgs (k0_part44 (F := F))
abbrev P45 := atArgs (k0_part45 (F := F))
abbrev P46 := atArgs (k0_part46 (F := F))
abbrev P47 := atArgs (k0_part47 (F := F))
abbrev P48 := atArgs (k0_part48 (F := F))
abbrev P49 := atArgs (k0_part49 (F := F))
abbrev P50 := atArgs (k0_part50 (F := F))
abbrev P51 := atArgs (k0_part51 (F := F))
abbrev P52 := atArgs (k0_part52 (F := F))
abbrev P53 := atArgs (k0_part53 (F := F))
abbrev P54 := atArgs (k0_part54 (F := F))

end Cert.Kernel.Dist

end
-- ==== Proof.BBodyKits.lean ====
import proofs.«900988_g7700000000000989_dist_mlpseq_tp1d_bs_rep_b64_d1024_h2048_v7x_i4_f32_1_alg».proof.Proof.BDat
import proofs.«900988_g7700000000000989_dist_mlpseq_tp1d_bs_rep_b64_d1024_h2048_v7x_i4_f32_1_alg».proof.Proof.BTables
import proofs.«900988_g7700000000000989_dist_mlpseq_tp1d_bs_rep_b64_d1024_h2048_v7x_i4_f32_1_alg».proof.Proof.BLevels

noncomputable section

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

abbrev peer (j : Fin 3) : Dev nD := pr c (j.val + 1)

def sndKit (p : Fin 7) : sProp 𝕄 := bigSep Finset.univ fun j : Fin 3 =>
  iprop(dutyTok ER (sndCell c p j) 0 c ∗ atPos ER (sndCell c p j) 0 ∅ 0 ∗ dutyTok ER (rcvCell (peer c j) p c) 0 c)

def rcvKit (p : Fin 7) : sProp 𝕄 := bigSep Finset.univ fun j : Fin 3 =>
  iprop(cred (tallyAt (rcvCell c p (peer c j)) () (amt p)) ∗ atPos ER (rcvCell c p (peer c j)) 0 ∅ 0)

def wcpKit (l : Fin 3) : sProp 𝕄 := bigSep Finset.univ fun j : Fin 2 =>
  iprop(dutyTok ER (wcpCell c l j) 0 c ∗ atPos ER (wcpCell c l j) 0 ∅ 0)

def outKit : sProp 𝕄 := iprop(dutyTok ER (outCell c) 0 c ∗ atPos ER (outCell c) 0 ∅ 0)

def barKit : sProp 𝕄 :=
  iprop((bigSep Finset.univ fun j : Fin 3 => dutyTok ER (barCell (peer c j)) 0 c)
    ∗ cred (tallyAt (barCell c) () 3) ∗ atPos ER (barCell c) 0 ∅ 0)

def idleKit : sProp 𝕄 := bigSep Finset.univ fun p : Fin 7 => atPos ER (rcvCell c p c) 0 ∅ 0

def sndDone (p : Fin 7) : sProp 𝕄 := bigSep Finset.univ fun j : Fin 3 => atPos ER (sndCell c p j) 1 ∅ 0
def rcvDone (p : Fin 7) : sProp 𝕄 := bigSep Finset.univ fun j : Fin 3 => atPos ER (rcvCell c p (peer c j)) 1 ∅ 0
def wcpDone (l : Fin 3) : sProp 𝕄 := bigSep Finset.univ fun j : Fin 2 => atPos ER (wcpCell c l j) 1 ∅ 0
def outDone : sProp 𝕄 := atPos ER (outCell c) 1 ∅ 0

def owesX (k : ℕ) : sProp 𝕄 := iprop(∃ W : Waits sig Unit, owes (c : Thread nD τ) (rem c k) W)

end Cert.Kernel.Dist

end
-- ==== Proof.BBodyWait.lean ====
import proofs.«900988_g7700000000000989_dist_mlpseq_tp1d_bs_rep_b64_d1024_h2048_v7x_i4_f32_1_alg».proof.Proof.BTables
import proofs.«900988_g7700000000000989_dist_mlpseq_tp1d_bs_rep_b64_d1024_h2048_v7x_i4_f32_1_alg».proof.Proof.BLevels
import proofs.«900988_g7700000000000989_dist_mlpseq_tp1d_bs_rep_b64_d1024_h2048_v7x_i4_f32_1_alg».proof.Proof.BDat

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

def sndK (p : Fin 7) (j : Fin 3) : Fin 57 := ⟨3 * p.val + j.val, by have := p.isLt; have := j.isLt; omega⟩
def rcvK (p : Fin 7) (s : Dev nD) : Fin 57 := ⟨21 + 4 * p.val + s.val, by have := p.isLt; have h4 : s.val < 4 := s.isLt; omega⟩
def wcpK (l : Fin 3) (j : Fin 2) : Fin 57 := ⟨49 + 2 * l.val + j.val, by have := l.isLt; have := j.isLt; omega⟩
def outK : Fin 57 := ⟨55, by omega⟩
def barK : Fin 57 := ⟨56, by omega⟩

-- A cell numbered below 56 in the launch's enumeration is the DMA semaphore one above its number.
theorem kcell_dma (c : Dev nD) (k : Fin 57) (q : DmaSem sig) (h : k.val + 1 = q.val) :
    kcell (c, k) = ((c : Thread nD τ), SemLoc.dma q) := by
  have hq : q.val < 57 := q.isLt
  show ((c : Thread nD τ), csem k) = _
  unfold csem osem
  rw [dif_pos (show k.val < 56 by omega)]
  exact congrArg (fun x => ((c : Thread nD τ), SemLoc.dma x)) (Fin.ext h)
theorem kcell_snd (c : Dev nD) (p : Fin 7) (j : Fin 3) : kcell (c, sndK p j) = sndCell c p j :=
  kcell_dma c _ _ (by show 3 * p.val + j.val + 1 = 1 + 3 * p.val + j.val; omega)
theorem kcell_rcv (c : Dev nD) (p : Fin 7) (s : Dev nD) : kcell (c, rcvK p s) = rcvCell c p s :=
  kcell_dma c _ _ (by show 21 + 4 * p.val + s.val + 1 = 22 + 4 * p.val + s.val; omega)
theorem kcell_wcp (c : Dev nD) (l : Fin 3) (j : Fin 2) : kcell (c, wcpK l j) = wcpCell c l j :=
  kcell_dma c _ _ (by show 49 + 2 * l.val + j.val + 1 = 50 + 2 * l.val + j.val; omega)
theorem kcell_out (c : Dev nD) : kcell (c, outK) = outCell c := rfl
theorem kcell_bar (c : Dev nD) : kcell (c, barK) = barCell c := rfl

section Wait
variable (K : Dev nD × Fin 57 → ℕ) (c : Dev nD)

-- What a wait on cell `(c, sm)` for its whole round 0 of amount `a` proves: the round's payloads `P` come out, and `sm` is recorded among the waits.
abbrev WaitAt {Γ : PendingWaitsCtx sig Unit} {Es : Set ℕ} {α : Type} (Q : α → sProp 𝕄)
    (k : PUnit → Prog (TpuEff nD τ sig (Elt F) Λ₀ .tc) α) (w : TpuEff nD τ sig (Elt F) Λ₀ .tc PUnit) (sm : SemLoc sig) (a : ℕ)
    (O : CellTallies nD τ sig Unit) (W : Waits sig Unit) (P : sProp 𝕄) : Prop :=
  iprop(records m K ∗ cred (tallyAt ((c : Thread nD τ), sm) () a) ∗ owes (c : Thread nD τ) O W
      ∗ levAts L lv ∗ atPos ER ((c : Thread nD τ), sm) 0 ∅ 0)
    ⊢ iprop(((owes (c : Thread nD τ) O (insert (sm, ()) W)
            ∗ atPos ER ((c : Thread nD τ), sm) 1 ∅ 0 ∗ reached ER ((c : Thread nD τ), sm) 1 ∗ P)
          -∗ wp frame (wpE' (defs₀ (F := F)) 𝒱₀ (c : Thread nD τ) none Γ) Es (k ⟨⟩) Q)
        -∗ wp frame (wpE' (defs₀ (F := F)) 𝒱₀ (c : Thread nD τ) none Γ) Es (.op w k) Q)

private theorem wait_at {Γ : PendingWaitsCtx sig Unit} {Es : Set ℕ} {α : Type} {Q : α → sProp 𝕄}
    {k : PUnit → Prog (TpuEff nD τ sig (Elt F) Λ₀ .tc) α} (hEs : ∀ ck, K ck ∈ Es)
    {w : TpuEff nD τ sig (Elt F) Λ₀ .tc PUnit} {sm : SemLoc sig} {a : ℕ} {O : CellTallies nD τ sig Unit} {P : sProp 𝕄}
    (hw : ∀ K' : PUnit → sProp 𝕄, wpE' (defs₀ (F := F)) 𝒱₀ (c : Thread nD τ) none Γ Es w K'
      = waitSpec (c : Thread nD τ) Es sm a K')
    (κ : Fin 57) (hκ : kcell (c, κ) = ((c : Thread nD τ), sm))
    (he : (Rd (F := F) m).expect ((c : Thread nD τ), sm) 0 = a)
    (hr : bigSep ((Rd (F := F) m).duties ((c : Thread nD τ), sm) 0 \ ∅)
      (fun d => (Rd (F := F) m).payload ((c : Thread nD τ), sm) 0 d) = P)
    (hm : (levAts L lv : sProp 𝕄) ⊢ MayWait (c : Thread nD τ) sm () O) (W : Waits sig Unit) :
    WaitAt m K c (Γ := Γ) (Es := Es) Q k w sm a O W P := by
  subst hr
  have hi := inv_at m K (c, κ); rw [hκ] at hi
  exact (sep_mono_left hi).trans ((sep_mono_right (sep_mono_right (sep_mono_right (sep_mono_left hm)))).trans
    (Rounds.wp_wait_rest_token 𝒱₀ ER (Rd (F := F) m) (c : Thread nD τ) none hw (hEs _) () (R := 0) (m := 0) (T := ∅)
      (by rw [Nat.zero_add, he])))

-- With no pending waits around it, a wait on a DMA semaphore is the plain wait for the destination's amount.
private theorem hw_dma {Γ : PendingWaitsCtx sig Unit} {Es : Set ℕ} (hΓ : Γ.encl = []) {q : DmaSem sig} {a : ℕ}
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = a) (K' : PUnit → sProp 𝕄) :
    wpE' (defs₀ (F := F)) 𝒱₀ (c : Thread nD τ) none Γ Es (.waitDma2 q src dst hsrc hdst) K'
      = waitSpec (c : Thread nD τ) Es (.dma q) a K' := by
  rw [← hcr]
  exact (wpE'_waitDma2_eq 𝒱₀ (c : Thread nD τ) none Es Γ K').trans
    (waitSpecUnderPending_of_unpolled (c : Thread nD τ) Es (by rw [hΓ]; rfl) K')

theorem rcv_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (s : Dev nD) (hs : s ≠ c) (kk : ℕ) (hk : kk + 3 * (p.val + 1) ≤ 21) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = amt p) :
    WaitAt m K c (Γ := Γ) (Es := Es) Q k (.waitDma2 (rcvS p s) src dst hsrc hdst) (.dma (rcvS p s)) (amt p) (rem c kk) W (rcvPay m c p s) :=
  wait_at m K c hEs (hw_dma c hΓ hcr) (rcvK p s) (kcell_rcv c p s) (expect_rcv m c p s hs) (rest_rcv m c p s hs)
    (mayWait_rcv c p s kk hk) W

theorem snd_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (j : Fin 3) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = amt p) :
    WaitAt m K c (Γ := Γ) (Es := Es) Q k (.waitDma2 (sndS p j) src dst hsrc hdst) (.dma (sndS p j)) (amt p) (rem c kk) W (sndPay m c p j) :=
  wait_at m K c hEs (hw_dma c hΓ hcr) (sndK p j) (kcell_snd c p j) (expect_snd m c p j) (rest_snd m c p j)
    (mayWait_low c (sndS p j) (by have := p.isLt; have := j.isLt; rw [sndS_val]; omega) kk hk) W

theorem wcp_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (l : Fin 3) (j : Fin 2) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = Nw) :
    WaitAt m K c (Γ := Γ) (Es := Es) Q k (.waitDma2 (wcpS l j) src dst hsrc hdst) (.dma (wcpS l j)) Nw (rem c kk) W (wcpPay m c l j) :=
  wait_at m K c hEs (hw_dma c hΓ hcr) (wcpK l j) (kcell_wcp c l j) (expect_wcp m c l j) (rest_wcp m c l j)
    (mayWait_low c (wcpS l j) (by have := l.isLt; have := j.isLt; rw [wcpS_val]; omega) kk hk) W

theorem out_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
     (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (hcr : dst.view.dmaCredit = Nf) :
    WaitAt m K c (Γ := Γ) (Es := Es) Q k (.waitDma2 outS src dst hsrc hdst) (.dma outS) Nf (rem c kk) W (outcPay m c) :=
  wait_at m K c hEs (hw_dma c hΓ hcr) outK (kcell_out c) (expect_out m c) (rest_out m c)
    (mayWait_low c outS (by rw [outS_val]; omega) kk hk) W

theorem bar_wait {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es) (W : Waits sig Unit) :
    WaitAt m K c (Γ := Γ) (Es := Es) Q k (.semWait barS 3) (.reg barS) 3 (rem c 21) W iprop(barPay (F := F) c (pr c 1) ∗ barPay (F := F) c (pr c 2) ∗ barPay (F := F) c (pr c 3)) :=
  wait_at m K c hEs (fun K' => (wpE'_semWait_eq 𝒱₀ (c : Thread nD τ) none Es Γ K').trans
    (waitSpecUnderPending_of_unpolled (c : Thread nD τ) Es (by rw [hΓ]; rfl) K')) barK (kcell_bar c) (expect_bar m c)
    (rest_bar m c) (mayWait_bar c) W

end Wait

end Cert.Kernel.Dist

end
-- ==== Proof.BBodyEnds.lean ====
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BGhost
import proofs.«900988_g7700000000000989_dist_mlpseq_tp1d_bs_rep_b64_d1024_h2048_v7x_i4_f32_1_alg».proof.Proof.BCred
import Mathlib.Data.Fintype.EquivFin

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev CellIx : Type := Unit ⊕ (Fin 7 × Fin 3) ⊕ (Fin 7 × Fin 3) ⊕ Fin 7 ⊕ (Fin 3 × Fin 2) ⊕ Unit

def cellIx (c : Dev nD) : CellIx → Fin 57
  | .inl _ => barK
  | .inr (.inl pj) => sndK pj.1 pj.2
  | .inr (.inr (.inl pj)) => rcvK pj.1 (peer c pj.2)
  | .inr (.inr (.inr (.inl p))) => rcvK p c
  | .inr (.inr (.inr (.inr (.inl lj)))) => wcpK lj.1 lj.2
  | .inr (.inr (.inr (.inr (.inr _)))) => outK

theorem cellIx_bijective (c : Dev nD) : Function.Bijective (cellIx c) := by
  rw [Fintype.bijective_iff_injective_and_card]
  exact ⟨by revert c; decide +kernel, by decide +kernel⟩

abbrev TokIx : Type := Fin 3 ⊕ (Fin 7 × Fin 3) ⊕ (Fin 7 × Fin 3) ⊕ (Fin 3 × Fin 2) ⊕ Unit

def tokIx (c : Dev nD) : TokIx → Dev nD × Fin 57
  | .inl j => (peer c j, barK)
  | .inr (.inl pj) => (c, sndK pj.1 pj.2)
  | .inr (.inr (.inl pj)) => (peer c pj.2, rcvK pj.1 c)
  | .inr (.inr (.inr (.inl lj))) => (c, wcpK lj.1 lj.2)
  | .inr (.inr (.inr (.inr _))) => (c, outK)

theorem tokIx_injective (c : Dev nD) : Function.Injective (tokIx c) := by revert c; decide +kernel

theorem tokIx_image (c : Dev nD) :
    (Finset.univ.filter fun ck : Dev nD × Fin 57 => c ∈ dutiesOf ck.1 (csem ck.2)) = Finset.univ.image (tokIx c) := by
  revert c; decide +kernel

private theorem payToks_ix (c : Dev nD) : payToks m c = bigSep Finset.univ fun i : TokIx => (dutyTok ER (kcell (tokIx c i)) 0 c : sProp 𝕄) :=
  calc payToks m c
      = bigSep Finset.univ fun ck : Dev nD × Fin 57 =>
          (if c ∈ dutiesOf ck.1 (csem ck.2) then dutyTok ER (kcell ck) 0 c else iprop(emp) : sProp 𝕄) := by
        unfold payToks; exact bigSep_congr fun ck _ => by rw [duties_kcell]
    _ = bigSep (Finset.univ.filter fun ck : Dev nD × Fin 57 => c ∈ dutiesOf ck.1 (csem ck.2))
          fun ck => (dutyTok ER (kcell ck) 0 c : sProp 𝕄) := (bigSep_filter _ _ _).symm
    _ = _ := by classical rw [tokIx_image, bigSep_image_of_injOn ((tokIx_injective c).injOn)]

theorem unpack (c : Dev nD) :
    iprop(positions (F := F) c ∗ payToks m c ∗ creds (F := F) c)
      ⊢ iprop(barKit c ∗ (bigSep Finset.univ fun p : Fin 7 => iprop(sndKit c p ∗ rcvKit c p))
          ∗ (bigSep Finset.univ fun l : Fin 3 => wcpKit c l) ∗ outKit c ∗ idleKit c) := by
  unfold positions
  rw [bigSep_univ_equiv (Equiv.ofBijective _ (cellIx_bijective c)), payToks_ix]
  iterate 9 rw [bigSep_univ_sum]
  iterate 6 rw [bigSep_univ_prod]
  iterate 3 rw [bigSep_univ_of_subsingleton ()]
  simp only [Equiv.ofBijective_apply, cellIx, tokIx, kcell_snd, kcell_rcv, kcell_wcp, kcell_out, kcell_bar]
  show iprop((_ ∗ _ ∗ _ ∗ _ ∗ _ ∗ _) ∗ (_ ∗ _ ∗ _ ∗ _ ∗ _) ∗ _) ⊢ _
  unfold creds barKit sndKit rcvKit wcpKit outKit idleKit
  rw [bigSep_univ_prod]
  simp only [bigSep_sep']
  iintro ⟨⟨Pb, Ps, Pr, Pi, Pw, Po⟩, ⟨Tb, Ts, Tr, Tw, To⟩, Cb, Cr⟩
  iframe

abbrev OwnIx : Type := (Fin 7 × Fin 3) ⊕ (Fin 7 × Fin 3) ⊕ Fin 7 ⊕ (Fin 3 × Fin 2) ⊕ Unit

theorem cellIx_own_lt (c : Dev nD) (i : OwnIx) : (cellIx c (.inr i)).val < 56 := by revert c i; decide +kernel

def ownIx (c : Dev nD) (i : OwnIx) : Fin 56 := ⟨(cellIx c (.inr i)).val, cellIx_own_lt c i⟩

theorem ownIx_bijective (c : Dev nD) : Function.Bijective (ownIx c) := by
  rw [Fintype.bijective_iff_injective_and_card]
  exact ⟨by revert c; decide +kernel, by decide +kernel⟩

theorem kcell_own (c : Dev nD) (i : OwnIx) : ((c : Thread nD τ), osem (ownIx c i)) = kcell (c, cellIx c (.inr i)) := by
  show _ = ((c : Thread nD τ), csem (cellIx c (.inr i)))
  rw [← csem_castSucc (ownIx c i)]; rfl

section Close
variable (K : Dev nD × Fin 57 → ℕ) (Es : Set ℕ)

/-- A cell whose duties are over from round `R` on gives its semaphore back at zero. -/
theorem close_cell (hEs : ∀ ck, K ck ∈ Es) {ck : Dev nD × Fin 57} {x : GSem nD τ sig} (hx : kcell ck = x) (R : ℕ)
    (hR : ∀ r, R ≤ r → (Rd (F := F) m).duties x r = ∅) :
    iprop(records m K ∗ atPos ER x R ∅ 0) ⊢ iprop(|={Es}=> semVal x 0) := by
  subst hx
  iintro ⟨#Hrec, Hat⟩
  iapply (Rounds.cell_close ER (Rd (F := F) m) (hEs ck) (fun h => h) hR)
  isplitr
  · iapply (inv_at m K ck); iexact Hrec
  iexact Hat

theorem close_family {I : Type} [DecidableEq I] (S : Finset I) {Φ Ψ : I → sProp 𝕄}
    (h : ∀ i, iprop(records m K ∗ Φ i) ⊢ iprop(|={Es}=> Ψ i)) :
    iprop(records m K ∗ bigSep S Φ) ⊢ iprop(|={Es}=> bigSep S Ψ) :=
  (bigSep_with_persistent (R := records m K) fun i _ => h i).trans (bigSep_fupd _ _)

theorem close_all (hEs : ∀ ck, K ck ∈ Es) (c : Dev nD) :
    iprop(records m K ∗ (bigSep Finset.univ fun p : Fin 7 => iprop(sndDone c p ∗ rcvDone c p))
        ∗ (bigSep Finset.univ fun l : Fin 3 => wcpDone c l) ∗ outDone c ∗ idleKit c)
      ⊢ iprop(|={Es}=> Pipeline.ownSems0 (Ix := Unit) (Name := ℕ) (U := UU) (Lvl := ℕ) (Val := Elt F) (τ := τ) osem c) := by
  unfold Pipeline.ownSems0 sndDone rcvDone wcpDone outDone idleKit
  rw [bigSep_univ_equiv (Equiv.ofBijective _ (ownIx_bijective c))]
  simp only [Equiv.ofBijective_apply, kcell_own]
  rw [bigSep_univ_sum, bigSep_univ_sum, bigSep_univ_sum, bigSep_univ_sum,
    bigSep_univ_prod, bigSep_univ_prod, bigSep_univ_prod, bigSep_univ_of_subsingleton (), bigSep_sep']
  simp only [cellIx, kcell_snd, kcell_rcv, kcell_wcp, kcell_out]
  show _ ⊢ iprop(|={Es}=> (_ ∗ _ ∗ _ ∗ _ ∗ _))
  have hI (p : Fin 7) (r : ℕ) (_ : 0 ≤ r) : (Rd (F := F) m).duties (rcvCell c p c) r = ∅ := by
    rcases r.eq_zero_or_pos with rfl | hr
    exacts [duties_rcv_self m c p, duties_later m _ r hr]
  iintro ⟨#Hrec, ⟨Hs, Hr⟩, Hw, Ho, Hi⟩
  imod (close_family m K Es Finset.univ fun p : Fin 7 => close_family m K Es Finset.univ fun j : Fin 3 => close_cell m K Es hEs (kcell_snd c p j) 1 (duties_later m _)) $$ [$] with Hs
  imod (close_family m K Es Finset.univ fun p : Fin 7 => close_family m K Es Finset.univ fun j : Fin 3 => close_cell m K Es hEs (kcell_rcv c p (peer c j)) 1 (duties_later m _)) $$ [$] with Hr
  imod (close_family m K Es Finset.univ fun p : Fin 7 => close_cell m K Es hEs (kcell_rcv c p c) 0 (hI p)) $$ [$] with Hi
  imod (close_family m K Es Finset.univ fun l : Fin 3 => close_family m K Es Finset.univ fun j : Fin 2 => close_cell m K Es hEs (kcell_wcp c l j) 1 (duties_later m _)) $$ [$] with Hw
  imod (close_cell m K Es hEs (kcell_out c) 1 (duties_later m _)) $$ [$] with Ho
  imodintro
  iframe

end Close

end Cert.Kernel.Dist

end
-- ==== Proof.BBodyVal.lean ====
import proofs.«900988_g7700000000000989_dist_mlpseq_tp1d_bs_rep_b64_d1024_h2048_v7x_i4_f32_1_alg».proof.Proof.BTables

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem pts_quarters {sp : Space} {s : Shape} {e : EltTy} (M : Memref sig .tc sp s e) (d : Dev nD)
    (f : Buf (Elt F) (M.view.loc (d : Thread nD τ))) :
    (pts (F := F) M d fullShare f) ⊣⊢ iprop(pts (F := F) M d (q4 0) f ∗ pts (F := F) M d (q4 1) f ∗ pts (F := F) M d (q4 2) f ∗ pts (F := F) M d (q4 3) f) := by
  have hs : ∀ q : PosShare TreeShare, (pts (F := F) M d q f) = iprop(pts (F := F) M d q.left f ∗ pts (F := F) M d q.right f) := fun q =>
    BI.equiv_iff.mp ⟨(pointsTo_share (PosShare.mem_left_op_right q)).1, (pointsTo_share (PosShare.mem_left_op_right q)).2⟩
  show _ ⊣⊢ iprop(pts (F := F) M d fullShare.left.left f ∗ pts (F := F) M d fullShare.left.right f ∗ pts (F := F) M d fullShare.right.left f ∗ pts (F := F) M d fullShare.right.right f)
  rw [hs fullShare, hs fullShare.left, hs fullShare.right]
  exact ⟨sep_assoc.1, sep_assoc.2⟩

theorem pointsTo_cover {ℓ : Loc nD τ sig} {T : Type} [Fintype T] [DecidableEq T] (K : T → Finset (Idx ℓ)) (cls : Idx ℓ → T)
    (h : ∀ i t, i ∈ K t ↔ cls i = t) (q : PosShare TreeShare) (f : Buf (Elt F) ℓ) :
    (ℓ ↦{q} f : sProp 𝕄) = bigSep Finset.univ fun t => (ℓ ↦[K t]{q} f : sProp 𝕄) := by
  have hU : (Finset.univ : Finset (Idx ℓ)) = Finset.univ.biUnion K := by
    ext i; simp only [Finset.mem_univ, Finset.mem_biUnion, true_and, true_iff]; exact ⟨cls i, (h i _).mpr rfl⟩
  show pointsTo ℓ Finset.univ q f = _
  rw [hU]
  exact pointsTo_biUnion Finset.univ K (fun t _ t' _ hne => Finset.disjoint_left.mpr fun i hi hi' =>
    hne (((h i t).mp hi).symm.trans ((h i t').mp hi')))

theorem bigSep_ring (c : Dev nD) (Φ : Dev nD → sProp 𝕄) :
    bigSep Finset.univ Φ = iprop(Φ c ∗ Φ (pr c 1) ∗ Φ (pr c 2) ∗ Φ (pr c 3)) :=
  bigSep_univ_eq_bigSepL [c, pr c 1, pr c 2, pr c 3] (by revert c; decide) (by revert c; decide) Φ

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin2 (Φ : Fin 2 → sProp 𝕄) : bigSep Finset.univ Φ = iprop(Φ 0 ∗ Φ 1) := bigSep_fin_two Φ

theorem mem_psM_set (s : Dev nD) (i : S256x1024.Idx) : i ∈ (psM s).view.set ↔ rowDev (i 0) = s := by
  have h : (psM s).view.set = (Rect.unit (s := S256x1024) ![64 * s.val, 0] S64x1024.size (rows_inb s)).set := View.set_slice_whole _ _
  refine (Finset.ext_iff.mp h i).trans (Rect.mem_set_unit.trans (Iff.trans ?_ Fin.ext_iff.symm))
  have hi1 : (i 1).val < 1024 := (i 1).isLt
  rw [Fin.forall_fin_two]
  show (64 * s.val ≤ (i 0).val ∧ (i 0).val < 64 * s.val + 64) ∧ (0 ≤ (i 1).val ∧ (i 1).val < 0 + 1024) ↔ (i 0).val / 64 = s.val
  omega

theorem ps_pieces (c : Dev nD) (q : PosShare TreeShare) (f : Vec F S256x1024 .bf16) :
    (((c : Thread nD τ).loc cc0_scratch2) ↦{q} f : sProp 𝕄) = bigSep Finset.univ fun s : Dev nD => pts (F := F) (psM s) c q f :=
  pointsTo_cover (F := F) (ℓ := (c : Thread nD τ).loc cc0_scratch2) (fun s : Dev nD => (psM s).view.set) (fun i : S256x1024.Idx => rowDev (i 0)) (fun (i : S256x1024.Idx) t => mem_psM_set t i) q f

theorem ps_ring (c : Dev nD) (q : PosShare TreeShare) (f : Vec F S256x1024 .bf16) :
    (((c : Thread nD τ).loc cc0_scratch2) ↦{q} f : sProp 𝕄)
      = iprop(pts (F := F) (psM c) c q f ∗ pts (F := F) (psM (pr c 1)) c q f ∗ pts (F := F) (psM (pr c 2)) c q f ∗ pts (F := F) (psM (pr c 3)) c q f) := by
  rw [ps_pieces, bigSep_ring c]

theorem mem_actsM_set (l : Fin 3) (s : Dev nD) (i : S3x256x1024.Idx) :
    i ∈ (actsM l s).view.set ↔ ((i 0 : Fin 3) = l ∧ rowDev (i 1) = s) := by
  have h : (actsM l s).view.set = (Rect.unit (s := S3x256x1024) ![l.val, 64 * s.val, 0] S1x64x1024.size (acts_inb l s)).set :=
    (Memref.set_view_squeeze (s' := S64x1024) _ squeezes_S1x64x1024_S64x1024).trans (View.set_slice_whole _ _)
  refine (Finset.ext_iff.mp h i).trans (Rect.mem_set_unit.trans (Iff.trans ?_ (and_congr Fin.ext_iff Fin.ext_iff).symm))
  have hi2 : (i 2).val < 1024 := (i 2).isLt
  rw [Fin.forall_fin_succ, Fin.forall_fin_two]
  show (l.val ≤ (i 0).val ∧ (i 0).val < l.val + 1) ∧ (64 * s.val ≤ (i 1).val ∧ (i 1).val < 64 * s.val + 64) ∧ (0 ≤ (i 2).val ∧ (i 2).val < 0 + 1024)
    ↔ (i 0).val = l.val ∧ (i 1).val / 64 = s.val
  omega

theorem acts_pieces (c : Dev nD) (q : PosShare TreeShare) (f : Vec F S3x256x1024 .bf16) :
    (((c : Thread nD τ).loc cc0_scratch0) ↦{q} f : sProp 𝕄)
      = bigSep Finset.univ fun l : Fin 3 => bigSep Finset.univ fun s : Dev nD => pts (F := F) (actsM l s) c q f := by
  rw [pointsTo_cover (F := F) (ℓ := (c : Thread nD τ).loc cc0_scratch0) (fun ls : Fin 3 × Dev nD => (actsM ls.1 ls.2).view.set)
    (fun i : S3x256x1024.Idx => ((i 0, rowDev (i 1)) : Fin 3 × Dev nD)) (fun (i : S3x256x1024.Idx) t => (mem_actsM_set t.1 t.2 i).trans (Prod.ext_iff (x := ((i 0 : Fin 3), rowDev (i 1))) (y := t)).symm) q f,
    bigSep_univ_prod]
  rfl

abbrev actsL (c : Dev nD) (q : PosShare TreeShare) (f : Vec F S3x256x1024 .bf16) (l : Fin 3) : sProp 𝕄 :=
  iprop(pts (F := F) (actsM l c) c q f ∗ pts (F := F) (actsM l (pr c 1)) c q f ∗ pts (F := F) (actsM l (pr c 2)) c q f ∗ pts (F := F) (actsM l (pr c 3)) c q f)

theorem acts_ring (c : Dev nD) (q : PosShare TreeShare) (f : Vec F S3x256x1024 .bf16) :
    (((c : Thread nD τ).loc cc0_scratch0) ↦{q} f : sProp 𝕄) = iprop(actsL c q f 0 ∗ actsL c q f 1 ∗ actsL c q f 2) := by
  rw [acts_pieces, bigSep_fin3, bigSep_ring c, bigSep_ring c, bigSep_ring c]

theorem mem_rsM_set (l : Fin 3) (s : Dev nD) (i : S3x4x64x1024.Idx) :
    i ∈ (rsM l s).view.set ↔ ((i 0 : Fin 3) = l ∧ (i 1 : Dev nD) = s) := by
  have h : (rsM l s).view.set = (Rect.unit (s := S3x4x64x1024) ![l.val, s.val, 0, 0] S1x1x64x1024.size (rs_inb l s)).set :=
    (Memref.set_view_squeeze (s' := S64x1024) _ squeezes_S1x1x64x1024_S64x1024).trans (View.set_slice_whole _ _)
  refine (Finset.ext_iff.mp h i).trans (Rect.mem_set_unit.trans (Iff.trans ?_ (and_congr Fin.ext_iff Fin.ext_iff).symm))
  have hi2 : (i 2).val < 64 := (i 2).isLt
  have hi3 : (i 3).val < 1024 := (i 3).isLt
  rw [Fin.forall_fin_succ, Fin.forall_fin_succ, Fin.forall_fin_two]
  show (l.val ≤ (i 0).val ∧ (i 0).val < l.val + 1) ∧ (s.val ≤ (i 1).val ∧ (i 1).val < s.val + 1) ∧ (0 ≤ (i 2).val ∧ (i 2).val < 0 + 64)
    ∧ (0 ≤ (i 3).val ∧ (i 3).val < 0 + 1024) ↔ (i 0).val = l.val ∧ (i 1).val = s.val
  omega

theorem rs_pieces (c : Dev nD) (q : PosShare TreeShare) (f : Vec F S3x4x64x1024 .bf16) :
    (((c : Thread nD τ).loc cc0_scratch1) ↦{q} f : sProp 𝕄)
      = bigSep Finset.univ fun l : Fin 3 => bigSep Finset.univ fun s : Dev nD => pts (F := F) (rsM l s) c q f := by
  rw [pointsTo_cover (F := F) (ℓ := (c : Thread nD τ).loc cc0_scratch1) (fun ls : Fin 3 × Dev nD => (rsM ls.1 ls.2).view.set)
    (fun i : S3x4x64x1024.Idx => ((i 0, i 1) : Fin 3 × Dev nD)) (fun (i : S3x4x64x1024.Idx) t => (mem_rsM_set t.1 t.2 i).trans (Prod.ext_iff (x := ((i 0 : Fin 3), (i 1 : Dev nD))) (y := t)).symm) q f,
    bigSep_univ_prod]
  rfl

abbrev rsL (c : Dev nD) (q : PosShare TreeShare) (f : Vec F S3x4x64x1024 .bf16) (l : Fin 3) : sProp 𝕄 :=
  iprop(pts (F := F) (rsM l c) c q f ∗ pts (F := F) (rsM l (pr c 1)) c q f ∗ pts (F := F) (rsM l (pr c 2)) c q f ∗ pts (F := F) (rsM l (pr c 3)) c q f)

theorem rs_ring (c : Dev nD) (q : PosShare TreeShare) (f : Vec F S3x4x64x1024 .bf16) :
    (((c : Thread nD τ).loc cc0_scratch1) ↦{q} f : sProp 𝕄) = iprop(rsL c q f 0 ∗ rsL c q f 1 ∗ rsL c q f 2) := by
  rw [rs_pieces, bigSep_fin3, bigSep_ring c, bigSep_ring c, bigSep_ring c]

section Steps

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

abbrev psR : Rect S256x1024 := Rect.unit (s := S256x1024) ![0, 0] S256x1024.size inb_S256x1024_S256x1024_0_0

theorem psR_off : (![0, 0] : Fin S256x1024.rank → Nat) = fun _ => 0 := by funext a; fin_cases a <;> rfl

theorem wp_ps_store (c : Dev nD) (f : Vec F S256x1024 .bf16) (w : Vec F S256x1024 .bf16)
    {hl : (Memref.whole cc0_scratch2 : Memref sig .tc .vmem S256x1024 .bf16).view.LoadsAt psR.toLoadRect}
    {hx : ((Memref.whole cc0_scratch2 : Memref sig .tc .vmem S256x1024 .bf16).access psR).Stores Finset.univ}
    {hm : (Finset.univ : Finset psR.shape.Idx) = Finset.univ ∨ ∀ a, psR.stride a = 1}
    {k : PUnit → Prog (TpuEff nD τ sig (Elt F) Λ₀ .tc) α} :
    iprop(pts (F := F) (psM c) c fullShare f ∗ pts (F := F) (psM (pr c 1)) c fullShare f ∗ pts (F := F) (psM (pr c 2)) c fullShare f ∗ pts (F := F) (psM (pr c 3)) c fullShare f)
      ⊢ iprop((iprop(pts (F := F) (psM c) c fullShare w ∗ pts (F := F) (psM (pr c 1)) c fullShare w ∗ pts (F := F) (psM (pr c 2)) c fullShare w ∗ pts (F := F) (psM (pr c 3)) c fullShare w)
            -∗ wp frame (wpE' defs 𝒱 (c : Thread nD τ) bd Γ) E (k ⟨⟩) Q)
          -∗ wp frame (wpE' defs 𝒱 (c : Thread nD τ) bd Γ) E
              (.op (.load (Memref.whole cc0_scratch2) psR.toLoadRect hl) fun _ =>
                .op (.store (Memref.whole cc0_scratch2) psR w Finset.univ hx hm) k) Q) := by
  rw [← ps_ring c fullShare f, ← ps_ring c fullShare w]
  iintro H Hk
  iapply (wp_load 𝒱 (c : Thread nD τ) bd E (m := (Memref.whole cc0_scratch2 : Memref sig .tc .vmem S256x1024 .bf16)) (r := psR.toLoadRect)
    (S := Finset.univ) (Finset.subset_univ _)) $$ H
  iintro H
  iapply (wp_store 𝒱 (c : Thread nD τ) bd E (m := (Memref.whole cc0_scratch2 : Memref sig .tc .vmem S256x1024 .bf16))
    (r := psR) (f := f) (S := Finset.univ) (Finset.subset_univ _)) $$ H
  rw [show ((Memref.whole cc0_scratch2 : Memref sig .tc .vmem S256x1024 .bf16).access psR).write (Elt F) f w Finset.univ = w from
    Memref.write_access_unit_zero_univ (Elt F) cc0_scratch2 psR_off _ f w]
  iexact Hk

end Steps

end Cert.Kernel.Dist

end
-- ==== Proof.BBodyWb.lean ====
import proofs.«900988_g7700000000000989_dist_mlpseq_tp1d_bs_rep_b64_d1024_h2048_v7x_i4_f32_1_alg».proof.Proof.BProto

noncomputable section

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.ValueIdx

variable {F : FTy → Type} [FloatOps F]

local notation "𝕄" => MT nD τ sig Unit (Elt F) ℕ UU ℕ

def wb1M (b : Fin 2) : Memref sig .tc .vmem S1x1024x2048 .bf16 :=
  match b with
  | 0 => (Memref.whole cc0_scratch5 : Memref sig .tc .vmem S2x1024x2048 .bf16).slice (Rect.unit (s := S2x1024x2048) ![0, 0, 0] S1x1024x2048.size inb_S2x1024x2048_S1x1024x2048_0_0_0) (fun _ => rfl)
  | 1 => (Memref.whole cc0_scratch5 : Memref sig .tc .vmem S2x1024x2048 .bf16).slice (Rect.unit (s := S2x1024x2048) ![1, 0, 0] S1x1024x2048.size inb_S2x1024x2048_S1x1024x2048_1_0_0) (fun _ => rfl)

def wb2M (b : Fin 2) : Memref sig .tc .vmem S1x2048x1024 .bf16 :=
  match b with
  | 0 => (Memref.whole cc0_scratch6 : Memref sig .tc .vmem S2x2048x1024 .bf16).slice (Rect.unit (s := S2x2048x1024) ![0, 0, 0] S1x2048x1024.size inb_S2x2048x1024_S1x2048x1024_0_0_0) (fun _ => rfl)
  | 1 => (Memref.whole cc0_scratch6 : Memref sig .tc .vmem S2x2048x1024 .bf16).slice (Rect.unit (s := S2x2048x1024) ![1, 0, 0] S1x2048x1024.size inb_S2x2048x1024_S1x2048x1024_1_0_0) (fun _ => rfl)

variable (m : (ℓ : Loc nD τ sig) → Buf (Elt F) ℓ)

def wb1B (l : Fin 3) (c : Dev nD) : Vec F S2x1024x2048 .bf16 :=
  fun i => k0_pay2 (up1024x2048 (W1 (F := F) m l c)) (ix3 (0 : Fin 1) (i 1) (i 2))
def wb2B (l : Fin 3) (c : Dev nD) : Vec F S2x2048x1024 .bf16 :=
  fun i => k0_pay3 (up2048x1024 (W2 (F := F) m l c)) (ix3 (0 : Fin 1) (i 1) (i 2))

end Cert.Kernel.Dist

end
-- ==== Proof.BBodyOpen.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyEnds
import proofs.«900988_g7700000000000989_dist_mlpseq_tp1d_bs_rep_b64_d1024_h2048_v7x_i4_f32_1_alg».proof.Proof.BBodyVal
import proofs.«900988_g7700000000000989_dist_mlpseq_tp1d_bs_rep_b64_d1024_h2048_v7x_i4_f32_1_alg».proof.Proof.BBodyWb

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem pts_ptsE {sp : Space} {s : Shape} {e : EltTy} (M : Memref sig .tc sp s e) (d : Dev nD)
    (f : Buf (Elt F) (M.view.loc (d : Thread nD τ))) : pts (F := F) M d fullShare f ⊢ ptsE (F := F) M d := by
  unfold pts ptsE; iintro H; iexists f; iexact H

theorem ent_of_eq {P Q : sProp 𝕄} (h : P = Q) : P ⊢ Q := by subst h; iintro H; iexact H

theorem pts_whole (b : Ref sig .tc) (c : Dev nD) (q : PosShare TreeShare) (f : Buf (Elt F) ((c : Thread nD τ).loc b)) :
    (((c : Thread nD τ).loc b) ↦{q} f : sProp 𝕄) = (((c : Thread nD τ).loc b) ↦[(View.whole b : View sig .tc _ _ _).set]{q} f : sProp 𝕄) :=
  congrArg (fun S => (pointsTo ((c : Thread nD τ).loc b) S q f : sProp 𝕄)) (View.set_whole b).symm

private theorem mem_slot {n0 n1 : Nat} (i : (⟨3, ![2, n0, n1]⟩ : Shape).Idx) {V : Finset (⟨3, ![2, n0, n1]⟩ : Shape).Idx} (b : Fin 2) {inb}
    (h : V = (Rect.unit (s := ⟨3, ![2, n0, n1]⟩) ![b.val, 0, 0] ![1, n0, n1] inb).set) : i ∈ V ↔ (i 0 : Fin 2) = b := by
  have hb := b.isLt
  have hi0 : (i 0).val < 2 := (i 0).isLt
  have hi1 : (i 1).val < n0 := (i 1).isLt
  have hi2 : (i 2).val < n1 := (i 2).isLt
  subst h
  refine Rect.mem_set_unit.trans ?_
  rw [Fin.forall_fin_succ, Fin.forall_fin_two]
  show (b.val ≤ (i 0).val ∧ (i 0).val < b.val + 1) ∧ (0 ≤ (i 1).val ∧ (i 1).val < 0 + n0) ∧ (0 ≤ (i 2).val ∧ (i 2).val < 0 + n1) ↔ _
  constructor
  · intro H; exact Fin.ext (by show (i 0).val = b.val; omega)
  · intro H; have := congrArg Fin.val H; change (i 0).val = b.val at this; omega

def wv1K (b : Fin 2) : Finset S2x1024x2048.Idx := if b = 0 then (wv1M 0).view.set else (wv1M 1).view.set
def wv2K (b : Fin 2) : Finset S2x2048x1024.Idx := if b = 0 then (wv2M 0).view.set else (wv2M 1).view.set
def wb1K (b : Fin 2) : Finset S2x1024x2048.Idx := if b = 0 then (wb1M 0).view.set else (wb1M 1).view.set
def wb2K (b : Fin 2) : Finset S2x2048x1024.Idx := if b = 0 then (wb2M 0).view.set else (wb2M 1).view.set

theorem mem_wv1K (i : S2x1024x2048.Idx) (b : Fin 2) : i ∈ wv1K b ↔ (i 0 : Fin 2) = b := by
  match b with
  | 0 | 1 => exact mem_slot i _ ((Memref.set_view_squeeze (s' := S1024x2048) _ squeezes_S1x1024x2048_S1024x2048).trans (View.set_slice_whole _ _))
theorem mem_wv2K (i : S2x2048x1024.Idx) (b : Fin 2) : i ∈ wv2K b ↔ (i 0 : Fin 2) = b := by
  match b with
  | 0 | 1 => exact mem_slot i _ ((Memref.set_view_squeeze (s' := S2048x1024) _ squeezes_S1x2048x1024_S2048x1024).trans (View.set_slice_whole _ _))
theorem mem_wb1K (i : S2x1024x2048.Idx) (b : Fin 2) : i ∈ wb1K b ↔ (i 0 : Fin 2) = b := by
  match b with
  | 0 | 1 => exact mem_slot i _ (View.set_slice_whole _ _)
theorem mem_wb2K (i : S2x2048x1024.Idx) (b : Fin 2) : i ∈ wb2K b ↔ (i 0 : Fin 2) = b := by
  match b with
  | 0 | 1 => exact mem_slot i _ (View.set_slice_whole _ _)

theorem mem_outM_set (s : Dev nD) (i : S256x1024.Idx) : i ∈ (outM s).view.set ↔ rowDev (i 0) = s := by
  have h : (outM s).view.set = (psM s).view.set := (View.set_slice_whole _ _).trans (View.set_slice_whole _ _).symm
  rw [h]
  exact mem_psM_set s i

theorem out_ring (c : Dev nD) (q : PosShare TreeShare) (f : Vec F S256x1024 .f32) :
    (((c : Thread nD τ).loc main_v1) ↦{q} f : sProp 𝕄)
      = iprop(pts (F := F) (outM c) c q f ∗ pts (F := F) (outM (pr c 1)) c q f ∗ pts (F := F) (outM (pr c 2)) c q f ∗ pts (F := F) (outM (pr c 3)) c q f) := by
  rw [pointsTo_cover (F := F) (ℓ := (c : Thread nD τ).loc main_v1) (fun s : Dev nD => (outM s).view.set) (fun i : S256x1024.Idx => rowDev (i 0))
    (fun (i : S256x1024.Idx) t => mem_outM_set t i) q f, bigSep_ring c]
  rfl

theorem stg_whole (c : Dev nD) (q : PosShare TreeShare) (f : Vec F S64x1024 .f32) :
    (((c : Thread nD τ).loc cc0_scratch7) ↦{q} f : sProp 𝕄) = pts (F := F) stgM c q f := by
  unfold pts
  exact congrArg (fun S => (pointsTo ((c : Thread nD τ).loc cc0_scratch7) S q f : sProp 𝕄)) (View.set_whole cc0_scratch7).symm

private theorem pieces_open {ℓ : Loc nD τ sig} {T : Type} [Fintype T] (P : Buf (Elt F) ℓ → T → sProp 𝕄) (E : T → sProp 𝕄)
    (hp : ∀ f, (ℓ ↦{fullShare} f : sProp 𝕄) = bigSep Finset.univ (P f)) (he : ∀ f t, P f t ⊢ E t) :
    iprop(∃ f : Buf (Elt F) ℓ, ℓ ↦{fullShare} f) ⊢ bigSep Finset.univ E := by
  iintro ⟨%f, H⟩
  rw [hp f]
  exact bigSep_mono fun t _ => he f t

private theorem slots_open {ℓ : Loc nD τ sig} (K : Fin 2 → Finset (Idx ℓ)) (cls : Idx ℓ → Fin 2) (h : ∀ i b, i ∈ K b ↔ cls i = b) :
    iprop(∃ f : Buf (Elt F) ℓ, ℓ ↦{fullShare} f)
      ⊢ iprop((∃ f : Buf (Elt F) ℓ, (ℓ ↦[K 0]{fullShare} f : sProp 𝕄)) ∗ (∃ f : Buf (Elt F) ℓ, (ℓ ↦[K 1]{fullShare} f : sProp 𝕄))) := by
  iintro ⟨%f, H⟩
  icases (ent_of_eq ((pointsTo_cover (F := F) K cls h fullShare f).trans (bigSep_fin2 _))) $$ H with ⟨H0, H1⟩
  isplitl [H0]
  · iexists f; iexact H0
  · iexists f; iexact H1
theorem wv1_open (c : Dev nD) :
    iprop(∃ f : Buf (Elt F) ((c : Thread nD τ).loc cc0_scratch3), ((c : Thread nD τ).loc cc0_scratch3) ↦{fullShare} f)
      ⊢ (iprop(ptsE (F := F) (wv1M 0) c ∗ ptsE (F := F) (wv1M 1) c) : sProp 𝕄) :=
  slots_open (F := F) (ℓ := (c : Thread nD τ).loc cc0_scratch3) wv1K (fun i : S2x1024x2048.Idx => (i 0 : Fin 2)) mem_wv1K
theorem wv2_open (c : Dev nD) :
    iprop(∃ f : Buf (Elt F) ((c : Thread nD τ).loc cc0_scratch4), ((c : Thread nD τ).loc cc0_scratch4) ↦{fullShare} f)
      ⊢ (iprop(ptsE (F := F) (wv2M 0) c ∗ ptsE (F := F) (wv2M 1) c) : sProp 𝕄) :=
  slots_open (F := F) (ℓ := (c : Thread nD τ).loc cc0_scratch4) wv2K (fun i : S2x2048x1024.Idx => (i 0 : Fin 2)) mem_wv2K
theorem wb1_open (c : Dev nD) :
    iprop(∃ f : Buf (Elt F) ((c : Thread nD τ).loc cc0_scratch5), ((c : Thread nD τ).loc cc0_scratch5) ↦{fullShare} f)
      ⊢ (iprop(ptsE (F := F) (wb1M 0) c ∗ ptsE (F := F) (wb1M 1) c) : sProp 𝕄) :=
  slots_open (F := F) (ℓ := (c : Thread nD τ).loc cc0_scratch5) wb1K (fun i : S2x1024x2048.Idx => (i 0 : Fin 2)) mem_wb1K
theorem wb2_open (c : Dev nD) :
    iprop(∃ f : Buf (Elt F) ((c : Thread nD τ).loc cc0_scratch6), ((c : Thread nD τ).loc cc0_scratch6) ↦{fullShare} f)
      ⊢ (iprop(ptsE (F := F) (wb2M 0) c ∗ ptsE (F := F) (wb2M 1) c) : sProp 𝕄) :=
  slots_open (F := F) (ℓ := (c : Thread nD τ).loc cc0_scratch6) wb2K (fun i : S2x2048x1024.Idx => (i 0 : Fin 2)) mem_wb2K
variable (m : (ℓ : Loc nD τ sig) → Buf (Elt F) ℓ) (c : Dev nD)

def inventory (K : Dev nD × Fin 57 → ℕ) : sProp 𝕄 :=
  iprop(records m K ∗ levAts L lv
    ∗ barKit (F := F) c ∗ (bigSep Finset.univ fun p : Fin 7 => iprop(sndKit (F := F) c p ∗ rcvKit (F := F) c p))
    ∗ (bigSep Finset.univ fun l : Fin 3 => wcpKit (F := F) c l) ∗ outKit (F := F) c ∗ idleKit (F := F) c
    ∗ wts m c ∗ owesX (F := F) c 24
    ∗ barPay (F := F) (pr c 1) c ∗ barPay (F := F) (pr c 2) c ∗ barPay (F := F) (pr c 3) c
    ∗ ptsE (F := F) (actsM 0 c) c ∗ ptsE (F := F) (actsM 1 c) c ∗ ptsE (F := F) (actsM 2 c) c
    ∗ ptsE (F := F) (rsM 0 c) c ∗ ptsE (F := F) (rsM 1 c) c ∗ ptsE (F := F) (rsM 2 c) c
    ∗ ptsE (F := F) (psM c) c ∗ ptsE (F := F) (psM (pr c 1)) c ∗ ptsE (F := F) (psM (pr c 2)) c ∗ ptsE (F := F) (psM (pr c 3)) c
    ∗ ptsE (F := F) (wv1M 0) c ∗ ptsE (F := F) (wv1M 1) c ∗ ptsE (F := F) (wv2M 0) c ∗ ptsE (F := F) (wv2M 1) c
    ∗ ptsE (F := F) (wb1M 0) c ∗ ptsE (F := F) (wb1M 1) c ∗ ptsE (F := F) (wb2M 0) c ∗ ptsE (F := F) (wb2M 1) c
    ∗ ptsE (F := F) stgM c ∗ ptsE (F := F) (outM c) c)

theorem owes_open (ρ : Dev nD → PrngReg) : ((dats m ρ 0 c).owesAt () 0 : sProp 𝕄) ⊢ owesX (F := F) c 24 := by
  unfold owesX
  iintro ⟨%W, %hW, Ho⟩
  iexists W
  iexact Ho

theorem opening (ρ : Dev nD → PrngReg) (t : Fin (cfg0.N + 1)) (ht : t = 0) :
    iprop(start m c ∗ Pipeline.scopedRest cfg0.spec c ∗ (dats m ρ 0 c).owesAt () t) ⊢ iprop(∃ K, inventory m c K) := by
  subst ht
  rw [show (Pipeline.scopedRest cfg0.spec c : sProp 𝕄) = _ from Gen.scopedRest0_eq c]
  unfold start G' ghost
  iintro ⟨⟨⟨%K, Hrec, Hpos, Htok⟩, Hcred, Hlev, Hw, Hv⟩, ⟨S0, S1, S2, S3, S4, S5, S6, ⟨%f7, S7⟩⟩, Ho⟩
  iexists K
  icases (unpack m c) $$ [$] with ⟨Kb, Ksr, Kw, Ko, Ki⟩
  icases (owes_open m c ρ) $$ Ho with Ho
  have hA := pieces_open (F := F) (ℓ := (c : Thread nD τ).loc cc0_scratch0) _ (fun l : Fin 3 => bigSep Finset.univ fun s : Dev nD => ptsE (F := F) (actsM l s) c)
    (acts_pieces (F := F) c fullShare) (fun f l => bigSep_mono fun s _ => pts_ptsE (actsM l s) c f)
  rw [bigSep_fin3, bigSep_ring c, bigSep_ring c, bigSep_ring c] at hA
  icases hA $$ S0 with ⟨⟨A00, A01, A02, A03⟩, ⟨A10, A11, A12, A13⟩, A20, A21, A22, A23⟩
  have hR := pieces_open (F := F) (ℓ := (c : Thread nD τ).loc cc0_scratch1) _ (fun l : Fin 3 => bigSep Finset.univ fun s : Dev nD => ptsE (F := F) (rsM l s) c)
    (rs_pieces (F := F) c fullShare) (fun f l => bigSep_mono fun s _ => pts_ptsE (rsM l s) c f)
  rw [bigSep_fin3, bigSep_ring c, bigSep_ring c, bigSep_ring c] at hR
  icases hR $$ S1 with ⟨⟨R00, R01, R02, R03⟩, ⟨R10, R11, R12, R13⟩, R20, R21, R22, R23⟩
  have hP := pieces_open (F := F) (ℓ := (c : Thread nD τ).loc cc0_scratch2) _ (fun s : Dev nD => ptsE (F := F) (psM s) c) (ps_pieces (F := F) c fullShare) (fun f s => pts_ptsE (psM s) c f)
  rw [bigSep_ring c] at hP
  icases hP $$ S2 with ⟨P0, P1, P2, P3⟩
  icases (wv1_open (F := F) c) $$ S3 with ⟨V10, V11⟩
  icases (wv2_open (F := F) c) $$ S4 with ⟨V20, V21⟩
  icases (wb1_open (F := F) c) $$ S5 with ⟨B10, B11⟩
  icases (wb2_open (F := F) c) $$ S6 with ⟨B20, B21⟩
  icases ((ent_of_eq (stg_whole (F := F) c fullShare f7)).trans (pts_ptsE _ _ _)) $$ S7 with G
  icases ((ent_of_eq (out_ring (F := F) c fullShare (m ((c : Thread nD τ).loc main_v1)))).trans (BIClass.sep_mono (pts_ptsE _ _ _) (BIClass.sep_mono (pts_ptsE _ _ _) (BIClass.sep_mono (pts_ptsE _ _ _) (pts_ptsE _ _ _))))) $$ Hv with ⟨O0, O1, O2, O3⟩
  unfold inventory barPay
  iframe

end Cert.Kernel.Dist

end
-- ==== Proof.BBodyClose.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyEnds
import proofs.«900988_g7700000000000989_dist_mlpseq_tp1d_bs_rep_b64_d1024_h2048_v7x_i4_f32_1_alg».proof.Proof.BBodyVal
import proofs.«900988_g7700000000000989_dist_mlpseq_tp1d_bs_rep_b64_d1024_h2048_v7x_i4_f32_1_alg».proof.Proof.BBodyWb
import proofs.«900988_g7700000000000989_dist_mlpseq_tp1d_bs_rep_b64_d1024_h2048_v7x_i4_f32_1_alg».proof.Proof.BBodyOpen

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem bigSep_fin7 (Φ : Fin 7 → sProp 𝕄) :
    bigSep Finset.univ Φ = iprop(Φ 0 ∗ Φ 1 ∗ Φ 2 ∗ Φ 3 ∗ Φ 4 ∗ Φ 5 ∗ Φ 6) := by
  have hU : (Finset.univ : Finset (Fin 7)) = insert 0 (insert 1 (insert 2 (insert 3 (insert 4 (insert 5 {6}))))) := by decide
  rw [hU, bigSep_insert (by decide), bigSep_insert (by decide), bigSep_insert (by decide), bigSep_insert (by decide),
    bigSep_insert (by decide), bigSep_insert (by decide), bigSep_singleton]
  rfl

theorem pointsTo_cover_join {ℓ : Loc nD τ sig} {T : Type} [Fintype T] [DecidableEq T] (K : T → Finset (Idx ℓ)) (cls : Idx ℓ → T)
    (h : ∀ i t, i ∈ K t ↔ cls i = t) (q : PosShare TreeShare) (fs : T → Buf (Elt F) ℓ) :
    (bigSep Finset.univ fun t => (ℓ ↦[K t]{q} fs t : sProp 𝕄)) ⊢ iprop(∃ g : Buf (Elt F) ℓ, ℓ ↦{q} g) := by
  have hU : (Finset.univ : Finset (Idx ℓ)) = Finset.univ.biUnion K := by
    ext i; simp only [Finset.mem_univ, Finset.mem_biUnion, true_and, true_iff]; exact ⟨cls i, (h i _).mpr rfl⟩
  refine (pointsTo_biUnion_join Finset.univ K fs (fun i => fs (cls i) i) (fun t _ t' _ hne => Finset.disjoint_left.mpr fun i hi hi' =>
    hne (((h i t).mp hi).symm.trans ((h i t').mp hi')))).trans ?_
  iintro ⟨%g, %hg, H⟩
  iexists g
  show _ ⊢ pointsTo ℓ Finset.univ q g
  rw [hU]

private theorem some_at {ℓ : Loc nD τ sig} (f : Buf (Elt F) ℓ) :
    (ℓ ↦{fullShare} f : sProp 𝕄) ⊢ iprop(∃ g : Buf (Elt F) ℓ, ℓ ↦{fullShare} g) := by
  iintro H; iexists f; iexact H

theorem rs_join_at (c : Dev nD) (f0 f1 f2 : Vec F S3x4x64x1024 .bf16) :
    iprop((pts (F := F) (rsM 0 c) c fullShare f0 ∗ pts (F := F) (rsM 0 (pr c 1)) c fullShare (rsB m c) ∗ pts (F := F) (rsM 0 (pr c 2)) c fullShare (rsB m c) ∗ pts (F := F) (rsM 0 (pr c 3)) c fullShare (rsB m c))
        ∗ (pts (F := F) (rsM 1 c) c fullShare f1 ∗ pts (F := F) (rsM 1 (pr c 1)) c fullShare (rsB m c) ∗ pts (F := F) (rsM 1 (pr c 2)) c fullShare (rsB m c) ∗ pts (F := F) (rsM 1 (pr c 3)) c fullShare (rsB m c))
        ∗ (pts (F := F) (rsM 2 c) c fullShare f2 ∗ pts (F := F) (rsM 2 (pr c 1)) c fullShare (rsB m c) ∗ pts (F := F) (rsM 2 (pr c 2)) c fullShare (rsB m c) ∗ pts (F := F) (rsM 2 (pr c 3)) c fullShare (rsB m c)))
      ⊢ iprop(∃ g : Buf (Elt F) ((c : Thread nD τ).loc cc0_scratch1), ((c : Thread nD τ).loc cc0_scratch1) ↦{fullShare} g) := by
  have e1 : (pr c 1 = c) = False := eq_false (pr_ne c 1 (by omega) (by omega))
  have e2 : (pr c 2 = c) = False := eq_false (pr_ne c 2 (by omega) (by omega))
  have e3 : (pr c 3 = c) = False := eq_false (pr_ne c 3 (by omega) (by omega))
  have h := pointsTo_cover_join (F := F) (ℓ := (c : Thread nD τ).loc cc0_scratch1) (fun ls : Fin 3 × Dev nD => (rsM ls.1 ls.2).view.set)
    (fun i : S3x4x64x1024.Idx => ((i 0, i 1) : Fin 3 × Dev nD))
    (fun (i : S3x4x64x1024.Idx) t => (mem_rsM_set t.1 t.2 i).trans (Prod.ext_iff (x := ((i 0 : Fin 3), (i 1 : Dev nD))) (y := t)).symm)
    fullShare (fun ls : Fin 3 × Dev nD => if ls.2 = c then (match ls.1 with | 0 => f0 | 1 => f1 | 2 => f2) else rsB m c)
  rw [bigSep_univ_prod, bigSep_fin3, bigSep_ring c, bigSep_ring c, bigSep_ring c] at h
  simp only [eq_self_iff_true, if_true, e1, e2, e3, if_false] at h
  exact h

private theorem ptsE_pts {sp : Space} {s : Shape} {e : EltTy} (M : Memref sig .tc sp s e) (d : Dev nD) :
    ptsE (F := F) M d = iprop(∃ f, pts (F := F) M d fullShare f) := rfl

private theorem slots_close {ℓ : Loc nD τ sig} (K : Fin 2 → Finset (Idx ℓ)) (cls : Idx ℓ → Fin 2) (h : ∀ i b, i ∈ K b ↔ cls i = b) (f g : Buf (Elt F) ℓ) :
    iprop((ℓ ↦[K 0]{fullShare} f : sProp 𝕄) ∗ (ℓ ↦[K 1]{fullShare} g : sProp 𝕄)) ⊢ iprop(∃ h : Buf (Elt F) ℓ, ℓ ↦{fullShare} h) := by
  have h' := pointsTo_cover_join (F := F) K cls h fullShare (fun b : Fin 2 => if b = 0 then f else g)
  rw [bigSep_fin2] at h'
  exact h'
theorem wv1_close (c : Dev nD) (f g : Vec F S2x1024x2048 .f32) :
    iprop(pts (F := F) (wv1M 0) c fullShare f ∗ pts (F := F) (wv1M 1) c fullShare g)
      ⊢ iprop(∃ h : Buf (Elt F) ((c : Thread nD τ).loc cc0_scratch3), ((c : Thread nD τ).loc cc0_scratch3) ↦{fullShare} h) :=
  slots_close (F := F) (ℓ := (c : Thread nD τ).loc cc0_scratch3) wv1K (fun i : S2x1024x2048.Idx => (i 0 : Fin 2)) mem_wv1K f g
theorem wv2_close (c : Dev nD) (f g : Vec F S2x2048x1024 .f32) :
    iprop(pts (F := F) (wv2M 0) c fullShare f ∗ pts (F := F) (wv2M 1) c fullShare g)
      ⊢ iprop(∃ h : Buf (Elt F) ((c : Thread nD τ).loc cc0_scratch4), ((c : Thread nD τ).loc cc0_scratch4) ↦{fullShare} h) :=
  slots_close (F := F) (ℓ := (c : Thread nD τ).loc cc0_scratch4) wv2K (fun i : S2x2048x1024.Idx => (i 0 : Fin 2)) mem_wv2K f g
theorem wb1_close (c : Dev nD) (f g : Vec F S2x1024x2048 .bf16) :
    iprop(pts (F := F) (wb1M 0) c fullShare f ∗ pts (F := F) (wb1M 1) c fullShare g)
      ⊢ iprop(∃ h : Buf (Elt F) ((c : Thread nD τ).loc cc0_scratch5), ((c : Thread nD τ).loc cc0_scratch5) ↦{fullShare} h) :=
  slots_close (F := F) (ℓ := (c : Thread nD τ).loc cc0_scratch5) wb1K (fun i : S2x1024x2048.Idx => (i 0 : Fin 2)) mem_wb1K f g
theorem wb2_close (c : Dev nD) (f g : Vec F S2x2048x1024 .bf16) :
    iprop(pts (F := F) (wb2M 0) c fullShare f ∗ pts (F := F) (wb2M 1) c fullShare g)
      ⊢ iprop(∃ h : Buf (Elt F) ((c : Thread nD τ).loc cc0_scratch6), ((c : Thread nD τ).loc cc0_scratch6) ↦{fullShare} h) :=
  slots_close (F := F) (ℓ := (c : Thread nD τ).loc cc0_scratch6) wb2K (fun i : S2x2048x1024.Idx => (i 0 : Fin 2)) mem_wb2K f g

theorem wts_close (c : Dev nD) :
    iprop(pts (F := F) (Memref.whole main_arg1 : Memref sig .tc .hbm S1024x2048 .f32) c fullShare (W1 (F := F) m 0 c)
        ∗ pts (F := F) (Memref.whole main_arg2 : Memref sig .tc .hbm S2048x1024 .f32) c fullShare (W2 (F := F) m 0 c)
        ∗ pts (F := F) (Memref.whole main_arg3 : Memref sig .tc .hbm S1024x2048 .f32) c fullShare (W1 (F := F) m 1 c)
        ∗ pts (F := F) (Memref.whole main_arg4 : Memref sig .tc .hbm S2048x1024 .f32) c fullShare (W2 (F := F) m 1 c)
        ∗ pts (F := F) (Memref.whole main_arg5 : Memref sig .tc .hbm S1024x2048 .f32) c fullShare (W1 (F := F) m 2 c)
        ∗ pts (F := F) (Memref.whole main_arg6 : Memref sig .tc .hbm S2048x1024 .f32) c fullShare (W2 (F := F) m 2 c))
      ⊢ wts m c := by
  unfold wts pts
  rw [pts_whole (F := F) main_arg1 c, pts_whole (F := F) main_arg2 c, pts_whole (F := F) main_arg3 c,
    pts_whole (F := F) main_arg4 c, pts_whole (F := F) main_arg5 c, pts_whole (F := F) main_arg6 c]

variable (c : Dev nD)

def finalInv (K : Dev nD × Fin 57 → ℕ) : sProp 𝕄 :=
  iprop(records m K ∗ levAts L lv ∗ owesX (F := F) c 0
    ∗ atPos ER (sndCell c 0 0) 1 ∅ 0 ∗ atPos ER (sndCell c 0 1) 1 ∅ 0 ∗ atPos ER (sndCell c 0 2) 1 ∅ 0
    ∗ atPos ER (sndCell c 1 0) 1 ∅ 0 ∗ atPos ER (sndCell c 1 1) 1 ∅ 0 ∗ atPos ER (sndCell c 1 2) 1 ∅ 0
    ∗ atPos ER (sndCell c 2 0) 1 ∅ 0 ∗ atPos ER (sndCell c 2 1) 1 ∅ 0 ∗ atPos ER (sndCell c 2 2) 1 ∅ 0
    ∗ atPos ER (sndCell c 3 0) 1 ∅ 0 ∗ atPos ER (sndCell c 3 1) 1 ∅ 0 ∗ atPos ER (sndCell c 3 2) 1 ∅ 0
    ∗ atPos ER (sndCell c 4 0) 1 ∅ 0 ∗ atPos ER (sndCell c 4 1) 1 ∅ 0 ∗ atPos ER (sndCell c 4 2) 1 ∅ 0
    ∗ atPos ER (sndCell c 5 0) 1 ∅ 0 ∗ atPos ER (sndCell c 5 1) 1 ∅ 0 ∗ atPos ER (sndCell c 5 2) 1 ∅ 0
    ∗ atPos ER (sndCell c 6 0) 1 ∅ 0 ∗ atPos ER (sndCell c 6 1) 1 ∅ 0 ∗ atPos ER (sndCell c 6 2) 1 ∅ 0
    ∗ atPos ER (rcvCell c 0 (pr c 1)) 1 ∅ 0 ∗ atPos ER (rcvCell c 0 (pr c 2)) 1 ∅ 0 ∗ atPos ER (rcvCell c 0 (pr c 3)) 1 ∅ 0
    ∗ atPos ER (rcvCell c 1 (pr c 1)) 1 ∅ 0 ∗ atPos ER (rcvCell c 1 (pr c 2)) 1 ∅ 0 ∗ atPos ER (rcvCell c 1 (pr c 3)) 1 ∅ 0
    ∗ atPos ER (rcvCell c 2 (pr c 1)) 1 ∅ 0 ∗ atPos ER (rcvCell c 2 (pr c 2)) 1 ∅ 0 ∗ atPos ER (rcvCell c 2 (pr c 3)) 1 ∅ 0
    ∗ atPos ER (rcvCell c 3 (pr c 1)) 1 ∅ 0 ∗ atPos ER (rcvCell c 3 (pr c 2)) 1 ∅ 0 ∗ atPos ER (rcvCell c 3 (pr c 3)) 1 ∅ 0
    ∗ atPos ER (rcvCell c 4 (pr c 1)) 1 ∅ 0 ∗ atPos ER (rcvCell c 4 (pr c 2)) 1 ∅ 0 ∗ atPos ER (rcvCell c 4 (pr c 3)) 1 ∅ 0
    ∗ atPos ER (rcvCell c 5 (pr c 1)) 1 ∅ 0 ∗ atPos ER (rcvCell c 5 (pr c 2)) 1 ∅ 0 ∗ atPos ER (rcvCell c 5 (pr c 3)) 1 ∅ 0
    ∗ atPos ER (rcvCell c 6 (pr c 1)) 1 ∅ 0 ∗ atPos ER (rcvCell c 6 (pr c 2)) 1 ∅ 0 ∗ atPos ER (rcvCell c 6 (pr c 3)) 1 ∅ 0
    ∗ atPos ER (wcpCell c 0 0) 1 ∅ 0 ∗ atPos ER (wcpCell c 0 1) 1 ∅ 0
    ∗ atPos ER (wcpCell c 1 0) 1 ∅ 0 ∗ atPos ER (wcpCell c 1 1) 1 ∅ 0
    ∗ atPos ER (wcpCell c 2 0) 1 ∅ 0 ∗ atPos ER (wcpCell c 2 1) 1 ∅ 0
    ∗ atPos ER (outCell c) 1 ∅ 0
    ∗ idleKit (F := F) c
    ∗ pts (F := F) (Memref.whole main_arg1 : Memref sig .tc .hbm S1024x2048 .f32) c fullShare (W1 (F := F) m 0 c)
    ∗ pts (F := F) (Memref.whole main_arg2 : Memref sig .tc .hbm S2048x1024 .f32) c fullShare (W2 (F := F) m 0 c)
    ∗ pts (F := F) (Memref.whole main_arg3 : Memref sig .tc .hbm S1024x2048 .f32) c fullShare (W1 (F := F) m 1 c)
    ∗ pts (F := F) (Memref.whole main_arg4 : Memref sig .tc .hbm S2048x1024 .f32) c fullShare (W2 (F := F) m 1 c)
    ∗ pts (F := F) (Memref.whole main_arg5 : Memref sig .tc .hbm S1024x2048 .f32) c fullShare (W1 (F := F) m 2 c)
    ∗ pts (F := F) (Memref.whole main_arg6 : Memref sig .tc .hbm S2048x1024 .f32) c fullShare (W2 (F := F) m 2 c)
    ∗ pts (F := F) (actsM 0 c) c (q4 0) (actsB m) ∗ pts (F := F) (actsM 0 c) c (q4 1) (actsB m) ∗ pts (F := F) (actsM 0 c) c (q4 2) (actsB m) ∗ pts (F := F) (actsM 0 c) c (q4 3) (actsB m)
    ∗ pts (F := F) (actsM 0 (pr c 1)) c fullShare (actsB m) ∗ pts (F := F) (actsM 0 (pr c 2)) c fullShare (actsB m) ∗ pts (F := F) (actsM 0 (pr c 3)) c fullShare (actsB m)
    ∗ pts (F := F) (actsM 1 c) c (q4 0) (actsB m) ∗ pts (F := F) (actsM 1 c) c (q4 1) (actsB m) ∗ pts (F := F) (actsM 1 c) c (q4 2) (actsB m) ∗ pts (F := F) (actsM 1 c) c (q4 3) (actsB m)
    ∗ pts (F := F) (actsM 1 (pr c 1)) c fullShare (actsB m) ∗ pts (F := F) (actsM 1 (pr c 2)) c fullShare (actsB m) ∗ pts (F := F) (actsM 1 (pr c 3)) c fullShare (actsB m)
    ∗ pts (F := F) (actsM 2 c) c (q4 0) (actsB m) ∗ pts (F := F) (actsM 2 c) c (q4 1) (actsB m) ∗ pts (F := F) (actsM 2 c) c (q4 2) (actsB m) ∗ pts (F := F) (actsM 2 c) c (q4 3) (actsB m)
    ∗ pts (F := F) (actsM 2 (pr c 1)) c fullShare (actsB m) ∗ pts (F := F) (actsM 2 (pr c 2)) c fullShare (actsB m) ∗ pts (F := F) (actsM 2 (pr c 3)) c fullShare (actsB m)
    ∗ ptsE (F := F) (rsM 0 c) c ∗ pts (F := F) (rsM 0 (pr c 1)) c fullShare (rsB m c) ∗ pts (F := F) (rsM 0 (pr c 2)) c fullShare (rsB m c) ∗ pts (F := F) (rsM 0 (pr c 3)) c fullShare (rsB m c)
    ∗ ptsE (F := F) (rsM 1 c) c ∗ pts (F := F) (rsM 1 (pr c 1)) c fullShare (rsB m c) ∗ pts (F := F) (rsM 1 (pr c 2)) c fullShare (rsB m c) ∗ pts (F := F) (rsM 1 (pr c 3)) c fullShare (rsB m c)
    ∗ ptsE (F := F) (rsM 2 c) c ∗ pts (F := F) (rsM 2 (pr c 1)) c fullShare (rsB m c) ∗ pts (F := F) (rsM 2 (pr c 2)) c fullShare (rsB m c) ∗ pts (F := F) (rsM 2 (pr c 3)) c fullShare (rsB m c)
    ∗ pts (F := F) (psM c) c fullShare (psB m 2 c) ∗ pts (F := F) (psM (pr c 1)) c fullShare (psB m 2 c) ∗ pts (F := F) (psM (pr c 2)) c fullShare (psB m 2 c) ∗ pts (F := F) (psM (pr c 3)) c fullShare (psB m 2 c)
    ∗ pts (F := F) (wv1M 0) c fullShare (wv1B m 2 c) ∗ pts (F := F) (wv1M 1) c fullShare (wv1B m 1 c)
    ∗ pts (F := F) (wv2M 0) c fullShare (wv2B m 2 c) ∗ pts (F := F) (wv2M 1) c fullShare (wv2B m 1 c)
    ∗ pts (F := F) (wb1M 0) c fullShare (wb1B m 2 c) ∗ pts (F := F) (wb1M 1) c fullShare (wb1B m 1 c)
    ∗ pts (F := F) (wb2M 0) c fullShare (wb2B m 2 c) ∗ pts (F := F) (wb2M 1) c fullShare (wb2B m 1 c)
    ∗ pts (F := F) stgM c (q4 0) (outBlk m c) ∗ pts (F := F) stgM c (q4 1) (outBlk m c) ∗ pts (F := F) stgM c (q4 2) (outBlk m c) ∗ pts (F := F) stgM c (q4 3) (outBlk m c)
    ∗ pts (F := F) (outM c) c fullShare (outAll m) ∗ pts (F := F) (outM (pr c 1)) c fullShare (outAll m) ∗ pts (F := F) (outM (pr c 2)) c fullShare (outAll m) ∗ pts (F := F) (outM (pr c 3)) c fullShare (outAll m))

theorem closing (K : Dev nD × Fin 57 → ℕ) :
    finalInv m c K ⊢ iprop(|={Set.univ}=> (Φ₁ m c ∗ owesX (F := F) c 0)) := by
  unfold finalInv
  iintro ⟨#Hrec, Hlev, Ho,
    s00, s01, s02, s10, s11, s12, s20, s21, s22, s30, s31, s32, s40, s41, s42, s50, s51, s52, s60, s61, s62,
    r01, r02, r03, r11, r12, r13, r21, r22, r23, r31, r32, r33, r41, r42, r43, r51, r52, r53, r61, r62, r63,
    w00, w01, w10, w11, w20, w21, Hout, Hidle,
    g1, g2, g3, g4, g5, g6,
    a00, a01, a02, a03, a05, a06, a07, a10, a11, a12, a13, a15, a16, a17, a20, a21, a22, a23, a25, a26, a27,
    e00, e01, e02, e03, e10, e11, e12, e13, e20, e21, e22, e23,
    p0, p1, p2, p3,
    v10, v11, v20, v21, b10, b11, b20, b21,
    t0, t1, t2, t3,
    o0, o1, o2, o3⟩
  have hc := close_all m K Set.univ (fun _ => Set.mem_univ _) c
  rw [bigSep_fin7, bigSep_fin3] at hc
  unfold sndDone rcvDone wcpDone outDone at hc
  simp only [bigSep_fin3, bigSep_fin2] at hc
  rw [show peer c 0 = pr c 1 from rfl, show peer c 1 = pr c 2 from rfl, show peer c 2 = pr c 3 from rfl] at hc
  imod hc $$ [$] with Hsem
  imodintro
  icases (wts_close m c) $$ [$] with Hw
  icases (ent_of_eq (out_ring (F := F) c fullShare (outAll m)).symm) $$ [$] with Hv
  icases (pts_quarters (F := F) (actsM 0 c) c (actsB m)).2 $$ [$] with a04
  icases (pts_quarters (F := F) (actsM 1 c) c (actsB m)).2 $$ [$] with a14
  icases (pts_quarters (F := F) (actsM 2 c) c (actsB m)).2 $$ [$] with a24
  icases ((ent_of_eq (acts_ring (F := F) c fullShare (actsB m)).symm).trans (some_at _)) $$ [a04 a05 a06 a07 a14 a15 a16 a17 a24 a25 a26 a27] with S0
  · unfold actsL; iframe
  icases (ent_of_eq (ptsE_pts (rsM 0 c) c)) $$ e00 with ⟨%f0, e00⟩
  icases (ent_of_eq (ptsE_pts (rsM 1 c) c)) $$ e10 with ⟨%f1, e10⟩
  icases (ent_of_eq (ptsE_pts (rsM 2 c) c)) $$ e20 with ⟨%f2, e20⟩
  icases (rs_join_at m c f0 f1 f2) $$ [$] with S1
  icases ((ent_of_eq (ps_ring (F := F) c fullShare (psB m 2 c)).symm).trans (some_at _)) $$ [$] with S2
  icases (wv1_close (F := F) c (wv1B m 2 c) (wv1B m 1 c)) $$ [$] with S3
  icases (wv2_close (F := F) c (wv2B m 2 c) (wv2B m 1 c)) $$ [$] with S4
  icases (wb1_close (F := F) c (wb1B m 2 c) (wb1B m 1 c)) $$ [$] with S5
  icases (wb2_close (F := F) c (wb2B m 2 c) (wb2B m 1 c)) $$ [$] with S6
  icases (pts_quarters (F := F) stgM c (outBlk m c)).2 $$ [$] with t4
  icases ((ent_of_eq (stg_whole (F := F) c fullShare (outBlk m c)).symm).trans (some_at _)) $$ t4 with S7
  unfold Φ₁
  rw [show (Pipeline.scopedRest cfg0.spec c : sProp 𝕄) = _ from Gen.scopedRest0_eq c]
  iframe

end Cert.Kernel.Dist

end
-- ==== Proof.BBodyGeom.lean ====
import proofs.«900988_g7700000000000989_dist_mlpseq_tp1d_bs_rep_b64_d1024_h2048_v7x_i4_f32_1_alg».proof.Proof.BProto
import proofs.«900988_g7700000000000989_dist_mlpseq_tp1d_bs_rep_b64_d1024_h2048_v7x_i4_f32_1_alg».proof.Proof.Gen.Kernel.Skeleton

namespace Cert.Kernel.Dist

open Gen Idealize.ShloMosaic

-- The offsets computed for the peer at ring offset `1 + r`, in closed form.
private theorem off6 : ∀ (c : Dev nD) (r : Fin 3), k0_off6 c (BitVec.ofNat 32 (1 + r.val)) = ![64 * (pr c (1 + r.val)).val, 0] := by decide +kernel
private theorem off7 : ∀ (c : Dev nD) (r : Fin 3), k0_off7 c (BitVec.ofNat 32 (1 + r.val)) = ![0, 64 * (pr c (1 + r.val)).val, 0] := by decide +kernel
private theorem off11 : ∀ (c : Dev nD) (r : Fin 3), k0_off11 c (BitVec.ofNat 32 (1 + r.val)) = ![0, (pr c (1 + r.val)).val, 0, 0] := by decide +kernel
theorem off13_1 (c : Dev nD) : k0_off13 c 1#32 = ![0, (pr c 1).val, 0, 0] := by revert c; decide +kernel
theorem off13_2 (c : Dev nD) : k0_off13 c 2#32 = ![0, (pr c 2).val, 0, 0] := by revert c; decide +kernel
theorem off13_3 (c : Dev nD) : k0_off13 c 3#32 = ![0, (pr c 3).val, 0, 0] := by revert c; decide +kernel
private theorem off18 : ∀ (c : Dev nD) (r : Fin 3), k0_off18 c (BitVec.ofNat 32 (1 + r.val)) = ![1, 64 * (pr c (1 + r.val)).val, 0] := by decide +kernel
private theorem off22 : ∀ (c : Dev nD) (r : Fin 3), k0_off22 c (BitVec.ofNat 32 (1 + r.val)) = ![1, (pr c (1 + r.val)).val, 0, 0] := by decide +kernel
theorem off23_1 (c : Dev nD) : k0_off23 c 1#32 = ![1, (pr c 1).val, 0, 0] := by revert c; decide +kernel
theorem off23_2 (c : Dev nD) : k0_off23 c 2#32 = ![1, (pr c 2).val, 0, 0] := by revert c; decide +kernel
theorem off23_3 (c : Dev nD) : k0_off23 c 3#32 = ![1, (pr c 3).val, 0, 0] := by revert c; decide +kernel
private theorem off28 : ∀ (c : Dev nD) (r : Fin 3), k0_off28 c (BitVec.ofNat 32 (1 + r.val)) = ![2, 64 * (pr c (1 + r.val)).val, 0] := by decide +kernel
private theorem off32 : ∀ (c : Dev nD) (r : Fin 3), k0_off32 c (BitVec.ofNat 32 (1 + r.val)) = ![2, (pr c (1 + r.val)).val, 0, 0] := by decide +kernel
theorem off33_1 (c : Dev nD) : k0_off33 c 1#32 = ![2, (pr c 1).val, 0, 0] := by revert c; decide +kernel
theorem off33_2 (c : Dev nD) : k0_off33 c 2#32 = ![2, (pr c 2).val, 0, 0] := by revert c; decide +kernel
theorem off33_3 (c : Dev nD) : k0_off33 c 3#32 = ![2, (pr c 3).val, 0, 0] := by revert c; decide +kernel
-- Offsets equal to a piece's own name that piece, whatever the in-bounds evidence.
theorem acts_of {l : Fin 3} {s : Dev nD} {off} (h : off = ![l.val, 64 * s.val, 0]) {p} :
    ((Memref.whole cc0_scratch0 : Memref sig .tc .vmem S3x256x1024 .bf16).slice (Rect.unit (s := S3x256x1024) off S1x64x1024.size p) (fun _ => rfl)).squeeze S64x1024 squeezes_S1x64x1024_S64x1024
      = actsM l s := by
  subst h; rfl
theorem rs_of {l : Fin 3} {s : Dev nD} {off} (h : off = ![l.val, s.val, 0, 0]) {p} :
    ((Memref.whole cc0_scratch1 : Memref sig .tc .vmem S3x4x64x1024 .bf16).slice (Rect.unit (s := S3x4x64x1024) off S1x1x64x1024.size p) (fun _ => rfl)).squeeze S64x1024 squeezes_S1x1x64x1024_S64x1024
      = rsM l s := by
  subst h; rfl
private theorem rows_of {sp e} {W : Memref sig .tc sp S256x1024 e} {s : Dev nD} {off} (h : off = ![64 * s.val, 0]) {p} :
    W.slice (Rect.unit (s := S256x1024) off S64x1024.size p) (fun _ => rfl)
      = W.slice (Rect.unit (s := S256x1024) ![64 * s.val, 0] S64x1024.size (rows_inb s)) (fun _ => rfl) := by
  subst h; rfl
theorem acts0_own (c : Dev nD) :
    ((Memref.whole cc0_scratch0 : Memref sig .tc .vmem S3x256x1024 .bf16).slice (Rect.unit (s := S3x256x1024) (k0_off4 c) S1x64x1024.size (k0_off4_inb c)) (fun _ => rfl)).squeeze S64x1024 squeezes_S1x64x1024_S64x1024
      = actsM 0 c := acts_of (k0_off4_eq c)
theorem acts0_p1 (c : Dev nD) :
    ((Memref.whole cc0_scratch0 : Memref sig .tc .vmem S3x256x1024 .bf16).slice (Rect.unit (s := S3x256x1024) (k0_off7 c 1#32) S1x64x1024.size (k0_off7_inb c 0)) (fun _ => rfl)).squeeze S64x1024 squeezes_S1x64x1024_S64x1024
      = actsM 0 (pr c 1) := acts_of (off7 c 0)
theorem acts0_p2 (c : Dev nD) :
    ((Memref.whole cc0_scratch0 : Memref sig .tc .vmem S3x256x1024 .bf16).slice (Rect.unit (s := S3x256x1024) (k0_off7 c 2#32) S1x64x1024.size (k0_off7_inb c 1)) (fun _ => rfl)).squeeze S64x1024 squeezes_S1x64x1024_S64x1024
      = actsM 0 (pr c 2) := acts_of (off7 c 1)
theorem acts0_p3 (c : Dev nD) :
    ((Memref.whole cc0_scratch0 : Memref sig .tc .vmem S3x256x1024 .bf16).slice (Rect.unit (s := S3x256x1024) (k0_off7 c 3#32) S1x64x1024.size (k0_off7_inb c 2)) (fun _ => rfl)).squeeze S64x1024 squeezes_S1x64x1024_S64x1024
      = actsM 0 (pr c 3) := acts_of (off7 c 2)
theorem acts1_own (c : Dev nD) :
    ((Memref.whole cc0_scratch0 : Memref sig .tc .vmem S3x256x1024 .bf16).slice (Rect.unit (s := S3x256x1024) (k0_off16 c) S1x64x1024.size (k0_off16_inb c)) (fun _ => rfl)).squeeze S64x1024 squeezes_S1x64x1024_S64x1024
      = actsM 1 c := acts_of (k0_off16_eq c)
theorem acts1_p1 (c : Dev nD) :
    ((Memref.whole cc0_scratch0 : Memref sig .tc .vmem S3x256x1024 .bf16).slice (Rect.unit (s := S3x256x1024) (k0_off18 c 1#32) S1x64x1024.size (k0_off18_inb c 0)) (fun _ => rfl)).squeeze S64x1024 squeezes_S1x64x1024_S64x1024
      = actsM 1 (pr c 1) := acts_of (off18 c 0)
theorem acts1_p2 (c : Dev nD) :
    ((Memref.whole cc0_scratch0 : Memref sig .tc .vmem S3x256x1024 .bf16).slice (Rect.unit (s := S3x256x1024) (k0_off18 c 2#32) S1x64x1024.size (k0_off18_inb c 1)) (fun _ => rfl)).squeeze S64x1024 squeezes_S1x64x1024_S64x1024
      = actsM 1 (pr c 2) := acts_of (off18 c 1)
theorem acts1_p3 (c : Dev nD) :
    ((Memref.whole cc0_scratch0 : Memref sig .tc .vmem S3x256x1024 .bf16).slice (Rect.unit (s := S3x256x1024) (k0_off18 c 3#32) S1x64x1024.size (k0_off18_inb c 2)) (fun _ => rfl)).squeeze S64x1024 squeezes_S1x64x1024_S64x1024
      = actsM 1 (pr c 3) := acts_of (off18 c 2)
theorem acts2_own (c : Dev nD) :
    ((Memref.whole cc0_scratch0 : Memref sig .tc .vmem S3x256x1024 .bf16).slice (Rect.unit (s := S3x256x1024) (k0_off26 c) S1x64x1024.size (k0_off26_inb c)) (fun _ => rfl)).squeeze S64x1024 squeezes_S1x64x1024_S64x1024
      = actsM 2 c := acts_of (k0_off26_eq c)
theorem acts2_p1 (c : Dev nD) :
    ((Memref.whole cc0_scratch0 : Memref sig .tc .vmem S3x256x1024 .bf16).slice (Rect.unit (s := S3x256x1024) (k0_off28 c 1#32) S1x64x1024.size (k0_off28_inb c 0)) (fun _ => rfl)).squeeze S64x1024 squeezes_S1x64x1024_S64x1024
      = actsM 2 (pr c 1) := acts_of (off28 c 0)
theorem acts2_p2 (c : Dev nD) :
    ((Memref.whole cc0_scratch0 : Memref sig .tc .vmem S3x256x1024 .bf16).slice (Rect.unit (s := S3x256x1024) (k0_off28 c 2#32) S1x64x1024.size (k0_off28_inb c 1)) (fun _ => rfl)).squeeze S64x1024 squeezes_S1x64x1024_S64x1024
      = actsM 2 (pr c 2) := acts_of (off28 c 1)
theorem acts2_p3 (c : Dev nD) :
    ((Memref.whole cc0_scratch0 : Memref sig .tc .vmem S3x256x1024 .bf16).slice (Rect.unit (s := S3x256x1024) (k0_off28 c 3#32) S1x64x1024.size (k0_off28_inb c 2)) (fun _ => rfl)).squeeze S64x1024 squeezes_S1x64x1024_S64x1024
      = actsM 2 (pr c 3) := acts_of (off28 c 2)
theorem rs0_own (c : Dev nD) :
    ((Memref.whole cc0_scratch1 : Memref sig .tc .vmem S3x4x64x1024 .bf16).slice (Rect.unit (s := S3x4x64x1024) (k0_off9 c) S1x1x64x1024.size (k0_off9_inb c)) (fun _ => rfl)).squeeze S64x1024 squeezes_S1x1x64x1024_S64x1024
      = rsM 0 c := rs_of (k0_off9_eq c)
theorem rs0_p1 (c : Dev nD) :
    ((Memref.whole cc0_scratch1 : Memref sig .tc .vmem S3x4x64x1024 .bf16).slice (Rect.unit (s := S3x4x64x1024) (k0_off11 c 1#32) S1x1x64x1024.size (k0_off11_inb c 0)) (fun _ => rfl)).squeeze S64x1024 squeezes_S1x1x64x1024_S64x1024
      = rsM 0 (pr c 1) := rs_of (off11 c 0)
theorem rs0_p2 (c : Dev nD) :
    ((Memref.whole cc0_scratch1 : Memref sig .tc .vmem S3x4x64x1024 .bf16).slice (Rect.unit (s := S3x4x64x1024) (k0_off11 c 2#32) S1x1x64x1024.size (k0_off11_inb c 1)) (fun _ => rfl)).squeeze S64x1024 squeezes_S1x1x64x1024_S64x1024
      = rsM 0 (pr c 2) := rs_of (off11 c 1)
theorem rs0_p3 (c : Dev nD) :
    ((Memref.whole cc0_scratch1 : Memref sig .tc .vmem S3x4x64x1024 .bf16).slice (Rect.unit (s := S3x4x64x1024) (k0_off11 c 3#32) S1x1x64x1024.size (k0_off11_inb c 2)) (fun _ => rfl)).squeeze S64x1024 squeezes_S1x1x64x1024_S64x1024
      = rsM 0 (pr c 3) := rs_of (off11 c 2)
theorem rs1_own (c : Dev nD) :
    ((Memref.whole cc0_scratch1 : Memref sig .tc .vmem S3x4x64x1024 .bf16).slice (Rect.unit (s := S3x4x64x1024) (k0_off20 c) S1x1x64x1024.size (k0_off20_inb c)) (fun _ => rfl)).squeeze S64x1024 squeezes_S1x1x64x1024_S64x1024
      = rsM 1 c := rs_of (k0_off20_eq c)
theorem rs1_p1 (c : Dev nD) :
    ((Memref.whole cc0_scratch1 : Memref sig .tc .vmem S3x4x64x1024 .bf16).slice (Rect.unit (s := S3x4x64x1024) (k0_off22 c 1#32) S1x1x64x1024.size (k0_off22_inb c 0)) (fun _ => rfl)).squeeze S64x1024 squeezes_S1x1x64x1024_S64x1024
      = rsM 1 (pr c 1) := rs_of (off22 c 0)
theorem rs1_p2 (c : Dev nD) :
    ((Memref.whole cc0_scratch1 : Memref sig .tc .vmem S3x4x64x1024 .bf16).slice (Rect.unit (s := S3x4x64x1024) (k0_off22 c 2#32) S1x1x64x1024.size (k0_off22_inb c 1)) (fun _ => rfl)).squeeze S64x1024 squeezes_S1x1x64x1024_S64x1024
      = rsM 1 (pr c 2) := rs_of (off22 c 1)
theorem rs1_p3 (c : Dev nD) :
    ((Memref.whole cc0_scratch1 : Memref sig .tc .vmem S3x4x64x1024 .bf16).slice (Rect.unit (s := S3x4x64x1024) (k0_off22 c 3#32) S1x1x64x1024.size (k0_off22_inb c 2)) (fun _ => rfl)).squeeze S64x1024 squeezes_S1x1x64x1024_S64x1024
      = rsM 1 (pr c 3) := rs_of (off22 c 2)
theorem rs2_own (c : Dev nD) :
    ((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024
      = rsM 2 c := rs_of (k0_off30_eq c)
theorem rs2_p1 (c : Dev nD) :
    ((Memref.whole cc0_scratch1 : Memref sig .tc .vmem S3x4x64x1024 .bf16).slice (Rect.unit (s := S3x4x64x1024) (k0_off32 c 1#32) S1x1x64x1024.size (k0_off32_inb c 0)) (fun _ => rfl)).squeeze S64x1024 squeezes_S1x1x64x1024_S64x1024
      = rsM 2 (pr c 1) := rs_of (off32 c 0)
theorem rs2_p2 (c : Dev nD) :
    ((Memref.whole cc0_scratch1 : Memref sig .tc .vmem S3x4x64x1024 .bf16).slice (Rect.unit (s := S3x4x64x1024) (k0_off32 c 2#32) S1x1x64x1024.size (k0_off32_inb c 1)) (fun _ => rfl)).squeeze S64x1024 squeezes_S1x1x64x1024_S64x1024
      = rsM 2 (pr c 2) := rs_of (off32 c 1)
theorem rs2_p3 (c : Dev nD) :
    ((Memref.whole cc0_scratch1 : Memref sig .tc .vmem S3x4x64x1024 .bf16).slice (Rect.unit (s := S3x4x64x1024) (k0_off32 c 3#32) S1x1x64x1024.size (k0_off32_inb c 2)) (fun _ => rfl)).squeeze S64x1024 squeezes_S1x1x64x1024_S64x1024
      = rsM 2 (pr c 3) := rs_of (off32 c 2)
theorem ps_p1 (c : Dev nD) :
    (Memref.whole cc0_scratch2 : Memref sig .tc .vmem S256x1024 .bf16).slice (Rect.unit (s := S256x1024) (k0_off6 c 1#32) S64x1024.size (k0_off6_inb c 0)) (fun _ => rfl)
      = psM (pr c 1) := rows_of (off6 c 0)
theorem ps_p2 (c : Dev nD) :
    (Memref.whole cc0_scratch2 : Memref sig .tc .vmem S256x1024 .bf16).slice (Rect.unit (s := S256x1024) (k0_off6 c 2#32) S64x1024.size (k0_off6_inb c 1)) (fun _ => rfl)
      = psM (pr c 2) := rows_of (off6 c 1)
theorem ps_p3 (c : Dev nD) :
    (Memref.whole cc0_scratch2 : Memref sig .tc .vmem S256x1024 .bf16).slice (Rect.unit (s := S256x1024) (k0_off6 c 3#32) S64x1024.size (k0_off6_inb c 2)) (fun _ => rfl)
      = psM (pr c 3) := rows_of (off6 c 2)
theorem out_own (c : Dev nD) :
    (Memref.whole main_v1 : Memref sig .tc .hbm S256x1024 .f32).slice (Rect.unit (s := S256x1024) (k0_off3 c) S64x1024.size (k0_off3_inb c)) (fun _ => rfl)
      = outM c := rows_of (k0_off3_eq c)
theorem out_p1 (c : Dev nD) :
    (Memref.whole main_v1 : Memref sig .tc .hbm S256x1024 .f32).slice (Rect.unit (s := S256x1024) (k0_off6 c 1#32) S64x1024.size (k0_off6_inb c 0)) (fun _ => rfl)
      = outM (pr c 1) := rows_of (off6 c 0)
theorem out_p3 (c : Dev nD) :
    (Memref.whole main_v1 : Memref sig .tc .hbm S256x1024 .f32).slice (Rect.unit (s := S256x1024) (k0_off6 c 3#32) S64x1024.size (k0_off6_inb c 2)) (fun _ => rfl)
      = outM (pr c 3) := rows_of (off6 c 2)
theorem wv1_0 :
    ((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048
      = wv1M 0 := rfl
theorem wv2_0 :
    ((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024
      = wv2M 0 := rfl
theorem bar_sem : (SemArray.scalar (sig.barrier 0 rfl) : Sems sig S_).sem = barS := rfl
theorem snd_0_0 : ((cc0_scratch8.slice (Rect.unit (s := S7x3) ![0, 0] S1x1.size inb_S7x3_S1x1_0_0)).squeeze S_ squeezes_S1x1_S_).sem = sndS 0 0 := by decide +kernel
theorem snd_0_1 : ((cc0_scratch8.slice (Rect.unit (s := S7x3) ![0, 1] S1x1.size inb_S7x3_S1x1_0_1)).squeeze S_ squeezes_S1x1_S_).sem = sndS 0 1 := by decide +kernel
theorem snd_0_2 : ((cc0_scratch8.slice (Rect.unit (s := S7x3) ![0, 2] S1x1.size inb_S7x3_S1x1_0_2)).squeeze S_ squeezes_S1x1_S_).sem = sndS 0 2 := by decide +kernel
theorem snd_1_0 : ((cc0_scratch8.slice (Rect.unit (s := S7x3) ![1, 0] S1x1.size inb_S7x3_S1x1_1_0)).squeeze S_ squeezes_S1x1_S_).sem = sndS 1 0 := by decide +kernel
theorem snd_1_1 : ((cc0_scratch8.slice (Rect.unit (s := S7x3) ![1, 1] S1x1.size inb_S7x3_S1x1_1_1)).squeeze S_ squeezes_S1x1_S_).sem = sndS 1 1 := by decide +kernel
theorem snd_1_2 : ((cc0_scratch8.slice (Rect.unit (s := S7x3) ![1, 2] S1x1.size inb_S7x3_S1x1_1_2)).squeeze S_ squeezes_S1x1_S_).sem = sndS 1 2 := by decide +kernel
theorem snd_2_0 : ((cc0_scratch8.slice (Rect.unit (s := S7x3) ![2, 0] S1x1.size inb_S7x3_S1x1_2_0)).squeeze S_ squeezes_S1x1_S_).sem = sndS 2 0 := by decide +kernel
theorem snd_2_1 : ((cc0_scratch8.slice (Rect.unit (s := S7x3) ![2, 1] S1x1.size inb_S7x3_S1x1_2_1)).squeeze S_ squeezes_S1x1_S_).sem = sndS 2 1 := by decide +kernel
theorem snd_2_2 : ((cc0_scratch8.slice (Rect.unit (s := S7x3) ![2, 2] S1x1.size inb_S7x3_S1x1_2_2)).squeeze S_ squeezes_S1x1_S_).sem = sndS 2 2 := by decide +kernel
theorem snd_3_0 : ((cc0_scratch8.slice (Rect.unit (s := S7x3) ![3, 0] S1x1.size inb_S7x3_S1x1_3_0)).squeeze S_ squeezes_S1x1_S_).sem = sndS 3 0 := by decide +kernel
theorem snd_3_1 : ((cc0_scratch8.slice (Rect.unit (s := S7x3) ![3, 1] S1x1.size inb_S7x3_S1x1_3_1)).squeeze S_ squeezes_S1x1_S_).sem = sndS 3 1 := by decide +kernel
theorem snd_3_2 : ((cc0_scratch8.slice (Rect.unit (s := S7x3) ![3, 2] S1x1.size inb_S7x3_S1x1_3_2)).squeeze S_ squeezes_S1x1_S_).sem = sndS 3 2 := by decide +kernel
theorem snd_4_0 : ((cc0_scratch8.slice (Rect.unit (s := S7x3) ![4, 0] S1x1.size inb_S7x3_S1x1_4_0)).squeeze S_ squeezes_S1x1_S_).sem = sndS 4 0 := by decide +kernel
theorem snd_4_1 : ((cc0_scratch8.slice (Rect.unit (s := S7x3) ![4, 1] S1x1.size inb_S7x3_S1x1_4_1)).squeeze S_ squeezes_S1x1_S_).sem = sndS 4 1 := by decide +kernel
theorem snd_4_2 : ((cc0_scratch8.slice (Rect.unit (s := S7x3) ![4, 2] S1x1.size inb_S7x3_S1x1_4_2)).squeeze S_ squeezes_S1x1_S_).sem = sndS 4 2 := by decide +kernel
theorem snd_5_0 : ((cc0_scratch8.slice (Rect.unit (s := S7x3) ![5, 0] S1x1.size inb_S7x3_S1x1_5_0)).squeeze S_ squeezes_S1x1_S_).sem = sndS 5 0 := by decide +kernel
theorem snd_5_1 : ((cc0_scratch8.slice (Rect.unit (s := S7x3) ![5, 1] S1x1.size inb_S7x3_S1x1_5_1)).squeeze S_ squeezes_S1x1_S_).sem = sndS 5 1 := by decide +kernel
theorem snd_5_2 : ((cc0_scratch8.slice (Rect.unit (s := S7x3) ![5, 2] S1x1.size inb_S7x3_S1x1_5_2)).squeeze S_ squeezes_S1x1_S_).sem = sndS 5 2 := by decide +kernel
theorem snd_6_0 : ((cc0_scratch8.slice (Rect.unit (s := S7x3) ![6, 0] S1x1.size inb_S7x3_S1x1_6_0)).squeeze S_ squeezes_S1x1_S_).sem = sndS 6 0 := by decide +kernel
theorem snd_6_1 : ((cc0_scratch8.slice (Rect.unit (s := S7x3) ![6, 1] S1x1.size inb_S7x3_S1x1_6_1)).squeeze S_ squeezes_S1x1_S_).sem = sndS 6 1 := by decide +kernel
theorem snd_6_2 : ((cc0_scratch8.slice (Rect.unit (s := S7x3) ![6, 2] S1x1.size inb_S7x3_S1x1_6_2)).squeeze S_ squeezes_S1x1_S_).sem = sndS 6 2 := by decide +kernel
theorem wcp_0_0 : ((cc0_scratch10.slice (Rect.unit (s := S3x2) ![0, 0] S1x1.size inb_S3x2_S1x1_0_0)).squeeze S_ squeezes_S1x1_S_).sem = wcpS 0 0 := by decide +kernel
theorem wcp_0_1 : ((cc0_scratch10.slice (Rect.unit (s := S3x2) ![0, 1] S1x1.size inb_S3x2_S1x1_0_1)).squeeze S_ squeezes_S1x1_S_).sem = wcpS 0 1 := by decide +kernel
theorem wcp_1_0 : ((cc0_scratch10.slice (Rect.unit (s := S3x2) ![1, 0] S1x1.size inb_S3x2_S1x1_1_0)).squeeze S_ squeezes_S1x1_S_).sem = wcpS 1 0 := by decide +kernel
theorem wcp_1_1 : ((cc0_scratch10.slice (Rect.unit (s := S3x2) ![1, 1] S1x1.size inb_S3x2_S1x1_1_1)).squeeze S_ squeezes_S1x1_S_).sem = wcpS 1 1 := by decide +kernel
theorem wcp_2_0 : ((cc0_scratch10.slice (Rect.unit (s := S3x2) ![2, 0] S1x1.size inb_S3x2_S1x1_2_0)).squeeze S_ squeezes_S1x1_S_).sem = wcpS 2 0 := by decide +kernel
theorem wcp_2_1 : ((cc0_scratch10.slice (Rect.unit (s := S3x2) ![2, 1] S1x1.size inb_S3x2_S1x1_2_1)).squeeze S_ squeezes_S1x1_S_).sem = wcpS 2 1 := by decide +kernel
theorem outc_sem : ((cc0_scratch11.slice (Rect.unit (s := S1) ![0] S1.size inb_S1_S1_0)).squeeze S_ squeezes_S1_S_).sem = outS := by decide +kernel
theorem rcv0_own (c : Dev nD) : ((cc0_scratch9.slice (Rect.unit (s := S7x4) (k0_off2 c) S1x1.size (k0_off2_inb c))).squeeze S_ squeezes_S1x1_S_).sem = rcvS 0 c := by revert c; decide +kernel
theorem rcv1_own (c : Dev nD) : ((cc0_scratch9.slice (Rect.unit (s := S7x4) (k0_off8 c) S1x1.size (k0_off8_inb c))).squeeze S_ squeezes_S1x1_S_).sem = rcvS 1 c := by revert c; decide +kernel
theorem rcv2_own (c : Dev nD) : ((cc0_scratch9.slice (Rect.unit (s := S7x4) (k0_off15 c) S1x1.size (k0_off15_inb c))).squeeze S_ squeezes_S1x1_S_).sem = rcvS 2 c := by revert c; decide +kernel
theorem rcv3_own (c : Dev nD) : ((cc0_scratch9.slice (Rect.unit (s := S7x4) (k0_off19 c) S1x1.size (k0_off19_inb c))).squeeze S_ squeezes_S1x1_S_).sem = rcvS 3 c := by revert c; decide +kernel
theorem rcv4_own (c : Dev nD) : ((cc0_scratch9.slice (Rect.unit (s := S7x4) (k0_off25 c) S1x1.size (k0_off25_inb c))).squeeze S_ squeezes_S1x1_S_).sem = rcvS 4 c := by revert c; decide +kernel
theorem rcv5_own (c : Dev nD) : ((cc0_scratch9.slice (Rect.unit (s := S7x4) (k0_off29 c) S1x1.size (k0_off29_inb c))).squeeze S_ squeezes_S1x1_S_).sem = rcvS 5 c := by revert c; decide +kernel
theorem rcv6_own (c : Dev nD) : ((cc0_scratch9.slice (Rect.unit (s := S7x4) (k0_off34 c) S1x1.size (k0_off34_inb c))).squeeze S_ squeezes_S1x1_S_).sem = rcvS 6 c := by revert c; decide +kernel
theorem rcv0_p1 (c : Dev nD) : ((cc0_scratch9.slice (Rect.unit (s := S7x4) (k0_off5 c 1#32) S1x1.size (k0_off5_inb c 0))).squeeze S_ squeezes_S1x1_S_).sem = rcvS 0 (pr c 1) := by revert c; decide +kernel
theorem rcv0_p2 (c : Dev nD) : ((cc0_scratch9.slice (Rect.unit (s := S7x4) (k0_off5 c 2#32) S1x1.size (k0_off5_inb c 1))).squeeze S_ squeezes_S1x1_S_).sem = rcvS 0 (pr c 2) := by revert c; decide +kernel
theorem rcv0_p3 (c : Dev nD) : ((cc0_scratch9.slice (Rect.unit (s := S7x4) (k0_off5 c 3#32) S1x1.size (k0_off5_inb c 2))).squeeze S_ squeezes_S1x1_S_).sem = rcvS 0 (pr c 3) := by revert c; decide +kernel
theorem rcv1_p1 (c : Dev nD) : ((cc0_scratch9.slice (Rect.unit (s := S7x4) (k0_off10 c 1#32) S1x1.size (k0_off10_inb c 0))).squeeze S_ squeezes_S1x1_S_).sem = rcvS 1 (pr c 1) := by revert c; decide +kernel
theorem rcv1_p2 (c : Dev nD) : ((cc0_scratch9.slice (Rect.unit (s := S7x4) (k0_off10 c 2#32) S1x1.size (k0_off10_inb c 1))).squeeze S_ squeezes_S1x1_S_).sem = rcvS 1 (pr c 2) := by revert c; decide +kernel
theorem rcv1_p3 (c : Dev nD) : ((cc0_scratch9.slice (Rect.unit (s := S7x4) (k0_off10 c 3#32) S1x1.size (k0_off10_inb c 2))).squeeze S_ squeezes_S1x1_S_).sem = rcvS 1 (pr c 3) := by revert c; decide +kernel
theorem rcv2_p1 (c : Dev nD) : ((cc0_scratch9.slice (Rect.unit (s := S7x4) (k0_off17 c 1#32) S1x1.size (k0_off17_inb c 0))).squeeze S_ squeezes_S1x1_S_).sem = rcvS 2 (pr c 1) := by revert c; decide +kernel
theorem rcv2_p2 (c : Dev nD) : ((cc0_scratch9.slice (Rect.unit (s := S7x4) (k0_off17 c 2#32) S1x1.size (k0_off17_inb c 1))).squeeze S_ squeezes_S1x1_S_).sem = rcvS 2 (pr c 2) := by revert c; decide +kernel
theorem rcv2_p3 (c : Dev nD) : ((cc0_scratch9.slice (Rect.unit (s := S7x4) (k0_off17 c 3#32) S1x1.size (k0_off17_inb c 2))).squeeze S_ squeezes_S1x1_S_).sem = rcvS 2 (pr c 3) := by revert c; decide +kernel
theorem rcv3_p1 (c : Dev nD) : ((cc0_scratch9.slice (Rect.unit (s := S7x4) (k0_off21 c 1#32) S1x1.size (k0_off21_inb c 0))).squeeze S_ squeezes_S1x1_S_).sem = rcvS 3 (pr c 1) := by revert c; decide +kernel
theorem rcv3_p2 (c : Dev nD) : ((cc0_scratch9.slice (Rect.unit (s := S7x4) (k0_off21 c 2#32) S1x1.size (k0_off21_inb c 1))).squeeze S_ squeezes_S1x1_S_).sem = rcvS 3 (pr c 2) := by revert c; decide +kernel
theorem rcv3_p3 (c : Dev nD) : ((cc0_scratch9.slice (Rect.unit (s := S7x4) (k0_off21 c 3#32) S1x1.size (k0_off21_inb c 2))).squeeze S_ squeezes_S1x1_S_).sem = rcvS 3 (pr c 3) := by revert c; decide +kernel
theorem rcv4_p1 (c : Dev nD) : ((cc0_scratch9.slice (Rect.unit (s := S7x4) (k0_off27 c 1#32) S1x1.size (k0_off27_inb c 0))).squeeze S_ squeezes_S1x1_S_).sem = rcvS 4 (pr c 1) := by revert c; decide +kernel
theorem rcv4_p2 (c : Dev nD) : ((cc0_scratch9.slice (Rect.unit (s := S7x4) (k0_off27 c 2#32) S1x1.size (k0_off27_inb c 1))).squeeze S_ squeezes_S1x1_S_).sem = rcvS 4 (pr c 2) := by revert c; decide +kernel
theorem rcv4_p3 (c : Dev nD) : ((cc0_scratch9.slice (Rect.unit (s := S7x4) (k0_off27 c 3#32) S1x1.size (k0_off27_inb c 2))).squeeze S_ squeezes_S1x1_S_).sem = rcvS 4 (pr c 3) := by revert c; decide +kernel
theorem rcv5_p1 (c : Dev nD) : ((cc0_scratch9.slice (Rect.unit (s := S7x4) (k0_off31 c 1#32) S1x1.size (k0_off31_inb c 0))).squeeze S_ squeezes_S1x1_S_).sem = rcvS 5 (pr c 1) := by revert c; decide +kernel
theorem rcv5_p2 (c : Dev nD) : ((cc0_scratch9.slice (Rect.unit (s := S7x4) (k0_off31 c 2#32) S1x1.size (k0_off31_inb c 1))).squeeze S_ squeezes_S1x1_S_).sem = rcvS 5 (pr c 2) := by revert c; decide +kernel
theorem rcv5_p3 (c : Dev nD) : ((cc0_scratch9.slice (Rect.unit (s := S7x4) (k0_off31 c 3#32) S1x1.size (k0_off31_inb c 2))).squeeze S_ squeezes_S1x1_S_).sem = rcvS 5 (pr c 3) := by revert c; decide +kernel
theorem rcv6_p1 (c : Dev nD) : ((cc0_scratch9.slice (Rect.unit (s := S7x4) (k0_off35 c 1#32) S1x1.size (k0_off35_inb c 0))).squeeze S_ squeezes_S1x1_S_).sem = rcvS 6 (pr c 1) := by revert c; decide +kernel
theorem rcv6_p2 (c : Dev nD) : ((cc0_scratch9.slice (Rect.unit (s := S7x4) (k0_off35 c 2#32) S1x1.size (k0_off35_inb c 1))).squeeze S_ squeezes_S1x1_S_).sem = rcvS 6 (pr c 2) := by revert c; decide +kernel
theorem rcv6_p3 (c : Dev nD) : ((cc0_scratch9.slice (Rect.unit (s := S7x4) (k0_off35 c 3#32) S1x1.size (k0_off35_inb c 2))).squeeze S_ squeezes_S1x1_S_).sem = rcvS 6 (pr c 3) := by revert c; decide +kernel

end Cert.Kernel.Dist
-- ==== Proof.BBodyLocal.lean ====
import proofs.«900988_g7700000000000989_dist_mlpseq_tp1d_bs_rep_b64_d1024_h2048_v7x_i4_f32_1_alg».proof.Proof.BTables
import proofs.«900988_g7700000000000989_dist_mlpseq_tp1d_bs_rep_b64_d1024_h2048_v7x_i4_f32_1_alg».proof.Proof.BLevels
import proofs.«900988_g7700000000000989_dist_mlpseq_tp1d_bs_rep_b64_d1024_h2048_v7x_i4_f32_1_alg».proof.Proof.BDat
import Idealize.ShloMosaic.Lib.Pipeline.Value

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

-- The place of a transfer semaphore's cell in the launch's enumeration.
private def dmaKL (q : DmaSem sig) : Fin 57 := ⟨q.val - 1, by have h : q.val < 57 := q.isLt; omega⟩

theorem kcell_dmaL (d : Dev nD) (q : DmaSem sig) (hq : 1 ≤ q.val) : kcell (d, dmaKL q) = ((d : Thread nD τ), SemLoc.dma q) := by
  have hlt : q.val < 57 := q.isLt
  show ((d : Thread nD τ), csem ⟨q.val - 1, _⟩) = _
  unfold csem
  rw [dif_pos (show q.val - 1 < 56 by omega)]
  unfold osem
  exact congrArg (fun x => ((d : Thread nD τ), SemLoc.dma x)) (Fin.ext (show q.val - 1 + 1 = q.val by omega))

theorem rem_signal (c : Dev nD) (o : Nat) (ho1 : 1 ≤ o) (ho3 : o ≤ 3) :
    rem c (25 - o) = rem c (24 - o) + tallyAt (barCell (pr c o)) () 1 := by
  obtain rfl | rfl | rfl : o = 1 ∨ o = 2 ∨ o = 3 := by omega
  all_goals rfl

theorem signal_step (K : Dev nD × Fin 57 → ℕ) (c : Dev nD) (o : Nat) (ho1 : 1 ≤ o) (ho3 : o ≤ 3) (W : Waits sig Unit)
    {Γ : PendingWaitsCtx sig Unit} {Es : Set ℕ} {α : Type} {Q : α → sProp 𝕄}
    {k : PUnit → Prog (TpuEff nD τ sig (Elt F) Λ₀ .tc) α} :
    iprop(records m K ∗ owes (c : Thread nD τ) (rem c (25 - o)) W ∗ dutyTok ER (barCell (pr c o)) 0 c ∗ barPay (F := F) (pr c o) c)
      ⊢ iprop((owes (c : Thread nD τ) (rem c (24 - o)) W -∗ wp frame (wpE' (defs₀ (F := F)) 𝒱₀ (c : Thread nD τ) none Γ) Es (k ⟨⟩) Q)
          -∗ wp frame (wpE' (defs₀ (F := F)) 𝒱₀ (c : Thread nD τ) none Γ) Es
              (.op (.semSignal ((pr c o : Dev nD) : Thread nD τ) barS (1#32 : BitVec 32).toNat) k) Q) := by
  iintro ⟨#HR, HO, Ht, Hp⟩ Hk
  iapply (Rounds.wp_signal 𝒱₀ ER (Rd (F := F) m) (c : Thread nD τ) none (dst := ((pr c o : Dev nD) : Thread nD τ)) (κ := K (pr c o, ⟨56, by decide⟩))
      (d := c) (by rw [duties_bar]; exact Finset.mem_erase.mpr ⟨(pr_ne c o (by omega) (by omega)).symm, Finset.mem_univ _⟩)
      ((amount_bar m (pr c o) c).trans (by decide)) () (rem c (24 - o)) (rem_signal c o ho1 ho3)) $$ [HO Ht Hp]
  · isplitr; · iapply (inv_at m K (pr c o, ⟨56, by decide⟩)); iexact HR
    rw [payload_bar]; iframe
    iapply (reached_at m K (pr c o, ⟨56, by decide⟩)); iexact HR
  iexact Hk

theorem inv_dma (K : Dev nD × Fin 57 → ℕ) (d : Dev nD) (q : DmaSem sig) (hq : 1 ≤ q.val) :
    records m K ⊢ cellInv ER (Rd (F := F) m) (K (d, dmaKL q)) ((d : Thread nD τ), SemLoc.dma q) :=
  kcell_dmaL d q hq ▸ inv_at m K (d, dmaKL q)
theorem reached_dma (K : Dev nD × Fin 57 → ℕ) (d : Dev nD) (q : DmaSem sig) (hq : 1 ≤ q.val) :
    records m K ⊢ (reached ER ((d : Thread nD τ), SemLoc.dma q) 0 : sProp 𝕄) :=
  kcell_dmaL d q hq ▸ reached_at m K (d, dmaKL q)

-- A slot of a two-slot buffer, its leading axis dropped: index `y` sits at `(b, y 0, y 1)`.
private theorem slot_emb {n0 n1 : Nat} (b : Fin 2) (inb) (h) (y : (⟨2, ![n0, n1]⟩ : Shape).Idx) :
    (Rect.unit (s := ⟨3, ![2, n0, n1]⟩) ![b.val, 0, 0] ![1, n0, n1] inb).emb (Shape.reshapeEquiv h y) = ix3 b (y 0) (y 1) := by
  rw [Shape.reshapeEquiv_cons_one (n := 2) (d := ![n0, n1])]
  funext a; apply Fin.ext; rw [Rect.emb_apply]
  match a with
  | ⟨0, _⟩ => exact Nat.add_zero _
  | ⟨1, _⟩ => exact (Nat.zero_add _).trans (Nat.one_mul _)
  | ⟨2, _⟩ => exact (Nat.zero_add _).trans (Nat.one_mul _)

-- A matrix written whole through a slot: on the slot's elements the buffer holds the matrix, whichever the slot.
theorem wv1_lands0 (fd) (w : Vec F S1024x2048 .f32) :
    ∀ i ∈ (wv1M 0).view.set, (wv1M 0).view.write (Elt F) fd w Finset.univ i
      = (fun i : S2x1024x2048.Idx => w (ix2 (i 1) (i 2)) : Vec F S2x1024x2048 .f32) i := by
  intro i hi
  obtain ⟨y, rfl⟩ := View.exists_emb_of_mem_set _ hi
  rw [View.write_emb_of_mem _ _ (Finset.mem_univ y), show (wv1M 0).view.emb y = (ix3 (0 : Fin 2) (y 0) (y 1) : S2x1024x2048.Idx) from
    slot_emb 0 inb_S2x1024x2048_S1x1024x2048_0_0_0 squeezes_S1x1024x2048_S1024x2048.numel_eq y]
  exact (cast_eq _ _).trans (congrArg w (eq_ix2 y))
theorem wv1_lands1 (fd) (w : Vec F S1024x2048 .f32) :
    ∀ i ∈ (wv1M 1).view.set, (wv1M 1).view.write (Elt F) fd w Finset.univ i
      = (fun i : S2x1024x2048.Idx => w (ix2 (i 1) (i 2)) : Vec F S2x1024x2048 .f32) i := by
  intro i hi
  obtain ⟨y, rfl⟩ := View.exists_emb_of_mem_set _ hi
  rw [View.write_emb_of_mem _ _ (Finset.mem_univ y), show (wv1M 1).view.emb y = (ix3 (1 : Fin 2) (y 0) (y 1) : S2x1024x2048.Idx) from
    slot_emb 1 inb_S2x1024x2048_S1x1024x2048_1_0_0 squeezes_S1x1024x2048_S1024x2048.numel_eq y]
  exact (cast_eq _ _).trans (congrArg w (eq_ix2 y))
theorem wv2_lands0 (fd) (w : Vec F S2048x1024 .f32) :
    ∀ i ∈ (wv2M 0).view.set, (wv2M 0).view.write (Elt F) fd w Finset.univ i
      = (fun i : S2x2048x1024.Idx => w (ix2 (i 1) (i 2)) : Vec F S2x2048x1024 .f32) i := by
  intro i hi
  obtain ⟨y, rfl⟩ := View.exists_emb_of_mem_set _ hi
  rw [View.write_emb_of_mem _ _ (Finset.mem_univ y), show (wv2M 0).view.emb y = (ix3 (0 : Fin 2) (y 0) (y 1) : S2x2048x1024.Idx) from
    slot_emb 0 inb_S2x2048x1024_S1x2048x1024_0_0_0 squeezes_S1x2048x1024_S2048x1024.numel_eq y]
  exact (cast_eq _ _).trans (congrArg w (eq_ix2 y))
theorem wv2_lands1 (fd) (w : Vec F S2048x1024 .f32) :
    ∀ i ∈ (wv2M 1).view.set, (wv2M 1).view.write (Elt F) fd w Finset.univ i
      = (fun i : S2x2048x1024.Idx => w (ix2 (i 1) (i 2)) : Vec F S2x2048x1024 .f32) i := by
  intro i hi
  obtain ⟨y, rfl⟩ := View.exists_emb_of_mem_set _ hi
  rw [View.write_emb_of_mem _ _ (Finset.mem_univ y), show (wv2M 1).view.emb y = (ix3 (1 : Fin 2) (y 0) (y 1) : S2x2048x1024.Idx) from
    slot_emb 1 inb_S2x2048x1024_S1x2048x1024_1_0_0 squeezes_S1x2048x1024_S2048x1024.numel_eq y]
  exact (cast_eq _ _).trans (congrArg w (eq_ix2 y))

-- A weight copied whole into a slot held at any contents pays the one duty of the copy's cell with the slot at `g` and the array itself.
theorem wcopy_core (K : Dev nD × Fin 57 → ℕ) (c : Dev nD) (l : Fin 3) (j : Fin 2) {s : Shape}
    (src : Memref sig .tc .hbm s .f32) (dst : Memref sig .tc .vmem s .f32)
    (fs : Buf (Elt F) (src.view.loc (c : Thread nD τ))) (g : Buf (Elt F) (dst.view.loc (c : Thread nD τ)))
    (hN : dst.view.dmaCredit = Nw)
    (hg : ∀ fd, ∀ i ∈ dst.view.set, dst.view.write (Elt F) fd (src.view.read (Elt F) fs) Finset.univ i = g i)
    (hpay : iprop(pts (F := F) dst c fullShare g ∗ pts (F := F) src c fullShare fs) ⊢ wcpPay m c l j) {hsrc} {hdst} {hsem}
    {Γ : PendingWaitsCtx sig Unit} {Es : Set ℕ} {α : Type} {Q : α → sProp 𝕄}
    {k : PUnit → Prog (TpuEff nD τ sig (Elt F) Λ₀ .tc) α} :
    iprop(records m K ∗ pts (F := F) src c fullShare fs ∗ ptsE (F := F) dst c ∗ dutyTok ER (wcpCell c l j) 0 c)
      ⊢ iprop((cred (tallyAt (wcpCell c l j) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma src (.here dst) (.dma (wcpS l j)) hsrc hdst hsem) k) Q) := by
  have hq : 1 ≤ (wcpS l j).val := by rw [wcpS_val]; omega
  unfold ptsE pts
  iintro ⟨#HR, Hs, ⟨%fd, Hd⟩, Ht⟩ Hk
  iapply (Rounds.wp_copy_pointsTo 𝒱₀ ER (Rd (F := F) m) (c : Thread nD τ) none (q := fullShare) (fs := fs) (fd := fd)
      (κ := K (c, dmaKL (wcpS l j))) (d := c)
      (by rw [duties_wcp]; exact Finset.mem_singleton_self _) () Nw (show dst.view.amount (SemLoc.dma (wcpS l j)) = Nw from hN) (amount_wcp m c l j c) ?hpay) $$ [Hs Hd Ht]
  case hpay =>
    rw [payload_wcp, pointsTo_congr (hg fd)]
    exact hpay
  · isplitr; · iapply (inv_dma m K c (wcpS l j) hq); iexact HR
    iframe
    iapply (reached_dma m K c (wcpS l j) hq); iexact HR
  iexact Hk

theorem wcopy_step_0_0 (K : Dev nD × Fin 57 → ℕ) (c : Dev nD)
    {hsrc : (Memref.whole main_arg1 : Memref sig .tc .hbm S1024x2048 .f32).view.WordExact} {hdst : (wv1M 0).view.WordExact}
    {hsem : DmaTarget.Typed (nD := nD) .hbm (SemLoc.dma (wcpS 0 0)) (DmaTarget.here (wv1M 0) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg1 : Memref sig .tc .hbm S1024x2048 .f32) c fullShare (W1 (F := F) m 0 c)
        ∗ ptsE (F := F) (wv1M 0) c ∗ dutyTok ER (wcpCell c 0 0) 0 c)
      ⊢ iprop((cred (tallyAt (wcpCell c 0 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg1 : Memref sig .tc .hbm S1024x2048 .f32) (.here (wv1M 0)) (.dma (wcpS 0 0)) hsrc hdst hsem) k) Q) :=
  wcopy_core m K c 0 0 _ (wv1M 0) _ (wv1B m 0 c) (by decide) (fun fd => wv1_lands0 fd _) .rfl

theorem wcopy_step_0_1 (K : Dev nD × Fin 57 → ℕ) (c : Dev nD)
    {hsrc : (Memref.whole main_arg2 : Memref sig .tc .hbm S2048x1024 .f32).view.WordExact} {hdst : (wv2M 0).view.WordExact}
    {hsem : DmaTarget.Typed (nD := nD) .hbm (SemLoc.dma (wcpS 0 1)) (DmaTarget.here (wv2M 0) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg2 : Memref sig .tc .hbm S2048x1024 .f32) c fullShare (W2 (F := F) m 0 c)
        ∗ ptsE (F := F) (wv2M 0) c ∗ dutyTok ER (wcpCell c 0 1) 0 c)
      ⊢ iprop((cred (tallyAt (wcpCell c 0 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg2 : Memref sig .tc .hbm S2048x1024 .f32) (.here (wv2M 0)) (.dma (wcpS 0 1)) hsrc hdst hsem) k) Q) :=
  wcopy_core m K c 0 1 _ (wv2M 0) _ (wv2B m 0 c) (by decide) (fun fd => wv2_lands0 fd _) .rfl

theorem wcopy_step_1_0 (K : Dev nD × Fin 57 → ℕ) (c : Dev nD)
    {hsrc : (Memref.whole main_arg3 : Memref sig .tc .hbm S1024x2048 .f32).view.WordExact} {hdst : (wv1M 1).view.WordExact}
    {hsem : DmaTarget.Typed (nD := nD) .hbm (SemLoc.dma (wcpS 1 0)) (DmaTarget.here (wv1M 1) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg3 : Memref sig .tc .hbm S1024x2048 .f32) c fullShare (W1 (F := F) m 1 c)
        ∗ ptsE (F := F) (wv1M 1) c ∗ dutyTok ER (wcpCell c 1 0) 0 c)
      ⊢ iprop((cred (tallyAt (wcpCell c 1 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg3 : Memref sig .tc .hbm S1024x2048 .f32) (.here (wv1M 1)) (.dma (wcpS 1 0)) hsrc hdst hsem) k) Q) :=
  wcopy_core m K c 1 0 _ (wv1M 1) _ (wv1B m 1 c) (by decide) (fun fd => wv1_lands1 fd _) .rfl

theorem wcopy_step_1_1 (K : Dev nD × Fin 57 → ℕ) (c : Dev nD)
    {hsrc : (Memref.whole main_arg4 : Memref sig .tc .hbm S2048x1024 .f32).view.WordExact} {hdst : (wv2M 1).view.WordExact}
    {hsem : DmaTarget.Typed (nD := nD) .hbm (SemLoc.dma (wcpS 1 1)) (DmaTarget.here (wv2M 1) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg4 : Memref sig .tc .hbm S2048x1024 .f32) c fullShare (W2 (F := F) m 1 c)
        ∗ ptsE (F := F) (wv2M 1) c ∗ dutyTok ER (wcpCell c 1 1) 0 c)
      ⊢ iprop((cred (tallyAt (wcpCell c 1 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg4 : Memref sig .tc .hbm S2048x1024 .f32) (.here (wv2M 1)) (.dma (wcpS 1 1)) hsrc hdst hsem) k) Q) :=
  wcopy_core m K c 1 1 _ (wv2M 1) _ (wv2B m 1 c) (by decide) (fun fd => wv2_lands1 fd _) .rfl

theorem wcopy_step_2_0 (K : Dev nD × Fin 57 → ℕ) (c : Dev nD)
    {hsrc : (Memref.whole main_arg5 : Memref sig .tc .hbm S1024x2048 .f32).view.WordExact} {hdst : (wv1M 0).view.WordExact}
    {hsem : DmaTarget.Typed (nD := nD) .hbm (SemLoc.dma (wcpS 2 0)) (DmaTarget.here (wv1M 0) : DmaTarget nD τ sig Proc.tc .vmem S1024x2048 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg5 : Memref sig .tc .hbm S1024x2048 .f32) c fullShare (W1 (F := F) m 2 c)
        ∗ ptsE (F := F) (wv1M 0) c ∗ dutyTok ER (wcpCell c 2 0) 0 c)
      ⊢ iprop((cred (tallyAt (wcpCell c 2 0) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg5 : Memref sig .tc .hbm S1024x2048 .f32) (.here (wv1M 0)) (.dma (wcpS 2 0)) hsrc hdst hsem) k) Q) :=
  wcopy_core m K c 2 0 _ (wv1M 0) _ (wv1B m 2 c) (by decide) (fun fd => wv1_lands0 fd _) .rfl

theorem wcopy_step_2_1 (K : Dev nD × Fin 57 → ℕ) (c : Dev nD)
    {hsrc : (Memref.whole main_arg6 : Memref sig .tc .hbm S2048x1024 .f32).view.WordExact} {hdst : (wv2M 0).view.WordExact}
    {hsem : DmaTarget.Typed (nD := nD) .hbm (SemLoc.dma (wcpS 2 1)) (DmaTarget.here (wv2M 0) : DmaTarget nD τ sig Proc.tc .vmem S2048x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) (Memref.whole main_arg6 : Memref sig .tc .hbm S2048x1024 .f32) c fullShare (W2 (F := F) m 2 c)
        ∗ ptsE (F := F) (wv2M 0) c ∗ dutyTok ER (wcpCell c 2 1) 0 c)
      ⊢ iprop((cred (tallyAt (wcpCell c 2 1) () Nw) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (Memref.whole main_arg6 : Memref sig .tc .hbm S2048x1024 .f32) (.here (wv2M 0)) (.dma (wcpS 2 1)) hsrc hdst hsem) k) Q) :=
  wcopy_core m K c 2 1 _ (wv2M 0) _ (wv2B m 2 c) (by decide) (fun fd => wv2_lands0 fd _) .rfl

theorem rowDev_row64 (c : Dev nD) (r : Fin 64) : rowDev (row64 c r) = c :=
  Fin.ext (by show (64 * c.val + r.val) / 64 = c.val; have := r.isLt; omega)
theorem rowIn_row64 (c : Dev nD) (r : Fin 64) : rowIn (row64 c r) = r :=
  Fin.ext (by show (64 * c.val + r.val) % 64 = r.val; have := r.isLt; omega)

theorem outM_emb (c : Dev nD) (y : S64x1024.Idx) :
    (outM c).view.emb y = (ix2 (row64 c (y 0)) (y 1) : S256x1024.Idx) := by
  show (Rect.unit (s := S256x1024) ![64 * c.val, 0] S64x1024.size (rows_inb c)).emb y = _
  funext a
  apply Fin.ext
  rw [Rect.emb_apply]
  match a with
  | ⟨0, _⟩ => show 64 * c.val + 1 * (y 0).val = 64 * c.val + (y 0).val; omega
  | ⟨1, _⟩ => exact (Nat.zero_add _).trans (Nat.one_mul _)

theorem outM_lands (c : Dev nD) (fd : (outM c).view.ty.Contents (Elt F)) :
    ∀ i ∈ (outM c).view.set, (outM c).view.write (Elt F) fd (outBlk m c) Finset.univ i = (outAll m : Vec F S256x1024 .f32) i := by
  intro i hi
  obtain ⟨y, rfl⟩ := View.exists_emb_of_mem_set _ hi
  rw [View.write_emb_of_mem _ _ (Finset.mem_univ y), outM_emb]
  refine (cast_eq _ _).trans ?_
  show outBlk m c y = outBlk m (rowDev (row64 c (y 0))) (ix2 (rowIn (row64 c (y 0))) (y 1))
  rw [rowDev_row64 c (y 0), rowIn_row64 c (y 0)]
  exact congrArg (outBlk m c) (eq_ix2 y)

theorem outcopy_step (K : Dev nD × Fin 57 → ℕ) (c : Dev nD)
    {hsrc : (stgM).view.WordExact} {hdst : (outM c).view.WordExact}
    {hsem : DmaTarget.Typed (nD := nD) .vmem (SemLoc.dma outS) (DmaTarget.here (outM c) : DmaTarget nD τ sig Proc.tc .hbm S64x1024 .f32)}
    {Γ : PendingWaitsCtx sig Unit} {Es : Set ℕ} {α : Type} {Q : α → sProp 𝕄}
    {k : PUnit → Prog (TpuEff nD τ sig (Elt F) Λ₀ .tc) α} :
    iprop(records m K ∗ pts (F := F) stgM c (q4 3) (outBlk m c) ∗ ptsE (F := F) (outM c) c ∗ dutyTok ER (outCell c) 0 c)
      ⊢ iprop((cred (tallyAt (outCell c) () Nf) -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma stgM (.here (outM c)) (.dma outS) hsrc hdst hsem) k) Q) := by
  have hq : 1 ≤ (outS).val := by rw [outS_val]; omega
  unfold ptsE pts
  iintro ⟨#HR, Hs, ⟨%fd, Hd⟩, Ht⟩ Hk
  iapply (Rounds.wp_copy_pointsTo 𝒱₀ ER (Rd (F := F) m) (c : Thread nD τ) none (q := q4 3) (fs := outBlk m c) (fd := fd)
      (κ := K (c, dmaKL outS)) (d := c)
      (by rw [duties_out]; exact Finset.mem_singleton_self _) () Nf rfl (amount_out m c c) ?hpay) $$ [Hs Hd Ht]
  case hpay =>
    rw [payload_out, pointsTo_congr (outM_lands m c fd)]
    exact .rfl
  · isplitr; · iapply (inv_dma m K c outS hq); iexact HR
    iframe
    iapply (reached_dma m K c outS hq); iexact HR
  iexact Hk

end Cert.Kernel.Dist

end
-- ==== Proof.BBodySend.lean ====
import proofs.«900988_g7700000000000989_dist_mlpseq_tp1d_bs_rep_b64_d1024_h2048_v7x_i4_f32_1_alg».proof.Proof.BTables
import proofs.«900988_g7700000000000989_dist_mlpseq_tp1d_bs_rep_b64_d1024_h2048_v7x_i4_f32_1_alg».proof.Proof.BStart
import proofs.«900988_g7700000000000989_dist_mlpseq_tp1d_bs_rep_b64_d1024_h2048_v7x_i4_f32_1_alg».proof.Proof.BDat
import Idealize.ShloMosaic.Lib.Pipeline.Value

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

-- The place of a DMA semaphore's cell in the launch's enumeration: one below its number.
private def dix (q : DmaSem sig) : Fin 57 := ⟨q.val - 1, by have : q.val < 57 := q.isLt; omega⟩
private theorem kcell_dix (c : Dev nD) (q : DmaSem sig) (h : 0 < q.val) : kcell (c, dix q) = ((c : Thread nD τ), SemLoc.dma q) := by
  have hq : q.val < 57 := q.isLt
  show ((c : Thread nD τ), csem (dix q)) = _
  unfold csem osem
  rw [dif_pos (show (dix q).val < 56 by show q.val - 1 < 56; omega)]
  exact congrArg (fun x => ((c : Thread nD τ), SemLoc.dma x)) (Fin.ext (by show q.val - 1 + 1 = q.val; omega))

theorem amt_of_ne (p : Fin 7) (h : p.val ≠ 6) : amt p = Nh := if_neg h
theorem amt_six : amt 6 = Nf := if_pos rfl

-- Writing through `v` what was read through `v'` leaves `g` on `v`'s elements, if the source's contents at each index's image are `g` at its image under `v`.
private theorem landed {κ κ' : Kind} {sp sp' : Space} {s : Shape} {e : EltTy} (v : View sig κ sp s e)
    (v' : View sig κ' sp' s e) (fd : v.ty.Contents (Elt F)) (fs : v'.ty.Contents (Elt F)) (g : v.ty.Contents (Elt F))
    (h : ∀ y, cast (congrArg (Elt F) (v'.elt_eq.trans v.elt_eq.symm)) (fs (v'.emb y)) = g (v.emb y)) :
    ∀ i ∈ v.set, v.write (Elt F) fd (v'.read (Elt F) fs) Finset.univ i = g i := by
  intro i hi
  obtain ⟨y, rfl⟩ := View.exists_emb_of_mem_set v hi
  rw [View.write_emb_of_mem _ _ (Finset.mem_univ y), View.read_apply, cast_cast]
  exact h y

theorem unsq4 (y : S64x1024.Idx) (h : S64x1024.numel = S1x1x64x1024.numel) :
    Shape.reshapeEquiv (s := S1x1x64x1024) (s' := S64x1024) h y
      = ix4 (n0 := 1) (n1 := 1) (n2 := 64) (n3 := 1024) (0 : Fin 1) (0 : Fin 1) (y 0) (y 1) := by
  apply Shape.reshapeEquiv_eq_of_rowMajor
  refine (Shape.rowMajor_val_four (d := ![1, 1, 64, 1024]) _).trans ?_
  refine Eq.trans ?_ (Shape.rowMajor_val_two (d := ![64, 1024]) y).symm
  show (((0 : Fin 1).val * 1 + (0 : Fin 1).val) * 64 + (y 0).val) * 1024 + (y 1).val = (y 0).val * 1024 + (y 1).val
  simp

theorem rsM_emb (l : Fin 3) (s : Dev nD) (y : S64x1024.Idx) :
    (rsM l s).view.emb y = ix4 (n0 := 3) (n1 := 4) (n2 := 64) (n3 := 1024) l s (y 0) (y 1) := by
  show (Rect.unit (s := S3x4x64x1024) ![l.val, s.val, 0, 0] S1x1x64x1024.size (rs_inb l s)).emb
      (Shape.reshapeEquiv (s := S1x1x64x1024) (s' := S64x1024) squeezes_S1x1x64x1024_S64x1024.numel_eq y) = _
  rw [unsq4]
  funext a
  apply Fin.ext
  match a with
  | ⟨0, _⟩ => show l.val + 1 * 0 = l.val; omega
  | ⟨1, _⟩ => show s.val + 1 * 0 = s.val; omega
  | ⟨2, _⟩ => show 0 + 1 * (y 0).val = (y 0).val; omega
  | ⟨3, _⟩ => show 0 + 1 * (y 1).val = (y 1).val; omega

-- Rows `64 s …` of a 256 × 1024 array: where the piece's elements lie.
private theorem rows_emb (s : Dev nD) (y : S64x1024.Idx) :
    (Rect.unit (s := S256x1024) ![64 * s.val, 0] S64x1024.size (rows_inb s)).emb y
      = ix2 (n0 := 256) (n1 := 1024) (row64 s (y 0)) (y 1) := by
  funext a
  apply Fin.ext
  match a with
  | ⟨0, _⟩ => show 64 * s.val + 1 * (y 0).val = 64 * s.val + (y 0).val; omega
  | ⟨1, _⟩ => show 0 + 1 * (y 1).val = (y 1).val; omega

theorem rowDev_row64_s (c : Dev nD) (r : Fin 64) : rowDev (row64 c r) = c := by
  apply Fin.ext; show (64 * c.val + r.val) / 64 = c.val; have := r.isLt; omega
theorem rowIn_row64_s (c : Dev nD) (r : Fin 64) : rowIn (row64 c r) = r := by
  apply Fin.ext; show (64 * c.val + r.val) % 64 = r.val; have := r.isLt; omega

-- Slot `c` on device `d` and rows `64 d …` of `c`'s partial product index the same elements, one by one.
theorem ps_landed (l : Fin 3) (c d : Dev nD) (fd : (rsM l c).view.ty.Contents (Elt F)) :
    ∀ i ∈ (rsM l c).view.set,
      (rsM l c).view.write (Elt F) fd ((psM d).view.read (Elt F) (psB m l c)) Finset.univ i = rsB m d i :=
  landed _ _ fd _ (rsB m d) fun y => (cast_eq _ _).trans
    ((congrArg (psB m l c) (rows_emb d y)).trans (congrArg (rsB m d) (rsM_emb l c y)).symm)

-- Row `64 c + r` of the result belongs to device `c` at its row `r`, so the block written there is the result's own rows.
theorem out_landed (c : Dev nD) (fd : (outM c).view.ty.Contents (Elt F)) :
    ∀ i ∈ (outM c).view.set,
      (outM c).view.write (Elt F) fd ((stgM).view.read (Elt F) (outBlk m c)) Finset.univ i = outAll m i := by
  refine landed _ _ fd _ (outAll m) fun y => (cast_eq _ _).trans ?_
  refine Eq.trans ?_ (congrArg (outAll m) (rows_emb c y)).symm
  have key : ∀ (a : Fin 64) (b : Fin 1024),
      outBlk m (rowDev (row64 c a)) (ix2 (rowIn (row64 c a)) b) = outBlk m c (ix2 a b) :=
    fun a b => by rw [rowDev_row64_s, rowIn_row64_s]
  exact (congrArg (outBlk m c) (eq_ix2 (n0 := 64) (n1 := 1024) y)).trans (key (y 0) (y 1)).symm

-- An addressed transfer to a peer pays a duty of the sender's send cell and one of the peer's receive cell: the source share comes back with the first (`b` false) or travels on with the landing, and `X` travels with the landing.
private theorem send_at {Γ : PendingWaitsCtx sig Unit} {Es : Set ℕ} {α : Type} {Q : α → sProp 𝕄}
    {k : PUnit → Prog (TpuEff nD τ sig (Elt F) Λ₀ .tc) α} {sp sp' : Space} {s : Shape} {e : EltTy} (b : Bool)
    (K : Dev nD × Fin 57 → ℕ) (c d : Dev nD) (hne : c ≠ d) (p : Fin 7) (j : Fin 3) (N : ℕ) (hamt : amt p = N)
    (src : Memref sig .tc sp s e) (dst : Memref sig .tc sp' s e) (hN : dst.view.dmaCredit = N)
    (q : PosShare TreeShare) (fs : Buf (Elt F) (src.view.loc (c : Thread nD τ))) (X : sProp 𝕄)
    (kk : Nat) (W : Waits sig Unit)
    (hO : rem c (kk + 1) = rem c kk + tallyAt (rcvCell d p c) () (amt p))
    (hpay₁ : (bif b then iprop(emp) else (src.view.loc (c : Thread nD τ) ↦[src.view.set]{q} fs)) ⊢ sndPay m c p j)
    (hpay₂ : ∀ fd : Buf (Elt F) (dst.view.loc (d : Thread nD τ)),
      (bif b then iprop(((dst.view.loc (d : Thread nD τ) ↦[dst.view.set]{fullShare}
            (dst.view.write (Elt F) fd (src.view.read (Elt F) fs) Finset.univ)) ∗ X) ∗ (src.view.loc (c : Thread nD τ) ↦[src.view.set]{q} fs))
        else iprop((dst.view.loc (d : Thread nD τ) ↦[dst.view.set]{fullShare}
            (dst.view.write (Elt F) fd (src.view.read (Elt F) fs) Finset.univ)) ∗ X)) ⊢ rcvPay m d p c)
    {hsc : dst.view.ref.isScScratch = false} {hsrc : src.view.WordExact} {hdst : dst.view.WordExact}
    {hsem : DmaTarget.Typed sp (.dma (rcvS p c)) (.remote ((d : Dev nD) : Thread nD τ) dst (.dma (sndS p j)) hsc)} :
    iprop(records m K ∗ (src.view.loc (c : Thread nD τ) ↦[src.view.set]{q} fs) ∗ ptsE (F := F) dst d ∗ X
        ∗ owes (c : Thread nD τ) (rem c (kk + 1)) W
        ∗ dutyTok ER (sndCell c p j) 0 c ∗ dutyTok ER (rcvCell d p c) 0 c)
      ⊢ iprop(((cred (tallyAt (sndCell c p j) () N) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma src (.remote ((d : Dev nD) : Thread nD τ) dst (.dma (sndS p j)) hsc)
                (.dma (rcvS p c)) hsrc hdst hsem) k) Q) := by
  rw [hamt] at hO
  iintro ⟨#Hrec, Hsrc, Hdst, HX, HL, Ht1, Ht2⟩ Hk
  unfold ptsE
  icases Hdst with ⟨%fd, Hdst⟩
  ihave Hg1 := inv_at m K (c, dix (sndS p j)) $$ Hrec
  ihave Hr1 := reached_at m K (c, dix (sndS p j)) $$ Hrec
  ihave Hg2 := inv_at m K (d, dix (rcvS p c)) $$ Hrec
  ihave Hr2 := reached_at m K (d, dix (rcvS p c)) $$ Hrec
  rw [kcell_dix c (sndS p j) (by rw [sndS_val]; omega), kcell_dix d (rcvS p c) (by rw [rcvS_val]; omega)]
  ihave Hw := ((sep_mono_left (pointsTo_writeUpdate ((d : Dev nD) : Thread nD τ) (v := dst.view)
      (w := src.view.read (Elt F) fs) (fd := fd) subset_rfl)).trans (writeUpdate_frame ((d : Dev nD) : Thread nD τ) (F := X))) $$ [Hdst HX]
  · iframe
  iapply (Rounds.wp_send_bif 𝒱₀ ER (Rd (F := F) m) (c : Thread nD τ) none b
      (c' := ((d : Dev nD) : Thread nD τ)) (src := src) (dst := dst) (q := q)
      (sS := .dma (sndS p j)) (sem := .dma (rcvS p c)) (fs := fs) (r₁ := 0) (r₂ := 0) (d₁ := c) (d₂ := c)
      (by rw [duties_snd]; exact Finset.mem_singleton_self c)
      (by rw [duties_rcv m d p c hne]; exact Finset.mem_singleton_self c)
      () () N (show dst.view.amount (.dma (rcvS p c)) = N from hN)
      ((amount_snd m c p j c).trans hamt) ((amount_rcv m d p c c).trans hamt) (rem c kk) hO
      (by rw [payload_snd]; exact hpay₁) (by rw [payload_rcv]; exact hpay₂ fd)) $$ [$] Hk

-- A transfer with nothing travelling besides is one where `emp` travels.
private theorem no_extra {A B C D G : sProp 𝕄} (h : iprop(A ∗ B ∗ C ∗ emp ∗ D) ⊢ G) : iprop(A ∗ B ∗ C ∗ D) ⊢ G :=
  (sep_mono_right (sep_mono_right (sep_mono_right (emp_sep (PROP := sProp 𝕄)).2))).trans h

theorem gather_send0 {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (o : Nat) (h1 : 0 < o) (h4 : o < 4) (j : Fin 3)
    (kk : Nat) (W : Waits sig Unit)
    (hO : rem c (kk + 1) = rem c kk + tallyAt (rcvCell (pr c o) 0 c) () (amt 0))
    {hsc : (actsM 0 c).view.ref.isScScratch = false}
    {hsrc : (actsM 0 c).view.WordExact} {hdst : (actsM 0 c).view.WordExact}
    {hsem : DmaTarget.Typed .vmem (.dma (rcvS 0 c)) (.remote ((pr c o : Dev nD) : Thread nD τ) (actsM 0 c) (.dma (sndS 0 j)) hsc)} :
    iprop(records m K ∗ pts (F := F) (actsM 0 c) c (q4 j.castSucc) (actsB m) ∗ ptsE (F := F) (actsM 0 c) (pr c o)
        ∗ owes (c : Thread nD τ) (rem c (kk + 1)) W
        ∗ dutyTok ER (sndCell c 0 j) 0 c ∗ dutyTok ER (rcvCell (pr c o) 0 c) 0 c)
      ⊢ iprop(((cred (tallyAt (sndCell c 0 j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (actsM 0 c) (.remote ((pr c o : Dev nD) : Thread nD τ) (actsM 0 c) (.dma (sndS 0 j)) hsc)
                (.dma (rcvS 0 c)) hsrc hdst hsem) k) Q) :=
  no_extra (send_at m false K c (pr c o) (pr_ne c o h1 h4).symm 0 j Nh (amt_of_ne 0 (by decide)) (actsM 0 c) (actsM 0 c) rfl
    (q4 j.castSucc) (actsB m) iprop(emp) kk W hO .rfl
    (fun fd => (sep_emp (PROP := sProp 𝕄)).1.trans (Entails.of_eq (pointsTo_congr (landed (actsM 0 c).view _ fd (actsB m) _ fun y => cast_eq _ _)))))

theorem gather_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (l : Fin 3) (l' : Fin 3) (p : Fin 7) (hp : p.val = 2 * l.val) (hl : l.val = l'.val + 1) (o : Nat) (h1 : 0 < o) (h4 : o < 4) (j : Fin 3)
    (kk : Nat) (W : Waits sig Unit)
    (hO : rem c (kk + 1) = rem c kk + tallyAt (rcvCell (pr c o) p c) () (amt p))
    {hsc : (actsM l c).view.ref.isScScratch = false}
    {hsrc : (actsM l c).view.WordExact} {hdst : (actsM l c).view.WordExact}
    {hsem : DmaTarget.Typed .vmem (.dma (rcvS p c)) (.remote ((pr c o : Dev nD) : Thread nD τ) (actsM l c) (.dma (sndS p j)) hsc)} :
    iprop(records m K ∗ pts (F := F) (actsM l c) c (q4 j.castSucc) (actsB m) ∗ ptsE (F := F) (actsM l c) (pr c o)
        ∗ pts (F := F) (psM c) (pr c o) fullShare (psB m l' (pr c o))
        ∗ owes (c : Thread nD τ) (rem c (kk + 1)) W
        ∗ dutyTok ER (sndCell c p j) 0 c ∗ dutyTok ER (rcvCell (pr c o) p c) 0 c)
      ⊢ iprop(((cred (tallyAt (sndCell c p j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (actsM l c) (.remote ((pr c o : Dev nD) : Thread nD τ) (actsM l c) (.dma (sndS p j)) hsc)
                (.dma (rcvS p c)) hsrc hdst hsem) k) Q) := by
  have key : ∀ (l l' : Fin 3) (p : Fin 7), p.val = 2 * l.val → l.val = l'.val + 1 →
      (l = 1 ∧ l' = 0 ∧ p = 2) ∨ (l = 2 ∧ l' = 1 ∧ p = 4) := by decide
  obtain ⟨rfl, rfl, rfl⟩ | ⟨rfl, rfl, rfl⟩ := key l l' p hp hl
  · exact send_at m false K c (pr c o) (pr_ne c o h1 h4).symm 2 j Nh (amt_of_ne 2 (by decide)) (actsM 1 c) (actsM 1 c) rfl
      (q4 j.castSucc) (actsB m) (pts (F := F) (psM c) (pr c o) fullShare (psB m 0 (pr c o))) kk W hO .rfl
      (fun fd => sep_mono_left (Entails.of_eq (pointsTo_congr (landed (actsM 1 c).view _ fd (actsB m) _ fun y => cast_eq _ _))))
  · exact send_at m false K c (pr c o) (pr_ne c o h1 h4).symm 4 j Nh (amt_of_ne 4 (by decide)) (actsM 2 c) (actsM 2 c) rfl
      (q4 j.castSucc) (actsB m) (pts (F := F) (psM c) (pr c o) fullShare (psB m 1 (pr c o))) kk W hO .rfl
      (fun fd => sep_mono_left (Entails.of_eq (pointsTo_congr (landed (actsM 2 c).view _ fd (actsB m) _ fun y => cast_eq _ _))))

theorem ps_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (l : Fin 3) (p : Fin 7) (hp : p.val = 2 * l.val + 1) (o : Nat) (h1 : 0 < o) (h4 : o < 4) (j : Fin 3)
    (kk : Nat) (W : Waits sig Unit)
    (hO : rem c (kk + 1) = rem c kk + tallyAt (rcvCell (pr c o) p c) () (amt p))
    {hsc : (rsM l c).view.ref.isScScratch = false}
    {hsrc : (psM (pr c o)).view.WordExact} {hdst : (rsM l c).view.WordExact}
    {hsem : DmaTarget.Typed .vmem (.dma (rcvS p c)) (.remote ((pr c o : Dev nD) : Thread nD τ) (rsM l c) (.dma (sndS p j)) hsc)} :
    iprop(records m K ∗ pts (F := F) (psM (pr c o)) c fullShare (psB m l c) ∗ ptsE (F := F) (rsM l c) (pr c o)
        ∗ owes (c : Thread nD τ) (rem c (kk + 1)) W
        ∗ dutyTok ER (sndCell c p j) 0 c ∗ dutyTok ER (rcvCell (pr c o) p c) 0 c)
      ⊢ iprop(((cred (tallyAt (sndCell c p j) () Nh) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma (psM (pr c o)) (.remote ((pr c o : Dev nD) : Thread nD τ) (rsM l c) (.dma (sndS p j)) hsc)
                (.dma (rcvS p c)) hsrc hdst hsem) k) Q) := by
  have key : ∀ (l : Fin 3) (p : Fin 7), p.val = 2 * l.val + 1 → (l = 0 ∧ p = 1) ∨ (l = 1 ∧ p = 3) ∨ (l = 2 ∧ p = 5) := by
    decide
  obtain ⟨rfl, rfl⟩ | ⟨rfl, rfl⟩ | ⟨rfl, rfl⟩ := key l p hp <;>
  exact no_extra (send_at m true K c (pr c o) (pr_ne c o h1 h4).symm _ j Nh (by exact if_neg (by decide)) (psM (pr c o)) _
    (by exact rfl) fullShare _ iprop(emp) kk W hO (by exact .rfl)
    (by exact fun fd => sep_mono_left ((sep_emp (PROP := sProp 𝕄)).1.trans
      (Entails.of_eq (pointsTo_congr (ps_landed m _ c (pr c o) fd))))))

theorem out_send {Γ : PendingWaitsCtx sig Unit} {Es : Set ℕ} {α : Type} {Q : α → sProp 𝕄}
    {k : PUnit → Prog (TpuEff nD τ sig (Elt F) Λ₀ .tc) α} (K : Dev nD × Fin 57 → ℕ) (c : Dev nD) (o : Nat) (h1 : 0 < o) (h4 : o < 4) (j : Fin 3)
    (kk : Nat) (W : Waits sig Unit)
    (hO : rem c (kk + 1) = rem c kk + tallyAt (rcvCell (pr c o) 6 c) () (amt 6))
    {hsc : (outM c).view.ref.isScScratch = false}
    {hsrc : (stgM).view.WordExact} {hdst : (outM c).view.WordExact}
    {hsem : DmaTarget.Typed .vmem (.dma (rcvS 6 c)) (.remote ((pr c o : Dev nD) : Thread nD τ) (outM c) (.dma (sndS 6 j)) hsc)} :
    iprop(records m K ∗ pts (F := F) stgM c (q4 j.castSucc) (outBlk m c) ∗ ptsE (F := F) (outM c) (pr c o)
        ∗ pts (F := F) (psM c) (pr c o) fullShare (psB m 2 (pr c o))
        ∗ owes (c : Thread nD τ) (rem c (kk + 1)) W
        ∗ dutyTok ER (sndCell c 6 j) 0 c ∗ dutyTok ER (rcvCell (pr c o) 6 c) 0 c)
      ⊢ iprop(((cred (tallyAt (sndCell c 6 j) () Nf) ∗ owes (c : Thread nD τ) (rem c kk) W)
            -∗ wp frame (wpE' (defs₀ (F := F)) 𝒱₀ (c : Thread nD τ) none Γ) Es (k ⟨⟩) Q)
          -∗ wp frame (wpE' (defs₀ (F := F)) 𝒱₀ (c : Thread nD τ) none Γ) Es
              (.op (.enqueueDma stgM (.remote ((pr c o : Dev nD) : Thread nD τ) (outM c) (.dma (sndS 6 j)) hsc)
                (.dma (rcvS 6 c)) hsrc hdst hsem) k) Q) :=
  send_at m false K c (pr c o) (pr_ne c o h1 h4).symm 6 j Nf amt_six stgM (outM c) rfl
    (q4 j.castSucc) (outBlk m c) (pts (F := F) (psM c) (pr c o) fullShare (psB m 2 (pr c o))) kk W hO .rfl
    (fun fd => sep_mono_left (Entails.of_eq (pointsTo_congr (out_landed m c fd))))

-- One payment comes off what is owed; numbered `23 - kk`, it decodes to the phase and the place within the phase.
theorem rem_rcv (c : Dev nD) (p : Fin 7) (t : Fin 3) (o : Nat) (ho : ordOf p t = o) (kk : Nat)
    (hk : 23 - kk = 3 + 3 * p.val + t.val) :
    rem c (kk + 1) = rem c kk + tallyAt (rcvCell (pr c o) p c) () (amt p) := by
  subst ho
  have hp := p.isLt; have ht := t.isLt
  have e1 : (⟨((3 + 3 * p.val + t.val - 3) / 3) % 7, Nat.mod_lt _ (by decide)⟩ : Fin 7) = p := Fin.ext (by show ((3 + 3 * p.val + t.val - 3) / 3) % 7 = p.val; omega)
  have e2 : (⟨(3 + 3 * p.val + t.val - 3) % 3, Nat.mod_lt _ (by decide)⟩ : Fin 3) = t := Fin.ext (by show (3 + 3 * p.val + t.val - 3) % 3 = t.val; omega)
  rw [rem_succ, hk]
  unfold pay payCell payAmt
  rw [if_neg (by omega), if_neg (by omega), e1, e2]

-- Equal operands give the same step: the remaining arguments are proofs.
theorem wp_enq_of {Γ : PendingWaitsCtx sig Unit} {Es : Set ℕ} {α : Type} {Q : α → sProp 𝕄}
    {k : PUnit → Prog (TpuEff nD τ sig (Elt F) Λ₀ .tc) α} {sp sp' : Space} {s : Shape} {e : EltTy} (c : Dev nD)
    {src src' : Memref sig .tc sp s e} {d d' : Dev nD}
    {dst dst' : Memref sig .tc sp' s e} {sS sS' sem sem' : SemLoc sig}
    (h1 : src' = src) (h2 : d' = d) (h3 : dst' = dst) (h4 : sS' = sS) (h5 : sem' = sem)
    {hsc' : dst'.view.ref.isScScratch = false} {hsrc' : src'.view.WordExact} {hdst' : dst'.view.WordExact}
    {hsem' : DmaTarget.Typed sp sem' (.remote ((d' : Dev nD) : Thread nD τ) dst' sS' hsc')} :
    wp frame (wpE' (defs₀ (F := F)) 𝒱₀ (c : Thread nD τ) none Γ) Es
        (.op (.enqueueDma src (.remote ((d : Dev nD) : Thread nD τ) dst sS (h3 ▸ hsc')) sem (h1 ▸ hsrc') (h3 ▸ hdst')
          (by subst h1 h2 h3 h4 h5; exact hsem')) k) Q
      ⊢ wp frame (wpE' (defs₀ (F := F)) 𝒱₀ (c : Thread nD τ) none Γ) Es
        (.op (.enqueueDma src' (.remote ((d' : Dev nD) : Thread nD τ) dst' sS' hsc') sem' hsrc' hdst' hsem') k) Q := by
  subst h1 h2 h3 h4 h5; exact .rfl

end Cert.Kernel.Dist

end
-- ==== Proof.BBodyPC.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodyLocal
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyWb

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part1_spec (K : Dev nD × Fin 57 → ℕ) {Q : (Σ' (d0 : Dev nD) (v2 : BitVec 32) (v19 : Sems sig S_) (v22 : BitVec 32) (v23 : BitVec 32) (v24 : BitVec 1) (v25 : BitVec 1), BitVec 32) → sProp 𝕄} :
    iprop(records m K ∗ levAts L lv
        ∗ pts (F := F) (Memref.whole main_arg1 : Memref sig .tc .hbm S1024x2048 .f32) c fullShare (W1 (F := F) m 0 c)
        ∗ pts (F := F) (Memref.whole main_arg2 : Memref sig .tc .hbm S2048x1024 .f32) c fullShare (W2 (F := F) m 0 c)
        ∗ pts (F := F) (Memref.whole main_arg3 : Memref sig .tc .hbm S1024x2048 .f32) c fullShare (W1 (F := F) m 1 c)
        ∗ pts (F := F) (Memref.whole main_arg4 : Memref sig .tc .hbm S2048x1024 .f32) c fullShare (W2 (F := F) m 1 c)
        ∗ ptsE (F := F) (wv1M 0) c ∗ ptsE (F := F) (wv2M 0) c ∗ ptsE (F := F) (wv1M 1) c ∗ ptsE (F := F) (wv2M 1) c
        ∗ dutyTok ER (wcpCell c 0 0) 0 c ∗ dutyTok ER (wcpCell c 0 1) 0 c
        ∗ dutyTok ER (wcpCell c 1 0) 0 c ∗ dutyTok ER (wcpCell c 1 1) 0 c)
      ⊢ iprop((∀ r, iprop(⌜r.1 = c ∧ r.2.2.1 = (SemArray.scalar (sig.barrier 0 rfl) : Sems sig S_)⌝
            ∗ cred (tallyAt (wcpCell c 0 0) () Nw) ∗ cred (tallyAt (wcpCell c 0 1) () Nw)
            ∗ cred (tallyAt (wcpCell c 1 0) () Nw) ∗ cred (tallyAt (wcpCell c 1 1) () Nw)) -∗ Q r)
          -∗ wp frame (wpE (defs₀ (F := F)) 𝒱₀ (c : Thread nD τ) none) Set.univ (P1 (F := F)) Q) := by
  unfold P1 atArgs
  simp only [k0_part1_eq_skeleton, k0_part1_skel, Prog.lift, Prog.bind_op, Prog.bind_ret, Prog.pure_eq_ret, wp_deviceId]
  iintro ⟨#Hrec, #Hlev, Hs1, Hs2, Hs3, Hs4, Hd1, Hd2, Hd3, Hd4, Ht1, Ht2, Ht3, Ht4⟩ HQ
  iapply (wcopy_step_0_0 m K c) $$ [$]
  iintro Hc1
  iapply (wcopy_step_0_1 m K c) $$ [$]
  iintro Hc2
  iapply (wcopy_step_1_0 m K c) $$ [$]
  iintro Hc3
  iapply (wcopy_step_1_1 m K c) $$ [$]
  iintro Hc4
  iapply (le_wp_ret _ _)
  iapply HQ
  isplitr; · ipureintro; exact ⟨rfl, rfl⟩
  iframe

theorem part2_spec (K : Dev nD × Fin 57 → ℕ) (v2 : BitVec 32) (v19 : Sems sig S_) (hv19 : v19.sem = barS)
    (v22 v23 : BitVec 32) (v24 v25 : BitVec 1) (c0 : BitVec 32) {Q : PUnit → sProp 𝕄} :
    iprop(records m K ∗ levAts L lv ∗ owesX c 24
        ∗ dutyTok ER (barCell (pr c 1)) 0 c ∗ dutyTok ER (barCell (pr c 2)) 0 c ∗ dutyTok ER (barCell (pr c 3)) 0 c
        ∗ barPay (F := F) (pr c 1) c ∗ barPay (F := F) (pr c 2) c ∗ barPay (F := F) (pr c 3) c)
      ⊢ iprop((∀ r, iprop(owesX c 21) -∗ Q r)
          -∗ wp frame (wpE (defs₀ (F := F)) 𝒱₀ (c : Thread nD τ) none) Set.univ (P2 (F := F) c v2 v19 v22 v23 v24 v25 c0) Q) := by
  unfold owesX P2 atArgs
  simp only [k0_part2_eq_skeleton, k0_part2_skel, semSignalWord, Prog.lift, Prog.bind_op, Prog.bind_ret, Prog.pure_eq_ret]
  rw [hv19]
  simp only [dev1_eq c, dev2_eq c, dev3_eq c]
  iintro ⟨#Hrec, #Hlev, ⟨%W, HO⟩, Ht1, Ht2, Ht3, Hp1, Hp2, Hp3⟩ HQ
  iapply (signal_step m K c 1 (by omega) (by omega) W) $$ [$]
  iintro HO
  iapply (signal_step m K c 2 (by omega) (by omega) W) $$ [$]
  iintro HO
  iapply (signal_step m K c 3 (by omega) (by omega) W) $$ [$]
  iintro HO
  iapply (le_wp_ret _ _)
  iapply HQ
  iexists W; iexact HO

end Cert.Kernel.Dist

end
-- ==== Proof.BBodyCast.lean ====
import proofs.«900988_g7700000000000989_dist_mlpseq_tp1d_bs_rep_b64_d1024_h2048_v7x_i4_f32_1_alg».proof.Proof.BTables
import proofs.«900988_g7700000000000989_dist_mlpseq_tp1d_bs_rep_b64_d1024_h2048_v7x_i4_f32_1_alg».proof.Proof.BDat
import proofs.«900988_g7700000000000989_dist_mlpseq_tp1d_bs_rep_b64_d1024_h2048_v7x_i4_f32_1_alg».proof.Proof.BBodyWb
import Idealize.ShloMosaic.Lib.Pipeline.Value

namespace Cert.Kernel.Dist

open Gen
open Idealize.ShloMosaic Idealize.ShloMosaic.TcCoe
open Idealize.SL Idealize.SL.RA Idealize.SL.BI
open Idealize.SL.BI.BIBase Idealize.SL.BI.Laws Idealize.SL.Sem
open Idealize.ShloMosaic.ValueIdx

variable {F : FTy → Type} [FloatOps F]

local notation "𝕄" => MT nD τ sig Unit (Elt F) ℕ UU ℕ

variable (c : Dev nD)

-- Slot `b`'s rectangle places index `x` of the slot at `(b, x 1, x 2)`.
theorem slot_emb {n1 n2 : Nat} (b : Fin 2) (inb) (x : (⟨3, ![1, n1, n2]⟩ : Shape).Idx) :
    (Rect.unit (s := (⟨3, ![2, n1, n2]⟩ : Shape)) ![b.val, 0, 0] ![1, n1, n2] inb).emb x = (ix3 b (x 1) (x 2) : (⟨3, ![2, n1, n2]⟩ : Shape).Idx) := by
  funext a
  apply Fin.ext
  rw [Rect.emb_apply]
  match a with
  | ⟨0, _⟩ => show b.val + 1 * (x 0).val = b.val; have : (x 0).val < 1 := (x 0).isLt; omega
  | ⟨1, _⟩ => show 0 + 1 * (x 1).val = (x 1).val; omega
  | ⟨2, _⟩ => show 0 + 1 * (x 2).val = (x 2).val; omega

-- The function `i ↦ w (0, i 1, i 2)`, taken where slot `b`'s rectangle places `y`, is `w y`.
private theorem slot_back {n1 n2 : Nat} {β : Type} (w : (⟨3, ![1, n1, n2]⟩ : Shape).Idx → β) (b : Fin 2) (inb) (y) :
    (fun i => w (ix3 (0 : Fin 1) (i 1) (i 2))) ((Rect.unit (s := (⟨3, ![2, n1, n2]⟩ : Shape)) ![b.val, 0, 0] ![1, n1, n2] inb).emb y) = w y := by
  rw [slot_emb]
  refine congrArg w (funext fun a => ?_)
  match a with
  | ⟨0, _⟩ => exact Subsingleton.elim (α := Fin 1) _ _
  | ⟨1, _⟩ => rfl
  | ⟨2, _⟩ => rfl

-- A load through a rectangle continues at `g` as soon as the rectangle reads `g` from the contents held.
private theorem load_as {cs s e} {W : Memref sig .tc (.core cs) s e} {r : Rect s} (hl : W.view.LoadsAt r.toLoadRect)
    {S} (hS : (W.access r).set ⊆ S) (f q) {g : r.shape.Idx → Elt F e} (hg : ∀ x, (W.access r).read (Elt F) f x = g x)
    {Γ : PendingWaitsCtx sig Unit} {Es : Set ℕ} {α : Type} {Q : α → sProp 𝕄}
    {k : _ → Prog (TpuEff nD τ sig (Elt F) Λ₀ .tc) α} :
    ((W.access r).loc (c : Thread nD τ) ↦[S]{q} f)
      ⊢ iprop((((W.access r).loc (c : Thread nD τ) ↦[S]{q} f) -∗ wp frame (wpE' (defs₀ (F := F)) 𝒱₀ (c : Thread nD τ) none Γ) Es (k g) Q)
          -∗ wp frame (wpE' (defs₀ (F := F)) 𝒱₀ (c : Thread nD τ) none Γ) Es (.op (.load W r.toLoadRect hl) k) Q) := by
  have h := wp_load_rect (defs := defs₀ (F := F)) 𝒱₀ (c : Thread nD τ) none Es (Γ := Γ) (Q := Q) (hl := hl) (k := k) (q := q) (f := f) hS
  rwa [funext hg] at h

-- A store of `w` on every index of a rectangle leaves any contents `v` that read back as `w` through it.
private theorem store_as {cs s e} {W : Memref sig .tc (.core cs) s e} {r : Rect s} {w : r.shape.Idx → Elt F e}
    (hx : (W.access r).Stores Finset.univ) (hm : (Finset.univ : Finset r.shape.Idx) = Finset.univ ∨ ∀ a, r.stride a = 1)
    {v} (hv : ∀ y, (W.access r).read (Elt F) v y = w y)
    {Γ : PendingWaitsCtx sig Unit} {Es : Set ℕ} {α : Type} {Q : α → sProp 𝕄}
    {k : _ → Prog (TpuEff nD τ sig (Elt F) Λ₀ .tc) α} :
    iprop(∃ f, (W.access r).loc (c : Thread nD τ) ↦[(W.access r).set]{fullShare} f)
      ⊢ iprop((((W.access r).loc (c : Thread nD τ) ↦[(W.access r).set]{fullShare} v) -∗ wp frame (wpE' (defs₀ (F := F)) 𝒱₀ (c : Thread nD τ) none Γ) Es (k ⟨⟩) Q)
          -∗ wp frame (wpE' (defs₀ (F := F)) 𝒱₀ (c : Thread nD τ) none Γ) Es (.op (.store W r w Finset.univ hx hm) k) Q) := by
  refine exists_elim fun fd => ?_
  refine (wp_store (defs := defs₀ (F := F)) 𝒱₀ (c : Thread nD τ) none Es (Γ := Γ) (Q := Q) (hx := hx) (hm := hm) (k := k) (f := fd) (Finset.Subset.refl _)).trans
    (wand_mono_left (wand_mono_left (Entails.of_eq (pointsTo_congr fun i hi => ?_))))
  obtain ⟨y, rfl⟩ := View.exists_emb_of_mem_set _ hi
  rw [View.write_emb_of_mem _ _ (Finset.mem_univ y), ← hv y, View.read_apply, cast_cast, cast_eq]

theorem wv1_load0 (f : Vec F S2x1024x2048 .f32) (q : PosShare TreeShare)
    {hl : (Memref.whole cc0_scratch3 : Memref sig .tc .vmem S2x1024x2048 .f32).view.LoadsAt (Rect.unit (s := S2x1024x2048) ![0, 0, 0] S1x1024x2048.size inb_S2x1024x2048_S1x1024x2048_0_0_0).toLoadRect}
    {Γ : PendingWaitsCtx sig Unit} {Es : Set ℕ} {α : Type} {Q : α → sProp 𝕄}
    {k : (S1x1024x2048.Idx → Elt F .f32) → Prog (TpuEff nD τ sig (Elt F) Λ₀ .tc) α} :
    pts (F := F) (wv1M 0) c q f
      ⊢ iprop((pts (F := F) (wv1M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch3 : Memref sig .tc .vmem S2x1024x2048 .f32) (Rect.unit (s := S2x1024x2048) ![0, 0, 0] S1x1024x2048.size inb_S2x1024x2048_S1x1024x2048_0_0_0).toLoadRect hl) k) Q) :=
  load_as c hl (Finset.subset_of_eq (View.set_reshape _ _).symm) f q fun x => congrArg f (slot_emb 0 _ x)

theorem wv1_load1 (f : Vec F S2x1024x2048 .f32) (q : PosShare TreeShare)
    {hl : (Memref.whole cc0_scratch3 : Memref sig .tc .vmem S2x1024x2048 .f32).view.LoadsAt (Rect.unit (s := S2x1024x2048) ![1, 0, 0] S1x1024x2048.size inb_S2x1024x2048_S1x1024x2048_1_0_0).toLoadRect}
    {Γ : PendingWaitsCtx sig Unit} {Es : Set ℕ} {α : Type} {Q : α → sProp 𝕄}
    {k : (S1x1024x2048.Idx → Elt F .f32) → Prog (TpuEff nD τ sig (Elt F) Λ₀ .tc) α} :
    pts (F := F) (wv1M 1) c q f
      ⊢ iprop((pts (F := F) (wv1M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch3 : Memref sig .tc .vmem S2x1024x2048 .f32) (Rect.unit (s := S2x1024x2048) ![1, 0, 0] S1x1024x2048.size inb_S2x1024x2048_S1x1024x2048_1_0_0).toLoadRect hl) k) Q) :=
  load_as c hl (Finset.subset_of_eq (View.set_reshape _ _).symm) f q fun x => congrArg f (slot_emb 1 _ x)

theorem wv2_load0 (f : Vec F S2x2048x1024 .f32) (q : PosShare TreeShare)
    {hl : (Memref.whole cc0_scratch4 : Memref sig .tc .vmem S2x2048x1024 .f32).view.LoadsAt (Rect.unit (s := S2x2048x1024) ![0, 0, 0] S1x2048x1024.size inb_S2x2048x1024_S1x2048x1024_0_0_0).toLoadRect}
    {Γ : PendingWaitsCtx sig Unit} {Es : Set ℕ} {α : Type} {Q : α → sProp 𝕄}
    {k : (S1x2048x1024.Idx → Elt F .f32) → Prog (TpuEff nD τ sig (Elt F) Λ₀ .tc) α} :
    pts (F := F) (wv2M 0) c q f
      ⊢ iprop((pts (F := F) (wv2M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch4 : Memref sig .tc .vmem S2x2048x1024 .f32) (Rect.unit (s := S2x2048x1024) ![0, 0, 0] S1x2048x1024.size inb_S2x2048x1024_S1x2048x1024_0_0_0).toLoadRect hl) k) Q) :=
  load_as c hl (Finset.subset_of_eq (View.set_reshape _ _).symm) f q fun x => congrArg f (slot_emb 0 _ x)

theorem wv2_load1 (f : Vec F S2x2048x1024 .f32) (q : PosShare TreeShare)
    {hl : (Memref.whole cc0_scratch4 : Memref sig .tc .vmem S2x2048x1024 .f32).view.LoadsAt (Rect.unit (s := S2x2048x1024) ![1, 0, 0] S1x2048x1024.size inb_S2x2048x1024_S1x2048x1024_1_0_0).toLoadRect}
    {Γ : PendingWaitsCtx sig Unit} {Es : Set ℕ} {α : Type} {Q : α → sProp 𝕄}
    {k : (S1x2048x1024.Idx → Elt F .f32) → Prog (TpuEff nD τ sig (Elt F) Λ₀ .tc) α} :
    pts (F := F) (wv2M 1) c q f
      ⊢ iprop((pts (F := F) (wv2M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch4 : Memref sig .tc .vmem S2x2048x1024 .f32) (Rect.unit (s := S2x2048x1024) ![1, 0, 0] S1x2048x1024.size inb_S2x2048x1024_S1x2048x1024_1_0_0).toLoadRect hl) k) Q) :=
  load_as c hl (Finset.subset_of_eq (View.set_reshape _ _).symm) f q fun x => congrArg f (slot_emb 1 _ x)

theorem wb1_load0 (f : Vec F S2x1024x2048 .bf16) (q : PosShare TreeShare)
    {hl : (Memref.whole cc0_scratch5 : Memref sig .tc .vmem S2x1024x2048 .bf16).view.LoadsAt (Rect.unit (s := S2x1024x2048) ![0, 0, 0] S1x1024x2048.size inb_S2x1024x2048_S1x1024x2048_0_0_0).toLoadRect}
    {Γ : PendingWaitsCtx sig Unit} {Es : Set ℕ} {α : Type} {Q : α → sProp 𝕄}
    {k : (S1x1024x2048.Idx → Elt F .bf16) → Prog (TpuEff nD τ sig (Elt F) Λ₀ .tc) α} :
    pts (F := F) (wb1M 0) c q f
      ⊢ iprop((pts (F := F) (wb1M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch5 : Memref sig .tc .vmem S2x1024x2048 .bf16) (Rect.unit (s := S2x1024x2048) ![0, 0, 0] S1x1024x2048.size inb_S2x1024x2048_S1x1024x2048_0_0_0).toLoadRect hl) k) Q) :=
  load_as c hl (Finset.Subset.refl _) f q fun x => congrArg f (slot_emb 0 _ x)

theorem wb1_load1 (f : Vec F S2x1024x2048 .bf16) (q : PosShare TreeShare)
    {hl : (Memref.whole cc0_scratch5 : Memref sig .tc .vmem S2x1024x2048 .bf16).view.LoadsAt (Rect.unit (s := S2x1024x2048) ![1, 0, 0] S1x1024x2048.size inb_S2x1024x2048_S1x1024x2048_1_0_0).toLoadRect}
    {Γ : PendingWaitsCtx sig Unit} {Es : Set ℕ} {α : Type} {Q : α → sProp 𝕄}
    {k : (S1x1024x2048.Idx → Elt F .bf16) → Prog (TpuEff nD τ sig (Elt F) Λ₀ .tc) α} :
    pts (F := F) (wb1M 1) c q f
      ⊢ iprop((pts (F := F) (wb1M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch5 : Memref sig .tc .vmem S2x1024x2048 .bf16) (Rect.unit (s := S2x1024x2048) ![1, 0, 0] S1x1024x2048.size inb_S2x1024x2048_S1x1024x2048_1_0_0).toLoadRect hl) k) Q) :=
  load_as c hl (Finset.Subset.refl _) f q fun x => congrArg f (slot_emb 1 _ x)

theorem wb2_load0 (f : Vec F S2x2048x1024 .bf16) (q : PosShare TreeShare)
    {hl : (Memref.whole cc0_scratch6 : Memref sig .tc .vmem S2x2048x1024 .bf16).view.LoadsAt (Rect.unit (s := S2x2048x1024) ![0, 0, 0] S1x2048x1024.size inb_S2x2048x1024_S1x2048x1024_0_0_0).toLoadRect}
    {Γ : PendingWaitsCtx sig Unit} {Es : Set ℕ} {α : Type} {Q : α → sProp 𝕄}
    {k : (S1x2048x1024.Idx → Elt F .bf16) → Prog (TpuEff nD τ sig (Elt F) Λ₀ .tc) α} :
    pts (F := F) (wb2M 0) c q f
      ⊢ iprop((pts (F := F) (wb2M 0) c q f -∗ wp frame (wpE' (defs₀ (F := F)) 𝒱₀ (c : Thread nD τ) none Γ) Es (k (fun x => f (ix3 (0 : Fin 2) (x 1) (x 2)))) Q)
          -∗ wp frame (wpE' (defs₀ (F := F)) 𝒱₀ (c : Thread nD τ) none Γ) Es (.op (.load (Memref.whole cc0_scratch6 : Memref sig .tc .vmem S2x2048x1024 .bf16) (Rect.unit (s := S2x2048x1024) ![0, 0, 0] S1x2048x1024.size inb_S2x2048x1024_S1x2048x1024_0_0_0).toLoadRect hl) k) Q) :=
  load_as c hl (Finset.Subset.refl _) f q fun x => congrArg f (slot_emb 0 _ x)

theorem wb2_load1 (f : Vec F S2x2048x1024 .bf16) (q : PosShare TreeShare)
    {hl : (Memref.whole cc0_scratch6 : Memref sig .tc .vmem S2x2048x1024 .bf16).view.LoadsAt (Rect.unit (s := S2x2048x1024) ![1, 0, 0] S1x2048x1024.size inb_S2x2048x1024_S1x2048x1024_1_0_0).toLoadRect}
    {Γ : PendingWaitsCtx sig Unit} {Es : Set ℕ} {α : Type} {Q : α → sProp 𝕄}
    {k : (S1x2048x1024.Idx → Elt F .bf16) → Prog (TpuEff nD τ sig (Elt F) Λ₀ .tc) α} :
    pts (F := F) (wb2M 1) c q f
      ⊢ iprop((pts (F := F) (wb2M 1) c q f -∗ wp frame (wpE' (defs₀ (F := F)) 𝒱₀ (c : Thread nD τ) none Γ) Es (k (fun x => f (ix3 (1 : Fin 2) (x 1) (x 2)))) Q)
          -∗ wp frame (wpE' (defs₀ (F := F)) 𝒱₀ (c : Thread nD τ) none Γ) Es (.op (.load (Memref.whole cc0_scratch6 : Memref sig .tc .vmem S2x2048x1024 .bf16) (Rect.unit (s := S2x2048x1024) ![1, 0, 0] S1x2048x1024.size inb_S2x2048x1024_S1x2048x1024_1_0_0).toLoadRect hl) k) Q) :=
  load_as c hl (Finset.Subset.refl _) f q fun x => congrArg f (slot_emb 1 _ x)

theorem wb1_store0 (w : S1x1024x2048.Idx → Elt F .bf16)
    {hx : ((Memref.whole cc0_scratch5 : Memref sig .tc .vmem S2x1024x2048 .bf16).access (Rect.unit (s := S2x1024x2048) ![0, 0, 0] S1x1024x2048.size inb_S2x1024x2048_S1x1024x2048_0_0_0)).Stores Finset.univ} {hm : (Finset.univ : Finset (Rect.unit (s := S2x1024x2048) ![0, 0, 0] S1x1024x2048.size inb_S2x1024x2048_S1x1024x2048_0_0_0).shape.Idx) = Finset.univ ∨ ∀ a, (Rect.unit (s := S2x1024x2048) ![0, 0, 0] S1x1024x2048.size inb_S2x1024x2048_S1x1024x2048_0_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb1M 0) c
      ⊢ iprop((pts (F := F) (wb1M 0) c fullShare (fun i : S2x1024x2048.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch5 : Memref sig .tc .vmem S2x1024x2048 .bf16) (Rect.unit (s := S2x1024x2048) ![0, 0, 0] S1x1024x2048.size inb_S2x1024x2048_S1x1024x2048_0_0_0) w Finset.univ hx hm) k) Q) := by
  refine store_as c hx hm ?_
  exact slot_back w 0 _

theorem wb1_store1 (w : S1x1024x2048.Idx → Elt F .bf16)
    {hx : ((Memref.whole cc0_scratch5 : Memref sig .tc .vmem S2x1024x2048 .bf16).access (Rect.unit (s := S2x1024x2048) ![1, 0, 0] S1x1024x2048.size inb_S2x1024x2048_S1x1024x2048_1_0_0)).Stores Finset.univ} {hm : (Finset.univ : Finset (Rect.unit (s := S2x1024x2048) ![1, 0, 0] S1x1024x2048.size inb_S2x1024x2048_S1x1024x2048_1_0_0).shape.Idx) = Finset.univ ∨ ∀ a, (Rect.unit (s := S2x1024x2048) ![1, 0, 0] S1x1024x2048.size inb_S2x1024x2048_S1x1024x2048_1_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb1M 1) c
      ⊢ iprop((pts (F := F) (wb1M 1) c fullShare (fun i : S2x1024x2048.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch5 : Memref sig .tc .vmem S2x1024x2048 .bf16) (Rect.unit (s := S2x1024x2048) ![1, 0, 0] S1x1024x2048.size inb_S2x1024x2048_S1x1024x2048_1_0_0) w Finset.univ hx hm) k) Q) := by
  refine store_as c hx hm ?_
  exact slot_back w 1 _

theorem wb2_store0 (w : S1x2048x1024.Idx → Elt F .bf16)
    {hx : ((Memref.whole cc0_scratch6 : Memref sig .tc .vmem S2x2048x1024 .bf16).access (Rect.unit (s := S2x2048x1024) ![0, 0, 0] S1x2048x1024.size inb_S2x2048x1024_S1x2048x1024_0_0_0)).Stores Finset.univ} {hm : (Finset.univ : Finset (Rect.unit (s := S2x2048x1024) ![0, 0, 0] S1x2048x1024.size inb_S2x2048x1024_S1x2048x1024_0_0_0).shape.Idx) = Finset.univ ∨ ∀ a, (Rect.unit (s := S2x2048x1024) ![0, 0, 0] S1x2048x1024.size inb_S2x2048x1024_S1x2048x1024_0_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb2M 0) c
      ⊢ iprop((pts (F := F) (wb2M 0) c fullShare (fun i : S2x2048x1024.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch6 : Memref sig .tc .vmem S2x2048x1024 .bf16) (Rect.unit (s := S2x2048x1024) ![0, 0, 0] S1x2048x1024.size inb_S2x2048x1024_S1x2048x1024_0_0_0) w Finset.univ hx hm) k) Q) := by
  refine store_as c hx hm ?_
  exact slot_back w 0 _

theorem wb2_store1 (w : S1x2048x1024.Idx → Elt F .bf16)
    {hx : ((Memref.whole cc0_scratch6 : Memref sig .tc .vmem S2x2048x1024 .bf16).access (Rect.unit (s := S2x2048x1024) ![1, 0, 0] S1x2048x1024.size inb_S2x2048x1024_S1x2048x1024_1_0_0)).Stores Finset.univ} {hm : (Finset.univ : Finset (Rect.unit (s := S2x2048x1024) ![1, 0, 0] S1x2048x1024.size inb_S2x2048x1024_S1x2048x1024_1_0_0).shape.Idx) = Finset.univ ∨ ∀ a, (Rect.unit (s := S2x2048x1024) ![1, 0, 0] S1x2048x1024.size inb_S2x2048x1024_S1x2048x1024_1_0_0).stride a = 1}
    {Γ : PendingWaitsCtx sig Unit} {Es : Set ℕ} {α : Type} {Q : α → sProp 𝕄}
    {k : PUnit → Prog (TpuEff nD τ sig (Elt F) Λ₀ .tc) α} :
    ptsE (F := F) (wb2M 1) c
      ⊢ iprop((pts (F := F) (wb2M 1) c fullShare (fun i : S2x2048x1024.Idx => w (ix3 (0 : Fin 1) (i 1) (i 2))) -∗ wp frame (wpE' (defs₀ (F := F)) 𝒱₀ (c : Thread nD τ) none Γ) Es (k ⟨⟩) Q)
          -∗ wp frame (wpE' (defs₀ (F := F)) 𝒱₀ (c : Thread nD τ) none Γ) Es (.op (.store (Memref.whole cc0_scratch6 : Memref sig .tc .vmem S2x2048x1024 .bf16) (Rect.unit (s := S2x2048x1024) ![1, 0, 0] S1x2048x1024.size inb_S2x2048x1024_S1x2048x1024_1_0_0) w Finset.univ hx hm) k) Q) := by
  refine store_as c hx hm ?_
  exact slot_back w 1 _

end Cert.Kernel.Dist
-- ==== Proof.BBodyPC2.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodyLocal
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyWb
import proofs.«900988_g7700000000000989_dist_mlpseq_tp1d_bs_rep_b64_d1024_h2048_v7x_i4_f32_1_alg».proof.Proof.BBodyCast

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

-- A function of a one-slot stack's index sees only the two trailing coordinates.
theorem slot_back_PC2 {n1 n2 : Nat} {β : Type} (G : (⟨3, ![1, n1, n2]⟩ : Shape).Idx → β) :
    (fun x => G (ix3 (0 : Fin 1) (x 1) (x 2))) = G := by
  funext x
  refine congrArg G (funext fun a => ?_)
  match a with
  | ⟨0, _⟩ => exact Subsingleton.elim (α := Fin 1) _ _
  | ⟨1, _⟩ => rfl
  | ⟨2, _⟩ => rfl

theorem ptsE_elim {sp : Space} {s : Shape} {e : EltTy} (M : Memref sig .tc sp s e) (d : Dev nD) :
    ptsE (F := F) M d ⊢ iprop(∃ f, pts (F := F) M d fullShare f) := .rfl

theorem part6_spec (K : Dev nD × Fin 57 → ℕ) (v2 : BitVec 32) {Q : (Σ' (v171 : FVec F S1024x2048 .bf16) (v173 : FVec F S2048x1024 .bf16) (v174 : BitVec 32) (c4_i32_156 : BitVec 32), BitVec 32) → sProp 𝕄} :
    iprop(records m K ∗ levAts L lv
        ∗ pts (F := F) (wv1M 0) c fullShare (wv1B m 0 c) ∗ pts (F := F) (wv2M 0) c fullShare (wv2B m 0 c)
        ∗ ptsE (F := F) (wb1M 0) c ∗ ptsE (F := F) (wb2M 0) c
        ∗ pts (F := F) (Memref.whole main_arg5 : Memref sig .tc .hbm S1024x2048 .f32) c fullShare (W1 (F := F) m 2 c)
        ∗ pts (F := F) (Memref.whole main_arg6 : Memref sig .tc .hbm S2048x1024 .f32) c fullShare (W2 (F := F) m 2 c)
        ∗ dutyTok ER (wcpCell c 2 0) 0 c ∗ dutyTok ER (wcpCell c 2 1) 0 c)
      ⊢ iprop((∀ r, iprop(⌜r.1 = wb1 m 0 c ∧ r.2.1 = wb2 m 0 c⌝
            ∗ pts (F := F) (wb1M 0) c fullShare (wb1B m 0 c) ∗ pts (F := F) (wb2M 0) c fullShare (wb2B m 0 c)
            ∗ cred (tallyAt (wcpCell c 2 0) () Nw) ∗ cred (tallyAt (wcpCell c 2 1) () Nw)) -∗ Q r)
          -∗ wp frame (wpE (defs₀ (F := F)) 𝒱₀ (c : Thread nD τ) none) Set.univ (P6 (F := F) v2) Q) := by
  unfold P6 atArgs
  simp only [k0_part6_eq_skeleton, k0_part6_skel, Prog.lift, Prog.bind_op, Prog.bind_ret, Prog.pure_eq_ret]
  iintro ⟨#Hrec, #Hlev, Hv1, Hv2, Hb1, Hb2, Hs5, Hs6, Ht0, Ht1⟩ HQ
  ihave ⟨%f1, Hb1⟩ := (ptsE_elim (F := F) (wb1M 0) c) $$ Hb1
  ihave ⟨%f2, Hb2⟩ := (ptsE_elim (F := F) (wb2M 0) c) $$ Hb2
  iapply (wv1_load0 c _ _) $$ Hv1
  iintro Hv1
  iapply (wb1_load0 c f1 fullShare) $$ Hb1
  iintro Hb1
  iapply (wb1_store0 c _) $$ [Hb1]
  · unfold ptsE pts; iexists _; iexact Hb1
  iintro Hb1
  iapply (wv2_load0 c _ _) $$ Hv2
  iintro Hv2
  iapply (wb2_load0 c f2 fullShare) $$ Hb2
  iintro Hb2
  iapply (wb2_store0 c _) $$ [Hb2]
  · unfold ptsE pts; iexists _; iexact Hb2
  iintro Hb2
  iapply (wcopy_step_2_0 m K c) $$ [$Hrec $Hs5 Hv1 $Ht0]
  · unfold ptsE pts; iexists _; iexact Hv1
  iintro Hc0
  iapply (wcopy_step_2_1 m K c) $$ [$Hrec $Hs6 Hv2 $Ht1]
  · unfold ptsE pts; iexists _; iexact Hv2
  iintro Hc1
  iapply (wb1_load0 c _ _) $$ Hb1
  iintro Hb1
  iapply (wb2_load0 c _ _) $$ Hb2
  iintro Hb2
  iapply (le_wp_ret _ _)
  iapply HQ
  isplitr
  · ipureintro
    exact ⟨congrArg k0_pay4 (slot_back_PC2 (k0_pay2 (up1024x2048 (W1 (F := F) m 0 c)))),
      congrArg k0_pay5 (slot_back_PC2 (k0_pay3 (up2048x1024 (W2 (F := F) m 0 c))))⟩
  iframe
  isplitl [Hb1]; · iexact Hb1
  iexact Hb2

theorem part13_spec (K : Dev nD × Fin 57 → ℕ) (v371 : BitVec 32) {Q : PUnit → sProp 𝕄} :
    iprop(records m K ∗ levAts L lv ∗ owesX c 16
        ∗ pts (F := F) (psM (pr c 2)) c fullShare (psB m 0 c) ∗ ptsE (F := F) (rsM 0 c) (pr c 2)
        ∗ dutyTok ER (sndCell c 1 1) 0 c ∗ dutyTok ER (rcvCell (pr c 2) 1 c) 0 c
        ∗ cred (tallyAt (wcpCell c 1 0) () Nw) ∗ atPos ER (wcpCell c 1 0) 0 ∅ 0
        ∗ cred (tallyAt (wcpCell c 1 1) () Nw) ∗ atPos ER (wcpCell c 1 1) 0 ∅ 0
        ∗ ptsE (F := F) (wb1M 1) c ∗ ptsE (F := F) (wb2M 1) c)
      ⊢ iprop((∀ r, iprop(owesX c 15 ∗ cred (tallyAt (sndCell c 1 1) () Nh)
            ∗ atPos ER (wcpCell c 1 0) 1 ∅ 0 ∗ atPos ER (wcpCell c 1 1) 1 ∅ 0
            ∗ pts (F := F) (wv1M 1) c fullShare (wv1B m 1 c) ∗ pts (F := F) (Memref.whole main_arg3 : Memref sig .tc .hbm S1024x2048 .f32) c fullShare (W1 (F := F) m 1 c)
            ∗ pts (F := F) (wv2M 1) c fullShare (wv2B m 1 c) ∗ pts (F := F) (Memref.whole main_arg4 : Memref sig .tc .hbm S2048x1024 .f32) c fullShare (W2 (F := F) m 1 c)
            ∗ pts (F := F) (wb1M 1) c fullShare (wb1B m 1 c) ∗ pts (F := F) (wb2M 1) c fullShare (wb2B m 1 c)) -∗ Q r)
          -∗ wp frame (wpE (defs₀ (F := F)) 𝒱₀ (c : Thread nD τ) none) Set.univ (P13 (F := F) c v371) Q) := by
  unfold owesX P13 atArgs
  simp only [k0_part13_eq_skeleton, k0_part13_skel, Prog.lift, Prog.bind_op, Prog.bind_ret, Prog.pure_eq_ret]
  rw [wcp_1_0, wcp_1_1]
  iintro ⟨#Hrec, #Hlev, ⟨%W, HO⟩, Hps, Hrs, Hts, Htr, Hc0, Ha0, Hc1, Ha1, Hb1, Hb2⟩ HQ
  ihave ⟨%f1, Hb1⟩ := (ptsE_elim (F := F) (wb1M 1) c) $$ Hb1
  ihave ⟨%f2, Hb2⟩ := (ptsE_elim (F := F) (wb2M 1) c) $$ Hb2
  iapply (wp_enq_of c (ps_p2 c) (dev9_eq c) (rs0_own c) (congrArg SemLoc.dma snd_1_1) (congrArg SemLoc.dma (rcv1_own c)))
  iapply (ps_send m K c 0 1 rfl 2 (by omega) (by omega) 1 15 W (rem_rcv c 1 2 2 rfl 15 rfl)) $$ [$]
  iintro ⟨Hcs, HO⟩
  iapply (wcp_wait m K c rfl (fun _ => Set.mem_univ _) 1 0 15 (by decide) W (hcr := by rfl)) $$ [$]
  simp only [wcpPay]
  iintro ⟨HO, Ha0, -, Hv1, Hw1⟩
  iapply (wcp_wait m K c rfl (fun _ => Set.mem_univ _) 1 1 15 (by decide) _ (hcr := by rfl)) $$ [$]
  simp only [wcpPay]
  iintro ⟨HO, Ha1, -, Hv2, Hw2⟩
  iapply (wv1_load1 c _ _) $$ Hv1
  iintro Hv1
  iapply (wb1_load1 c f1 fullShare) $$ Hb1
  iintro Hb1
  iapply (wb1_store1 c _) $$ [Hb1]
  · unfold ptsE pts; iexists _; iexact Hb1
  iintro Hb1
  iapply (wv2_load1 c _ _) $$ Hv2
  iintro Hv2
  iapply (wb2_load1 c f2 fullShare) $$ Hb2
  iintro Hb2
  iapply (wb2_store1 c _) $$ [Hb2]
  · unfold ptsE pts; iexists _; iexact Hb2
  iintro Hb2
  iapply (le_wp_ret _ _)
  iapply HQ
  isplitl [HO]; · iexists _; iexact HO
  iframe
  isplitl [Hb1]; · iexact Hb1
  iexact Hb2

theorem part28_spec (K : Dev nD × Fin 57 → ℕ) (v842 : BitVec 32) (v847 : BitVec 1) (v848 : BitVec 32)
    {Q : FVec F S2048x1024 .bf16 → sProp 𝕄} :
    iprop(records m K ∗ levAts L lv ∗ owesX c 10
        ∗ pts (F := F) (psM (pr c 2)) c fullShare (psB m 1 c) ∗ ptsE (F := F) (rsM 1 c) (pr c 2)
        ∗ dutyTok ER (sndCell c 3 1) 0 c ∗ dutyTok ER (rcvCell (pr c 2) 3 c) 0 c
        ∗ cred (tallyAt (wcpCell c 2 0) () Nw) ∗ atPos ER (wcpCell c 2 0) 0 ∅ 0
        ∗ cred (tallyAt (wcpCell c 2 1) () Nw) ∗ atPos ER (wcpCell c 2 1) 0 ∅ 0
        ∗ pts (F := F) (wb1M 0) c fullShare (wb1B m 0 c))
      ⊢ iprop((∀ r, iprop(⌜r = k0_pay16 (up2048x1024 (W2 (F := F) m 2 c))⌝
            ∗ owesX c 9 ∗ cred (tallyAt (sndCell c 3 1) () Nh)
            ∗ atPos ER (wcpCell c 2 0) 1 ∅ 0 ∗ atPos ER (wcpCell c 2 1) 1 ∅ 0
            ∗ pts (F := F) (wv1M 0) c fullShare (wv1B m 2 c) ∗ pts (F := F) (Memref.whole main_arg5 : Memref sig .tc .hbm S1024x2048 .f32) c fullShare (W1 (F := F) m 2 c)
            ∗ pts (F := F) (wv2M 0) c fullShare (wv2B m 2 c) ∗ pts (F := F) (Memref.whole main_arg6 : Memref sig .tc .hbm S2048x1024 .f32) c fullShare (W2 (F := F) m 2 c)
            ∗ pts (F := F) (wb1M 0) c fullShare (wb1B m 2 c)) -∗ Q r)
          -∗ wp frame (wpE (defs₀ (F := F)) 𝒱₀ (c : Thread nD τ) none) Set.univ (P28 (F := F) c v842 v847 v848) Q) := by
  unfold owesX P28 atArgs
  simp only [k0_part28_eq_skeleton, k0_part28_skel, Prog.lift, Prog.bind_op, Prog.bind_ret, Prog.pure_eq_ret]
  rw [wcp_2_0, wcp_2_1]
  iintro ⟨#Hrec, #Hlev, ⟨%W, HO⟩, Hps, Hrs, Hts, Htr, Hc0, Ha0, Hc1, Ha1, Hb1⟩ HQ
  iapply (wp_enq_of c (ps_p2 c) (dev15_eq c) (rs1_own c) (congrArg SemLoc.dma snd_3_1) (congrArg SemLoc.dma (rcv3_own c)))
  iapply (ps_send m K c 1 3 rfl 2 (by omega) (by omega) 1 9 W (rem_rcv c 3 2 2 rfl 9 rfl)) $$ [$]
  iintro ⟨Hcs, HO⟩
  iapply (wcp_wait m K c rfl (fun _ => Set.mem_univ _) 2 0 9 (by decide) W (hcr := by rfl)) $$ [$]
  simp only [wcpPay]
  iintro ⟨HO, Ha0, -, Hv1, Hw1⟩
  iapply (wcp_wait m K c rfl (fun _ => Set.mem_univ _) 2 1 9 (by decide) _ (hcr := by rfl)) $$ [$]
  simp only [wcpPay]
  iintro ⟨HO, Ha1, -, Hv2, Hw2⟩
  iapply (wv1_load0 c _ _) $$ Hv1
  iintro Hv1
  iapply (wb1_load0 c _ _) $$ Hb1
  iintro Hb1
  iapply (wb1_store0 c _) $$ [Hb1]
  · unfold ptsE pts; iexists _; iexact Hb1
  iintro Hb1
  iapply (wv2_load0 c _ _) $$ Hv2
  iintro Hv2
  iapply (le_wp_ret _ _)
  iapply HQ
  isplitr; · ipureintro; rfl
  isplitl [HO]; · iexists _; iexact HO
  iframe
  iexact Hb1

theorem part29_spec (K : Dev nD × Fin 57 → ℕ) (v875 : FVec F S2048x1024 .bf16)
    (hv : v875 = k0_pay16 (up2048x1024 (W2 (F := F) m 2 c))) {Q : PUnit → sProp 𝕄} :
    iprop(records m K ∗ levAts L lv ∗ owesX c 9
        ∗ pts (F := F) (wb2M 0) c fullShare (wb2B m 0 c)
        ∗ cred (tallyAt (sndCell c 1 0) () Nh) ∗ atPos ER (sndCell c 1 0) 0 ∅ 0
        ∗ cred (tallyAt (sndCell c 1 2) () Nh) ∗ atPos ER (sndCell c 1 2) 0 ∅ 0
        ∗ cred (tallyAt (sndCell c 1 1) () Nh) ∗ atPos ER (sndCell c 1 1) 0 ∅ 0)
      ⊢ iprop((∀ r, iprop(owesX c 9 ∗ pts (F := F) (wb2M 0) c fullShare (wb2B m 2 c)
            ∗ atPos ER (sndCell c 1 0) 1 ∅ 0 ∗ atPos ER (sndCell c 1 2) 1 ∅ 0 ∗ atPos ER (sndCell c 1 1) 1 ∅ 0) -∗ Q r)
          -∗ wp frame (wpE (defs₀ (F := F)) 𝒱₀ (c : Thread nD τ) none) Set.univ (P29 (F := F) c v875) Q) := by
  subst hv
  unfold owesX P29 atArgs
  simp only [k0_part29_eq_skeleton, k0_part29_skel, Prog.lift, Prog.bind_op, Prog.bind_ret, Prog.pure_eq_ret]
  rw [snd_1_0, snd_1_2, snd_1_1]
  iintro ⟨#Hrec, #Hlev, ⟨%W, HO⟩, Hb2, Hc0, Ha0, Hc2, Ha2, Hc1, Ha1⟩ HQ
  iapply (wb2_load0 c _ _) $$ Hb2
  iintro Hb2
  iapply (wb2_store0 c _) $$ [Hb2]
  · unfold ptsE pts; iexists _; iexact Hb2
  iintro Hb2
  iapply (snd_wait m K c rfl (fun _ => Set.mem_univ _) 1 0 9 (by decide) W (hcr := by rfl)) $$ [$Hrec Hc0 $HO $Hlev $Ha0]
  · iexact Hc0
  iintro ⟨HO, Ha0, -, -⟩
  iapply (snd_wait m K c rfl (fun _ => Set.mem_univ _) 1 2 9 (by decide) _ (hcr := by rfl)) $$ [$Hrec Hc2 $HO $Hlev $Ha2]
  · iexact Hc2
  iintro ⟨HO, Ha2, -, -⟩
  iapply (snd_wait m K c rfl (fun _ => Set.mem_univ _) 1 1 9 (by decide) _ (hcr := by rfl)) $$ [$Hrec Hc1 $HO $Hlev $Ha1]
  · iexact Hc1
  iintro ⟨HO, Ha1, -, -⟩
  iapply (le_wp_ret _ _)
  iapply HQ
  isplitl [HO]; · iexists _; iexact HO
  iframe
  iexact Hb2

theorem part54_spec (K : Dev nD × Fin 57 → ℕ) (v2 v1658 v1659 : BitVec 32) (v1660 v1661 v1662 : BitVec 1)
    {Q : PUnit → sProp 𝕄} :
    iprop(records m K ∗ levAts L lv ∗ owesX c 0
        ∗ cred (tallyAt (rcvCell c 6 (pr c 2)) () Nf) ∗ atPos ER (rcvCell c 6 (pr c 2)) 0 ∅ 0
        ∗ cred (tallyAt (outCell c) () Nf) ∗ atPos ER (outCell c) 0 ∅ 0
        ∗ cred (tallyAt (sndCell c 5 0) () Nh) ∗ atPos ER (sndCell c 5 0) 0 ∅ 0)
      ⊢ iprop((∀ r, iprop(owesX c 0
            ∗ atPos ER (rcvCell c 6 (pr c 2)) 1 ∅ 0
            ∗ pts (F := F) (outM (pr c 2)) c fullShare (outAll m) ∗ pts (F := F) (psM (pr c 2)) c fullShare (psB m 2 c)
            ∗ atPos ER (outCell c) 1 ∅ 0
            ∗ pts (F := F) (outM c) c fullShare (outAll m) ∗ pts (F := F) stgM c (q4 3) (outBlk m c)
            ∗ atPos ER (sndCell c 5 0) 1 ∅ 0) -∗ Q r)
          -∗ wp frame (wpE (defs₀ (F := F)) 𝒱₀ (c : Thread nD τ) none) Set.univ (P54 (F := F) c v2 v1658 v1659 v1660 v1661 v1662) Q) := by
  unfold owesX P54 atArgs
  simp only [k0_part54_eq_skeleton, k0_part54_skel, Prog.lift, Prog.bind_op, Prog.bind_ret, Prog.pure_eq_ret]
  rw [rcv6_p2 c, outc_sem, snd_5_0]
  iintro ⟨#Hrec, #Hlev, ⟨%W, HO⟩, Hc1, Ha1, Hc2, Ha2, Hc3, Ha3⟩ HQ
  iapply (rcv_wait m K c rfl (fun _ => Set.mem_univ _) 6 (pr c 2) (pr_ne c 2 (by omega) (by omega)) 0 (by decide) W (hcr := by rfl)) $$ [$Hrec Hc1 $HO $Hlev $Ha1]
  · iexact Hc1
  simp only [rcvPay]
  iintro ⟨HO, Ha1, -, Hp1a, Hp1b⟩
  iapply (out_wait m K c rfl (fun _ => Set.mem_univ _) 0 (by decide) _ (hcr := by rfl)) $$ [$]
  unfold outcPay
  iintro ⟨HO, Ha2, -, Hp2a, Hp2b⟩
  iapply (snd_wait m K c rfl (fun _ => Set.mem_univ _) 5 0 0 (by decide) _ (hcr := by rfl)) $$ [$Hrec Hc3 $HO $Hlev $Ha3]
  · iexact Hc3
  iintro ⟨HO, Ha3, -, -⟩
  iapply (le_wp_ret _ _)
  iapply HQ
  isplitl [HO]; · iexists _; iexact HO
  iframe

end Cert.Kernel.Dist

end
-- ==== Proof.BBodyPS.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodySend

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part20_spec (K : Dev nD × Fin 57 → ℕ) (v2 : BitVec 32) {Q : PUnit → sProp 𝕄} :
    iprop(records m K ∗ levAts L lv
        ∗ pts (F := F) (actsM 1 c) c (q4 2) (actsB m)
        ∗ ptsE (F := F) (actsM 1 c) (pr c 3)
        ∗ pts (F := F) (psM c) (pr c 3) fullShare (psB m 0 (pr c 3))
        ∗ dutyTok ER (sndCell c 2 2) 0 c
        ∗ dutyTok ER (rcvCell (pr c 3) 2 c) 0 c
        ∗ owesX (F := F) c 15)
      ⊢ iprop((∀ r, iprop(cred (tallyAt (sndCell c 2 2) () Nh) ∗ owesX (F := F) c 14) -∗ Q r)
          -∗ wp frame (wpE (defs₀ (F := F)) 𝒱₀ (c : Thread nD τ) none) Set.univ (P20 (F := F) c v2) Q) := by
  unfold owesX P20 atArgs
  simp only [k0_part20_eq_skeleton, k0_part20_skel, Prog.lift, Prog.bind_op, Prog.bind_ret, Prog.pure_eq_ret]
  iintro ⟨#Hrec, #Hlev, Hs0, He0, Hx0, Ht0, Hu0, %W, Ho⟩ HQ
  iapply (wp_enq_of c (acts1_own c) (dev10_eq c) (acts1_own c) (congrArg SemLoc.dma snd_2_2) (congrArg SemLoc.dma (rcv2_own c)))
  iapply (gather_send m K c 1 0 2 rfl rfl 3 (by omega) (by omega) 2 14 W (rem_rcv c 2 0 3 rfl 14 rfl)) $$ [$Hrec Hs0 $He0 $Hx0 $Ho $Ht0 $Hu0]
  · iexact Hs0
  iintro ⟨Hc0, Ho⟩
  iapply (le_wp_ret _ _)
  iapply HQ
  iframe Hc0
  iexists W
  iexact Ho

theorem part4_spec (K : Dev nD × Fin 57 → ℕ) (v2 : BitVec 32) {Q : (Σ' (v119 : BitVec 32) (c4_i32_98 : BitVec 32), BitVec 32) → sProp 𝕄} :
    iprop(records m K ∗ levAts L lv
        ∗ pts (F := F) (actsM 0 c) c (q4 2) (actsB m)
        ∗ ptsE (F := F) (actsM 0 c) (pr c 3)
        ∗ dutyTok ER (sndCell c 0 2) 0 c
        ∗ dutyTok ER (rcvCell (pr c 3) 0 c) 0 c
        ∗ pts (F := F) (actsM 0 c) c (q4 0) (actsB m)
        ∗ ptsE (F := F) (actsM 0 c) (pr c 1)
        ∗ dutyTok ER (sndCell c 0 0) 0 c
        ∗ dutyTok ER (rcvCell (pr c 1) 0 c) 0 c
        ∗ owesX (F := F) c 21)
      ⊢ iprop((∀ r, iprop(cred (tallyAt (sndCell c 0 2) () Nh) ∗ cred (tallyAt (sndCell c 0 0) () Nh) ∗ owesX (F := F) c 19) -∗ Q r)
          -∗ wp frame (wpE (defs₀ (F := F)) 𝒱₀ (c : Thread nD τ) none) Set.univ (P4 (F := F) c v2) Q) := by
  unfold owesX P4 atArgs
  simp only [k0_part4_eq_skeleton, k0_part4_skel, Prog.lift, Prog.bind_op, Prog.bind_ret, Prog.pure_eq_ret]
  iintro ⟨#Hrec, #Hlev, Hs0, He0, Ht0, Hu0, Hs1, He1, Ht1, Hu1, %W, Ho⟩ HQ
  iapply (wp_enq_of c (acts0_own c) (dev4_eq c) (acts0_own c) (congrArg SemLoc.dma snd_0_2) (congrArg SemLoc.dma (rcv0_own c)))
  iapply (gather_send0 m K c 3 (by omega) (by omega) 2 20 W (rem_rcv c 0 0 3 rfl 20 rfl)) $$ [$Hrec Hs0 $He0 $Ho $Ht0 $Hu0]
  · iexact Hs0
  iintro ⟨Hc0, Ho⟩
  iapply (wp_enq_of c (acts0_own c) (dev5_eq c) (acts0_own c) (congrArg SemLoc.dma snd_0_0) (congrArg SemLoc.dma (rcv0_own c)))
  iapply (gather_send0 m K c 1 (by omega) (by omega) 0 19 W (rem_rcv c 0 1 1 rfl 19 rfl)) $$ [$Hrec Hs1 $He1 $Ho $Ht1 $Hu1]
  · iexact Hs1
  iintro ⟨Hc1, Ho⟩
  iapply (le_wp_ret _ _)
  iapply HQ
  iframe Hc0 Hc1
  iexists W
  iexact Ho

theorem part36_spec (K : Dev nD × Fin 57 → ℕ) (v2 : BitVec 32) {Q : BitVec 32 → sProp 𝕄} :
    iprop(records m K ∗ levAts L lv
        ∗ pts (F := F) (actsM 2 c) c (q4 2) (actsB m)
        ∗ ptsE (F := F) (actsM 2 c) (pr c 3)
        ∗ pts (F := F) (psM c) (pr c 3) fullShare (psB m 1 (pr c 3))
        ∗ dutyTok ER (sndCell c 4 2) 0 c
        ∗ dutyTok ER (rcvCell (pr c 3) 4 c) 0 c
        ∗ pts (F := F) (actsM 2 c) c (q4 0) (actsB m)
        ∗ ptsE (F := F) (actsM 2 c) (pr c 1)
        ∗ pts (F := F) (psM c) (pr c 1) fullShare (psB m 1 (pr c 1))
        ∗ dutyTok ER (sndCell c 4 0) 0 c
        ∗ dutyTok ER (rcvCell (pr c 1) 4 c) 0 c
        ∗ owesX (F := F) c 9)
      ⊢ iprop((∀ r, iprop(cred (tallyAt (sndCell c 4 2) () Nh) ∗ cred (tallyAt (sndCell c 4 0) () Nh) ∗ owesX (F := F) c 7) -∗ Q r)
          -∗ wp frame (wpE (defs₀ (F := F)) 𝒱₀ (c : Thread nD τ) none) Set.univ (P36 (F := F) c v2) Q) := by
  unfold owesX P36 atArgs
  simp only [k0_part36_eq_skeleton, k0_part36_skel, Prog.lift, Prog.bind_op, Prog.bind_ret, Prog.pure_eq_ret]
  iintro ⟨#Hrec, #Hlev, Hs0, He0, Hx0, Ht0, Hu0, Hs1, He1, Hx1, Ht1, Hu1, %W, Ho⟩ HQ
  iapply (wp_enq_of c (acts2_own c) (dev16_eq c) (acts2_own c) (congrArg SemLoc.dma snd_4_2) (congrArg SemLoc.dma (rcv4_own c)))
  iapply (gather_send m K c 2 1 4 rfl rfl 3 (by omega) (by omega) 2 8 W (rem_rcv c 4 0 3 rfl 8 rfl)) $$ [$Hrec Hs0 $He0 $Hx0 $Ho $Ht0 $Hu0]
  · iexact Hs0
  iintro ⟨Hc0, Ho⟩
  iapply (wp_enq_of c (acts2_own c) (dev17_eq c) (acts2_own c) (congrArg SemLoc.dma snd_4_0) (congrArg SemLoc.dma (rcv4_own c)))
  iapply (gather_send m K c 2 1 4 rfl rfl 1 (by omega) (by omega) 0 7 W (rem_rcv c 4 1 1 rfl 7 rfl)) $$ [$Hrec Hs1 $He1 $Hx1 $Ho $Ht1 $Hu1]
  · iexact Hs1
  iintro ⟨Hc1, Ho⟩
  iapply (le_wp_ret _ _)
  iapply HQ
  iframe Hc0 Hc1
  iexists W
  iexact Ho

theorem part11_spec (K : Dev nD × Fin 57 → ℕ) (v2 v306 : BitVec 32) {Q : BitVec 32 → sProp 𝕄} :
    iprop(records m K ∗ levAts L lv
        ∗ pts (F := F) (psM (pr c 1)) c fullShare (psB m 0 c)
        ∗ ptsE (F := F) (rsM 0 c) (pr c 1)
        ∗ dutyTok ER (sndCell c 1 0) 0 c
        ∗ dutyTok ER (rcvCell (pr c 1) 1 c) 0 c
        ∗ owesX (F := F) c 18)
      ⊢ iprop((∀ r, iprop(cred (tallyAt (sndCell c 1 0) () Nh) ∗ owesX (F := F) c 17) -∗ Q r)
          -∗ wp frame (wpE (defs₀ (F := F)) 𝒱₀ (c : Thread nD τ) none) Set.univ (P11 (F := F) c v2 v306) Q) := by
  unfold owesX P11 atArgs
  simp only [k0_part11_eq_skeleton, k0_part11_skel, Prog.lift, Prog.bind_op, Prog.bind_ret, Prog.pure_eq_ret]
  iintro ⟨#Hrec, #Hlev, Hs0, He0, Ht0, Hu0, %W, Ho⟩ HQ
  iapply (wp_enq_of c (ps_p1 c) (dev7_eq c) (rs0_own c) (congrArg SemLoc.dma snd_1_0) (congrArg SemLoc.dma (rcv1_own c)))
  iapply (ps_send m K c 0 1 rfl 1 (by omega) (by omega) 0 17 W (rem_rcv c 1 0 1 rfl 17 rfl)) $$ [$]
  iintro ⟨Hc0, Ho⟩
  iapply (le_wp_ret _ _)
  iapply HQ
  iframe Hc0
  iexists W
  iexact Ho

theorem part12_spec (K : Dev nD × Fin 57 → ℕ) (v2 v338 : BitVec 32) {Q : BitVec 32 → sProp 𝕄} :
    iprop(records m K ∗ levAts L lv
        ∗ pts (F := F) (psM (pr c 3)) c fullShare (psB m 0 c)
        ∗ ptsE (F := F) (rsM 0 c) (pr c 3)
        ∗ dutyTok ER (sndCell c 1 2) 0 c
        ∗ dutyTok ER (rcvCell (pr c 3) 1 c) 0 c
        ∗ owesX (F := F) c 17)
      ⊢ iprop((∀ r, iprop(cred (tallyAt (sndCell c 1 2) () Nh) ∗ owesX (F := F) c 16) -∗ Q r)
          -∗ wp frame (wpE (defs₀ (F := F)) 𝒱₀ (c : Thread nD τ) none) Set.univ (P12 (F := F) c v2 v338) Q) := by
  unfold owesX P12 atArgs
  simp only [k0_part12_eq_skeleton, k0_part12_skel, Prog.lift, Prog.bind_op, Prog.bind_ret, Prog.pure_eq_ret]
  iintro ⟨#Hrec, #Hlev, Hs0, He0, Ht0, Hu0, %W, Ho⟩ HQ
  iapply (wp_enq_of c (ps_p3 c) (dev8_eq c) (rs0_own c) (congrArg SemLoc.dma snd_1_2) (congrArg SemLoc.dma (rcv1_own c)))
  iapply (ps_send m K c 0 1 rfl 3 (by omega) (by omega) 2 16 W (rem_rcv c 1 1 3 rfl 16 rfl)) $$ [$]
  iintro ⟨Hc0, Ho⟩
  iapply (le_wp_ret _ _)
  iapply HQ
  iframe Hc0
  iexists W
  iexact Ho

theorem part26_spec (K : Dev nD × Fin 57 → ℕ) (v2 v777 v778 : BitVec 32) (v779 : BitVec 1) (c0_i32_664 : BitVec 32) {Q : (Σ' (v809 : BitVec 32) (v810 : BitVec 32) (v811 : BitVec 1) (v812 : BitVec 1), BitVec 1) → sProp 𝕄} :
    iprop(records m K ∗ levAts L lv
        ∗ pts (F := F) (psM (pr c 1)) c fullShare (psB m 1 c)
        ∗ ptsE (F := F) (rsM 1 c) (pr c 1)
        ∗ dutyTok ER (sndCell c 3 0) 0 c
        ∗ dutyTok ER (rcvCell (pr c 1) 3 c) 0 c
        ∗ owesX (F := F) c 12)
      ⊢ iprop((∀ r, iprop(cred (tallyAt (sndCell c 3 0) () Nh) ∗ owesX (F := F) c 11) -∗ Q r)
          -∗ wp frame (wpE (defs₀ (F := F)) 𝒱₀ (c : Thread nD τ) none) Set.univ (P26 (F := F) c v2 v777 v778 v779 c0_i32_664) Q) := by
  unfold owesX P26 atArgs
  simp only [k0_part26_eq_skeleton, k0_part26_skel, Prog.lift, Prog.bind_op, Prog.bind_ret, Prog.pure_eq_ret]
  iintro ⟨#Hrec, #Hlev, Hs0, He0, Ht0, Hu0, %W, Ho⟩ HQ
  iapply (wp_enq_of c (ps_p1 c) (dev13_eq c) (rs1_own c) (congrArg SemLoc.dma snd_3_0) (congrArg SemLoc.dma (rcv3_own c)))
  iapply (ps_send m K c 1 3 rfl 1 (by omega) (by omega) 0 11 W (rem_rcv c 3 0 1 rfl 11 rfl)) $$ [$]
  iintro ⟨Hc0, Ho⟩
  iapply (le_wp_ret _ _)
  iapply HQ
  iframe Hc0
  iexists W
  iexact Ho

theorem part27_spec (K : Dev nD × Fin 57 → ℕ) (v2 v809 v810 : BitVec 32) (v811 v812 v813 : BitVec 1) {Q : (Σ' (v842 : BitVec 32) (v847 : BitVec 1), BitVec 32) → sProp 𝕄} :
    iprop(records m K ∗ levAts L lv
        ∗ pts (F := F) (psM (pr c 3)) c fullShare (psB m 1 c)
        ∗ ptsE (F := F) (rsM 1 c) (pr c 3)
        ∗ dutyTok ER (sndCell c 3 2) 0 c
        ∗ dutyTok ER (rcvCell (pr c 3) 3 c) 0 c
        ∗ owesX (F := F) c 11)
      ⊢ iprop((∀ r, iprop(cred (tallyAt (sndCell c 3 2) () Nh) ∗ owesX (F := F) c 10) -∗ Q r)
          -∗ wp frame (wpE (defs₀ (F := F)) 𝒱₀ (c : Thread nD τ) none) Set.univ (P27 (F := F) c v2 v809 v810 v811 v812 v813) Q) := by
  unfold owesX P27 atArgs
  simp only [k0_part27_eq_skeleton, k0_part27_skel, Prog.lift, Prog.bind_op, Prog.bind_ret, Prog.pure_eq_ret]
  iintro ⟨#Hrec, #Hlev, Hs0, He0, Ht0, Hu0, %W, Ho⟩ HQ
  iapply (wp_enq_of c (ps_p3 c) (dev14_eq c) (rs1_own c) (congrArg SemLoc.dma snd_3_2) (congrArg SemLoc.dma (rcv3_own c)))
  iapply (ps_send m K c 1 3 rfl 3 (by omega) (by omega) 2 10 W (rem_rcv c 3 1 3 rfl 10 rfl)) $$ [$]
  iintro ⟨Hc0, Ho⟩
  iapply (le_wp_ret _ _)
  iapply HQ
  iframe Hc0
  iexists W
  iexact Ho

theorem part42_spec (K : Dev nD × Fin 57 → ℕ) (v2 v1279 : BitVec 32) {Q : (Σ' (v1312 : BitVec 32), BitVec 32) → sProp 𝕄} :
    iprop(records m K ∗ levAts L lv
        ∗ pts (F := F) (psM (pr c 1)) c fullShare (psB m 2 c)
        ∗ ptsE (F := F) (rsM 2 c) (pr c 1)
        ∗ dutyTok ER (sndCell c 5 0) 0 c
        ∗ dutyTok ER (rcvCell (pr c 1) 5 c) 0 c
        ∗ owesX (F := F) c 6)
      ⊢ iprop((∀ r, iprop(cred (tallyAt (sndCell c 5 0) () Nh) ∗ owesX (F := F) c 5) -∗ Q r)
          -∗ wp frame (wpE (defs₀ (F := F)) 𝒱₀ (c : Thread nD τ) none) Set.univ (P42 (F := F) c v2 v1279) Q) := by
  unfold owesX P42 atArgs
  simp only [k0_part42_eq_skeleton, k0_part42_skel, Prog.lift, Prog.bind_op, Prog.bind_ret, Prog.pure_eq_ret]
  iintro ⟨#Hrec, #Hlev, Hs0, He0, Ht0, Hu0, %W, Ho⟩ HQ
  iapply (wp_enq_of c (ps_p1 c) (dev19_eq c) (rs2_own c) (congrArg SemLoc.dma snd_5_0) (congrArg SemLoc.dma (rcv5_own c)))
  iapply (ps_send m K c 2 5 rfl 1 (by omega) (by omega) 0 5 W (rem_rcv c 5 0 1 rfl 5 rfl)) $$ [$]
  iintro ⟨Hc0, Ho⟩
  iapply (le_wp_ret _ _)
  iapply HQ
  iframe Hc0
  iexists W
  iexact Ho

theorem part43_spec (K : Dev nD × Fin 57 → ℕ) (v2 v1312 c0_i32_1123 : BitVec 32) {Q : PUnit → sProp 𝕄} :
    iprop(records m K ∗ levAts L lv
        ∗ pts (F := F) (psM (pr c 3)) c fullShare (psB m 2 c)
        ∗ ptsE (F := F) (rsM 2 c) (pr c 3)
        ∗ dutyTok ER (sndCell c 5 2) 0 c
        ∗ dutyTok ER (rcvCell (pr c 3) 5 c) 0 c
        ∗ owesX (F := F) c 5)
      ⊢ iprop((∀ r, iprop(cred (tallyAt (sndCell c 5 2) () Nh) ∗ owesX (F := F) c 4) -∗ Q r)
          -∗ wp frame (wpE (defs₀ (F := F)) 𝒱₀ (c : Thread nD τ) none) Set.univ (P43 (F := F) c v2 v1312 c0_i32_1123) Q) := by
  unfold owesX P43 atArgs
  simp only [k0_part43_eq_skeleton, k0_part43_skel, Prog.lift, Prog.bind_op, Prog.bind_ret, Prog.pure_eq_ret]
  iintro ⟨#Hrec, #Hlev, Hs0, He0, Ht0, Hu0, %W, Ho⟩ HQ
  iapply (wp_enq_of c (ps_p3 c) (dev20_eq c) (rs2_own c) (congrArg SemLoc.dma snd_5_2) (congrArg SemLoc.dma (rcv5_own c)))
  iapply (ps_send m K c 2 5 rfl 3 (by omega) (by omega) 2 4 W (rem_rcv c 5 1 3 rfl 4 rfl)) $$ [$]
  iintro ⟨Hc0, Ho⟩
  iapply (le_wp_ret _ _)
  iapply HQ
  iframe Hc0
  iexists W
  iexact Ho

theorem part51_spec (K : Dev nD × Fin 57 → ℕ) (v2 v1561 c4_i32_1338 c0_i32_1339 : BitVec 32) {Q : PUnit → sProp 𝕄} :
    iprop(records m K ∗ levAts L lv
        ∗ pts (F := F) stgM c (q4 0) (outBlk m c)
        ∗ ptsE (F := F) (outM c) (pr c 1)
        ∗ pts (F := F) (psM c) (pr c 1) fullShare (psB m 2 (pr c 1))
        ∗ dutyTok ER (sndCell c 6 0) 0 c
        ∗ dutyTok ER (rcvCell (pr c 1) 6 c) 0 c
        ∗ owesX (F := F) c 2)
      ⊢ iprop((∀ r, iprop(cred (tallyAt (sndCell c 6 0) () Nf) ∗ owesX (F := F) c 1) -∗ Q r)
          -∗ wp frame (wpE (defs₀ (F := F)) 𝒱₀ (c : Thread nD τ) none) Set.univ (P51 (F := F) c v2 v1561 c4_i32_1338 c0_i32_1339) Q) := by
  unfold owesX P51 atArgs
  simp only [k0_part51_eq_skeleton, k0_part51_skel, Prog.lift, Prog.bind_op, Prog.bind_ret, Prog.pure_eq_ret]
  iintro ⟨#Hrec, #Hlev, Hs0, He0, Hx0, Ht0, Hu0, %W, Ho⟩ HQ
  iapply (wp_enq_of c rfl (dev23_eq c) (out_own c) (congrArg SemLoc.dma snd_6_0) (congrArg SemLoc.dma (rcv6_own c)))
  iapply (out_send m K c 1 (by omega) (by omega) 0 1 W (rem_rcv c 6 1 1 rfl 1 rfl)) $$ [$Hrec Hs0 $He0 $Hx0 $Ho $Ht0 $Hu0]
  · iexact Hs0
  iintro ⟨Hc0, Ho⟩
  iapply (le_wp_ret _ _)
  iapply HQ
  iframe Hc0
  iexists W
  iexact Ho

end Cert.Kernel.Dist

end
-- ==== Proof.BBodyPS2.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyCast

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

-- A function of a one-slot stack's index sees only the two trailing coordinates.
theorem slot_back_PS2 {n1 n2 : Nat} {β : Type} (G : (⟨3, ![1, n1, n2]⟩ : Shape).Idx → β) :
    (fun x => G (ix3 (0 : Fin 1) (x 1) (x 2))) = G := by
  funext x
  refine congrArg G (funext fun a => ?_)
  match a with
  | ⟨0, _⟩ => exact Subsingleton.elim (α := Fin 1) _ _
  | ⟨1, _⟩ => rfl
  | ⟨2, _⟩ => rfl

theorem part21_spec (K : Dev nD × Fin 57 → ℕ) (v2 : BitVec 32) {Q : FVec F S1024x2048 .bf16 → sProp 𝕄} :
    iprop(records m K ∗ levAts L lv
        ∗ pts (F := F) (actsM 1 c) c (q4 0) (actsB m)
        ∗ ptsE (F := F) (actsM 1 c) (pr c 1)
        ∗ pts (F := F) (psM c) (pr c 1) fullShare (psB m 0 (pr c 1))
        ∗ dutyTok ER (sndCell c 2 0) 0 c
        ∗ dutyTok ER (rcvCell (pr c 1) 2 c) 0 c
        ∗ pts (F := F) (actsM 1 c) c (q4 1) (actsB m)
        ∗ ptsE (F := F) (actsM 1 c) (pr c 2)
        ∗ pts (F := F) (psM c) (pr c 2) fullShare (psB m 0 (pr c 2))
        ∗ dutyTok ER (sndCell c 2 1) 0 c
        ∗ dutyTok ER (rcvCell (pr c 2) 2 c) 0 c
        ∗ pts (F := F) (wb1M 1) c fullShare (wb1B m 1 c)
        ∗ owesX (F := F) c 14)
      ⊢ iprop((∀ r, iprop(cred (tallyAt (sndCell c 2 0) () Nh) ∗ cred (tallyAt (sndCell c 2 1) () Nh)
              ∗ pts (F := F) (wb1M 1) c fullShare (wb1B m 1 c) ∗ owesX (F := F) c 12 ∗ ⌜r = wb1 m 1 c⌝) -∗ Q r)
          -∗ wp frame (wpE (defs₀ (F := F)) 𝒱₀ (c : Thread nD τ) none) Set.univ (P21 (F := F) c v2) Q) := by
  unfold owesX P21 atArgs
  simp only [k0_part21_eq_skeleton, k0_part21_skel, Prog.lift, Prog.bind_op, Prog.bind_ret, Prog.pure_eq_ret]
  iintro ⟨#Hrec, #Hlev, Hs0, He0, Hx0, Ht0, Hu0, Hs1, He1, Hx1, Ht1, Hu1, Hw, %W, Ho⟩ HQ
  iapply (wp_enq_of c (acts1_own c) (dev11_eq c) (acts1_own c) (congrArg SemLoc.dma snd_2_0) (congrArg SemLoc.dma (rcv2_own c)))
  iapply (gather_send m K c 1 0 2 rfl rfl 1 (by omega) (by omega) 0 13 W (rem_rcv c 2 1 1 rfl 13 rfl)) $$ [$Hrec Hs0 $He0 $Hx0 $Ho $Ht0 $Hu0]
  · iexact Hs0
  iintro ⟨Hc0, Ho⟩
  iapply (wp_enq_of c (acts1_own c) (dev12_eq c) (acts1_own c) (congrArg SemLoc.dma snd_2_1) (congrArg SemLoc.dma (rcv2_own c)))
  iapply (gather_send m K c 1 0 2 rfl rfl 2 (by omega) (by omega) 1 12 W (rem_rcv c 2 2 2 rfl 12 rfl)) $$ [$Hrec Hs1 $He1 $Hx1 $Ho $Ht1 $Hu1]
  · iexact Hs1
  iintro ⟨Hc1, Ho⟩
  iapply (wb1_load1 c _ _) $$ Hw
  iintro Hw
  iapply (le_wp_ret _ _)
  iapply HQ
  iframe Hc0 Hc1 Hw
  isplitl
  · iexists W; iexact Ho
  ipureintro
  exact congrArg k0_pay12 (slot_back_PS2 (k0_pay2 (up1024x2048 (W1 (F := F) m 1 c))))

theorem part37_spec (K : Dev nD × Fin 57 → ℕ) (v2 v1120 : BitVec 32)
    {Q : (Σ' (v1144 : FVec F S1024x2048 .bf16) (v1146 : FVec F S2048x1024 .bf16) (v1149 : BitVec 32), BitVec 32) → sProp 𝕄} :
    iprop(records m K ∗ levAts L lv
        ∗ pts (F := F) (actsM 2 c) c (q4 1) (actsB m)
        ∗ ptsE (F := F) (actsM 2 c) (pr c 2)
        ∗ pts (F := F) (psM c) (pr c 2) fullShare (psB m 1 (pr c 2))
        ∗ dutyTok ER (sndCell c 4 1) 0 c
        ∗ dutyTok ER (rcvCell (pr c 2) 4 c) 0 c
        ∗ pts (F := F) (wb1M 0) c fullShare (wb1B m 2 c)
        ∗ pts (F := F) (wb2M 0) c fullShare (wb2B m 2 c)
        ∗ owesX (F := F) c 7)
      ⊢ iprop((∀ r, iprop(cred (tallyAt (sndCell c 4 1) () Nh)
              ∗ pts (F := F) (wb1M 0) c fullShare (wb1B m 2 c) ∗ pts (F := F) (wb2M 0) c fullShare (wb2B m 2 c)
              ∗ owesX (F := F) c 6 ∗ ⌜r.1 = wb1 m 2 c ∧ r.2.1 = wb2 m 2 c⌝) -∗ Q r)
          -∗ wp frame (wpE (defs₀ (F := F)) 𝒱₀ (c : Thread nD τ) none) Set.univ (P37 (F := F) c v2 v1120) Q) := by
  unfold owesX P37 atArgs
  simp only [k0_part37_eq_skeleton, k0_part37_skel, Prog.lift, Prog.bind_op, Prog.bind_ret, Prog.pure_eq_ret]
  iintro ⟨#Hrec, #Hlev, Hs0, He0, Hx0, Ht0, Hu0, Hw1, Hw2, %W, Ho⟩ HQ
  iapply (wp_enq_of c (acts2_own c) (dev18_eq c) (acts2_own c) (congrArg SemLoc.dma snd_4_1) (congrArg SemLoc.dma (rcv4_own c)))
  iapply (gather_send m K c 2 1 4 rfl rfl 2 (by omega) (by omega) 1 6 W (rem_rcv c 4 2 2 rfl 6 rfl)) $$ [$Hrec Hs0 $He0 $Hx0 $Ho $Ht0 $Hu0]
  · iexact Hs0
  iintro ⟨Hc0, Ho⟩
  iapply (wb1_load0 c _ _) $$ Hw1
  iintro Hw1
  iapply (wb2_load0 c _ _) $$ Hw2
  iintro Hw2
  iapply (le_wp_ret _ _)
  iapply HQ
  iframe Hc0 Hw1 Hw2
  isplitl
  · iexists W; iexact Ho
  ipureintro
  exact ⟨congrArg k0_pay21 (slot_back_PS2 (k0_pay2 (up1024x2048 (W1 (F := F) m 2 c)))),
    congrArg k0_pay22 (slot_back_PS2 (k0_pay3 (up2048x1024 (W2 (F := F) m 2 c))))⟩

end Cert.Kernel.Dist

end
-- ==== Proof.BBodyPM.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodySend

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part5_spec (K : Dev nD × Fin 57 → ℕ) (v119 c4 c0 : BitVec 32) {Q : PUnit → sProp 𝕄} :
    iprop(records m K ∗ levAts L lv ∗ owesX c 19
        ∗ pts (F := F) (actsM 0 c) c (q4 1) (actsB m) ∗ ptsE (F := F) (actsM 0 c) (pr c 2)
        ∗ dutyTok ER (sndCell c 0 1) 0 c ∗ dutyTok ER (rcvCell (pr c 2) 0 c) 0 c
        ∗ cred (tallyAt (wcpCell c 0 0) () Nw) ∗ atPos ER (wcpCell c 0 0) 0 ∅ 0
        ∗ cred (tallyAt (wcpCell c 0 1) () Nw) ∗ atPos ER (wcpCell c 0 1) 0 ∅ 0)
      ⊢ iprop((∀ r, iprop(owesX c 18 ∗ cred (tallyAt (sndCell c 0 1) () Nh)
              ∗ atPos ER (wcpCell c 0 0) 1 ∅ 0
              ∗ pts (F := F) (wv1M 0) c fullShare (wv1B m 0 c) ∗ pts (F := F) (Memref.whole main_arg1 : Memref sig .tc .hbm S1024x2048 .f32) c fullShare (W1 (F := F) m 0 c)
              ∗ atPos ER (wcpCell c 0 1) 1 ∅ 0
              ∗ pts (F := F) (wv2M 0) c fullShare (wv2B m 0 c) ∗ pts (F := F) (Memref.whole main_arg2 : Memref sig .tc .hbm S2048x1024 .f32) c fullShare (W2 (F := F) m 0 c)) -∗ Q r)
          -∗ wp frame (wpE (defs₀ (F := F)) 𝒱₀ (c : Thread nD τ) none) Set.univ (P5 (F := F) c v119 c4 c0) Q) := by
  unfold owesX P5 atArgs
  simp only [k0_part5_eq_skeleton, k0_part5_skel, Prog.lift, Prog.bind_op, Prog.bind_ret, Prog.pure_eq_ret]
  rw [wcp_0_0, wcp_0_1]
  iintro ⟨#Hrec, #Hlev, ⟨%W, HO⟩, Hsrc, Hdst, Ht1, Ht2, Hc0, Hp0, Hc1, Hp1⟩ HQ
  iapply (wp_enq_of c (acts0_own c) (dev6_eq c) (acts0_own c) (congrArg SemLoc.dma snd_0_1) (congrArg SemLoc.dma (rcv0_own c)))
  iapply (gather_send0 m K c 2 (by omega) (by omega) 1 18 W (rem_rcv c 0 2 2 rfl 18 rfl)) $$ [$Hrec Hsrc $Hdst $HO $Ht1 $Ht2]
  · iexact Hsrc
  iintro ⟨Hcs, HO⟩
  iapply (wcp_wait m K c rfl (fun _ => Set.mem_univ _) 0 0 18 (by omega) W (hcr := by rfl)) $$ [$]
  simp only [wcpPay]
  iintro ⟨HO, Hp0, -, Hw0a, Hw0b⟩
  iapply (wcp_wait m K c rfl (fun _ => Set.mem_univ _) 0 1 18 (by omega) _ (hcr := by rfl)) $$ [$]
  simp only [wcpPay]
  iintro ⟨HO, Hp1, -, Hw1a, Hw1b⟩
  iapply (le_wp_ret _ _)
  iapply HQ
  isplitl [HO]; · iexists _; iexact HO
  iframe

end Cert.Kernel.Dist

end
-- ==== Proof.BBodyPW.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait

noncomputable section

namespace Cert.Kernel.Dist

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem cr_ps (s : Dev nD) : (psM s).view.dmaCredit = Nh := rfl
theorem cr_out (s : Dev nD) : (outM s).view.dmaCredit = Nf := rfl
theorem amt_lo (p : Fin 7) (h : p.val ≠ 6) : amt p = Nh := if_neg h

theorem rcv_wait_N (K : Dev nD × Fin 57 → ℕ) {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (s : Dev nD) (hs : s ≠ c) (kk : ℕ) (hk : kk + 3 * (p.val + 1) ≤ 21) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (N : ℕ) (hN : amt p = N) (hcr : dst.view.dmaCredit = N) :
    iprop(records m K ∗ cred (tallyAt (rcvCell c p s) () N) ∗ owes (c : Thread nD τ) (rem c kk) W
        ∗ levAts L lv ∗ atPos ER (rcvCell c p s) 0 ∅ 0)
      ⊢ iprop(((owes (c : Thread nD τ) (rem c kk) (insert (SemLoc.dma (rcvS p s), ()) W)
              ∗ atPos ER (rcvCell c p s) 1 ∅ 0 ∗ reached ER (rcvCell c p s) 1 ∗ rcvPay m c p s)
            -∗ wp frame (wpE' (defs₀ (F := F)) 𝒱₀ (c : Thread nD τ) none Γ) Es (k ⟨⟩) Q)
          -∗ wp frame (wpE' (defs₀ (F := F)) 𝒱₀ (c : Thread nD τ) none Γ) Es (.op (.waitDma2 (rcvS p s) src dst hsrc hdst) k) Q) := by
  subst hN
  exact rcv_wait m K c hΓ hEs p s hs kk hk W hcr

theorem snd_wait_N (K : Dev nD × Fin 57 → ℕ) {Γ : PendingWaitsCtx sig Unit} {Es : Set ℕ} {α : Type} {Q : α → sProp 𝕄}
    {k : PUnit → Prog (TpuEff nD τ sig (Elt F) Λ₀ .tc) α}
    (hΓ : Γ.encl = []) (hEs : ∀ ck, K ck ∈ Es)
    (p : Fin 7) (j : Fin 3) (kk : ℕ) (hk : kk ≤ 24) (W : Waits sig Unit)
    {sp sp' : Space} {s₁ s₂ : Shape} {e₁ e₂ : EltTy} {κ' : Kind}
    {src : Memref sig .tc sp' s₂ e₂} {dst : Memref sig κ' sp s₁ e₁} {hsrc : src.view.WordExact} {hdst : dst.view.WordExact}
    (N : ℕ) (hN : amt p = N) (hcr : dst.view.dmaCredit = N) :
    iprop(records m K ∗ cred (tallyAt (sndCell c p j) () N) ∗ owes (c : Thread nD τ) (rem c kk) W
        ∗ levAts L lv ∗ atPos ER (sndCell c p j) 0 ∅ 0)
      ⊢ iprop(((owes (c : Thread nD τ) (rem c kk) (insert (SemLoc.dma (sndS p j), ()) W)
              ∗ atPos ER (sndCell c p j) 1 ∅ 0 ∗ reached ER (sndCell c p j) 1 ∗ sndPay m c p j)
            -∗ wp frame (wpE' (defs₀ (F := F)) 𝒱₀ (c : Thread nD τ) none Γ) Es (k ⟨⟩) Q)
          -∗ wp frame (wpE' (defs₀ (F := F)) 𝒱₀ (c : Thread nD τ) none Γ) Es (.op (.waitDma2 (sndS p j) src dst hsrc hdst) k) Q) := by
  subst hN
  exact snd_wait m K c hΓ hEs p j kk hk W hcr

theorem rcvPay_6 (s : Dev nD) : rcvPay m c 6 s = iprop(pts (F := F) (outM (s)) c fullShare (outAll m) ∗ pts (F := F) (psM (s)) c fullShare (psB m 2 c)) := rfl

section
variable {m} {c} {K : Dev nD × Fin 57 → ℕ} {α : Type} {Q : α → sProp (MT nD τ sig Unit (Elt F) ℕ UU ℕ)} {a : α} {p : Fin 7} {o : ℕ} {j : Fin 3} {kk N : ℕ} {R : sProp (MT nD τ sig Unit (Elt F) ℕ UU ℕ)}
  {sp sp' : Space} {s₁ s₂ : Shape} {e₁ e₂ : EltTy} {κ' : Kind}
  {src : Memref sig .tc sp' s₂ e₂} {dst : Memref sig κ' sp s₁ e₁} {hsrc : src.view.WordExact} {hdst : dst.view.WordExact}

-- A part that only waits for the landing from the peer at offset o: the wait's rule with the recorded waits hidden and the payload R spelled out.
private theorem rcvR (ho : 0 < o ∧ o < 4 := by decide) (hk : kk + 3 * (p.val + 1) ≤ 21 := by decide)
    (hN : amt p = N := by rfl) (hcr : dst.view.dmaCredit = N := by rfl) (hR : rcvPay m c p (pr c o) = R := by rfl) :
    iprop(records m K ∗ levAts L lv ∗ owesX c kk ∗ cred (tallyAt (rcvCell c p (pr c o)) () N) ∗ atPos ER (rcvCell c p (pr c o)) 0 ∅ 0)
      ⊢ iprop((∀ r, iprop(owesX c kk ∗ atPos ER (rcvCell c p (pr c o)) 1 ∅ 0 ∗ R) -∗ Q r)
          -∗ wp frame (wpE (defs₀ (F := F)) 𝒱₀ (c : Thread nD τ) none) Set.univ (.op (.waitDma2 (rcvS p (pr c o)) src dst hsrc hdst) fun _ => .ret a) Q) := by
  subst hR
  unfold owesX
  iintro ⟨#Hr, #Hl, ⟨%W, Ho⟩, Hc, Hp⟩ HQ
  iapply (rcv_wait_N m c K rfl (fun _ => Set.mem_univ _) p (pr c o) (pr_ne c o ho.1 ho.2) kk hk W N hN hcr) $$ [$]
  iintro ⟨Ho, Hp, -, Hy⟩
  iapply (le_wp_ret _ _)
  iapply HQ
  isplitl [Ho]; · iexists _; iexact Ho
  iframe

-- The same for a part's last send.
private theorem sndR (hk : kk ≤ 24 := by decide)
    (hN : amt p = N := by rfl) (hcr : dst.view.dmaCredit = N := by rfl) (hR : sndPay m c p j = R := by rfl) :
    iprop(records m K ∗ levAts L lv ∗ owesX c kk ∗ cred (tallyAt (sndCell c p j) () N) ∗ atPos ER (sndCell c p j) 0 ∅ 0)
      ⊢ iprop((∀ r, iprop(owesX c kk ∗ atPos ER (sndCell c p j) 1 ∅ 0 ∗ R) -∗ Q r)
          -∗ wp frame (wpE (defs₀ (F := F)) 𝒱₀ (c : Thread nD τ) none) Set.univ (.op (.waitDma2 (sndS p j) src dst hsrc hdst) fun _ => .ret a) Q) := by
  subst hR
  unfold owesX
  iintro ⟨#Hr, #Hl, ⟨%W, Ho⟩, Hc, Hp⟩ HQ
  iapply (snd_wait_N m c K rfl (fun _ => Set.mem_univ _) p j kk hk W N hN hcr) $$ [$]
  iintro ⟨Ho, Hp, -, Hy⟩
  iapply (le_wp_ret _ _)
  iapply HQ
  isplitl [Ho]; · iexists _; iexact Ho
  iframe

-- A send's wait in front of a program whose rule h is known: its credit and position join h's resources; what it gives back joins h's yield by hP (kept, or dropped when it is empty).
private theorem sndStep {Pre Post Post' : sProp 𝕄} {prog : Prog (TpuEff nD τ sig (Elt F) Λ₀ .tc) α}
    (hP : iprop(sndPay m c p j ∗ Post) ⊢ Post')
    (h : iprop(records m K ∗ levAts L lv ∗ owesX c kk ∗ Pre)
      ⊢ iprop((∀ r, iprop(owesX c kk ∗ Post) -∗ Q r) -∗ wp frame (wpE (defs₀ (F := F)) 𝒱₀ (c : Thread nD τ) none) Set.univ prog Q))
    (hk : kk ≤ 24 := by decide) (hN : amt p = N := by rfl) (hcr : dst.view.dmaCredit = N := by rfl) :
    iprop(records m K ∗ levAts L lv ∗ owesX c kk ∗ cred (tallyAt (sndCell c p j) () N) ∗ atPos ER (sndCell c p j) 0 ∅ 0 ∗ Pre)
      ⊢ iprop((∀ r, iprop(owesX c kk ∗ atPos ER (sndCell c p j) 1 ∅ 0 ∗ Post') -∗ Q r)
          -∗ wp frame (wpE (defs₀ (F := F)) 𝒱₀ (c : Thread nD τ) none) Set.univ (.op (.waitDma2 (sndS p j) src dst hsrc hdst) fun _ => prog) Q) := by
  unfold owesX at h ⊢
  iintro ⟨#Hr, #Hl, ⟨%W, Ho⟩, Hc, Hp, HP⟩ HQ
  iapply (snd_wait_N m c K rfl (fun _ => Set.mem_univ _) p j kk hk W N hN hcr) $$ [$]
  iintro ⟨Ho, Hp, -, Hy⟩
  iapply h $$ [Ho HP]
  · iframe Hr Hl HP
    iexists _; iexact Ho
  iintro %r ⟨Ho, HP⟩
  iapply HQ
  iframe Ho Hp
  iapply hP
  iframe

end

theorem part7_spec (K : Dev nD × Fin 57 → ℕ) (v2 : BitVec 32) (v174 : BitVec 32) (c4_i32_156 : BitVec 32) (c0_i32_157 : BitVec 32)
    {Q : (BitVec 32) → sProp 𝕄} :
    iprop(records m K ∗ levAts L lv ∗ owesX c 18 ∗ cred (tallyAt (rcvCell c 0 (pr c 1)) () Nh)
        ∗ atPos ER (rcvCell c 0 (pr c 1)) 0 ∅ 0)
      ⊢ iprop((∀ r, iprop(owesX c 18 ∗ atPos ER (rcvCell c 0 (pr c 1)) 1 ∅ 0 ∗ pts (F := F) (actsM 0 (pr c 1)) c fullShare (actsB m)) -∗ Q r)
          -∗ wp frame (wpE (defs₀ (F := F)) 𝒱₀ (c : Thread nD τ) none) Set.univ (P7 (F := F) c v2 v174 c4_i32_156 c0_i32_157) Q) := by
  unfold P7 atArgs
  simp only [k0_part7_eq_skeleton, k0_part7_skel, rcv0_p1 c]
  exact rcvR

theorem part8_spec (K : Dev nD × Fin 57 → ℕ) (v2 : BitVec 32) (v207 : BitVec 32)
    {Q : (PUnit) → sProp 𝕄} :
    iprop(records m K ∗ levAts L lv ∗ owesX c 18 ∗ cred (tallyAt (rcvCell c 0 (pr c 3)) () Nh)
        ∗ atPos ER (rcvCell c 0 (pr c 3)) 0 ∅ 0)
      ⊢ iprop((∀ r, iprop(owesX c 18 ∗ atPos ER (rcvCell c 0 (pr c 3)) 1 ∅ 0 ∗ pts (F := F) (actsM 0 (pr c 3)) c fullShare (actsB m)) -∗ Q r)
          -∗ wp frame (wpE (defs₀ (F := F)) 𝒱₀ (c : Thread nD τ) none) Set.univ (P8 (F := F) c v2 v207) Q) := by
  unfold P8 atArgs
  simp only [k0_part8_eq_skeleton, k0_part8_skel, rcv0_p3 c]
  exact rcvR

theorem part9_spec (K : Dev nD × Fin 57 → ℕ) (v2 : BitVec 32)
    {Q : (PUnit) → sProp 𝕄} :
    iprop(records m K ∗ levAts L lv)
      ⊢ iprop((∀ r, Q r)
          -∗ wp frame (wpE (defs₀ (F := F)) 𝒱₀ (c : Thread nD τ) none) Set.univ (P9 (F := F) c v2) Q) := by
  unfold P9 atArgs
  simp only [k0_part9_eq_skeleton, k0_part9_skel]
  iintro - HQ
  iapply (le_wp_ret _ _)
  iapply HQ

theorem part14_spec (K : Dev nD × Fin 57 → ℕ)
    {Q : (PUnit) → sProp 𝕄} :
    iprop(records m K ∗ levAts L lv ∗ owesX c 15 ∗ cred (tallyAt (sndCell c 0 2) () Nh) ∗ atPos ER (sndCell c 0 2) 0 ∅ 0
        ∗ cred (tallyAt (sndCell c 0 0) () Nh) ∗ atPos ER (sndCell c 0 0) 0 ∅ 0)
      ⊢ iprop((∀ r, iprop(owesX c 15 ∗ atPos ER (sndCell c 0 2) 1 ∅ 0 ∗ pts (F := F) (actsM 0 c) c (q4 2) (actsB m)
            ∗ atPos ER (sndCell c 0 0) 1 ∅ 0 ∗ pts (F := F) (actsM 0 c) c (q4 0) (actsB m)) -∗ Q r)
          -∗ wp frame (wpE (defs₀ (F := F)) 𝒱₀ (c : Thread nD τ) none) Set.univ (P14 (F := F) c) Q) := by
  unfold P14 atArgs
  simp only [k0_part14_eq_skeleton, k0_part14_skel, snd_0_2, snd_0_0]
  exact sndStep .rfl sndR

theorem part15_spec (K : Dev nD × Fin 57 → ℕ) (v2 : BitVec 32)
    {Q : (BitVec 32) → sProp 𝕄} :
    iprop(records m K ∗ levAts L lv ∗ owesX c 15 ∗ cred (tallyAt (sndCell c 0 1) () Nh) ∗ atPos ER (sndCell c 0 1) 0 ∅ 0
        ∗ cred (tallyAt (rcvCell c 1 (pr c 1)) () Nh) ∗ atPos ER (rcvCell c 1 (pr c 1)) 0 ∅ 0)
      ⊢ iprop((∀ r, iprop(owesX c 15 ∗ atPos ER (sndCell c 0 1) 1 ∅ 0 ∗ pts (F := F) (actsM 0 c) c (q4 1) (actsB m)
            ∗ atPos ER (rcvCell c 1 (pr c 1)) 1 ∅ 0 ∗ pts (F := F) (rsM 0 (pr c 1)) c fullShare (rsB m c)
            ∗ pts (F := F) (psM c) (pr c 1) fullShare (psB m 0 (pr c 1))) -∗ Q r)
          -∗ wp frame (wpE (defs₀ (F := F)) 𝒱₀ (c : Thread nD τ) none) Set.univ (P15 (F := F) c v2) Q) := by
  unfold P15 atArgs
  simp only [k0_part15_eq_skeleton, k0_part15_skel, snd_0_1, rcv1_p1 c]
  exact sndStep .rfl rcvR

theorem part16_spec (K : Dev nD × Fin 57 → ℕ) (v2 : BitVec 32) (v454 : BitVec 32)
    {Q : (Σ' (v484 : BitVec 32) (c4_i32_426 : BitVec 32) (v485 : BitVec 1), BitVec 32) → sProp 𝕄} :
    iprop(records m K ∗ levAts L lv ∗ owesX c 15 ∗ cred (tallyAt (rcvCell c 1 (pr c 3)) () Nh)
        ∗ atPos ER (rcvCell c 1 (pr c 3)) 0 ∅ 0)
      ⊢ iprop((∀ r, iprop(owesX c 15 ∗ atPos ER (rcvCell c 1 (pr c 3)) 1 ∅ 0 ∗ pts (F := F) (rsM 0 (pr c 3)) c fullShare (rsB m c)
            ∗ pts (F := F) (psM c) (pr c 3) fullShare (psB m 0 (pr c 3))) -∗ Q r)
          -∗ wp frame (wpE (defs₀ (F := F)) 𝒱₀ (c : Thread nD τ) none) Set.univ (P16 (F := F) c v2 v454) Q) := by
  unfold P16 atArgs
  simp only [k0_part16_eq_skeleton, k0_part16_skel, rcv1_p3 c]
  exact rcvR

theorem part23_spec (K : Dev nD × Fin 57 → ℕ) (v2 : BitVec 32)
    {Q : (PUnit) → sProp 𝕄} :
    iprop(records m K ∗ levAts L lv ∗ owesX c 12 ∗ cred (tallyAt (rcvCell c 2 (pr c 1)) () Nh)
        ∗ atPos ER (rcvCell c 2 (pr c 1)) 0 ∅ 0)
      ⊢ iprop((∀ r, iprop(owesX c 12 ∗ atPos ER (rcvCell c 2 (pr c 1)) 1 ∅ 0 ∗ pts (F := F) (actsM 1 (pr c 1)) c fullShare (actsB m)
            ∗ pts (F := F) (psM (pr c 1)) c fullShare (psB m 0 c)) -∗ Q r)
          -∗ wp frame (wpE (defs₀ (F := F)) 𝒱₀ (c : Thread nD τ) none) Set.univ (P23 (F := F) c v2) Q) := by
  unfold P23 atArgs
  simp only [k0_part23_eq_skeleton, k0_part23_skel, rcv2_p1 c]
  exact rcvR

theorem part24_spec (K : Dev nD × Fin 57 → ℕ) (v2 : BitVec 32)
    {Q : (PUnit) → sProp 𝕄} :
    iprop(records m K ∗ levAts L lv ∗ owesX c 12 ∗ cred (tallyAt (rcvCell c 2 (pr c 3)) () Nh)
        ∗ atPos ER (rcvCell c 2 (pr c 3)) 0 ∅ 0)
      ⊢ iprop((∀ r, iprop(owesX c 12 ∗ atPos ER (rcvCell c 2 (pr c 3)) 1 ∅ 0 ∗ pts (F := F) (actsM 1 (pr c 3)) c fullShare (actsB m)
            ∗ pts (F := F) (psM (pr c 3)) c fullShare (psB m 0 c)) -∗ Q r)
          -∗ wp frame (wpE (defs₀ (F := F)) 𝒱₀ (c : Thread nD τ) none) Set.univ (P24 (F := F) c v2) Q) := by
  unfold P24 atArgs
  simp only [k0_part24_eq_skeleton, k0_part24_skel, rcv2_p3 c]
  exact rcvR

theorem part30_spec (K : Dev nD × Fin 57 → ℕ) (v2 : BitVec 32)
    {Q : (Σ' (v920 : BitVec 32) (v921 : BitVec 32), BitVec 32) → sProp 𝕄} :
    iprop(records m K ∗ levAts L lv ∗ owesX c 9 ∗ cred (tallyAt (sndCell c 2 2) () Nh) ∗ atPos ER (sndCell c 2 2) 0 ∅ 0
        ∗ cred (tallyAt (sndCell c 2 0) () Nh) ∗ atPos ER (sndCell c 2 0) 0 ∅ 0 ∗ cred (tallyAt (sndCell c 2 1) () Nh)
        ∗ atPos ER (sndCell c 2 1) 0 ∅ 0)
      ⊢ iprop((∀ r, iprop(owesX c 9 ∗ atPos ER (sndCell c 2 2) 1 ∅ 0 ∗ pts (F := F) (actsM 1 c) c (q4 2) (actsB m)
            ∗ atPos ER (sndCell c 2 0) 1 ∅ 0 ∗ pts (F := F) (actsM 1 c) c (q4 0) (actsB m) ∗ atPos ER (sndCell c 2 1) 1 ∅ 0
            ∗ pts (F := F) (actsM 1 c) c (q4 1) (actsB m)) -∗ Q r)
          -∗ wp frame (wpE (defs₀ (F := F)) 𝒱₀ (c : Thread nD τ) none) Set.univ (P30 (F := F) c v2) Q) := by
  unfold P30 atArgs
  simp only [k0_part30_eq_skeleton, k0_part30_skel, snd_2_2, snd_2_0, snd_2_1]
  exact sndStep .rfl (sndStep .rfl sndR)

theorem part31_spec (K : Dev nD × Fin 57 → ℕ) (v2 : BitVec 32) (v920 : BitVec 32) (v921 : BitVec 32) (c0_i32_809 : BitVec 32)
    {Q : (Σ' (v950 : BitVec 32) (v951 : BitVec 32) (v952 : BitVec 1) (v953 : BitVec 1), BitVec 32) → sProp 𝕄} :
    iprop(records m K ∗ levAts L lv ∗ owesX c 9 ∗ cred (tallyAt (rcvCell c 3 (pr c 1)) () Nh)
        ∗ atPos ER (rcvCell c 3 (pr c 1)) 0 ∅ 0)
      ⊢ iprop((∀ r, iprop(owesX c 9 ∗ atPos ER (rcvCell c 3 (pr c 1)) 1 ∅ 0 ∗ pts (F := F) (rsM 1 (pr c 1)) c fullShare (rsB m c)
            ∗ pts (F := F) (psM c) (pr c 1) fullShare (psB m 1 (pr c 1))) -∗ Q r)
          -∗ wp frame (wpE (defs₀ (F := F)) 𝒱₀ (c : Thread nD τ) none) Set.univ (P31 (F := F) c v2 v920 v921 c0_i32_809) Q) := by
  unfold P31 atArgs
  simp only [k0_part31_eq_skeleton, k0_part31_skel, rcv3_p1 c]
  exact rcvR

theorem part32_spec (K : Dev nD × Fin 57 → ℕ) (v2 : BitVec 32) (v950 : BitVec 32) (v951 : BitVec 32) (v952 : BitVec 1) (v953 : BitVec 1) (c0_i32_836 : BitVec 32)
    {Q : (Σ' (v981 : BitVec 32) (v986 : BitVec 1), BitVec 32) → sProp 𝕄} :
    iprop(records m K ∗ levAts L lv ∗ owesX c 9 ∗ cred (tallyAt (rcvCell c 3 (pr c 3)) () Nh)
        ∗ atPos ER (rcvCell c 3 (pr c 3)) 0 ∅ 0)
      ⊢ iprop((∀ r, iprop(owesX c 9 ∗ atPos ER (rcvCell c 3 (pr c 3)) 1 ∅ 0 ∗ pts (F := F) (rsM 1 (pr c 3)) c fullShare (rsB m c)
            ∗ pts (F := F) (psM c) (pr c 3) fullShare (psB m 1 (pr c 3))) -∗ Q r)
          -∗ wp frame (wpE (defs₀ (F := F)) 𝒱₀ (c : Thread nD τ) none) Set.univ (P32 (F := F) c v2 v950 v951 v952 v953 c0_i32_836) Q) := by
  unfold P32 atArgs
  simp only [k0_part32_eq_skeleton, k0_part32_skel, rcv3_p3 c]
  exact rcvR

theorem part38_spec (K : Dev nD × Fin 57 → ℕ) (v2 : BitVec 32) (v1149 : BitVec 32) (v1150 : BitVec 32)
    {Q : (Σ' (v1180 : BitVec 32) (c4_i32_1018 : BitVec 32) (v1181 : BitVec 1), BitVec 32) → sProp 𝕄} :
    iprop(records m K ∗ levAts L lv ∗ owesX c 6 ∗ cred (tallyAt (rcvCell c 4 (pr c 1)) () Nh)
        ∗ atPos ER (rcvCell c 4 (pr c 1)) 0 ∅ 0)
      ⊢ iprop((∀ r, iprop(owesX c 6 ∗ atPos ER (rcvCell c 4 (pr c 1)) 1 ∅ 0 ∗ pts (F := F) (actsM 2 (pr c 1)) c fullShare (actsB m)
            ∗ pts (F := F) (psM (pr c 1)) c fullShare (psB m 1 c)) -∗ Q r)
          -∗ wp frame (wpE (defs₀ (F := F)) 𝒱₀ (c : Thread nD τ) none) Set.univ (P38 (F := F) c v2 v1149 v1150) Q) := by
  unfold P38 atArgs
  simp only [k0_part38_eq_skeleton, k0_part38_skel, rcv4_p1 c]
  exact rcvR

theorem part39_spec (K : Dev nD × Fin 57 → ℕ) (v2 : BitVec 32) (v1180 : BitVec 32) (c4_i32_1018 : BitVec 32) (v1181 : BitVec 1) (c1_i32_1020 : BitVec 32)
    {Q : (Σ' (v1213 : BitVec 32) (c4_i32_1046 : BitVec 32), BitVec 32) → sProp 𝕄} :
    iprop(records m K ∗ levAts L lv ∗ owesX c 6 ∗ cred (tallyAt (rcvCell c 4 (pr c 3)) () Nh)
        ∗ atPos ER (rcvCell c 4 (pr c 3)) 0 ∅ 0)
      ⊢ iprop((∀ r, iprop(owesX c 6 ∗ atPos ER (rcvCell c 4 (pr c 3)) 1 ∅ 0 ∗ pts (F := F) (actsM 2 (pr c 3)) c fullShare (actsB m)
            ∗ pts (F := F) (psM (pr c 3)) c fullShare (psB m 1 c)) -∗ Q r)
          -∗ wp frame (wpE (defs₀ (F := F)) 𝒱₀ (c : Thread nD τ) none) Set.univ (P39 (F := F) c v2 v1180 c4_i32_1018 v1181 c1_i32_1020) Q) := by
  unfold P39 atArgs
  simp only [k0_part39_eq_skeleton, k0_part39_skel, rcv4_p3 c]
  exact rcvR

theorem part40_spec (K : Dev nD × Fin 57 → ℕ) (v2 : BitVec 32) (v1213 : BitVec 32) (c4_i32_1046 : BitVec 32) (c0_i32_1047 : BitVec 32)
    {Q : (PUnit) → sProp 𝕄} :
    iprop(records m K ∗ levAts L lv ∗ owesX c 6 ∗ cred (tallyAt (rcvCell c 4 (pr c 2)) () Nh)
        ∗ atPos ER (rcvCell c 4 (pr c 2)) 0 ∅ 0)
      ⊢ iprop((∀ r, iprop(owesX c 6 ∗ atPos ER (rcvCell c 4 (pr c 2)) 1 ∅ 0 ∗ pts (F := F) (actsM 2 (pr c 2)) c fullShare (actsB m)
            ∗ pts (F := F) (psM (pr c 2)) c fullShare (psB m 1 c)) -∗ Q r)
          -∗ wp frame (wpE (defs₀ (F := F)) 𝒱₀ (c : Thread nD τ) none) Set.univ (P40 (F := F) c v2 v1213 c4_i32_1046 c0_i32_1047) Q) := by
  unfold P40 atArgs
  simp only [k0_part40_eq_skeleton, k0_part40_skel, rcv4_p2 c]
  exact rcvR

theorem part45_spec (K : Dev nD × Fin 57 → ℕ) (v2 : BitVec 32)
    {Q : (Σ' (v1392 : BitVec 32) (c4_i32_1212 : BitVec 32) (v1393 : BitVec 1), BitVec 32) → sProp 𝕄} :
    iprop(records m K ∗ levAts L lv ∗ owesX c 3 ∗ cred (tallyAt (sndCell c 4 2) () Nh) ∗ atPos ER (sndCell c 4 2) 0 ∅ 0
        ∗ cred (tallyAt (sndCell c 4 0) () Nh) ∗ atPos ER (sndCell c 4 0) 0 ∅ 0 ∗ cred (tallyAt (sndCell c 4 1) () Nh)
        ∗ atPos ER (sndCell c 4 1) 0 ∅ 0)
      ⊢ iprop((∀ r, iprop(owesX c 3 ∗ atPos ER (sndCell c 4 2) 1 ∅ 0 ∗ pts (F := F) (actsM 2 c) c (q4 2) (actsB m)
            ∗ atPos ER (sndCell c 4 0) 1 ∅ 0 ∗ pts (F := F) (actsM 2 c) c (q4 0) (actsB m) ∗ atPos ER (sndCell c 4 1) 1 ∅ 0
            ∗ pts (F := F) (actsM 2 c) c (q4 1) (actsB m)) -∗ Q r)
          -∗ wp frame (wpE (defs₀ (F := F)) 𝒱₀ (c : Thread nD τ) none) Set.univ (P45 (F := F) c v2) Q) := by
  unfold P45 atArgs
  simp only [k0_part45_eq_skeleton, k0_part45_skel, snd_4_2, snd_4_0, snd_4_1]
  exact sndStep .rfl (sndStep .rfl sndR)

theorem part46_spec (K : Dev nD × Fin 57 → ℕ) (v2 : BitVec 32) (v1392 : BitVec 32) (c4_i32_1212 : BitVec 32) (v1393 : BitVec 1) (c1_i32_1214 : BitVec 32)
    {Q : (Σ' (v1424 : BitVec 32) (v1425 : BitVec 32), BitVec 1) → sProp 𝕄} :
    iprop(records m K ∗ levAts L lv ∗ owesX c 3 ∗ cred (tallyAt (rcvCell c 5 (pr c 1)) () Nh)
        ∗ atPos ER (rcvCell c 5 (pr c 1)) 0 ∅ 0)
      ⊢ iprop((∀ r, iprop(owesX c 3 ∗ atPos ER (rcvCell c 5 (pr c 1)) 1 ∅ 0 ∗ pts (F := F) (rsM 2 (pr c 1)) c fullShare (rsB m c)
            ∗ pts (F := F) (psM c) (pr c 1) fullShare (psB m 2 (pr c 1))) -∗ Q r)
          -∗ wp frame (wpE (defs₀ (F := F)) 𝒱₀ (c : Thread nD τ) none) Set.univ (P46 (F := F) c v2 v1392 c4_i32_1212 v1393 c1_i32_1214) Q) := by
  unfold P46 atArgs
  simp only [k0_part46_eq_skeleton, k0_part46_skel, rcv5_p1 c]
  exact rcvR

theorem part47_spec (K : Dev nD × Fin 57 → ℕ) (v2 : BitVec 32) (v1424 : BitVec 32) (v1425 : BitVec 32) (v1426 : BitVec 1)
    {Q : (Σ' (v1454 : BitVec 32) (v1455 : BitVec 32) (v1456 : BitVec 1) (v1457 : BitVec 1), BitVec 1) → sProp 𝕄} :
    iprop(records m K ∗ levAts L lv ∗ owesX c 3 ∗ cred (tallyAt (rcvCell c 5 (pr c 3)) () Nh)
        ∗ atPos ER (rcvCell c 5 (pr c 3)) 0 ∅ 0)
      ⊢ iprop((∀ r, iprop(owesX c 3 ∗ atPos ER (rcvCell c 5 (pr c 3)) 1 ∅ 0 ∗ pts (F := F) (rsM 2 (pr c 3)) c fullShare (rsB m c)
            ∗ pts (F := F) (psM c) (pr c 3) fullShare (psB m 2 (pr c 3))) -∗ Q r)
          -∗ wp frame (wpE (defs₀ (F := F)) 𝒱₀ (c : Thread nD τ) none) Set.univ (P47 (F := F) c v2 v1424 v1425 v1426) Q) := by
  unfold P47 atArgs
  simp only [k0_part47_eq_skeleton, k0_part47_skel, rcv5_p3 c]
  exact rcvR

theorem part53_spec (K : Dev nD × Fin 57 → ℕ) (v2 : BitVec 32) (v1627 : BitVec 32) (c4_i32_1387 : BitVec 32) (v1628 : BitVec 1) (c1_i32_1389 : BitVec 32)
    {Q : (Σ' (v1658 : BitVec 32) (v1659 : BitVec 32) (v1660 : BitVec 1) (v1661 : BitVec 1), BitVec 1) → sProp 𝕄} :
    iprop(records m K ∗ levAts L lv ∗ owesX c 0 ∗ cred (tallyAt (rcvCell c 6 (pr c 3)) () Nf)
        ∗ atPos ER (rcvCell c 6 (pr c 3)) 0 ∅ 0)
      ⊢ iprop((∀ r, iprop(owesX c 0 ∗ atPos ER (rcvCell c 6 (pr c 3)) 1 ∅ 0 ∗ pts (F := F) (outM (pr c 3)) c fullShare (outAll m)
            ∗ pts (F := F) (psM (pr c 3)) c fullShare (psB m 2 c)) -∗ Q r)
          -∗ wp frame (wpE (defs₀ (F := F)) 𝒱₀ (c : Thread nD τ) none) Set.univ (P53 (F := F) c v2 v1627 c4_i32_1387 v1628 c1_i32_1389) Q) := by
  unfold P53 atArgs
  simp only [k0_part53_eq_skeleton, k0_part53_skel, rcv6_p3 c]
  exact rcvR

theorem tail_spec (K : Dev nD × Fin 57 → ℕ)
    {hs0 : (rsM 2 c).view.WordExact} {hd0 : (psM (pr c 3)).view.WordExact}
    {hs1 : (rsM 2 c).view.WordExact} {hd1 : (psM (pr c 2)).view.WordExact}
    {hs2 : (outM c).view.WordExact} {hd2 : (stgM).view.WordExact}
    {hs3 : (outM c).view.WordExact} {hd3 : (stgM).view.WordExact}
    {hs4 : (outM c).view.WordExact} {hd4 : (stgM).view.WordExact}
    {Q : PUnit → sProp 𝕄} :
    iprop(records m K ∗ levAts L lv ∗ owesX c 0 ∗ cred (tallyAt (sndCell c 5 2) () Nh) ∗ atPos ER (sndCell c 5 2) 0 ∅ 0
        ∗ cred (tallyAt (sndCell c 5 1) () Nh) ∗ atPos ER (sndCell c 5 1) 0 ∅ 0 ∗ cred (tallyAt (sndCell c 6 2) () Nf)
        ∗ atPos ER (sndCell c 6 2) 0 ∅ 0 ∗ cred (tallyAt (sndCell c 6 0) () Nf) ∗ atPos ER (sndCell c 6 0) 0 ∅ 0
        ∗ cred (tallyAt (sndCell c 6 1) () Nf) ∗ atPos ER (sndCell c 6 1) 0 ∅ 0)
      ⊢ iprop((∀ r, iprop(owesX c 0 ∗ atPos ER (sndCell c 5 2) 1 ∅ 0 ∗ atPos ER (sndCell c 5 1) 1 ∅ 0 ∗ atPos ER (sndCell c 6 2) 1 ∅ 0
            ∗ pts (F := F) stgM c (q4 2) (outBlk m c) ∗ atPos ER (sndCell c 6 0) 1 ∅ 0 ∗ pts (F := F) stgM c (q4 0) (outBlk m c)
            ∗ atPos ER (sndCell c 6 1) 1 ∅ 0 ∗ pts (F := F) stgM c (q4 1) (outBlk m c)) -∗ Q r)
          -∗ wp frame (wpE (defs₀ (F := F)) 𝒱₀ (c : Thread nD τ) none) Set.univ
            (.op (.waitDma2 (sndS 5 2) (rsM 2 c) (psM (pr c 3)) hs0 hd0) fun _ =>
              .op (.waitDma2 (sndS 5 1) (rsM 2 c) (psM (pr c 2)) hs1 hd1) fun _ =>
              .op (.waitDma2 (sndS 6 2) (outM c) (stgM) hs2 hd2) fun _ =>
              .op (.waitDma2 (sndS 6 0) (outM c) (stgM) hs3 hd3) fun _ =>
              .op (.waitDma2 (sndS 6 1) (outM c) (stgM) hs4 hd4) fun _ =>
              .ret ⟨⟩) Q) := by
  exact sndStep emp_sep_elim (sndStep emp_sep_elim (sndStep .rfl (sndStep .rfl sndR)))

end Cert.Kernel.Dist

end
-- ==== Proof.BBodyPM2.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyPW

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem cr_of_eq {κ : Kind} {sp : Space} {s : Shape} {e : EltTy} {M M' : Memref sig κ sp s e} {N : ℕ}
    (h : M = M') (h' : M'.view.dmaCredit = N) : M.view.dmaCredit = N := h ▸ h'

theorem part44_spec (K : Dev nD × Fin 57 → ℕ) {Q : PUnit → sProp 𝕄} :
    iprop(records m K ∗ levAts L lv
        ∗ pts (F := F) (psM (pr c 2)) c fullShare (psB m 2 c)
        ∗ ptsE (F := F) (rsM 2 c) (pr c 2)
        ∗ dutyTok ER (sndCell c 5 1) 0 c
        ∗ dutyTok ER (rcvCell (pr c 2) 5 c) 0 c
        ∗ cred (tallyAt (sndCell c 3 0) () Nh) ∗ atPos ER (sndCell c 3 0) 0 ∅ 0
        ∗ cred (tallyAt (sndCell c 3 2) () Nh) ∗ atPos ER (sndCell c 3 2) 0 ∅ 0
        ∗ cred (tallyAt (sndCell c 3 1) () Nh) ∗ atPos ER (sndCell c 3 1) 0 ∅ 0
        ∗ owesX (F := F) c 4)
      ⊢ iprop((∀ r, iprop(cred (tallyAt (sndCell c 5 1) () Nh)
              ∗ atPos ER (sndCell c 3 0) 1 ∅ 0 ∗ atPos ER (sndCell c 3 2) 1 ∅ 0 ∗ atPos ER (sndCell c 3 1) 1 ∅ 0
              ∗ owesX (F := F) c 3) -∗ Q r)
          -∗ wp frame (wpE (defs₀ (F := F)) 𝒱₀ (c : Thread nD τ) none) Set.univ (P44 (F := F) c) Q) := by
  unfold owesX P44 atArgs
  simp only [k0_part44_eq_skeleton, k0_part44_skel, Prog.lift, Prog.bind_op, Prog.bind_ret, Prog.pure_eq_ret]
  rw [snd_3_0, snd_3_2, snd_3_1]
  iintro ⟨#Hrec, #Hlev, Hs0, He0, Ht0, Hu0, Hc1, Hp1, Hc2, Hp2, Hc3, Hp3, %W, Ho⟩ HQ
  iapply (wp_enq_of c (ps_p2 c) (dev21_eq c) (rs2_own c) (congrArg SemLoc.dma snd_5_1) (congrArg SemLoc.dma (rcv5_own c)))
  iapply (ps_send m K c 2 5 rfl 2 (by omega) (by omega) 1 3 W (rem_rcv c 5 2 2 rfl 3 rfl)) $$ [$]
  iintro ⟨Hc0, Ho⟩
  iapply (snd_wait_N m c K rfl (fun _ => Set.mem_univ _) 3 0 3 (by decide) W Nh (amt_lo 3 (by decide))
      (cr_of_eq (ps_p1 c) (cr_ps (pr c 1)))) $$ [$]
  iintro ⟨Ho, Hp1, -, -⟩
  iapply (snd_wait_N m c K rfl (fun _ => Set.mem_univ _) 3 2 3 (by decide) _ Nh (amt_lo 3 (by decide))
      (cr_of_eq (ps_p3 c) (cr_ps (pr c 3)))) $$ [$]
  iintro ⟨Ho, Hp2, -, -⟩
  iapply (snd_wait_N m c K rfl (fun _ => Set.mem_univ _) 3 1 3 (by decide) _ Nh (amt_lo 3 (by decide))
      (cr_of_eq (ps_p2 c) (cr_ps (pr c 2)))) $$ [$]
  iintro ⟨Ho, Hp3, -, -⟩
  iapply (le_wp_ret _ _)
  iapply HQ
  iframe Hc0 Hp1 Hp2 Hp3
  iexists _
  iexact Ho

theorem part52_spec (K : Dev nD × Fin 57 → ℕ) (v2 : BitVec 32)
    {Q : (Σ' (v1627 : BitVec 32) (c4_i32_1387 : BitVec 32) (v1628 : BitVec 1), BitVec 32) → sProp 𝕄} :
    iprop(records m K ∗ levAts L lv
        ∗ pts (F := F) stgM c (q4 1) (outBlk m c)
        ∗ ptsE (F := F) (outM c) (pr c 2)
        ∗ pts (F := F) (psM c) (pr c 2) fullShare (psB m 2 (pr c 2))
        ∗ dutyTok ER (sndCell c 6 1) 0 c
        ∗ dutyTok ER (rcvCell (pr c 2) 6 c) 0 c
        ∗ cred (tallyAt (rcvCell c 6 (pr c 1)) () Nf) ∗ atPos ER (rcvCell c 6 (pr c 1)) 0 ∅ 0
        ∗ owesX (F := F) c 1)
      ⊢ iprop((∀ r, iprop(cred (tallyAt (sndCell c 6 1) () Nf)
              ∗ atPos ER (rcvCell c 6 (pr c 1)) 1 ∅ 0
              ∗ pts (F := F) (outM (pr c 1)) c fullShare (outAll m) ∗ pts (F := F) (psM (pr c 1)) c fullShare (psB m 2 c)
              ∗ owesX (F := F) c 0) -∗ Q r)
          -∗ wp frame (wpE (defs₀ (F := F)) 𝒱₀ (c : Thread nD τ) none) Set.univ (P52 (F := F) c v2) Q) := by
  unfold owesX P52 atArgs
  simp only [k0_part52_eq_skeleton, k0_part52_skel, Prog.lift, Prog.bind_op, Prog.bind_ret, Prog.pure_eq_ret]
  rw [rcv6_p1 c]
  iintro ⟨#Hrec, #Hlev, Hs0, He0, Hx0, Ht0, Hu0, Hc1, Hp1, %W, Ho⟩ HQ
  iapply (wp_enq_of c rfl (dev24_eq c) (out_own c) (congrArg SemLoc.dma snd_6_1) (congrArg SemLoc.dma (rcv6_own c)))
  iapply (out_send m K c 2 (by omega) (by omega) 1 0 W (rem_rcv c 6 2 2 rfl 0 rfl)) $$ [$Hrec Hs0 $He0 $Hx0 $Ho $Ht0 $Hu0]
  · iexact Hs0
  iintro ⟨Hc0, Ho⟩
  iapply (rcv_wait_N m c K rfl (fun _ => Set.mem_univ _) 6 (pr c 1) (pr_ne c 1 (by omega) (by omega)) 0 (by decide) W Nf amt_six
      (cr_of_eq (out_p1 c) (cr_out (pr c 1)))) $$ [$]
  iintro ⟨Ho, Hp1, -, Hy⟩
  ihave ⟨Hya, Hyb⟩ := (Entails.of_eq (rcvPay_6 m c (pr c 1))) $$ Hy
  iapply (le_wp_ret _ _)
  iapply HQ
  iframe Hc0 Hp1 Hya Hyb
  iexists _
  iexact Ho

end Cert.Kernel.Dist

end
-- ==== Proof.BBodyBox.lean ====
import proofs.«900988_g7700000000000989_dist_mlpseq_tp1d_bs_rep_b64_d1024_h2048_v7x_i4_f32_1_alg».proof.Proof.BBodyVal

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem box_load_set {κ : Kind} (b : Ref sig κ) (R : Rect b.ty.shape) :
    (Memref.whole b : Memref sig κ _ _ _).view.setOn R.toLoadRect.set = R.set := by
  show (View.whole b).setOn _ = _
  ext i; simp only [View.setOn, View.emb_whole, Finset.mem_map, Function.Embedding.refl_apply, exists_eq_right]

theorem actsM_set (l : Fin 3) (s : Dev nD) (inb) :
    (actsM l s).view.set = (Rect.unit (s := S3x256x1024) ![l.val, 64 * s.val, 0] S1x64x1024.size inb).set :=
  (Memref.set_view_squeeze (s' := S64x1024) _ squeezes_S1x64x1024_S64x1024).trans (View.set_slice_whole _ _)
def actL (l : Fin 3) : Vec F S1x256x1024 .bf16 := match l with | 0 => act0 m | 1 => act1 m | 2 => act2 m

theorem actsB_at (l : Fin 3) (i : S3x256x1024.Idx) (h : (i 0).val = l.val) :
    actsB m i = actL m l (ix3 (0 : Fin 1) (i 1) (i 2)) := by
  unfold actsB
  match l, h with
  | 0, h => have h' : (i 0).val = 0 := h; rw [if_pos h']; rfl
  | 1, h => have h' : (i 0).val = 1 := h; rw [if_neg (by omega), if_pos h']; rfl
  | 2, h => have h' : (i 0).val = 2 := h; rw [if_neg (by omega), if_neg (by omega)]; rfl

theorem read_acts_layer (l : Fin 3) (inb) :
    (Memref.whole cc0_scratch0 : Memref sig .tc .vmem S3x256x1024 .bf16).view.readAt (Elt F)
      (Rect.unit (s := S3x256x1024) ![l.val, 0, 0] S1x256x1024.size inb).toLoadRect (actsB m) = actL m l := by
  funext x
  have hx0 : (x 0).val = 0 := by have := (x 0).isLt; change (x 0).val < 1 at this; omega
  show actsB m ((Rect.unit (s := S3x256x1024) ![l.val, 0, 0] S1x256x1024.size inb).emb x) = _
  rw [actsB_at m l _ (by show l.val + 1 * (x 0).val = l.val; omega)]
  congr 1
  funext a
  apply Fin.ext
  revert a
  rw [Fin.forall_fin_succ, Fin.forall_fin_two]
  refine ⟨?_, ?_, ?_⟩
  · show 0 = (x 0).val; omega
  · show 0 + 1 * (x 1).val = (x 1).val; omega
  · show 0 + 1 * (x 2).val = (x 2).val; omega

def layerSet (l : Fin 3) : Finset S3x256x1024.Idx := Finset.univ.biUnion fun s : Dev nD => (actsM l s).view.set

theorem layer_ring (c : Dev nD) (l : Fin 3) (q : PosShare TreeShare) (f : Vec F S3x256x1024 .bf16) :
    (((c : Thread nD τ).loc cc0_scratch0) ↦[layerSet l]{q} f : sProp 𝕄)
      = iprop(pts (F := F) (actsM l c) c q f ∗ pts (F := F) (actsM l (pr c 1)) c q f ∗ pts (F := F) (actsM l (pr c 2)) c q f ∗ pts (F := F) (actsM l (pr c 3)) c q f) := by
  refine (pointsTo_biUnion (ℓ := (c : Thread nD τ).loc cc0_scratch0) Finset.univ (fun s : Dev nD => (actsM l s).view.set) (fun t _ t' _ hne => Finset.disjoint_left.mpr fun i hi hi' =>
    hne (((mem_actsM_set l t i).mp hi).2.symm.trans ((mem_actsM_set l t' i).mp hi').2))).trans ?_
  rw [bigSep_ring c]; rfl

theorem layer_box (l : Fin 3) (inb) :
    (Memref.whole cc0_scratch0 : Memref sig .tc .vmem S3x256x1024 .bf16).view.setOn
      (Rect.unit (s := S3x256x1024) ![l.val, 0, 0] S1x256x1024.size inb).toLoadRect.set ⊆ layerSet l := by
  rw [box_load_set]
  intro i hi
  have H0 := (Rect.mem_set_unit.mp hi) 0
  change l.val ≤ (i 0).val ∧ (i 0).val < l.val + 1 at H0
  exact Finset.mem_biUnion.mpr ⟨rowDev (i 1), Finset.mem_univ _, (mem_actsM_set l _ i).mpr ⟨Fin.ext (by omega), rfl⟩⟩

section Steps
variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

/-- The peers' full shares are quartered so that one layer is read at a single share, then joined again. -/
theorem wp_acts_loadB (c : Dev nD) (l : Fin 3)
    {inb : ∀ a, (![l.val, 0, 0] : Fin 3 → Nat) a + S1x256x1024.size a ≤ S3x256x1024.size a}
    {hl : (Memref.whole cc0_scratch0 : Memref sig .tc .vmem S3x256x1024 .bf16).view.LoadsAt (Rect.unit (s := S3x256x1024) ![l.val, 0, 0] S1x256x1024.size inb).toLoadRect}
    {k : Vec F S1x256x1024 .bf16 → Prog (TpuEff nD τ sig (Elt F) Λ₀ .tc) α} :
    iprop(pts (F := F) (actsM l c) c (q4 3) (actsB m) ∗ pts (F := F) (actsM l (pr c 1)) c fullShare (actsB m) ∗ pts (F := F) (actsM l (pr c 2)) c fullShare (actsB m) ∗ pts (F := F) (actsM l (pr c 3)) c fullShare (actsB m))
      ⊢ iprop((iprop(pts (F := F) (actsM l c) c (q4 3) (actsB m) ∗ pts (F := F) (actsM l (pr c 1)) c fullShare (actsB m) ∗ pts (F := F) (actsM l (pr c 2)) c fullShare (actsB m) ∗ pts (F := F) (actsM l (pr c 3)) c fullShare (actsB m))
            -∗ wp frame (wpE' defs 𝒱 (c : Thread nD τ) bd Γ) E (k (actL m l)) Q)
          -∗ wp frame (wpE' defs 𝒱 (c : Thread nD τ) bd Γ) E
              (.op (.load (Memref.whole cc0_scratch0) (Rect.unit (s := S3x256x1024) ![l.val, 0, 0] S1x256x1024.size inb).toLoadRect hl) k) Q) := by
  rw [← read_acts_layer m l inb]
  iintro ⟨H0, H1, H2, H3⟩ Hk
  icases (pts_quarters (actsM l (pr c 1)) c (actsB m)).1 $$ H1 with ⟨H1a, H1b, H1c, H1d⟩
  icases (pts_quarters (actsM l (pr c 2)) c (actsB m)).1 $$ H2 with ⟨H2a, H2b, H2c, H2d⟩
  icases (pts_quarters (actsM l (pr c 3)) c (actsB m)).1 $$ H3 with ⟨H3a, H3b, H3c, H3d⟩
  ihave HL := (Entails.of_eq (layer_ring c l (q4 3) (actsB m)).symm) $$ [$]
  iapply (wp_load 𝒱 (c : Thread nD τ) bd E (m := (Memref.whole cc0_scratch0 : Memref sig .tc .vmem S3x256x1024 .bf16))
    (r := (Rect.unit (s := S3x256x1024) ![l.val, 0, 0] S1x256x1024.size inb).toLoadRect) (S := layerSet l) (layer_box l inb)) $$ HL
  iintro HL
  icases (Entails.of_eq (layer_ring c l (q4 3) (actsB m))) $$ HL with ⟨H0, H1d, H2d, H3d⟩
  ihave H1 := (pts_quarters (actsM l (pr c 1)) c (actsB m)).2 $$ [$]
  ihave H2 := (pts_quarters (actsM l (pr c 2)) c (actsB m)).2 $$ [$]
  ihave H3 := (pts_quarters (actsM l (pr c 3)) c (actsB m)).2 $$ [$]
  iapply Hk
  iframe
end Steps

theorem pr_ne_pr (c : Dev nD) : pr c 1 ≠ c ∧ pr c 2 ≠ c ∧ pr c 3 ≠ c ∧ pr c 2 ≠ pr c 1 ∧ pr c 3 ≠ pr c 1 ∧ pr c 3 ≠ pr c 2 := by
  revert c; decide

def psJoin (c : Dev nD) (f0 f1 f2 f3 : Vec F S256x1024 .bf16) : Vec F S256x1024 .bf16 := fun i =>
  if rowDev (i 0) = c then f0 i else if rowDev (i 0) = pr c 1 then f1 i else if rowDev (i 0) = pr c 2 then f2 i else f3 i

/-- On the rows of device `s` the joined buffer may stand for any buffer that agrees with it there. -/
private theorem psJoin_at (c s : Dev nD) (q : PosShare TreeShare) (g f0 f1 f2 f3 : Vec F S256x1024 .bf16)
    (h : ∀ i, rowDev (i 0) = s → g i = psJoin c f0 f1 f2 f3 i) :
    pts (F := F) (psM s) c q g = pts (F := F) (psM s) c q (psJoin c f0 f1 f2 f3) := by
  unfold pts; exact pointsTo_congr fun i hi => h i ((mem_psM_set s i).mp hi)

theorem psJoin_0 (c : Dev nD) (q : PosShare TreeShare) (f0 f1 f2 f3 : Vec F S256x1024 .bf16) :
    pts (F := F) (psM c) c q f0 = pts (F := F) (psM c) c q (psJoin c f0 f1 f2 f3) :=
  psJoin_at c c q f0 f0 f1 f2 f3 fun i h => by unfold psJoin; rw [h, if_pos rfl]
theorem psJoin_1 (c : Dev nD) (q : PosShare TreeShare) (f0 f1 f2 f3 : Vec F S256x1024 .bf16) :
    pts (F := F) (psM (pr c 1)) c q f1 = pts (F := F) (psM (pr c 1)) c q (psJoin c f0 f1 f2 f3) :=
  psJoin_at c _ q f1 f0 f1 f2 f3 fun i h => by unfold psJoin; rw [h, if_neg (pr_ne_pr c).1, if_pos rfl]
theorem psJoin_2 (c : Dev nD) (q : PosShare TreeShare) (f0 f1 f2 f3 : Vec F S256x1024 .bf16) :
    pts (F := F) (psM (pr c 2)) c q f2 = pts (F := F) (psM (pr c 2)) c q (psJoin c f0 f1 f2 f3) :=
  psJoin_at c _ q f2 f0 f1 f2 f3 fun i h => by unfold psJoin; rw [h, if_neg (pr_ne_pr c).2.1, if_neg (pr_ne_pr c).2.2.2.1, if_pos rfl]
theorem psJoin_3 (c : Dev nD) (q : PosShare TreeShare) (f0 f1 f2 f3 : Vec F S256x1024 .bf16) :
    pts (F := F) (psM (pr c 3)) c q f3 = pts (F := F) (psM (pr c 3)) c q (psJoin c f0 f1 f2 f3) :=
  psJoin_at c _ q f3 f0 f1 f2 f3 fun i h => by
    unfold psJoin; rw [h, if_neg (pr_ne_pr c).2.2.1, if_neg (pr_ne_pr c).2.2.2.2.1, if_neg (pr_ne_pr c).2.2.2.2.2]

end Cert.Kernel.Dist

end
-- ==== Proof.BBodyPV.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodyLocal
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyBox
import proofs.«900988_g7700000000000989_dist_mlpseq_tp1d_bs_rep_b64_d1024_h2048_v7x_i4_f32_1_alg».proof.Proof.BBodyWb

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

theorem pv_amt_lo (p : Fin 7) (h : p.val ≠ 6) : amt p = Nh := if_neg h
private theorem pv_cr (l : Fin 3) (s : Dev nD) (p : Fin 7) (h : p.val ≠ 6) : (actsM l s).view.dmaCredit = amt p := (pv_amt_lo p h).symm
theorem pv_ptsE {sp : Space} {s : Shape} {e : EltTy} (M : Memref sig .tc sp s e) (d : Dev nD) :
    ptsE (F := F) M d = iprop(∃ f, pts (F := F) M d fullShare f) := rfl
theorem pv_rcvPay_0 (s : Dev nD) : rcvPay m c 0 s = pts (F := F) (actsM 0 s) c fullShare (actsB m) := rfl
theorem pv_rcvPay_2 (s : Dev nD) : rcvPay m c 2 s = iprop(pts (F := F) (actsM 1 s) c fullShare (actsB m) ∗ pts (F := F) (psM s) c fullShare (psB m 0 c)) := rfl

theorem part10_spec (K : Dev nD × Fin 57 → ℕ) (v2 : BitVec 32) {Q : BitVec 32 → sProp 𝕄} :
    iprop(records m K ∗ levAts L lv ∗ cred (tallyAt (rcvCell c 0 (pr c 2)) () Nh) ∗ atPos ER (rcvCell c 0 (pr c 2)) 0 ∅ 0 ∗ owesX c 18
        ∗ pts (F := F) (actsM 0 c) c (q4 3) (actsB m) ∗ pts (F := F) (actsM 0 (pr c 1)) c fullShare (actsB m) ∗ pts (F := F) (actsM 0 (pr c 3)) c fullShare (actsB m)
        ∗ ptsE (F := F) (psM c) c ∗ ptsE (F := F) (psM (pr c 1)) c ∗ ptsE (F := F) (psM (pr c 2)) c ∗ ptsE (F := F) (psM (pr c 3)) c)
      ⊢ iprop((∀ r, iprop(owesX c 18 ∗ atPos ER (rcvCell c 0 (pr c 2)) 1 ∅ 0
            ∗ pts (F := F) (actsM 0 c) c (q4 3) (actsB m) ∗ pts (F := F) (actsM 0 (pr c 1)) c fullShare (actsB m) ∗ pts (F := F) (actsM 0 (pr c 2)) c fullShare (actsB m) ∗ pts (F := F) (actsM 0 (pr c 3)) c fullShare (actsB m)
            ∗ pts (F := F) (psM c) c fullShare (psB m 0 c) ∗ pts (F := F) (psM (pr c 1)) c fullShare (psB m 0 c) ∗ pts (F := F) (psM (pr c 2)) c fullShare (psB m 0 c) ∗ pts (F := F) (psM (pr c 3)) c fullShare (psB m 0 c)) -∗ Q r)
          -∗ wp frame (wpE (defs₀ (F := F)) 𝒱₀ (c : Thread nD τ) none) Set.univ (P10 (F := F) c v2 (wb1 m 0 c) (wb2 m 0 c)) Q) := by
  unfold owesX P10 atArgs
  rw [k0_part10_eq_skeleton]
  unfold k0_part10_skel
  simp only [Prog.lift, Prog.bind_op, Prog.bind_ret, Prog.pure_eq_ret]
  rw [rcv0_p2 c]
  simp only [acts0_p2 c]
  rw [← pv_amt_lo 0 (by decide)]
  iintro ⟨#Hrec, #Hlev, Hc0, Hp0, ⟨%W, Ho⟩, A0, A1, A3, E0, E1, E2, E3⟩ HQ
  iapply (rcv_wait m K c rfl (fun _ => Set.mem_univ _) 0 (pr c 2) (pr_ne c 2 (by omega) (by omega)) 18 (by decide) W (pv_cr 0 (pr c 2) 0 (by decide))) $$ [$]
  iintro ⟨Ho, Hp0, -, Hy0⟩
  ihave A2 := (Entails.of_eq (pv_rcvPay_0 m c (pr c 2))) $$ Hy0
  iapply (wp_acts_loadB m 𝒱₀ none Set.univ c 0) $$ [$]
  iintro ⟨A0, A1, A2, A3⟩
  icases (Entails.of_eq (pv_ptsE (psM c) c)) $$ E0 with ⟨%f0, E0⟩
  icases (Entails.of_eq (pv_ptsE (psM (pr c 1)) c)) $$ E1 with ⟨%f1, E1⟩
  icases (Entails.of_eq (pv_ptsE (psM (pr c 2)) c)) $$ E2 with ⟨%f2, E2⟩
  icases (Entails.of_eq (pv_ptsE (psM (pr c 3)) c)) $$ E3 with ⟨%f3, E3⟩
  ihave S0 := (Entails.of_eq (psJoin_0 c fullShare f0 f1 f2 f3)) $$ E0
  ihave S1 := (Entails.of_eq (psJoin_1 c fullShare f0 f1 f2 f3)) $$ E1
  ihave S2 := (Entails.of_eq (psJoin_2 c fullShare f0 f1 f2 f3)) $$ E2
  ihave S3 := (Entails.of_eq (psJoin_3 c fullShare f0 f1 f2 f3)) $$ E3
  iapply (wp_ps_store 𝒱₀ none Set.univ c (psJoin c f0 f1 f2 f3) (psB m 0 c)) $$ [$]
  iintro ⟨S0, S1, S2, S3⟩
  iapply (le_wp_ret _ _ _ _ Q)
  iapply HQ
  isplitl [Ho]; · iexists _; iexact Ho
  iframe

theorem part25_spec (K : Dev nD × Fin 57 → ℕ) (v2 : BitVec 32) {Q : (Σ' (v777 : BitVec 32) (v778 : BitVec 32) (v779 : BitVec 1), BitVec 32) → sProp 𝕄} :
    iprop(records m K ∗ levAts L lv ∗ cred (tallyAt (rcvCell c 2 (pr c 2)) () Nh) ∗ atPos ER (rcvCell c 2 (pr c 2)) 0 ∅ 0 ∗ owesX c 12
        ∗ pts (F := F) (actsM 1 c) c (q4 3) (actsB m) ∗ pts (F := F) (actsM 1 (pr c 1)) c fullShare (actsB m) ∗ pts (F := F) (actsM 1 (pr c 3)) c fullShare (actsB m)
        ∗ pts (F := F) (psM c) c fullShare (psB m 0 c) ∗ pts (F := F) (psM (pr c 1)) c fullShare (psB m 0 c) ∗ pts (F := F) (psM (pr c 3)) c fullShare (psB m 0 c))
      ⊢ iprop((∀ r, iprop(owesX c 12 ∗ atPos ER (rcvCell c 2 (pr c 2)) 1 ∅ 0
            ∗ pts (F := F) (actsM 1 c) c (q4 3) (actsB m) ∗ pts (F := F) (actsM 1 (pr c 1)) c fullShare (actsB m) ∗ pts (F := F) (actsM 1 (pr c 2)) c fullShare (actsB m) ∗ pts (F := F) (actsM 1 (pr c 3)) c fullShare (actsB m)
            ∗ pts (F := F) (psM c) c fullShare (psB m 1 c) ∗ pts (F := F) (psM (pr c 1)) c fullShare (psB m 1 c) ∗ pts (F := F) (psM (pr c 2)) c fullShare (psB m 1 c) ∗ pts (F := F) (psM (pr c 3)) c fullShare (psB m 1 c)) -∗ Q r)
          -∗ wp frame (wpE (defs₀ (F := F)) 𝒱₀ (c : Thread nD τ) none) Set.univ (P25 (F := F) c v2 (wb1 m 1 c) (wb2 m 1 c)) Q) := by
  unfold owesX P25 atArgs
  rw [k0_part25_eq_skeleton]
  unfold k0_part25_skel
  simp only [Prog.lift, Prog.bind_op, Prog.bind_ret, Prog.pure_eq_ret]
  rw [rcv2_p2 c]
  simp only [acts1_p2 c]
  rw [← pv_amt_lo 2 (by decide)]
  iintro ⟨#Hrec, #Hlev, Hc0, Hp0, ⟨%W, Ho⟩, A0, A1, A3, S0, S1, S3⟩ HQ
  iapply (rcv_wait m K c rfl (fun _ => Set.mem_univ _) 2 (pr c 2) (pr_ne c 2 (by omega) (by omega)) 12 (by decide) W (pv_cr 1 (pr c 2) 2 (by decide))) $$ [$]
  iintro ⟨Ho, Hp0, -, Hy0⟩
  icases (Entails.of_eq (pv_rcvPay_2 m c (pr c 2))) $$ Hy0 with ⟨A2, S2⟩
  iapply (wp_acts_loadB m 𝒱₀ none Set.univ c 1) $$ [$]
  iintro ⟨A0, A1, A2, A3⟩
  iapply (wp_ps_store 𝒱₀ none Set.univ c (psB m 0 c) (psB m 1 c)) $$ [$]
  iintro ⟨S0, S1, S2, S3⟩
  iapply (le_wp_ret _ _ _ _ Q)
  iapply HQ
  isplitl [Ho]; · iexists _; iexact Ho
  iframe

theorem part41_spec (K : Dev nD × Fin 57 → ℕ) (v2 : BitVec 32) {Q : BitVec 32 → sProp 𝕄} :
    iprop(records m K ∗ levAts L lv
        ∗ pts (F := F) (actsM 2 c) c (q4 3) (actsB m) ∗ pts (F := F) (actsM 2 (pr c 1)) c fullShare (actsB m) ∗ pts (F := F) (actsM 2 (pr c 2)) c fullShare (actsB m) ∗ pts (F := F) (actsM 2 (pr c 3)) c fullShare (actsB m)
        ∗ pts (F := F) (psM c) c fullShare (psB m 1 c) ∗ pts (F := F) (psM (pr c 1)) c fullShare (psB m 1 c) ∗ pts (F := F) (psM (pr c 2)) c fullShare (psB m 1 c) ∗ pts (F := F) (psM (pr c 3)) c fullShare (psB m 1 c))
      ⊢ iprop((∀ r, iprop(pts (F := F) (actsM 2 c) c (q4 3) (actsB m) ∗ pts (F := F) (actsM 2 (pr c 1)) c fullShare (actsB m) ∗ pts (F := F) (actsM 2 (pr c 2)) c fullShare (actsB m) ∗ pts (F := F) (actsM 2 (pr c 3)) c fullShare (actsB m)
            ∗ pts (F := F) (psM c) c fullShare (psB m 2 c) ∗ pts (F := F) (psM (pr c 1)) c fullShare (psB m 2 c) ∗ pts (F := F) (psM (pr c 2)) c fullShare (psB m 2 c) ∗ pts (F := F) (psM (pr c 3)) c fullShare (psB m 2 c)) -∗ Q r)
          -∗ wp frame (wpE (defs₀ (F := F)) 𝒱₀ (c : Thread nD τ) none) Set.univ (P41 (F := F) v2 (wb1 m 2 c) (wb2 m 2 c)) Q) := by
  unfold P41 atArgs
  rw [k0_part41_eq_skeleton]
  unfold k0_part41_skel
  simp only [Prog.lift, Prog.bind_op, Prog.bind_ret, Prog.pure_eq_ret]
  iintro ⟨#Hrec, #Hlev, A0, A1, A2, A3, S0, S1, S2, S3⟩ HQ
  iapply (wp_acts_loadB m 𝒱₀ none Set.univ c 2) $$ [$]
  iintro ⟨A0, A1, A2, A3⟩
  iapply (wp_ps_store 𝒱₀ none Set.univ c (psB m 1 c) (psB m 2 c)) $$ [$]
  iintro ⟨S0, S1, S2, S3⟩
  iapply (le_wp_ret _ _ _ _ Q)
  iapply HQ
  iframe

end Cert.Kernel.Dist

end
-- ==== Proof.BBodyPL.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

theorem rs_credit (l : Fin 3) (s : Dev nD) : (rsM l s).view.dmaCredit = Nh := by revert l s; decide +kernel

section Loads

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

theorem wp_rs_load (l : Fin 3) (s : Dev nD) (q : PosShare TreeShare) {off : Fin 4 → Nat} (h : off = ![l.val, s.val, 0, 0])
    (p : ∀ a, off a + S1x1x64x1024.size a ≤ S3x4x64x1024.size a)
    {hl : (Memref.whole cc0_scratch1 : Memref sig .tc .vmem S3x4x64x1024 .bf16).view.LoadsAt (Rect.unit (s := S3x4x64x1024) off S1x1x64x1024.size p).toLoadRect}
    {k : Vec F S1x1x64x1024 .bf16 → Prog (TpuEff nD τ sig (Elt F) Λ₀ .tc) α} :
    pts (F := F) (rsM l s) c q (rsB m c)
      ⊢ iprop((pts (F := F) (rsM l s) c q (rsB m c) -∗ wp frame (wpE' defs 𝒱 (c : Thread nD τ) bd Γ) E (k (rsBlk (psB m l s) c)) Q)
          -∗ wp frame (wpE' defs 𝒱 (c : Thread nD τ) bd Γ) E
              (.op (.load (Memref.whole cc0_scratch1) (Rect.unit (s := S3x4x64x1024) off S1x1x64x1024.size p).toLoadRect hl) k) Q) := by
  subst h
  refine (wp_load (defs := defs) 𝒱 (c : Thread nD τ) bd (Γ := Γ) E (Q := Q) (hl := hl) (k := k) (S := (rsM l s).view.set) (q := q) (f := rsB m c)
    (by rw [show (rsM l s).view.set = _ from (Memref.set_view_squeeze (s' := S64x1024) _ squeezes_S1x1x64x1024_S64x1024).trans (View.set_slice_whole _ _)]
        show Finset.map (Function.Embedding.refl _) _ ⊆ _; rw [Finset.map_refl])).trans (wand_mono_left (Entails.of_eq ?_))
  congr 4
  funext x
  have key : ∀ i : S3x4x64x1024.Idx, (i 0 : Fin 3) = l → (i 1 : Fin 4) = s → ∀ (x2 : Fin 64) (x3 : Fin 1024), (i 2 : Fin 64) = x2 → (i 3 : Fin 1024) = x3 →
      rsB m c i = psB m l s (ix2 (row64 c x2) x3) := fun i h0 h1 x2 x3 h2 h3 => by
    show psB m (i 0) (i 1) (ix2 (row64 c (i 2)) (i 3)) = _
    rw [h0, h1, h2, h3]
  have hx0 : (x 0).val < 1 := (x 0).isLt
  have hx1 : (x 1).val < 1 := (x 1).isLt
  rw [View.readAt_apply, View.read_apply]
  exact (key _ (Fin.ext (by show l.val + 1 * (x 0).val = l.val; omega)) (Fin.ext (by show s.val + 1 * (x 1).val = s.val; omega))
    (x 2) (x 3) (Fin.ext (by show 0 + 1 * (x 2).val = (x 2).val; omega)) (Fin.ext (by show 0 + 1 * (x 3).val = (x 3).val; omega))).symm

theorem wp_ps_own_load (q : PosShare TreeShare) (f : Vec F S256x1024 .bf16) {off : Fin 2 → Nat} (h : off = ![64 * c.val, 0]) (p) {hl}
    {k : Vec F S64x1024 .bf16 → Prog (TpuEff nD τ sig (Elt F) Λ₀ .tc) α} :
    pts (F := F) (psM c) c q f
      ⊢ iprop((pts (F := F) (psM c) c q f -∗ wp frame (wpE' defs 𝒱 (c : Thread nD τ) bd Γ) E (k (ownRows f c)) Q)
          -∗ wp frame (wpE' defs 𝒱 (c : Thread nD τ) bd Γ) E
              (.op (.load (Memref.whole cc0_scratch2 : Memref sig .tc .vmem S256x1024 .bf16) (Rect.unit (s := S256x1024) off S64x1024.size p).toLoadRect hl) k) Q) := by
  subst h
  refine (wp_load (defs := defs) 𝒱 (c : Thread nD τ) bd (Γ := Γ) E (Q := Q) (hl := hl) (k := k) (S := (psM c).view.set) (q := q) (f := f)
    (by rw [show (psM c).view.set = _ from View.set_slice_whole _ _]; show Finset.map (Function.Embedding.refl _) _ ⊆ _; rw [Finset.map_refl])).trans
    (wand_mono_left (Entails.of_eq ?_))
  congr 4
  funext x
  have key : ∀ (i : S256x1024.Idx) (r : Fin 256) (n : Fin 1024), (i 0 : Fin 256) = r → (i 1 : Fin 1024) = n → f i = f (ix2 r n) := fun i r n h0 h1 => by
    subst h0 h1; exact congrArg f (eq_ix2 i)
  rw [View.readAt_apply, View.read_apply]
  exact (key _ (row64 c (x 0)) (x 1) (Fin.ext (by show 64 * c.val + 1 * (x 0).val = 64 * c.val + (x 0).val; omega))
    (Fin.ext (by show 0 + 1 * (x 1).val = (x 1).val; omega))).symm

theorem acts_set (l : Fin 3) (s : Dev nD) :
    (actsM l s).view.set = (Rect.unit (s := S3x256x1024) ![l.val, 64 * s.val, 0] S1x64x1024.size (acts_inb l s)).set :=
  (Memref.set_view_squeeze (s' := S64x1024) _ squeezes_S1x64x1024_S64x1024).trans (View.set_slice_whole _ _)

theorem wp_layer_own_load (l : Fin 3) (q : PosShare TreeShare) (g : Vec F S3x256x1024 .bf16)
    {off3 : Fin 3 → Nat} (h3 : off3 = ![l.val, 0, 0]) (p3) {off : Fin 2 → Nat} (h : off = ![64 * c.val, 0]) (p) {hl}
    {k : Vec F S64x1024 .bf16 → Prog (TpuEff nD τ sig (Elt F) Λ₀ .tc) α} :
    pts (F := F) (actsM l c) c q g
      ⊢ iprop((∀ v, pts (F := F) (actsM l c) c q g -∗ wp frame (wpE' defs 𝒱 (c : Thread nD τ) bd Γ) E (k v) Q)
          -∗ wp frame (wpE' defs 𝒱 (c : Thread nD τ) bd Γ) E
              (.op (.load (((Memref.whole cc0_scratch0 : Memref sig .tc .vmem S3x256x1024 .bf16).slice (Rect.unit (s := S3x256x1024) off3 S1x256x1024.size p3) (fun _ => rfl)).squeeze S256x1024 squeezes_S1x256x1024_S256x1024)
                (Rect.unit (s := S256x1024) off S64x1024.size p).toLoadRect hl) k) Q) := by
  subst h3 h
  refine (wp_load (defs := defs) 𝒱 (c : Thread nD τ) bd (Γ := Γ) E (Q := Q) (hl := hl) (k := k) (S := (actsM l c).view.set) (q := q) (f := g) ?_).trans
    (wand_mono_left (forall_elim _))
  intro i hi
  obtain ⟨j, hj, rfl⟩ := Finset.mem_map.mp hi
  rw [acts_set]
  have hj0 : 64 * c.val ≤ (j 0).val ∧ (j 0).val < 64 * c.val + 64 := Rect.mem_set_unit.mp hj 0
  have hj1 : 0 ≤ (j 1).val ∧ (j 1).val < 0 + 1024 := Rect.mem_set_unit.mp hj 1
  refine Rect.mem_set_unit.mpr ?_
  intro a
  show (![l.val, 64 * c.val, 0] : Fin 3 → Nat) a ≤ ((Rect.unit (s := S3x256x1024) ![l.val, 0, 0] S1x256x1024.size p3).emb (Shape.reshapeEquiv (squeezes_S1x256x1024_S256x1024).numel_eq j) a : Nat)
    ∧ ((Rect.unit (s := S3x256x1024) ![l.val, 0, 0] S1x256x1024.size p3).emb (Shape.reshapeEquiv (squeezes_S1x256x1024_S256x1024).numel_eq j) a : Nat) < (![l.val, 64 * c.val, 0] : Fin 3 → Nat) a + S1x64x1024.size a
  rw [Shape.reshapeEquiv_cons_one (n := 2) (d := ![256, 1024])]
  match a with
  | ⟨0, _⟩ => show l.val ≤ l.val + 1 * 0 ∧ l.val + 1 * 0 < l.val + 1; omega
  | ⟨1, _⟩ => show 64 * c.val ≤ 0 + 1 * (j 0).val ∧ 0 + 1 * (j 0).val < 64 * c.val + 64; omega
  | ⟨2, _⟩ => show 0 ≤ 0 + 1 * (j 1).val ∧ 0 + 1 * (j 1).val < 0 + 1024; omega

theorem row64_dev (r : Fin 64) : rowDev (row64 c r) = c :=
  Fin.ext (by show (64 * c.val + r.val) / 64 = c.val; have := r.isLt; omega)
theorem row64_in (r : Fin 64) : rowIn (row64 c r) = r :=
  Fin.ext (by show (64 * c.val + r.val) % 64 = r.val; have := r.isLt; omega)
theorem ix3_one (x : S1x64x1024.Idx) : ix3 (0 : Fin 1) (x 1) (x 2) = x :=
  (congrArg (fun a : Fin 1 => ix3 a (x 1) (x 2)) (Subsingleton.elim (0 : Fin 1) (x 0))).trans (eq_ix3 x).symm
theorem actsB_at1 (x : S1x64x1024.Idx) (i : S3x256x1024.Idx) (h0 : (i 0 : Fin 3) = (1 : Fin 3)) (h1 : (i 1 : Fin 256) = row64 c (x 1))
    (h2 : (i 2 : Fin 1024) = x 2) : actsB m i = blk1 m c x := by
  have hv : (i 0).val = 1 := congrArg Fin.val h0
  unfold actsB
  rw [if_neg (by omega), if_pos hv]
  show blk1 m (rowDev (i 1)) (ix3 (0 : Fin 1) (rowIn (i 1)) (i 2)) = _
  rw [h1, h2, row64_dev c (x 1), row64_in c (x 1)]
  exact congrArg (blk1 m c) (ix3_one x)
theorem actsB_at2 (x : S1x64x1024.Idx) (i : S3x256x1024.Idx) (h0 : (i 0 : Fin 3) = (2 : Fin 3)) (h1 : (i 1 : Fin 256) = row64 c (x 1))
    (h2 : (i 2 : Fin 1024) = x 2) : actsB m i = blk2 m c x := by
  have hv : (i 0).val = 2 := congrArg Fin.val h0
  unfold actsB
  rw [if_neg (by omega), if_neg (by omega)]
  show blk2 m (rowDev (i 1)) (ix3 (0 : Fin 1) (rowIn (i 1)) (i 2)) = _
  rw [h1, h2, row64_dev c (x 1), row64_in c (x 1)]
  exact congrArg (blk2 m c) (ix3_one x)

theorem wp_acts_own_store (l : Fin 3) (g f' : Vec F S3x256x1024 .bf16) (w : Vec F S1x64x1024 .bf16)
    {off : Fin 3 → Nat} (h : off = ![l.val, 64 * c.val, 0]) (p : ∀ a, off a + S1x64x1024.size a ≤ S3x256x1024.size a)
    (hw : ∀ (x : S1x64x1024.Idx) (i : S3x256x1024.Idx), (i 0 : Fin 3) = l → (i 1 : Fin 256) = row64 c (x 1) → (i 2 : Fin 1024) = x 2 → f' i = w x)
    {hx : ((Memref.whole cc0_scratch0 : Memref sig .tc .vmem S3x256x1024 .bf16).access (Rect.unit (s := S3x256x1024) off S1x64x1024.size p)).Stores Finset.univ}
    {hm : (Finset.univ : Finset (Rect.unit (s := S3x256x1024) off S1x64x1024.size p).shape.Idx) = Finset.univ ∨ ∀ a, (Rect.unit (s := S3x256x1024) off S1x64x1024.size p).stride a = 1}
    {k : PUnit → Prog (TpuEff nD τ sig (Elt F) Λ₀ .tc) α} :
    pts (F := F) (actsM l c) c fullShare g
      ⊢ iprop((pts (F := F) (actsM l c) c fullShare f' -∗ wp frame (wpE' defs 𝒱 (c : Thread nD τ) bd Γ) E (k ⟨⟩) Q)
          -∗ wp frame (wpE' defs 𝒱 (c : Thread nD τ) bd Γ) E
              (.op (.store (Memref.whole cc0_scratch0) (Rect.unit (s := S3x256x1024) off S1x64x1024.size p) w Finset.univ hx hm) k) Q) := by
  subst h
  have hset : ((Memref.whole cc0_scratch0 : Memref sig .tc .vmem S3x256x1024 .bf16).access (Rect.unit (s := S3x256x1024) ![l.val, 64 * c.val, 0] S1x64x1024.size p)).set
      = (actsM l c).view.set := by
    rw [acts_set]; exact View.set_slice_whole _ _
  refine (wp_store (defs := defs) 𝒱 (c : Thread nD τ) bd (Γ := Γ) E (Q := Q) (w := w) (hx := hx) (hm := hm) (k := k) (f := g) (S := (actsM l c).view.set)
    (hset ▸ Finset.Subset.refl _)).trans (wand_mono_left (wand_mono_left (Entails.of_eq (pointsTo_congr fun i hi => ?_))))
  rw [← hset] at hi
  obtain ⟨x, -, rfl⟩ := Finset.mem_map.mp hi
  have hx0 : (x 0).val < 1 := (x 0).isLt
  exact (View.write_emb_of_mem _ _ (Finset.mem_univ x)).trans
    (hw x _ (Fin.ext (by show l.val + 1 * (x 0).val = l.val; omega))
      (Fin.ext (by show 64 * c.val + 1 * (x 1).val = 64 * c.val + (x 1).val; omega))
      (Fin.ext (by show 0 + 1 * (x 2).val = (x 2).val; omega))).symm

theorem ptsE_elim {sp : Space} {s : Shape} {e : EltTy} (M : Memref sig .tc sp s e) (d : Dev nD) :
    ptsE (F := F) M d ⊢ iprop(∃ f, pts (F := F) M d fullShare f) := Entails.of_eq rfl

end Loads

theorem part17_spec (K : Dev nD × Fin 57 → ℕ) (v2 v484 c4 : BitVec 32) (v485 : BitVec 1) (c1 : BitVec 32) {Q : _ → sProp 𝕄} :
    iprop(records m K ∗ levAts L lv ∗ cred (tallyAt (rcvCell c 1 (pr c 2)) () Nh) ∗ atPos ER (rcvCell c 1 (pr c 2)) 0 ∅ 0 ∗ owesX c 15
        ∗ pts (F := F) (psM c) c fullShare (psB m 0 c))
      ⊢ iprop((∀ r, iprop(owesX c 15 ∗ atPos ER (rcvCell c 1 (pr c 2)) 1 ∅ 0
              ∗ pts (F := F) (rsM 0 (pr c 2)) c fullShare (rsB m c) ∗ pts (F := F) (psM c) (pr c 2) fullShare (psB m 0 (pr c 2))
              ∗ pts (F := F) (psM c) c fullShare (psB m 0 c)
              ∗ ⌜r.1 = k0_pay9 (ownRows (psB m 0 c) c)⌝) -∗ Q r)
          -∗ wp frame (wpE (defs₀ (F := F)) 𝒱₀ (c : Thread nD τ) none) Set.univ (P17 (F := F) c v2 v484 c4 v485 c1) Q) := by
  unfold owesX P17 atArgs
  simp only [k0_part17_eq_skeleton, k0_part17_skel, Prog.lift, Prog.bind_op, Prog.bind_ret, Prog.pure_eq_ret]
  rw [rcv1_p2 c]
  simp only [rs0_p2 c]
  iintro ⟨#Hrec, #Hlev, Hcr, Hpos, ⟨%W, Ho⟩, Hps⟩ HQ
  iapply (rcv_wait m K c rfl (fun _ => Set.mem_univ _) 1 (pr c 2) (pr_ne c 2 (by omega) (by omega)) 15 (by decide) W
    (hcr := (rs_credit 0 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 0 c) (k0_off12_eq c) (k0_off12_inb c)) $$ Hps
  iintro Hps
  iapply (le_wp_ret _ _)
  iapply HQ
  isplitl [Ho]; · iexists _; iexact Ho
  iframe; ipureintro; rfl

theorem part18_spec (K : Dev nD × Fin 57 → ℕ) (v2 : BitVec 32) (v517 : FVec F S64x1024 .f32) (v518 c4 c0 : BitVec 32) {Q : _ → sProp 𝕄} :
    iprop(records m K ∗ levAts L lv ∗ pts (F := F) (rsM 0 (pr c 1)) c fullShare (rsB m c) ∗ pts (F := F) (rsM 0 (pr c 2)) c fullShare (rsB m c))
      ⊢ iprop((∀ r, iprop(pts (F := F) (rsM 0 (pr c 1)) c fullShare (rsB m c) ∗ pts (F := F) (rsM 0 (pr c 2)) c fullShare (rsB m c)
              ∗ ⌜r.1 = k0_pay10 v517 (rsBlk (psB m 0 (pr c 1)) c) (rsBlk (psB m 0 (pr c 2)) c)⌝) -∗ Q r)
          -∗ wp frame (wpE (defs₀ (F := F)) 𝒱₀ (c : Thread nD τ) none) Set.univ (P18 (F := F) c v2 v517 v518 c4 c0) Q) := by
  unfold P18 atArgs
  simp only [k0_part18_eq_skeleton, k0_part18_skel, Prog.lift, Prog.bind_op, Prog.bind_ret, Prog.pure_eq_ret]
  iintro ⟨-, -, H1, H2⟩ HQ
  iapply (wp_rs_load m c 𝒱₀ none Set.univ 0 (pr c 1) fullShare (off13_1 c) (k0_off13_inb c 0)) $$ H1
  iintro H1
  iapply (wp_rs_load m c 𝒱₀ none Set.univ 0 (pr c 2) fullShare (off13_2 c) (k0_off13_inb c 1)) $$ H2
  iintro H2
  iapply (le_wp_ret _ _)
  iapply HQ
  iframe; ipureintro; rfl

theorem part19_spec (K : Dev nD × Fin 57 → ℕ) (v2 : BitVec 32) (v549 : FVec F S64x1024 .f32) (hv : v549 = sum0 m c) (v552 v553 : BitVec 32) (v554 v555 : BitVec 1) {Q : _ → sProp 𝕄} :
    iprop(records m K ∗ levAts L lv ∗ pts (F := F) (rsM 0 (pr c 3)) c fullShare (rsB m c) ∗ ptsE (F := F) (actsM 1 c) c)
      ⊢ iprop((∀ r, iprop(pts (F := F) (rsM 0 (pr c 3)) c fullShare (rsB m c) ∗ pts (F := F) (actsM 1 c) c fullShare (actsB m)) -∗ Q r)
          -∗ wp frame (wpE (defs₀ (F := F)) 𝒱₀ (c : Thread nD τ) none) Set.univ (P19 (F := F) c v2 v549 v552 v553 v554 v555) Q) := by
  subst hv
  unfold P19 atArgs
  simp only [k0_part19_eq_skeleton, k0_part19_skel, Prog.lift, Prog.bind_op, Prog.bind_ret, Prog.pure_eq_ret]
  iintro ⟨-, -, H1, Ha⟩ HQ
  ihave Ha' := (ptsE_elim (F := F) (actsM 1 c) c) $$ Ha
  icases Ha' with ⟨%g, Ha⟩
  iapply (wp_rs_load m c 𝒱₀ none Set.univ 0 (pr c 3) fullShare (off13_3 c) (k0_off13_inb c 2)) $$ H1
  iintro H1
  iapply (wp_layer_own_load c 𝒱₀ none Set.univ 1 fullShare g rfl inb_S3x256x1024_S1x256x1024_1_0_0 (k0_off12_eq c) (k0_off12_inb c)) $$ Ha
  iintro %v Ha
  iapply (wp_acts_own_store c 𝒱₀ none Set.univ 1 g (actsB m) _ (k0_off14_eq c) (k0_off14_inb c)
    (actsB_at1 m c)) $$ Ha
  iintro Ha
  iapply (le_wp_ret _ _)
  iapply HQ
  iframe

theorem part33_spec (K : Dev nD × Fin 57 → ℕ) (v2 v981 : BitVec 32) (v986 : BitVec 1) (v987 : BitVec 32) {Q : _ → sProp 𝕄} :
    iprop(records m K ∗ levAts L lv ∗ cred (tallyAt (rcvCell c 3 (pr c 2)) () Nh) ∗ atPos ER (rcvCell c 3 (pr c 2)) 0 ∅ 0 ∗ owesX c 9
        ∗ pts (F := F) (psM c) c fullShare (psB m 1 c))
      ⊢ iprop((∀ r, iprop(owesX c 9 ∗ atPos ER (rcvCell c 3 (pr c 2)) 1 ∅ 0
              ∗ pts (F := F) (rsM 1 (pr c 2)) c fullShare (rsB m c) ∗ pts (F := F) (psM c) (pr c 2) fullShare (psB m 1 (pr c 2))
              ∗ pts (F := F) (psM c) c fullShare (psB m 1 c)
              ∗ ⌜r.1 = k0_pay18 (ownRows (psB m 1 c) c)⌝) -∗ Q r)
          -∗ wp frame (wpE (defs₀ (F := F)) 𝒱₀ (c : Thread nD τ) none) Set.univ (P33 (F := F) c v2 v981 v986 v987) Q) := by
  unfold owesX P33 atArgs
  simp only [k0_part33_eq_skeleton, k0_part33_skel, Prog.lift, Prog.bind_op, Prog.bind_ret, Prog.pure_eq_ret]
  rw [rcv3_p2 c]
  simp only [rs1_p2 c]
  iintro ⟨#Hrec, #Hlev, Hcr, Hpos, ⟨%W, Ho⟩, Hps⟩ HQ
  iapply (rcv_wait m K c rfl (fun _ => Set.mem_univ _) 3 (pr c 2) (pr_ne c 2 (by omega) (by omega)) 9 (by decide) W
    (hcr := (rs_credit 1 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 1 c) (k0_off12_eq c) (k0_off12_inb c)) $$ Hps
  iintro Hps
  iapply (le_wp_ret _ _)
  iapply HQ
  isplitl [Ho]; · iexists _; iexact Ho
  iframe; ipureintro; rfl

theorem part34_spec (K : Dev nD × Fin 57 → ℕ) (v2 : BitVec 32) (v1011 : FVec F S64x1024 .f32) (v1014 v1015 : BitVec 32) (v1016 v1019 : BitVec 1) {Q : _ → sProp 𝕄} :
    iprop(records m K ∗ levAts L lv ∗ pts (F := F) (rsM 1 (pr c 1)) c fullShare (rsB m c) ∗ pts (F := F) (rsM 1 (pr c 2)) c fullShare (rsB m c)
        ∗ pts (F := F) (rsM 1 (pr c 3)) c fullShare (rsB m c))
      ⊢ iprop((∀ r, iprop(pts (F := F) (rsM 1 (pr c 1)) c fullShare (rsB m c) ∗ pts (F := F) (rsM 1 (pr c 2)) c fullShare (rsB m c)
              ∗ pts (F := F) (rsM 1 (pr c 3)) c fullShare (rsB m c)
              ∗ ⌜r.1 = k0_pay19 v1011 (rsBlk (psB m 1 (pr c 1)) c) (rsBlk (psB m 1 (pr c 2)) c) ∧ r.2 = rsBlk (psB m 1 (pr c 3)) c⌝) -∗ Q r)
          -∗ wp frame (wpE (defs₀ (F := F)) 𝒱₀ (c : Thread nD τ) none) Set.univ (P34 (F := F) c v2 v1011 v1014 v1015 v1016 v1019) Q) := by
  unfold P34 atArgs
  simp only [k0_part34_eq_skeleton, k0_part34_skel, Prog.lift, Prog.bind_op, Prog.bind_ret, Prog.pure_eq_ret]
  iintro ⟨-, -, H1, H2, H3⟩ HQ
  iapply (wp_rs_load m c 𝒱₀ none Set.univ 1 (pr c 1) fullShare (off23_1 c) (k0_off23_inb c 0)) $$ H1
  iintro H1
  iapply (wp_rs_load m c 𝒱₀ none Set.univ 1 (pr c 2) fullShare (off23_2 c) (k0_off23_inb c 1)) $$ H2
  iintro H2
  iapply (wp_rs_load m c 𝒱₀ none Set.univ 1 (pr c 3) fullShare (off23_3 c) (k0_off23_inb c 2)) $$ H3
  iintro H3
  iapply (le_wp_ret _ _)
  iapply HQ
  iframe; ipureintro; exact ⟨rfl, rfl⟩

theorem part35_spec (K : Dev nD × Fin 57 → ℕ) (v2 : BitVec 32) (v1043 : FVec F S64x1024 .f32) (hv : v1043 = sum1 m c)
    (v1056 : Vec F S1x1x64x1024 .bf16) (hw : v1056 = rsBlk (psB m 1 (pr c 3)) c) {Q : _ → sProp 𝕄} :
    iprop(records m K ∗ levAts L lv ∗ ptsE (F := F) (actsM 2 c) c)
      ⊢ iprop((∀ r, iprop(pts (F := F) (actsM 2 c) c fullShare (actsB m)) -∗ Q r)
          -∗ wp frame (wpE (defs₀ (F := F)) 𝒱₀ (c : Thread nD τ) none) Set.univ (P35 (F := F) c v2 v1043 v1056) Q) := by
  subst hv hw
  unfold P35 atArgs
  simp only [k0_part35_eq_skeleton, k0_part35_skel, Prog.lift, Prog.bind_op, Prog.bind_ret, Prog.pure_eq_ret]
  iintro ⟨-, -, Ha⟩ HQ
  ihave Ha' := (ptsE_elim (F := F) (actsM 2 c) c) $$ Ha
  icases Ha' with ⟨%g, Ha⟩
  iapply (wp_layer_own_load c 𝒱₀ none Set.univ 2 fullShare g rfl inb_S3x256x1024_S1x256x1024_2_0_0 (k0_off12_eq c) (k0_off12_inb c)) $$ Ha
  iintro %v Ha
  iapply (wp_acts_own_store c 𝒱₀ none Set.univ 2 g (actsB m) _ (k0_off24_eq c) (k0_off24_inb c)
    (actsB_at2 m c)) $$ Ha
  iintro Ha
  iapply (le_wp_ret _ _)
  iapply HQ
  iexact Ha

theorem part48_spec (K : Dev nD × Fin 57 → ℕ) (v2 v1454 v1455 : BitVec 32) (v1456 v1457 v1458 : BitVec 1) {Q : _ → sProp 𝕄} :
    iprop(records m K ∗ levAts L lv ∗ cred (tallyAt (rcvCell c 5 (pr c 2)) () Nh) ∗ atPos ER (rcvCell c 5 (pr c 2)) 0 ∅ 0 ∗ owesX c 3
        ∗ pts (F := F) (psM c) c fullShare (psB m 2 c))
      ⊢ iprop((∀ r, iprop(owesX c 3 ∗ atPos ER (rcvCell c 5 (pr c 2)) 1 ∅ 0
              ∗ pts (F := F) (rsM 2 (pr c 2)) c fullShare (rsB m c) ∗ pts (F := F) (psM c) (pr c 2) fullShare (psB m 2 (pr c 2))
              ∗ pts (F := F) (psM c) c fullShare (psB m 2 c)
              ∗ ⌜r.1 = k0_pay24 (ownRows (psB m 2 c) c)⌝) -∗ Q r)
          -∗ wp frame (wpE (defs₀ (F := F)) 𝒱₀ (c : Thread nD τ) none) Set.univ (P48 (F := F) c v2 v1454 v1455 v1456 v1457 v1458) Q) := by
  unfold owesX P48 atArgs
  simp only [k0_part48_eq_skeleton, k0_part48_skel, Prog.lift, Prog.bind_op, Prog.bind_ret, Prog.pure_eq_ret]
  rw [rcv5_p2 c]
  simp only [rs2_p2 c]
  iintro ⟨#Hrec, #Hlev, Hcr, Hpos, ⟨%W, Ho⟩, Hps⟩ HQ
  iapply (rcv_wait m K c rfl (fun _ => Set.mem_univ _) 5 (pr c 2) (pr_ne c 2 (by omega) (by omega)) 3 (by decide) W
    (hcr := (rs_credit 2 (pr c 2)).trans (if_neg (by decide)).symm)) $$ [Hcr Hpos Ho]
  · iframe Hrec Hlev Ho Hpos
    iexact Hcr
  simp only [rcvPay]
  iintro ⟨Ho, Hpos, -, Hrs, Hlent⟩
  iapply (wp_ps_own_load c 𝒱₀ none Set.univ fullShare (psB m 2 c) (k0_off12_eq c) (k0_off12_inb c)) $$ Hps
  iintro Hps
  iapply (le_wp_ret _ _)
  iapply HQ
  isplitl [Ho]; · iexists _; iexact Ho
  iframe; ipureintro; rfl

theorem part49_spec (K : Dev nD × Fin 57 → ℕ) (v2 : BitVec 32) (v1485 : FVec F S64x1024 .f32) (v1488 v1489 : BitVec 32) (v1490 v1491 : BitVec 1) {Q : _ → sProp 𝕄} :
    iprop(records m K ∗ levAts L lv ∗ pts (F := F) (rsM 2 (pr c 1)) c fullShare (rsB m c) ∗ pts (F := F) (rsM 2 (pr c 2)) c fullShare (rsB m c))
      ⊢ iprop((∀ r, iprop(pts (F := F) (rsM 2 (pr c 1)) c fullShare (rsB m c) ∗ pts (F := F) (rsM 2 (pr c 2)) c fullShare (rsB m c)
              ∗ ⌜r = k0_pay25 v1485 (rsBlk (psB m 2 (pr c 1)) c) (rsBlk (psB m 2 (pr c 2)) c)⌝) -∗ Q r)
          -∗ wp frame (wpE (defs₀ (F := F)) 𝒱₀ (c : Thread nD τ) none) Set.univ (P49 (F := F) c v2 v1485 v1488 v1489 v1490 v1491) Q) := by
  unfold P49 atArgs
  simp only [k0_part49_eq_skeleton, k0_part49_skel, Prog.lift, Prog.bind_op, Prog.bind_ret, Prog.pure_eq_ret]
  iintro ⟨-, -, H1, H2⟩ HQ
  iapply (wp_rs_load m c 𝒱₀ none Set.univ 2 (pr c 1) fullShare (off33_1 c) (k0_off33_inb c 0)) $$ H1
  iintro H1
  iapply (wp_rs_load m c 𝒱₀ none Set.univ 2 (pr c 2) fullShare (off33_2 c) (k0_off33_inb c 1)) $$ H2
  iintro H2
  iapply (le_wp_ret _ _)
  iapply HQ
  iframe; ipureintro; rfl

end Cert.Kernel.Dist

end
-- ==== Proof.BBodyPV3.lean ====
import proofs.«900988_g7700000000000989_dist_mlpseq_tp1d_bs_rep_b64_d1024_h2048_v7x_i4_f32_1_alg».proof.Proof.BBodyArgs
import proofs.«900988_g7700000000000989_dist_mlpseq_tp1d_bs_rep_b64_d1024_h2048_v7x_i4_f32_1_alg».proof.Proof.BBodyKits
import proofs.«900988_g7700000000000989_dist_mlpseq_tp1d_bs_rep_b64_d1024_h2048_v7x_i4_f32_1_alg».proof.Proof.BBodyGeom
import proofs.«900988_g7700000000000989_dist_mlpseq_tp1d_bs_rep_b64_d1024_h2048_v7x_i4_f32_1_alg».proof.Proof.BBodyWait
import proofs.«900988_g7700000000000989_dist_mlpseq_tp1d_bs_rep_b64_d1024_h2048_v7x_i4_f32_1_alg».proof.Proof.BBodyLocal
import proofs.«900988_g7700000000000989_dist_mlpseq_tp1d_bs_rep_b64_d1024_h2048_v7x_i4_f32_1_alg».proof.Proof.BBodySend
import proofs.«900988_g7700000000000989_dist_mlpseq_tp1d_bs_rep_b64_d1024_h2048_v7x_i4_f32_1_alg».proof.Proof.BBodyBox
import proofs.«900988_g7700000000000989_dist_mlpseq_tp1d_bs_rep_b64_d1024_h2048_v7x_i4_f32_1_alg».proof.Proof.BBodyWb
import proofs.«900988_g7700000000000989_dist_mlpseq_tp1d_bs_rep_b64_d1024_h2048_v7x_i4_f32_1_alg».proof.Proof.BBodyPL

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

theorem pv3_ptsE {sp : Space} {s : Shape} {e : EltTy} (M : Memref sig .tc sp s e) (d : Dev nD) :
    ptsE (F := F) M d = iprop(∃ f, pts (F := F) M d fullShare f) := rfl

theorem pv_wb2_set1 (inb) :
    (wb2M 1).view.set = (Rect.unit (s := S2x2048x1024) ![1, 0, 0] S1x2048x1024.size inb).set := View.set_slice_whole _ _

theorem pv_pts_wb2 (q : PosShare TreeShare) (f : Vec F S2x2048x1024 .bf16) :
    pts (F := F) (wb2M 1) c q f
      = ((Memref.whole cc0_scratch6 : Memref sig .tc .vmem S2x2048x1024 .bf16).view.loc (c : Thread nD τ) ↦[(wb2M 1).view.set]{q} f : sProp 𝕄) := rfl

theorem pv_read_wb2 (l : Fin 3) (b : Fin 2) (inb) :
    (Memref.whole cc0_scratch6 : Memref sig .tc .vmem S2x2048x1024 .bf16).view.readAt (Elt F)
      (Rect.unit (s := S2x2048x1024) ![b.val, 0, 0] S1x2048x1024.size inb).toLoadRect (wb2B m l c)
      = k0_pay3 (up2048x1024 (W2 (F := F) m l c)) := by
  funext x
  have hx0 : (x 0).val = 0 := by have := (x 0).isLt; change (x 0).val < 1 at this; omega
  show wb2B m l c ((Rect.unit (s := S2x2048x1024) ![b.val, 0, 0] S1x2048x1024.size inb).emb x) = _
  unfold wb2B
  congr 1
  funext a
  apply Fin.ext
  revert a
  rw [Fin.forall_fin_succ, Fin.forall_fin_two]
  refine ⟨?_, ?_, ?_⟩
  · show 0 = (x 0).val; omega
  · show 0 + 1 * (x 1).val = (x 1).val; omega
  · show 0 + 1 * (x 2).val = (x 2).val; omega
theorem part22_spec (K : Dev nD × Fin 57 → ℕ) (v2 : BitVec 32) {Q : FVec F S2048x1024 .bf16 → sProp 𝕄} :
    iprop(records m K ∗ levAts L lv ∗ pts (F := F) (wb2M 1) c fullShare (wb2B m 1 c))
      ⊢ iprop((∀ r, iprop(pts (F := F) (wb2M 1) c fullShare (wb2B m 1 c) ∗ ⌜r = wb2 m 1 c⌝) -∗ Q r)
          -∗ wp frame (wpE (defs₀ (F := F)) 𝒱₀ (c : Thread nD τ) none) Set.univ (P22 (F := F) c v2) Q) := by
  unfold P22 atArgs
  rw [k0_part22_eq_skeleton]
  unfold k0_part22_skel
  simp only [Prog.lift, Prog.bind_op, Prog.bind_ret, Prog.pure_eq_ret]
  iintro ⟨#Hrec, #Hlev, H⟩ HQ
  ihave H := (Entails.of_eq (pv_pts_wb2 c fullShare (wb2B m 1 c))) $$ H
  iapply (wp_load 𝒱₀ (c : Thread nD τ) none Set.univ (m := (Memref.whole cc0_scratch6 : Memref sig .tc .vmem S2x2048x1024 .bf16))
    (r := (Rect.unit (s := S2x2048x1024) ![1, 0, 0] S1x2048x1024.size inb_S2x2048x1024_S1x2048x1024_1_0_0).toLoadRect)
    (S := (wb2M 1).view.set) (q := fullShare) (f := wb2B m 1 c)
    (by rw [box_load_set, pv_wb2_set1 inb_S2x2048x1024_S1x2048x1024_1_0_0]; all_goals exact subset_rfl)) $$ H
  iintro H
  ihave H := (Entails.of_eq (pv_pts_wb2 c fullShare (wb2B m 1 c)).symm) $$ H
  iapply (le_wp_ret _ _ _ _ Q)
  iapply HQ
  isplitl [H]; · iexact H
  ipureintro
  exact (congrArg (k0_pay13 (F := F)) (pv_read_wb2 m c 1 1 inb_S2x2048x1024_S1x2048x1024_1_0_0)).trans rfl

theorem pv_owns_stg (q : PosShare TreeShare) (X0 : Vec F S64x1024 .f32) :
    owns (c : Thread nD τ) (Memref.whole cc0_stg0_0 : Memref sig .tc .vmem S64x1024 .f32) q X0
      = iprop(∃ f : Vec F S64x1024 .f32, ⌜f = X0⌝
          ∗ ((Memref.whole cc0_stg0_0 : Memref sig .tc .vmem S64x1024 .f32).view.loc (c : Thread nD τ) ↦[Finset.univ]{q} f : sProp 𝕄)) := by
  unfold owns
  rw [show (Memref.whole cc0_stg0_0 : Memref sig .tc .vmem S64x1024 .f32).view.set = Finset.univ from View.set_whole _]
  rfl

theorem pv_pts_acts0 (q : PosShare TreeShare) (f : Vec F S3x256x1024 .bf16) :
    pts (F := F) (actsM 0 c) c q f
      = ((Memref.whole cc0_scratch0 : Memref sig .tc .vmem S3x256x1024 .bf16).view.loc (c : Thread nD τ) ↦[(actsM 0 c).view.set]{q} f : sProp 𝕄) := rfl

theorem pv_off2 : (![0, 0] : Fin S64x1024.rank → Nat) = fun _ => 0 := by funext a; fin_cases a <;> rfl

theorem pv_acts0_ld_sub (inb) :
    (Memref.whole cc0_scratch0 : Memref sig .tc .vmem S3x256x1024 .bf16).view.setOn
      (Rect.unit (s := S3x256x1024) ![0, 64 * c.val, 0] S1x64x1024.size inb).toLoadRect.set ⊆ (actsM 0 c).view.set := by
  rw [box_load_set, actsM_set 0 c inb]; all_goals exact subset_rfl

theorem pv_own_load {Γ : PendingWaitsCtx sig Unit} {Es : Set ℕ} {α : Type} {Q : α → sProp 𝕄}
    (f0 : Vec F S3x256x1024 .bf16)
    {off : Fin 3 → Nat} (h : off = ![0, 64 * c.val, 0]) (inb : ∀ a, off a + S1x64x1024.size a ≤ S3x256x1024.size a)
    {hl : (Memref.whole cc0_scratch0 : Memref sig .tc .vmem S3x256x1024 .bf16).view.LoadsAt (Rect.unit (s := S3x256x1024) off S1x64x1024.size inb).toLoadRect}
    {k : Vec F S1x64x1024 .bf16 → Prog (TpuEff nD τ sig (Elt F) Λ₀ .tc) α} :
    pts (F := F) (actsM 0 c) c fullShare f0
      ⊢ iprop((∀ v, pts (F := F) (actsM 0 c) c fullShare f0 -∗ wp frame (wpE' (defs₀ (F := F)) 𝒱₀ (c : Thread nD τ) none Γ) Es (k v) Q)
          -∗ wp frame (wpE' (defs₀ (F := F)) 𝒱₀ (c : Thread nD τ) none Γ) Es
              (.op (.load (Memref.whole cc0_scratch0) (Rect.unit (s := S3x256x1024) off S1x64x1024.size inb).toLoadRect hl) k) Q) := by
  subst h
  rw [pv_pts_acts0]
  iintro E0 Hk
  iapply (wp_load 𝒱₀ (c : Thread nD τ) none Es (m := (Memref.whole cc0_scratch0 : Memref sig .tc .vmem S3x256x1024 .bf16))
    (r := (Rect.unit (s := S3x256x1024) ![0, 64 * c.val, 0] S1x64x1024.size inb).toLoadRect)
    (S := (actsM 0 c).view.set) (q := fullShare) (f := f0) (pv_acts0_ld_sub c inb)) $$ E0
  iintro E0
  iapply Hk $$ E0

theorem pv_acts0_at (x : S1x64x1024.Idx) (i : S3x256x1024.Idx) (h0 : (i 0 : Fin 3) = (0 : Fin 3))
    (h1 : (i 1 : Fin 256) = row64 c (x 1)) (h2 : (i 2 : Fin 1024) = x 2) : actsB m i = k0_pay1 (X (F := F) m c) x := by
  have hx0 : (x 0).val = 0 := by have := (x 0).isLt; change (x 0).val < 1 at this; omega
  have hx1 : (x 1).val < 64 := (x 1).isLt
  have h4 : c.val < 4 := c.isLt
  rw [actsB_at m 0 i (congrArg Fin.val h0)]
  show blk0 m (rowDev (i 1)) (ix3 (0 : Fin 1) (rowIn (i 1)) (i 2)) = _
  have hd : rowDev (row64 c (x 1)) = c := Fin.ext (by show (64 * c.val + (x 1).val) / 64 = c.val; omega)
  have hr : rowIn (row64 c (x 1)) = x 1 := Fin.ext (by show (64 * c.val + (x 1).val) % 64 = (x 1).val; omega)
  have hx : ix3 (0 : Fin 1) (x 1) (x 2) = x := by
    funext a
    apply Fin.ext
    revert a
    rw [Fin.forall_fin_succ, Fin.forall_fin_two]
    exact ⟨by show 0 = (x 0).val; omega, rfl, rfl⟩
  rw [h1, h2, hd, hr]
  exact (congrArg (blk0 m c) hx).trans rfl
theorem part3_spec (K : Dev nD × Fin 57 → ℕ) (v2 : BitVec 32) {Q : PUnit → sProp 𝕄} :
    iprop(records m K ∗ levAts L lv ∗ cred (tallyAt (barCell c) () 3) ∗ atPos ER (barCell c) 0 ∅ 0 ∗ owesX c 21
        ∗ owns (c : Thread nD τ) (Memref.whole cc0_stg0_0 : Memref sig .tc .vmem S64x1024 .f32) fullShare (X (F := F) m c)
        ∗ ptsE (F := F) (actsM 0 c) c)
      ⊢ iprop((∀ r, iprop(owesX c 21 ∗ atPos ER (barCell c) 1 ∅ 0
            ∗ ptsE (F := F) (actsM 0 c) (pr c 1) ∗ ptsE (F := F) (actsM 1 c) (pr c 1) ∗ ptsE (F := F) (actsM 2 c) (pr c 1) ∗ ptsE (F := F) (rsM 0 c) (pr c 1) ∗ ptsE (F := F) (rsM 1 c) (pr c 1) ∗ ptsE (F := F) (rsM 2 c) (pr c 1) ∗ ptsE (F := F) (outM c) (pr c 1)
            ∗ ptsE (F := F) (actsM 0 c) (pr c 2) ∗ ptsE (F := F) (actsM 1 c) (pr c 2) ∗ ptsE (F := F) (actsM 2 c) (pr c 2) ∗ ptsE (F := F) (rsM 0 c) (pr c 2) ∗ ptsE (F := F) (rsM 1 c) (pr c 2) ∗ ptsE (F := F) (rsM 2 c) (pr c 2) ∗ ptsE (F := F) (outM c) (pr c 2)
            ∗ ptsE (F := F) (actsM 0 c) (pr c 3) ∗ ptsE (F := F) (actsM 1 c) (pr c 3) ∗ ptsE (F := F) (actsM 2 c) (pr c 3) ∗ ptsE (F := F) (rsM 0 c) (pr c 3) ∗ ptsE (F := F) (rsM 1 c) (pr c 3) ∗ ptsE (F := F) (rsM 2 c) (pr c 3) ∗ ptsE (F := F) (outM c) (pr c 3)
            ∗ owns (c : Thread nD τ) (Memref.whole cc0_stg0_0 : Memref sig .tc .vmem S64x1024 .f32) fullShare (X (F := F) m c)
            ∗ pts (F := F) (actsM 0 c) c fullShare (actsB m)) -∗ Q r)
          -∗ wp frame (wpE (defs₀ (F := F)) 𝒱₀ (c : Thread nD τ) none) Set.univ (P3 (F := F) c v2 (SemArray.scalar (sig.barrier 0 rfl))) Q) := by
  unfold owesX P3 atArgs
  rw [k0_part3_eq_skeleton]
  unfold k0_part3_skel
  simp only [Prog.lift, Prog.bind_op, Prog.bind_ret, Prog.pure_eq_ret, semWaitWord]
  iintro ⟨#Hrec, #Hlev, Hc0, Hp0, ⟨%W, Ho⟩, Hx, E0⟩ HQ
  iapply (bar_wait m K c rfl (fun _ => Set.mem_univ _) W) $$ [$]
  unfold barPay
  iintro ⟨Ho, Hp0, -, ⟨B11, B12, B13, B14, B15, B16, B17⟩, ⟨B21, B22, B23, B24, B25, B26, B27⟩, B31, B32, B33, B34, B35, B36, B37⟩
  icases (Entails.of_eq (pv_owns_stg c fullShare (X (F := F) m c))) $$ Hx with ⟨%fx, %hfx, Hx⟩
  iapply (wp_load 𝒱₀ (c : Thread nD τ) none Set.univ (m := (Memref.whole cc0_stg0_0 : Memref sig .tc .vmem S64x1024 .f32))
    (S := Finset.univ) (q := fullShare) (f := fx) (Finset.subset_univ _)) $$ Hx
  iintro Hx
  have hv : (Memref.whole cc0_stg0_0 : Memref sig .tc .vmem S64x1024 .f32).view.readAt (Elt F)
      (Rect.unit (s := S64x1024) ![0, 0] S64x1024.size inb_S64x1024_S64x1024_0_0).toLoadRect fx = X (F := F) m c :=
    (Memref.readAt_unit_zero (Elt F) cc0_stg0_0 pv_off2 _ fx).trans hfx
  icases (Entails.of_eq (pv3_ptsE (actsM 0 c) c)) $$ E0 with ⟨%f0, E0⟩
  iapply (pv_own_load c f0 (k0_off1_eq c) (k0_off1_inb c)) $$ E0
  iintro %v64 E0
  iapply (wp_acts_own_store c 𝒱₀ none Set.univ 0 f0 (actsB m) _ (k0_off1_eq c) (k0_off1_inb c)
    (fun x i h0 h1 h2 => (pv_acts0_at m c x i h0 h1 h2).trans (congrFun (congrArg (k0_pay1 (F := F)) hv).symm x))) $$ E0
  iintro E0
  iapply (le_wp_ret _ _ _ _ Q)
  iapply HQ
  icases (Entails.of_eq (pv_owns_stg c fullShare (X (F := F) m c)).symm) $$ [Hx] with Hx
  · iexists fx
    isplitr; · ipureintro; exact hfx
    iexact Hx
  isplitl [Ho]; · iexists _; iexact Ho
  iframe

end Cert.Kernel.Dist

end
-- ==== Proof.BBodyP50.lean ====
import proofs.«900988_g7700000000000989_dist_mlpseq_tp1d_bs_rep_b64_d1024_h2048_v7x_i4_f32_1_alg».proof.Proof.BBodyPL
import proofs.«900988_g7700000000000989_dist_mlpseq_tp1d_bs_rep_b64_d1024_h2048_v7x_i4_f32_1_alg».proof.Proof.BBodyVal
import proofs.«900988_g7700000000000989_dist_mlpseq_tp1d_bs_rep_b64_d1024_h2048_v7x_i4_f32_1_alg».proof.Proof.BBodyLocal
import proofs.«900988_g7700000000000989_dist_mlpseq_tp1d_bs_rep_b64_d1024_h2048_v7x_i4_f32_1_alg».proof.Proof.BBodySend

noncomputable section

namespace Cert.Kernel.Dist

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section Steps

variable {defs : Defs nD τ sig (Elt F) Λ₀} (𝒱 : Variants) (bd : Option 𝒱.V) {Γ : PendingWaitsCtx sig Unit} (E : Set ℕ)
variable {α : Type} {Q : α → sProp (MT nD τ sig Unit (Elt F) ℕ UU ℕ)}

abbrev stgR : Rect S64x1024 := Rect.unit (s := S64x1024) ![0, 0] S64x1024.size inb_S64x1024_S64x1024_0_0

theorem stgR_off : (![0, 0] : Fin S64x1024.rank → Nat) = fun _ => 0 := by funext a; fin_cases a <;> rfl

theorem pts_stg_univ (q : PosShare TreeShare) (g : Vec F S64x1024 .f32) :
    pts (F := F) stgM c q g = (((c : Thread nD τ).loc cc0_scratch7) ↦{q} g : sProp (MT nD τ sig Unit (Elt F) ℕ UU ℕ)) := by
  unfold pts
  rw [View.set_whole]

theorem wp_stg_store (f w : Vec F S64x1024 .f32)
    {hl : (Memref.whole cc0_scratch7 : Memref sig .tc .vmem S64x1024 .f32).view.LoadsAt stgR.toLoadRect}
    {hx : ((Memref.whole cc0_scratch7 : Memref sig .tc .vmem S64x1024 .f32).access stgR).Stores Finset.univ}
    {hm : (Finset.univ : Finset stgR.shape.Idx) = Finset.univ ∨ ∀ a, stgR.stride a = 1}
    {k : PUnit → Prog (TpuEff nD τ sig (Elt F) Λ₀ .tc) α} :
    pts (F := F) stgM c fullShare f
      ⊢ iprop((pts (F := F) stgM c fullShare w -∗ wp frame (wpE' defs 𝒱 (c : Thread nD τ) bd Γ) E (k ⟨⟩) Q)
          -∗ wp frame (wpE' defs 𝒱 (c : Thread nD τ) bd Γ) E
              (.op (.load (Memref.whole cc0_scratch7) stgR.toLoadRect hl) fun _ =>
                .op (.store (Memref.whole cc0_scratch7) stgR w Finset.univ hx hm) k) Q) := by
  rw [pts_stg_univ, pts_stg_univ]
  iintro H Hk
  iapply (wp_load 𝒱 (c : Thread nD τ) bd E (m := (Memref.whole cc0_scratch7 : Memref sig .tc .vmem S64x1024 .f32)) (r := stgR.toLoadRect)
    (S := Finset.univ) (Finset.subset_univ _)) $$ H
  iintro H
  have e : ((Memref.whole cc0_scratch7 : Memref sig .tc .vmem S64x1024 .f32).access stgR).write (Elt F) f w Finset.univ = w :=
    Memref.write_access_unit_zero_univ (Elt F) cc0_scratch7 stgR_off _ f w
  have hst := wp_store (defs := defs) 𝒱 (c : Thread nD τ) bd (Γ := Γ) E (Q := Q) (m := (Memref.whole cc0_scratch7 : Memref sig .tc .vmem S64x1024 .f32))
    (r := stgR) (w := w) (Mk := Finset.univ) (hx := hx) (hm := hm) (k := k) (f := f) (S := Finset.univ) (Finset.subset_univ _)
  rw [e] at hst
  iapply hst $$ H
  iexact Hk

end Steps

theorem part50_spec_of (K : Dev nD × Fin 57 → ℕ) (v2 : BitVec 32) (v : FVec F S64x1024 .f32) (hv : v = sum2 m c)
    {Q : (Σ' (v1561 : BitVec 32) (c4_i32_1338 : BitVec 32), BitVec 32) → sProp 𝕄} :
    iprop(records m K ∗ levAts L lv ∗ owesX c 3
        ∗ pts (F := F) (rsM 2 (pr c 3)) c fullShare (rsB m c) ∗ ptsE (F := F) stgM c
        ∗ ptsE (F := F) (outM c) c ∗ dutyTok ER (outCell c) 0 c
        ∗ ptsE (F := F) (outM c) (pr c 3) ∗ pts (F := F) (psM c) (pr c 3) fullShare (psB m 2 (pr c 3))
        ∗ dutyTok ER (sndCell c 6 2) 0 c ∗ dutyTok ER (rcvCell (pr c 3) 6 c) 0 c)
      ⊢ iprop((∀ r, iprop(owesX c 2 ∗ pts (F := F) (rsM 2 (pr c 3)) c fullShare (rsB m c)
            ∗ pts (F := F) stgM c (q4 0) (outBlk m c) ∗ pts (F := F) stgM c (q4 1) (outBlk m c)
            ∗ cred (tallyAt (outCell c) () Nf) ∗ cred (tallyAt (sndCell c 6 2) () Nf)) -∗ Q r)
          -∗ wp frame (wpE (defs₀ (F := F)) 𝒱₀ (c : Thread nD τ) none) Set.univ (P50 (F := F) c v2 v) Q) := by
  subst hv
  unfold owesX P50 atArgs
  simp only [k0_part50_eq_skeleton, k0_part50_skel, Prog.lift, Prog.bind_op, Prog.bind_ret, Prog.pure_eq_ret, outc_sem, out_own c]
  iintro ⟨#Hrec, #Hlev, ⟨%W, Ho⟩, Hrs, Hstg, Hout, Htout, Houtp, Hlent, Htsnd, Htrcv⟩ HQ
  iapply (wp_rs_load m c 𝒱₀ none Set.univ 2 (pr c 3) fullShare (off33_3 c) (k0_off33_inb c 2)) $$ Hrs
  iintro Hrs
  ihave ⟨%f, Hstg⟩ := (ptsE_elim (F := F) stgM c) $$ Hstg
  iapply (wp_stg_store c 𝒱₀ none Set.univ f (outBlk m c)) $$ Hstg
  iintro Hstg
  ihave ⟨Hq0, Hq1, Hq2, Hq3⟩ := (pts_quarters (F := F) stgM c (outBlk m c)).1 $$ Hstg
  iapply (outcopy_step m K c) $$ [$]
  iintro Hcout
  iapply (wp_enq_of c rfl (dev22_eq c) rfl (congrArg SemLoc.dma snd_6_2) (congrArg SemLoc.dma (rcv6_own c)))
  iapply (out_send m K c 3 (by omega) (by omega) 2 2 W (rem_rcv c 6 0 3 rfl 2 rfl)) $$ [$Hrec Hq2 $Houtp $Hlent $Ho $Htsnd $Htrcv]
  · iexact Hq2
  iintro ⟨Hcsnd, Ho⟩
  iapply (le_wp_ret _ _)
  iapply HQ
  isplitl [Ho]; · iexists _; iexact Ho
  iframe

end Cert.Kernel.Dist

end
-- ==== Proof.BBodyTail.lean ====
import proofs.«900988_g7700000000000989_dist_mlpseq_tp1d_bs_rep_b64_d1024_h2048_v7x_i4_f32_1_alg».proof.Proof.BBodyPW

namespace Cert.Kernel.Dist

open Gen
open Idealize.ShloMosaic Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem tail_printed_spec (K : Dev nD × Fin 57 → ℕ)
    {hs0 : (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024).view.WordExact}
    {hd0 : ((Memref.whole cc0_scratch2 : Memref sig .tc .vmem S256x1024 .bf16).slice (Rect.unit (s := S256x1024) (k0_off6 c 3#32) S64x1024.size (k0_off6_inb c 2)) (fun _ => rfl)).view.WordExact}
    {hs1 : (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024).view.WordExact}
    {hd1 : ((Memref.whole cc0_scratch2 : Memref sig .tc .vmem S256x1024 .bf16).slice (Rect.unit (s := S256x1024) (k0_off6 c 2#32) S64x1024.size (k0_off6_inb c 1)) (fun _ => rfl)).view.WordExact}
    {hs2 : ((Memref.whole main_v1 : Memref sig .tc .hbm S256x1024 .f32).slice (Rect.unit (s := S256x1024) (k0_off3 c) S64x1024.size (k0_off3_inb c)) (fun _ => rfl)).view.WordExact}
    {hd2 : (Memref.whole cc0_scratch7 : Memref sig .tc .vmem S64x1024 .f32).view.WordExact}
    {hs3 : ((Memref.whole main_v1 : Memref sig .tc .hbm S256x1024 .f32).slice (Rect.unit (s := S256x1024) (k0_off3 c) S64x1024.size (k0_off3_inb c)) (fun _ => rfl)).view.WordExact}
    {hd3 : (Memref.whole cc0_scratch7 : Memref sig .tc .vmem S64x1024 .f32).view.WordExact}
    {hs4 : ((Memref.whole main_v1 : Memref sig .tc .hbm S256x1024 .f32).slice (Rect.unit (s := S256x1024) (k0_off3 c) S64x1024.size (k0_off3_inb c)) (fun _ => rfl)).view.WordExact}
    {hd4 : (Memref.whole cc0_scratch7 : Memref sig .tc .vmem S64x1024 .f32).view.WordExact}
    {Q : PUnit → sProp 𝕄} :
    iprop(records m K ∗ levAts L lv ∗ owesX c 0 ∗ cred (tallyAt (sndCell c 5 2) () Nh) ∗ atPos ER (sndCell c 5 2) 0 ∅ 0
        ∗ cred (tallyAt (sndCell c 5 1) () Nh) ∗ atPos ER (sndCell c 5 1) 0 ∅ 0 ∗ cred (tallyAt (sndCell c 6 2) () Nf)
        ∗ atPos ER (sndCell c 6 2) 0 ∅ 0 ∗ cred (tallyAt (sndCell c 6 0) () Nf) ∗ atPos ER (sndCell c 6 0) 0 ∅ 0
        ∗ cred (tallyAt (sndCell c 6 1) () Nf) ∗ atPos ER (sndCell c 6 1) 0 ∅ 0)
      ⊢ iprop((∀ r, iprop(owesX c 0 ∗ atPos ER (sndCell c 5 2) 1 ∅ 0 ∗ atPos ER (sndCell c 5 1) 1 ∅ 0 ∗ atPos ER (sndCell c 6 2) 1 ∅ 0
            ∗ pts (F := F) stgM c (q4 2) (outBlk m c) ∗ atPos ER (sndCell c 6 0) 1 ∅ 0 ∗ pts (F := F) stgM c (q4 0) (outBlk m c)
            ∗ atPos ER (sndCell c 6 1) 1 ∅ 0 ∗ pts (F := F) stgM c (q4 1) (outBlk m c)) -∗ Q r)
          -∗ wp frame (wpE (defs₀ (F := F)) 𝒱₀ (c : Thread nD τ) none) Set.univ
            (.op (.waitDma2 ((cc0_scratch8.slice (Rect.unit (s := S7x3) ![5, 2] S1x1.size inb_S7x3_S1x1_5_2)).squeeze S_ squeezes_S1x1_S_).sem
                (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024)
                ((Memref.whole cc0_scratch2 : Memref sig .tc .vmem S256x1024 .bf16).slice (Rect.unit (s := S256x1024) (k0_off6 c 3#32) S64x1024.size (k0_off6_inb c 2)) (fun _ => rfl)) hs0 hd0) fun _ =>
              .op (.waitDma2 ((cc0_scratch8.slice (Rect.unit (s := S7x3) ![5, 1] S1x1.size inb_S7x3_S1x1_5_1)).squeeze S_ squeezes_S1x1_S_).sem
                (((Memref.whole cc0_scratch1 : Memref sig .tc .vmem S3x4x64x1024 .bf16).slice (Rect.unit (s := S3x4x64x1024) (k0_off30 c) S1x1x64x1024.size (k0_off30_inb c)) (fun _ => rfl)).squeeze S64x1024 squeezes_S1x1x64x1024_S64x1024)
                ((Memref.whole cc0_scratch2 : Memref sig .tc .vmem S256x1024 .bf16).slice (Rect.unit (s := S256x1024) (k0_off6 c 2#32) S64x1024.size (k0_off6_inb c 1)) (fun _ => rfl)) hs1 hd1) fun _ =>
              .op (.waitDma2 ((cc0_scratch8.slice (Rect.unit (s := S7x3) ![6, 2] S1x1.size inb_S7x3_S1x1_6_2)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs2 hd2) fun _ =>
              .op (.waitDma2 ((cc0_scratch8.slice (Rect.unit (s := S7x3) ![6, 0] S1x1.size inb_S7x3_S1x1_6_0)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs3 hd3) fun _ =>
              .op (.waitDma2 ((cc0_scratch8.slice (Rect.unit (s := S7x3) ![6, 1] S1x1.size inb_S7x3_S1x1_6_1)).squeeze S_ squeezes_S1x1_S_).sem
                ((Memref.whole main_v1 : Memref sig .tc .hbm S256x1024 .f32).slice (Rect.unit (s := S256x1024) (k0_off3 c) S64x1024.size (k0_off3_inb c)) (fun _ => rfl))
                (Memref.whole cc0_scratch7 : Memref sig .tc .vmem S64x1024 .f32) hs4 hd4) fun _ =>
              .ret ⟨⟩) Q) := by
  simp only [rs2_own c, ps_p3 c, ps_p2 c, out_own c, snd_5_2, snd_5_1, snd_6_2, snd_6_0, snd_6_1]
  exact tail_spec m c K

end Cert.Kernel.Dist
-- ==== Proof.BBody.lean ====
import proofs.«900988_g7700000000000989_dist_mlpseq_tp1d_bs_rep_b64_d1024_h2048_v7x_i4_f32_1_alg».proof.Proof.BXstg
import proofs.«900988_g7700000000000989_dist_mlpseq_tp1d_bs_rep_b64_d1024_h2048_v7x_i4_f32_1_alg».proof.Proof.BBodyClose
import proofs.«900988_g7700000000000989_dist_mlpseq_tp1d_bs_rep_b64_d1024_h2048_v7x_i4_f32_1_alg».proof.Proof.BBodyPC
import proofs.«900988_g7700000000000989_dist_mlpseq_tp1d_bs_rep_b64_d1024_h2048_v7x_i4_f32_1_alg».proof.Proof.BBodyPC2
import proofs.«900988_g7700000000000989_dist_mlpseq_tp1d_bs_rep_b64_d1024_h2048_v7x_i4_f32_1_alg».proof.Proof.BBodyPS
import proofs.«900988_g7700000000000989_dist_mlpseq_tp1d_bs_rep_b64_d1024_h2048_v7x_i4_f32_1_alg».proof.Proof.BBodyPS2
import proofs.«900988_g7700000000000989_dist_mlpseq_tp1d_bs_rep_b64_d1024_h2048_v7x_i4_f32_1_alg».proof.Proof.BBodyPM
import proofs.«900988_g7700000000000989_dist_mlpseq_tp1d_bs_rep_b64_d1024_h2048_v7x_i4_f32_1_alg».proof.Proof.BBodyPM2
import proofs.«900988_g7700000000000989_dist_mlpseq_tp1d_bs_rep_b64_d1024_h2048_v7x_i4_f32_1_alg».proof.Proof.BBodyPV
import proofs.«900988_g7700000000000989_dist_mlpseq_tp1d_bs_rep_b64_d1024_h2048_v7x_i4_f32_1_alg».proof.Proof.BBodyPV3
import proofs.«900988_g7700000000000989_dist_mlpseq_tp1d_bs_rep_b64_d1024_h2048_v7x_i4_f32_1_alg».proof.Proof.BBodyP50
import proofs.«900988_g7700000000000989_dist_mlpseq_tp1d_bs_rep_b64_d1024_h2048_v7x_i4_f32_1_alg».proof.Proof.BBodyTail

noncomputable section

namespace Cert.Kernel.Dist

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem cfg0_N : cfg0.N = 1 := rfl

def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev xOwn (X : (cc0_stg0_0 : Ref sig .tc).ty.Contents (Elt F)) : sProp 𝕄 :=
  owns (Ix := Unit) (Name := ℕ) (U := UU) (Lvl := ℕ) (c : Thread nD τ) (Memref.whole cc0_stg0_0 : Memref sig .tc .vmem S64x1024 .f32) fullShare X

def bodyPre : sProp 𝕄 :=
  iprop(Φ₀ m c ∗ (dats m ρ 0 c).owesAt () t₀.castSucc ∗ (∃ d, xOwn (F := F) c ((dats m ρ 0 c).before (0 : Fin 1) t₀ d)))
def bodyPost : sProp 𝕄 :=
  iprop(Φ₁ m c ∗ (dats m ρ 0 c).owesAt () t₀.succ ∗ xOwn (F := F) c ((dats m ρ 0 c).after (0 : Fin 1) t₀))

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem barKit_open : barKit (F := F) c ⊢ iprop(dutyTok ER (barCell (pr c 1)) 0 c ∗ dutyTok ER (barCell (pr c 2)) 0 c
    ∗ dutyTok ER (barCell (pr c 3)) 0 c ∗ cred (tallyAt (barCell c) () 3) ∗ atPos ER (barCell c) 0 ∅ 0) := by
  unfold barKit; rw [bigSep_fin3]
  iintro ⟨⟨A, B, C⟩, D, E⟩
  isplitl [A]; · iexact A
  isplitl [B]; · iexact B
  isplitl [C]; · iexact C
  iframe

theorem sndKit_open (p : Fin 7) : sndKit (F := F) c p ⊢ iprop(
    (dutyTok ER (sndCell c p 0) 0 c ∗ atPos ER (sndCell c p 0) 0 ∅ 0 ∗ dutyTok ER (rcvCell (pr c 1) p c) 0 c)
    ∗ (dutyTok ER (sndCell c p 1) 0 c ∗ atPos ER (sndCell c p 1) 0 ∅ 0 ∗ dutyTok ER (rcvCell (pr c 2) p c) 0 c)
    ∗ (dutyTok ER (sndCell c p 2) 0 c ∗ atPos ER (sndCell c p 2) 0 ∅ 0 ∗ dutyTok ER (rcvCell (pr c 3) p c) 0 c)) := by
  exact Entails.of_eq (bigSep_fin3 _)

theorem rcvKit_open (p : Fin 7) (N : ℕ) (hN : amt p = N) : rcvKit (F := F) c p ⊢ iprop(
    (cred (tallyAt (rcvCell c p (pr c 1)) () N) ∗ atPos ER (rcvCell c p (pr c 1)) 0 ∅ 0)
    ∗ (cred (tallyAt (rcvCell c p (pr c 2)) () N) ∗ atPos ER (rcvCell c p (pr c 2)) 0 ∅ 0)
    ∗ (cred (tallyAt (rcvCell c p (pr c 3)) () N) ∗ atPos ER (rcvCell c p (pr c 3)) 0 ∅ 0)) := by
  subst hN
  exact Entails.of_eq (bigSep_fin3 _)

theorem wcpKit_open (l : Fin 3) : wcpKit (F := F) c l ⊢ iprop(
    (dutyTok ER (wcpCell c l 0) 0 c ∗ atPos ER (wcpCell c l 0) 0 ∅ 0)
    ∗ (dutyTok ER (wcpCell c l 1) 0 c ∗ atPos ER (wcpCell c l 1) 0 ∅ 0)) := by
  exact Entails.of_eq (bigSep_fin2 _)

theorem wts_open : wts m c ⊢ iprop(
    pts (F := F) (Memref.whole main_arg1 : Memref sig .tc .hbm S1024x2048 .f32) c fullShare (W1 (F := F) m 0 c)
    ∗ pts (F := F) (Memref.whole main_arg2 : Memref sig .tc .hbm S2048x1024 .f32) c fullShare (W2 (F := F) m 0 c)
    ∗ pts (F := F) (Memref.whole main_arg3 : Memref sig .tc .hbm S1024x2048 .f32) c fullShare (W1 (F := F) m 1 c)
    ∗ pts (F := F) (Memref.whole main_arg4 : Memref sig .tc .hbm S2048x1024 .f32) c fullShare (W2 (F := F) m 1 c)
    ∗ pts (F := F) (Memref.whole main_arg5 : Memref sig .tc .hbm S1024x2048 .f32) c fullShare (W1 (F := F) m 2 c)
    ∗ pts (F := F) (Memref.whole main_arg6 : Memref sig .tc .hbm S2048x1024 .f32) c fullShare (W2 (F := F) m 2 c)) := by
  unfold wts pts
  simp only [Memref.view_whole, View.set_whole]
  exact .rfl

theorem outKit_open : outKit (F := F) c ⊢ iprop(dutyTok ER (outCell c) 0 c ∗ atPos ER (outCell c) 0 ∅ 0) := by
  unfold outKit; exact .rfl

theorem owesAt_of_owesX : owesX (F := F) c 0 ⊢ (dats m ρ 0 c).owesAt () t₀.succ := by
  unfold owesX
  iintro ⟨%W, H⟩
  iexists W
  isplitr
  · ipureintro; exact fun x _ => Or.inl (Set.mem_univ x)
  · iexact H

set_option maxHeartbeats 4000000 in
theorem sound_body_upd : bodyPre m ρ c ⊢ wp frame (wpE (defs₀ (F := F)) 𝒱₀ (c : Thread nD τ) none) Set.univ (BODY (F := F))
    (fun _ => iprop(|={Set.univ}=> (Φ₁ m c ∗ (dats m ρ 0 c).owesAt () t₀.succ ∗ xOwn (F := F) c (X (F := F) m c)))) := by
  unfold BODY atArgs
  rw [cc0_body_eq_skeleton]; unfold cc0_body_skel
  rw [k0_part55_eq_skeleton]; unfold k0_part55_skel
  simp only [wp_bind, Prog.bind_assoc, Prog.lift, Prog.bind_op, Prog.bind_ret, Prog.pure_eq_ret]
  unfold bodyPre Φ₀
  simp only [before_eq m ρ c]
  iintro ⟨⟨Hst, Hsc⟩, Ho, ⟨%d, Hx⟩⟩
  ihave Hinv := (opening m c ρ t₀.castSucc rfl) $$ [$]
  icases Hinv with ⟨%K, Hinv⟩
  unfold inventory
  icases Hinv with ⟨#Hrec, #Hlev, Hbar, Hph, Hwc, Hout, Hidle, Hwts, Ho, Bp1, Bp2, Bp3, A0, A1, A2, R0, R1, R2,
    S0, S1, S2, S3, V10, V11, V20, V21, B10, B11, B20, B21, Hstg, Hoc⟩

  icases (barKit_open c) $$ Hbar with ⟨Tb1, Tb2, Tb3, Cb, Pb⟩
  ihave Hph := (Entails.of_eq (bigSep_seven _)) $$ Hph
  ihave Hwc := (Entails.of_eq (bigSep_fin3 _)) $$ Hwc
  icases Hph with ⟨⟨Ks0, Kr0⟩, ⟨Ks1, Kr1⟩, ⟨Ks2, Kr2⟩, ⟨Ks3, Kr3⟩, ⟨Ks4, Kr4⟩, ⟨Ks5, Kr5⟩, ⟨Ks6, Kr6⟩⟩
  icases Hwc with ⟨Kw0, Kw1, Kw2⟩
  icases (wcpKit_open c 0) $$ Kw0 with ⟨⟨Tw00, Pw00⟩, ⟨Tw01, Pw01⟩⟩
  icases (wcpKit_open c 1) $$ Kw1 with ⟨⟨Tw10, Pw10⟩, ⟨Tw11, Pw11⟩⟩
  icases (wcpKit_open c 2) $$ Kw2 with ⟨⟨Tw20, Pw20⟩, ⟨Tw21, Pw21⟩⟩
  icases (wts_open m c) $$ Hwts with ⟨Wa1, Wa2, Wa3, Wa4, Wa5, Wa6⟩

  iapply (part1_spec m c K) $$ [$]
  iintro %r1 ⟨%h1, Cw00, Cw01, Cw10, Cw11⟩
  obtain ⟨d0, v2, v19, v22, v23, v24, v25, c0w⟩ := r1
  obtain ⟨hd0, hv19⟩ := h1
  dsimp only at hd0 hv19
  subst d0 v19

  iapply (part2_spec m c K _ _ bar_sem) $$ [$]
  iintro %r2 Ho

  iapply (part3_spec m c K) $$ [$]
  iintro %r3 ⟨Ho, Pb, La10, La11, La12, Lr10, Lr11, Lr12, Lo1, La20, La21, La22, Lr20, Lr21, Lr22, Lo2,
    La30, La31, La32, Lr30, Lr31, Lr32, Lo3, Hx, A0⟩
  ihave A0 := (pts_quarters (actsM 0 c) c (actsB m)).1 $$ A0
  icases A0 with ⟨A0q0, A0q1, A0q2, A0q3⟩

  icases (sndKit_open c 0) $$ Ks0 with ⟨⟨Ts00, Ps00, Tr00⟩, ⟨Ts01, Ps01, Tr01⟩, ⟨Ts02, Ps02, Tr02⟩⟩
  iapply (part4_spec m c K) $$ [$]
  iintro %r4 ⟨Cs02, Cs00, Ho⟩
  iapply (part5_spec m c K) $$ [$]
  iintro %r5 ⟨Ho, Cs01, Pw00, V10, Wa1, Pw01, V20, Wa2⟩

  iapply (part6_spec m c K) $$ [$]
  iintro %r6 ⟨%h6, B10, B20, Cw20, Cw21⟩
  obtain ⟨v171, v173, v174, c4a, c0a⟩ := r6
  obtain ⟨h6a, h6b⟩ := h6
  dsimp only at h6a h6b
  subst v171 v173

  icases (rcvKit_open c 0 Nh rfl) $$ Kr0 with ⟨⟨Cr01, Pr01⟩, ⟨Cr02, Pr02⟩, ⟨Cr03, Pr03⟩⟩
  iapply (part7_spec m c K) $$ [$]
  iintro %r7 ⟨Ho, Pr01, A0p1⟩
  iapply (part8_spec m c K) $$ [$]
  iintro %r8 ⟨Ho, Pr03, A0p3⟩
  iapply (part9_spec m c K) $$ [$]
  iintro %r9
  iapply (part10_spec m c K) $$ [$]
  iintro %r10 ⟨Ho, Pr02, A0q3, A0p1, A0p2, A0p3, S0, S1, S2, S3⟩

  icases (sndKit_open c 1) $$ Ks1 with ⟨⟨Ts10, Ps10, Tr10⟩, ⟨Ts11, Ps11, Tr11⟩, ⟨Ts12, Ps12, Tr12⟩⟩
  iapply (part11_spec m c K) $$ [$]
  iintro %r11 ⟨Cs10, Ho⟩
  iapply (part12_spec m c K) $$ [$]
  iintro %r12 ⟨Cs12, Ho⟩
  iapply (part13_spec m c K) $$ [$]
  iintro %r13 ⟨Ho, Cs11, Pw10, Pw11, V11, Wa3, V21, Wa4, B11, B21⟩

  iapply (part14_spec m c K) $$ [$]
  iintro %r14 ⟨Ho, Ps02, A0q2, Ps00, A0q0⟩
  icases (rcvKit_open c 1 Nh rfl) $$ Kr1 with ⟨⟨Cr11, Pr11⟩, ⟨Cr12, Pr12⟩, ⟨Cr13, Pr13⟩⟩
  iapply (part15_spec m c K) $$ [$]
  iintro %r15 ⟨Ho, Ps01, A0q1, Pr11, R0p1, X0p1⟩
  iapply (part16_spec m c K) $$ [$]
  iintro %r16 ⟨Ho, Pr13, R0p3, X0p3⟩
  iapply (part17_spec m c K) $$ [$]
  iintro %r17 ⟨Ho, Pr12, R0p2, X0p2, S0, %h17⟩

  iapply (part18_spec m c K _ r17.1) $$ [$]
  iintro %r18 ⟨R0p1, R0p2, %h18⟩
  have hv19 : r18.1 = sum0 m c := by rw [h18, h17]; rfl
  iapply (part19_spec m c K _ r18.1 hv19) $$ [$]
  iintro %r19 ⟨R0p3, A1⟩
  ihave A1 := (pts_quarters (actsM 1 c) c (actsB m)).1 $$ A1
  icases A1 with ⟨A1q0, A1q1, A1q2, A1q3⟩

  icases (sndKit_open c 2) $$ Ks2 with ⟨⟨Ts20, Ps20, Tr20⟩, ⟨Ts21, Ps21, Tr21⟩, ⟨Ts22, Ps22, Tr22⟩⟩
  iapply (part20_spec m c K) $$ [$]
  iintro %r20 ⟨Cs22, Ho⟩
  iapply (part21_spec m c K) $$ [$]
  iintro %r21 ⟨Cs20, Cs21, B11, Ho, %h21⟩
  iapply (part22_spec m c K) $$ [$]
  iintro %r22 ⟨B21, %h22⟩
  subst r21 r22

  icases (rcvKit_open c 2 Nh rfl) $$ Kr2 with ⟨⟨Cr21, Pr21⟩, ⟨Cr22, Pr22⟩, ⟨Cr23, Pr23⟩⟩
  iapply (part23_spec m c K) $$ [$]
  iintro %r23 ⟨Ho, Pr21, A1p1, S1⟩
  iapply (part24_spec m c K) $$ [$]
  iintro %r24 ⟨Ho, Pr23, A1p3, S3⟩
  iapply (part25_spec m c K) $$ [$]
  iintro %r25 ⟨Ho, Pr22, A1q3, A1p1, A1p2, A1p3, S0, S1, S2, S3⟩

  icases (sndKit_open c 3) $$ Ks3 with ⟨⟨Ts30, Ps30, Tr30⟩, ⟨Ts31, Ps31, Tr31⟩, ⟨Ts32, Ps32, Tr32⟩⟩
  iapply (part26_spec m c K) $$ [$]
  iintro %r26 ⟨Cs30, Ho⟩
  iapply (part27_spec m c K) $$ [$]
  iintro %r27 ⟨Cs32, Ho⟩
  iapply (part28_spec m c K) $$ [$]
  iintro %r28 ⟨%h28, Ho, Cs31, Pw20, Pw21, V10, Wa5, V20, Wa6, B10⟩
  iapply (part29_spec m c K r28 h28) $$ [$]
  iintro %r29 ⟨Ho, B20, Ps10, Ps12, Ps11⟩
  iapply (part30_spec m c K) $$ [$]
  iintro %r30 ⟨Ho, Ps22, A1q2, Ps20, A1q0, Ps21, A1q1⟩

  icases (rcvKit_open c 3 Nh rfl) $$ Kr3 with ⟨⟨Cr31, Pr31⟩, ⟨Cr32, Pr32⟩, ⟨Cr33, Pr33⟩⟩
  iapply (part31_spec m c K) $$ [$]
  iintro %r31 ⟨Ho, Pr31, R1p1, X1p1⟩
  iapply (part32_spec m c K) $$ [$]
  iintro %r32 ⟨Ho, Pr33, R1p3, X1p3⟩
  iapply (part33_spec m c K) $$ [$]
  iintro %r33 ⟨Ho, Pr32, R1p2, X1p2, S0, %h33⟩
  iapply (part34_spec m c K _ r33.1) $$ [$]
  iintro %r34 ⟨R1p1, R1p2, R1p3, %h34⟩
  have hv35 : r34.1 = sum1 m c := by rw [h34.1, h33]; rfl
  iapply (part35_spec m c K _ r34.1 hv35 r34.2 h34.2) $$ [$]
  iintro %r35 A2
  ihave A2 := (pts_quarters (actsM 2 c) c (actsB m)).1 $$ A2
  icases A2 with ⟨A2q0, A2q1, A2q2, A2q3⟩

  icases (sndKit_open c 4) $$ Ks4 with ⟨⟨Ts40, Ps40, Tr40⟩, ⟨Ts41, Ps41, Tr41⟩, ⟨Ts42, Ps42, Tr42⟩⟩
  iapply (part36_spec m c K) $$ [$]
  iintro %r36 ⟨Cs42, Cs40, Ho⟩
  iapply (part37_spec m c K) $$ [$]
  iintro %r37 ⟨Cs41, B10, B20, Ho, %h37⟩
  obtain ⟨v1144, v1146, v1149, v1150⟩ := r37
  obtain ⟨h37a, h37b⟩ := h37
  dsimp only at h37a h37b
  subst v1144 v1146

  icases (rcvKit_open c 4 Nh rfl) $$ Kr4 with ⟨⟨Cr41, Pr41⟩, ⟨Cr42, Pr42⟩, ⟨Cr43, Pr43⟩⟩
  iapply (part38_spec m c K) $$ [$]
  iintro %r38 ⟨Ho, Pr41, A2p1, S1⟩
  iapply (part39_spec m c K) $$ [$]
  iintro %r39 ⟨Ho, Pr43, A2p3, S3⟩
  iapply (part40_spec m c K) $$ [$]
  iintro %r40 ⟨Ho, Pr42, A2p2, S2⟩
  iapply (part41_spec m c K) $$ [$]
  iintro %r41 ⟨A2q3, A2p1, A2p2, A2p3, S0, S1, S2, S3⟩

  icases (sndKit_open c 5) $$ Ks5 with ⟨⟨Ts50, Ps50, Tr50⟩, ⟨Ts51, Ps51, Tr51⟩, ⟨Ts52, Ps52, Tr52⟩⟩
  iapply (part42_spec m c K) $$ [$]
  iintro %r42 ⟨Cs50, Ho⟩
  iapply (part43_spec m c K) $$ [$]
  iintro %r43 ⟨Cs52, Ho⟩
  iapply (part44_spec m c K) $$ [$]
  iintro %r44 ⟨Cs51, Ps30, Ps32, Ps31, Ho⟩
  iapply (part45_spec m c K) $$ [$]
  iintro %r45 ⟨Ho, Ps42, A2q2, Ps40, A2q0, Ps41, A2q1⟩

  icases (rcvKit_open c 5 Nh rfl) $$ Kr5 with ⟨⟨Cr51, Pr51⟩, ⟨Cr52, Pr52⟩, ⟨Cr53, Pr53⟩⟩
  iapply (part46_spec m c K) $$ [$]
  iintro %r46 ⟨Ho, Pr51, R2p1, X2p1⟩
  iapply (part47_spec m c K) $$ [$]
  iintro %r47 ⟨Ho, Pr53, R2p3, X2p3⟩
  iapply (part48_spec m c K) $$ [$]
  iintro %r48 ⟨Ho, Pr52, R2p2, X2p2, S0, %h48⟩
  iapply (part49_spec m c K _ r48.1) $$ [$]
  iintro %r49 ⟨R2p1, R2p2, %h49⟩
  have hv50 : r49 = sum2 m c := by rw [h49, h48]; rfl

  icases (sndKit_open c 6) $$ Ks6 with ⟨⟨Ts60, Ps60, Tr60⟩, ⟨Ts61, Ps61, Tr61⟩, ⟨Ts62, Ps62, Tr62⟩⟩
  icases (outKit_open c) $$ Hout with ⟨Tout, Pout⟩
  iapply (part50_spec_of m c K _ r49 hv50) $$ [$]
  iintro %r50 ⟨Ho, R2p3, Gq0, Gq1, Cout, Cs62⟩
  iapply (part51_spec m c K) $$ [$]
  iintro %r51 ⟨Cs60, Ho⟩
  icases (rcvKit_open c 6 Nf rfl) $$ Kr6 with ⟨⟨Cr61, Pr61⟩, ⟨Cr62, Pr62⟩, ⟨Cr63, Pr63⟩⟩
  iapply (part52_spec m c K) $$ [$]
  iintro %r52 ⟨Cs61, Pr61, O1, S1, Ho⟩
  iapply (part53_spec m c K) $$ [$]
  iintro %r53 ⟨Ho, Pr63, O3, S3⟩
  iapply (part54_spec m c K) $$ [$]
  iintro %r54 ⟨Ho, Pr62, O2, S2, Pout, O0, Gq3, Ps50⟩

  iapply (tail_printed_spec m c K) $$ [$]
  iintro %rt ⟨Ho, Ps52, Ps51, Ps62, Gq2, Ps60, Gq0, Ps61, Gq1⟩

  have hcl := closing m c K
  unfold finalInv at hcl
  imod hcl $$ [$] with ⟨HΦ, Ho⟩
  imodintro
  iframe HΦ Hx
  iapply (owesAt_of_owesX m ρ c) $$ Ho

theorem sound_body : bodyPre m ρ c ⊢ wp frame (wpE (defs₀ (F := F)) 𝒱₀ (c : Thread nD τ) none) Set.univ (BODY (F := F))
    (fun _ => bodyPost m ρ c) := by
  unfold bodyPost
  rw [after_eq m ρ c]
  exact (sound_body_upd m ρ c).trans (wp_fupd _ _ _ _ _)

theorem body_obligation : BodyObligation (dats (F := F) m ρ 0 c) (defs₀ (F := F)) 𝒱₀ () Set.univ := fun t => by
  rw [fin_N t]
  rw [bigSep_W0, bigSep_W0]
  exact sound_body m ρ c

end Cert.Kernel.Dist

end
-- ==== Proof.VSpec.lean ====
import Mathlib.Data.EReal.Basic
import Mathlib.Algebra.BigOperators.Fin
import Mathlib.Logic.Equiv.Fin.Basic
import Mathlib.Tactic.Abel
import Mathlib.Tactic.IntervalCases

noncomputable section

open scoped BigOperators

namespace Cert.Spec

def layer (a : Fin 256 → Fin 1024 → EReal) (w1 : Fin 1024 → Fin 8192 → EReal) (w2 : Fin 8192 → Fin 1024 → EReal) :
    Fin 256 → Fin 1024 → EReal :=
  fun R n => ∑ k : Fin 8192, max (∑ j : Fin 1024, a R j * w1 j k) 0 * w2 k n

def col (s : Fin 4) (k : Fin 2048) : Fin 8192 := ⟨2048 * s.val + k.val, by have := s.isLt; have := k.isLt; omega⟩

theorem sum_blocks {M : Type*} [AddCommMonoid M] (f : Fin 8192 → M) :
    ∑ s : Fin 4, ∑ k : Fin 2048, f (col s k) = ∑ k : Fin 8192, f k := by
  rw [← Fintype.sum_prod_type (f := fun p : Fin 4 × Fin 2048 => f (col p.1 p.2))]
  refine Fintype.sum_equiv (finProdFinEquiv (m := 4) (n := 2048)) _ _ fun p => ?_
  congr 1
  apply Fin.ext
  show 2048 * p.1.val + p.2.val = p.2.val + 2048 * p.1.val
  omega

theorem sum_ring {M : Type*} [AddCommMonoid M] (g : Fin 4 → M) (c : Fin 4) (p1 p2 p3 : Fin 4)
    (h1 : p1.val = (c.val + 1) % 4) (h2 : p2.val = (c.val + 2) % 4) (h3 : p3.val = (c.val + 3) % 4) :
    g c + g p1 + g p2 + g p3 = ∑ s : Fin 4, g s := by
  obtain rfl : p1 = ⟨_, Nat.mod_lt _ (by decide)⟩ := Fin.ext h1
  obtain rfl : p2 = ⟨_, Nat.mod_lt _ (by decide)⟩ := Fin.ext h2
  obtain rfl : p3 = ⟨_, Nat.mod_lt _ (by decide)⟩ := Fin.ext h3
  rw [Fin.sum_univ_four]
  rcases c with ⟨c, hc⟩
  interval_cases c <;> abel_nf!

theorem layer_blocks (a : Fin 256 → Fin 1024 → EReal) (w1 : Fin 1024 → Fin 8192 → EReal) (w2 : Fin 8192 → Fin 1024 → EReal)
    (R : Fin 256) (n : Fin 1024) :
    ∑ s : Fin 4, ∑ k : Fin 2048, max (∑ j : Fin 1024, a R j * w1 j (col s k)) 0 * w2 (col s k) n = layer a w1 w2 R n :=
  sum_blocks fun k => max (∑ j : Fin 1024, a R j * w1 j k) 0 * w2 k n

end Cert.Spec

end
-- ==== Proof.VRef.lean ====
import proofs.«900988_g7700000000000989_dist_mlpseq_tp1d_bs_rep_b64_d1024_h2048_v7x_i4_f32_1_alg».proof.Defs
import proofs.«900988_g7700000000000989_dist_mlpseq_tp1d_bs_rep_b64_d1024_h2048_v7x_i4_f32_1_alg».proof.Proof.Gen.ReferenceIdeal.Run
import proofs.«900988_g7700000000000989_dist_mlpseq_tp1d_bs_rep_b64_d1024_h2048_v7x_i4_f32_1_alg».proof.Proof.Gen.ReferenceIdeal.Read
import proofs.«900988_g7700000000000989_dist_mlpseq_tp1d_bs_rep_b64_d1024_h2048_v7x_i4_f32_1_alg».proof.Proof.VSpec
import Idealize.ShloMosaic.PureOps.Ideal.Laws
import Idealize.ShloMosaic.Lib.ValueIdx

noncomputable section

open scoped BigOperators

namespace Cert.ReferenceIdeal.Layers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

theorem stage_apply (y : (⟨S256x1024, .f32⟩ : BufTy).Contents (Elt Ideal)) (w1 : (⟨S1024x8192, .f32⟩ : BufTy).Contents (Elt Ideal))
    (w2 : (⟨S8192x1024, .f32⟩ : BufTy).Contents (Elt Ideal)) (R : Fin 256) (n : Fin 1024) :
    val_main_v3 (F := Ideal) y w1 w2 (ix2 R n)
      = Cert.Spec.layer (fun R j => y (ix2 R j)) (fun j k => w1 (ix2 j k)) (fun k n => w2 (ix2 k n)) R n := by
  rw [val_main_v3_apply]
  unfold Cert.Spec.layer
  refine Finset.sum_congr rfl fun k _ => ?_
  have hl : lidx_main_v3 (ix2 R n) k = ix2 R k := funext fun a => match a with | ⟨0, _⟩ => rfl | ⟨1, _⟩ => rfl
  have hr : ridx_main_v3 (ix2 R n) k = ix2 k n := funext fun a => match a with | ⟨0, _⟩ => rfl | ⟨1, _⟩ => rfl
  rw [hl, hr, val_main_v2_apply, val_main_v0_apply, val_main_v1_apply, val_main_cst_apply]
  congr 1
  show max _ _ = max _ _
  congr 1
  · refine Finset.sum_congr rfl fun j _ => ?_
    have hl0 : lidx_main_v0 (ix2 R k) j = ix2 R j := funext fun a => match a with | ⟨0, _⟩ => rfl | ⟨1, _⟩ => rfl
    have hr0 : ridx_main_v0 (ix2 R k) j = ix2 j k := funext fun a => match a with | ⟨0, _⟩ => rfl | ⟨1, _⟩ => rfl
    rw [hl0, hr0]
  · exact Ideal.ofBits_zero_f32

theorem val_main_v11_stages (x0 : (⟨S256x1024, .f32⟩ : BufTy).Contents (Elt Ideal)) (x1 : (⟨S1024x8192, .f32⟩ : BufTy).Contents (Elt Ideal))
    (x2 : (⟨S8192x1024, .f32⟩ : BufTy).Contents (Elt Ideal)) (x3 : (⟨S1024x8192, .f32⟩ : BufTy).Contents (Elt Ideal))
    (x4 : (⟨S8192x1024, .f32⟩ : BufTy).Contents (Elt Ideal)) (x5 : (⟨S1024x8192, .f32⟩ : BufTy).Contents (Elt Ideal))
    (x6 : (⟨S8192x1024, .f32⟩ : BufTy).Contents (Elt Ideal)) :
    val_main_v11 (F := Ideal) x0 x1 x2 x3 x4 x5 x6
      = val_main_v3 (F := Ideal) (val_main_v3 (F := Ideal) (val_main_v3 (F := Ideal) x0 x1 x2) x3 x4) x5 x6 := rfl

theorem val_main_v11_layers (x0 : (⟨S256x1024, .f32⟩ : BufTy).Contents (Elt Ideal)) (x1 : (⟨S1024x8192, .f32⟩ : BufTy).Contents (Elt Ideal))
    (x2 : (⟨S8192x1024, .f32⟩ : BufTy).Contents (Elt Ideal)) (x3 : (⟨S1024x8192, .f32⟩ : BufTy).Contents (Elt Ideal))
    (x4 : (⟨S8192x1024, .f32⟩ : BufTy).Contents (Elt Ideal)) (x5 : (⟨S1024x8192, .f32⟩ : BufTy).Contents (Elt Ideal))
    (x6 : (⟨S8192x1024, .f32⟩ : BufTy).Contents (Elt Ideal)) (R : Fin 256) (n : Fin 1024) :
    val_main_v11 (F := Ideal) x0 x1 x2 x3 x4 x5 x6 (ix2 R n)
      = Cert.Spec.layer
          (Cert.Spec.layer
            (Cert.Spec.layer (fun R j => x0 (ix2 R j)) (fun j k => x1 (ix2 j k)) (fun k n => x2 (ix2 k n)))
            (fun j k => x3 (ix2 j k)) (fun k n => x4 (ix2 k n)))
          (fun j k => x5 (ix2 j k)) (fun k n => x6 (ix2 k n)) R n := by
  simp only [val_main_v11_stages, stage_apply]

end Cert.ReferenceIdeal.Layers

end
-- ==== Proof.LibPlainDot.lean ====
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

theorem contr_rank : (DotDims.plain M K N).contr.rank = 1 := rfl

theorem contr_size : (DotDims.plain M K N).contr.size ⟨0, by rw [contr_rank]; exact Nat.one_pos⟩ = K := rfl

abbrev inner : (DotDims.plain M K N).contr.Idx ≃ Fin K :=
  contrEquiv1 (DotDims.plain M K N) K contr_rank contr_size

theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (inner (M := M) (K := K) (N := N)).symm]
  exact Finset.sum_congr rfl fun k _ =>
    congrArg₂ (· * ·) (congrArg l (lhsIdx_inner j k)) (congrArg r (rhsIdx_inner j k))

end Cert.LibPlainDot

end
-- ==== Proof.VKer.lean ====
import proofs.«900988_g7700000000000989_dist_mlpseq_tp1d_bs_rep_b64_d1024_h2048_v7x_i4_f32_1_alg».proof.Proof.DVals
import proofs.«900988_g7700000000000989_dist_mlpseq_tp1d_bs_rep_b64_d1024_h2048_v7x_i4_f32_1_alg».proof.Proof.LibPlainDot
import Idealize.ShloMosaic.PureOps.Ideal.Laws
import Idealize.ShloMosaic.Lib.ValueLayout

noncomputable section

open scoped BigOperators

namespace Cert.KernelIdeal.Dist

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem pay6_apply (w1 : FVec Ideal S1024x2048 .bf16) (w2 : FVec Ideal S2048x1024 .bf16) (a : Vec Ideal S1x256x1024 .bf16)
    (R : Fin 256) (n : Fin 1024) :
    k0_pay6 (F := Ideal) w1 w2 a (ix2 R n)
      = ∑ k : Fin 2048, max (∑ j : Fin 1024, a (ix3 (0 : Fin 1) R j) * w1 (ix2 j k)) 0 * w2 (ix2 k n) := by
  simp only [k0_pay6, shapeCast_self]
  rw [truncf_apply]
  refine (Cert.LibPlainDot.matmul_zero_apply none _ w2 (ix2 R n)).trans (Finset.sum_congr rfl fun k _ => ?_)
  congr 1
  rw [truncf_apply, maximumf_apply]
  congr 1
  · exact (Cert.LibPlainDot.matmul_zero_apply none _ w1 (ix2 R k)).trans
      (Finset.sum_congr rfl fun j _ => congrArg (· * w1 (ix2 j k)) (shapeCast_1ab_ab_apply ..))
  · exact Ideal.ofBits_zero_f32

private theorem wb1_apply (l : Fin 3) (s : Dev nD) (j : Fin 1024) (k : Fin 2048) : wb1 m l s (ix2 j k) = W1 m l s (ix2 j k) := by
  match l with
  | 0 | 1 | 2 =>
    simp only [wb1, k0_pay4, k0_pay2, k0_pay12, k0_pay7, k0_pay21, k0_pay15, shapeCast_shapeCast]
    rw [truncf_apply, shapeCast_1ab_ab_apply]; rfl
private theorem wb2_apply (l : Fin 3) (s : Dev nD) (k : Fin 2048) (n : Fin 1024) : wb2 m l s (ix2 k n) = W2 m l s (ix2 k n) := by
  match l with
  | 0 | 1 | 2 =>
    simp only [wb2, k0_pay5, k0_pay3, k0_pay13, k0_pay8, k0_pay22, k0_pay17, k0_pay16, shapeCast_shapeCast]
    rw [truncf_apply, shapeCast_1ab_ab_apply]; rfl

theorem blk0_apply (s : Dev nD) (u : Fin 1) (r : Fin 64) (j : Fin 1024) : blk0 m s (ix3 u r j) = X m s (ix2 r j) := by
  show k0_pay1 (X (F := Ideal) m s) (ix3 u r j) = _
  simp only [k0_pay1, shapeCast_self]
  rw [shapeCast_ab_1ab_apply, truncf_apply]

theorem act0_apply (R : Fin 256) (j : Fin 1024) : act0 m (ix3 (0 : Fin 1) R j) = X m (rowDev R) (ix2 (rowIn R) j) :=
  blk0_apply m (rowDev R) 0 (rowIn R) j

theorem add4_f32_apply (p0 p1 p2 p3 : Vec Ideal S256x1024 .bf16) (c : Dev nD) (r : Fin 64) (n : Fin 1024) :
    k0_pay26 (k0_pay10 (k0_pay9 (ownRows p0 c)) (rsBlk p1 c) (rsBlk p2 c)) (rsBlk p3 c) (ix2 r n)
      = p0 (ix2 (row64 c r) n) + p1 (ix2 (row64 c r) n) + p2 (ix2 (row64 c r) n) + p3 (ix2 (row64 c r) n) := by
  simp only [k0_pay26, k0_pay10, k0_pay9, shapeCast_self, addf_apply, extf_apply, shapeCast_11ab_ab_apply]
  rfl

theorem add4_bf16_apply (p0 p1 p2 p3 : Vec Ideal S256x1024 .bf16) (c : Dev nD) (u : Fin 1) (r : Fin 64) (n : Fin 1024) :
    k0_pay11 (k0_pay10 (k0_pay9 (ownRows p0 c)) (rsBlk p1 c) (rsBlk p2 c)) (rsBlk p3 c) (ix3 u r n)
      = p0 (ix2 (row64 c r) n) + p1 (ix2 (row64 c r) n) + p2 (ix2 (row64 c r) n) + p3 (ix2 (row64 c r) n) := by
  rw [← add4_f32_apply p0 p1 p2 p3 c r n]
  simp only [k0_pay11, k0_pay26, shapeCast_self]
  rw [shapeCast_ab_1ab_apply, truncf_apply]

def part (l : Fin 3) (a : Fin 256 → Fin 1024 → EReal) (s : Dev nD) (R : Fin 256) (n : Fin 1024) : EReal :=
  ∑ k : Fin 2048, max (∑ j : Fin 1024, a R j * W1 m l s (ix2 j k)) 0 * W2 m l s (ix2 k n)

def ringSum (g : Dev nD → EReal) (c : Dev nD) : EReal := g c + g (pr c 1) + g (pr c 2) + g (pr c 3)

private theorem ps_step (l : Fin 3) (a : Vec Ideal S1x256x1024 .bf16) (s : Dev nD) (R : Fin 256) (n : Fin 1024) :
    k0_pay6 (wb1 m l s) (wb2 m l s) a (ix2 R n) = part m l (fun R j => a (ix3 (0 : Fin 1) R j)) s R n := by
  rw [pay6_apply]
  simp only [wb1_apply, wb2_apply]
  rfl
theorem ps0_apply (s : Dev nD) (R : Fin 256) (n : Fin 1024) :
    ps0 m s (ix2 R n) = part m 0 (fun R j => act0 m (ix3 (0 : Fin 1) R j)) s R n := ps_step m 0 _ s R n
theorem ps1_apply (s : Dev nD) (R : Fin 256) (n : Fin 1024) :
    ps1 m s (ix2 R n) = part m 1 (fun R j => act1 m (ix3 (0 : Fin 1) R j)) s R n := ps_step m 1 _ s R n
theorem ps2_apply (s : Dev nD) (R : Fin 256) (n : Fin 1024) :
    ps2 m s (ix2 R n) = part m 2 (fun R j => act2 m (ix3 (0 : Fin 1) R j)) s R n := ps_step m 2 _ s R n

theorem act1_apply (R : Fin 256) (n : Fin 1024) :
    act1 m (ix3 (0 : Fin 1) R n)
      = ringSum (fun s => ps0 m s (ix2 (row64 (rowDev R) (rowIn R)) n)) (rowDev R) :=
  add4_bf16_apply _ _ _ _ _ 0 _ n

theorem act2_apply (R : Fin 256) (n : Fin 1024) :
    act2 m (ix3 (0 : Fin 1) R n)
      = ringSum (fun s => ps1 m s (ix2 (row64 (rowDev R) (rowIn R)) n)) (rowDev R) :=
  add4_bf16_apply _ _ _ _ _ 0 _ n

theorem outAll_apply (R : Fin 256) (n : Fin 1024) :
    outAll m (ix2 R n)
      = ringSum (fun s => ps2 m s (ix2 (row64 (rowDev R) (rowIn R)) n)) (rowDev R) :=
  add4_f32_apply _ _ _ _ _ _ n

theorem row64_rowDev_rowIn (R : Fin 256) : row64 (rowDev R) (rowIn R) = R := Fin.ext (Nat.div_add_mod R.val 64)

end Cert.KernelIdeal.Dist

end
-- ==== Proof.VJoin.lean ====
import proofs.«900988_g7700000000000989_dist_mlpseq_tp1d_bs_rep_b64_d1024_h2048_v7x_i4_f32_1_alg».proof.Proof.DVals
import proofs.«900988_g7700000000000989_dist_mlpseq_tp1d_bs_rep_b64_d1024_h2048_v7x_i4_f32_1_alg».proof.Proof.VSpec
import proofs.«900988_g7700000000000989_dist_mlpseq_tp1d_bs_rep_b64_d1024_h2048_v7x_i4_f32_1_alg».proof.Proof.VRef
import proofs.«900988_g7700000000000989_dist_mlpseq_tp1d_bs_rep_b64_d1024_h2048_v7x_i4_f32_1_alg».proof.Proof.VKer
import Idealize.ShloMosaic.Lib.Layout

noncomputable section

open scoped BigOperators

namespace Cert.KernelIdeal.Dist

open Idealize.ShloMosaic Idealize.ShloMosaic.TcCoe Idealize.SL.Sem
open Idealize.ShloMosaic.ValueIdx
open Cert.KernelIdeal Cert.KernelIdeal.Gen

section Blocks
variable {α : Type}

theorem block_rows64_apply (v : (⟨2, ![256, 1024]⟩ : Shape).Idx → α) (s : Fin 4)
    (h : Layout.Tiles ⟨2, ![64, 1024]⟩ ⟨2, ![256, 1024]⟩ 0 4) (r : Fin 64) (j : Fin 1024) :
    Layout.block ⟨2, ![64, 1024]⟩ ⟨2, ![256, 1024]⟩ 0 4 s v h (ix2 r j) = v (ix2 (row64 s r) j) :=
  congrArg v ((eq_ix2 _).trans (congrArg₂ ix2 (Fin.ext (congrArg (· + r.val) (Nat.mul_comm ..))) rfl))

theorem block_cols_apply (v : (⟨2, ![1024, 8192]⟩ : Shape).Idx → α) (s : Fin 4)
    (h : Layout.Tiles ⟨2, ![1024, 2048]⟩ ⟨2, ![1024, 8192]⟩ 1 4) (j : Fin 1024) (k : Fin 2048) :
    Layout.block ⟨2, ![1024, 2048]⟩ ⟨2, ![1024, 8192]⟩ 1 4 s v h (ix2 j k) = v (ix2 j (Cert.Spec.col s k)) :=
  congrArg v ((eq_ix2 _).trans (congrArg₂ ix2 rfl (Fin.ext (congrArg (· + k.val) (Nat.mul_comm ..)))))

theorem block_rows_apply (v : (⟨2, ![8192, 1024]⟩ : Shape).Idx → α) (s : Fin 4)
    (h : Layout.Tiles ⟨2, ![2048, 1024]⟩ ⟨2, ![8192, 1024]⟩ 0 4) (k : Fin 2048) (n : Fin 1024) :
    Layout.block ⟨2, ![2048, 1024]⟩ ⟨2, ![8192, 1024]⟩ 0 4 s v h (ix2 k n) = v (ix2 (Cert.Spec.col s k) n) :=
  congrArg v ((eq_ix2 _).trans (congrArg₂ ix2 (Fin.ext (congrArg (· + k.val) (Nat.mul_comm ..))) rfl))

end Blocks

variable (m : (ℓ : Loc nD τ sig) → Buf (Elt Ideal) ℓ)

theorem ring_parts (l : Fin 3) (a : Fin 256 → Fin 1024 → EReal) (V1 : FVec Ideal Cert.ReferenceIdeal.S1024x8192 .f32) (V2 : FVec Ideal Cert.ReferenceIdeal.S8192x1024 .f32)
    (h1 : ∀ s, W1 m l s = Layout.block ⟨2, ![1024, 2048]⟩ ⟨2, ![1024, 8192]⟩ 1 4 s V1) (h2 : ∀ s, W2 m l s = Layout.block ⟨2, ![2048, 1024]⟩ ⟨2, ![8192, 1024]⟩ 0 4 s V2) (c : Dev nD) (R : Fin 256) (n : Fin 1024) :
    ringSum (fun s => part m l a s R n) c = Cert.Spec.layer a (fun j k => V1 (ix2 j k)) (fun k n => V2 (ix2 k n)) R n := by
  unfold ringSum
  rw [Cert.Spec.sum_ring (fun s => part m l a s R n) c (pr c 1) (pr c 2) (pr c 3) rfl rfl rfl, ← Cert.Spec.layer_blocks]
  refine Finset.sum_congr rfl fun s _ => ?_
  unfold part
  refine Finset.sum_congr rfl fun k _ => ?_
  rw [h2, block_rows_apply]
  congr 2
  exact Finset.sum_congr rfl fun j _ => by rw [h1, block_cols_apply]

variable (m' : (ℓ : Loc Cert.ReferenceIdeal.nD Cert.ReferenceIdeal.τ Cert.ReferenceIdeal.sig) → Buf (Elt Ideal) ℓ)

private abbrev rd (a : Ref Cert.ReferenceIdeal.sig .tc) := m' (((0 : Dev Cert.ReferenceIdeal.nD).tc : Thread Cert.ReferenceIdeal.nD Cert.ReferenceIdeal.τ).loc a)
abbrev R0 : FVec Ideal Cert.ReferenceIdeal.S256x1024 .f32 := rd m' Cert.ReferenceIdeal.main_arg0
abbrev R1 : FVec Ideal Cert.ReferenceIdeal.S1024x8192 .f32 := rd m' Cert.ReferenceIdeal.main_arg1
abbrev R2 : FVec Ideal Cert.ReferenceIdeal.S8192x1024 .f32 := rd m' Cert.ReferenceIdeal.main_arg2
abbrev R3 : FVec Ideal Cert.ReferenceIdeal.S1024x8192 .f32 := rd m' Cert.ReferenceIdeal.main_arg3
abbrev R4 : FVec Ideal Cert.ReferenceIdeal.S8192x1024 .f32 := rd m' Cert.ReferenceIdeal.main_arg4
abbrev R5 : FVec Ideal Cert.ReferenceIdeal.S1024x8192 .f32 := rd m' Cert.ReferenceIdeal.main_arg5
abbrev R6 : FVec Ideal Cert.ReferenceIdeal.S8192x1024 .f32 := rd m' Cert.ReferenceIdeal.main_arg6

section Agree
variable (hagree : ∀ c : Dev nD, X m c = Layout.block ⟨2, ![64, 1024]⟩ ⟨2, ![256, 1024]⟩ 0 4 c (R0 m')
      ∧ W1 m 0 c = Layout.block ⟨2, ![1024, 2048]⟩ ⟨2, ![1024, 8192]⟩ 1 4 c (R1 m') ∧ W2 m 0 c = Layout.block ⟨2, ![2048, 1024]⟩ ⟨2, ![8192, 1024]⟩ 0 4 c (R2 m')
      ∧ W1 m 1 c = Layout.block ⟨2, ![1024, 2048]⟩ ⟨2, ![1024, 8192]⟩ 1 4 c (R3 m') ∧ W2 m 1 c = Layout.block ⟨2, ![2048, 1024]⟩ ⟨2, ![8192, 1024]⟩ 0 4 c (R4 m')
      ∧ W1 m 2 c = Layout.block ⟨2, ![1024, 2048]⟩ ⟨2, ![1024, 8192]⟩ 1 4 c (R5 m') ∧ W2 m 2 c = Layout.block ⟨2, ![2048, 1024]⟩ ⟨2, ![8192, 1024]⟩ 0 4 c (R6 m'))
include hagree

theorem a0_eq : (fun R j => act0 m (ix3 (0 : Fin 1) R j)) = fun R j => R0 m' (ix2 R j) :=
  funext fun R => funext fun j => by rw [act0_apply, (hagree _).1, block_rows64_apply, row64_rowDev_rowIn]

theorem a1_eq : (fun R j => act1 m (ix3 (0 : Fin 1) R j))
    = Cert.Spec.layer (fun R j => R0 m' (ix2 R j)) (fun j k => R1 m' (ix2 j k)) (fun k n => R2 m' (ix2 k n)) :=
  funext fun R => funext fun n => by
    rw [act1_apply, row64_rowDev_rowIn]
    simp only [ps0_apply]
    rw [ring_parts m 0 _ (R1 m') (R2 m') (fun s => (hagree s).2.1) (fun s => (hagree s).2.2.1), a0_eq m m' hagree]

theorem a2_eq : (fun R j => act2 m (ix3 (0 : Fin 1) R j))
    = Cert.Spec.layer
        (Cert.Spec.layer (fun R j => R0 m' (ix2 R j)) (fun j k => R1 m' (ix2 j k)) (fun k n => R2 m' (ix2 k n)))
        (fun j k => R3 m' (ix2 j k)) (fun k n => R4 m' (ix2 k n)) :=
  funext fun R => funext fun n => by
    rw [act2_apply, row64_rowDev_rowIn]
    simp only [ps1_apply]
    rw [ring_parts m 1 _ (R3 m') (R4 m') (fun s => (hagree s).2.2.2.1) (fun s => (hagree s).2.2.2.2.1), a1_eq m m' hagree]

theorem outAll_eq_run :
    outAll (F := Ideal) m
      = Cert.ReferenceIdeal.Read.val_main_v11 (F := Ideal) (R0 m') (R1 m') (R2 m') (R3 m') (R4 m') (R5 m') (R6 m') := by
  funext i
  obtain ⟨R, n, rfl⟩ : ∃ R n, i = ix2 R n := ⟨i 0, i 1, eq_ix2 i⟩
  rw [outAll_apply, row64_rowDev_rowIn]
  simp only [ps2_apply]
  rw [ring_parts m 2 _ (R5 m') (R6 m') (fun s => (hagree s).2.2.2.2.2.1) (fun s => (hagree s).2.2.2.2.2.2), a2_eq m m' hagree,
    Cert.ReferenceIdeal.Layers.val_main_v11_layers]

end Agree

end Cert.KernelIdeal.Dist

end
-- ==== Proof.lean ====
import proofs.«900988_g7700000000000989_dist_mlpseq_tp1d_bs_rep_b64_d1024_h2048_v7x_i4_f32_1_alg».proof.Defs
import proofs.«900988_g7700000000000989_dist_mlpseq_tp1d_bs_rep_b64_d1024_h2048_v7x_i4_f32_1_alg».proof.Proof.Gen.Kernel
import proofs.«900988_g7700000000000989_dist_mlpseq_tp1d_bs_rep_b64_d1024_h2048_v7x_i4_f32_1_alg».proof.Proof.Gen.KernelIdeal
import proofs.«900988_g7700000000000989_dist_mlpseq_tp1d_bs_rep_b64_d1024_h2048_v7x_i4_f32_1_alg».proof.Proof.Gen.ReferenceIdeal
import proofs.«900988_g7700000000000989_dist_mlpseq_tp1d_bs_rep_b64_d1024_h2048_v7x_i4_f32_1_alg».proof.Proof.Gen.Pre_finite_inputs_Kernel
import proofs.«900988_g7700000000000989_dist_mlpseq_tp1d_bs_rep_b64_d1024_h2048_v7x_i4_f32_1_alg».proof.Proof.Gen.Pre_finite_inputs_ReferenceIdeal
import proofs.«900988_g7700000000000989_dist_mlpseq_tp1d_bs_rep_b64_d1024_h2048_v7x_i4_f32_1_alg».proof.Proof.DLaunch
import proofs.«900988_g7700000000000989_dist_mlpseq_tp1d_bs_rep_b64_d1024_h2048_v7x_i4_f32_1_alg».proof.Proof.DBody
import proofs.«900988_g7700000000000989_dist_mlpseq_tp1d_bs_rep_b64_d1024_h2048_v7x_i4_f32_1_alg».proof.Proof.BLaunch
import proofs.«900988_g7700000000000989_dist_mlpseq_tp1d_bs_rep_b64_d1024_h2048_v7x_i4_f32_1_alg».proof.Proof.BBody
import proofs.«900988_g7700000000000989_dist_mlpseq_tp1d_bs_rep_b64_d1024_h2048_v7x_i4_f32_1_alg».proof.Proof.VJoin
import Idealize.ShloMosaic.Adequacy
import Idealize.ShloMosaic.Init

noncomputable section

namespace Cert.Proof

open Idealize.ShloMosaic Idealize.SL.Sem

/-- Each kernel frame is the launched run with the named results forgotten. -/
theorem frame_K : @Cert.frame_Kernel Cert.Kernel.Gen.facts Cert.Pre_finite_inputs_Kernel.Gen.facts :=
  fun m ρ _ => (θ_run Cert.Kernel.defs _ _).mono (fun _ h c => (h c).2)
    (Cert.Kernel.Dist.run_main (F := Bits) m ρ (Cert.Kernel.Dist.body_obligation (F := Bits) m ρ))

theorem frame_KI : @Cert.frame_KernelIdeal Cert.KernelIdeal.Gen.facts Cert.Pre_finite_inputs_Kernel.Gen.facts :=
  fun m ρ _ => (θ_run Cert.KernelIdeal.defs _ _).mono (fun _ h c => (h c).2)
    (Cert.KernelIdeal.Dist.run_main (F := Ideal) m ρ (Cert.KernelIdeal.Dist.body_obligation (F := Ideal) m ρ))

theorem frame_RI : @Cert.frame_ReferenceIdeal Cert.ReferenceIdeal.Gen.facts Cert.Pre_finite_inputs_ReferenceIdeal.Gen.facts :=
  fun m ρ _ => (θ_run Cert.ReferenceIdeal.defs _ _).mono (fun _ h c => (h c).2) (Cert.ReferenceIdeal.Value.run (F := Ideal) m ρ)

/-- Both runs end at one whole-array function of the arguments: the four devices' partial products, summed in any
    order over the extended reals, are the reference's sum over the whole hidden dimension. -/
theorem algebraic : @Cert.algebraic_KernelIdeal_ReferenceIdeal Cert.KernelIdeal.Gen.facts Cert.ReferenceIdeal.Gen.facts Cert.Pre_finite_inputs_Kernel.Gen.facts := by
  intro m ρ m' ρ' _ hagree
  refine ⟨Cert.KernelIdeal.Dist.outAll (F := Ideal) m, ?_, ?_⟩
  · exact (θ_run Cert.KernelIdeal.defs _ _).mono (fun _ h c => h c)
      (Cert.KernelIdeal.Dist.run_main (F := Ideal) m ρ (Cert.KernelIdeal.Dist.body_obligation (F := Ideal) m ρ))
  · exact (θ_run Cert.ReferenceIdeal.defs _ _).mono
      (fun _ h => ⟨(h 0).1.trans (Cert.KernelIdeal.Dist.outAll_eq_run m m' hagree).symm, (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_K, frame_KI, frame_RI, trivial, algebraic⟩

end Cert.Proof

end
